-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v221)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v221) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x9 : Shape := ⟨2, ![50000, 9]⟩
abbrev S2x800000 : Shape := ⟨2, ![2, 800000]⟩
abbrev S50000 : Shape := ⟨1, ![50000]⟩
abbrev S4608x128 : Shape := ⟨2, ![4608, 128]⟩
abbrev S4x128x128 : Shape := ⟨3, ![4, 128, 128]⟩
abbrev S4x128 : Shape := ⟨2, ![4, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S9 : Shape := ⟨1, ![9]⟩
abbrev S1x9 : Shape := ⟨2, ![1, 9]⟩

class Facts : Prop where
  bcast_S_S4608x128 : S_.BroadcastsInDim S4608x128 (![] : Fin 0 → Fin S4608x128.rank)
  reducesTo_S4608x128_S_d0_1 : S4608x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S9 : S_.BroadcastsInDim S9 (![] : Fin 0 → Fin S9.rank)
  bcast_S9_S1x9_1 : S9.BroadcastsInDim S1x9 (![1] : Fin 1 → Fin S1x9.rank)
  bcast_S1x9_S50000x9_0_1 : S1x9.BroadcastsInDim S50000x9 (![0, 1] : Fin 2 → Fin S50000x9.rank)
  bcast_S_S1x9 : S_.BroadcastsInDim S1x9 (![] : Fin 0 → Fin S1x9.rank)
  reducesTo_S50000x9_S_d0_1 : S50000x9.ReducesTo [0, 1] S_

variable [Facts]

def fn_part4 {F : FTy → Type} [FloatOps F] (main_v53 : IVec S_ 1) (main_v69 : IVec S_ 1) : IVec S_ 1 :=
  let main_v70 : IVec S_ 1 := andi main_v53 main_v69
  main_v70

def fn_part3 {F : FTy → Type} [FloatOps F] (main_arg0 : IVec S50000x9 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : IVec S9 32 := iotaInDim S9 32 0
  let main_c_20 : IVec S_ 32 := constantI S_ 32 512#32
  let main_v55 : IVec S9 32 := broadcastInDim S9 ![] bcast_S_S9 main_c_20
  let main_v56 : IVec S9 32 := muli main_v54 main_v55
  let main_c_21 : IVec S_ 32 := constantI S_ 32 1#32
  let main_v57 : IVec S9 32 := broadcastInDim S9 ![] bcast_S_S9 main_c_21
  let main_v58 : IVec S9 32 := addi main_v57 main_v56
  let main_v59 : IVec S1x9 32 := broadcastInDim S1x9 ![1] bcast_S9_S1x9_1 main_v58
  let main_v60 : IVec S1x9 32 := negi main_v59
  let main_v61 : IVec S50000x9 32 := broadcastInDim S50000x9 ![0, 1] bcast_S1x9_S50000x9_0_1 main_v60
  let main_v62 : IVec S50000x9 1 := cmpi .sge main_arg0 main_v61
  let main_v63 : IVec S1x9 32 := broadcastInDim S1x9 ![1] bcast_S9_S1x9_1 main_v58
  let main_c_22 : IVec S_ 32 := constantI S_ 32 4607#32
  let main_v64 : IVec S1x9 32 := broadcastInDim S1x9 ![] bcast_S_S1x9 main_c_22
  let main_v65 : IVec S1x9 32 := subi main_v64 main_v63
  let main_v66 : IVec S50000x9 32 := broadcastInDim S50000x9 ![0, 1] bcast_S1x9_S50000x9_0_1 main_v65
  let main_v67 : IVec S50000x9 1 := cmpi .sle main_arg0 main_v66
  let main_v68 : IVec S50000x9 1 := andi main_v62 main_v67
  let main_c_23 : IVec S_ 1 := constantI S_ 1 1#1
  let main_v69 : IVec S_ 1 := (fun x v => Host.reduce IntOp.andi x v reducesTo_S50000x9_S_d0_1 h_S_) main_v68 main_c_23
  fn_part4 (F := F) main_v53 main_v69

def fn_part2 {F : FTy → Type} [FloatOps F] (main_arg0 : IVec S50000x9 32) (main_arg10 : FVec F S128x128 .f32) (main_arg11 : FVec F S128 .f32) (main_arg12 : FVec F S128x1 .f32) (main_arg13 : FVec F S1 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg12
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_arg0 main_v48 main_v49 main_v50

def fn_part1 {F : FTy → Type} [FloatOps F] (main_arg0 : IVec S50000x9 32) (main_arg7 : FVec F S4x128 .f32) (main_arg8 : FVec F S128 .f32) (main_arg9 : FVec F S128 .f32) (main_arg10 : FVec F S128x128 .f32) (main_arg11 : FVec F S128 .f32) (main_arg12 : FVec F S128x1 .f32) (main_arg13 : FVec F S1 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg7
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg10 main_arg11 main_arg12 main_arg13 main_v33

def fn {F : FTy → Type} [FloatOps F] (main_arg0 : IVec S50000x9 32) (main_arg1 : IVec S2x800000 32) (main_arg2 : IVec S50000 32) (main_arg3 : FVec F S4608x128 .f32) (main_arg4 : FVec F S4x128x128 .f32) (main_arg5 : FVec F S4x128 .f32) (main_arg6 : FVec F S4x128 .f32) (main_arg7 : FVec F S4x128 .f32) (main_arg8 : FVec F S128 .f32) (main_arg9 : FVec F S128 .f32) (main_arg10 : FVec F S128x128 .f32) (main_arg11 : FVec F S128 .f32) (main_arg12 : FVec F S128x1 .f32) (main_arg13 : FVec F S1 .f32) : IVec S_ 1 :=
  let main_v0 : FVec F S4608x128 .f32 := Host.absf main_arg3
  let main_cst : FVec F S_ .f32 := constant S_ .f32 0x7F800000#32
  let main_v1 : FVec F S4608x128 .f32 := broadcastInDim S4608x128 ![] bcast_S_S4608x128 main_cst
  let main_v2 : IVec S4608x128 1 := cmpf .olt main_v0 main_v1
  let main_c : IVec S_ 1 := constantI S_ 1 1#1
  let main_v3 : IVec S_ 1 := (fun x v => Host.reduce IntOp.andi x v reducesTo_S4608x128_S_d0_1 h_S_) main_v2 main_c
  let main_v4 : FVec F S4x128x128 .f32 := Host.absf main_arg4
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg5
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg6
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg0 main_arg7 main_arg8 main_arg9 main_arg10 main_arg11 main_arg12 main_arg13 main_v13 main_v16
-- ==== Kernel.lean ====
abbrev S50000x9 : Shape := ⟨2, ![50000, 9]⟩
abbrev S2x800000 : Shape := ⟨2, ![2, 800000]⟩
abbrev S50000 : Shape := ⟨1, ![50000]⟩
abbrev S4608x128 : Shape := ⟨2, ![4608, 128]⟩
abbrev S4x128x128 : Shape := ⟨3, ![4, 128, 128]⟩
abbrev S4x128 : Shape := ⟨2, ![4, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S9 : Shape := ⟨1, ![9]⟩
abbrev S_ : Shape := ⟨0, ![]⟩
abbrev S1x9 : Shape := ⟨2, ![1, 9]⟩
abbrev S50000x128 : Shape := ⟨2, ![50000, 128]⟩
abbrev S400x9 : Shape := ⟨2, ![400, 9]⟩
abbrev S400x128 : Shape := ⟨2, ![400, 128]⟩
abbrev S1x4608 : Shape := ⟨2, ![1, 4608]⟩
abbrev S400x1 : Shape := ⟨2, ![400, 1]⟩
abbrev S400x4608 : Shape := ⟨2, ![400, 4608]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S1x128x128 : Shape := ⟨3, ![1, 128, 128]⟩
abbrev S5000x128 : Shape := ⟨2, ![5000, 128]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S1x1 : Shape := ⟨2, ![1, 1]⟩

abbrev nBuf : Space → Nat
  | .hbm => 281
  | .vmem => 81
  | .smem => 0
  | _ => 0

abbrev hbmTy0_0 (i : Nat) : BufTy := match i % 128 with
  | 0 => ⟨S50000x9, .i32⟩
  | 1 => ⟨S2x800000, .i32⟩
  | 2 => ⟨S50000, .i32⟩
  | 3 => ⟨S4608x128, .f32⟩
  | 4 => ⟨S4x128x128, .f32⟩
  | 5 => ⟨S4x128, .f32⟩
  | 6 => ⟨S4x128, .f32⟩
  | 7 => ⟨S4x128, .f32⟩
  | 8 => ⟨S128, .f32⟩
  | 9 => ⟨S128, .f32⟩
  | 10 => ⟨S128x128, .f32⟩
  | 11 => ⟨S128, .f32⟩
  | 12 => ⟨S128x1, .f32⟩
  | 13 => ⟨S1, .f32⟩
  | 14 => ⟨S9, .i32⟩
  | 15 => ⟨S_, .i32⟩
  | 16 => ⟨S9, .i32⟩
  | 17 => ⟨S9, .i32⟩
  | 18 => ⟨S_, .i32⟩
  | 19 => ⟨S9, .i32⟩
  | 20 => ⟨S9, .i32⟩
  | 21 => ⟨S1x9, .i32⟩
  | 22 => ⟨S50000x9, .i32⟩
  | 23 => ⟨S50000x9, .i32⟩
  | 24 => ⟨S50000x128, .f32⟩
  | 25 => ⟨S50000, .i32⟩
  | 26 => ⟨S1x800000, .i32⟩
  | 27 => ⟨S800000, .i32⟩
  | 28 => ⟨S850000, .i32⟩
  | 29 => ⟨S1x800000, .i32⟩
  | 30 => ⟨S800000, .i32⟩
  | 31 => ⟨S850000, .i32⟩
  | 32 => ⟨S_, .f32⟩
  | 33 => ⟨S850000, .f32⟩
  | 34 => ⟨S_, .f32⟩
  | 35 => ⟨S50000, .f32⟩
  | 36 => ⟨S850000x1, .i32⟩
  | 37 => ⟨S50000, .f32⟩
  | 38 => ⟨S_, .f32⟩
  | 39 => ⟨S50000, .f32⟩
  | 40 => ⟨S50000, .i1⟩
  | 41 => ⟨S_, .f32⟩
  | 42 => ⟨S50000, .f32⟩
  | 43 => ⟨S50000, .f32⟩
  | 44 => ⟨S50000, .f32⟩
  | 45 => ⟨S_, .f32⟩
  | 46 => ⟨S_, .f32⟩
  | 47 => ⟨S50000, .f32⟩
  | 48 => ⟨S50000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000, .f32⟩
  | 67 => ⟨S850000, .f32⟩
  | 68 => ⟨S1x128x128, .f32⟩
  | 69 => ⟨S128x128, .f32⟩
  | 70 => ⟨S50000x128, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000x128, .f32⟩
  | 80 => ⟨S850000x1, .f32⟩
  | 81 => ⟨S850000x128, .f32⟩
  | 82 => ⟨S850000x128, .f32⟩
  | 83 => ⟨S_, .f32⟩
  | 84 => ⟨S50000x128, .f32⟩
  | 85 => ⟨S850000x1, .i32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S1x128, .f32⟩
  | 93 => ⟨S1x128, .f32⟩
  | 94 => ⟨S_, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S1x128, .f32⟩
  | 101 => ⟨S1x128, .f32⟩
  | 102 => ⟨S1x128, .f32⟩
  | 103 => ⟨S128, .f32⟩
  | 104 => ⟨S1x128, .f32⟩
  | 105 => ⟨S_, .f32⟩
  | 106 => ⟨S1x128, .f32⟩
  | 107 => ⟨S1x128, .f32⟩
  | 108 => ⟨S1x128, .f32⟩
  | 109 => ⟨S1x128, .f32⟩
  | 110 => ⟨S1x128, .f32⟩
  | 111 => ⟨S128, .f32⟩
  | 112 => ⟨S1x128, .f32⟩
  | 113 => ⟨S1x128, .f32⟩
  | 114 => ⟨S1x128, .f32⟩
  | 115 => ⟨S50000x128, .f32⟩
  | 116 => ⟨S1x128x128, .f32⟩
  | 117 => ⟨S128x128, .f32⟩
  | 118 => ⟨S50000x128, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x128, .f32⟩
  | _ => ⟨S50000x9, .i32⟩

abbrev hbmTy0_1 (i : Nat) : BufTy := match i % 128 with
  | 0 => ⟨S850000x1, .f32⟩
  | 1 => ⟨S850000x128, .f32⟩
  | 2 => ⟨S850000x128, .f32⟩
  | 3 => ⟨S_, .f32⟩
  | 4 => ⟨S50000x128, .f32⟩
  | 5 => ⟨S850000x1, .i32⟩
  | 6 => ⟨S50000x128, .f32⟩
  | 7 => ⟨S1x128, .f32⟩
  | 8 => ⟨S128, .f32⟩
  | 9 => ⟨S1x128, .f32⟩
  | 10 => ⟨S50000x128, .f32⟩
  | 11 => ⟨S50000x128, .f32⟩
  | 12 => ⟨S1x128, .f32⟩
  | 13 => ⟨S1x128, .f32⟩
  | 14 => ⟨S_, .f32⟩
  | 15 => ⟨S1x128, .f32⟩
  | 16 => ⟨S1x128, .f32⟩
  | 17 => ⟨S_, .f32⟩
  | 18 => ⟨S1x128, .f32⟩
  | 19 => ⟨S1x128, .f32⟩
  | 20 => ⟨S1x128, .f32⟩
  | 21 => ⟨S1x128, .f32⟩
  | 22 => ⟨S1x128, .f32⟩
  | 23 => ⟨S128, .f32⟩
  | 24 => ⟨S1x128, .f32⟩
  | 25 => ⟨S_, .f32⟩
  | 26 => ⟨S1x128, .f32⟩
  | 27 => ⟨S1x128, .f32⟩
  | 28 => ⟨S1x128, .f32⟩
  | 29 => ⟨S1x128, .f32⟩
  | 30 => ⟨S1x128, .f32⟩
  | 31 => ⟨S128, .f32⟩
  | 32 => ⟨S1x128, .f32⟩
  | 33 => ⟨S1x128, .f32⟩
  | 34 => ⟨S1x128, .f32⟩
  | 35 => ⟨S50000x128, .f32⟩
  | 36 => ⟨S1x128x128, .f32⟩
  | 37 => ⟨S128x128, .f32⟩
  | 38 => ⟨S50000x128, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000x128, .f32⟩
  | 48 => ⟨S850000x1, .f32⟩
  | 49 => ⟨S850000x128, .f32⟩
  | 50 => ⟨S850000x128, .f32⟩
  | 51 => ⟨S_, .f32⟩
  | 52 => ⟨S50000x128, .f32⟩
  | 53 => ⟨S850000x1, .i32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S1x128, .f32⟩
  | 61 => ⟨S1x128, .f32⟩
  | 62 => ⟨S_, .f32⟩
  | 63 => ⟨S1x128, .f32⟩
  | 64 => ⟨S1x128, .f32⟩
  | 65 => ⟨S_, .f32⟩
  | 66 => ⟨S1x128, .f32⟩
  | 67 => ⟨S1x128, .f32⟩
  | 68 => ⟨S1x128, .f32⟩
  | 69 => ⟨S1x128, .f32⟩
  | 70 => ⟨S1x128, .f32⟩
  | 71 => ⟨S128, .f32⟩
  | 72 => ⟨S1x128, .f32⟩
  | 73 => ⟨S_, .f32⟩
  | 74 => ⟨S1x128, .f32⟩
  | 75 => ⟨S1x128, .f32⟩
  | 76 => ⟨S1x128, .f32⟩
  | 77 => ⟨S1x128, .f32⟩
  | 78 => ⟨S1x128, .f32⟩
  | 79 => ⟨S128, .f32⟩
  | 80 => ⟨S1x128, .f32⟩
  | 81 => ⟨S1x128, .f32⟩
  | 82 => ⟨S1x128, .f32⟩
  | 83 => ⟨S50000x128, .f32⟩
  | 84 => ⟨S1x128x128, .f32⟩
  | 85 => ⟨S128x128, .f32⟩
  | 86 => ⟨S50000x128, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x128, .f32⟩
  | 96 => ⟨S850000x1, .f32⟩
  | 97 => ⟨S850000x128, .f32⟩
  | 98 => ⟨S850000x128, .f32⟩
  | 99 => ⟨S_, .f32⟩
  | 100 => ⟨S50000x128, .f32⟩
  | 101 => ⟨S850000x1, .i32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S1x128, .f32⟩
  | 125 => ⟨S1x128, .f32⟩
  | 126 => ⟨S1x128, .f32⟩
  | 127 => ⟨S128, .f32⟩
  | _ => ⟨S50000x9, .i32⟩

abbrev hbmTy0_2 (i : Nat) : BufTy := match i % 128 with
  | 0 => ⟨S1x128, .f32⟩
  | 1 => ⟨S1x128, .f32⟩
  | 2 => ⟨S1x128, .f32⟩
  | 3 => ⟨S50000x128, .f32⟩
  | 4 => ⟨S_, .f32⟩
  | 5 => ⟨S512x128, .f32⟩
  | 6 => ⟨S50000x1, .i32⟩
  | 7 => ⟨S512x128, .f32⟩
  | 8 => ⟨S_, .f32⟩
  | 9 => ⟨S50000, .f32⟩
  | 10 => ⟨S_, .f32⟩
  | 11 => ⟨S512, .f32⟩
  | 12 => ⟨S50000x1, .i32⟩
  | 13 => ⟨S512, .f32⟩
  | 14 => ⟨S_, .f32⟩
  | 15 => ⟨S512, .f32⟩
  | 16 => ⟨S512, .f32⟩
  | 17 => ⟨S512x1, .f32⟩
  | 18 => ⟨S512x128, .f32⟩
  | 19 => ⟨S512x128, .f32⟩
  | 20 => ⟨S1x128, .f32⟩
  | 21 => ⟨S1x128, .f32⟩
  | 22 => ⟨S1x128, .f32⟩
  | 23 => ⟨S1x1, .f32⟩
  | 24 => ⟨S512x1, .f32⟩
  | _ => ⟨S50000x9, .i32⟩

abbrev hbmTy (i : Nat) : BufTy := match i / 128 with
  | 0 => hbmTy0_0 i
  | 1 => hbmTy0_1 i
  | 2 => hbmTy0_2 i
  | _ => ⟨S50000x9, .i32⟩

abbrev bufTy : (tb : Table) → Fin (tcTables nBuf tb) → BufTy
  | .hbm, ⟨i, _⟩ => hbmTy i
  | .local _ .vmem, ⟨0, _⟩ => ⟨S400x9, .i32⟩
  | .local _ .vmem, ⟨1, _⟩ => ⟨S400x9, .i32⟩
  | .local _ .vmem, ⟨2, _⟩ => ⟨S4608x128, .f32⟩
  | .local _ .vmem, ⟨3, _⟩ => ⟨S400x128, .f32⟩
  | .local _ .vmem, ⟨4, _⟩ => ⟨S400x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S128x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S1x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S5000x128, .f32⟩
  | .local _ .vmem, ⟨68, _⟩ => ⟨S5000x128, .f32⟩
  | .local _ .vmem, ⟨69, _⟩ => ⟨S1x128, .f32⟩
  | .local _ .vmem, ⟨70, _⟩ => ⟨S1x128, .f32⟩
  | .local _ .vmem, ⟨71, _⟩ => ⟨S5000x128, .f32⟩
  | .local _ .vmem, ⟨72, _⟩ => ⟨S5000x128, .f32⟩
  | .local _ .vmem, ⟨73, _⟩ => ⟨S512x128, .f32⟩
  | .local _ .vmem, ⟨74, _⟩ => ⟨S1x128, .f32⟩
  | .local _ .vmem, ⟨75, _⟩ => ⟨S1x128, .f32⟩
  | .local _ .vmem, ⟨76, _⟩ => ⟨S128x128, .f32⟩
  | .local _ .vmem, ⟨77, _⟩ => ⟨S1x128, .f32⟩
  | .local _ .vmem, ⟨78, _⟩ => ⟨S128x1, .f32⟩
  | .local _ .vmem, ⟨79, _⟩ => ⟨S1x1, .f32⟩
  | .local _ .vmem, ⟨80, _⟩ => ⟨S512x1, .f32⟩
  | _, _ => ⟨S50000x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_call0_v0 : Ref sig .tc := ⟨.hbm, 46, rfl⟩
abbrev main_call0_v1 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_9 : Ref sig .tc := ⟨.hbm, 71, rfl⟩
abbrev main_v44 : Ref sig .tc := ⟨.hbm, 72, rfl⟩
abbrev main_v45 : Ref sig .tc := ⟨.hbm, 73, rfl⟩
abbrev main_c_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62_0 : Ref sig .tc := ⟨.hbm, 92, rfl⟩
abbrev main_v62_1 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_14 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_15 : Ref sig .tc := ⟨.hbm, 119, rfl⟩
abbrev main_v85 : Ref sig .tc := ⟨.hbm, 120, rfl⟩
abbrev main_v86 : Ref sig .tc := ⟨.hbm, 121, rfl⟩
abbrev main_c_16 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_17 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103_0 : Ref sig .tc := ⟨.hbm, 140, rfl⟩
abbrev main_v103_1 : Ref sig .tc := ⟨.hbm, 141, rfl⟩
abbrev main_cst_18 : Ref sig .tc := ⟨.hbm, 142, rfl⟩
abbrev main_v104 : Ref sig .tc := ⟨.hbm, 143, rfl⟩
abbrev main_v105 : Ref sig .tc := ⟨.hbm, 144, rfl⟩
abbrev main_cst_19 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_20 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_c_21 : Ref sig .tc := ⟨.hbm, 167, rfl⟩
abbrev main_v126 : Ref sig .tc := ⟨.hbm, 168, rfl⟩
abbrev main_v127 : Ref sig .tc := ⟨.hbm, 169, rfl⟩
abbrev main_c_22 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_23 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144_0 : Ref sig .tc := ⟨.hbm, 188, rfl⟩
abbrev main_v144_1 : Ref sig .tc := ⟨.hbm, 189, rfl⟩
abbrev main_cst_24 : Ref sig .tc := ⟨.hbm, 190, rfl⟩
abbrev main_v145 : Ref sig .tc := ⟨.hbm, 191, rfl⟩
abbrev main_v146 : Ref sig .tc := ⟨.hbm, 192, rfl⟩
abbrev main_cst_25 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_cst_26 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_c_27 : Ref sig .tc := ⟨.hbm, 215, rfl⟩
abbrev main_v167 : Ref sig .tc := ⟨.hbm, 216, rfl⟩
abbrev main_v168 : Ref sig .tc := ⟨.hbm, 217, rfl⟩
abbrev main_c_28 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_cst_29 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185_0 : Ref sig .tc := ⟨.hbm, 236, rfl⟩
abbrev main_v185_1 : Ref sig .tc := ⟨.hbm, 237, rfl⟩
abbrev main_cst_30 : Ref sig .tc := ⟨.hbm, 238, rfl⟩
abbrev main_v186 : Ref sig .tc := ⟨.hbm, 239, rfl⟩
abbrev main_v187 : Ref sig .tc := ⟨.hbm, 240, rfl⟩
abbrev main_cst_31 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_cst_32 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_cst_33 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_cst_34 : Ref sig .tc := ⟨.hbm, 264, rfl⟩
abbrev main_v208 : Ref sig .tc := ⟨.hbm, 265, rfl⟩
abbrev main_cst_35 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_cst_36 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_scratch0 : Ref sig .tc := ⟨.vmem, 14, rfl⟩
abbrev cc2_scratch1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_scratch0 : Ref sig .tc := ⟨.vmem, 31, rfl⟩
abbrev cc5_scratch1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg3_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_scratch0 : Ref sig .tc := ⟨.vmem, 48, rfl⟩
abbrev cc8_scratch1 : Ref sig .tc := ⟨.vmem, 49, rfl⟩
abbrev cc9_stg0_0 : Ref sig .tc := ⟨.vmem, 50, rfl⟩
abbrev cc9_stg0_1 : Ref sig .tc := ⟨.vmem, 51, rfl⟩
abbrev cc9_stg1_0 : Ref sig .tc := ⟨.vmem, 52, rfl⟩
abbrev cc9_stg2_0 : Ref sig .tc := ⟨.vmem, 53, rfl⟩
abbrev cc9_stg3_0 : Ref sig .tc := ⟨.vmem, 54, rfl⟩
abbrev cc9_stg3_1 : Ref sig .tc := ⟨.vmem, 55, rfl⟩
abbrev cc10_stg0_0 : Ref sig .tc := ⟨.vmem, 56, rfl⟩
abbrev cc10_stg0_1 : Ref sig .tc := ⟨.vmem, 57, rfl⟩
abbrev cc10_stg1_0 : Ref sig .tc := ⟨.vmem, 58, rfl⟩
abbrev cc10_stg2_0 : Ref sig .tc := ⟨.vmem, 59, rfl⟩
abbrev cc10_stg2_1 : Ref sig .tc := ⟨.vmem, 60, rfl⟩
abbrev cc11_stg0_0 : Ref sig .tc := ⟨.vmem, 61, rfl⟩
abbrev cc11_stg0_1 : Ref sig .tc := ⟨.vmem, 62, rfl⟩
abbrev cc11_stg1_0 : Ref sig .tc := ⟨.vmem, 63, rfl⟩
abbrev cc11_stg2_0 : Ref sig .tc := ⟨.vmem, 64, rfl⟩
abbrev cc11_scratch0 : Ref sig .tc := ⟨.vmem, 65, rfl⟩
abbrev cc11_scratch1 : Ref sig .tc := ⟨.vmem, 66, rfl⟩
abbrev cc12_stg0_0 : Ref sig .tc := ⟨.vmem, 67, rfl⟩
abbrev cc12_stg0_1 : Ref sig .tc := ⟨.vmem, 68, rfl⟩
abbrev cc12_stg1_0 : Ref sig .tc := ⟨.vmem, 69, rfl⟩
abbrev cc12_stg2_0 : Ref sig .tc := ⟨.vmem, 70, rfl⟩
abbrev cc12_stg3_0 : Ref sig .tc := ⟨.vmem, 71, rfl⟩
abbrev cc12_stg3_1 : Ref sig .tc := ⟨.vmem, 72, rfl⟩
abbrev cc13_stg0_0 : Ref sig .tc := ⟨.vmem, 73, rfl⟩
abbrev cc13_stg1_0 : Ref sig .tc := ⟨.vmem, 74, rfl⟩
abbrev cc13_stg2_0 : Ref sig .tc := ⟨.vmem, 75, rfl⟩
abbrev cc13_stg3_0 : Ref sig .tc := ⟨.vmem, 76, rfl⟩
abbrev cc13_stg4_0 : Ref sig .tc := ⟨.vmem, 77, rfl⟩
abbrev cc13_stg5_0 : Ref sig .tc := ⟨.vmem, 78, rfl⟩
abbrev cc13_stg6_0 : Ref sig .tc := ⟨.vmem, 79, rfl⟩
abbrev cc13_stg7_0 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem3_0 : DmaSem sig := 18
abbrev cc3_sem3_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc6_sem0_0 : DmaSem sig := 29
abbrev cc6_sem0_1 : DmaSem sig := 30
abbrev cc6_sem1_0 : DmaSem sig := 31
abbrev cc6_sem2_0 : DmaSem sig := 32
abbrev cc6_sem3_0 : DmaSem sig := 33
abbrev cc6_sem3_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc9_sem0_0 : DmaSem sig := 44
abbrev cc9_sem0_1 : DmaSem sig := 45
abbrev cc9_sem1_0 : DmaSem sig := 46
abbrev cc9_sem2_0 : DmaSem sig := 47
abbrev cc9_sem3_0 : DmaSem sig := 48
abbrev cc9_sem3_1 : DmaSem sig := 49
abbrev cc10_sem0_0 : DmaSem sig := 50
abbrev cc10_sem0_1 : DmaSem sig := 51
abbrev cc10_sem1_0 : DmaSem sig := 52
abbrev cc10_sem2_0 : DmaSem sig := 53
abbrev cc10_sem2_1 : DmaSem sig := 54
abbrev cc11_sem0_0 : DmaSem sig := 55
abbrev cc11_sem0_1 : DmaSem sig := 56
abbrev cc11_sem1_0 : DmaSem sig := 57
abbrev cc11_sem2_0 : DmaSem sig := 58
abbrev cc12_sem0_0 : DmaSem sig := 59
abbrev cc12_sem0_1 : DmaSem sig := 60
abbrev cc12_sem1_0 : DmaSem sig := 61
abbrev cc12_sem2_0 : DmaSem sig := 62
abbrev cc12_sem3_0 : DmaSem sig := 63
abbrev cc12_sem3_1 : DmaSem sig := 64
abbrev cc13_sem0_0 : DmaSem sig := 65
abbrev cc13_sem1_0 : DmaSem sig := 66
abbrev cc13_sem2_0 : DmaSem sig := 67
abbrev cc13_sem3_0 : DmaSem sig := 68
abbrev cc13_sem4_0 : DmaSem sig := 69
abbrev cc13_sem5_0 : DmaSem sig := 70
abbrev cc13_sem6_0 : DmaSem sig := 71
abbrev cc13_sem7_0 : DmaSem sig := 72

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x9 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def k11_cond2 (i : grid11.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S5000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![1], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 1 → Memref sig .tc .vmem S512x128 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![false]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S128x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S128x1 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x1 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 1 → Memref sig .tc .vmem S512x1 .f32 := fun | 0 => Memref.whole cc13_stg7_0 | ⟨_ + 1, h⟩ => absurd h (Nat.not_lt.2 (Nat.le_add_left _ _))
abbrev sem13_7 : Fin 1 → DmaSem sig := fun | 0 => cc13_sem7_0 | ⟨_ + 1, h⟩ => absurd h (Nat.not_lt.2 (Nat.le_add_left _ _))
abbrev reads13_7 : Fin grid13.rank → Bool := ![false]

class Facts₀ : Prop where
  bcast_S_S9 : S_.BroadcastsInDim S9 (![] : Fin 0 → Fin S9.rank)
  bcast_S9_S1x9_1 : S9.BroadcastsInDim S1x9 (![1] : Fin 1 → Fin S1x9.rank)
  bcast_S1x9_S50000x9_0_1 : S1x9.BroadcastsInDim S50000x9 (![0, 1] : Fin 2 → Fin S50000x9.rank)
  iota_S1x4608_d1_w32 : S1x4608.Iotas .tc 32 [1]
  inb_S4608x128_S4608x128_0_0 : ∀ a, (![0, 0] : Fin 2 → Nat) a + S4608x128.size a ≤ S4608x128.size a
  h_S4608x128 : 0 < S4608x128.numel
  bitsLt_bf16_f32 : FTy.bits .bf16 < FTy.bits .f32
  inb_S400x9_S400x1_0_0 : ∀ a, (![0, 0] : Fin 2 → Nat) a + S400x1.size a ≤ S400x9.size a
  h_S400x1 : 0 < S400x1.numel
  shapeCasts_S400x1_S400x1 : S400x1.ShapeCasts S400x1
  broadcasts_S400x1_S400x4608 : S400x1.Broadcasts S400x4608
  broadcasts_S1x4608_S400x4608 : S1x4608.Broadcasts S400x4608
  natLt_1_32 : 1 < 32
  inb_S400x9_S400x1_0_1 : ∀ a, (![0, 1] : Fin 2 → Nat) a + S400x1.size a ≤ S400x9.size a
  inb_S400x9_S400x1_0_2 : ∀ a, (![0, 2] : Fin 2 → Nat) a + S400x1.size a ≤ S400x9.size a
  inb_S400x9_S400x1_0_3 : ∀ a, (![0, 3] : Fin 2 → Nat) a + S400x1.size a ≤ S400x9.size a
  inb_S400x9_S400x1_0_4 : ∀ a, (![0, 4] : Fin 2 → Nat) a + S400x1.size a ≤ S400x9.size a
  inb_S400x9_S400x1_0_5 : ∀ a, (![0, 5] : Fin 2 → Nat) a + S400x1.size a ≤ S400x9.size a
  inb_S400x9_S400x1_0_6 : ∀ a, (![0, 6] : Fin 2 → Nat) a + S400x1.size a ≤ S400x9.size a
  inb_S400x9_S400x1_0_7 : ∀ a, (![0, 7] : Fin 2 → Nat) a + S400x1.size a ≤ S400x9.size a
  inb_S400x9_S400x1_0_8 : ∀ a, (![0, 8] : Fin 2 → Nat) a + S400x1.size a ≤ S400x9.size a
  inb_S400x128_S400x128_0_0 : ∀ a, (![0, 0] : Fin 2 → Nat) a + S400x128.size a ≤ S400x128.size a
  h_S400x128 : 0 < S400x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S4x128x128_S1x128x128_0_0_0 : S4x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S512x128_S128 : S512x128.Reduces [0] S128
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S400x4608_S4608x128_S400x128_1_0_0_1_n_n_wf : DotDims.WF S400x4608 S4608x128 S400x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x9.size a ≤ S50000x9.size a
  hwx0_0 : ∀ i : grid0.Coords, EltTy.bits .i32 = 32 ∨ (Rect.block (s := S50000x9) S400x9.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4608x128.size a ≤ S4608x128.size a
  hwx0_1 : ∀ i : grid0.Coords, EltTy.bits .f32 = 32 ∨ (Rect.block (s := S4608x128) S4608x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S50000x128.size a
  hwx0_2 : ∀ i : grid0.Coords, EltTy.bits .f32 = 32 ∨ (Rect.block (s := S50000x128) S400x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S50000x128.size a
  hwx9_3 : ∀ i : grid9.Coords, EltTy.bits .f32 = 32 ∨ (Rect.block (s := S50000x128) S5000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x128.size a ≤ S50000x128.size a
  hwx10_2 : ∀ i : grid10.Coords, EltTy.bits .f32 = 32 ∨ (Rect.block (s := S50000x128) S5000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x128.size a ≤ S1x128.size a
  hwx12_1 : ∀ i : grid12.Coords, EltTy.bits .f32 = 32 ∨ (Rect.block (s := S1x128) S1x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S5000x128.size a ≤ S50000x128.size a
  hwx12_3 : ∀ i : grid12.Coords, EltTy.bits .f32 = 32 ∨ (Rect.block (s := S50000x128) S5000x128.size (cc12_transform_3 i) (hinb12_3 i)).WholeWords (EltTy.packing .f32)
  hrank13 : 0 < grid13.rank
  hstage13_0 : ∀ j, (stage13_0 j).IsWhole
  nbuf13_0 : grid13.bufCount reads13_0 true = 1
  hreads13_0 : ∀ i i' : grid13.Coords, (∀ a, reads13_0 a = true → i a = i' a) → cc13_transform_0 i = cc13_transform_0 i'
  hinb13_0 : ∀ (i : grid13.Coords) a, (cc13_transform_0 i a + 1) * S512x128.size a ≤ S512x128.size a
  hwx13_0 : ∀ i : grid13.Coords, EltTy.bits .f32 = 32 ∨ (Rect.block (s := S512x128) S512x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S128x128.size a ≤ S128x128.size a
  hwx13_3 : ∀ i : grid13.Coords, EltTy.bits .f32 = 32 ∨ (Rect.block (s := S128x128) S128x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S128x1.size a ≤ S128x1.size a
  hwx13_5 : ∀ i : grid13.Coords, EltTy.bits .f32 = 32 ∨ (Rect.block (s := S128x1) S128x1.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x1.size a ≤ S1x1.size a
  hwx13_6 : ∀ i : grid13.Coords, EltTy.bits .f32 = 32 ∨ (Rect.block (s := S1x1) S1x1.size (cc13_transform_6 i) (hinb13_6 i)).WholeWords (EltTy.packing .f32)
  hstage13_7 : ∀ j, (stage13_7 j).IsWhole
  nbuf13_7 : grid13.bufCount reads13_7 true = 1
  hreads13_7 : ∀ i i' : grid13.Coords, (∀ a, reads13_7 a = true → i a = i' a) → cc13_transform_7 i = cc13_transform_7 i'
  hinb13_7 : ∀ (i : grid13.Coords) a, (cc13_transform_7 i a + 1) * S512x1.size a ≤ S512x1.size a
  hwx13_7 : ∀ i : grid13.Coords, EltTy.bits .f32 = 32 ∨ (Rect.block (s := S512x1) S512x1.size (cc13_transform_7 i) (hinb13_7 i)).WholeWords (EltTy.packing .f32)

variable [Facts₀]

def dot_S400x4608_S4608x128_S400x128_1_0_0_1_n_n : DotDims S400x4608 S4608x128 S400x128 where
  lhsContracting := [1]
  rhsContracting := [0]
  lhsNonContracting := [0]
  rhsNonContracting := [1]
  lhsBatch := []
  rhsBatch := []
  wf := dot_S400x4608_S4608x128_S400x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v7) S400x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4608x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v61) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62_0) S1x128.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62_1) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun i => !(k2_cond2 i == 1#1) | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v81) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v102) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v103_0) S1x128.size cc5_transform_1 reads5_1 true true 1 stage5_1 sem5_1
    hrank5 hreads5_1 hinb5_1 nbuf5_1 (Memref.isWhole_whole _) hwx5_1 hstage5_1

abbrev win5_2 : Pipeline.Window sig grid5 :=
  Pipeline.Window.ofSpec (Memref.whole main_v103_1) S1x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun i => !(k5_cond2 i == 1#1) | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v102) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v116) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v121) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v122) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v122) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v124) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v125) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v143) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v144_0) S1x128.size cc8_transform_1 reads8_1 true true 1 stage8_1 sem8_1
    hrank8 hreads8_1 hinb8_1 nbuf8_1 (Memref.isWhole_whole _) hwx8_1 hstage8_1

abbrev win8_2 : Pipeline.Window sig grid8 :=
  Pipeline.Window.ofSpec (Memref.whole main_v144_1) S1x128.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun i => !(k8_cond2 i == 1#1) | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v143) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v157) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v162) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v163) S5000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v163) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v165) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v166) S5000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v184) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v185_0) S1x128.size cc11_transform_1 reads11_1 true true 1 stage11_1 sem11_1
    hrank11 hreads11_1 hinb11_1 nbuf11_1 (Memref.isWhole_whole _) hwx11_1 hstage11_1

abbrev win11_2 : Pipeline.Window sig grid11 :=
  Pipeline.Window.ofSpec (Memref.whole main_v185_1) S1x128.size cc11_transform_2 reads11_2 true true 1 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev idle11 : Fin 3 → grid11.Coords → Bool := fun | 0 => fun _ => false | 1 => fun i => !(k11_cond2 i == 1#1) | 2 => fun i => !(k11_cond2 i == 1#1) | ⟨_ + 3, h⟩ => absurd h (Nat.not_lt.2 (Nat.le_add_left _ _))

abbrev win12_0 : Pipeline.Window sig grid12 :=
  Pipeline.Window.ofSpec (Memref.whole main_v184) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v198) S1x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v203) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v204) S5000x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v216) S512x128.size cc13_transform_0 reads13_0 false true 1 stage13_0 sem13_0
    hrank13 hreads13_0 hinb13_0 nbuf13_0 (Memref.isWhole_whole _) hwx13_0 hstage13_0

abbrev win13_1 : Pipeline.Window sig grid13 :=
  Pipeline.Window.ofSpec (Memref.whole main_v217) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v218) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_arg10) S128x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v219) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_arg12) S128x1.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v220) S1x1.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v221) S512x1.size cc13_transform_7 reads13_7 true true 1 stage13_7 sem13_7
    hrank13 hreads13_7 hinb13_7 nbuf13_7 (Memref.isWhole_whole _) hwx13_7 hstage13_7

abbrev win13 : Fin 8 → Pipeline.Window sig grid13 := fun | 0 => win13_0 | 1 => win13_1 | 2 => win13_2 | 3 => win13_3 | 4 => win13_4 | 5 => win13_5 | 6 => win13_6 | 7 => win13_7 | ⟨_ + 8, h⟩ => absurd h (Nat.not_lt.2 (Nat.le_add_left _ _))
abbrev spec13 : Fin 8 → Pipeline.WinSpec sig grid13.rank := fun w => (win13 w).toWinSpec

class Facts : Prop extends Facts₀ where

variable [Facts]
-- ==== ReferenceIdeal.lean ====
abbrev S50000x9 : Shape := ⟨2, ![50000, 9]⟩
abbrev S2x800000 : Shape := ⟨2, ![2, 800000]⟩
abbrev S50000 : Shape := ⟨1, ![50000]⟩
abbrev S4608x128 : Shape := ⟨2, ![4608, 128]⟩
abbrev S4x128x128 : Shape := ⟨3, ![4, 128, 128]⟩
abbrev S4x128 : Shape := ⟨2, ![4, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S9 : Shape := ⟨1, ![9]⟩
abbrev S_ : Shape := ⟨0, ![]⟩
abbrev S1x9 : Shape := ⟨2, ![1, 9]⟩
abbrev S50000x9x1 : Shape := ⟨3, ![50000, 9, 1]⟩
abbrev S1x1x1 : Shape := ⟨3, ![1, 1, 1]⟩
abbrev S50000x9x128 : Shape := ⟨3, ![50000, 9, 128]⟩
abbrev S50000x128 : Shape := ⟨2, ![50000, 128]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S1x128x128 : Shape := ⟨3, ![1, 128, 128]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S1x1 : Shape := ⟨2, ![1, 1]⟩

abbrev nBuf : Space → Nat
  | .hbm => 453
  | .vmem => 0
  | .smem => 0
  | _ => 0

abbrev hbmTy0_0 (i : Nat) : BufTy := match i % 128 with
  | 0 => ⟨S50000x9, .i32⟩
  | 1 => ⟨S2x800000, .i32⟩
  | 2 => ⟨S50000, .i32⟩
  | 3 => ⟨S4608x128, .f32⟩
  | 4 => ⟨S4x128x128, .f32⟩
  | 5 => ⟨S4x128, .f32⟩
  | 6 => ⟨S4x128, .f32⟩
  | 7 => ⟨S4x128, .f32⟩
  | 8 => ⟨S128, .f32⟩
  | 9 => ⟨S128, .f32⟩
  | 10 => ⟨S128x128, .f32⟩
  | 11 => ⟨S128, .f32⟩
  | 12 => ⟨S128x1, .f32⟩
  | 13 => ⟨S1, .f32⟩
  | 14 => ⟨S9, .i32⟩
  | 15 => ⟨S_, .i32⟩
  | 16 => ⟨S9, .i32⟩
  | 17 => ⟨S9, .i32⟩
  | 18 => ⟨S_, .i32⟩
  | 19 => ⟨S9, .i32⟩
  | 20 => ⟨S9, .i32⟩
  | 21 => ⟨S1x9, .i32⟩
  | 22 => ⟨S50000x9, .i32⟩
  | 23 => ⟨S50000x9, .i32⟩
  | 24 => ⟨S_, .i32⟩
  | 25 => ⟨S50000x9, .i32⟩
  | 26 => ⟨S50000x9, .i1⟩
  | 27 => ⟨S_, .i32⟩
  | 28 => ⟨S50000x9, .i32⟩
  | 29 => ⟨S50000x9, .i32⟩
  | 30 => ⟨S50000x9, .i32⟩
  | 31 => ⟨S50000x9x1, .i32⟩
  | 32 => ⟨S1, .i32⟩
  | 33 => ⟨S_, .i32⟩
  | 34 => ⟨S50000x9x1, .i32⟩
  | 35 => ⟨S50000x9x1, .i1⟩
  | 36 => ⟨S1x1x1, .i32⟩
  | 37 => ⟨S50000x9x1, .i32⟩
  | 38 => ⟨S50000x9x1, .i1⟩
  | 39 => ⟨S50000x9x1, .i1⟩
  | 40 => ⟨S_, .i1⟩
  | 41 => ⟨S50000x9, .i1⟩
  | 42 => ⟨S50000x9x128, .f32⟩
  | 43 => ⟨S50000x9x128, .i1⟩
  | 44 => ⟨S_, .f32⟩
  | 45 => ⟨S50000x9x128, .f32⟩
  | 46 => ⟨S50000x9x128, .f32⟩
  | 47 => ⟨S_, .f32⟩
  | 48 => ⟨S50000x128, .f32⟩
  | 49 => ⟨S50000, .i32⟩
  | 50 => ⟨S1x800000, .i32⟩
  | 51 => ⟨S800000, .i32⟩
  | 52 => ⟨S850000, .i32⟩
  | 53 => ⟨S1x800000, .i32⟩
  | 54 => ⟨S800000, .i32⟩
  | 55 => ⟨S850000, .i32⟩
  | 56 => ⟨S_, .f32⟩
  | 57 => ⟨S850000, .f32⟩
  | 58 => ⟨S_, .f32⟩
  | 59 => ⟨S50000, .f32⟩
  | 60 => ⟨S850000x1, .i32⟩
  | 61 => ⟨S50000, .f32⟩
  | 62 => ⟨S_, .f32⟩
  | 63 => ⟨S50000, .f32⟩
  | 64 => ⟨S50000, .i1⟩
  | 65 => ⟨S_, .f32⟩
  | 66 => ⟨S50000, .f32⟩
  | 67 => ⟨S50000, .f32⟩
  | 68 => ⟨S50000, .f32⟩
  | 69 => ⟨S_, .f32⟩
  | 70 => ⟨S_, .f32⟩
  | 71 => ⟨S50000, .f32⟩
  | 72 => ⟨S50000, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000, .f32⟩
  | 91 => ⟨S850000, .f32⟩
  | 92 => ⟨S1x128x128, .f32⟩
  | 93 => ⟨S128x128, .f32⟩
  | 94 => ⟨S50000x128, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x128, .f32⟩
  | 104 => ⟨S850000x1, .f32⟩
  | 105 => ⟨S850000x128, .f32⟩
  | 106 => ⟨S850000x128, .f32⟩
  | 107 => ⟨S_, .f32⟩
  | 108 => ⟨S50000x128, .f32⟩
  | 109 => ⟨S850000x1, .i32⟩
  | 110 => ⟨S50000x128, .f32⟩
  | 111 => ⟨S1x128, .f32⟩
  | 112 => ⟨S128, .f32⟩
  | 113 => ⟨S1x128, .f32⟩
  | 114 => ⟨S50000x128, .f32⟩
  | 115 => ⟨S50000x128, .f32⟩
  | 116 => ⟨S1x128, .f32⟩
  | 117 => ⟨S128, .f32⟩
  | 118 => ⟨S1x128, .f32⟩
  | 119 => ⟨S128, .f32⟩
  | 120 => ⟨S_, .f32⟩
  | 121 => ⟨S128, .f32⟩
  | 122 => ⟨S_, .f32⟩
  | 123 => ⟨S128, .f32⟩
  | 124 => ⟨S128, .f32⟩
  | 125 => ⟨S_, .i32⟩
  | 126 => ⟨S_, .f32⟩
  | 127 => ⟨S128, .f32⟩
  | _ => ⟨S50000x9, .i32⟩

abbrev hbmTy0_1 (i : Nat) : BufTy := match i % 128 with
  | 0 => ⟨S1x128, .f32⟩
  | 1 => ⟨S_, .f32⟩
  | 2 => ⟨S1x128, .f32⟩
  | 3 => ⟨S1x128, .f32⟩
  | 4 => ⟨S50000x128, .f32⟩
  | 5 => ⟨S50000x128, .f32⟩
  | 6 => ⟨S50000x128, .f32⟩
  | 7 => ⟨S_, .f32⟩
  | 8 => ⟨S_, .f32⟩
  | 9 => ⟨S_, .f32⟩
  | 10 => ⟨S_, .f32⟩
  | 11 => ⟨S128, .f32⟩
  | 12 => ⟨S128, .f32⟩
  | 13 => ⟨S128, .f32⟩
  | 14 => ⟨S_, .f32⟩
  | 15 => ⟨S_, .i1⟩
  | 16 => ⟨S_, .f32⟩
  | 17 => ⟨S_, .f32⟩
  | 18 => ⟨S128, .f32⟩
  | 19 => ⟨S128, .f32⟩
  | 20 => ⟨S1x128, .f32⟩
  | 21 => ⟨S50000x128, .f32⟩
  | 22 => ⟨S50000x128, .f32⟩
  | 23 => ⟨S_, .f32⟩
  | 24 => ⟨S128, .f32⟩
  | 25 => ⟨S128, .f32⟩
  | 26 => ⟨S128, .f32⟩
  | 27 => ⟨S128, .f32⟩
  | 28 => ⟨S1x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S1x128x128, .f32⟩
  | 38 => ⟨S128x128, .f32⟩
  | 39 => ⟨S50000x128, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000x128, .f32⟩
  | 49 => ⟨S850000x1, .f32⟩
  | 50 => ⟨S850000x128, .f32⟩
  | 51 => ⟨S850000x128, .f32⟩
  | 52 => ⟨S_, .f32⟩
  | 53 => ⟨S50000x128, .f32⟩
  | 54 => ⟨S850000x1, .i32⟩
  | 55 => ⟨S50000x128, .f32⟩
  | 56 => ⟨S1x128, .f32⟩
  | 57 => ⟨S128, .f32⟩
  | 58 => ⟨S1x128, .f32⟩
  | 59 => ⟨S50000x128, .f32⟩
  | 60 => ⟨S50000x128, .f32⟩
  | 61 => ⟨S1x128, .f32⟩
  | 62 => ⟨S128, .f32⟩
  | 63 => ⟨S1x128, .f32⟩
  | 64 => ⟨S128, .f32⟩
  | 65 => ⟨S_, .f32⟩
  | 66 => ⟨S128, .f32⟩
  | 67 => ⟨S_, .f32⟩
  | 68 => ⟨S128, .f32⟩
  | 69 => ⟨S128, .f32⟩
  | 70 => ⟨S_, .i32⟩
  | 71 => ⟨S_, .f32⟩
  | 72 => ⟨S128, .f32⟩
  | 73 => ⟨S1x128, .f32⟩
  | 74 => ⟨S_, .f32⟩
  | 75 => ⟨S1x128, .f32⟩
  | 76 => ⟨S1x128, .f32⟩
  | 77 => ⟨S50000x128, .f32⟩
  | 78 => ⟨S50000x128, .f32⟩
  | 79 => ⟨S50000x128, .f32⟩
  | 80 => ⟨S_, .f32⟩
  | 81 => ⟨S_, .f32⟩
  | 82 => ⟨S_, .f32⟩
  | 83 => ⟨S_, .f32⟩
  | 84 => ⟨S128, .f32⟩
  | 85 => ⟨S128, .f32⟩
  | 86 => ⟨S128, .f32⟩
  | 87 => ⟨S_, .f32⟩
  | 88 => ⟨S_, .i1⟩
  | 89 => ⟨S_, .f32⟩
  | 90 => ⟨S_, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S_, .f32⟩
  | 97 => ⟨S128, .f32⟩
  | 98 => ⟨S128, .f32⟩
  | 99 => ⟨S128, .f32⟩
  | 100 => ⟨S128, .f32⟩
  | 101 => ⟨S1x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S1x128x128, .f32⟩
  | 111 => ⟨S128x128, .f32⟩
  | 112 => ⟨S50000x128, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x128, .f32⟩
  | 122 => ⟨S850000x1, .f32⟩
  | 123 => ⟨S850000x128, .f32⟩
  | 124 => ⟨S850000x128, .f32⟩
  | 125 => ⟨S_, .f32⟩
  | 126 => ⟨S50000x128, .f32⟩
  | 127 => ⟨S850000x1, .i32⟩
  | _ => ⟨S50000x9, .i32⟩

abbrev hbmTy0_2 (i : Nat) : BufTy := match i % 128 with
  | 0 => ⟨S50000x128, .f32⟩
  | 1 => ⟨S1x128, .f32⟩
  | 2 => ⟨S128, .f32⟩
  | 3 => ⟨S1x128, .f32⟩
  | 4 => ⟨S50000x128, .f32⟩
  | 5 => ⟨S50000x128, .f32⟩
  | 6 => ⟨S1x128, .f32⟩
  | 7 => ⟨S128, .f32⟩
  | 8 => ⟨S1x128, .f32⟩
  | 9 => ⟨S128, .f32⟩
  | 10 => ⟨S_, .f32⟩
  | 11 => ⟨S128, .f32⟩
  | 12 => ⟨S_, .f32⟩
  | 13 => ⟨S128, .f32⟩
  | 14 => ⟨S128, .f32⟩
  | 15 => ⟨S_, .i32⟩
  | 16 => ⟨S_, .f32⟩
  | 17 => ⟨S128, .f32⟩
  | 18 => ⟨S1x128, .f32⟩
  | 19 => ⟨S_, .f32⟩
  | 20 => ⟨S1x128, .f32⟩
  | 21 => ⟨S1x128, .f32⟩
  | 22 => ⟨S50000x128, .f32⟩
  | 23 => ⟨S50000x128, .f32⟩
  | 24 => ⟨S50000x128, .f32⟩
  | 25 => ⟨S_, .f32⟩
  | 26 => ⟨S_, .f32⟩
  | 27 => ⟨S_, .f32⟩
  | 28 => ⟨S_, .f32⟩
  | 29 => ⟨S128, .f32⟩
  | 30 => ⟨S128, .f32⟩
  | 31 => ⟨S128, .f32⟩
  | 32 => ⟨S_, .f32⟩
  | 33 => ⟨S_, .i1⟩
  | 34 => ⟨S_, .f32⟩
  | 35 => ⟨S_, .f32⟩
  | 36 => ⟨S128, .f32⟩
  | 37 => ⟨S128, .f32⟩
  | 38 => ⟨S1x128, .f32⟩
  | 39 => ⟨S50000x128, .f32⟩
  | 40 => ⟨S50000x128, .f32⟩
  | 41 => ⟨S_, .f32⟩
  | 42 => ⟨S128, .f32⟩
  | 43 => ⟨S128, .f32⟩
  | 44 => ⟨S128, .f32⟩
  | 45 => ⟨S128, .f32⟩
  | 46 => ⟨S1x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S1x128x128, .f32⟩
  | 56 => ⟨S128x128, .f32⟩
  | 57 => ⟨S50000x128, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x128, .f32⟩
  | 67 => ⟨S850000x1, .f32⟩
  | 68 => ⟨S850000x128, .f32⟩
  | 69 => ⟨S850000x128, .f32⟩
  | 70 => ⟨S_, .f32⟩
  | 71 => ⟨S50000x128, .f32⟩
  | 72 => ⟨S850000x1, .i32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S1x128, .f32⟩
  | 80 => ⟨S128, .f32⟩
  | 81 => ⟨S1x128, .f32⟩
  | 82 => ⟨S128, .f32⟩
  | 83 => ⟨S_, .f32⟩
  | 84 => ⟨S128, .f32⟩
  | 85 => ⟨S_, .f32⟩
  | 86 => ⟨S128, .f32⟩
  | 87 => ⟨S128, .f32⟩
  | 88 => ⟨S_, .i32⟩
  | 89 => ⟨S_, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S50000x128, .f32⟩
  | 96 => ⟨S50000x128, .f32⟩
  | 97 => ⟨S50000x128, .f32⟩
  | 98 => ⟨S_, .f32⟩
  | 99 => ⟨S_, .f32⟩
  | 100 => ⟨S_, .f32⟩
  | 101 => ⟨S_, .f32⟩
  | 102 => ⟨S128, .f32⟩
  | 103 => ⟨S128, .f32⟩
  | 104 => ⟨S128, .f32⟩
  | 105 => ⟨S_, .f32⟩
  | 106 => ⟨S_, .i1⟩
  | 107 => ⟨S_, .f32⟩
  | 108 => ⟨S_, .f32⟩
  | 109 => ⟨S128, .f32⟩
  | 110 => ⟨S128, .f32⟩
  | 111 => ⟨S1x128, .f32⟩
  | 112 => ⟨S50000x128, .f32⟩
  | 113 => ⟨S50000x128, .f32⟩
  | 114 => ⟨S_, .f32⟩
  | 115 => ⟨S128, .f32⟩
  | 116 => ⟨S128, .f32⟩
  | 117 => ⟨S128, .f32⟩
  | 118 => ⟨S128, .f32⟩
  | 119 => ⟨S1x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x9, .i32⟩

abbrev hbmTy0_3 (i : Nat) : BufTy := match i % 128 with
  | 0 => ⟨S_, .f32⟩
  | 1 => ⟨S512x128, .f32⟩
  | 2 => ⟨S50000x1, .i32⟩
  | 3 => ⟨S512x128, .f32⟩
  | 4 => ⟨S_, .f32⟩
  | 5 => ⟨S50000, .f32⟩
  | 6 => ⟨S_, .f32⟩
  | 7 => ⟨S512, .f32⟩
  | 8 => ⟨S50000x1, .i32⟩
  | 9 => ⟨S512, .f32⟩
  | 10 => ⟨S_, .f32⟩
  | 11 => ⟨S512, .f32⟩
  | 12 => ⟨S512, .f32⟩
  | 13 => ⟨S512x1, .f32⟩
  | 14 => ⟨S512x128, .f32⟩
  | 15 => ⟨S512x128, .f32⟩
  | 16 => ⟨S_, .f32⟩
  | 17 => ⟨S128, .f32⟩
  | 18 => ⟨S_, .f32⟩
  | 19 => ⟨S128, .f32⟩
  | 20 => ⟨S128, .f32⟩
  | 21 => ⟨S_, .i32⟩
  | 22 => ⟨S_, .f32⟩
  | 23 => ⟨S128, .f32⟩
  | 24 => ⟨S1x128, .f32⟩
  | 25 => ⟨S_, .f32⟩
  | 26 => ⟨S1x128, .f32⟩
  | 27 => ⟨S1x128, .f32⟩
  | 28 => ⟨S512x128, .f32⟩
  | 29 => ⟨S512x128, .f32⟩
  | 30 => ⟨S512x128, .f32⟩
  | 31 => ⟨S_, .f32⟩
  | 32 => ⟨S_, .f32⟩
  | 33 => ⟨S_, .f32⟩
  | 34 => ⟨S_, .f32⟩
  | 35 => ⟨S128, .f32⟩
  | 36 => ⟨S128, .f32⟩
  | 37 => ⟨S128, .f32⟩
  | 38 => ⟨S_, .f32⟩
  | 39 => ⟨S_, .i1⟩
  | 40 => ⟨S_, .f32⟩
  | 41 => ⟨S_, .f32⟩
  | 42 => ⟨S128, .f32⟩
  | 43 => ⟨S128, .f32⟩
  | 44 => ⟨S1x128, .f32⟩
  | 45 => ⟨S512x128, .f32⟩
  | 46 => ⟨S512x128, .f32⟩
  | 47 => ⟨S_, .f32⟩
  | 48 => ⟨S128, .f32⟩
  | 49 => ⟨S128, .f32⟩
  | 50 => ⟨S128, .f32⟩
  | 51 => ⟨S128, .f32⟩
  | 52 => ⟨S1x128, .f32⟩
  | 53 => ⟨S512x128, .f32⟩
  | 54 => ⟨S512x128, .f32⟩
  | 55 => ⟨S1x128, .f32⟩
  | 56 => ⟨S512x128, .f32⟩
  | 57 => ⟨S512x128, .f32⟩
  | 58 => ⟨S512x128, .f32⟩
  | 59 => ⟨S1x128, .f32⟩
  | 60 => ⟨S512x128, .f32⟩
  | 61 => ⟨S512x128, .f32⟩
  | 62 => ⟨S_, .f32⟩
  | 63 => ⟨S512x128, .f32⟩
  | 64 => ⟨S512x128, .f32⟩
  | 65 => ⟨S512x1, .f32⟩
  | 66 => ⟨S1x1, .f32⟩
  | 67 => ⟨S512x1, .f32⟩
  | 68 => ⟨S512x1, .f32⟩
  | _ => ⟨S50000x9, .i32⟩

abbrev hbmTy (i : Nat) : BufTy := match i / 128 with
  | 0 => hbmTy0_0 i
  | 1 => hbmTy0_1 i
  | 2 => hbmTy0_2 i
  | 3 => hbmTy0_3 i
  | _ => ⟨S50000x9, .i32⟩

abbrev bufTy : (tb : Table) → Fin (tcTables nBuf tb) → BufTy
  | .hbm, ⟨i, _⟩ => hbmTy i
  | _, _ => ⟨S50000x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v8 : Ref sig .tc := ⟨.hbm, 46, rfl⟩
abbrev main_cst : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst_1 : Ref sig .tc := ⟨.hbm, 56, rfl⟩
abbrev main_v17 : Ref sig .tc := ⟨.hbm, 57, rfl⟩
abbrev main_cst_2 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_cst_3 : Ref sig .tc := ⟨.hbm, 62, rfl⟩
abbrev main_v21 : Ref sig .tc := ⟨.hbm, 63, rfl⟩
abbrev main_v22 : Ref sig .tc := ⟨.hbm, 64, rfl⟩
abbrev main_cst_4 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_cst_5 : Ref sig .tc := ⟨.hbm, 69, rfl⟩
abbrev main_call1_v0 : Ref sig .tc := ⟨.hbm, 70, rfl⟩
abbrev main_call1_v1 : Ref sig .tc := ⟨.hbm, 71, rfl⟩
abbrev main_v26 : Ref sig .tc := ⟨.hbm, 72, rfl⟩
abbrev main_c_6 : Ref sig .tc := ⟨.hbm, 73, rfl⟩
abbrev main_v27 : Ref sig .tc := ⟨.hbm, 74, rfl⟩
abbrev main_v28 : Ref sig .tc := ⟨.hbm, 75, rfl⟩
abbrev main_c_7 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_c_8 : Ref sig .tc := ⟨.hbm, 82, rfl⟩
abbrev main_v34 : Ref sig .tc := ⟨.hbm, 83, rfl⟩
abbrev main_v35 : Ref sig .tc := ⟨.hbm, 84, rfl⟩
abbrev main_c_9 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_c_10 : Ref sig .tc := ⟨.hbm, 95, rfl⟩
abbrev main_v45 : Ref sig .tc := ⟨.hbm, 96, rfl⟩
abbrev main_v46 : Ref sig .tc := ⟨.hbm, 97, rfl⟩
abbrev main_c_11 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_cst_12 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_13 : Ref sig .tc := ⟨.hbm, 120, rfl⟩
abbrev main_v67 : Ref sig .tc := ⟨.hbm, 121, rfl⟩
abbrev main_cst_14 : Ref sig .tc := ⟨.hbm, 122, rfl⟩
abbrev main_v68 : Ref sig .tc := ⟨.hbm, 123, rfl⟩
abbrev main_v69 : Ref sig .tc := ⟨.hbm, 124, rfl⟩
abbrev main_c_15 : Ref sig .tc := ⟨.hbm, 125, rfl⟩
abbrev main_call2_cst : Ref sig .tc := ⟨.hbm, 126, rfl⟩
abbrev main_call2_v0 : Ref sig .tc := ⟨.hbm, 127, rfl⟩
abbrev main_call2_v1 : Ref sig .tc := ⟨.hbm, 128, rfl⟩
abbrev main_call2_cst_0 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_call2_v5 : Ref sig .tc := ⟨.hbm, 133, rfl⟩
abbrev main_call2_v6 : Ref sig .tc := ⟨.hbm, 134, rfl⟩
abbrev main_call2_v7 : Ref sig .tc := ⟨.hbm, 135, rfl⟩
abbrev main_call2_cst_1 : Ref sig .tc := ⟨.hbm, 136, rfl⟩
abbrev main_call2_v8 : Ref sig .tc := ⟨.hbm, 137, rfl⟩
abbrev main_call2_cst_2 : Ref sig .tc := ⟨.hbm, 138, rfl⟩
abbrev main_call2_v9 : Ref sig .tc := ⟨.hbm, 139, rfl⟩
abbrev main_call2_v10 : Ref sig .tc := ⟨.hbm, 140, rfl⟩
abbrev main_call2_v11 : Ref sig .tc := ⟨.hbm, 141, rfl⟩
abbrev main_call2_cst_3 : Ref sig .tc := ⟨.hbm, 142, rfl⟩
abbrev main_call2_v12 : Ref sig .tc := ⟨.hbm, 143, rfl⟩
abbrev main_call2_cst_4 : Ref sig .tc := ⟨.hbm, 144, rfl⟩
abbrev main_call2_call0_v0 : Ref sig .tc := ⟨.hbm, 145, rfl⟩
abbrev main_call2_call0_v1 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_cst_16 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_call3_cst : Ref sig .tc := ⟨.hbm, 162, rfl⟩
abbrev main_call3_v0 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_c_17 : Ref sig .tc := ⟨.hbm, 168, rfl⟩
abbrev main_v88 : Ref sig .tc := ⟨.hbm, 169, rfl⟩
abbrev main_v89 : Ref sig .tc := ⟨.hbm, 170, rfl⟩
abbrev main_c_18 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_cst_19 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_cst_20 : Ref sig .tc := ⟨.hbm, 193, rfl⟩
abbrev main_v110 : Ref sig .tc := ⟨.hbm, 194, rfl⟩
abbrev main_cst_21 : Ref sig .tc := ⟨.hbm, 195, rfl⟩
abbrev main_v111 : Ref sig .tc := ⟨.hbm, 196, rfl⟩
abbrev main_v112 : Ref sig .tc := ⟨.hbm, 197, rfl⟩
abbrev main_c_22 : Ref sig .tc := ⟨.hbm, 198, rfl⟩
abbrev main_call4_cst : Ref sig .tc := ⟨.hbm, 199, rfl⟩
abbrev main_call4_v0 : Ref sig .tc := ⟨.hbm, 200, rfl⟩
abbrev main_call4_v1 : Ref sig .tc := ⟨.hbm, 201, rfl⟩
abbrev main_call4_cst_0 : Ref sig .tc := ⟨.hbm, 202, rfl⟩
abbrev main_call4_v2 : Ref sig .tc := ⟨.hbm, 203, rfl⟩
abbrev main_call4_v3 : Ref sig .tc := ⟨.hbm, 204, rfl⟩
abbrev main_call4_v4 : Ref sig .tc := ⟨.hbm, 205, rfl⟩
abbrev main_call4_v5 : Ref sig .tc := ⟨.hbm, 206, rfl⟩
abbrev main_call4_v6 : Ref sig .tc := ⟨.hbm, 207, rfl⟩
abbrev main_call4_v7 : Ref sig .tc := ⟨.hbm, 208, rfl⟩
abbrev main_call4_cst_1 : Ref sig .tc := ⟨.hbm, 209, rfl⟩
abbrev main_call4_v8 : Ref sig .tc := ⟨.hbm, 210, rfl⟩
abbrev main_call4_cst_2 : Ref sig .tc := ⟨.hbm, 211, rfl⟩
abbrev main_call4_v9 : Ref sig .tc := ⟨.hbm, 212, rfl⟩
abbrev main_call4_v10 : Ref sig .tc := ⟨.hbm, 213, rfl⟩
abbrev main_call4_v11 : Ref sig .tc := ⟨.hbm, 214, rfl⟩
abbrev main_call4_cst_3 : Ref sig .tc := ⟨.hbm, 215, rfl⟩
abbrev main_call4_v12 : Ref sig .tc := ⟨.hbm, 216, rfl⟩
abbrev main_call4_cst_4 : Ref sig .tc := ⟨.hbm, 217, rfl⟩
abbrev main_call4_call0_v0 : Ref sig .tc := ⟨.hbm, 218, rfl⟩
abbrev main_call4_call0_v1 : Ref sig .tc := ⟨.hbm, 219, rfl⟩
abbrev main_v113 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_cst_23 : Ref sig .tc := ⟨.hbm, 224, rfl⟩
abbrev main_v117 : Ref sig .tc := ⟨.hbm, 225, rfl⟩
abbrev main_v118 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_v122 : Ref sig .tc := ⟨.hbm, 230, rfl⟩
abbrev main_v123 : Ref sig .tc := ⟨.hbm, 231, rfl⟩
abbrev main_v124 : Ref sig .tc := ⟨.hbm, 232, rfl⟩
abbrev main_v125 : Ref sig .tc := ⟨.hbm, 233, rfl⟩
abbrev main_v126 : Ref sig .tc := ⟨.hbm, 234, rfl⟩
abbrev main_call5_cst : Ref sig .tc := ⟨.hbm, 235, rfl⟩
abbrev main_call5_v0 : Ref sig .tc := ⟨.hbm, 236, rfl⟩
abbrev main_v127 : Ref sig .tc := ⟨.hbm, 237, rfl⟩
abbrev main_v128 : Ref sig .tc := ⟨.hbm, 238, rfl⟩
abbrev main_v129 : Ref sig .tc := ⟨.hbm, 239, rfl⟩
abbrev main_v130 : Ref sig .tc := ⟨.hbm, 240, rfl⟩
abbrev main_c_24 : Ref sig .tc := ⟨.hbm, 241, rfl⟩
abbrev main_v131 : Ref sig .tc := ⟨.hbm, 242, rfl⟩
abbrev main_v132 : Ref sig .tc := ⟨.hbm, 243, rfl⟩
abbrev main_c_25 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_v139 : Ref sig .tc := ⟨.hbm, 251, rfl⟩
abbrev main_v140 : Ref sig .tc := ⟨.hbm, 252, rfl⟩
abbrev main_cst_26 : Ref sig .tc := ⟨.hbm, 253, rfl⟩
abbrev main_v141 : Ref sig .tc := ⟨.hbm, 254, rfl⟩
abbrev main_v142 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_v146 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_cst_27 : Ref sig .tc := ⟨.hbm, 266, rfl⟩
abbrev main_v153 : Ref sig .tc := ⟨.hbm, 267, rfl⟩
abbrev main_cst_28 : Ref sig .tc := ⟨.hbm, 268, rfl⟩
abbrev main_v154 : Ref sig .tc := ⟨.hbm, 269, rfl⟩
abbrev main_v155 : Ref sig .tc := ⟨.hbm, 270, rfl⟩
abbrev main_c_29 : Ref sig .tc := ⟨.hbm, 271, rfl⟩
abbrev main_call6_cst : Ref sig .tc := ⟨.hbm, 272, rfl⟩
abbrev main_call6_v0 : Ref sig .tc := ⟨.hbm, 273, rfl⟩
abbrev main_call6_v1 : Ref sig .tc := ⟨.hbm, 274, rfl⟩
abbrev main_call6_cst_0 : Ref sig .tc := ⟨.hbm, 275, rfl⟩
abbrev main_call6_v2 : Ref sig .tc := ⟨.hbm, 276, rfl⟩
abbrev main_call6_v3 : Ref sig .tc := ⟨.hbm, 277, rfl⟩
abbrev main_call6_v4 : Ref sig .tc := ⟨.hbm, 278, rfl⟩
abbrev main_call6_v5 : Ref sig .tc := ⟨.hbm, 279, rfl⟩
abbrev main_call6_v6 : Ref sig .tc := ⟨.hbm, 280, rfl⟩
abbrev main_call6_v7 : Ref sig .tc := ⟨.hbm, 281, rfl⟩
abbrev main_call6_cst_1 : Ref sig .tc := ⟨.hbm, 282, rfl⟩
abbrev main_call6_v8 : Ref sig .tc := ⟨.hbm, 283, rfl⟩
abbrev main_call6_cst_2 : Ref sig .tc := ⟨.hbm, 284, rfl⟩
abbrev main_call6_v9 : Ref sig .tc := ⟨.hbm, 285, rfl⟩
abbrev main_call6_v10 : Ref sig .tc := ⟨.hbm, 286, rfl⟩
abbrev main_call6_v11 : Ref sig .tc := ⟨.hbm, 287, rfl⟩
abbrev main_call6_cst_3 : Ref sig .tc := ⟨.hbm, 288, rfl⟩
abbrev main_call6_v12 : Ref sig .tc := ⟨.hbm, 289, rfl⟩
abbrev main_call6_cst_4 : Ref sig .tc := ⟨.hbm, 290, rfl⟩
abbrev main_call6_call0_v0 : Ref sig .tc := ⟨.hbm, 291, rfl⟩
abbrev main_call6_call0_v1 : Ref sig .tc := ⟨.hbm, 292, rfl⟩
abbrev main_v156 : Ref sig .tc := ⟨.hbm, 293, rfl⟩
abbrev main_v157 : Ref sig .tc := ⟨.hbm, 294, rfl⟩
abbrev main_v158 : Ref sig .tc := ⟨.hbm, 295, rfl⟩
abbrev main_v159 : Ref sig .tc := ⟨.hbm, 296, rfl⟩
abbrev main_cst_30 : Ref sig .tc := ⟨.hbm, 297, rfl⟩
abbrev main_v160 : Ref sig .tc := ⟨.hbm, 298, rfl⟩
abbrev main_v161 : Ref sig .tc := ⟨.hbm, 299, rfl⟩
abbrev main_v162 : Ref sig .tc := ⟨.hbm, 300, rfl⟩
abbrev main_v163 : Ref sig .tc := ⟨.hbm, 301, rfl⟩
abbrev main_v164 : Ref sig .tc := ⟨.hbm, 302, rfl⟩
abbrev main_v165 : Ref sig .tc := ⟨.hbm, 303, rfl⟩
abbrev main_v166 : Ref sig .tc := ⟨.hbm, 304, rfl⟩
abbrev main_v167 : Ref sig .tc := ⟨.hbm, 305, rfl⟩
abbrev main_v168 : Ref sig .tc := ⟨.hbm, 306, rfl⟩
abbrev main_v169 : Ref sig .tc := ⟨.hbm, 307, rfl⟩
abbrev main_call7_cst : Ref sig .tc := ⟨.hbm, 308, rfl⟩
abbrev main_call7_v0 : Ref sig .tc := ⟨.hbm, 309, rfl⟩
abbrev main_v170 : Ref sig .tc := ⟨.hbm, 310, rfl⟩
abbrev main_v171 : Ref sig .tc := ⟨.hbm, 311, rfl⟩
abbrev main_v172 : Ref sig .tc := ⟨.hbm, 312, rfl⟩
abbrev main_v173 : Ref sig .tc := ⟨.hbm, 313, rfl⟩
abbrev main_c_31 : Ref sig .tc := ⟨.hbm, 314, rfl⟩
abbrev main_v174 : Ref sig .tc := ⟨.hbm, 315, rfl⟩
abbrev main_v175 : Ref sig .tc := ⟨.hbm, 316, rfl⟩
abbrev main_c_32 : Ref sig .tc := ⟨.hbm, 317, rfl⟩
abbrev main_v176 : Ref sig .tc := ⟨.hbm, 318, rfl⟩
abbrev main_v177 : Ref sig .tc := ⟨.hbm, 319, rfl⟩
abbrev main_v178 : Ref sig .tc := ⟨.hbm, 320, rfl⟩
abbrev main_v179 : Ref sig .tc := ⟨.hbm, 321, rfl⟩
abbrev main_v180 : Ref sig .tc := ⟨.hbm, 322, rfl⟩
abbrev main_v181 : Ref sig .tc := ⟨.hbm, 323, rfl⟩
abbrev main_v182 : Ref sig .tc := ⟨.hbm, 324, rfl⟩
abbrev main_v183 : Ref sig .tc := ⟨.hbm, 325, rfl⟩
abbrev main_cst_33 : Ref sig .tc := ⟨.hbm, 326, rfl⟩
abbrev main_v184 : Ref sig .tc := ⟨.hbm, 327, rfl⟩
abbrev main_v185 : Ref sig .tc := ⟨.hbm, 328, rfl⟩
abbrev main_v186 : Ref sig .tc := ⟨.hbm, 329, rfl⟩
abbrev main_v187 : Ref sig .tc := ⟨.hbm, 330, rfl⟩
abbrev main_v188 : Ref sig .tc := ⟨.hbm, 331, rfl⟩
abbrev main_v189 : Ref sig .tc := ⟨.hbm, 332, rfl⟩
abbrev main_v190 : Ref sig .tc := ⟨.hbm, 333, rfl⟩
abbrev main_v191 : Ref sig .tc := ⟨.hbm, 334, rfl⟩
abbrev main_v192 : Ref sig .tc := ⟨.hbm, 335, rfl⟩
abbrev main_v193 : Ref sig .tc := ⟨.hbm, 336, rfl⟩
abbrev main_v194 : Ref sig .tc := ⟨.hbm, 337, rfl⟩
abbrev main_v195 : Ref sig .tc := ⟨.hbm, 338, rfl⟩
abbrev main_cst_34 : Ref sig .tc := ⟨.hbm, 339, rfl⟩
abbrev main_v196 : Ref sig .tc := ⟨.hbm, 340, rfl⟩
abbrev main_cst_35 : Ref sig .tc := ⟨.hbm, 341, rfl⟩
abbrev main_v197 : Ref sig .tc := ⟨.hbm, 342, rfl⟩
abbrev main_v198 : Ref sig .tc := ⟨.hbm, 343, rfl⟩
abbrev main_c_36 : Ref sig .tc := ⟨.hbm, 344, rfl⟩
abbrev main_call8_cst : Ref sig .tc := ⟨.hbm, 345, rfl⟩
abbrev main_call8_v0 : Ref sig .tc := ⟨.hbm, 346, rfl⟩
abbrev main_call8_v1 : Ref sig .tc := ⟨.hbm, 347, rfl⟩
abbrev main_call8_cst_0 : Ref sig .tc := ⟨.hbm, 348, rfl⟩
abbrev main_call8_v2 : Ref sig .tc := ⟨.hbm, 349, rfl⟩
abbrev main_call8_v3 : Ref sig .tc := ⟨.hbm, 350, rfl⟩
abbrev main_call8_v4 : Ref sig .tc := ⟨.hbm, 351, rfl⟩
abbrev main_call8_v5 : Ref sig .tc := ⟨.hbm, 352, rfl⟩
abbrev main_call8_v6 : Ref sig .tc := ⟨.hbm, 353, rfl⟩
abbrev main_call8_v7 : Ref sig .tc := ⟨.hbm, 354, rfl⟩
abbrev main_call8_cst_1 : Ref sig .tc := ⟨.hbm, 355, rfl⟩
abbrev main_call8_v8 : Ref sig .tc := ⟨.hbm, 356, rfl⟩
abbrev main_call8_cst_2 : Ref sig .tc := ⟨.hbm, 357, rfl⟩
abbrev main_call8_v9 : Ref sig .tc := ⟨.hbm, 358, rfl⟩
abbrev main_call8_v10 : Ref sig .tc := ⟨.hbm, 359, rfl⟩
abbrev main_call8_v11 : Ref sig .tc := ⟨.hbm, 360, rfl⟩
abbrev main_call8_cst_3 : Ref sig .tc := ⟨.hbm, 361, rfl⟩
abbrev main_call8_v12 : Ref sig .tc := ⟨.hbm, 362, rfl⟩
abbrev main_call8_cst_4 : Ref sig .tc := ⟨.hbm, 363, rfl⟩
abbrev main_call8_call0_v0 : Ref sig .tc := ⟨.hbm, 364, rfl⟩
abbrev main_call8_call0_v1 : Ref sig .tc := ⟨.hbm, 365, rfl⟩
abbrev main_v199 : Ref sig .tc := ⟨.hbm, 366, rfl⟩
abbrev main_v200 : Ref sig .tc := ⟨.hbm, 367, rfl⟩
abbrev main_v201 : Ref sig .tc := ⟨.hbm, 368, rfl⟩
abbrev main_v202 : Ref sig .tc := ⟨.hbm, 369, rfl⟩
abbrev main_cst_37 : Ref sig .tc := ⟨.hbm, 370, rfl⟩
abbrev main_v203 : Ref sig .tc := ⟨.hbm, 371, rfl⟩
abbrev main_v204 : Ref sig .tc := ⟨.hbm, 372, rfl⟩
abbrev main_v205 : Ref sig .tc := ⟨.hbm, 373, rfl⟩
abbrev main_v206 : Ref sig .tc := ⟨.hbm, 374, rfl⟩
abbrev main_v207 : Ref sig .tc := ⟨.hbm, 375, rfl⟩
abbrev main_v208 : Ref sig .tc := ⟨.hbm, 376, rfl⟩
abbrev main_v209 : Ref sig .tc := ⟨.hbm, 377, rfl⟩
abbrev main_v210 : Ref sig .tc := ⟨.hbm, 378, rfl⟩
abbrev main_v211 : Ref sig .tc := ⟨.hbm, 379, rfl⟩
abbrev main_v212 : Ref sig .tc := ⟨.hbm, 380, rfl⟩
abbrev main_call9_cst : Ref sig .tc := ⟨.hbm, 381, rfl⟩
abbrev main_call9_v0 : Ref sig .tc := ⟨.hbm, 382, rfl⟩
abbrev main_v213 : Ref sig .tc := ⟨.hbm, 383, rfl⟩
abbrev main_cst_38 : Ref sig .tc := ⟨.hbm, 384, rfl⟩
abbrev main_v214 : Ref sig .tc := ⟨.hbm, 385, rfl⟩
abbrev main_v215 : Ref sig .tc := ⟨.hbm, 386, rfl⟩
abbrev main_v216 : Ref sig .tc := ⟨.hbm, 387, rfl⟩
abbrev main_cst_39 : Ref sig .tc := ⟨.hbm, 388, rfl⟩
abbrev main_v217 : Ref sig .tc := ⟨.hbm, 389, rfl⟩
abbrev main_cst_40 : Ref sig .tc := ⟨.hbm, 390, rfl⟩
abbrev main_v218 : Ref sig .tc := ⟨.hbm, 391, rfl⟩
abbrev main_v219 : Ref sig .tc := ⟨.hbm, 392, rfl⟩
abbrev main_v220 : Ref sig .tc := ⟨.hbm, 393, rfl⟩
abbrev main_cst_41 : Ref sig .tc := ⟨.hbm, 394, rfl⟩
abbrev main_v221 : Ref sig .tc := ⟨.hbm, 395, rfl⟩
abbrev main_v222 : Ref sig .tc := ⟨.hbm, 396, rfl⟩
abbrev main_v223 : Ref sig .tc := ⟨.hbm, 397, rfl⟩
abbrev main_v224 : Ref sig .tc := ⟨.hbm, 398, rfl⟩
abbrev main_v225 : Ref sig .tc := ⟨.hbm, 399, rfl⟩
abbrev main_cst_42 : Ref sig .tc := ⟨.hbm, 400, rfl⟩
abbrev main_v226 : Ref sig .tc := ⟨.hbm, 401, rfl⟩
abbrev main_cst_43 : Ref sig .tc := ⟨.hbm, 402, rfl⟩
abbrev main_v227 : Ref sig .tc := ⟨.hbm, 403, rfl⟩
abbrev main_v228 : Ref sig .tc := ⟨.hbm, 404, rfl⟩
abbrev main_c_44 : Ref sig .tc := ⟨.hbm, 405, rfl⟩
abbrev main_call10_cst : Ref sig .tc := ⟨.hbm, 406, rfl⟩
abbrev main_call10_v0 : Ref sig .tc := ⟨.hbm, 407, rfl⟩
abbrev main_call10_v1 : Ref sig .tc := ⟨.hbm, 408, rfl⟩
abbrev main_call10_cst_0 : Ref sig .tc := ⟨.hbm, 409, rfl⟩
abbrev main_call10_v2 : Ref sig .tc := ⟨.hbm, 410, rfl⟩
abbrev main_call10_v3 : Ref sig .tc := ⟨.hbm, 411, rfl⟩
abbrev main_call10_v4 : Ref sig .tc := ⟨.hbm, 412, rfl⟩
abbrev main_call10_v5 : Ref sig .tc := ⟨.hbm, 413, rfl⟩
abbrev main_call10_v6 : Ref sig .tc := ⟨.hbm, 414, rfl⟩
abbrev main_call10_v7 : Ref sig .tc := ⟨.hbm, 415, rfl⟩
abbrev main_call10_cst_1 : Ref sig .tc := ⟨.hbm, 416, rfl⟩
abbrev main_call10_v8 : Ref sig .tc := ⟨.hbm, 417, rfl⟩
abbrev main_call10_cst_2 : Ref sig .tc := ⟨.hbm, 418, rfl⟩
abbrev main_call10_v9 : Ref sig .tc := ⟨.hbm, 419, rfl⟩
abbrev main_call10_v10 : Ref sig .tc := ⟨.hbm, 420, rfl⟩
abbrev main_call10_v11 : Ref sig .tc := ⟨.hbm, 421, rfl⟩
abbrev main_call10_cst_3 : Ref sig .tc := ⟨.hbm, 422, rfl⟩
abbrev main_call10_v12 : Ref sig .tc := ⟨.hbm, 423, rfl⟩
abbrev main_call10_cst_4 : Ref sig .tc := ⟨.hbm, 424, rfl⟩
abbrev main_call10_call0_v0 : Ref sig .tc := ⟨.hbm, 425, rfl⟩
abbrev main_call10_call0_v1 : Ref sig .tc := ⟨.hbm, 426, rfl⟩
abbrev main_v229 : Ref sig .tc := ⟨.hbm, 427, rfl⟩
abbrev main_v230 : Ref sig .tc := ⟨.hbm, 428, rfl⟩
abbrev main_v231 : Ref sig .tc := ⟨.hbm, 429, rfl⟩
abbrev main_v232 : Ref sig .tc := ⟨.hbm, 430, rfl⟩
abbrev main_cst_45 : Ref sig .tc := ⟨.hbm, 431, rfl⟩
abbrev main_v233 : Ref sig .tc := ⟨.hbm, 432, rfl⟩
abbrev main_v234 : Ref sig .tc := ⟨.hbm, 433, rfl⟩
abbrev main_v235 : Ref sig .tc := ⟨.hbm, 434, rfl⟩
abbrev main_v236 : Ref sig .tc := ⟨.hbm, 435, rfl⟩
abbrev main_v237 : Ref sig .tc := ⟨.hbm, 436, rfl⟩
abbrev main_v238 : Ref sig .tc := ⟨.hbm, 437, rfl⟩
abbrev main_v239 : Ref sig .tc := ⟨.hbm, 438, rfl⟩
abbrev main_v240 : Ref sig .tc := ⟨.hbm, 439, rfl⟩
abbrev main_v241 : Ref sig .tc := ⟨.hbm, 440, rfl⟩
abbrev main_v242 : Ref sig .tc := ⟨.hbm, 441, rfl⟩
abbrev main_v243 : Ref sig .tc := ⟨.hbm, 442, rfl⟩
abbrev main_v244 : Ref sig .tc := ⟨.hbm, 443, rfl⟩
abbrev main_v245 : Ref sig .tc := ⟨.hbm, 444, rfl⟩
abbrev main_v246 : Ref sig .tc := ⟨.hbm, 445, rfl⟩
abbrev main_call11_cst : Ref sig .tc := ⟨.hbm, 446, rfl⟩
abbrev main_call11_v0 : Ref sig .tc := ⟨.hbm, 447, rfl⟩
abbrev main_v247 : Ref sig .tc := ⟨.hbm, 448, rfl⟩
abbrev main_v248 : Ref sig .tc := ⟨.hbm, 449, rfl⟩
abbrev main_v249 : Ref sig .tc := ⟨.hbm, 450, rfl⟩
abbrev main_v250 : Ref sig .tc := ⟨.hbm, 451, rfl⟩
abbrev main_v251 : Ref sig .tc := ⟨.hbm, 452, rfl⟩

abbrev nD : Nat := 1
abbrev τ : Topo := Topo.v7x

variable {F : FTy → Type} [FloatOps F]

class Facts₀ : Prop where
  bcast_S_S9 : S_.BroadcastsInDim S9 (![] : Fin 0 → Fin S9.rank)
  bcast_S9_S1x9_1 : S9.BroadcastsInDim S1x9 (![1] : Fin 1 → Fin S1x9.rank)
  bcast_S1x9_S50000x9_0_1 : S1x9.BroadcastsInDim S50000x9 (![0, 1] : Fin 2 → Fin S50000x9.rank)
  bcast_S_S50000x9 : S_.BroadcastsInDim S50000x9 (![] : Fin 0 → Fin S50000x9.rank)
  bcast_S50000x9_S50000x9x1_0_1 : S50000x9.BroadcastsInDim S50000x9x1 (![0, 1] : Fin 2 → Fin S50000x9x1.rank)
  bcast_S_S50000x9x1 : S_.BroadcastsInDim S50000x9x1 (![] : Fin 0 → Fin S50000x9x1.rank)
  bcast_S1_S1x1x1_2 : S1.BroadcastsInDim S1x1x1 (![2] : Fin 1 → Fin S1x1x1.rank)
  bcast_S1x1x1_S50000x9x1_0_1_2 : S1x1x1.BroadcastsInDim S50000x9x1 (![0, 1, 2] : Fin 3 → Fin S50000x9x1.rank)
  reducesTo_S50000x9x1_S50000x9_d2 : S50000x9x1.ReducesTo [2] S50000x9
  h_S_ : 0 < S_.numel
  bcast_S50000x9_S50000x9x128_0_1 : S50000x9.BroadcastsInDim S50000x9x128 (![0, 1] : Fin 2 → Fin S50000x9x128.rank)
  bcast_S_S50000x9x128 : S_.BroadcastsInDim S50000x9x128 (![] : Fin 0 → Fin S50000x9x128.rank)
  reducesTo_S50000x9x128_S50000x128_d1 : S50000x9x128.ReducesTo [1] S50000x128
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S4x128x128_S1x128x128_0_0_0 : S4x128x128.Slices ![0, 0, 0] S1x128x128
  shapeCasts_S1x128x128_S128x128 : S1x128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  reducesTo_S512x128_S128_d0 : S512x128.ReducesTo [0] S128
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S4608x128_S50000x9x1_S50000x9x128_2_0_n_n_0_2_1128_wf : GatherDims.WF S4608x128 S50000x9x1 S50000x9x128 [2] [0] [] [0] [] 2 ![1, 128]
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []

variable [Facts₀]

def gather_S4608x128_S50000x9x1_S50000x9x128_2_0_n_n_0_2_1128 : GatherDims S4608x128 S50000x9x1 S50000x9x128 where
  offsetDims := [2]
  collapsedSliceDims := [0]
  operandBatchingDims := []
  startIndicesBatchingDims := []
  startIndexMap := [0]
  indexVectorDim := 2
  sliceSizes := ![1, 128]
  wf := gather_S4608x128_S50000x9x1_S50000x9x128_2_0_n_n_0_2_1128_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.BReg0.lean ====
import proofs.«402767_j7713761264261_1_alg».proof.Proof.Gen.Kernel.Launch
import proofs.«402767_j7713761264261_1_alg».proof.Proof.Gen.Kernel.Skeleton
import proofs.«402767_j7713761264261_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev col0 : Rect S400x9 := Rect.unit (s := S400x9) ![0, 0] S400x1.size inb_S400x9_S400x1_0_0
abbrev col1 : Rect S400x9 := Rect.unit (s := S400x9) ![0, 1] S400x1.size inb_S400x9_S400x1_0_1
abbrev col2 : Rect S400x9 := Rect.unit (s := S400x9) ![0, 2] S400x1.size inb_S400x9_S400x1_0_2
abbrev col3 : Rect S400x9 := Rect.unit (s := S400x9) ![0, 3] S400x1.size inb_S400x9_S400x1_0_3
abbrev col4 : Rect S400x9 := Rect.unit (s := S400x9) ![0, 4] S400x1.size inb_S400x9_S400x1_0_4
abbrev col5 : Rect S400x9 := Rect.unit (s := S400x9) ![0, 5] S400x1.size inb_S400x9_S400x1_0_5
abbrev col6 : Rect S400x9 := Rect.unit (s := S400x9) ![0, 6] S400x1.size inb_S400x9_S400x1_0_6
abbrev col7 : Rect S400x9 := Rect.unit (s := S400x9) ![0, 7] S400x1.size inb_S400x9_S400x1_0_7
abbrev col8 : Rect S400x9 := Rect.unit (s := S400x9) ![0, 8] S400x1.size inb_S400x9_S400x1_0_8
abbrev tabR : Rect S4608x128 := Rect.unit (s := S4608x128) ![0, 0] S4608x128.size inb_S4608x128_S4608x128_0_0
abbrev outR : Rect S400x128 := Rect.unit (s := S400x128) ![0, 0] S400x128.size inb_S400x128_S400x128_0_0

def lanes0 : IVec S1x4608 32 := iota .tc S1x4608 32 [1] iota_S1x4608_d1_w32

def sum0 (x0 : Vec F S400x9 .i32) (x1 : Vec F S4608x128 .f32) : Vec F S400x128 .f32 :=
  k0_pay1 (k0_pay2 (View.ld x1 tabR))
    (k0_pay4 (F := F) lanes0 (k0_pay2 (View.ld x1 tabR))
      (k0_pay3 (View.ld x1 tabR) (View.ld x0 col0) (View.ld x0 col1) (View.ld x0 col2) (View.ld x0 col3))
      (View.ld x0 col4) (View.ld x0 col5) (View.ld x0 col6) (View.ld x0 col7))
    (k0_pay5 (F := F) lanes0 (View.ld x0 col8))

def out0_2 (x0 : Vec F S400x9 .i32) (x1 : Vec F S4608x128 .f32) : Vec F S400x128 .f32 :=
  View.canon [⟨outR, sum0 x0 x1⟩]

theorem cover0_2 (p0 : Vec F S400x128 .f32) (y : S400x128.Idx) :
    ∃ pc ∈ ([⟨outR, p0⟩] : List (View.Piece (Elt F) S400x128 .f32)), y ∈ pc.1.set :=
  View.cover_of_tiled [⟨outR, p0⟩] S400x128.size (by rfl) y

set_option maxHeartbeats 1000000 in
theorem sound_kernel0 (c : Dev nD) (E : Set ℕ) (i : grid0.Coords)
    (arg1 : Memref sig .tc .vmem S400x9 .i32) (harg1 : arg1.IsWhole)
    (arg2 : Memref sig .tc .vmem S4608x128 .f32) (harg2 : arg2.IsWhole)
    (arg3 : Memref sig .tc .vmem S400x128 .f32) (harg3 : arg3.IsWhole)
    (x0 : Vec F S400x9 .i32) (x1 : Vec F S4608x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__emb_kernel i arg1 harg1 arg2 harg2 arg3 harg3) K := by
  simp only [cc0__emb_kernel_eq_skeleton]; unfold cc0__emb_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.BReg1.lean ====
import proofs.«402767_j7713761264261_1_alg».proof.Proof.Gen.Kernel.Launch
import proofs.«402767_j7713761264261_1_alg».proof.Proof.Gen.Kernel.Skeleton
import proofs.«402767_j7713761264261_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rX1 : Rect S5000x128 := Rect.unit (s := S5000x128) ![0, 0] S5000x128.size inb_S5000x128_S5000x128_0_0
abbrev rW1 : Rect S128x128 := Rect.unit (s := S128x128) ![0, 0] S128x128.size inb_S128x128_S128x128_0_0

def out1_2 (x0 : Vec F S5000x128 .f32) (x1 : Vec F S128x128 .f32) : Vec F S5000x128 .f32 :=
  View.canon [⟨rX1, k1_pay1 (View.ld x0 rX1) (View.ld x1 rW1)⟩]

theorem cover1_2 (p0 : Vec F S5000x128 .f32) (y : S5000x128.Idx) :
    ∃ pc ∈ ([⟨rX1, p0⟩] : List (View.Piece (Elt F) S5000x128 .f32)), y ∈ pc.1.set :=
  View.cover_of_tiled [⟨rX1, p0⟩] S5000x128.size (by rfl) y

set_option maxHeartbeats 1000000 in
theorem sound_kernel1 (c : Dev nD) (E : Set ℕ) (i : grid1.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region1

end Cert.Kernel.Hand
-- ==== Proof.BRuns2.lean ====
import proofs.«402767_j7713761264261_1_alg».proof.Proof.Gen.Kernel.Launch
import proofs.«402767_j7713761264261_1_alg».proof.Proof.Gen.Kernel.Skeleton
import proofs.«402767_j7713761264261_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl

abbrev cond2_0 (i : grid2.Coords) : Prop :=
  (Scalar.cmpi .ne (Scalar.extui (Scalar.cmpi .eq (BitVec.ofNat 32 (i 0).val) 0#32)) 0#32) = 1#1
abbrev cond2_1 (i : grid2.Coords) : Prop := k2_cond2 i = 1#1

theorem hcond2_0 : ∀ t : Fin cfg2.N, cond2_0 (grid2.coords t) ↔ t.val % 10 = 0 :=
  (by decide +kernel : ∀ t : Fin grid2.N, cond2_0 (grid2.coords t) ↔ t.val % 10 = 0)
theorem hcond2_1 : ∀ t : Fin cfg2.N, cond2_1 (grid2.coords t) ↔ t.val % 10 = 9 :=
  (by decide +kernel : ∀ t : Fin grid2.N, cond2_1 (grid2.coords t) ↔ t.val % 10 = 9)

theorem liveAt2_0 : ∀ t : Fin cfg2.N, cfg2.idle 0 (grid2.coords t) = false := by decide +kernel
theorem idleAt2_1 : ∀ t : Fin cfg2.N, ¬ t.val % 10 = 9 → cfg2.idle 1 (grid2.coords t) = true := by decide +kernel
theorem idleAt2_2 : ∀ t : Fin cfg2.N, ¬ t.val % 10 = 9 → cfg2.idle 2 (grid2.coords t) = true := by decide +kernel
theorem liveAt2_1 : ∀ t : Fin cfg2.N, t.val % 10 = 9 → cfg2.idle 1 (grid2.coords t) = false := by decide +kernel
theorem liveAt2_2 : ∀ t : Fin cfg2.N, t.val % 10 = 9 → cfg2.idle 2 (grid2.coords t) = false := by decide +kernel
theorem noFlush2_1 : ∀ t : Fin cfg2.N, ¬ t.val % 10 = 9 → (cfg2.win 1).flush t = false := by decide +kernel
theorem noFlush2_2 : ∀ t : Fin cfg2.N, ¬ t.val % 10 = 9 → (cfg2.win 2).flush t = false := by decide +kernel

theorem cover2 (w : Vec F S1x128 .f32) (L : List (View.Piece (Elt F) S1x128 .f32)) (y : S1x128.Idx) :
    ∃ pc ∈ ((⟨Rect.unit (s := S1x128) ![0, 0] S1x128.size inb_S1x128_S1x128_0_0, w⟩ : View.Piece (Elt F) S1x128 .f32) :: L), y ∈ pc.1.set :=
  ⟨_, List.mem_cons_self, View.mem_set_unit_zero zero2 inb_S1x128_S1x128_0_0 y⟩

set_option maxHeartbeats 1000000 in
theorem sound_kernel2_A (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : cond2_0 i) (hc1 : ¬cond2_1 i) (x0 : Vec F S5000x128 .f32) (xi1 xi2 : Vec F S1x128 .f32) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k2_pay4 x0 (k2_pay1 (F := F)))
            ∗ owns (c : Thread nD τ) arg5 fullShare (k2_pay5 x0 (k2_pay2 (F := F)))) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    sl_unfold_words
    rw [View.read_writes_eq_canon _ _ _ (cover2 _ _), View.canon_cons_unit_zero (S := S1x128) zero2,
      View.readCov_unit_zero (S := S1x128) _ zero2, View.readAt_eq_ld, harg1.read_unread, View.ld_unit_zero (S := S5000x128) zero2]
  · iexists _; isplitr
    swap; · iexact HS1
    ipureintro
    sl_unfold_words
    rw [View.read_writes_eq_canon _ _ _ (cover2 _ _), View.canon_cons_unit_zero (S := S1x128) zero2,
      View.readCov_unit_zero (S := S1x128) _ zero2, View.readAt_eq_ld, harg1.read_unread, View.ld_unit_zero (S := S5000x128) zero2]

set_option maxHeartbeats 1000000 in
theorem sound_kernel2_B (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond2_0 i) (hc1 : ¬cond2_1 i) (x0 : Vec F S5000x128 .f32) (xi1 xi2 s0 s1 : Vec F S1x128 .f32) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare s0 ∗ owns (c : Thread nD τ) arg5 fullShare s1
        ∗ (iprop(owns (c : Thread nD τ) arg1 fullShare x0 ∗ owns (c : Thread nD τ) arg2 fullShare xi1 ∗ owns (c : Thread nD τ) arg3 fullShare xi2
            ∗ owns (c : Thread nD τ) arg4 fullShare (k2_pay4 x0 s0)
            ∗ owns (c : Thread nD τ) arg5 fullShare (k2_pay5 x0 s1)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    sl_unfold_words
    rw [View.read_writes_eq_canon _ _ _ (cover2 _ _), View.canon_cons_unit_zero (S := S1x128) zero2]
    simp only [View.readAt_eq_ld, harg1.read_unread, harg4.read_unread, View.ld_unit_zero (S := S5000x128) zero2, View.ld_unit_zero (S := S1x128) zero2]
  · iexists _; isplitr
    swap; · iexact HS1
    ipureintro
    sl_unfold_words
    rw [View.read_writes_eq_canon _ _ _ (cover2 _ _), View.canon_cons_unit_zero (S := S1x128) zero2]
    simp only [View.readAt_eq_ld, harg1.read_unread, harg5.read_unread, View.ld_unit_zero (S := S5000x128) zero2, View.ld_unit_zero (S := S1x128) zero2]

set_option maxHeartbeats 1000000 in
theorem sound_kernel2_C (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond2_0 i) (hc1 : cond2_1 i) (x0 : Vec F S5000x128 .f32) (s0 s1 : Vec F S1x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0
            ∗ owns (c : Thread nD τ) arg2 fullShare (k2_pay4 x0 s0) ∗ owns (c : Thread nD τ) arg3 fullShare (k2_pay5 x0 s1)
            ∗ owns (c : Thread nD τ) arg4 fullShare (k2_pay4 x0 s0)
            ∗ owns (c : Thread nD τ) arg5 fullShare (k2_pay5 x0 s1)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg1.eq_unread hf0
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]
  · iexists _; isplitr
    swap; · iexact H1
    ipureintro
    sl_unfold_words
    rw [View.read_writes_eq_canon _ _ _ (cover2 _ _), View.canon_cons_unit_zero (S := S1x128) zero2,
      View.readCov_unit_zero (S := S1x128) _ zero2]
    simp only [View.readAt_eq_ld, harg1.read_unread, harg4.read_unread, View.ld_unit_zero (S := S5000x128) zero2, View.ld_unit_zero (S := S1x128) zero2]
  isplitl [H2]
  · iexists _; isplitr
    swap; · iexact H2
    ipureintro
    sl_unfold_words
    rw [View.read_writes_eq_canon _ _ _ (cover2 _ _), View.canon_cons_unit_zero (S := S1x128) zero2,
      View.readCov_unit_zero (S := S1x128) _ zero2]
    simp only [View.readAt_eq_ld, harg1.read_unread, harg5.read_unread, View.ld_unit_zero (S := S5000x128) zero2, View.ld_unit_zero (S := S1x128) zero2]
  isplitl [HS0]
  · iexists _; isplitr
    swap; · iexact HS0
    ipureintro
    sl_unfold_words
    rw [View.read_writes_eq_canon _ _ _ (cover2 _ _), View.canon_cons_unit_zero (S := S1x128) zero2]
    simp only [View.readAt_eq_ld, harg1.read_unread, harg4.read_unread, View.ld_unit_zero (S := S5000x128) zero2, View.ld_unit_zero (S := S1x128) zero2]
  · iexists _; isplitr
    swap; · iexact HS1
    ipureintro
    sl_unfold_words
    rw [View.read_writes_eq_canon _ _ _ (cover2 _ _), View.canon_cons_unit_zero (S := S1x128) zero2]
    simp only [View.readAt_eq_ld, harg1.read_unread, harg5.read_unread, View.ld_unit_zero (S := S5000x128) zero2, View.ld_unit_zero (S := S1x128) zero2]

end Cert.Kernel.Hand
-- ==== Proof.BReg2.lean ====
import proofs.«402767_j7713761264261_1_alg».proof.Proof.Gen.Kernel.Launch
import proofs.«402767_j7713761264261_1_alg».proof.Proof.Gen.Kernel.Skeleton
import proofs.«402767_j7713761264261_1_alg».proof.Proof.Gen.Kernel.Points
import proofs.«402767_j7713761264261_1_alg».proof.Proof.BRuns2

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

def sacc2 (c : Dev nD) : (n : ℕ) → n < cfg2.N → Vec F S1x128 .f32 × Vec F S1x128 .f32
  | 0, hn => (k2_pay4 (iblk2 V c 0 ⟨0, hn⟩) (k2_pay1 (F := F)), k2_pay5 (iblk2 V c 0 ⟨0, hn⟩) (k2_pay2 (F := F)))
  | n + 1, hn => (k2_pay4 (iblk2 V c 0 ⟨n + 1, hn⟩) (sacc2 c n (Nat.lt_of_succ_lt hn)).1,
      k2_pay5 (iblk2 V c 0 ⟨n + 1, hn⟩) (sacc2 c n (Nat.lt_of_succ_lt hn)).2)

theorem sacc2_first (c : Dev nD) (t : Fin cfg2.N) (hz : t.val = 0) :
    sacc2 V c t.val t.isLt = (k2_pay4 (iblk2 V c 0 t) (k2_pay1 (F := F)), k2_pay5 (iblk2 V c 0 t) (k2_pay2 (F := F))) := by
  obtain ⟨n, hn⟩ := t
  cases n with
  | zero => exact rfl
  | succ n => exact absurd hz (Nat.succ_ne_zero n)

theorem sacc2_later (c : Dev nD) (t : Fin cfg2.N) (hz : t.val ≠ 0) :
    sacc2 V c t.val t.isLt = (k2_pay4 (iblk2 V c 0 t) (sacc2 V c (t.val - 1) (Nat.lt_of_le_of_lt (Nat.sub_le _ _) t.isLt)).1,
      k2_pay5 (iblk2 V c 0 t) (sacc2 V c (t.val - 1) (Nat.lt_of_le_of_lt (Nat.sub_le _ _) t.isLt)).2) := by
  obtain ⟨n, hn⟩ := t
  cases n with
  | zero => exact absurd rfl hz
  | succ n => exact rfl

def out2_1 (c : Dev nD) (t : Fin cfg2.N) : Vec F S1x128 .f32 := (sacc2 V c t.val t.isLt).1
def out2_2 (c : Dev nD) (t : Fin cfg2.N) : Vec F S1x128 .f32 := (sacc2 V c t.val t.isLt).2

abbrev scM2_0 : Memref sig .tc .vmem S1x128 .f32 := Memref.whole cc2_scratch0
abbrev scM2_1 : Memref sig .tc .vmem S1x128 .f32 := Memref.whole cc2_scratch1

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

def PhiS2 (c : Dev nD) : (n : ℕ) → n ≤ cfg2.N → sProp 𝕄
  | 0, _ => Pipeline.ΦA spec2 c
  | n + 1, hn => iprop(iprop(iprop(owns (c : Thread nD τ) scM2_0 fullShare (sacc2 V c n hn).1 ∗ owns (c : Thread nD τ) scM2_1 fullShare (sacc2 V c n hn).2)
      ∗ Pipeline.scopedRestBut (Ix := Unit) (Name := ℕ) (U := UR sig nD τ) (Lvl := ℕ) (Val := Elt F) spec2 c [cc2_scratch0, cc2_scratch1])
      ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (sacc2 V c n hn).1 ∗ owns (c : Thread nD τ) scM2_1 fullShare (sacc2 V c n hn).2)
      ∗ Pipeline.scopedRestBut (Ix := Unit) (Name := ℕ) (U := UR sig nD τ) (Lvl := ℕ) (Val := Elt F) spec2 c [cc2_scratch0, cc2_scratch1])
      ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (sacc2 V c (n - 1) (by omega)).1 ∗ owns (c : Thread nD τ) scM2_1 fullShare (sacc2 V c (n - 1) (by omega)).2)
      ∗ Pipeline.scopedRestBut (Ix := Unit) (Name := ℕ) (U := UR sig nD τ) (Lvl := ℕ) (Val := Elt F) spec2 c [cc2_scratch0, cc2_scratch1])
      ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 V c t
    | ⟨2, _⟩ => out2_2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = out2_1 V c t := by dsimp only [dat2]
theorem after2_2 (c : Dev nD) (t : Fin cfg2.N) : (dat2 V c).after 2 t = out2_2 V c t := by dsimp only [dat2]

theorem before2_0 (c : Dev nD) (t : Fin cfg2.N) (d) : (dat2 V c).before 0 t d = iblk2 V c 0 t :=
  before2_0_of V (dat2 V c) (A_eq2 V c 0) (after2_0 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (st2_0 t) fullShare ((dat2 V c).after 0 t) from by
    unfold Dat.leavesExact; rw [liveAt2_0 t], after2_0]
  by_cases h9 : t.val % 10 = 9
  · have hz : t.val ≠ 0 := by omega
    rw [show (dat2 V c).leavesExact 1 t = owns (c : Thread nD τ) (st2_1 t) fullShare ((dat2 V c).after 1 t) from by
      unfold Dat.leavesExact; rw [liveAt2_1 t h9], after2_1]
    rw [show (dat2 V c).leavesExact 2 t = owns (c : Thread nD τ) (st2_2 t) fullShare ((dat2 V c).after 2 t) from by
      unfold Dat.leavesExact; rw [liveAt2_2 t h9], after2_2]
    unfold out2_1 out2_2
    rw [sacc2_later V c t hz]; (try dsimp only)
    rw [PhiS2_castSucc V c t, PhiS2_pos V c _ _ hz]
    iintro ⟨⟨⟨⟨HS0, HS1⟩, Hrest⟩, Hg⟩, Ho, ⟨%d0, H0⟩, ⟨%d1, H1⟩, ⟨%d2, H2⟩⟩
    iapply (sound_kernel2_C c Set.univ (grid2.coords t) _ _ _ _ _ _ _ _ _ _
      (fun h => hz (by have := (hcond2_0 t).mp h; omega)) ((hcond2_1 t).mpr h9) (iblk2 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    iexact H2
  · rw [Dat.leavesExact_idle (dat2 V c) 1 t (idleAt2_1 t h9) (noFlush2_1 t h9)]
    rw [Dat.leavesExact_idle (dat2 V c) 2 t (idleAt2_2 t h9) (noFlush2_2 t h9)]
    by_cases hz : t.val = 0
    · rw [sacc2_first V c t hz]; (try dsimp only)
      rw [PhiS2_castSucc V c t, PhiS2_zero V c _ _ hz, PhiA2_eq]
      iintro ⟨⟨⟨⟨HS0, HS1⟩, Hrest⟩, Hg⟩, Ho, ⟨%d0, H0⟩, ⟨%d1, H1⟩, ⟨%d2, H2⟩⟩
      iapply (sound_kernel2_A c Set.univ (grid2.coords t) _ _ _ _ _ _ _ _ _ _
        ((hcond2_0 t).mpr (by omega)) (fun h => h9 ((hcond2_1 t).mp h)) (iblk2 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2
    · rw [sacc2_later V c t hz]; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩⟩
      iapply (sound_kernel2_B c Set.univ (grid2.coords t) _ _ _ _ _ _ _ _ _ _
        (fun h => hz (by have := (hcond2_0 t).mp h; omega)) (fun h => h9 ((hcond2_1 t).mp h)) (iblk2 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2

theorem body_obligation2 (c : Dev nD) : BodyObligation (dat2 (F := F) V c) (defs₀ (F := F)) Variants.none () Set.univ := fun t => by
  rw [bigSep_W2, bigSep_W2]
  exact sound_body2 V c t

theorem Phi2_zero (c : Dev nD) : (dat2 V c).Φ 0 = Pipeline.ΦA spec2 c := rfl

theorem hin2 (c : Dev nD) : Pipeline.ΦA spec2 c ⊢ (dat2 V c).Φ 0 := by
  rw [Phi2_zero]

theorem Phi2_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout2 (c : Dev nD) : (dat2 V c).Φ (Fin.last cfg2.N) ⊢ Pipeline.ΦA spec2 c :=
  Phi2_out V c _ (by rw [Fin.val_last]; have : cfg2.N = 10 := N_2; omega)

end Cert.Kernel.Hand
-- ==== Proof.BReg3.lean ====
import proofs.«402767_j7713761264261_1_alg».proof.Proof.Gen.Kernel.Launch
import proofs.«402767_j7713761264261_1_alg».proof.Proof.Gen.Kernel.Skeleton
import proofs.«402767_j7713761264261_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_blk : Rect S5000x128 := Rect.unit (s := S5000x128) ![0, 0] S5000x128.size inb_S5000x128_S5000x128_0_0
abbrev r3_row : Rect S1x128 := Rect.unit (s := S1x128) ![0, 0] S1x128.size inb_S1x128_S1x128_0_0

def out3_3 (x0 : Vec F S5000x128 .f32) (x1 : Vec F S1x128 .f32) (x2 : Vec F S1x128 .f32) : Vec F S5000x128 .f32 :=
  View.canon [⟨r3_blk, k3_pay1 (View.ld x0 r3_blk) (View.ld x1 r3_row) (View.ld x2 r3_row)⟩]

theorem cover3_3 (p0 : Vec F S5000x128 .f32) (y : S5000x128.Idx) :
    ∃ pc ∈ ([⟨r3_blk, p0⟩] : List (View.Piece (Elt F) S5000x128 .f32)), y ∈ pc.1.set :=
  View.cover_of_tiled [⟨r3_blk, p0⟩] S5000x128.size (by rfl) y

set_option maxHeartbeats 1000000 in
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__bn_apply_kernel i arg1 harg1 arg2 harg2 arg3 harg3 arg4 harg4) K := by
  simp only [cc3__bn_apply_kernel_eq_skeleton]; unfold cc3__bn_apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.BReg4.lean ====
import proofs.«402767_j7713761264261_1_alg».proof.Proof.BReg1

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out1_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out1_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [show cc4__matmul_kernel (F := F) = cc1__matmul_kernel from rfl]
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel1 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Region4

end Cert.Kernel.Hand
-- ==== Proof.BRuns5.lean ====
import proofs.«402767_j7713761264261_1_alg».proof.Proof.BRuns2

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond5_0 (i : grid5.Coords) : Prop :=
  (Scalar.cmpi .ne (Scalar.extui (Scalar.cmpi .eq (BitVec.ofNat 32 (i 0).val) 0#32)) 0#32) = 1#1
abbrev cond5_1 (i : grid5.Coords) : Prop := k5_cond2 i = 1#1

theorem hcond5_0 : ∀ t : Fin cfg5.N, cond5_0 (grid5.coords t) ↔ t.val % 10 = 0 :=
  (by decide +kernel : ∀ t : Fin grid5.N, cond5_0 (grid5.coords t) ↔ t.val % 10 = 0)
theorem hcond5_1 : ∀ t : Fin cfg5.N, cond5_1 (grid5.coords t) ↔ t.val % 10 = 9 :=
  (by decide +kernel : ∀ t : Fin grid5.N, cond5_1 (grid5.coords t) ↔ t.val % 10 = 9)

theorem liveAt5_0 : ∀ t : Fin cfg5.N, cfg5.idle 0 (grid5.coords t) = false := by decide +kernel
theorem idleAt5_1 : ∀ t : Fin cfg5.N, ¬ t.val % 10 = 9 → cfg5.idle 1 (grid5.coords t) = true := by decide +kernel
theorem idleAt5_2 : ∀ t : Fin cfg5.N, ¬ t.val % 10 = 9 → cfg5.idle 2 (grid5.coords t) = true := by decide +kernel
theorem liveAt5_1 : ∀ t : Fin cfg5.N, t.val % 10 = 9 → cfg5.idle 1 (grid5.coords t) = false := by decide +kernel
theorem liveAt5_2 : ∀ t : Fin cfg5.N, t.val % 10 = 9 → cfg5.idle 2 (grid5.coords t) = false := by decide +kernel
theorem noFlush5_1 : ∀ t : Fin cfg5.N, ¬ t.val % 10 = 9 → (cfg5.win 1).flush t = false := by decide +kernel
theorem noFlush5_2 : ∀ t : Fin cfg5.N, ¬ t.val % 10 = 9 → (cfg5.win 2).flush t = false := by decide +kernel

end Cert.Kernel.Hand
-- ==== Proof.BReg5.lean ====
import proofs.«402767_j7713761264261_1_alg».proof.Proof.Gen.Kernel.Launch
import proofs.«402767_j7713761264261_1_alg».proof.Proof.Gen.Kernel.Skeleton
import proofs.«402767_j7713761264261_1_alg».proof.Proof.Gen.Kernel.Points
import proofs.«402767_j7713761264261_1_alg».proof.Proof.BRuns5

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

def sacc5 (c : Dev nD) : (n : ℕ) → n < cfg5.N → Vec F S1x128 .f32 × Vec F S1x128 .f32
  | 0, hn => (k2_pay4 (iblk5 V c 0 ⟨0, hn⟩) (k2_pay1 (F := F)), k2_pay5 (iblk5 V c 0 ⟨0, hn⟩) (k2_pay2 (F := F)))
  | n + 1, hn => (k2_pay4 (iblk5 V c 0 ⟨n + 1, hn⟩) (sacc5 c n (Nat.lt_of_succ_lt hn)).1,
      k2_pay5 (iblk5 V c 0 ⟨n + 1, hn⟩) (sacc5 c n (Nat.lt_of_succ_lt hn)).2)

theorem sacc5_first (c : Dev nD) (t : Fin cfg5.N) (hz : t.val = 0) :
    sacc5 V c t.val t.isLt = (k2_pay4 (iblk5 V c 0 t) (k2_pay1 (F := F)), k2_pay5 (iblk5 V c 0 t) (k2_pay2 (F := F))) := by
  obtain ⟨n, hn⟩ := t
  cases n with
  | zero => exact rfl
  | succ n => exact absurd hz (Nat.succ_ne_zero n)

theorem sacc5_later (c : Dev nD) (t : Fin cfg5.N) (hz : t.val ≠ 0) :
    sacc5 V c t.val t.isLt = (k2_pay4 (iblk5 V c 0 t) (sacc5 V c (t.val - 1) (Nat.lt_of_le_of_lt (Nat.sub_le _ _) t.isLt)).1,
      k2_pay5 (iblk5 V c 0 t) (sacc5 V c (t.val - 1) (Nat.lt_of_le_of_lt (Nat.sub_le _ _) t.isLt)).2) := by
  obtain ⟨n, hn⟩ := t
  cases n with
  | zero => exact absurd rfl hz
  | succ n => exact rfl

def out5_1 (c : Dev nD) (t : Fin cfg5.N) : Vec F S1x128 .f32 := (sacc5 V c t.val t.isLt).1
def out5_2 (c : Dev nD) (t : Fin cfg5.N) : Vec F S1x128 .f32 := (sacc5 V c t.val t.isLt).2

abbrev scM5_0 : Memref sig .tc .vmem S1x128 .f32 := Memref.whole cc5_scratch0
abbrev scM5_1 : Memref sig .tc .vmem S1x128 .f32 := Memref.whole cc5_scratch1

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1])
          ∗ (∃ r, prngReg c r)) := by
  unfold Pipeline.ΦA; rw [scopedRest5_split]; simp only [scM5_0, scM5_1, owns_whole]; try rfl

def PhiS5 (c : Dev nD) : (n : ℕ) → n ≤ cfg5.N → sProp 𝕄
  | 0, _ => Pipeline.ΦA spec5 c
  | n + 1, hn => iprop(iprop(iprop(owns (c : Thread nD τ) scM5_0 fullShare (sacc5 V c n hn).1 ∗ owns (c : Thread nD τ) scM5_1 fullShare (sacc5 V c n hn).2)
      ∗ Pipeline.scopedRestBut (Ix := Unit) (Name := ℕ) (U := UR sig nD τ) (Lvl := ℕ) (Val := Elt F) spec5 c [cc5_scratch0, cc5_scratch1])
      ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare (sacc5 V c n hn).1 ∗ owns (c : Thread nD τ) scM5_1 fullShare (sacc5 V c n hn).2)
      ∗ Pipeline.scopedRestBut (Ix := Unit) (Name := ℕ) (U := UR sig nD τ) (Lvl := ℕ) (Val := Elt F) spec5 c [cc5_scratch0, cc5_scratch1])
      ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare (sacc5 V c (n - 1) (by omega)).1 ∗ owns (c : Thread nD τ) scM5_1 fullShare (sacc5 V c (n - 1) (by omega)).2)
      ∗ Pipeline.scopedRestBut (Ix := Unit) (Name := ℕ) (U := UR sig nD τ) (Lvl := ℕ) (Val := Elt F) spec5 c [cc5_scratch0, cc5_scratch1])
      ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => out5_1 V c t
    | ⟨2, _⟩ => out5_2 V c t
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = out5_1 V c t := by dsimp only [dat5]
theorem after5_2 (c : Dev nD) (t : Fin cfg5.N) : (dat5 V c).after 2 t = out5_2 V c t := by dsimp only [dat5]

theorem before5_0 (c : Dev nD) (t : Fin cfg5.N) (d) : (dat5 V c).before 0 t d = iblk5 V c 0 t :=
  before5_0_of V (dat5 V c) (A_eq5 V c 0) (after5_0 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [show cc5__bn_stats_kernel (F := F) = cc2__bn_stats_kernel from rfl]
  simp only [before5_0]
  rw [show (dat5 V c).owesAt () t.succ = (dat5 V c).owesAt () t.castSucc from rfl]
  rw [show (dat5 V c).Φ t.succ = PhiS5 V c (t.val + 1) t.isLt from rfl, PhiS5_succ]
  have hN : t.val < 10 := lt_of_lt_of_eq t.isLt (show cfg5.N = 10 from N_5)
  rw [show (dat5 V c).leavesExact 0 t = owns (c : Thread nD τ) (st5_0 t) fullShare ((dat5 V c).after 0 t) from by
    unfold Dat.leavesExact; rw [liveAt5_0 t], after5_0]
  by_cases h9 : t.val % 10 = 9
  · have hz : t.val ≠ 0 := by omega
    rw [show (dat5 V c).leavesExact 1 t = owns (c : Thread nD τ) (st5_1 t) fullShare ((dat5 V c).after 1 t) from by
      unfold Dat.leavesExact; rw [liveAt5_1 t h9], after5_1]
    rw [show (dat5 V c).leavesExact 2 t = owns (c : Thread nD τ) (st5_2 t) fullShare ((dat5 V c).after 2 t) from by
      unfold Dat.leavesExact; rw [liveAt5_2 t h9], after5_2]
    unfold out5_1 out5_2
    rw [sacc5_later V c t hz]; (try dsimp only)
    rw [PhiS5_castSucc V c t, PhiS5_pos V c _ _ hz]
    iintro ⟨⟨⟨⟨HS0, HS1⟩, Hrest⟩, Hg⟩, Ho, ⟨%d0, H0⟩, ⟨%d1, H1⟩, ⟨%d2, H2⟩⟩
    iapply (sound_kernel2_C c Set.univ (grid5.coords t) _ _ _ _ _ _ _ _ _ _
      (fun h => hz (by have := (hcond5_0 t).mp h; omega)) ((hcond5_1 t).mpr h9) (iblk5 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    iexact H2
  · rw [Dat.leavesExact_idle (dat5 V c) 1 t (idleAt5_1 t h9) (noFlush5_1 t h9)]
    rw [Dat.leavesExact_idle (dat5 V c) 2 t (idleAt5_2 t h9) (noFlush5_2 t h9)]
    by_cases hz : t.val = 0
    · rw [sacc5_first V c t hz]; (try dsimp only)
      rw [PhiS5_castSucc V c t, PhiS5_zero V c _ _ hz, PhiA5_eq]
      iintro ⟨⟨⟨⟨HS0, HS1⟩, Hrest⟩, Hg⟩, Ho, ⟨%d0, H0⟩, ⟨%d1, H1⟩, ⟨%d2, H2⟩⟩
      iapply (sound_kernel2_A c Set.univ (grid5.coords t) _ _ _ _ _ _ _ _ _ _
        ((hcond5_0 t).mpr (by omega)) (fun h => h9 ((hcond5_1 t).mp h)) (iblk5 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2
    · rw [sacc5_later V c t hz]; (try dsimp only)
      rw [PhiS5_castSucc V c t, PhiS5_pos V c _ _ hz]
      iintro ⟨⟨⟨⟨HS0, HS1⟩, Hrest⟩, Hg⟩, Ho, ⟨%d0, H0⟩, ⟨%d1, H1⟩, ⟨%d2, H2⟩⟩
      iapply (sound_kernel2_B c Set.univ (grid5.coords t) _ _ _ _ _ _ _ _ _ _
        (fun h => hz (by have := (hcond5_0 t).mp h; omega)) (fun h => h9 ((hcond5_1 t).mp h)) (iblk5 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2

theorem body_obligation5 (c : Dev nD) : BodyObligation (dat5 (F := F) V c) (defs₀ (F := F)) Variants.none () Set.univ := fun t => by
  rw [bigSep_W5, bigSep_W5]
  exact sound_body5 V c t

theorem Phi5_zero (c : Dev nD) : (dat5 V c).Φ 0 = Pipeline.ΦA spec5 c := rfl

theorem hin5 (c : Dev nD) : Pipeline.ΦA spec5 c ⊢ (dat5 V c).Φ 0 := by
  rw [Phi5_zero]

theorem Phi5_out (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout5 (c : Dev nD) : (dat5 V c).Φ (Fin.last cfg5.N) ⊢ Pipeline.ΦA spec5 c :=
  Phi5_out V c _ (by rw [Fin.val_last]; have : cfg5.N = 10 := N_5; omega)

end Cert.Kernel.Hand
-- ==== Proof.BReg6.lean ====
import proofs.«402767_j7713761264261_1_alg».proof.Proof.BReg3

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out3_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out3_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [show cc6__bn_apply_kernel (F := F) = cc3__bn_apply_kernel from rfl]
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel3 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.BReg7.lean ====
import proofs.«402767_j7713761264261_1_alg».proof.Proof.BReg1

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out1_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) :
    (dat7 V c).after 2 t = out1_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [show cc7__matmul_kernel (F := F) = cc1__matmul_kernel from rfl]
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel1 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

end Region7

end Cert.Kernel.Hand
-- ==== Proof.BRuns8.lean ====
import proofs.«402767_j7713761264261_1_alg».proof.Proof.BRuns2

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond8_0 (i : grid8.Coords) : Prop :=
  (Scalar.cmpi .ne (Scalar.extui (Scalar.cmpi .eq (BitVec.ofNat 32 (i 0).val) 0#32)) 0#32) = 1#1
abbrev cond8_1 (i : grid8.Coords) : Prop := k8_cond2 i = 1#1

theorem hcond8_0 : ∀ t : Fin cfg8.N, cond8_0 (grid8.coords t) ↔ t.val % 10 = 0 :=
  (by decide +kernel : ∀ t : Fin grid8.N, cond8_0 (grid8.coords t) ↔ t.val % 10 = 0)
theorem hcond8_1 : ∀ t : Fin cfg8.N, cond8_1 (grid8.coords t) ↔ t.val % 10 = 9 :=
  (by decide +kernel : ∀ t : Fin grid8.N, cond8_1 (grid8.coords t) ↔ t.val % 10 = 9)

theorem liveAt8_0 : ∀ t : Fin cfg8.N, cfg8.idle 0 (grid8.coords t) = false := by decide +kernel
theorem idleAt8_1 : ∀ t : Fin cfg8.N, ¬ t.val % 10 = 9 → cfg8.idle 1 (grid8.coords t) = true := by decide +kernel
theorem idleAt8_2 : ∀ t : Fin cfg8.N, ¬ t.val % 10 = 9 → cfg8.idle 2 (grid8.coords t) = true := by decide +kernel
theorem liveAt8_1 : ∀ t : Fin cfg8.N, t.val % 10 = 9 → cfg8.idle 1 (grid8.coords t) = false := by decide +kernel
theorem liveAt8_2 : ∀ t : Fin cfg8.N, t.val % 10 = 9 → cfg8.idle 2 (grid8.coords t) = false := by decide +kernel
theorem noFlush8_1 : ∀ t : Fin cfg8.N, ¬ t.val % 10 = 9 → (cfg8.win 1).flush t = false := by decide +kernel
theorem noFlush8_2 : ∀ t : Fin cfg8.N, ¬ t.val % 10 = 9 → (cfg8.win 2).flush t = false := by decide +kernel

end Cert.Kernel.Hand
-- ==== Proof.BReg8.lean ====
import proofs.«402767_j7713761264261_1_alg».proof.Proof.Gen.Kernel.Launch
import proofs.«402767_j7713761264261_1_alg».proof.Proof.Gen.Kernel.Skeleton
import proofs.«402767_j7713761264261_1_alg».proof.Proof.Gen.Kernel.Points
import proofs.«402767_j7713761264261_1_alg».proof.Proof.BRuns8

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

def sacc8 (c : Dev nD) : (n : ℕ) → n < cfg8.N → Vec F S1x128 .f32 × Vec F S1x128 .f32
  | 0, hn => (k2_pay4 (iblk8 V c 0 ⟨0, hn⟩) (k2_pay1 (F := F)), k2_pay5 (iblk8 V c 0 ⟨0, hn⟩) (k2_pay2 (F := F)))
  | n + 1, hn => (k2_pay4 (iblk8 V c 0 ⟨n + 1, hn⟩) (sacc8 c n (Nat.lt_of_succ_lt hn)).1,
      k2_pay5 (iblk8 V c 0 ⟨n + 1, hn⟩) (sacc8 c n (Nat.lt_of_succ_lt hn)).2)

theorem sacc8_first (c : Dev nD) (t : Fin cfg8.N) (hz : t.val = 0) :
    sacc8 V c t.val t.isLt = (k2_pay4 (iblk8 V c 0 t) (k2_pay1 (F := F)), k2_pay5 (iblk8 V c 0 t) (k2_pay2 (F := F))) := by
  obtain ⟨n, hn⟩ := t
  cases n with
  | zero => exact rfl
  | succ n => exact absurd hz (Nat.succ_ne_zero n)

theorem sacc8_later (c : Dev nD) (t : Fin cfg8.N) (hz : t.val ≠ 0) :
    sacc8 V c t.val t.isLt = (k2_pay4 (iblk8 V c 0 t) (sacc8 V c (t.val - 1) (Nat.lt_of_le_of_lt (Nat.sub_le _ _) t.isLt)).1,
      k2_pay5 (iblk8 V c 0 t) (sacc8 V c (t.val - 1) (Nat.lt_of_le_of_lt (Nat.sub_le _ _) t.isLt)).2) := by
  obtain ⟨n, hn⟩ := t
  cases n with
  | zero => exact absurd rfl hz
  | succ n => exact rfl

def out8_1 (c : Dev nD) (t : Fin cfg8.N) : Vec F S1x128 .f32 := (sacc8 V c t.val t.isLt).1
def out8_2 (c : Dev nD) (t : Fin cfg8.N) : Vec F S1x128 .f32 := (sacc8 V c t.val t.isLt).2

abbrev scM8_0 : Memref sig .tc .vmem S1x128 .f32 := Memref.whole cc8_scratch0
abbrev scM8_1 : Memref sig .tc .vmem S1x128 .f32 := Memref.whole cc8_scratch1

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1])
          ∗ (∃ r, prngReg c r)) := by
  unfold Pipeline.ΦA; rw [scopedRest8_split]; simp only [scM8_0, scM8_1, owns_whole]; try rfl

def PhiS8 (c : Dev nD) : (n : ℕ) → n ≤ cfg8.N → sProp 𝕄
  | 0, _ => Pipeline.ΦA spec8 c
  | n + 1, hn => iprop(iprop(iprop(owns (c : Thread nD τ) scM8_0 fullShare (sacc8 V c n hn).1 ∗ owns (c : Thread nD τ) scM8_1 fullShare (sacc8 V c n hn).2)
      ∗ Pipeline.scopedRestBut (Ix := Unit) (Name := ℕ) (U := UR sig nD τ) (Lvl := ℕ) (Val := Elt F) spec8 c [cc8_scratch0, cc8_scratch1])
      ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare (sacc8 V c n hn).1 ∗ owns (c : Thread nD τ) scM8_1 fullShare (sacc8 V c n hn).2)
      ∗ Pipeline.scopedRestBut (Ix := Unit) (Name := ℕ) (U := UR sig nD τ) (Lvl := ℕ) (Val := Elt F) spec8 c [cc8_scratch0, cc8_scratch1])
      ∗ (∃ r, prngReg c r)) := rfl

theorem PhiS8_pos (c : Dev nD) (n : ℕ) (h : n ≤ cfg8.N) (hz : n ≠ 0) :
    PhiS8 V c n h = iprop(iprop(iprop(owns (c : Thread nD τ) scM8_0 fullShare (sacc8 V c (n - 1) (by omega)).1 ∗ owns (c : Thread nD τ) scM8_1 fullShare (sacc8 V c (n - 1) (by omega)).2)
      ∗ Pipeline.scopedRestBut (Ix := Unit) (Name := ℕ) (U := UR sig nD τ) (Lvl := ℕ) (Val := Elt F) spec8 c [cc8_scratch0, cc8_scratch1])
      ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => out8_1 V c t
    | ⟨2, _⟩ => out8_2 V c t
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = out8_1 V c t := by dsimp only [dat8]
theorem after8_2 (c : Dev nD) (t : Fin cfg8.N) : (dat8 V c).after 2 t = out8_2 V c t := by dsimp only [dat8]

theorem before8_0 (c : Dev nD) (t : Fin cfg8.N) (d) : (dat8 V c).before 0 t d = iblk8 V c 0 t :=
  before8_0_of V (dat8 V c) (A_eq8 V c 0) (after8_0 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4000000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  rw [show cc8__bn_stats_kernel (F := F) = cc2__bn_stats_kernel from rfl]
  simp only [before8_0]
  rw [show (dat8 V c).owesAt () t.succ = (dat8 V c).owesAt () t.castSucc from rfl]
  rw [show (dat8 V c).Φ t.succ = PhiS8 V c (t.val + 1) t.isLt from rfl, PhiS8_succ]
  have hN : t.val < 10 := lt_of_lt_of_eq t.isLt (show cfg8.N = 10 from N_8)
  rw [show (dat8 V c).leavesExact 0 t = owns (c : Thread nD τ) (st8_0 t) fullShare ((dat8 V c).after 0 t) from by
    unfold Dat.leavesExact; rw [liveAt8_0 t], after8_0]
  by_cases h9 : t.val % 10 = 9
  · have hz : t.val ≠ 0 := by omega
    rw [show (dat8 V c).leavesExact 1 t = owns (c : Thread nD τ) (st8_1 t) fullShare ((dat8 V c).after 1 t) from by
      unfold Dat.leavesExact; rw [liveAt8_1 t h9], after8_1]
    rw [show (dat8 V c).leavesExact 2 t = owns (c : Thread nD τ) (st8_2 t) fullShare ((dat8 V c).after 2 t) from by
      unfold Dat.leavesExact; rw [liveAt8_2 t h9], after8_2]
    unfold out8_1 out8_2
    rw [sacc8_later V c t hz]; (try dsimp only)
    rw [PhiS8_castSucc V c t, PhiS8_pos V c _ _ hz]
    iintro ⟨⟨⟨⟨HS0, HS1⟩, Hrest⟩, Hg⟩, Ho, ⟨%d0, H0⟩, ⟨%d1, H1⟩, ⟨%d2, H2⟩⟩
    iapply (sound_kernel2_C c Set.univ (grid8.coords t) _ _ _ _ _ _ _ _ _ _
      (fun h => hz (by have := (hcond8_0 t).mp h; omega)) ((hcond8_1 t).mpr h9) (iblk8 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    iexact H2
  · rw [Dat.leavesExact_idle (dat8 V c) 1 t (idleAt8_1 t h9) (noFlush8_1 t h9)]
    rw [Dat.leavesExact_idle (dat8 V c) 2 t (idleAt8_2 t h9) (noFlush8_2 t h9)]
    by_cases hz : t.val = 0
    · rw [sacc8_first V c t hz]; (try dsimp only)
      rw [PhiS8_castSucc V c t, PhiS8_zero V c _ _ hz, PhiA8_eq]
      iintro ⟨⟨⟨⟨HS0, HS1⟩, Hrest⟩, Hg⟩, Ho, ⟨%d0, H0⟩, ⟨%d1, H1⟩, ⟨%d2, H2⟩⟩
      iapply (sound_kernel2_A c Set.univ (grid8.coords t) _ _ _ _ _ _ _ _ _ _
        ((hcond8_0 t).mpr (by omega)) (fun h => h9 ((hcond8_1 t).mp h)) (iblk8 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2
    · rw [sacc8_later V c t hz]; (try dsimp only)
      rw [PhiS8_castSucc V c t, PhiS8_pos V c _ _ hz]
      iintro ⟨⟨⟨⟨HS0, HS1⟩, Hrest⟩, Hg⟩, Ho, ⟨%d0, H0⟩, ⟨%d1, H1⟩, ⟨%d2, H2⟩⟩
      iapply (sound_kernel2_B c Set.univ (grid8.coords t) _ _ _ _ _ _ _ _ _ _
        (fun h => hz (by have := (hcond8_0 t).mp h; omega)) (fun h => h9 ((hcond8_1 t).mp h)) (iblk8 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2

theorem body_obligation8 (c : Dev nD) : BodyObligation (dat8 (F := F) V c) (defs₀ (F := F)) Variants.none () Set.univ := fun t => by
  rw [bigSep_W8, bigSep_W8]
  exact sound_body8 V c t

theorem Phi8_zero (c : Dev nD) : (dat8 V c).Φ 0 = Pipeline.ΦA spec8 c := rfl

theorem hin8 (c : Dev nD) : Pipeline.ΦA spec8 c ⊢ (dat8 V c).Φ 0 := by
  rw [Phi8_zero]

theorem Phi8_out (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout8 (c : Dev nD) : (dat8 V c).Φ (Fin.last cfg8.N) ⊢ Pipeline.ΦA spec8 c :=
  Phi8_out V c _ (by rw [Fin.val_last]; have : cfg8.N = 10 := N_8; omega)

end Cert.Kernel.Hand
-- ==== Proof.BReg9.lean ====
import proofs.«402767_j7713761264261_1_alg».proof.Proof.BReg3

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out3_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out3_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  rw [show cc9__bn_apply_kernel (F := F) = cc3__bn_apply_kernel from rfl]
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel3 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation9 (c : Dev nD) : BodyObligation (dat9 (F := F) V c) (defs₀ (F := F)) Variants.none () Set.univ := fun t => by
  rw [bigSep_W9, bigSep_W9]
  exact sound_body9 V c t

end Cert.Kernel.Hand
-- ==== Proof.BReg10.lean ====
import proofs.«402767_j7713761264261_1_alg».proof.Proof.BReg1

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region10
variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out1_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) :
    (dat10 V c).after 2 t = out1_2 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  rw [show cc10__matmul_kernel (F := F) = cc1__matmul_kernel from rfl]
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel1 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation10 (c : Dev nD) : BodyObligation (dat10 (F := F) V c) (defs₀ (F := F)) Variants.none () Set.univ := fun t => by
  rw [bigSep_W10, bigSep_W10]
  exact sound_body10 V c t

end Region10

end Cert.Kernel.Hand
-- ==== Proof.BRuns11.lean ====
import proofs.«402767_j7713761264261_1_alg».proof.Proof.BRuns2

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond11_0 (i : grid11.Coords) : Prop :=
  (Scalar.cmpi .ne (Scalar.extui (Scalar.cmpi .eq (BitVec.ofNat 32 (i 0).val) 0#32)) 0#32) = 1#1
abbrev cond11_1 (i : grid11.Coords) : Prop := k11_cond2 i = 1#1

theorem hcond11_0 : ∀ t : Fin cfg11.N, cond11_0 (grid11.coords t) ↔ t.val % 10 = 0 :=
  (by decide +kernel : ∀ t : Fin grid11.N, cond11_0 (grid11.coords t) ↔ t.val % 10 = 0)
theorem hcond11_1 : ∀ t : Fin cfg11.N, cond11_1 (grid11.coords t) ↔ t.val % 10 = 9 :=
  (by decide +kernel : ∀ t : Fin grid11.N, cond11_1 (grid11.coords t) ↔ t.val % 10 = 9)

theorem liveAt11_0 : ∀ t : Fin cfg11.N, cfg11.idle 0 (grid11.coords t) = false := by decide +kernel
theorem idleAt11_1 : ∀ t : Fin cfg11.N, ¬ t.val % 10 = 9 → cfg11.idle 1 (grid11.coords t) = true := by decide +kernel
theorem idleAt11_2 : ∀ t : Fin cfg11.N, ¬ t.val % 10 = 9 → cfg11.idle 2 (grid11.coords t) = true := by decide +kernel
theorem liveAt11_1 : ∀ t : Fin cfg11.N, t.val % 10 = 9 → cfg11.idle 1 (grid11.coords t) = false := by decide +kernel
theorem liveAt11_2 : ∀ t : Fin cfg11.N, t.val % 10 = 9 → cfg11.idle 2 (grid11.coords t) = false := by decide +kernel
theorem noFlush11_1 : ∀ t : Fin cfg11.N, ¬ t.val % 10 = 9 → (cfg11.win 1).flush t = false := by decide +kernel
theorem noFlush11_2 : ∀ t : Fin cfg11.N, ¬ t.val % 10 = 9 → (cfg11.win 2).flush t = false := by decide +kernel

end Cert.Kernel.Hand
-- ==== Proof.BReg11.lean ====
import proofs.«402767_j7713761264261_1_alg».proof.Proof.Gen.Kernel.Launch
import proofs.«402767_j7713761264261_1_alg».proof.Proof.Gen.Kernel.Skeleton
import proofs.«402767_j7713761264261_1_alg».proof.Proof.Gen.Kernel.Points
import proofs.«402767_j7713761264261_1_alg».proof.Proof.BRuns11

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

def sacc11 (c : Dev nD) : (n : ℕ) → n < cfg11.N → Vec F S1x128 .f32 × Vec F S1x128 .f32
  | 0, hn => (k2_pay4 (iblk11 V c 0 ⟨0, hn⟩) (k2_pay1 (F := F)), k2_pay5 (iblk11 V c 0 ⟨0, hn⟩) (k2_pay2 (F := F)))
  | n + 1, hn => (k2_pay4 (iblk11 V c 0 ⟨n + 1, hn⟩) (sacc11 c n (Nat.lt_of_succ_lt hn)).1,
      k2_pay5 (iblk11 V c 0 ⟨n + 1, hn⟩) (sacc11 c n (Nat.lt_of_succ_lt hn)).2)

theorem sacc11_first (c : Dev nD) (t : Fin cfg11.N) (hz : t.val = 0) :
    sacc11 V c t.val t.isLt = (k2_pay4 (iblk11 V c 0 t) (k2_pay1 (F := F)), k2_pay5 (iblk11 V c 0 t) (k2_pay2 (F := F))) := by
  obtain ⟨n, hn⟩ := t
  cases n with
  | zero => exact rfl
  | succ n => exact absurd hz (Nat.succ_ne_zero n)

theorem sacc11_later (c : Dev nD) (t : Fin cfg11.N) (hz : t.val ≠ 0) :
    sacc11 V c t.val t.isLt = (k2_pay4 (iblk11 V c 0 t) (sacc11 V c (t.val - 1) (Nat.lt_of_le_of_lt (Nat.sub_le _ _) t.isLt)).1,
      k2_pay5 (iblk11 V c 0 t) (sacc11 V c (t.val - 1) (Nat.lt_of_le_of_lt (Nat.sub_le _ _) t.isLt)).2) := by
  obtain ⟨n, hn⟩ := t
  cases n with
  | zero => exact absurd rfl hz
  | succ n => exact rfl

def out11_1 (c : Dev nD) (t : Fin cfg11.N) : Vec F S1x128 .f32 := (sacc11 V c t.val t.isLt).1
def out11_2 (c : Dev nD) (t : Fin cfg11.N) : Vec F S1x128 .f32 := (sacc11 V c t.val t.isLt).2

abbrev scM11_0 : Memref sig .tc .vmem S1x128 .f32 := Memref.whole cc11_scratch0
abbrev scM11_1 : Memref sig .tc .vmem S1x128 .f32 := Memref.whole cc11_scratch1

theorem PhiA11_eq (c : Dev nD) :
    (Pipeline.ΦA spec11 c : sProp 𝕄)
      = iprop(iprop(iprop((∃ d, owns (c : Thread nD τ) scM11_0 fullShare d) ∗ (∃ d, owns (c : Thread nD τ) scM11_1 fullShare d))
          ∗ Pipeline.scopedRestBut (Ix := Unit) (Name := ℕ) (U := UR sig nD τ) (Lvl := ℕ) (Val := Elt F) spec11 c [cc11_scratch0, cc11_scratch1])
          ∗ (∃ r, prngReg c r)) := by
  unfold Pipeline.ΦA; rw [scopedRest11_split]; simp only [scM11_0, scM11_1, owns_whole]; try rfl

def PhiS11 (c : Dev nD) : (n : ℕ) → n ≤ cfg11.N → sProp 𝕄
  | 0, _ => Pipeline.ΦA spec11 c
  | n + 1, hn => iprop(iprop(iprop(owns (c : Thread nD τ) scM11_0 fullShare (sacc11 V c n hn).1 ∗ owns (c : Thread nD τ) scM11_1 fullShare (sacc11 V c n hn).2)
      ∗ Pipeline.scopedRestBut (Ix := Unit) (Name := ℕ) (U := UR sig nD τ) (Lvl := ℕ) (Val := Elt F) spec11 c [cc11_scratch0, cc11_scratch1])
      ∗ (∃ r, prngReg c r))

theorem PhiS11_zero (c : Dev nD) (n : ℕ) (h : n ≤ cfg11.N) (hz : n = 0) : PhiS11 V c n h = Pipeline.ΦA spec11 c := by
  subst hz; rfl

theorem PhiS11_succ (c : Dev nD) (n : ℕ) (hn : n < cfg11.N) :
    PhiS11 V c (n + 1) hn = iprop(iprop(iprop(owns (c : Thread nD τ) scM11_0 fullShare (sacc11 V c n hn).1 ∗ owns (c : Thread nD τ) scM11_1 fullShare (sacc11 V c n hn).2)
      ∗ Pipeline.scopedRestBut (Ix := Unit) (Name := ℕ) (U := UR sig nD τ) (Lvl := ℕ) (Val := Elt F) spec11 c [cc11_scratch0, cc11_scratch1])
      ∗ (∃ r, prngReg c r)) := rfl

theorem PhiS11_pos (c : Dev nD) (n : ℕ) (h : n ≤ cfg11.N) (hz : n ≠ 0) :
    PhiS11 V c n h = iprop(iprop(iprop(owns (c : Thread nD τ) scM11_0 fullShare (sacc11 V c (n - 1) (by omega)).1 ∗ owns (c : Thread nD τ) scM11_1 fullShare (sacc11 V c (n - 1) (by omega)).2)
      ∗ Pipeline.scopedRestBut (Ix := Unit) (Name := ℕ) (U := UR sig nD τ) (Lvl := ℕ) (Val := Elt F) spec11 c [cc11_scratch0, cc11_scratch1])
      ∗ (∃ r, prngReg c r)) := by
  cases n with
  | zero => exact absurd rfl hz
  | succ n => rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => out11_1 V c t
    | ⟨2, _⟩ => out11_2 V c t
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]

theorem PhiS11_castSucc (c : Dev nD) (t : Fin cfg11.N) :
    (dat11 V c).Φ t.castSucc = PhiS11 V c t.val (Nat.le_of_lt t.isLt) := by
  dsimp only [dat11]; simp only [Fin.coe_castSucc]

theorem after11_0 (c : Dev nD) (t : Fin cfg11.N) : (dat11 V c).after 0 t = iblk11 V c 0 t := by dsimp only [dat11]
theorem after11_1 (c : Dev nD) (t : Fin cfg11.N) : (dat11 V c).after 1 t = out11_1 V c t := by dsimp only [dat11]
theorem after11_2 (c : Dev nD) (t : Fin cfg11.N) : (dat11 V c).after 2 t = out11_2 V c t := by dsimp only [dat11]

theorem before11_0 (c : Dev nD) (t : Fin cfg11.N) (d) : (dat11 V c).before 0 t d = iblk11 V c 0 t :=
  before11_0_of V (dat11 V c) (A_eq11 V c 0) (after11_0 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t)

set_option maxHeartbeats 4000000 in
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  rw [show cc11__bn_stats_kernel (F := F) = cc2__bn_stats_kernel from rfl]
  simp only [before11_0]
  rw [show (dat11 V c).owesAt () t.succ = (dat11 V c).owesAt () t.castSucc from rfl]
  rw [show (dat11 V c).Φ t.succ = PhiS11 V c (t.val + 1) t.isLt from rfl, PhiS11_succ]
  have hN : t.val < 10 := lt_of_lt_of_eq t.isLt (show cfg11.N = 10 from N_11)
  rw [show (dat11 V c).leavesExact 0 t = owns (c : Thread nD τ) (st11_0 t) fullShare ((dat11 V c).after 0 t) from by
    unfold Dat.leavesExact; rw [liveAt11_0 t], after11_0]
  by_cases h9 : t.val % 10 = 9
  · have hz : t.val ≠ 0 := by omega
    rw [show (dat11 V c).leavesExact 1 t = owns (c : Thread nD τ) (st11_1 t) fullShare ((dat11 V c).after 1 t) from by
      unfold Dat.leavesExact; rw [liveAt11_1 t h9], after11_1]
    rw [show (dat11 V c).leavesExact 2 t = owns (c : Thread nD τ) (st11_2 t) fullShare ((dat11 V c).after 2 t) from by
      unfold Dat.leavesExact; rw [liveAt11_2 t h9], after11_2]
    unfold out11_1 out11_2
    rw [sacc11_later V c t hz]; (try dsimp only)
    rw [PhiS11_castSucc V c t, PhiS11_pos V c _ _ hz]
    iintro ⟨⟨⟨⟨HS0, HS1⟩, Hrest⟩, Hg⟩, Ho, ⟨%d0, H0⟩, ⟨%d1, H1⟩, ⟨%d2, H2⟩⟩
    iapply (sound_kernel2_C c Set.univ (grid11.coords t) _ _ _ _ _ _ _ _ _ _
      (fun h => hz (by have := (hcond11_0 t).mp h; omega)) ((hcond11_1 t).mpr h9) (iblk11 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    iexact H2
  · rw [Dat.leavesExact_idle (dat11 V c) 1 t (idleAt11_1 t h9) (noFlush11_1 t h9)]
    rw [Dat.leavesExact_idle (dat11 V c) 2 t (idleAt11_2 t h9) (noFlush11_2 t h9)]
    by_cases hz : t.val = 0
    · rw [sacc11_first V c t hz]; (try dsimp only)
      rw [PhiS11_castSucc V c t, PhiS11_zero V c _ _ hz, PhiA11_eq]
      iintro ⟨⟨⟨⟨HS0, HS1⟩, Hrest⟩, Hg⟩, Ho, ⟨%d0, H0⟩, ⟨%d1, H1⟩, ⟨%d2, H2⟩⟩
      iapply (sound_kernel2_A c Set.univ (grid11.coords t) _ _ _ _ _ _ _ _ _ _
        ((hcond11_0 t).mpr (by omega)) (fun h => h9 ((hcond11_1 t).mp h)) (iblk11 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2
    · rw [sacc11_later V c t hz]; (try dsimp only)
      rw [PhiS11_castSucc V c t, PhiS11_pos V c _ _ hz]
      iintro ⟨⟨⟨⟨HS0, HS1⟩, Hrest⟩, Hg⟩, Ho, ⟨%d0, H0⟩, ⟨%d1, H1⟩, ⟨%d2, H2⟩⟩
      iapply (sound_kernel2_B c Set.univ (grid11.coords t) _ _ _ _ _ _ _ _ _ _
        (fun h => hz (by have := (hcond11_0 t).mp h; omega)) (fun h => h9 ((hcond11_1 t).mp h)) (iblk11 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2

theorem body_obligation11 (c : Dev nD) : BodyObligation (dat11 (F := F) V c) (defs₀ (F := F)) Variants.none () Set.univ := fun t => by
  rw [bigSep_W11, bigSep_W11]
  exact sound_body11 V c t

theorem Phi11_zero (c : Dev nD) : (dat11 V c).Φ 0 = Pipeline.ΦA spec11 c := rfl

theorem hin11 (c : Dev nD) : Pipeline.ΦA spec11 c ⊢ (dat11 V c).Φ 0 := by
  rw [Phi11_zero]

theorem Phi11_out (c : Dev nD) (t : Fin (cfg11.N + 1)) (ht : t.val ≠ 0) : (dat11 V c).Φ t ⊢ Pipeline.ΦA spec11 c := by
  rw [show (dat11 V c).Φ t = PhiS11 V c t.val (Nat.le_of_lt_succ t.isLt) from rfl, PhiS11_pos V c _ _ ht, PhiA11_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout11 (c : Dev nD) : (dat11 V c).Φ (Fin.last cfg11.N) ⊢ Pipeline.ΦA spec11 c :=
  Phi11_out V c _ (by rw [Fin.val_last]; have : cfg11.N = 10 := N_11; omega)

end Cert.Kernel.Hand
-- ==== Proof.BReg12.lean ====
import proofs.«402767_j7713761264261_1_alg».proof.Proof.BReg3

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out3_3 (iblk12 V c 0 t) (iblk12 V c 1 t) (iblk12 V c 2 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) :
    (dat12 V c).after 3 t = out3_3 (iblk12 V c 0 t) (iblk12 V c 1 t) (iblk12 V c 2 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  rw [show cc12__bn_apply_kernel (F := F) = cc3__bn_apply_kernel from rfl]
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel3 c Set.univ _ _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation12 (c : Dev nD) : BodyObligation (dat12 (F := F) V c) (defs₀ (F := F)) Variants.none () Set.univ := fun t => by
  rw [bigSep_W12, bigSep_W12]
  exact sound_body12 V c t

end Cert.Kernel.Hand
-- ==== Proof.BReg13.lean ====
import proofs.«402767_j7713761264261_1_alg».proof.Proof.Gen.Kernel.Launch
import proofs.«402767_j7713761264261_1_alg».proof.Proof.Gen.Kernel.Skeleton
import proofs.«402767_j7713761264261_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

theorem before13_6_of {c : Dev nD} (dat : Dat τ (Elt F) Unit ℕ (UR sig nD τ) ℕ cfg13 c) (hA : dat.A 6 = V c (Pipeline.arrRef spec13 6))
    (hafter : ∀ t, dat.after 6 t = iblk13 V c 6 t) (t : Fin cfg13.N) (d) : dat.before 6 t d = iblk13 V c 6 t :=
  (dat.before_in_eq_fetched 6 rfl (fun _ => rfl) (fun _ _ _ => rfl) (fun t => by rw [hafter]; unfold Dat.blockOf iblk13; rw [hA]; try rfl) t d).trans
    (by unfold Dat.fetched Dat.blockOf iblk13; rw [hA]; try rfl)

abbrev r13_S512x128 : Rect S512x128 := Rect.unit (s := S512x128) ![0, 0] S512x128.size inb_S512x128_S512x128_0_0
abbrev r13_S1x128 : Rect S1x128 := Rect.unit (s := S1x128) ![0, 0] S1x128.size inb_S1x128_S1x128_0_0
abbrev r13_S128x128 : Rect S128x128 := Rect.unit (s := S128x128) ![0, 0] S128x128.size inb_S128x128_S128x128_0_0
abbrev r13_S128x1 : Rect S128x1 := Rect.unit (s := S128x1) ![0, 0] S128x1.size inb_S128x1_S128x1_0_0
abbrev r13_S1x1 : Rect S1x1 := Rect.unit (s := S1x1) ![0, 0] S1x1.size inb_S1x1_S1x1_0_0
abbrev r13_S512x1 : Rect S512x1 := Rect.unit (s := S512x1) ![0, 0] S512x1.size inb_S512x1_S512x1_0_0

def out13_7 (x0 : Vec F S512x128 .f32) (x1 : Vec F S1x128 .f32) (x2 : Vec F S1x128 .f32) (x3 : Vec F S128x128 .f32) (x4 : Vec F S1x128 .f32) (x5 : Vec F S128x1 .f32) (x6 : Vec F S1x1 .f32) : Vec F S512x1 .f32 :=
  View.canon [⟨r13_S512x1, k13_pay1 (k13_pay2 (View.ld x0 r13_S512x128) (View.ld x1 r13_S1x128) (View.ld x2 r13_S1x128) (View.ld x3 r13_S128x128) (View.ld x4 r13_S1x128) (View.ld x5 r13_S128x1)) (View.ld x6 r13_S1x1)⟩]

theorem cover13_7 (p0 : Vec F S512x1 .f32) (y : S512x1.Idx) :
    ∃ pc ∈ ([⟨r13_S512x1, p0⟩] : List (View.Piece (Elt F) S512x1 .f32)), y ∈ pc.1.set :=
  View.cover_of_tiled [⟨r13_S512x1, p0⟩] S512x1.size (by rfl) y

set_option maxHeartbeats 1000000 in
theorem sound_kernel13 (c : Dev nD) (E : Set ℕ) (i : grid13.Coords) (arg1 : Memref sig .tc .vmem S512x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S512x1 .f32) (harg8 : arg8.IsWhole)
    (x0 : Vec F S512x128 .f32) (x1 : Vec F S1x128 .f32) (x2 : Vec F S1x128 .f32) (x3 : Vec F S128x128 .f32) (x4 : Vec F S1x128 .f32) (x5 : Vec F S128x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out13_7 x0 x1 x2 x3 x4 x5 x6)) -∗ K ⟨⟩))
      ⊢ wp frame (wpE (defs₀ (F := F)) Variants.none c none) E (cc13__final_kernel i arg1 harg1 arg2 harg2 arg3 harg3 arg4 harg4 arg5 harg5 arg6 harg6 arg7 harg7 arg8 harg8) K := by
  simp only [cc13__final_kernel_eq_skeleton]; unfold cc13__final_kernel_skel
  simp only [k13_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover13_7 _)

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => iblk13 V c 6 t
    | ⟨7, _⟩ => out13_7 (iblk13 V c 0 t) (iblk13 V c 1 t) (iblk13 V c 2 t) (iblk13 V c 3 t) (iblk13 V c 4 t) (iblk13 V c 5 t) (iblk13 V c 6 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = iblk13 V c 6 t := by dsimp only [dat13]
theorem after13_7 (c : Dev nD) (t : Fin cfg13.N) : (dat13 V c).after 7 t = out13_7 (iblk13 V c 0 t) (iblk13 V c 1 t) (iblk13 V c 2 t) (iblk13 V c 3 t) (iblk13 V c 4 t) (iblk13 V c 5 t) (iblk13 V c 6 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d
theorem before13_6 (c : Dev nD) (t : Fin cfg13.N) (d) : (dat13 V c).before 6 t d = iblk13 V c 6 t :=
  before13_6_of V (dat13 V c) (A_eq13 V c 6) (after13_6 V c) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d))
    ∗ (∃ d, owns (c : Thread nD τ) (st13_7 t) fullShare ((dat13 V c).before 7 t d)))

def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t)
    ∗ owns (c : Thread nD τ) (st13_7 t) fullShare ((dat13 V c).after 7 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5, before13_6]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6, after13_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel13 c Set.univ _ _ _ _ _ _ _ _ _ _ _ _ _ _ _ _ _ (iblk13 V c 0 t) (iblk13 V c 1 t) (iblk13 V c 2 t) (iblk13 V c 3 t) (iblk13 V c 4 t) (iblk13 V c 5 t) (iblk13 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.BFold.lean ====
import proofs.«402767_j7713761264261_1_alg».proof.Proof.BReg0
import proofs.«402767_j7713761264261_1_alg».proof.Proof.BReg1
import proofs.«402767_j7713761264261_1_alg».proof.Proof.BReg2
import proofs.«402767_j7713761264261_1_alg».proof.Proof.BReg3
import proofs.«402767_j7713761264261_1_alg».proof.Proof.BReg4
import proofs.«402767_j7713761264261_1_alg».proof.Proof.BReg5
import proofs.«402767_j7713761264261_1_alg».proof.Proof.BReg6
import proofs.«402767_j7713761264261_1_alg».proof.Proof.BReg7
import proofs.«402767_j7713761264261_1_alg».proof.Proof.BReg8
import proofs.«402767_j7713761264261_1_alg».proof.Proof.BReg9
import proofs.«402767_j7713761264261_1_alg».proof.Proof.BReg10
import proofs.«402767_j7713761264261_1_alg».proof.Proof.BReg11
import proofs.«402767_j7713761264261_1_alg».proof.Proof.BReg12
import proofs.«402767_j7713761264261_1_alg».proof.Proof.BReg13
import proofs.«402767_j7713761264261_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary of @main

`W J c` is core `c`'s unscoped buffers after item `J − 1` of @main: a host stretch applies its operations, a kernel
region replaces its output arrays by what its grid's write-backs leave. -/

/-- A valuation read at the TensorCore's references. -/
abbrev atTc (W : Dev nD → Valuation τ sig (Elt F)) : (c : Dev nD) → (b : Ref sig .tc) → Buf (Elt F) ((c : Thread nD τ).loc b) :=
  fun c b => W c b

abbrev W0 : Dev nD → Valuation τ sig (Elt F) := fun c b => m (c, b)
abbrev W1 : Dev nD → Valuation τ sig (Elt F) := fun c => StableHlo.after hostOps0 (W0 m c)
/-- After kernel region 0: its output array at what the grid's write-backs leave. -/
def W2 (c : Dev nD) : Valuation τ sig (Elt F) :=
  (Function.update (W1 m c) main_v8 ((dat0 (atTc (W1 m)) c).arrAt (2 : Fin 3) cfg0.N))
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
/-- After kernel region 1: its output array at what the grid's write-backs leave. -/
def W6 (c : Dev nD) : Valuation τ sig (Elt F) :=
  (Function.update (W5 m c) main_v43 ((dat1 (atTc (W5 m)) c).arrAt (2 : Fin 3) cfg1.N))
abbrev W7 : Dev nD → Valuation τ sig (Elt F) := fun c => StableHlo.after hostOps2 (W6 m c)
/-- After kernel region 2: its output arrays at what the grid's write-backs leave. -/
def W8 (c : Dev nD) : Valuation τ sig (Elt F) :=
  (Function.update (Function.update (W7 m c) main_v62_0 ((dat2 (atTc (W7 m)) c).arrAt (1 : Fin 3) cfg2.N)) main_v62_1 ((dat2 (atTc (W7 m)) c).arrAt (2 : Fin 3) cfg2.N))
abbrev W9 : Dev nD → Valuation τ sig (Elt F) := fun c => StableHlo.after hostOps3 (W8 m c)
/-- After kernel region 3: its output array at what the grid's write-backs leave. -/
def W10 (c : Dev nD) : Valuation τ sig (Elt F) :=
  (Function.update (W9 m c) main_v81 ((dat3 (atTc (W9 m)) c).arrAt (3 : Fin 4) cfg3.N))
abbrev W11 : Dev nD → Valuation τ sig (Elt F) := fun c => StableHlo.after hostOps4 (W10 m c)
/-- After kernel region 4: its output array at what the grid's write-backs leave. -/
def W12 (c : Dev nD) : Valuation τ sig (Elt F) :=
  (Function.update (W11 m c) main_v84 ((dat4 (atTc (W11 m)) c).arrAt (2 : Fin 3) cfg4.N))
abbrev W13 : Dev nD → Valuation τ sig (Elt F) := fun c => StableHlo.after hostOps5 (W12 m c)
/-- After kernel region 5: its output arrays at what the grid's write-backs leave. -/
def W14 (c : Dev nD) : Valuation τ sig (Elt F) :=
  (Function.update (Function.update (W13 m c) main_v103_0 ((dat5 (atTc (W13 m)) c).arrAt (1 : Fin 3) cfg5.N)) main_v103_1 ((dat5 (atTc (W13 m)) c).arrAt (2 : Fin 3) cfg5.N))
abbrev W15 : Dev nD → Valuation τ sig (Elt F) := fun c => StableHlo.after hostOps6 (W14 m c)
/-- After kernel region 6: its output array at what the grid's write-backs leave. -/
def W16 (c : Dev nD) : Valuation τ sig (Elt F) :=
  (Function.update (W15 m c) main_v122 ((dat6 (atTc (W15 m)) c).arrAt (3 : Fin 4) cfg6.N))
abbrev W17 : Dev nD → Valuation τ sig (Elt F) := fun c => StableHlo.after hostOps7 (W16 m c)
/-- After kernel region 7: its output array at what the grid's write-backs leave. -/
def W18 (c : Dev nD) : Valuation τ sig (Elt F) :=
  (Function.update (W17 m c) main_v125 ((dat7 (atTc (W17 m)) c).arrAt (2 : Fin 3) cfg7.N))
abbrev W19 : Dev nD → Valuation τ sig (Elt F) := fun c => StableHlo.after hostOps8 (W18 m c)
/-- After kernel region 8: its output arrays at what the grid's write-backs leave. -/
def W20 (c : Dev nD) : Valuation τ sig (Elt F) :=
  (Function.update (Function.update (W19 m c) main_v144_0 ((dat8 (atTc (W19 m)) c).arrAt (1 : Fin 3) cfg8.N)) main_v144_1 ((dat8 (atTc (W19 m)) c).arrAt (2 : Fin 3) cfg8.N))
abbrev W21 : Dev nD → Valuation τ sig (Elt F) := fun c => StableHlo.after hostOps9 (W20 m c)
/-- After kernel region 9: its output array at what the grid's write-backs leave. -/
def W22 (c : Dev nD) : Valuation τ sig (Elt F) :=
  (Function.update (W21 m c) main_v163 ((dat9 (atTc (W21 m)) c).arrAt (3 : Fin 4) cfg9.N))
abbrev W23 : Dev nD → Valuation τ sig (Elt F) := fun c => StableHlo.after hostOps10 (W22 m c)
/-- After kernel region 10: its output array at what the grid's write-backs leave. -/
def W24 (c : Dev nD) : Valuation τ sig (Elt F) :=
  (Function.update (W23 m c) main_v166 ((dat10 (atTc (W23 m)) c).arrAt (2 : Fin 3) cfg10.N))
abbrev W25 : Dev nD → Valuation τ sig (Elt F) := fun c => StableHlo.after hostOps11 (W24 m c)
/-- After kernel region 11: its output arrays at what the grid's write-backs leave. -/
def W26 (c : Dev nD) : Valuation τ sig (Elt F) :=
  (Function.update (Function.update (W25 m c) main_v185_0 ((dat11 (atTc (W25 m)) c).arrAt (1 : Fin 3) cfg11.N)) main_v185_1 ((dat11 (atTc (W25 m)) c).arrAt (2 : Fin 3) cfg11.N))
abbrev W27 : Dev nD → Valuation τ sig (Elt F) := fun c => StableHlo.after hostOps12 (W26 m c)
/-- After kernel region 12: its output array at what the grid's write-backs leave. -/
def W28 (c : Dev nD) : Valuation τ sig (Elt F) :=
  (Function.update (W27 m c) main_v204 ((dat12 (atTc (W27 m)) c).arrAt (3 : Fin 4) cfg12.N))
abbrev W29 : Dev nD → Valuation τ sig (Elt F) := fun c => StableHlo.after hostOps13 (W28 m c)
/-- After kernel region 13: its output array at what the grid's write-backs leave. -/
def W30 (c : Dev nD) : Valuation τ sig (Elt F) :=
  (Function.update (W29 m c) main_v221 ((dat13 (atTc (W29 m)) c).arrAt (7 : Fin 8) cfg13.N))

/-- What the regions leave, as the conditional frame's unknowns: boundary `J`'s contents. -/
def outs : Outs (F := F) := fun J r c => match J with
  | 2 => W2 m c r
  | 6 => W6 m c r
  | 8 => W8 m c r
  | 10 => W10 m c r
  | 12 => W12 m c r
  | 14 => W14 m c r
  | 16 => W16 m c r
  | 18 => W18 m c r
  | 20 => W20 m c r
  | 22 => W22 m c r
  | 24 => W24 m c r
  | 26 => W26 m c r
  | 28 => W28 m c r
  | 30 => W30 m c r
  | _ => W0 m c r

end Cert.Kernel.Hand

end
-- ==== Proof.BChain.lean ====
import proofs.«402767_j7713761264261_1_alg».proof.Proof.BFold

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem V0_eq (c : Dev nD) : V0 m c = W0 m c := rfl
theorem V1_eq (c : Dev nD) : V1 m c = W1 m c := congrArg (StableHlo.after hostOps0) (V0_eq m c)
theorem V2_eq (c : Dev nD) : V2 m (outs m) c = W2 m c := by
  show Function.update (V1 m c) main_v8 (W2 m c main_v8) = W2 m c
  rw [V1_eq m c]; unfold W2; rw [Function.update_self]
theorem V3_eq (c : Dev nD) : V3 m (outs m) c = W3 m c := congrArg (StableHlo.after hostOps1) (V2_eq m c)
theorem V4_eq (c : Dev nD) : V4 m (outs m) c = W4 m c := congrArg (StableHlo.after hostOps1_1) (V3_eq m c)
theorem V5_eq (c : Dev nD) : V5 m (outs m) c = W5 m c := congrArg (StableHlo.after hostOps1_2) (V4_eq m c)
theorem V6_eq (c : Dev nD) : V6 m (outs m) c = W6 m c := by
  show Function.update (V5 m (outs m) c) main_v43 (W6 m c main_v43) = W6 m c
  rw [V5_eq m c]; unfold W6; rw [Function.update_self]
theorem V7_eq (c : Dev nD) : V7 m (outs m) c = W7 m c := congrArg (StableHlo.after hostOps2) (V6_eq m c)
theorem V8_eq (c : Dev nD) : V8 m (outs m) c = W8 m c := by
  show Function.update (Function.update (V7 m (outs m) c) main_v62_0 (W8 m c main_v62_0)) main_v62_1 (W8 m c main_v62_1) = W8 m c
  rw [V7_eq m c]; unfold W8
  rw [Function.update_self, Function.update_of_ne (StableHlo.devRef_ne_of_ne (by decide)), Function.update_self]
theorem V9_eq (c : Dev nD) : V9 m (outs m) c = W9 m c := congrArg (StableHlo.after hostOps3) (V8_eq m c)
theorem V10_eq (c : Dev nD) : V10 m (outs m) c = W10 m c := by
  show Function.update (V9 m (outs m) c) main_v81 (W10 m c main_v81) = W10 m c
  rw [V9_eq m c]; unfold W10; rw [Function.update_self]
theorem V11_eq (c : Dev nD) : V11 m (outs m) c = W11 m c := congrArg (StableHlo.after hostOps4) (V10_eq m c)
theorem V12_eq (c : Dev nD) : V12 m (outs m) c = W12 m c := by
  show Function.update (V11 m (outs m) c) main_v84 (W12 m c main_v84) = W12 m c
  rw [V11_eq m c]; unfold W12; rw [Function.update_self]
theorem V13_eq (c : Dev nD) : V13 m (outs m) c = W13 m c := congrArg (StableHlo.after hostOps5) (V12_eq m c)
theorem V14_eq (c : Dev nD) : V14 m (outs m) c = W14 m c := by
  show Function.update (Function.update (V13 m (outs m) c) main_v103_0 (W14 m c main_v103_0)) main_v103_1 (W14 m c main_v103_1) = W14 m c
  rw [V13_eq m c]; unfold W14
  rw [Function.update_self, Function.update_of_ne (StableHlo.devRef_ne_of_ne (by decide)), Function.update_self]
theorem V15_eq (c : Dev nD) : V15 m (outs m) c = W15 m c := congrArg (StableHlo.after hostOps6) (V14_eq m c)
theorem V16_eq (c : Dev nD) : V16 m (outs m) c = W16 m c := by
  show Function.update (V15 m (outs m) c) main_v122 (W16 m c main_v122) = W16 m c
  rw [V15_eq m c]; unfold W16; rw [Function.update_self]
theorem V17_eq (c : Dev nD) : V17 m (outs m) c = W17 m c := congrArg (StableHlo.after hostOps7) (V16_eq m c)
theorem V18_eq (c : Dev nD) : V18 m (outs m) c = W18 m c := by
  show Function.update (V17 m (outs m) c) main_v125 (W18 m c main_v125) = W18 m c
  rw [V17_eq m c]; unfold W18; rw [Function.update_self]
theorem V19_eq (c : Dev nD) : V19 m (outs m) c = W19 m c := congrArg (StableHlo.after hostOps8) (V18_eq m c)
theorem V20_eq (c : Dev nD) : V20 m (outs m) c = W20 m c := by
  show Function.update (Function.update (V19 m (outs m) c) main_v144_0 (W20 m c main_v144_0)) main_v144_1 (W20 m c main_v144_1) = W20 m c
  rw [V19_eq m c]; unfold W20
  rw [Function.update_self, Function.update_of_ne (StableHlo.devRef_ne_of_ne (by decide)), Function.update_self]
theorem V21_eq (c : Dev nD) : V21 m (outs m) c = W21 m c := congrArg (StableHlo.after hostOps9) (V20_eq m c)
theorem V22_eq (c : Dev nD) : V22 m (outs m) c = W22 m c := by
  show Function.update (V21 m (outs m) c) main_v163 (W22 m c main_v163) = W22 m c
  rw [V21_eq m c]; unfold W22; rw [Function.update_self]
theorem V23_eq (c : Dev nD) : V23 m (outs m) c = W23 m c := congrArg (StableHlo.after hostOps10) (V22_eq m c)
theorem V24_eq (c : Dev nD) : V24 m (outs m) c = W24 m c := by
  show Function.update (V23 m (outs m) c) main_v166 (W24 m c main_v166) = W24 m c
  rw [V23_eq m c]; unfold W24; rw [Function.update_self]
theorem V25_eq (c : Dev nD) : V25 m (outs m) c = W25 m c := congrArg (StableHlo.after hostOps11) (V24_eq m c)
theorem V26_eq (c : Dev nD) : V26 m (outs m) c = W26 m c := by
  show Function.update (Function.update (V25 m (outs m) c) main_v185_0 (W26 m c main_v185_0)) main_v185_1 (W26 m c main_v185_1) = W26 m c
  rw [V25_eq m c]; unfold W26
  rw [Function.update_self, Function.update_of_ne (StableHlo.devRef_ne_of_ne (by decide)), Function.update_self]
theorem V27_eq (c : Dev nD) : V27 m (outs m) c = W27 m c := congrArg (StableHlo.after hostOps12) (V26_eq m c)
theorem V28_eq (c : Dev nD) : V28 m (outs m) c = W28 m c := by
  show Function.update (V27 m (outs m) c) main_v204 (W28 m c main_v204) = W28 m c
  rw [V27_eq m c]; unfold W28; rw [Function.update_self]
theorem V29_eq (c : Dev nD) : V29 m (outs m) c = W29 m c := congrArg (StableHlo.after hostOps13) (V28_eq m c)
theorem V30_eq (c : Dev nD) : V30 m (outs m) c = W30 m c := by
  show Function.update (V29 m (outs m) c) main_v221 (W30 m c main_v221) = W30 m c
  rw [V29_eq m c]; unfold W30; rw [Function.update_self]

theorem forall_fin3 {P : Fin 3 → Prop} (h0 : P 0) (h1 : P 1) (h2 : P 2) : ∀ w, P w := by
  intro w; fin_cases w <;> assumption
theorem forall_fin4 {P : Fin 4 → Prop} (h0 : P 0) (h1 : P 1) (h2 : P 2) (h3 : P 3) : ∀ w, P w := by
  intro w; fin_cases w <;> assumption
theorem forall_fin8 {P : Fin 8 → Prop} (h0 : P 0) (h1 : P 1) (h2 : P 2) (h3 : P 3) (h4 : P 4) (h5 : P 5) (h6 : P 6) (h7 : P 7) : ∀ w, P w := by
  intro w; fin_cases w <;> assumption

def pdats : (p : Fin 14) → (c : Dev nD) → Dat τ (Elt F) Unit ℕ (UR sig nD τ) ℕ (cfgs p) c
  | ⟨0, _⟩ => fun c => dat0 (atTc (W1 m)) c
  | ⟨1, _⟩ => fun c => dat1 (atTc (W5 m)) c
  | ⟨2, _⟩ => fun c => dat2 (atTc (W7 m)) c
  | ⟨3, _⟩ => fun c => dat3 (atTc (W9 m)) c
  | ⟨4, _⟩ => fun c => dat4 (atTc (W11 m)) c
  | ⟨5, _⟩ => fun c => dat5 (atTc (W13 m)) c
  | ⟨6, _⟩ => fun c => dat6 (atTc (W15 m)) c
  | ⟨7, _⟩ => fun c => dat7 (atTc (W17 m)) c
  | ⟨8, _⟩ => fun c => dat8 (atTc (W19 m)) c
  | ⟨9, _⟩ => fun c => dat9 (atTc (W21 m)) c
  | ⟨10, _⟩ => fun c => dat10 (atTc (W23 m)) c
  | ⟨11, _⟩ => fun c => dat11 (atTc (W25 m)) c
  | ⟨12, _⟩ => fun c => dat12 (atTc (W27 m)) c
  | ⟨13, _⟩ => fun c => dat13 (atTc (W29 m)) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem arrAt_in_exit {cfg : Cfg sig Λ₀} {c : Dev nD} (dat : Dat τ (Elt F) Unit ℕ (UR sig nD τ) ℕ cfg c)
    (V V' : (b : Ref sig .tc) → Buf (Elt F) ((c : Thread nD τ).loc b)) (w : Fin cfg.W)
    (hw : (cfg.win w).isOut = false) (hA : dat.A w = V (Pipeline.arrRef cfg.spec w))
    (hV : V' (Pipeline.arrRef cfg.spec w) = V (Pipeline.arrRef cfg.spec w)) :
    dat.arrAt w cfg.N = V' (Pipeline.arrRef cfg.spec w) :=
  ((dat.arrAt_in w hw _).trans hA).trans hV.symm

theorem ne_of_not_mem_arrays {gr n : ℕ} {spec : Fin n → Pipeline.WinSpec sig gr} {b o : Ref sig .tc} (w : Fin n)
    (ho : Pipeline.arrRef spec w = o) (hb : b ∉ Finset.univ.image (Pipeline.arrRef spec)) : b ≠ o :=
  fun e => hb (Finset.mem_image.mpr ⟨w, Finset.mem_univ _, ho.trans e.symm⟩)

set_option backward.isDefEq.respectTransparency.types false in
def regionAt (p : Fin 14) (lf : Pipeline.LaunchFacts (nD := nD) (τ := τ) cfgs p)
    (Vin Vout : Dev nD → Valuation τ sig (Elt F))
    (hbody : ∀ c, Pipeline.BodyObligationLoose (pdats m p c) (defs₀ (F := F)) 𝒱₀ () Set.univ)
    (howed : ∀ c t, (pdats m p c).owed t = 0)
    (hq : ∀ c w, (pdats m p c).q w = fullShare)
    (hrec : ∀ c, (pdats m p c).recorded 0 = Set.univ)
    (hA : ∀ c w, (pdats m p c).A w = atTc Vin c (Pipeline.arrRef (cfgs p).spec w))
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄))
    (hF : ∀ c w, (pdats m p c).arrAt w (cfgs p).N = atTc Vout c (Pipeline.arrRef (cfgs p).spec w))
    (hrest : ∀ c b, b ∉ Finset.univ.image (Pipeline.arrRef (cfgs p).spec) → atTc Vout c b = atTc Vin c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Vin c)
  hentry c := by
    rw [Pipeline.ownSems0_none]
    have hsplit := Pipeline.arrays_of_unscopedBufs (p := p) (pcfgs (F := F)) adm (pdats m) lf.win lf.arr_whole c
      ((pdats m p c).share_full (hq c)) (atTc Vin c) (hA c)
    rw [Pipeline.unscopedBufs_held] at hsplit
    unfold Pipeline.Dat.owesAt Pipeline.owesWithin; rw [howed c 0]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (by rw [hrec c]; exact Set.mem_univ _)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atTc Vin c) (atTc Vout c) ((pdats m p c).arrAt · (cfgs p).N) (hF c) (hrest c)
    rw [Pipeline.unscopedBufs_held] at hjoin
    unfold Pipeline.Dat.owesAt Pipeline.owesWithin; rw [howed c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

theorem W2_at_main_v8 (c : Dev nD) : W2 m c main_v8 = (dat0 (atTc (W1 m)) c).arrAt (2 : Fin 3) cfg0.N := by
  unfold W2; exact Function.update_self _ _ _
theorem W2_of_ne (c : Dev nD) (b : Ref sig .tc) (h0 : b ≠ main_v8) : W2 m c b = W1 m c b := by
  unfold W2; exact (Function.update_of_ne (StableHlo.devRef_ne_of_ne h0) _ _)
theorem hF0 (c : Dev nD) : ∀ w : Fin cfg0.W, (dat0 (atTc (W1 m)) c).arrAt w cfg0.N = atTc (W2 m) c (Pipeline.arrRef spec0 w) :=
  forall_fin3 (arrAt_in_exit _ (atTc (W1 m) c) (atTc (W2 m) c) 0 rfl (A_eq0 _ c 0) (W2_of_ne m c _ (by decide)))
    (arrAt_in_exit _ (atTc (W1 m) c) (atTc (W2 m) c) 1 rfl (A_eq0 _ c 1) (W2_of_ne m c _ (by decide)))
    (W2_at_main_v8 m c).symm
theorem hrest0 (c : Dev nD) : ∀ b, b ∉ Finset.univ.image (Pipeline.arrRef spec0) → atTc (W2 m) c b = atTc (W1 m) c b :=
  fun b hb => W2_of_ne m c b (ne_of_not_mem_arrays (2 : Fin 3) (by decide) hb)

set_option backward.isDefEq.respectTransparency.types false in
def reg0 : Pipeline.RegionSeg (pcfgs (F := F)) adm (pdats m) () defs₀ 𝒱₀ L lv 0 :=
  regionAt m 0 launch0 (W1 m) (W2 m) (fun c => (body_obligation0 (atTc (W1 m)) c).loose) (fun _ _ => rfl) (fun _ _ => rfl) (fun _ => rfl)
    (A_eq0 (atTc (W1 m))) (fun _ => .rfl) (fun _ => .rfl) (hF0 m) (hrest0 m)

theorem W6_at_main_v43 (c : Dev nD) : W6 m c main_v43 = (dat1 (atTc (W5 m)) c).arrAt (2 : Fin 3) cfg1.N := by
  unfold W6; exact Function.update_self _ _ _
theorem W6_of_ne (c : Dev nD) (b : Ref sig .tc) (h0 : b ≠ main_v43) : W6 m c b = W5 m c b := by
  unfold W6; exact (Function.update_of_ne (StableHlo.devRef_ne_of_ne h0) _ _)
theorem hF1 (c : Dev nD) : ∀ w : Fin cfg1.W, (dat1 (atTc (W5 m)) c).arrAt w cfg1.N = atTc (W6 m) c (Pipeline.arrRef spec1 w) :=
  forall_fin3 (arrAt_in_exit _ (atTc (W5 m) c) (atTc (W6 m) c) 0 rfl (A_eq1 _ c 0) (W6_of_ne m c _ (by decide)))
    (arrAt_in_exit _ (atTc (W5 m) c) (atTc (W6 m) c) 1 rfl (A_eq1 _ c 1) (W6_of_ne m c _ (by decide)))
    (W6_at_main_v43 m c).symm
theorem hrest1 (c : Dev nD) : ∀ b, b ∉ Finset.univ.image (Pipeline.arrRef spec1) → atTc (W6 m) c b = atTc (W5 m) c b :=
  fun b hb => W6_of_ne m c b (ne_of_not_mem_arrays (2 : Fin 3) (by decide) hb)

set_option backward.isDefEq.respectTransparency.types false in
def reg1 : Pipeline.RegionSeg (pcfgs (F := F)) adm (pdats m) () defs₀ 𝒱₀ L lv 1 :=
  regionAt m 1 launch1 (W5 m) (W6 m) (fun c => (body_obligation1 (atTc (W5 m)) c).loose) (fun _ _ => rfl) (fun _ _ => rfl) (fun _ => rfl)
    (A_eq1 (atTc (W5 m))) (fun _ => .rfl) (fun _ => .rfl) (hF1 m) (hrest1 m)

theorem W8_at_main_v62_0 (c : Dev nD) : W8 m c main_v62_0 = (dat2 (atTc (W7 m)) c).arrAt (1 : Fin 3) cfg2.N := by
  unfold W8; exact ((Function.update_of_ne (StableHlo.devRef_ne_of_ne (by decide : main_v62_0 ≠ main_v62_1)) _ _)).trans (Function.update_self _ _ _)
theorem W8_at_main_v62_1 (c : Dev nD) : W8 m c main_v62_1 = (dat2 (atTc (W7 m)) c).arrAt (2 : Fin 3) cfg2.N := by
  unfold W8; exact Function.update_self _ _ _
theorem W8_of_ne (c : Dev nD) (b : Ref sig .tc) (h0 : b ≠ main_v62_0) (h1 : b ≠ main_v62_1) : W8 m c b = W7 m c b := by
  unfold W8; exact (Function.update_of_ne (StableHlo.devRef_ne_of_ne h1) _ _).trans (Function.update_of_ne (StableHlo.devRef_ne_of_ne h0) _ _)
theorem hF2 (c : Dev nD) : ∀ w : Fin cfg2.W, (dat2 (atTc (W7 m)) c).arrAt w cfg2.N = atTc (W8 m) c (Pipeline.arrRef spec2 w) :=
  forall_fin3 (arrAt_in_exit _ (atTc (W7 m) c) (atTc (W8 m) c) 0 rfl (A_eq2 _ c 0) (W8_of_ne m c _ (by decide) (by decide)))
    (W8_at_main_v62_0 m c).symm
    (W8_at_main_v62_1 m c).symm
theorem hrest2 (c : Dev nD) : ∀ b, b ∉ Finset.univ.image (Pipeline.arrRef spec2) → atTc (W8 m) c b = atTc (W7 m) c b :=
  fun b hb => W8_of_ne m c b (ne_of_not_mem_arrays (1 : Fin 3) (by decide) hb) (ne_of_not_mem_arrays (2 : Fin 3) (by decide) hb)

set_option backward.isDefEq.respectTransparency.types false in
def reg2 : Pipeline.RegionSeg (pcfgs (F := F)) adm (pdats m) () defs₀ 𝒱₀ L lv 2 :=
  regionAt m 2 launch2 (W7 m) (W8 m) (fun c => (body_obligation2 (atTc (W7 m)) c).loose) (fun _ _ => rfl) (fun _ _ => rfl) (fun _ => rfl)
    (A_eq2 (atTc (W7 m))) (hin2 (atTc (W7 m))) (hout2 (atTc (W7 m))) (hF2 m) (hrest2 m)

theorem W10_at_main_v81 (c : Dev nD) : W10 m c main_v81 = (dat3 (atTc (W9 m)) c).arrAt (3 : Fin 4) cfg3.N := by
  unfold W10; exact Function.update_self _ _ _
theorem W10_of_ne (c : Dev nD) (b : Ref sig .tc) (h0 : b ≠ main_v81) : W10 m c b = W9 m c b := by
  unfold W10; exact (Function.update_of_ne (StableHlo.devRef_ne_of_ne h0) _ _)
theorem hF3 (c : Dev nD) : ∀ w : Fin cfg3.W, (dat3 (atTc (W9 m)) c).arrAt w cfg3.N = atTc (W10 m) c (Pipeline.arrRef spec3 w) :=
  forall_fin4 (arrAt_in_exit _ (atTc (W9 m) c) (atTc (W10 m) c) 0 rfl (A_eq3 _ c 0) (W10_of_ne m c _ (by decide)))
    (arrAt_in_exit _ (atTc (W9 m) c) (atTc (W10 m) c) 1 rfl (A_eq3 _ c 1) (W10_of_ne m c _ (by decide)))
    (arrAt_in_exit _ (atTc (W9 m) c) (atTc (W10 m) c) 2 rfl (A_eq3 _ c 2) (W10_of_ne m c _ (by decide)))
    (W10_at_main_v81 m c).symm
theorem hrest3 (c : Dev nD) : ∀ b, b ∉ Finset.univ.image (Pipeline.arrRef spec3) → atTc (W10 m) c b = atTc (W9 m) c b :=
  fun b hb => W10_of_ne m c b (ne_of_not_mem_arrays (3 : Fin 4) (by decide) hb)

set_option backward.isDefEq.respectTransparency.types false in
def reg3 : Pipeline.RegionSeg (pcfgs (F := F)) adm (pdats m) () defs₀ 𝒱₀ L lv 3 :=
  regionAt m 3 launch3 (W9 m) (W10 m) (fun c => (body_obligation3 (atTc (W9 m)) c).loose) (fun _ _ => rfl) (fun _ _ => rfl) (fun _ => rfl)
    (A_eq3 (atTc (W9 m))) (fun _ => .rfl) (fun _ => .rfl) (hF3 m) (hrest3 m)

theorem W12_at_main_v84 (c : Dev nD) : W12 m c main_v84 = (dat4 (atTc (W11 m)) c).arrAt (2 : Fin 3) cfg4.N := by
  unfold W12; exact Function.update_self _ _ _
theorem W12_of_ne (c : Dev nD) (b : Ref sig .tc) (h0 : b ≠ main_v84) : W12 m c b = W11 m c b := by
  unfold W12; exact (Function.update_of_ne (StableHlo.devRef_ne_of_ne h0) _ _)
theorem hF4 (c : Dev nD) : ∀ w : Fin cfg4.W, (dat4 (atTc (W11 m)) c).arrAt w cfg4.N = atTc (W12 m) c (Pipeline.arrRef spec4 w) :=
  forall_fin3 (arrAt_in_exit _ (atTc (W11 m) c) (atTc (W12 m) c) 0 rfl (A_eq4 _ c 0) (W12_of_ne m c _ (by decide)))
    (arrAt_in_exit _ (atTc (W11 m) c) (atTc (W12 m) c) 1 rfl (A_eq4 _ c 1) (W12_of_ne m c _ (by decide)))
    (W12_at_main_v84 m c).symm
theorem hrest4 (c : Dev nD) : ∀ b, b ∉ Finset.univ.image (Pipeline.arrRef spec4) → atTc (W12 m) c b = atTc (W11 m) c b :=
  fun b hb => W12_of_ne m c b (ne_of_not_mem_arrays (2 : Fin 3) (by decide) hb)

set_option backward.isDefEq.respectTransparency.types false in
def reg4 : Pipeline.RegionSeg (pcfgs (F := F)) adm (pdats m) () defs₀ 𝒱₀ L lv 4 :=
  regionAt m 4 launch4 (W11 m) (W12 m) (fun c => (body_obligation4 (atTc (W11 m)) c).loose) (fun _ _ => rfl) (fun _ _ => rfl) (fun _ => rfl)
    (A_eq4 (atTc (W11 m))) (fun _ => .rfl) (fun _ => .rfl) (hF4 m) (hrest4 m)

theorem W14_at_main_v103_0 (c : Dev nD) : W14 m c main_v103_0 = (dat5 (atTc (W13 m)) c).arrAt (1 : Fin 3) cfg5.N := by
  unfold W14; exact ((Function.update_of_ne (StableHlo.devRef_ne_of_ne (by decide : main_v103_0 ≠ main_v103_1)) _ _)).trans (Function.update_self _ _ _)
theorem W14_at_main_v103_1 (c : Dev nD) : W14 m c main_v103_1 = (dat5 (atTc (W13 m)) c).arrAt (2 : Fin 3) cfg5.N := by
  unfold W14; exact Function.update_self _ _ _
theorem W14_of_ne (c : Dev nD) (b : Ref sig .tc) (h0 : b ≠ main_v103_0) (h1 : b ≠ main_v103_1) : W14 m c b = W13 m c b := by
  unfold W14; exact (Function.update_of_ne (StableHlo.devRef_ne_of_ne h1) _ _).trans (Function.update_of_ne (StableHlo.devRef_ne_of_ne h0) _ _)
theorem hF5 (c : Dev nD) : ∀ w : Fin cfg5.W, (dat5 (atTc (W13 m)) c).arrAt w cfg5.N = atTc (W14 m) c (Pipeline.arrRef spec5 w) :=
  forall_fin3 (arrAt_in_exit _ (atTc (W13 m) c) (atTc (W14 m) c) 0 rfl (A_eq5 _ c 0) (W14_of_ne m c _ (by decide) (by decide)))
    (W14_at_main_v103_0 m c).symm
    (W14_at_main_v103_1 m c).symm
theorem hrest5 (c : Dev nD) : ∀ b, b ∉ Finset.univ.image (Pipeline.arrRef spec5) → atTc (W14 m) c b = atTc (W13 m) c b :=
  fun b hb => W14_of_ne m c b (ne_of_not_mem_arrays (1 : Fin 3) (by decide) hb) (ne_of_not_mem_arrays (2 : Fin 3) (by decide) hb)

set_option backward.isDefEq.respectTransparency.types false in
def reg5 : Pipeline.RegionSeg (pcfgs (F := F)) adm (pdats m) () defs₀ 𝒱₀ L lv 5 :=
  regionAt m 5 launch5 (W13 m) (W14 m) (fun c => (body_obligation5 (atTc (W13 m)) c).loose) (fun _ _ => rfl) (fun _ _ => rfl) (fun _ => rfl)
    (A_eq5 (atTc (W13 m))) (hin5 (atTc (W13 m))) (hout5 (atTc (W13 m))) (hF5 m) (hrest5 m)

theorem W16_at_main_v122 (c : Dev nD) : W16 m c main_v122 = (dat6 (atTc (W15 m)) c).arrAt (3 : Fin 4) cfg6.N := by
  unfold W16; exact Function.update_self _ _ _
theorem W16_of_ne (c : Dev nD) (b : Ref sig .tc) (h0 : b ≠ main_v122) : W16 m c b = W15 m c b := by
  unfold W16; exact (Function.update_of_ne (StableHlo.devRef_ne_of_ne h0) _ _)
theorem hF6 (c : Dev nD) : ∀ w : Fin cfg6.W, (dat6 (atTc (W15 m)) c).arrAt w cfg6.N = atTc (W16 m) c (Pipeline.arrRef spec6 w) :=
  forall_fin4 (arrAt_in_exit _ (atTc (W15 m) c) (atTc (W16 m) c) 0 rfl (A_eq6 _ c 0) (W16_of_ne m c _ (by decide)))
    (arrAt_in_exit _ (atTc (W15 m) c) (atTc (W16 m) c) 1 rfl (A_eq6 _ c 1) (W16_of_ne m c _ (by decide)))
    (arrAt_in_exit _ (atTc (W15 m) c) (atTc (W16 m) c) 2 rfl (A_eq6 _ c 2) (W16_of_ne m c _ (by decide)))
    (W16_at_main_v122 m c).symm
theorem hrest6 (c : Dev nD) : ∀ b, b ∉ Finset.univ.image (Pipeline.arrRef spec6) → atTc (W16 m) c b = atTc (W15 m) c b :=
  fun b hb => W16_of_ne m c b (ne_of_not_mem_arrays (3 : Fin 4) (by decide) hb)

set_option backward.isDefEq.respectTransparency.types false in
def reg6 : Pipeline.RegionSeg (pcfgs (F := F)) adm (pdats m) () defs₀ 𝒱₀ L lv 6 :=
  regionAt m 6 launch6 (W15 m) (W16 m) (fun c => (body_obligation6 (atTc (W15 m)) c).loose) (fun _ _ => rfl) (fun _ _ => rfl) (fun _ => rfl)
    (A_eq6 (atTc (W15 m))) (fun _ => .rfl) (fun _ => .rfl) (hF6 m) (hrest6 m)

theorem W18_at_main_v125 (c : Dev nD) : W18 m c main_v125 = (dat7 (atTc (W17 m)) c).arrAt (2 : Fin 3) cfg7.N := by
  unfold W18; exact Function.update_self _ _ _
theorem W18_of_ne (c : Dev nD) (b : Ref sig .tc) (h0 : b ≠ main_v125) : W18 m c b = W17 m c b := by
  unfold W18; exact (Function.update_of_ne (StableHlo.devRef_ne_of_ne h0) _ _)
theorem hF7 (c : Dev nD) : ∀ w : Fin cfg7.W, (dat7 (atTc (W17 m)) c).arrAt w cfg7.N = atTc (W18 m) c (Pipeline.arrRef spec7 w) :=
  forall_fin3 (arrAt_in_exit _ (atTc (W17 m) c) (atTc (W18 m) c) 0 rfl (A_eq7 _ c 0) (W18_of_ne m c _ (by decide)))
    (arrAt_in_exit _ (atTc (W17 m) c) (atTc (W18 m) c) 1 rfl (A_eq7 _ c 1) (W18_of_ne m c _ (by decide)))
    (W18_at_main_v125 m c).symm
theorem hrest7 (c : Dev nD) : ∀ b, b ∉ Finset.univ.image (Pipeline.arrRef spec7) → atTc (W18 m) c b = atTc (W17 m) c b :=
  fun b hb => W18_of_ne m c b (ne_of_not_mem_arrays (2 : Fin 3) (by decide) hb)

set_option backward.isDefEq.respectTransparency.types false in
def reg7 : Pipeline.RegionSeg (pcfgs (F := F)) adm (pdats m) () defs₀ 𝒱₀ L lv 7 :=
  regionAt m 7 launch7 (W17 m) (W18 m) (fun c => (body_obligation7 (atTc (W17 m)) c).loose) (fun _ _ => rfl) (fun _ _ => rfl) (fun _ => rfl)
    (A_eq7 (atTc (W17 m))) (fun _ => .rfl) (fun _ => .rfl) (hF7 m) (hrest7 m)

theorem W20_at_main_v144_0 (c : Dev nD) : W20 m c main_v144_0 = (dat8 (atTc (W19 m)) c).arrAt (1 : Fin 3) cfg8.N := by
  unfold W20; exact ((Function.update_of_ne (StableHlo.devRef_ne_of_ne (by decide : main_v144_0 ≠ main_v144_1)) _ _)).trans (Function.update_self _ _ _)
theorem W20_at_main_v144_1 (c : Dev nD) : W20 m c main_v144_1 = (dat8 (atTc (W19 m)) c).arrAt (2 : Fin 3) cfg8.N := by
  unfold W20; exact Function.update_self _ _ _
theorem W20_of_ne (c : Dev nD) (b : Ref sig .tc) (h0 : b ≠ main_v144_0) (h1 : b ≠ main_v144_1) : W20 m c b = W19 m c b := by
  unfold W20; exact (Function.update_of_ne (StableHlo.devRef_ne_of_ne h1) _ _).trans (Function.update_of_ne (StableHlo.devRef_ne_of_ne h0) _ _)
theorem hF8 (c : Dev nD) : ∀ w : Fin cfg8.W, (dat8 (atTc (W19 m)) c).arrAt w cfg8.N = atTc (W20 m) c (Pipeline.arrRef spec8 w) :=
  forall_fin3 (arrAt_in_exit _ (atTc (W19 m) c) (atTc (W20 m) c) 0 rfl (A_eq8 _ c 0) (W20_of_ne m c _ (by decide) (by decide)))
    (W20_at_main_v144_0 m c).symm
    (W20_at_main_v144_1 m c).symm
theorem hrest8 (c : Dev nD) : ∀ b, b ∉ Finset.univ.image (Pipeline.arrRef spec8) → atTc (W20 m) c b = atTc (W19 m) c b :=
  fun b hb => W20_of_ne m c b (ne_of_not_mem_arrays (1 : Fin 3) (by decide) hb) (ne_of_not_mem_arrays (2 : Fin 3) (by decide) hb)

set_option backward.isDefEq.respectTransparency.types false in
def reg8 : Pipeline.RegionSeg (pcfgs (F := F)) adm (pdats m) () defs₀ 𝒱₀ L lv 8 :=
  regionAt m 8 launch8 (W19 m) (W20 m) (fun c => (body_obligation8 (atTc (W19 m)) c).loose) (fun _ _ => rfl) (fun _ _ => rfl) (fun _ => rfl)
    (A_eq8 (atTc (W19 m))) (hin8 (atTc (W19 m))) (hout8 (atTc (W19 m))) (hF8 m) (hrest8 m)

theorem W22_at_main_v163 (c : Dev nD) : W22 m c main_v163 = (dat9 (atTc (W21 m)) c).arrAt (3 : Fin 4) cfg9.N := by
  unfold W22; exact Function.update_self _ _ _
theorem W22_of_ne (c : Dev nD) (b : Ref sig .tc) (h0 : b ≠ main_v163) : W22 m c b = W21 m c b := by
  unfold W22; exact (Function.update_of_ne (StableHlo.devRef_ne_of_ne h0) _ _)
theorem hF9 (c : Dev nD) : ∀ w : Fin cfg9.W, (dat9 (atTc (W21 m)) c).arrAt w cfg9.N = atTc (W22 m) c (Pipeline.arrRef spec9 w) :=
  forall_fin4 (arrAt_in_exit _ (atTc (W21 m) c) (atTc (W22 m) c) 0 rfl (A_eq9 _ c 0) (W22_of_ne m c _ (by decide)))
    (arrAt_in_exit _ (atTc (W21 m) c) (atTc (W22 m) c) 1 rfl (A_eq9 _ c 1) (W22_of_ne m c _ (by decide)))
    (arrAt_in_exit _ (atTc (W21 m) c) (atTc (W22 m) c) 2 rfl (A_eq9 _ c 2) (W22_of_ne m c _ (by decide)))
    (W22_at_main_v163 m c).symm
theorem hrest9 (c : Dev nD) : ∀ b, b ∉ Finset.univ.image (Pipeline.arrRef spec9) → atTc (W22 m) c b = atTc (W21 m) c b :=
  fun b hb => W22_of_ne m c b (ne_of_not_mem_arrays (3 : Fin 4) (by decide) hb)

set_option backward.isDefEq.respectTransparency.types false in
def reg9 : Pipeline.RegionSeg (pcfgs (F := F)) adm (pdats m) () defs₀ 𝒱₀ L lv 9 :=
  regionAt m 9 launch9 (W21 m) (W22 m) (fun c => (body_obligation9 (atTc (W21 m)) c).loose) (fun _ _ => rfl) (fun _ _ => rfl) (fun _ => rfl)
    (A_eq9 (atTc (W21 m))) (fun _ => .rfl) (fun _ => .rfl) (hF9 m) (hrest9 m)

theorem W24_at_main_v166 (c : Dev nD) : W24 m c main_v166 = (dat10 (atTc (W23 m)) c).arrAt (2 : Fin 3) cfg10.N := by
  unfold W24; exact Function.update_self _ _ _
theorem W24_of_ne (c : Dev nD) (b : Ref sig .tc) (h0 : b ≠ main_v166) : W24 m c b = W23 m c b := by
  unfold W24; exact (Function.update_of_ne (StableHlo.devRef_ne_of_ne h0) _ _)
theorem hF10 (c : Dev nD) : ∀ w : Fin cfg10.W, (dat10 (atTc (W23 m)) c).arrAt w cfg10.N = atTc (W24 m) c (Pipeline.arrRef spec10 w) :=
  forall_fin3 (arrAt_in_exit _ (atTc (W23 m) c) (atTc (W24 m) c) 0 rfl (A_eq10 _ c 0) (W24_of_ne m c _ (by decide)))
    (arrAt_in_exit _ (atTc (W23 m) c) (atTc (W24 m) c) 1 rfl (A_eq10 _ c 1) (W24_of_ne m c _ (by decide)))
    (W24_at_main_v166 m c).symm
theorem hrest10 (c : Dev nD) : ∀ b, b ∉ Finset.univ.image (Pipeline.arrRef spec10) → atTc (W24 m) c b = atTc (W23 m) c b :=
  fun b hb => W24_of_ne m c b (ne_of_not_mem_arrays (2 : Fin 3) (by decide) hb)

set_option backward.isDefEq.respectTransparency.types false in
def reg10 : Pipeline.RegionSeg (pcfgs (F := F)) adm (pdats m) () defs₀ 𝒱₀ L lv 10 :=
  regionAt m 10 launch10 (W23 m) (W24 m) (fun c => (body_obligation10 (atTc (W23 m)) c).loose) (fun _ _ => rfl) (fun _ _ => rfl) (fun _ => rfl)
    (A_eq10 (atTc (W23 m))) (fun _ => .rfl) (fun _ => .rfl) (hF10 m) (hrest10 m)

theorem W26_at_main_v185_0 (c : Dev nD) : W26 m c main_v185_0 = (dat11 (atTc (W25 m)) c).arrAt (1 : Fin 3) cfg11.N := by
  unfold W26; exact ((Function.update_of_ne (StableHlo.devRef_ne_of_ne (by decide : main_v185_0 ≠ main_v185_1)) _ _)).trans (Function.update_self _ _ _)
theorem W26_at_main_v185_1 (c : Dev nD) : W26 m c main_v185_1 = (dat11 (atTc (W25 m)) c).arrAt (2 : Fin 3) cfg11.N := by
  unfold W26; exact Function.update_self _ _ _
theorem W26_of_ne (c : Dev nD) (b : Ref sig .tc) (h0 : b ≠ main_v185_0) (h1 : b ≠ main_v185_1) : W26 m c b = W25 m c b := by
  unfold W26; exact (Function.update_of_ne (StableHlo.devRef_ne_of_ne h1) _ _).trans (Function.update_of_ne (StableHlo.devRef_ne_of_ne h0) _ _)
theorem hF11 (c : Dev nD) : ∀ w : Fin cfg11.W, (dat11 (atTc (W25 m)) c).arrAt w cfg11.N = atTc (W26 m) c (Pipeline.arrRef spec11 w) :=
  forall_fin3 (arrAt_in_exit _ (atTc (W25 m) c) (atTc (W26 m) c) 0 rfl (A_eq11 _ c 0) (W26_of_ne m c _ (by decide) (by decide)))
    (W26_at_main_v185_0 m c).symm
    (W26_at_main_v185_1 m c).symm
theorem hrest11 (c : Dev nD) : ∀ b, b ∉ Finset.univ.image (Pipeline.arrRef spec11) → atTc (W26 m) c b = atTc (W25 m) c b :=
  fun b hb => W26_of_ne m c b (ne_of_not_mem_arrays (1 : Fin 3) (by decide) hb) (ne_of_not_mem_arrays (2 : Fin 3) (by decide) hb)

set_option backward.isDefEq.respectTransparency.types false in
def reg11 : Pipeline.RegionSeg (pcfgs (F := F)) adm (pdats m) () defs₀ 𝒱₀ L lv 11 :=
  regionAt m 11 launch11 (W25 m) (W26 m) (fun c => (body_obligation11 (atTc (W25 m)) c).loose) (fun _ _ => rfl) (fun _ _ => rfl) (fun _ => rfl)
    (A_eq11 (atTc (W25 m))) (hin11 (atTc (W25 m))) (hout11 (atTc (W25 m))) (hF11 m) (hrest11 m)

theorem W28_at_main_v204 (c : Dev nD) : W28 m c main_v204 = (dat12 (atTc (W27 m)) c).arrAt (3 : Fin 4) cfg12.N := by
  unfold W28; exact Function.update_self _ _ _
theorem W28_of_ne (c : Dev nD) (b : Ref sig .tc) (h0 : b ≠ main_v204) : W28 m c b = W27 m c b := by
  unfold W28; exact (Function.update_of_ne (StableHlo.devRef_ne_of_ne h0) _ _)
theorem hF12 (c : Dev nD) : ∀ w : Fin cfg12.W, (dat12 (atTc (W27 m)) c).arrAt w cfg12.N = atTc (W28 m) c (Pipeline.arrRef spec12 w) :=
  forall_fin4 (arrAt_in_exit _ (atTc (W27 m) c) (atTc (W28 m) c) 0 rfl (A_eq12 _ c 0) (W28_of_ne m c _ (by decide)))
    (arrAt_in_exit _ (atTc (W27 m) c) (atTc (W28 m) c) 1 rfl (A_eq12 _ c 1) (W28_of_ne m c _ (by decide)))
    (arrAt_in_exit _ (atTc (W27 m) c) (atTc (W28 m) c) 2 rfl (A_eq12 _ c 2) (W28_of_ne m c _ (by decide)))
    (W28_at_main_v204 m c).symm
theorem hrest12 (c : Dev nD) : ∀ b, b ∉ Finset.univ.image (Pipeline.arrRef spec12) → atTc (W28 m) c b = atTc (W27 m) c b :=
  fun b hb => W28_of_ne m c b (ne_of_not_mem_arrays (3 : Fin 4) (by decide) hb)

set_option backward.isDefEq.respectTransparency.types false in
def reg12 : Pipeline.RegionSeg (pcfgs (F := F)) adm (pdats m) () defs₀ 𝒱₀ L lv 12 :=
  regionAt m 12 launch12 (W27 m) (W28 m) (fun c => (body_obligation12 (atTc (W27 m)) c).loose) (fun _ _ => rfl) (fun _ _ => rfl) (fun _ => rfl)
    (A_eq12 (atTc (W27 m))) (fun _ => .rfl) (fun _ => .rfl) (hF12 m) (hrest12 m)

theorem W30_at_main_v221 (c : Dev nD) : W30 m c main_v221 = (dat13 (atTc (W29 m)) c).arrAt (7 : Fin 8) cfg13.N := by
  unfold W30; exact Function.update_self _ _ _
theorem W30_of_ne (c : Dev nD) (b : Ref sig .tc) (h0 : b ≠ main_v221) : W30 m c b = W29 m c b := by
  unfold W30; exact (Function.update_of_ne (StableHlo.devRef_ne_of_ne h0) _ _)
theorem hF13 (c : Dev nD) : ∀ w : Fin cfg13.W, (dat13 (atTc (W29 m)) c).arrAt w cfg13.N = atTc (W30 m) c (Pipeline.arrRef spec13 w) :=
  forall_fin8 (arrAt_in_exit _ (atTc (W29 m) c) (atTc (W30 m) c) 0 rfl (A_eq13 _ c 0) (W30_of_ne m c _ (by decide)))
    (arrAt_in_exit _ (atTc (W29 m) c) (atTc (W30 m) c) 1 rfl (A_eq13 _ c 1) (W30_of_ne m c _ (by decide)))
    (arrAt_in_exit _ (atTc (W29 m) c) (atTc (W30 m) c) 2 rfl (A_eq13 _ c 2) (W30_of_ne m c _ (by decide)))
    (arrAt_in_exit _ (atTc (W29 m) c) (atTc (W30 m) c) 3 rfl (A_eq13 _ c 3) (W30_of_ne m c _ (by decide)))
    (arrAt_in_exit _ (atTc (W29 m) c) (atTc (W30 m) c) 4 rfl (A_eq13 _ c 4) (W30_of_ne m c _ (by decide)))
    (arrAt_in_exit _ (atTc (W29 m) c) (atTc (W30 m) c) 5 rfl (A_eq13 _ c 5) (W30_of_ne m c _ (by decide)))
    (arrAt_in_exit _ (atTc (W29 m) c) (atTc (W30 m) c) 6 rfl (A_eq13 _ c 6) (W30_of_ne m c _ (by decide)))
    (W30_at_main_v221 m c).symm
theorem hrest13 (c : Dev nD) : ∀ b, b ∉ Finset.univ.image (Pipeline.arrRef spec13) → atTc (W30 m) c b = atTc (W29 m) c b :=
  fun b hb => W30_of_ne m c b (ne_of_not_mem_arrays (7 : Fin 8) (by decide) hb)

set_option backward.isDefEq.respectTransparency.types false in
def reg13 : Pipeline.RegionSeg (pcfgs (F := F)) adm (pdats m) () defs₀ 𝒱₀ L lv 13 :=
  regionAt m 13 launch13 (W29 m) (W30 m) (fun c => (body_obligation13 (atTc (W29 m)) c).loose) (fun _ _ => rfl) (fun _ _ => rfl) (fun _ => rfl)
    (A_eq13 (atTc (W29 m))) (fun _ => .rfl) (fun _ => .rfl) (hF13 m) (hrest13 m)

end Cert.Kernel.Hand

end
-- ==== Proof.BFrame.lean ====
import proofs.«402767_j7713761264261_1_alg».proof.Proof.BChain

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Gen.frame_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE14 := fun c => by iintro ⟨-, HO⟩; iexact HO)
    (reg0 m) (fun c => by rw [V1_eq m c]; exact .rfl) (fun c => by rw [V2_eq m c]; exact .rfl)
    (reg1 m) (fun c => by rw [V5_eq m c]; exact .rfl) (fun c => by rw [V6_eq m c]; exact .rfl)
    (reg2 m) (fun c => by rw [V7_eq m c]; exact .rfl) (fun c => by rw [V8_eq m c]; exact .rfl)
    (reg3 m) (fun c => by rw [V9_eq m c]; exact .rfl) (fun c => by rw [V10_eq m c]; exact .rfl)
    (reg4 m) (fun c => by rw [V11_eq m c]; exact .rfl) (fun c => by rw [V12_eq m c]; exact .rfl)
    (reg5 m) (fun c => by rw [V13_eq m c]; exact .rfl) (fun c => by rw [V14_eq m c]; exact .rfl)
    (reg6 m) (fun c => by rw [V15_eq m c]; exact .rfl) (fun c => by rw [V16_eq m c]; exact .rfl)
    (reg7 m) (fun c => by rw [V17_eq m c]; exact .rfl) (fun c => by rw [V18_eq m c]; exact .rfl)
    (reg8 m) (fun c => by rw [V19_eq m c]; exact .rfl) (fun c => by rw [V20_eq m c]; exact .rfl)
    (reg9 m) (fun c => by rw [V21_eq m c]; exact .rfl) (fun c => by rw [V22_eq m c]; exact .rfl)
    (reg10 m) (fun c => by rw [V23_eq m c]; exact .rfl) (fun c => by rw [V24_eq m c]; exact .rfl)
    (reg11 m) (fun c => by rw [V25_eq m c]; exact .rfl) (fun c => by rw [V26_eq m c]; exact .rfl)
    (reg12 m) (fun c => by rw [V27_eq m c]; exact .rfl) (fun c => by rw [V28_eq m c]; exact .rfl)
    (reg13 m) (fun c => by rw [V29_eq m c]; exact .rfl) (fun c => by rw [V30_eq m c]; exact .rfl)

end Cert.Kernel.Hand

end
-- ==== Proof.Reg0.lean ====
import proofs.«402767_j7713761264261_1_alg».proof.Proof.Gen.KernelIdeal.Launch
import proofs.«402767_j7713761264261_1_alg».proof.Proof.Gen.KernelIdeal.Skeleton
import proofs.«402767_j7713761264261_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev col0 : Rect S400x9 := Rect.unit (s := S400x9) ![0, 0] S400x1.size inb_S400x9_S400x1_0_0
abbrev col1 : Rect S400x9 := Rect.unit (s := S400x9) ![0, 1] S400x1.size inb_S400x9_S400x1_0_1
abbrev col2 : Rect S400x9 := Rect.unit (s := S400x9) ![0, 2] S400x1.size inb_S400x9_S400x1_0_2
abbrev col3 : Rect S400x9 := Rect.unit (s := S400x9) ![0, 3] S400x1.size inb_S400x9_S400x1_0_3
abbrev col4 : Rect S400x9 := Rect.unit (s := S400x9) ![0, 4] S400x1.size inb_S400x9_S400x1_0_4
abbrev col5 : Rect S400x9 := Rect.unit (s := S400x9) ![0, 5] S400x1.size inb_S400x9_S400x1_0_5
abbrev col6 : Rect S400x9 := Rect.unit (s := S400x9) ![0, 6] S400x1.size inb_S400x9_S400x1_0_6
abbrev col7 : Rect S400x9 := Rect.unit (s := S400x9) ![0, 7] S400x1.size inb_S400x9_S400x1_0_7
abbrev col8 : Rect S400x9 := Rect.unit (s := S400x9) ![0, 8] S400x1.size inb_S400x9_S400x1_0_8
abbrev tabR : Rect S4608x128 := Rect.unit (s := S4608x128) ![0, 0] S4608x128.size inb_S4608x128_S4608x128_0_0
abbrev outR : Rect S400x128 := Rect.unit (s := S400x128) ![0, 0] S400x128.size inb_S400x128_S400x128_0_0

def lanes0 : IVec S1x4608 32 := iota .tc S1x4608 32 [1] iota_S1x4608_d1_w32

def sum0 (x0 : Vec F S400x9 .i32) (x1 : Vec F S4608x128 .f32) : Vec F S400x128 .f32 :=
  k0_pay1 (k0_pay2 (View.ld x1 tabR))
    (k0_pay4 (F := F) lanes0 (k0_pay2 (View.ld x1 tabR))
      (k0_pay3 (View.ld x1 tabR) (View.ld x0 col0) (View.ld x0 col1) (View.ld x0 col2) (View.ld x0 col3))
      (View.ld x0 col4) (View.ld x0 col5) (View.ld x0 col6) (View.ld x0 col7))
    (k0_pay5 (F := F) lanes0 (View.ld x0 col8))

def out0_2 (x0 : Vec F S400x9 .i32) (x1 : Vec F S4608x128 .f32) : Vec F S400x128 .f32 :=
  View.canon [⟨outR, sum0 x0 x1⟩]

theorem cover0_2 (p0 : Vec F S400x128 .f32) (y : S400x128.Idx) :
    ∃ pc ∈ ([⟨outR, p0⟩] : List (View.Piece (Elt F) S400x128 .f32)), y ∈ pc.1.set :=
  View.cover_of_tiled [⟨outR, p0⟩] S400x128.size (by rfl) y

set_option maxHeartbeats 1000000 in
theorem sound_kernel0 (c : Dev nD) (E : Set ℕ) (i : grid0.Coords)
    (arg1 : Memref sig .tc .vmem S400x9 .i32) (harg1 : arg1.IsWhole)
    (arg2 : Memref sig .tc .vmem S4608x128 .f32) (harg2 : arg2.IsWhole)
    (arg3 : Memref sig .tc .vmem S400x128 .f32) (harg3 : arg3.IsWhole)
    (x0 : Vec F S400x9 .i32) (x1 : Vec F S4608x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__emb_kernel i arg1 harg1 arg2 harg2 arg3 harg3) K := by
  simp only [cc0__emb_kernel_eq_skeleton]; unfold cc0__emb_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.Reg1.lean ====
import proofs.«402767_j7713761264261_1_alg».proof.Proof.Gen.KernelIdeal.Launch
import proofs.«402767_j7713761264261_1_alg».proof.Proof.Gen.KernelIdeal.Skeleton
import proofs.«402767_j7713761264261_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rX1 : Rect S5000x128 := Rect.unit (s := S5000x128) ![0, 0] S5000x128.size inb_S5000x128_S5000x128_0_0
abbrev rW1 : Rect S128x128 := Rect.unit (s := S128x128) ![0, 0] S128x128.size inb_S128x128_S128x128_0_0

def out1_2 (x0 : Vec F S5000x128 .f32) (x1 : Vec F S128x128 .f32) : Vec F S5000x128 .f32 :=
  View.canon [⟨rX1, k1_pay1 (View.ld x0 rX1) (View.ld x1 rW1)⟩]

theorem cover1_2 (p0 : Vec F S5000x128 .f32) (y : S5000x128.Idx) :
    ∃ pc ∈ ([⟨rX1, p0⟩] : List (View.Piece (Elt F) S5000x128 .f32)), y ∈ pc.1.set :=
  View.cover_of_tiled [⟨rX1, p0⟩] S5000x128.size (by rfl) y

set_option maxHeartbeats 1000000 in
theorem sound_kernel1 (c : Dev nD) (E : Set ℕ) (i : grid1.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand
-- ==== Proof.Runs2.lean ====
import proofs.«402767_j7713761264261_1_alg».proof.Proof.Gen.KernelIdeal.Launch
import proofs.«402767_j7713761264261_1_alg».proof.Proof.Gen.KernelIdeal.Skeleton
import proofs.«402767_j7713761264261_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl

abbrev cond2_0 (i : grid2.Coords) : Prop :=
  (Scalar.cmpi .ne (Scalar.extui (Scalar.cmpi .eq (BitVec.ofNat 32 (i 0).val) 0#32)) 0#32) = 1#1
abbrev cond2_1 (i : grid2.Coords) : Prop := k2_cond2 i = 1#1

theorem hcond2_0 : ∀ t : Fin cfg2.N, cond2_0 (grid2.coords t) ↔ t.val % 10 = 0 :=
  (by decide +kernel : ∀ t : Fin grid2.N, cond2_0 (grid2.coords t) ↔ t.val % 10 = 0)
theorem hcond2_1 : ∀ t : Fin cfg2.N, cond2_1 (grid2.coords t) ↔ t.val % 10 = 9 :=
  (by decide +kernel : ∀ t : Fin grid2.N, cond2_1 (grid2.coords t) ↔ t.val % 10 = 9)

theorem liveAt2_0 : ∀ t : Fin cfg2.N, cfg2.idle 0 (grid2.coords t) = false := by decide +kernel
theorem idleAt2_1 : ∀ t : Fin cfg2.N, ¬ t.val % 10 = 9 → cfg2.idle 1 (grid2.coords t) = true := by decide +kernel
theorem idleAt2_2 : ∀ t : Fin cfg2.N, ¬ t.val % 10 = 9 → cfg2.idle 2 (grid2.coords t) = true := by decide +kernel
theorem liveAt2_1 : ∀ t : Fin cfg2.N, t.val % 10 = 9 → cfg2.idle 1 (grid2.coords t) = false := by decide +kernel
theorem liveAt2_2 : ∀ t : Fin cfg2.N, t.val % 10 = 9 → cfg2.idle 2 (grid2.coords t) = false := by decide +kernel
theorem noFlush2_1 : ∀ t : Fin cfg2.N, ¬ t.val % 10 = 9 → (cfg2.win 1).flush t = false := by decide +kernel
theorem noFlush2_2 : ∀ t : Fin cfg2.N, ¬ t.val % 10 = 9 → (cfg2.win 2).flush t = false := by decide +kernel

theorem cover2 (w : Vec F S1x128 .f32) (L : List (View.Piece (Elt F) S1x128 .f32)) (y : S1x128.Idx) :
    ∃ pc ∈ ((⟨Rect.unit (s := S1x128) ![0, 0] S1x128.size inb_S1x128_S1x128_0_0, w⟩ : View.Piece (Elt F) S1x128 .f32) :: L), y ∈ pc.1.set :=
  ⟨_, List.mem_cons_self, View.mem_set_unit_zero zero2 inb_S1x128_S1x128_0_0 y⟩

set_option maxHeartbeats 1000000 in
theorem sound_kernel2_A (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : cond2_0 i) (hc1 : ¬cond2_1 i) (x0 : Vec F S5000x128 .f32) (xi1 xi2 : Vec F S1x128 .f32) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k2_pay4 x0 (k2_pay1 (F := F)))
            ∗ owns (c : Thread nD τ) arg5 fullShare (k2_pay5 x0 (k2_pay2 (F := F)))) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    sl_unfold_words
    rw [View.read_writes_eq_canon _ _ _ (cover2 _ _), View.canon_cons_unit_zero (S := S1x128) zero2,
      View.readCov_unit_zero (S := S1x128) _ zero2, View.readAt_eq_ld, harg1.read_unread, View.ld_unit_zero (S := S5000x128) zero2]
  · iexists _; isplitr
    swap; · iexact HS1
    ipureintro
    sl_unfold_words
    rw [View.read_writes_eq_canon _ _ _ (cover2 _ _), View.canon_cons_unit_zero (S := S1x128) zero2,
      View.readCov_unit_zero (S := S1x128) _ zero2, View.readAt_eq_ld, harg1.read_unread, View.ld_unit_zero (S := S5000x128) zero2]

set_option maxHeartbeats 1000000 in
theorem sound_kernel2_B (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond2_0 i) (hc1 : ¬cond2_1 i) (x0 : Vec F S5000x128 .f32) (xi1 xi2 s0 s1 : Vec F S1x128 .f32) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare s0 ∗ owns (c : Thread nD τ) arg5 fullShare s1
        ∗ (iprop(owns (c : Thread nD τ) arg1 fullShare x0 ∗ owns (c : Thread nD τ) arg2 fullShare xi1 ∗ owns (c : Thread nD τ) arg3 fullShare xi2
            ∗ owns (c : Thread nD τ) arg4 fullShare (k2_pay4 x0 s0)
            ∗ owns (c : Thread nD τ) arg5 fullShare (k2_pay5 x0 s1)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    sl_unfold_words
    rw [View.read_writes_eq_canon _ _ _ (cover2 _ _), View.canon_cons_unit_zero (S := S1x128) zero2]
    simp only [View.readAt_eq_ld, harg1.read_unread, harg4.read_unread, View.ld_unit_zero (S := S5000x128) zero2, View.ld_unit_zero (S := S1x128) zero2]
  · iexists _; isplitr
    swap; · iexact HS1
    ipureintro
    sl_unfold_words
    rw [View.read_writes_eq_canon _ _ _ (cover2 _ _), View.canon_cons_unit_zero (S := S1x128) zero2]
    simp only [View.readAt_eq_ld, harg1.read_unread, harg5.read_unread, View.ld_unit_zero (S := S5000x128) zero2, View.ld_unit_zero (S := S1x128) zero2]

set_option maxHeartbeats 1000000 in
theorem sound_kernel2_C (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole)
    (hc0 : ¬cond2_0 i) (hc1 : cond2_1 i) (x0 : Vec F S5000x128 .f32) (s0 s1 : Vec F S1x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0
            ∗ owns (c : Thread nD τ) arg2 fullShare (k2_pay4 x0 s0) ∗ owns (c : Thread nD τ) arg3 fullShare (k2_pay5 x0 s1)
            ∗ owns (c : Thread nD τ) arg4 fullShare (k2_pay4 x0 s0)
            ∗ owns (c : Thread nD τ) arg5 fullShare (k2_pay5 x0 s1)) -∗ K ⟨⟩))
      ⊢ wp frame (wpE (defs₀ (F := F)) Variants.none c none) E (cc2__bn_stats_kernel i arg1 harg1 arg2 harg2 arg3 harg3 arg4 harg4 arg5 harg5) K := by
  simp only [cc2__bn_stats_kernel_eq_skeleton]; unfold cc2__bn_stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg1.eq_unread hf0
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]
  · iexists _; isplitr
    swap; · iexact H1
    ipureintro
    sl_unfold_words
    rw [View.read_writes_eq_canon _ _ _ (cover2 _ _), View.canon_cons_unit_zero (S := S1x128) zero2,
      View.readCov_unit_zero (S := S1x128) _ zero2]
    simp only [View.readAt_eq_ld, harg1.read_unread, harg4.read_unread, View.ld_unit_zero (S := S5000x128) zero2, View.ld_unit_zero (S := S1x128) zero2]
  isplitl [H2]
  · iexists _; isplitr
    swap; · iexact H2
    ipureintro
    sl_unfold_words
    rw [View.read_writes_eq_canon _ _ _ (cover2 _ _), View.canon_cons_unit_zero (S := S1x128) zero2,
      View.readCov_unit_zero (S := S1x128) _ zero2]
    simp only [View.readAt_eq_ld, harg1.read_unread, harg5.read_unread, View.ld_unit_zero (S := S5000x128) zero2, View.ld_unit_zero (S := S1x128) zero2]
  isplitl [HS0]
  · iexists _; isplitr
    swap; · iexact HS0
    ipureintro
    sl_unfold_words
    rw [View.read_writes_eq_canon _ _ _ (cover2 _ _), View.canon_cons_unit_zero (S := S1x128) zero2]
    simp only [View.readAt_eq_ld, harg1.read_unread, harg4.read_unread, View.ld_unit_zero (S := S5000x128) zero2, View.ld_unit_zero (S := S1x128) zero2]
  · iexists _; isplitr
    swap; · iexact HS1
    ipureintro
    sl_unfold_words
    rw [View.read_writes_eq_canon _ _ _ (cover2 _ _), View.canon_cons_unit_zero (S := S1x128) zero2]
    simp only [View.readAt_eq_ld, harg1.read_unread, harg5.read_unread, View.ld_unit_zero (S := S5000x128) zero2, View.ld_unit_zero (S := S1x128) zero2]

end Cert.KernelIdeal.Hand
-- ==== Proof.Reg2.lean ====
import proofs.«402767_j7713761264261_1_alg».proof.Proof.Gen.KernelIdeal.Launch
import proofs.«402767_j7713761264261_1_alg».proof.Proof.Gen.KernelIdeal.Skeleton
import proofs.«402767_j7713761264261_1_alg».proof.Proof.Gen.KernelIdeal.Points
import proofs.«402767_j7713761264261_1_alg».proof.Proof.Runs2

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

def sacc2 (c : Dev nD) : (n : ℕ) → n < cfg2.N → Vec F S1x128 .f32 × Vec F S1x128 .f32
  | 0, hn => (k2_pay4 (iblk2 V c 0 ⟨0, hn⟩) (k2_pay1 (F := F)), k2_pay5 (iblk2 V c 0 ⟨0, hn⟩) (k2_pay2 (F := F)))
  | n + 1, hn => (k2_pay4 (iblk2 V c 0 ⟨n + 1, hn⟩) (sacc2 c n (Nat.lt_of_succ_lt hn)).1,
      k2_pay5 (iblk2 V c 0 ⟨n + 1, hn⟩) (sacc2 c n (Nat.lt_of_succ_lt hn)).2)

theorem sacc2_first (c : Dev nD) (t : Fin cfg2.N) (hz : t.val = 0) :
    sacc2 V c t.val t.isLt = (k2_pay4 (iblk2 V c 0 t) (k2_pay1 (F := F)), k2_pay5 (iblk2 V c 0 t) (k2_pay2 (F := F))) := by
  obtain ⟨n, hn⟩ := t
  cases n with
  | zero => exact rfl
  | succ n => exact absurd hz (Nat.succ_ne_zero n)

theorem sacc2_later (c : Dev nD) (t : Fin cfg2.N) (hz : t.val ≠ 0) :
    sacc2 V c t.val t.isLt = (k2_pay4 (iblk2 V c 0 t) (sacc2 V c (t.val - 1) (Nat.lt_of_le_of_lt (Nat.sub_le _ _) t.isLt)).1,
      k2_pay5 (iblk2 V c 0 t) (sacc2 V c (t.val - 1) (Nat.lt_of_le_of_lt (Nat.sub_le _ _) t.isLt)).2) := by
  obtain ⟨n, hn⟩ := t
  cases n with
  | zero => exact absurd rfl hz
  | succ n => exact rfl

def out2_1 (c : Dev nD) (t : Fin cfg2.N) : Vec F S1x128 .f32 := (sacc2 V c t.val t.isLt).1
def out2_2 (c : Dev nD) (t : Fin cfg2.N) : Vec F S1x128 .f32 := (sacc2 V c t.val t.isLt).2

abbrev scM2_0 : Memref sig .tc .vmem S1x128 .f32 := Memref.whole cc2_scratch0
abbrev scM2_1 : Memref sig .tc .vmem S1x128 .f32 := Memref.whole cc2_scratch1

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

def PhiS2 (c : Dev nD) : (n : ℕ) → n ≤ cfg2.N → sProp 𝕄
  | 0, _ => Pipeline.ΦA spec2 c
  | n + 1, hn => iprop(iprop(iprop(owns (c : Thread nD τ) scM2_0 fullShare (sacc2 V c n hn).1 ∗ owns (c : Thread nD τ) scM2_1 fullShare (sacc2 V c n hn).2)
      ∗ Pipeline.scopedRestBut (Ix := Unit) (Name := ℕ) (U := UR sig nD τ) (Lvl := ℕ) (Val := Elt F) spec2 c [cc2_scratch0, cc2_scratch1])
      ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (sacc2 V c n hn).1 ∗ owns (c : Thread nD τ) scM2_1 fullShare (sacc2 V c n hn).2)
      ∗ Pipeline.scopedRestBut (Ix := Unit) (Name := ℕ) (U := UR sig nD τ) (Lvl := ℕ) (Val := Elt F) spec2 c [cc2_scratch0, cc2_scratch1])
      ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (sacc2 V c (n - 1) (by omega)).1 ∗ owns (c : Thread nD τ) scM2_1 fullShare (sacc2 V c (n - 1) (by omega)).2)
      ∗ Pipeline.scopedRestBut (Ix := Unit) (Name := ℕ) (U := UR sig nD τ) (Lvl := ℕ) (Val := Elt F) spec2 c [cc2_scratch0, cc2_scratch1])
      ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 V c t
    | ⟨2, _⟩ => out2_2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = out2_1 V c t := by dsimp only [dat2]
theorem after2_2 (c : Dev nD) (t : Fin cfg2.N) : (dat2 V c).after 2 t = out2_2 V c t := by dsimp only [dat2]

theorem before2_0 (c : Dev nD) (t : Fin cfg2.N) (d) : (dat2 V c).before 0 t d = iblk2 V c 0 t :=
  before2_0_of V (dat2 V c) (A_eq2 V c 0) (after2_0 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (st2_0 t) fullShare ((dat2 V c).after 0 t) from by
    unfold Dat.leavesExact; rw [liveAt2_0 t], after2_0]
  by_cases h9 : t.val % 10 = 9
  · have hz : t.val ≠ 0 := by omega
    rw [show (dat2 V c).leavesExact 1 t = owns (c : Thread nD τ) (st2_1 t) fullShare ((dat2 V c).after 1 t) from by
      unfold Dat.leavesExact; rw [liveAt2_1 t h9], after2_1]
    rw [show (dat2 V c).leavesExact 2 t = owns (c : Thread nD τ) (st2_2 t) fullShare ((dat2 V c).after 2 t) from by
      unfold Dat.leavesExact; rw [liveAt2_2 t h9], after2_2]
    unfold out2_1 out2_2
    rw [sacc2_later V c t hz]; (try dsimp only)
    rw [PhiS2_castSucc V c t, PhiS2_pos V c _ _ hz]
    iintro ⟨⟨⟨⟨HS0, HS1⟩, Hrest⟩, Hg⟩, Ho, ⟨%d0, H0⟩, ⟨%d1, H1⟩, ⟨%d2, H2⟩⟩
    iapply (sound_kernel2_C c Set.univ (grid2.coords t) _ _ _ _ _ _ _ _ _ _
      (fun h => hz (by have := (hcond2_0 t).mp h; omega)) ((hcond2_1 t).mpr h9) (iblk2 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    iexact H2
  · rw [Dat.leavesExact_idle (dat2 V c) 1 t (idleAt2_1 t h9) (noFlush2_1 t h9)]
    rw [Dat.leavesExact_idle (dat2 V c) 2 t (idleAt2_2 t h9) (noFlush2_2 t h9)]
    by_cases hz : t.val = 0
    · rw [sacc2_first V c t hz]; (try dsimp only)
      rw [PhiS2_castSucc V c t, PhiS2_zero V c _ _ hz, PhiA2_eq]
      iintro ⟨⟨⟨⟨HS0, HS1⟩, Hrest⟩, Hg⟩, Ho, ⟨%d0, H0⟩, ⟨%d1, H1⟩, ⟨%d2, H2⟩⟩
      iapply (sound_kernel2_A c Set.univ (grid2.coords t) _ _ _ _ _ _ _ _ _ _
        ((hcond2_0 t).mpr (by omega)) (fun h => h9 ((hcond2_1 t).mp h)) (iblk2 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2
    · rw [sacc2_later V c t hz]; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩⟩
      iapply (sound_kernel2_B c Set.univ (grid2.coords t) _ _ _ _ _ _ _ _ _ _
        (fun h => hz (by have := (hcond2_0 t).mp h; omega)) (fun h => h9 ((hcond2_1 t).mp h)) (iblk2 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2

theorem body_obligation2 (c : Dev nD) : BodyObligation (dat2 (F := F) V c) (defs₀ (F := F)) Variants.none () Set.univ := fun t => by
  rw [bigSep_W2, bigSep_W2]
  exact sound_body2 V c t

theorem Phi2_zero (c : Dev nD) : (dat2 V c).Φ 0 = Pipeline.ΦA spec2 c := rfl

theorem hin2 (c : Dev nD) : Pipeline.ΦA spec2 c ⊢ (dat2 V c).Φ 0 := by
  rw [Phi2_zero]

theorem Phi2_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout2 (c : Dev nD) : (dat2 V c).Φ (Fin.last cfg2.N) ⊢ Pipeline.ΦA spec2 c :=
  Phi2_out V c _ (by rw [Fin.val_last]; have : cfg2.N = 10 := N_2; omega)

end Cert.KernelIdeal.Hand
-- ==== Proof.Reg3.lean ====
import proofs.«402767_j7713761264261_1_alg».proof.Proof.Gen.KernelIdeal.Launch
import proofs.«402767_j7713761264261_1_alg».proof.Proof.Gen.KernelIdeal.Skeleton
import proofs.«402767_j7713761264261_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_blk : Rect S5000x128 := Rect.unit (s := S5000x128) ![0, 0] S5000x128.size inb_S5000x128_S5000x128_0_0
abbrev r3_row : Rect S1x128 := Rect.unit (s := S1x128) ![0, 0] S1x128.size inb_S1x128_S1x128_0_0

def out3_3 (x0 : Vec F S5000x128 .f32) (x1 : Vec F S1x128 .f32) (x2 : Vec F S1x128 .f32) : Vec F S5000x128 .f32 :=
  View.canon [⟨r3_blk, k3_pay1 (View.ld x0 r3_blk) (View.ld x1 r3_row) (View.ld x2 r3_row)⟩]

theorem cover3_3 (p0 : Vec F S5000x128 .f32) (y : S5000x128.Idx) :
    ∃ pc ∈ ([⟨r3_blk, p0⟩] : List (View.Piece (Elt F) S5000x128 .f32)), y ∈ pc.1.set :=
  View.cover_of_tiled [⟨r3_blk, p0⟩] S5000x128.size (by rfl) y

set_option maxHeartbeats 1000000 in
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__bn_apply_kernel i arg1 harg1 arg2 harg2 arg3 harg3 arg4 harg4) K := by
  simp only [cc3__bn_apply_kernel_eq_skeleton]; unfold cc3__bn_apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.Reg4.lean ====
import proofs.«402767_j7713761264261_1_alg».proof.Proof.Reg1

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out1_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out1_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [show cc4__matmul_kernel (F := F) = cc1__matmul_kernel from rfl]
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel1 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Region4

end Cert.KernelIdeal.Hand
-- ==== Proof.Runs5.lean ====
import proofs.«402767_j7713761264261_1_alg».proof.Proof.Runs2

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond5_0 (i : grid5.Coords) : Prop :=
  (Scalar.cmpi .ne (Scalar.extui (Scalar.cmpi .eq (BitVec.ofNat 32 (i 0).val) 0#32)) 0#32) = 1#1
abbrev cond5_1 (i : grid5.Coords) : Prop := k5_cond2 i = 1#1

theorem hcond5_0 : ∀ t : Fin cfg5.N, cond5_0 (grid5.coords t) ↔ t.val % 10 = 0 :=
  (by decide +kernel : ∀ t : Fin grid5.N, cond5_0 (grid5.coords t) ↔ t.val % 10 = 0)
theorem hcond5_1 : ∀ t : Fin cfg5.N, cond5_1 (grid5.coords t) ↔ t.val % 10 = 9 :=
  (by decide +kernel : ∀ t : Fin grid5.N, cond5_1 (grid5.coords t) ↔ t.val % 10 = 9)

theorem liveAt5_0 : ∀ t : Fin cfg5.N, cfg5.idle 0 (grid5.coords t) = false := by decide +kernel
theorem idleAt5_1 : ∀ t : Fin cfg5.N, ¬ t.val % 10 = 9 → cfg5.idle 1 (grid5.coords t) = true := by decide +kernel
theorem idleAt5_2 : ∀ t : Fin cfg5.N, ¬ t.val % 10 = 9 → cfg5.idle 2 (grid5.coords t) = true := by decide +kernel
theorem liveAt5_1 : ∀ t : Fin cfg5.N, t.val % 10 = 9 → cfg5.idle 1 (grid5.coords t) = false := by decide +kernel
theorem liveAt5_2 : ∀ t : Fin cfg5.N, t.val % 10 = 9 → cfg5.idle 2 (grid5.coords t) = false := by decide +kernel
theorem noFlush5_1 : ∀ t : Fin cfg5.N, ¬ t.val % 10 = 9 → (cfg5.win 1).flush t = false := by decide +kernel
theorem noFlush5_2 : ∀ t : Fin cfg5.N, ¬ t.val % 10 = 9 → (cfg5.win 2).flush t = false := by decide +kernel

end Cert.KernelIdeal.Hand
-- ==== Proof.Reg5.lean ====
import proofs.«402767_j7713761264261_1_alg».proof.Proof.Gen.KernelIdeal.Launch
import proofs.«402767_j7713761264261_1_alg».proof.Proof.Gen.KernelIdeal.Skeleton
import proofs.«402767_j7713761264261_1_alg».proof.Proof.Gen.KernelIdeal.Points
import proofs.«402767_j7713761264261_1_alg».proof.Proof.Runs5

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

def sacc5 (c : Dev nD) : (n : ℕ) → n < cfg5.N → Vec F S1x128 .f32 × Vec F S1x128 .f32
  | 0, hn => (k2_pay4 (iblk5 V c 0 ⟨0, hn⟩) (k2_pay1 (F := F)), k2_pay5 (iblk5 V c 0 ⟨0, hn⟩) (k2_pay2 (F := F)))
  | n + 1, hn => (k2_pay4 (iblk5 V c 0 ⟨n + 1, hn⟩) (sacc5 c n (Nat.lt_of_succ_lt hn)).1,
      k2_pay5 (iblk5 V c 0 ⟨n + 1, hn⟩) (sacc5 c n (Nat.lt_of_succ_lt hn)).2)

theorem sacc5_first (c : Dev nD) (t : Fin cfg5.N) (hz : t.val = 0) :
    sacc5 V c t.val t.isLt = (k2_pay4 (iblk5 V c 0 t) (k2_pay1 (F := F)), k2_pay5 (iblk5 V c 0 t) (k2_pay2 (F := F))) := by
  obtain ⟨n, hn⟩ := t
  cases n with
  | zero => exact rfl
  | succ n => exact absurd hz (Nat.succ_ne_zero n)

theorem sacc5_later (c : Dev nD) (t : Fin cfg5.N) (hz : t.val ≠ 0) :
    sacc5 V c t.val t.isLt = (k2_pay4 (iblk5 V c 0 t) (sacc5 V c (t.val - 1) (Nat.lt_of_le_of_lt (Nat.sub_le _ _) t.isLt)).1,
      k2_pay5 (iblk5 V c 0 t) (sacc5 V c (t.val - 1) (Nat.lt_of_le_of_lt (Nat.sub_le _ _) t.isLt)).2) := by
  obtain ⟨n, hn⟩ := t
  cases n with
  | zero => exact absurd rfl hz
  | succ n => exact rfl

def out5_1 (c : Dev nD) (t : Fin cfg5.N) : Vec F S1x128 .f32 := (sacc5 V c t.val t.isLt).1
def out5_2 (c : Dev nD) (t : Fin cfg5.N) : Vec F S1x128 .f32 := (sacc5 V c t.val t.isLt).2

abbrev scM5_0 : Memref sig .tc .vmem S1x128 .f32 := Memref.whole cc5_scratch0
abbrev scM5_1 : Memref sig .tc .vmem S1x128 .f32 := Memref.whole cc5_scratch1

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1])
          ∗ (∃ r, prngReg c r)) := by
  unfold Pipeline.ΦA; rw [scopedRest5_split]; simp only [scM5_0, scM5_1, owns_whole]; try rfl

def PhiS5 (c : Dev nD) : (n : ℕ) → n ≤ cfg5.N → sProp 𝕄
  | 0, _ => Pipeline.ΦA spec5 c
  | n + 1, hn => iprop(iprop(iprop(owns (c : Thread nD τ) scM5_0 fullShare (sacc5 V c n hn).1 ∗ owns (c : Thread nD τ) scM5_1 fullShare (sacc5 V c n hn).2)
      ∗ Pipeline.scopedRestBut (Ix := Unit) (Name := ℕ) (U := UR sig nD τ) (Lvl := ℕ) (Val := Elt F) spec5 c [cc5_scratch0, cc5_scratch1])
      ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare (sacc5 V c n hn).1 ∗ owns (c : Thread nD τ) scM5_1 fullShare (sacc5 V c n hn).2)
      ∗ Pipeline.scopedRestBut (Ix := Unit) (Name := ℕ) (U := UR sig nD τ) (Lvl := ℕ) (Val := Elt F) spec5 c [cc5_scratch0, cc5_scratch1])
      ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare (sacc5 V c (n - 1) (by omega)).1 ∗ owns (c : Thread nD τ) scM5_1 fullShare (sacc5 V c (n - 1) (by omega)).2)
      ∗ Pipeline.scopedRestBut (Ix := Unit) (Name := ℕ) (U := UR sig nD τ) (Lvl := ℕ) (Val := Elt F) spec5 c [cc5_scratch0, cc5_scratch1])
      ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => out5_1 V c t
    | ⟨2, _⟩ => out5_2 V c t
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = out5_1 V c t := by dsimp only [dat5]
theorem after5_2 (c : Dev nD) (t : Fin cfg5.N) : (dat5 V c).after 2 t = out5_2 V c t := by dsimp only [dat5]

theorem before5_0 (c : Dev nD) (t : Fin cfg5.N) (d) : (dat5 V c).before 0 t d = iblk5 V c 0 t :=
  before5_0_of V (dat5 V c) (A_eq5 V c 0) (after5_0 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [show cc5__bn_stats_kernel (F := F) = cc2__bn_stats_kernel from rfl]
  simp only [before5_0]
  rw [show (dat5 V c).owesAt () t.succ = (dat5 V c).owesAt () t.castSucc from rfl]
  rw [show (dat5 V c).Φ t.succ = PhiS5 V c (t.val + 1) t.isLt from rfl, PhiS5_succ]
  have hN : t.val < 10 := lt_of_lt_of_eq t.isLt (show cfg5.N = 10 from N_5)
  rw [show (dat5 V c).leavesExact 0 t = owns (c : Thread nD τ) (st5_0 t) fullShare ((dat5 V c).after 0 t) from by
    unfold Dat.leavesExact; rw [liveAt5_0 t], after5_0]
  by_cases h9 : t.val % 10 = 9
  · have hz : t.val ≠ 0 := by omega
    rw [show (dat5 V c).leavesExact 1 t = owns (c : Thread nD τ) (st5_1 t) fullShare ((dat5 V c).after 1 t) from by
      unfold Dat.leavesExact; rw [liveAt5_1 t h9], after5_1]
    rw [show (dat5 V c).leavesExact 2 t = owns (c : Thread nD τ) (st5_2 t) fullShare ((dat5 V c).after 2 t) from by
      unfold Dat.leavesExact; rw [liveAt5_2 t h9], after5_2]
    unfold out5_1 out5_2
    rw [sacc5_later V c t hz]; (try dsimp only)
    rw [PhiS5_castSucc V c t, PhiS5_pos V c _ _ hz]
    iintro ⟨⟨⟨⟨HS0, HS1⟩, Hrest⟩, Hg⟩, Ho, ⟨%d0, H0⟩, ⟨%d1, H1⟩, ⟨%d2, H2⟩⟩
    iapply (sound_kernel2_C c Set.univ (grid5.coords t) _ _ _ _ _ _ _ _ _ _
      (fun h => hz (by have := (hcond5_0 t).mp h; omega)) ((hcond5_1 t).mpr h9) (iblk5 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    iexact H2
  · rw [Dat.leavesExact_idle (dat5 V c) 1 t (idleAt5_1 t h9) (noFlush5_1 t h9)]
    rw [Dat.leavesExact_idle (dat5 V c) 2 t (idleAt5_2 t h9) (noFlush5_2 t h9)]
    by_cases hz : t.val = 0
    · rw [sacc5_first V c t hz]; (try dsimp only)
      rw [PhiS5_castSucc V c t, PhiS5_zero V c _ _ hz, PhiA5_eq]
      iintro ⟨⟨⟨⟨HS0, HS1⟩, Hrest⟩, Hg⟩, Ho, ⟨%d0, H0⟩, ⟨%d1, H1⟩, ⟨%d2, H2⟩⟩
      iapply (sound_kernel2_A c Set.univ (grid5.coords t) _ _ _ _ _ _ _ _ _ _
        ((hcond5_0 t).mpr (by omega)) (fun h => h9 ((hcond5_1 t).mp h)) (iblk5 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2
    · rw [sacc5_later V c t hz]; (try dsimp only)
      rw [PhiS5_castSucc V c t, PhiS5_pos V c _ _ hz]
      iintro ⟨⟨⟨⟨HS0, HS1⟩, Hrest⟩, Hg⟩, Ho, ⟨%d0, H0⟩, ⟨%d1, H1⟩, ⟨%d2, H2⟩⟩
      iapply (sound_kernel2_B c Set.univ (grid5.coords t) _ _ _ _ _ _ _ _ _ _
        (fun h => hz (by have := (hcond5_0 t).mp h; omega)) (fun h => h9 ((hcond5_1 t).mp h)) (iblk5 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2

theorem body_obligation5 (c : Dev nD) : BodyObligation (dat5 (F := F) V c) (defs₀ (F := F)) Variants.none () Set.univ := fun t => by
  rw [bigSep_W5, bigSep_W5]
  exact sound_body5 V c t

theorem Phi5_zero (c : Dev nD) : (dat5 V c).Φ 0 = Pipeline.ΦA spec5 c := rfl

theorem hin5 (c : Dev nD) : Pipeline.ΦA spec5 c ⊢ (dat5 V c).Φ 0 := by
  rw [Phi5_zero]

theorem Phi5_out (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout5 (c : Dev nD) : (dat5 V c).Φ (Fin.last cfg5.N) ⊢ Pipeline.ΦA spec5 c :=
  Phi5_out V c _ (by rw [Fin.val_last]; have : cfg5.N = 10 := N_5; omega)

end Cert.KernelIdeal.Hand
-- ==== Proof.Reg6.lean ====
import proofs.«402767_j7713761264261_1_alg».proof.Proof.Reg3

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out3_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out3_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [show cc6__bn_apply_kernel (F := F) = cc3__bn_apply_kernel from rfl]
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel3 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.Reg7.lean ====
import proofs.«402767_j7713761264261_1_alg».proof.Proof.Reg1

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out1_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) :
    (dat7 V c).after 2 t = out1_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [show cc7__matmul_kernel (F := F) = cc1__matmul_kernel from rfl]
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel1 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

end Region7

end Cert.KernelIdeal.Hand
-- ==== Proof.Runs8.lean ====
import proofs.«402767_j7713761264261_1_alg».proof.Proof.Runs2

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond8_0 (i : grid8.Coords) : Prop :=
  (Scalar.cmpi .ne (Scalar.extui (Scalar.cmpi .eq (BitVec.ofNat 32 (i 0).val) 0#32)) 0#32) = 1#1
abbrev cond8_1 (i : grid8.Coords) : Prop := k8_cond2 i = 1#1

theorem hcond8_0 : ∀ t : Fin cfg8.N, cond8_0 (grid8.coords t) ↔ t.val % 10 = 0 :=
  (by decide +kernel : ∀ t : Fin grid8.N, cond8_0 (grid8.coords t) ↔ t.val % 10 = 0)
theorem hcond8_1 : ∀ t : Fin cfg8.N, cond8_1 (grid8.coords t) ↔ t.val % 10 = 9 :=
  (by decide +kernel : ∀ t : Fin grid8.N, cond8_1 (grid8.coords t) ↔ t.val % 10 = 9)

theorem liveAt8_0 : ∀ t : Fin cfg8.N, cfg8.idle 0 (grid8.coords t) = false := by decide +kernel
theorem idleAt8_1 : ∀ t : Fin cfg8.N, ¬ t.val % 10 = 9 → cfg8.idle 1 (grid8.coords t) = true := by decide +kernel
theorem idleAt8_2 : ∀ t : Fin cfg8.N, ¬ t.val % 10 = 9 → cfg8.idle 2 (grid8.coords t) = true := by decide +kernel
theorem liveAt8_1 : ∀ t : Fin cfg8.N, t.val % 10 = 9 → cfg8.idle 1 (grid8.coords t) = false := by decide +kernel
theorem liveAt8_2 : ∀ t : Fin cfg8.N, t.val % 10 = 9 → cfg8.idle 2 (grid8.coords t) = false := by decide +kernel
theorem noFlush8_1 : ∀ t : Fin cfg8.N, ¬ t.val % 10 = 9 → (cfg8.win 1).flush t = false := by decide +kernel
theorem noFlush8_2 : ∀ t : Fin cfg8.N, ¬ t.val % 10 = 9 → (cfg8.win 2).flush t = false := by decide +kernel

end Cert.KernelIdeal.Hand
-- ==== Proof.Reg8.lean ====
import proofs.«402767_j7713761264261_1_alg».proof.Proof.Gen.KernelIdeal.Launch
import proofs.«402767_j7713761264261_1_alg».proof.Proof.Gen.KernelIdeal.Skeleton
import proofs.«402767_j7713761264261_1_alg».proof.Proof.Gen.KernelIdeal.Points
import proofs.«402767_j7713761264261_1_alg».proof.Proof.Runs8

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

def sacc8 (c : Dev nD) : (n : ℕ) → n < cfg8.N → Vec F S1x128 .f32 × Vec F S1x128 .f32
  | 0, hn => (k2_pay4 (iblk8 V c 0 ⟨0, hn⟩) (k2_pay1 (F := F)), k2_pay5 (iblk8 V c 0 ⟨0, hn⟩) (k2_pay2 (F := F)))
  | n + 1, hn => (k2_pay4 (iblk8 V c 0 ⟨n + 1, hn⟩) (sacc8 c n (Nat.lt_of_succ_lt hn)).1,
      k2_pay5 (iblk8 V c 0 ⟨n + 1, hn⟩) (sacc8 c n (Nat.lt_of_succ_lt hn)).2)

theorem sacc8_first (c : Dev nD) (t : Fin cfg8.N) (hz : t.val = 0) :
    sacc8 V c t.val t.isLt = (k2_pay4 (iblk8 V c 0 t) (k2_pay1 (F := F)), k2_pay5 (iblk8 V c 0 t) (k2_pay2 (F := F))) := by
  obtain ⟨n, hn⟩ := t
  cases n with
  | zero => exact rfl
  | succ n => exact absurd hz (Nat.succ_ne_zero n)

theorem sacc8_later (c : Dev nD) (t : Fin cfg8.N) (hz : t.val ≠ 0) :
    sacc8 V c t.val t.isLt = (k2_pay4 (iblk8 V c 0 t) (sacc8 V c (t.val - 1) (Nat.lt_of_le_of_lt (Nat.sub_le _ _) t.isLt)).1,
      k2_pay5 (iblk8 V c 0 t) (sacc8 V c (t.val - 1) (Nat.lt_of_le_of_lt (Nat.sub_le _ _) t.isLt)).2) := by
  obtain ⟨n, hn⟩ := t
  cases n with
  | zero => exact absurd rfl hz
  | succ n => exact rfl

def out8_1 (c : Dev nD) (t : Fin cfg8.N) : Vec F S1x128 .f32 := (sacc8 V c t.val t.isLt).1
def out8_2 (c : Dev nD) (t : Fin cfg8.N) : Vec F S1x128 .f32 := (sacc8 V c t.val t.isLt).2

abbrev scM8_0 : Memref sig .tc .vmem S1x128 .f32 := Memref.whole cc8_scratch0
abbrev scM8_1 : Memref sig .tc .vmem S1x128 .f32 := Memref.whole cc8_scratch1

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1])
          ∗ (∃ r, prngReg c r)) := by
  unfold Pipeline.ΦA; rw [scopedRest8_split]; simp only [scM8_0, scM8_1, owns_whole]; try rfl

def PhiS8 (c : Dev nD) : (n : ℕ) → n ≤ cfg8.N → sProp 𝕄
  | 0, _ => Pipeline.ΦA spec8 c
  | n + 1, hn => iprop(iprop(iprop(owns (c : Thread nD τ) scM8_0 fullShare (sacc8 V c n hn).1 ∗ owns (c : Thread nD τ) scM8_1 fullShare (sacc8 V c n hn).2)
      ∗ Pipeline.scopedRestBut (Ix := Unit) (Name := ℕ) (U := UR sig nD τ) (Lvl := ℕ) (Val := Elt F) spec8 c [cc8_scratch0, cc8_scratch1])
      ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare (sacc8 V c n hn).1 ∗ owns (c : Thread nD τ) scM8_1 fullShare (sacc8 V c n hn).2)
      ∗ Pipeline.scopedRestBut (Ix := Unit) (Name := ℕ) (U := UR sig nD τ) (Lvl := ℕ) (Val := Elt F) spec8 c [cc8_scratch0, cc8_scratch1])
      ∗ (∃ r, prngReg c r)) := rfl

theorem PhiS8_pos (c : Dev nD) (n : ℕ) (h : n ≤ cfg8.N) (hz : n ≠ 0) :
    PhiS8 V c n h = iprop(iprop(iprop(owns (c : Thread nD τ) scM8_0 fullShare (sacc8 V c (n - 1) (by omega)).1 ∗ owns (c : Thread nD τ) scM8_1 fullShare (sacc8 V c (n - 1) (by omega)).2)
      ∗ Pipeline.scopedRestBut (Ix := Unit) (Name := ℕ) (U := UR sig nD τ) (Lvl := ℕ) (Val := Elt F) spec8 c [cc8_scratch0, cc8_scratch1])
      ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => out8_1 V c t
    | ⟨2, _⟩ => out8_2 V c t
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = out8_1 V c t := by dsimp only [dat8]
theorem after8_2 (c : Dev nD) (t : Fin cfg8.N) : (dat8 V c).after 2 t = out8_2 V c t := by dsimp only [dat8]

theorem before8_0 (c : Dev nD) (t : Fin cfg8.N) (d) : (dat8 V c).before 0 t d = iblk8 V c 0 t :=
  before8_0_of V (dat8 V c) (A_eq8 V c 0) (after8_0 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4000000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  rw [show cc8__bn_stats_kernel (F := F) = cc2__bn_stats_kernel from rfl]
  simp only [before8_0]
  rw [show (dat8 V c).owesAt () t.succ = (dat8 V c).owesAt () t.castSucc from rfl]
  rw [show (dat8 V c).Φ t.succ = PhiS8 V c (t.val + 1) t.isLt from rfl, PhiS8_succ]
  have hN : t.val < 10 := lt_of_lt_of_eq t.isLt (show cfg8.N = 10 from N_8)
  rw [show (dat8 V c).leavesExact 0 t = owns (c : Thread nD τ) (st8_0 t) fullShare ((dat8 V c).after 0 t) from by
    unfold Dat.leavesExact; rw [liveAt8_0 t], after8_0]
  by_cases h9 : t.val % 10 = 9
  · have hz : t.val ≠ 0 := by omega
    rw [show (dat8 V c).leavesExact 1 t = owns (c : Thread nD τ) (st8_1 t) fullShare ((dat8 V c).after 1 t) from by
      unfold Dat.leavesExact; rw [liveAt8_1 t h9], after8_1]
    rw [show (dat8 V c).leavesExact 2 t = owns (c : Thread nD τ) (st8_2 t) fullShare ((dat8 V c).after 2 t) from by
      unfold Dat.leavesExact; rw [liveAt8_2 t h9], after8_2]
    unfold out8_1 out8_2
    rw [sacc8_later V c t hz]; (try dsimp only)
    rw [PhiS8_castSucc V c t, PhiS8_pos V c _ _ hz]
    iintro ⟨⟨⟨⟨HS0, HS1⟩, Hrest⟩, Hg⟩, Ho, ⟨%d0, H0⟩, ⟨%d1, H1⟩, ⟨%d2, H2⟩⟩
    iapply (sound_kernel2_C c Set.univ (grid8.coords t) _ _ _ _ _ _ _ _ _ _
      (fun h => hz (by have := (hcond8_0 t).mp h; omega)) ((hcond8_1 t).mpr h9) (iblk8 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    iexact H2
  · rw [Dat.leavesExact_idle (dat8 V c) 1 t (idleAt8_1 t h9) (noFlush8_1 t h9)]
    rw [Dat.leavesExact_idle (dat8 V c) 2 t (idleAt8_2 t h9) (noFlush8_2 t h9)]
    by_cases hz : t.val = 0
    · rw [sacc8_first V c t hz]; (try dsimp only)
      rw [PhiS8_castSucc V c t, PhiS8_zero V c _ _ hz, PhiA8_eq]
      iintro ⟨⟨⟨⟨HS0, HS1⟩, Hrest⟩, Hg⟩, Ho, ⟨%d0, H0⟩, ⟨%d1, H1⟩, ⟨%d2, H2⟩⟩
      iapply (sound_kernel2_A c Set.univ (grid8.coords t) _ _ _ _ _ _ _ _ _ _
        ((hcond8_0 t).mpr (by omega)) (fun h => h9 ((hcond8_1 t).mp h)) (iblk8 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2
    · rw [sacc8_later V c t hz]; (try dsimp only)
      rw [PhiS8_castSucc V c t, PhiS8_pos V c _ _ hz]
      iintro ⟨⟨⟨⟨HS0, HS1⟩, Hrest⟩, Hg⟩, Ho, ⟨%d0, H0⟩, ⟨%d1, H1⟩, ⟨%d2, H2⟩⟩
      iapply (sound_kernel2_B c Set.univ (grid8.coords t) _ _ _ _ _ _ _ _ _ _
        (fun h => hz (by have := (hcond8_0 t).mp h; omega)) (fun h => h9 ((hcond8_1 t).mp h)) (iblk8 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2

theorem body_obligation8 (c : Dev nD) : BodyObligation (dat8 (F := F) V c) (defs₀ (F := F)) Variants.none () Set.univ := fun t => by
  rw [bigSep_W8, bigSep_W8]
  exact sound_body8 V c t

theorem Phi8_zero (c : Dev nD) : (dat8 V c).Φ 0 = Pipeline.ΦA spec8 c := rfl

theorem hin8 (c : Dev nD) : Pipeline.ΦA spec8 c ⊢ (dat8 V c).Φ 0 := by
  rw [Phi8_zero]

theorem Phi8_out (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout8 (c : Dev nD) : (dat8 V c).Φ (Fin.last cfg8.N) ⊢ Pipeline.ΦA spec8 c :=
  Phi8_out V c _ (by rw [Fin.val_last]; have : cfg8.N = 10 := N_8; omega)

end Cert.KernelIdeal.Hand
-- ==== Proof.Reg9.lean ====
import proofs.«402767_j7713761264261_1_alg».proof.Proof.Reg3

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out3_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out3_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  rw [show cc9__bn_apply_kernel (F := F) = cc3__bn_apply_kernel from rfl]
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel3 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation9 (c : Dev nD) : BodyObligation (dat9 (F := F) V c) (defs₀ (F := F)) Variants.none () Set.univ := fun t => by
  rw [bigSep_W9, bigSep_W9]
  exact sound_body9 V c t

end Cert.KernelIdeal.Hand
-- ==== Proof.Reg10.lean ====
import proofs.«402767_j7713761264261_1_alg».proof.Proof.Reg1

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region10
variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out1_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) :
    (dat10 V c).after 2 t = out1_2 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  rw [show cc10__matmul_kernel (F := F) = cc1__matmul_kernel from rfl]
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel1 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation10 (c : Dev nD) : BodyObligation (dat10 (F := F) V c) (defs₀ (F := F)) Variants.none () Set.univ := fun t => by
  rw [bigSep_W10, bigSep_W10]
  exact sound_body10 V c t

end Region10

end Cert.KernelIdeal.Hand
-- ==== Proof.Runs11.lean ====
import proofs.«402767_j7713761264261_1_alg».proof.Proof.Runs2

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond11_0 (i : grid11.Coords) : Prop :=
  (Scalar.cmpi .ne (Scalar.extui (Scalar.cmpi .eq (BitVec.ofNat 32 (i 0).val) 0#32)) 0#32) = 1#1
abbrev cond11_1 (i : grid11.Coords) : Prop := k11_cond2 i = 1#1

theorem hcond11_0 : ∀ t : Fin cfg11.N, cond11_0 (grid11.coords t) ↔ t.val % 10 = 0 :=
  (by decide +kernel : ∀ t : Fin grid11.N, cond11_0 (grid11.coords t) ↔ t.val % 10 = 0)
theorem hcond11_1 : ∀ t : Fin cfg11.N, cond11_1 (grid11.coords t) ↔ t.val % 10 = 9 :=
  (by decide +kernel : ∀ t : Fin grid11.N, cond11_1 (grid11.coords t) ↔ t.val % 10 = 9)

theorem liveAt11_0 : ∀ t : Fin cfg11.N, cfg11.idle 0 (grid11.coords t) = false := by decide +kernel
theorem idleAt11_1 : ∀ t : Fin cfg11.N, ¬ t.val % 10 = 9 → cfg11.idle 1 (grid11.coords t) = true := by decide +kernel
theorem idleAt11_2 : ∀ t : Fin cfg11.N, ¬ t.val % 10 = 9 → cfg11.idle 2 (grid11.coords t) = true := by decide +kernel
theorem liveAt11_1 : ∀ t : Fin cfg11.N, t.val % 10 = 9 → cfg11.idle 1 (grid11.coords t) = false := by decide +kernel
theorem liveAt11_2 : ∀ t : Fin cfg11.N, t.val % 10 = 9 → cfg11.idle 2 (grid11.coords t) = false := by decide +kernel
theorem noFlush11_1 : ∀ t : Fin cfg11.N, ¬ t.val % 10 = 9 → (cfg11.win 1).flush t = false := by decide +kernel
theorem noFlush11_2 : ∀ t : Fin cfg11.N, ¬ t.val % 10 = 9 → (cfg11.win 2).flush t = false := by decide +kernel

end Cert.KernelIdeal.Hand
-- ==== Proof.Reg11.lean ====
import proofs.«402767_j7713761264261_1_alg».proof.Proof.Gen.KernelIdeal.Launch
import proofs.«402767_j7713761264261_1_alg».proof.Proof.Gen.KernelIdeal.Skeleton
import proofs.«402767_j7713761264261_1_alg».proof.Proof.Gen.KernelIdeal.Points
import proofs.«402767_j7713761264261_1_alg».proof.Proof.Runs11

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

def sacc11 (c : Dev nD) : (n : ℕ) → n < cfg11.N → Vec F S1x128 .f32 × Vec F S1x128 .f32
  | 0, hn => (k2_pay4 (iblk11 V c 0 ⟨0, hn⟩) (k2_pay1 (F := F)), k2_pay5 (iblk11 V c 0 ⟨0, hn⟩) (k2_pay2 (F := F)))
  | n + 1, hn => (k2_pay4 (iblk11 V c 0 ⟨n + 1, hn⟩) (sacc11 c n (Nat.lt_of_succ_lt hn)).1,
      k2_pay5 (iblk11 V c 0 ⟨n + 1, hn⟩) (sacc11 c n (Nat.lt_of_succ_lt hn)).2)

theorem sacc11_first (c : Dev nD) (t : Fin cfg11.N) (hz : t.val = 0) :
    sacc11 V c t.val t.isLt = (k2_pay4 (iblk11 V c 0 t) (k2_pay1 (F := F)), k2_pay5 (iblk11 V c 0 t) (k2_pay2 (F := F))) := by
  obtain ⟨n, hn⟩ := t
  cases n with
  | zero => exact rfl
  | succ n => exact absurd hz (Nat.succ_ne_zero n)

theorem sacc11_later (c : Dev nD) (t : Fin cfg11.N) (hz : t.val ≠ 0) :
    sacc11 V c t.val t.isLt = (k2_pay4 (iblk11 V c 0 t) (sacc11 V c (t.val - 1) (Nat.lt_of_le_of_lt (Nat.sub_le _ _) t.isLt)).1,
      k2_pay5 (iblk11 V c 0 t) (sacc11 V c (t.val - 1) (Nat.lt_of_le_of_lt (Nat.sub_le _ _) t.isLt)).2) := by
  obtain ⟨n, hn⟩ := t
  cases n with
  | zero => exact absurd rfl hz
  | succ n => exact rfl

def out11_1 (c : Dev nD) (t : Fin cfg11.N) : Vec F S1x128 .f32 := (sacc11 V c t.val t.isLt).1
def out11_2 (c : Dev nD) (t : Fin cfg11.N) : Vec F S1x128 .f32 := (sacc11 V c t.val t.isLt).2

abbrev scM11_0 : Memref sig .tc .vmem S1x128 .f32 := Memref.whole cc11_scratch0
abbrev scM11_1 : Memref sig .tc .vmem S1x128 .f32 := Memref.whole cc11_scratch1

theorem PhiA11_eq (c : Dev nD) :
    (Pipeline.ΦA spec11 c : sProp 𝕄)
      = iprop(iprop(iprop((∃ d, owns (c : Thread nD τ) scM11_0 fullShare d) ∗ (∃ d, owns (c : Thread nD τ) scM11_1 fullShare d))
          ∗ Pipeline.scopedRestBut (Ix := Unit) (Name := ℕ) (U := UR sig nD τ) (Lvl := ℕ) (Val := Elt F) spec11 c [cc11_scratch0, cc11_scratch1])
          ∗ (∃ r, prngReg c r)) := by
  unfold Pipeline.ΦA; rw [scopedRest11_split]; simp only [scM11_0, scM11_1, owns_whole]; try rfl

def PhiS11 (c : Dev nD) : (n : ℕ) → n ≤ cfg11.N → sProp 𝕄
  | 0, _ => Pipeline.ΦA spec11 c
  | n + 1, hn => iprop(iprop(iprop(owns (c : Thread nD τ) scM11_0 fullShare (sacc11 V c n hn).1 ∗ owns (c : Thread nD τ) scM11_1 fullShare (sacc11 V c n hn).2)
      ∗ Pipeline.scopedRestBut (Ix := Unit) (Name := ℕ) (U := UR sig nD τ) (Lvl := ℕ) (Val := Elt F) spec11 c [cc11_scratch0, cc11_scratch1])
      ∗ (∃ r, prngReg c r))

theorem PhiS11_zero (c : Dev nD) (n : ℕ) (h : n ≤ cfg11.N) (hz : n = 0) : PhiS11 V c n h = Pipeline.ΦA spec11 c := by
  subst hz; rfl

theorem PhiS11_succ (c : Dev nD) (n : ℕ) (hn : n < cfg11.N) :
    PhiS11 V c (n + 1) hn = iprop(iprop(iprop(owns (c : Thread nD τ) scM11_0 fullShare (sacc11 V c n hn).1 ∗ owns (c : Thread nD τ) scM11_1 fullShare (sacc11 V c n hn).2)
      ∗ Pipeline.scopedRestBut (Ix := Unit) (Name := ℕ) (U := UR sig nD τ) (Lvl := ℕ) (Val := Elt F) spec11 c [cc11_scratch0, cc11_scratch1])
      ∗ (∃ r, prngReg c r)) := rfl

theorem PhiS11_pos (c : Dev nD) (n : ℕ) (h : n ≤ cfg11.N) (hz : n ≠ 0) :
    PhiS11 V c n h = iprop(iprop(iprop(owns (c : Thread nD τ) scM11_0 fullShare (sacc11 V c (n - 1) (by omega)).1 ∗ owns (c : Thread nD τ) scM11_1 fullShare (sacc11 V c (n - 1) (by omega)).2)
      ∗ Pipeline.scopedRestBut (Ix := Unit) (Name := ℕ) (U := UR sig nD τ) (Lvl := ℕ) (Val := Elt F) spec11 c [cc11_scratch0, cc11_scratch1])
      ∗ (∃ r, prngReg c r)) := by
  cases n with
  | zero => exact absurd rfl hz
  | succ n => rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => out11_1 V c t
    | ⟨2, _⟩ => out11_2 V c t
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]

theorem PhiS11_castSucc (c : Dev nD) (t : Fin cfg11.N) :
    (dat11 V c).Φ t.castSucc = PhiS11 V c t.val (Nat.le_of_lt t.isLt) := by
  dsimp only [dat11]; simp only [Fin.coe_castSucc]

theorem after11_0 (c : Dev nD) (t : Fin cfg11.N) : (dat11 V c).after 0 t = iblk11 V c 0 t := by dsimp only [dat11]
theorem after11_1 (c : Dev nD) (t : Fin cfg11.N) : (dat11 V c).after 1 t = out11_1 V c t := by dsimp only [dat11]
theorem after11_2 (c : Dev nD) (t : Fin cfg11.N) : (dat11 V c).after 2 t = out11_2 V c t := by dsimp only [dat11]

theorem before11_0 (c : Dev nD) (t : Fin cfg11.N) (d) : (dat11 V c).before 0 t d = iblk11 V c 0 t :=
  before11_0_of V (dat11 V c) (A_eq11 V c 0) (after11_0 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t)

set_option maxHeartbeats 4000000 in
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  rw [show cc11__bn_stats_kernel (F := F) = cc2__bn_stats_kernel from rfl]
  simp only [before11_0]
  rw [show (dat11 V c).owesAt () t.succ = (dat11 V c).owesAt () t.castSucc from rfl]
  rw [show (dat11 V c).Φ t.succ = PhiS11 V c (t.val + 1) t.isLt from rfl, PhiS11_succ]
  have hN : t.val < 10 := lt_of_lt_of_eq t.isLt (show cfg11.N = 10 from N_11)
  rw [show (dat11 V c).leavesExact 0 t = owns (c : Thread nD τ) (st11_0 t) fullShare ((dat11 V c).after 0 t) from by
    unfold Dat.leavesExact; rw [liveAt11_0 t], after11_0]
  by_cases h9 : t.val % 10 = 9
  · have hz : t.val ≠ 0 := by omega
    rw [show (dat11 V c).leavesExact 1 t = owns (c : Thread nD τ) (st11_1 t) fullShare ((dat11 V c).after 1 t) from by
      unfold Dat.leavesExact; rw [liveAt11_1 t h9], after11_1]
    rw [show (dat11 V c).leavesExact 2 t = owns (c : Thread nD τ) (st11_2 t) fullShare ((dat11 V c).after 2 t) from by
      unfold Dat.leavesExact; rw [liveAt11_2 t h9], after11_2]
    unfold out11_1 out11_2
    rw [sacc11_later V c t hz]; (try dsimp only)
    rw [PhiS11_castSucc V c t, PhiS11_pos V c _ _ hz]
    iintro ⟨⟨⟨⟨HS0, HS1⟩, Hrest⟩, Hg⟩, Ho, ⟨%d0, H0⟩, ⟨%d1, H1⟩, ⟨%d2, H2⟩⟩
    iapply (sound_kernel2_C c Set.univ (grid11.coords t) _ _ _ _ _ _ _ _ _ _
      (fun h => hz (by have := (hcond11_0 t).mp h; omega)) ((hcond11_1 t).mpr h9) (iblk11 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    iexact H2
  · rw [Dat.leavesExact_idle (dat11 V c) 1 t (idleAt11_1 t h9) (noFlush11_1 t h9)]
    rw [Dat.leavesExact_idle (dat11 V c) 2 t (idleAt11_2 t h9) (noFlush11_2 t h9)]
    by_cases hz : t.val = 0
    · rw [sacc11_first V c t hz]; (try dsimp only)
      rw [PhiS11_castSucc V c t, PhiS11_zero V c _ _ hz, PhiA11_eq]
      iintro ⟨⟨⟨⟨HS0, HS1⟩, Hrest⟩, Hg⟩, Ho, ⟨%d0, H0⟩, ⟨%d1, H1⟩, ⟨%d2, H2⟩⟩
      iapply (sound_kernel2_A c Set.univ (grid11.coords t) _ _ _ _ _ _ _ _ _ _
        ((hcond11_0 t).mpr (by omega)) (fun h => h9 ((hcond11_1 t).mp h)) (iblk11 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2
    · rw [sacc11_later V c t hz]; (try dsimp only)
      rw [PhiS11_castSucc V c t, PhiS11_pos V c _ _ hz]
      iintro ⟨⟨⟨⟨HS0, HS1⟩, Hrest⟩, Hg⟩, Ho, ⟨%d0, H0⟩, ⟨%d1, H1⟩, ⟨%d2, H2⟩⟩
      iapply (sound_kernel2_B c Set.univ (grid11.coords t) _ _ _ _ _ _ _ _ _ _
        (fun h => hz (by have := (hcond11_0 t).mp h; omega)) (fun h => h9 ((hcond11_1 t).mp h)) (iblk11 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexists _; iexact H1
      iexists _; iexact H2

theorem body_obligation11 (c : Dev nD) : BodyObligation (dat11 (F := F) V c) (defs₀ (F := F)) Variants.none () Set.univ := fun t => by
  rw [bigSep_W11, bigSep_W11]
  exact sound_body11 V c t

theorem Phi11_zero (c : Dev nD) : (dat11 V c).Φ 0 = Pipeline.ΦA spec11 c := rfl

theorem hin11 (c : Dev nD) : Pipeline.ΦA spec11 c ⊢ (dat11 V c).Φ 0 := by
  rw [Phi11_zero]

theorem Phi11_out (c : Dev nD) (t : Fin (cfg11.N + 1)) (ht : t.val ≠ 0) : (dat11 V c).Φ t ⊢ Pipeline.ΦA spec11 c := by
  rw [show (dat11 V c).Φ t = PhiS11 V c t.val (Nat.le_of_lt_succ t.isLt) from rfl, PhiS11_pos V c _ _ ht, PhiA11_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout11 (c : Dev nD) : (dat11 V c).Φ (Fin.last cfg11.N) ⊢ Pipeline.ΦA spec11 c :=
  Phi11_out V c _ (by rw [Fin.val_last]; have : cfg11.N = 10 := N_11; omega)

end Cert.KernelIdeal.Hand
-- ==== Proof.Reg12.lean ====
import proofs.«402767_j7713761264261_1_alg».proof.Proof.Reg3

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out3_3 (iblk12 V c 0 t) (iblk12 V c 1 t) (iblk12 V c 2 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) :
    (dat12 V c).after 3 t = out3_3 (iblk12 V c 0 t) (iblk12 V c 1 t) (iblk12 V c 2 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  rw [show cc12__bn_apply_kernel (F := F) = cc3__bn_apply_kernel from rfl]
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel3 c Set.univ _ _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation12 (c : Dev nD) : BodyObligation (dat12 (F := F) V c) (defs₀ (F := F)) Variants.none () Set.univ := fun t => by
  rw [bigSep_W12, bigSep_W12]
  exact sound_body12 V c t

end Cert.KernelIdeal.Hand
-- ==== Proof.Reg13.lean ====
import proofs.«402767_j7713761264261_1_alg».proof.Proof.Gen.KernelIdeal.Launch
import proofs.«402767_j7713761264261_1_alg».proof.Proof.Gen.KernelIdeal.Skeleton
import proofs.«402767_j7713761264261_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

theorem before13_6_of {c : Dev nD} (dat : Dat τ (Elt F) Unit ℕ (UR sig nD τ) ℕ cfg13 c) (hA : dat.A 6 = V c (Pipeline.arrRef spec13 6))
    (hafter : ∀ t, dat.after 6 t = iblk13 V c 6 t) (t : Fin cfg13.N) (d) : dat.before 6 t d = iblk13 V c 6 t :=
  (dat.before_in_eq_fetched 6 rfl (fun _ => rfl) (fun _ _ _ => rfl) (fun t => by rw [hafter]; unfold Dat.blockOf iblk13; rw [hA]; try rfl) t d).trans
    (by unfold Dat.fetched Dat.blockOf iblk13; rw [hA]; try rfl)

abbrev r13_S512x128 : Rect S512x128 := Rect.unit (s := S512x128) ![0, 0] S512x128.size inb_S512x128_S512x128_0_0
abbrev r13_S1x128 : Rect S1x128 := Rect.unit (s := S1x128) ![0, 0] S1x128.size inb_S1x128_S1x128_0_0
abbrev r13_S128x128 : Rect S128x128 := Rect.unit (s := S128x128) ![0, 0] S128x128.size inb_S128x128_S128x128_0_0
abbrev r13_S128x1 : Rect S128x1 := Rect.unit (s := S128x1) ![0, 0] S128x1.size inb_S128x1_S128x1_0_0
abbrev r13_S1x1 : Rect S1x1 := Rect.unit (s := S1x1) ![0, 0] S1x1.size inb_S1x1_S1x1_0_0
abbrev r13_S512x1 : Rect S512x1 := Rect.unit (s := S512x1) ![0, 0] S512x1.size inb_S512x1_S512x1_0_0

def out13_7 (x0 : Vec F S512x128 .f32) (x1 : Vec F S1x128 .f32) (x2 : Vec F S1x128 .f32) (x3 : Vec F S128x128 .f32) (x4 : Vec F S1x128 .f32) (x5 : Vec F S128x1 .f32) (x6 : Vec F S1x1 .f32) : Vec F S512x1 .f32 :=
  View.canon [⟨r13_S512x1, k13_pay1 (k13_pay2 (View.ld x0 r13_S512x128) (View.ld x1 r13_S1x128) (View.ld x2 r13_S1x128) (View.ld x3 r13_S128x128) (View.ld x4 r13_S1x128) (View.ld x5 r13_S128x1)) (View.ld x6 r13_S1x1)⟩]

theorem cover13_7 (p0 : Vec F S512x1 .f32) (y : S512x1.Idx) :
    ∃ pc ∈ ([⟨r13_S512x1, p0⟩] : List (View.Piece (Elt F) S512x1 .f32)), y ∈ pc.1.set :=
  View.cover_of_tiled [⟨r13_S512x1, p0⟩] S512x1.size (by rfl) y

set_option maxHeartbeats 1000000 in
theorem sound_kernel13 (c : Dev nD) (E : Set ℕ) (i : grid13.Coords) (arg1 : Memref sig .tc .vmem S512x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S512x1 .f32) (harg8 : arg8.IsWhole)
    (x0 : Vec F S512x128 .f32) (x1 : Vec F S1x128 .f32) (x2 : Vec F S1x128 .f32) (x3 : Vec F S128x128 .f32) (x4 : Vec F S1x128 .f32) (x5 : Vec F S128x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out13_7 x0 x1 x2 x3 x4 x5 x6)) -∗ K ⟨⟩))
      ⊢ wp frame (wpE (defs₀ (F := F)) Variants.none c none) E (cc13__final_kernel i arg1 harg1 arg2 harg2 arg3 harg3 arg4 harg4 arg5 harg5 arg6 harg6 arg7 harg7 arg8 harg8) K := by
  simp only [cc13__final_kernel_eq_skeleton]; unfold cc13__final_kernel_skel
  simp only [k13_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover13_7 _)

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => iblk13 V c 6 t
    | ⟨7, _⟩ => out13_7 (iblk13 V c 0 t) (iblk13 V c 1 t) (iblk13 V c 2 t) (iblk13 V c 3 t) (iblk13 V c 4 t) (iblk13 V c 5 t) (iblk13 V c 6 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = iblk13 V c 6 t := by dsimp only [dat13]
theorem after13_7 (c : Dev nD) (t : Fin cfg13.N) : (dat13 V c).after 7 t = out13_7 (iblk13 V c 0 t) (iblk13 V c 1 t) (iblk13 V c 2 t) (iblk13 V c 3 t) (iblk13 V c 4 t) (iblk13 V c 5 t) (iblk13 V c 6 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d
theorem before13_6 (c : Dev nD) (t : Fin cfg13.N) (d) : (dat13 V c).before 6 t d = iblk13 V c 6 t :=
  before13_6_of V (dat13 V c) (A_eq13 V c 6) (after13_6 V c) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d))
    ∗ (∃ d, owns (c : Thread nD τ) (st13_7 t) fullShare ((dat13 V c).before 7 t d)))

def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t)
    ∗ owns (c : Thread nD τ) (st13_7 t) fullShare ((dat13 V c).after 7 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5, before13_6]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6, after13_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel13 c Set.univ _ _ _ _ _ _ _ _ _ _ _ _ _ _ _ _ _ (iblk13 V c 0 t) (iblk13 V c 1 t) (iblk13 V c 2 t) (iblk13 V c 3 t) (iblk13 V c 4 t) (iblk13 V c 5 t) (iblk13 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.Fold.lean ====
import proofs.«402767_j7713761264261_1_alg».proof.Proof.Reg0
import proofs.«402767_j7713761264261_1_alg».proof.Proof.Reg1
import proofs.«402767_j7713761264261_1_alg».proof.Proof.Reg2
import proofs.«402767_j7713761264261_1_alg».proof.Proof.Reg3
import proofs.«402767_j7713761264261_1_alg».proof.Proof.Reg4
import proofs.«402767_j7713761264261_1_alg».proof.Proof.Reg5
import proofs.«402767_j7713761264261_1_alg».proof.Proof.Reg6
import proofs.«402767_j7713761264261_1_alg».proof.Proof.Reg7
import proofs.«402767_j7713761264261_1_alg».proof.Proof.Reg8
import proofs.«402767_j7713761264261_1_alg».proof.Proof.Reg9
import proofs.«402767_j7713761264261_1_alg».proof.Proof.Reg10
import proofs.«402767_j7713761264261_1_alg».proof.Proof.Reg11
import proofs.«402767_j7713761264261_1_alg».proof.Proof.Reg12
import proofs.«402767_j7713761264261_1_alg».proof.Proof.Reg13
import proofs.«402767_j7713761264261_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary of @main

`W J c` is core `c`'s unscoped buffers after item `J − 1` of @main: a host stretch applies its operations, a kernel
region replaces its output arrays by what its grid's write-backs leave. -/

/-- A valuation read at the TensorCore's references. -/
abbrev atTc (W : Dev nD → Valuation τ sig (Elt F)) : (c : Dev nD) → (b : Ref sig .tc) → Buf (Elt F) ((c : Thread nD τ).loc b) :=
  fun c b => W c b

abbrev W0 : Dev nD → Valuation τ sig (Elt F) := fun c b => m (c, b)
abbrev W1 : Dev nD → Valuation τ sig (Elt F) := fun c => StableHlo.after hostOps0 (W0 m c)
/-- After kernel region 0: its output array at what the grid's write-backs leave. -/
def W2 (c : Dev nD) : Valuation τ sig (Elt F) :=
  (Function.update (W1 m c) main_v8 ((dat0 (atTc (W1 m)) c).arrAt (2 : Fin 3) cfg0.N))
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
/-- After kernel region 1: its output array at what the grid's write-backs leave. -/
def W6 (c : Dev nD) : Valuation τ sig (Elt F) :=
  (Function.update (W5 m c) main_v43 ((dat1 (atTc (W5 m)) c).arrAt (2 : Fin 3) cfg1.N))
abbrev W7 : Dev nD → Valuation τ sig (Elt F) := fun c => StableHlo.after hostOps2 (W6 m c)
/-- After kernel region 2: its output arrays at what the grid's write-backs leave. -/
def W8 (c : Dev nD) : Valuation τ sig (Elt F) :=
  (Function.update (Function.update (W7 m c) main_v62_0 ((dat2 (atTc (W7 m)) c).arrAt (1 : Fin 3) cfg2.N)) main_v62_1 ((dat2 (atTc (W7 m)) c).arrAt (2 : Fin 3) cfg2.N))
abbrev W9 : Dev nD → Valuation τ sig (Elt F) := fun c => StableHlo.after hostOps3 (W8 m c)
/-- After kernel region 3: its output array at what the grid's write-backs leave. -/
def W10 (c : Dev nD) : Valuation τ sig (Elt F) :=
  (Function.update (W9 m c) main_v81 ((dat3 (atTc (W9 m)) c).arrAt (3 : Fin 4) cfg3.N))
abbrev W11 : Dev nD → Valuation τ sig (Elt F) := fun c => StableHlo.after hostOps4 (W10 m c)
/-- After kernel region 4: its output array at what the grid's write-backs leave. -/
def W12 (c : Dev nD) : Valuation τ sig (Elt F) :=
  (Function.update (W11 m c) main_v84 ((dat4 (atTc (W11 m)) c).arrAt (2 : Fin 3) cfg4.N))
abbrev W13 : Dev nD → Valuation τ sig (Elt F) := fun c => StableHlo.after hostOps5 (W12 m c)
/-- After kernel region 5: its output arrays at what the grid's write-backs leave. -/
def W14 (c : Dev nD) : Valuation τ sig (Elt F) :=
  (Function.update (Function.update (W13 m c) main_v103_0 ((dat5 (atTc (W13 m)) c).arrAt (1 : Fin 3) cfg5.N)) main_v103_1 ((dat5 (atTc (W13 m)) c).arrAt (2 : Fin 3) cfg5.N))
abbrev W15 : Dev nD → Valuation τ sig (Elt F) := fun c => StableHlo.after hostOps6 (W14 m c)
/-- After kernel region 6: its output array at what the grid's write-backs leave. -/
def W16 (c : Dev nD) : Valuation τ sig (Elt F) :=
  (Function.update (W15 m c) main_v122 ((dat6 (atTc (W15 m)) c).arrAt (3 : Fin 4) cfg6.N))
abbrev W17 : Dev nD → Valuation τ sig (Elt F) := fun c => StableHlo.after hostOps7 (W16 m c)
/-- After kernel region 7: its output array at what the grid's write-backs leave. -/
def W18 (c : Dev nD) : Valuation τ sig (Elt F) :=
  (Function.update (W17 m c) main_v125 ((dat7 (atTc (W17 m)) c).arrAt (2 : Fin 3) cfg7.N))
abbrev W19 : Dev nD → Valuation τ sig (Elt F) := fun c => StableHlo.after hostOps8 (W18 m c)
/-- After kernel region 8: its output arrays at what the grid's write-backs leave. -/
def W20 (c : Dev nD) : Valuation τ sig (Elt F) :=
  (Function.update (Function.update (W19 m c) main_v144_0 ((dat8 (atTc (W19 m)) c).arrAt (1 : Fin 3) cfg8.N)) main_v144_1 ((dat8 (atTc (W19 m)) c).arrAt (2 : Fin 3) cfg8.N))
abbrev W21 : Dev nD → Valuation τ sig (Elt F) := fun c => StableHlo.after hostOps9 (W20 m c)
/-- After kernel region 9: its output array at what the grid's write-backs leave. -/
def W22 (c : Dev nD) : Valuation τ sig (Elt F) :=
  (Function.update (W21 m c) main_v163 ((dat9 (atTc (W21 m)) c).arrAt (3 : Fin 4) cfg9.N))
abbrev W23 : Dev nD → Valuation τ sig (Elt F) := fun c => StableHlo.after hostOps10 (W22 m c)
/-- After kernel region 10: its output array at what the grid's write-backs leave. -/
def W24 (c : Dev nD) : Valuation τ sig (Elt F) :=
  (Function.update (W23 m c) main_v166 ((dat10 (atTc (W23 m)) c).arrAt (2 : Fin 3) cfg10.N))
abbrev W25 : Dev nD → Valuation τ sig (Elt F) := fun c => StableHlo.after hostOps11 (W24 m c)
/-- After kernel region 11: its output arrays at what the grid's write-backs leave. -/
def W26 (c : Dev nD) : Valuation τ sig (Elt F) :=
  (Function.update (Function.update (W25 m c) main_v185_0 ((dat11 (atTc (W25 m)) c).arrAt (1 : Fin 3) cfg11.N)) main_v185_1 ((dat11 (atTc (W25 m)) c).arrAt (2 : Fin 3) cfg11.N))
abbrev W27 : Dev nD → Valuation τ sig (Elt F) := fun c => StableHlo.after hostOps12 (W26 m c)
/-- After kernel region 12: its output array at what the grid's write-backs leave. -/
def W28 (c : Dev nD) : Valuation τ sig (Elt F) :=
  (Function.update (W27 m c) main_v204 ((dat12 (atTc (W27 m)) c).arrAt (3 : Fin 4) cfg12.N))
abbrev W29 : Dev nD → Valuation τ sig (Elt F) := fun c => StableHlo.after hostOps13 (W28 m c)
/-- After kernel region 13: its output array at what the grid's write-backs leave. -/
def W30 (c : Dev nD) : Valuation τ sig (Elt F) :=
  (Function.update (W29 m c) main_v221 ((dat13 (atTc (W29 m)) c).arrAt (7 : Fin 8) cfg13.N))

/-- What the regions leave, as the conditional frame's unknowns: boundary `J`'s contents. -/
def outs : Outs (F := F) := fun J r c => match J with
  | 2 => W2 m c r
  | 6 => W6 m c r
  | 8 => W8 m c r
  | 10 => W10 m c r
  | 12 => W12 m c r
  | 14 => W14 m c r
  | 16 => W16 m c r
  | 18 => W18 m c r
  | 20 => W20 m c r
  | 22 => W22 m c r
  | 24 => W24 m c r
  | 26 => W26 m c r
  | 28 => W28 m c r
  | 30 => W30 m c r
  | _ => W0 m c r

end Cert.KernelIdeal.Hand

end
-- ==== Proof.Chain.lean ====
import proofs.«402767_j7713761264261_1_alg».proof.Proof.Fold

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem V0_eq (c : Dev nD) : V0 m c = W0 m c := rfl
theorem V1_eq (c : Dev nD) : V1 m c = W1 m c := congrArg (StableHlo.after hostOps0) (V0_eq m c)
theorem V2_eq (c : Dev nD) : V2 m (outs m) c = W2 m c := by
  show Function.update (V1 m c) main_v8 (W2 m c main_v8) = W2 m c
  rw [V1_eq m c]; unfold W2; rw [Function.update_self]
theorem V3_eq (c : Dev nD) : V3 m (outs m) c = W3 m c := congrArg (StableHlo.after hostOps1) (V2_eq m c)
theorem V4_eq (c : Dev nD) : V4 m (outs m) c = W4 m c := congrArg (StableHlo.after hostOps1_1) (V3_eq m c)
theorem V5_eq (c : Dev nD) : V5 m (outs m) c = W5 m c := congrArg (StableHlo.after hostOps1_2) (V4_eq m c)
theorem V6_eq (c : Dev nD) : V6 m (outs m) c = W6 m c := by
  show Function.update (V5 m (outs m) c) main_v43 (W6 m c main_v43) = W6 m c
  rw [V5_eq m c]; unfold W6; rw [Function.update_self]
theorem V7_eq (c : Dev nD) : V7 m (outs m) c = W7 m c := congrArg (StableHlo.after hostOps2) (V6_eq m c)
theorem V8_eq (c : Dev nD) : V8 m (outs m) c = W8 m c := by
  show Function.update (Function.update (V7 m (outs m) c) main_v62_0 (W8 m c main_v62_0)) main_v62_1 (W8 m c main_v62_1) = W8 m c
  rw [V7_eq m c]; unfold W8
  rw [Function.update_self, Function.update_of_ne (StableHlo.devRef_ne_of_ne (by decide)), Function.update_self]
theorem V9_eq (c : Dev nD) : V9 m (outs m) c = W9 m c := congrArg (StableHlo.after hostOps3) (V8_eq m c)
theorem V10_eq (c : Dev nD) : V10 m (outs m) c = W10 m c := by
  show Function.update (V9 m (outs m) c) main_v81 (W10 m c main_v81) = W10 m c
  rw [V9_eq m c]; unfold W10; rw [Function.update_self]
theorem V11_eq (c : Dev nD) : V11 m (outs m) c = W11 m c := congrArg (StableHlo.after hostOps4) (V10_eq m c)
theorem V12_eq (c : Dev nD) : V12 m (outs m) c = W12 m c := by
  show Function.update (V11 m (outs m) c) main_v84 (W12 m c main_v84) = W12 m c
  rw [V11_eq m c]; unfold W12; rw [Function.update_self]
theorem V13_eq (c : Dev nD) : V13 m (outs m) c = W13 m c := congrArg (StableHlo.after hostOps5) (V12_eq m c)
theorem V14_eq (c : Dev nD) : V14 m (outs m) c = W14 m c := by
  show Function.update (Function.update (V13 m (outs m) c) main_v103_0 (W14 m c main_v103_0)) main_v103_1 (W14 m c main_v103_1) = W14 m c
  rw [V13_eq m c]; unfold W14
  rw [Function.update_self, Function.update_of_ne (StableHlo.devRef_ne_of_ne (by decide)), Function.update_self]
theorem V15_eq (c : Dev nD) : V15 m (outs m) c = W15 m c := congrArg (StableHlo.after hostOps6) (V14_eq m c)
theorem V16_eq (c : Dev nD) : V16 m (outs m) c = W16 m c := by
  show Function.update (V15 m (outs m) c) main_v122 (W16 m c main_v122) = W16 m c
  rw [V15_eq m c]; unfold W16; rw [Function.update_self]
theorem V17_eq (c : Dev nD) : V17 m (outs m) c = W17 m c := congrArg (StableHlo.after hostOps7) (V16_eq m c)
theorem V18_eq (c : Dev nD) : V18 m (outs m) c = W18 m c := by
  show Function.update (V17 m (outs m) c) main_v125 (W18 m c main_v125) = W18 m c
  rw [V17_eq m c]; unfold W18; rw [Function.update_self]
theorem V19_eq (c : Dev nD) : V19 m (outs m) c = W19 m c := congrArg (StableHlo.after hostOps8) (V18_eq m c)
theorem V20_eq (c : Dev nD) : V20 m (outs m) c = W20 m c := by
  show Function.update (Function.update (V19 m (outs m) c) main_v144_0 (W20 m c main_v144_0)) main_v144_1 (W20 m c main_v144_1) = W20 m c
  rw [V19_eq m c]; unfold W20
  rw [Function.update_self, Function.update_of_ne (StableHlo.devRef_ne_of_ne (by decide)), Function.update_self]
theorem V21_eq (c : Dev nD) : V21 m (outs m) c = W21 m c := congrArg (StableHlo.after hostOps9) (V20_eq m c)
theorem V22_eq (c : Dev nD) : V22 m (outs m) c = W22 m c := by
  show Function.update (V21 m (outs m) c) main_v163 (W22 m c main_v163) = W22 m c
  rw [V21_eq m c]; unfold W22; rw [Function.update_self]
theorem V23_eq (c : Dev nD) : V23 m (outs m) c = W23 m c := congrArg (StableHlo.after hostOps10) (V22_eq m c)
theorem V24_eq (c : Dev nD) : V24 m (outs m) c = W24 m c := by
  show Function.update (V23 m (outs m) c) main_v166 (W24 m c main_v166) = W24 m c
  rw [V23_eq m c]; unfold W24; rw [Function.update_self]
theorem V25_eq (c : Dev nD) : V25 m (outs m) c = W25 m c := congrArg (StableHlo.after hostOps11) (V24_eq m c)
theorem V26_eq (c : Dev nD) : V26 m (outs m) c = W26 m c := by
  show Function.update (Function.update (V25 m (outs m) c) main_v185_0 (W26 m c main_v185_0)) main_v185_1 (W26 m c main_v185_1) = W26 m c
  rw [V25_eq m c]; unfold W26
  rw [Function.update_self, Function.update_of_ne (StableHlo.devRef_ne_of_ne (by decide)), Function.update_self]
theorem V27_eq (c : Dev nD) : V27 m (outs m) c = W27 m c := congrArg (StableHlo.after hostOps12) (V26_eq m c)
theorem V28_eq (c : Dev nD) : V28 m (outs m) c = W28 m c := by
  show Function.update (V27 m (outs m) c) main_v204 (W28 m c main_v204) = W28 m c
  rw [V27_eq m c]; unfold W28; rw [Function.update_self]
theorem V29_eq (c : Dev nD) : V29 m (outs m) c = W29 m c := congrArg (StableHlo.after hostOps13) (V28_eq m c)
theorem V30_eq (c : Dev nD) : V30 m (outs m) c = W30 m c := by
  show Function.update (V29 m (outs m) c) main_v221 (W30 m c main_v221) = W30 m c
  rw [V29_eq m c]; unfold W30; rw [Function.update_self]

theorem forall_fin3 {P : Fin 3 → Prop} (h0 : P 0) (h1 : P 1) (h2 : P 2) : ∀ w, P w := by
  intro w; fin_cases w <;> assumption
theorem forall_fin4 {P : Fin 4 → Prop} (h0 : P 0) (h1 : P 1) (h2 : P 2) (h3 : P 3) : ∀ w, P w := by
  intro w; fin_cases w <;> assumption
theorem forall_fin8 {P : Fin 8 → Prop} (h0 : P 0) (h1 : P 1) (h2 : P 2) (h3 : P 3) (h4 : P 4) (h5 : P 5) (h6 : P 6) (h7 : P 7) : ∀ w, P w := by
  intro w; fin_cases w <;> assumption

def pdats : (p : Fin 14) → (c : Dev nD) → Dat τ (Elt F) Unit ℕ (UR sig nD τ) ℕ (cfgs p) c
  | ⟨0, _⟩ => fun c => dat0 (atTc (W1 m)) c
  | ⟨1, _⟩ => fun c => dat1 (atTc (W5 m)) c
  | ⟨2, _⟩ => fun c => dat2 (atTc (W7 m)) c
  | ⟨3, _⟩ => fun c => dat3 (atTc (W9 m)) c
  | ⟨4, _⟩ => fun c => dat4 (atTc (W11 m)) c
  | ⟨5, _⟩ => fun c => dat5 (atTc (W13 m)) c
  | ⟨6, _⟩ => fun c => dat6 (atTc (W15 m)) c
  | ⟨7, _⟩ => fun c => dat7 (atTc (W17 m)) c
  | ⟨8, _⟩ => fun c => dat8 (atTc (W19 m)) c
  | ⟨9, _⟩ => fun c => dat9 (atTc (W21 m)) c
  | ⟨10, _⟩ => fun c => dat10 (atTc (W23 m)) c
  | ⟨11, _⟩ => fun c => dat11 (atTc (W25 m)) c
  | ⟨12, _⟩ => fun c => dat12 (atTc (W27 m)) c
  | ⟨13, _⟩ => fun c => dat13 (atTc (W29 m)) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem arrAt_in_exit {cfg : Cfg sig Λ₀} {c : Dev nD} (dat : Dat τ (Elt F) Unit ℕ (UR sig nD τ) ℕ cfg c)
    (V V' : (b : Ref sig .tc) → Buf (Elt F) ((c : Thread nD τ).loc b)) (w : Fin cfg.W)
    (hw : (cfg.win w).isOut = false) (hA : dat.A w = V (Pipeline.arrRef cfg.spec w))
    (hV : V' (Pipeline.arrRef cfg.spec w) = V (Pipeline.arrRef cfg.spec w)) :
    dat.arrAt w cfg.N = V' (Pipeline.arrRef cfg.spec w) :=
  ((dat.arrAt_in w hw _).trans hA).trans hV.symm

theorem ne_of_not_mem_arrays {gr n : ℕ} {spec : Fin n → Pipeline.WinSpec sig gr} {b o : Ref sig .tc} (w : Fin n)
    (ho : Pipeline.arrRef spec w = o) (hb : b ∉ Finset.univ.image (Pipeline.arrRef spec)) : b ≠ o :=
  fun e => hb (Finset.mem_image.mpr ⟨w, Finset.mem_univ _, ho.trans e.symm⟩)

set_option backward.isDefEq.respectTransparency.types false in
def regionAt (p : Fin 14) (lf : Pipeline.LaunchFacts (nD := nD) (τ := τ) cfgs p)
    (Vin Vout : Dev nD → Valuation τ sig (Elt F))
    (hbody : ∀ c, Pipeline.BodyObligationLoose (pdats m p c) (defs₀ (F := F)) 𝒱₀ () Set.univ)
    (howed : ∀ c t, (pdats m p c).owed t = 0)
    (hq : ∀ c w, (pdats m p c).q w = fullShare)
    (hrec : ∀ c, (pdats m p c).recorded 0 = Set.univ)
    (hA : ∀ c w, (pdats m p c).A w = atTc Vin c (Pipeline.arrRef (cfgs p).spec w))
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄))
    (hF : ∀ c w, (pdats m p c).arrAt w (cfgs p).N = atTc Vout c (Pipeline.arrRef (cfgs p).spec w))
    (hrest : ∀ c b, b ∉ Finset.univ.image (Pipeline.arrRef (cfgs p).spec) → atTc Vout c b = atTc Vin c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Vin c)
  hentry c := by
    rw [Pipeline.ownSems0_none]
    have hsplit := Pipeline.arrays_of_unscopedBufs (p := p) (pcfgs (F := F)) adm (pdats m) lf.win lf.arr_whole c
      ((pdats m p c).share_full (hq c)) (atTc Vin c) (hA c)
    rw [Pipeline.unscopedBufs_held] at hsplit
    unfold Pipeline.Dat.owesAt Pipeline.owesWithin; rw [howed c 0]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (by rw [hrec c]; exact Set.mem_univ _)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atTc Vin c) (atTc Vout c) ((pdats m p c).arrAt · (cfgs p).N) (hF c) (hrest c)
    rw [Pipeline.unscopedBufs_held] at hjoin
    unfold Pipeline.Dat.owesAt Pipeline.owesWithin; rw [howed c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

theorem W2_at_main_v8 (c : Dev nD) : W2 m c main_v8 = (dat0 (atTc (W1 m)) c).arrAt (2 : Fin 3) cfg0.N := by
  unfold W2; exact Function.update_self _ _ _
theorem W2_of_ne (c : Dev nD) (b : Ref sig .tc) (h0 : b ≠ main_v8) : W2 m c b = W1 m c b := by
  unfold W2; exact (Function.update_of_ne (StableHlo.devRef_ne_of_ne h0) _ _)
theorem hF0 (c : Dev nD) : ∀ w : Fin cfg0.W, (dat0 (atTc (W1 m)) c).arrAt w cfg0.N = atTc (W2 m) c (Pipeline.arrRef spec0 w) :=
  forall_fin3 (arrAt_in_exit _ (atTc (W1 m) c) (atTc (W2 m) c) 0 rfl (A_eq0 _ c 0) (W2_of_ne m c _ (by decide)))
    (arrAt_in_exit _ (atTc (W1 m) c) (atTc (W2 m) c) 1 rfl (A_eq0 _ c 1) (W2_of_ne m c _ (by decide)))
    (W2_at_main_v8 m c).symm
theorem hrest0 (c : Dev nD) : ∀ b, b ∉ Finset.univ.image (Pipeline.arrRef spec0) → atTc (W2 m) c b = atTc (W1 m) c b :=
  fun b hb => W2_of_ne m c b (ne_of_not_mem_arrays (2 : Fin 3) (by decide) hb)

set_option backward.isDefEq.respectTransparency.types false in
def reg0 : Pipeline.RegionSeg (pcfgs (F := F)) adm (pdats m) () defs₀ 𝒱₀ L lv 0 :=
  regionAt m 0 launch0 (W1 m) (W2 m) (fun c => (body_obligation0 (atTc (W1 m)) c).loose) (fun _ _ => rfl) (fun _ _ => rfl) (fun _ => rfl)
    (A_eq0 (atTc (W1 m))) (fun _ => .rfl) (fun _ => .rfl) (hF0 m) (hrest0 m)

theorem W6_at_main_v43 (c : Dev nD) : W6 m c main_v43 = (dat1 (atTc (W5 m)) c).arrAt (2 : Fin 3) cfg1.N := by
  unfold W6; exact Function.update_self _ _ _
theorem W6_of_ne (c : Dev nD) (b : Ref sig .tc) (h0 : b ≠ main_v43) : W6 m c b = W5 m c b := by
  unfold W6; exact (Function.update_of_ne (StableHlo.devRef_ne_of_ne h0) _ _)
theorem hF1 (c : Dev nD) : ∀ w : Fin cfg1.W, (dat1 (atTc (W5 m)) c).arrAt w cfg1.N = atTc (W6 m) c (Pipeline.arrRef spec1 w) :=
  forall_fin3 (arrAt_in_exit _ (atTc (W5 m) c) (atTc (W6 m) c) 0 rfl (A_eq1 _ c 0) (W6_of_ne m c _ (by decide)))
    (arrAt_in_exit _ (atTc (W5 m) c) (atTc (W6 m) c) 1 rfl (A_eq1 _ c 1) (W6_of_ne m c _ (by decide)))
    (W6_at_main_v43 m c).symm
theorem hrest1 (c : Dev nD) : ∀ b, b ∉ Finset.univ.image (Pipeline.arrRef spec1) → atTc (W6 m) c b = atTc (W5 m) c b :=
  fun b hb => W6_of_ne m c b (ne_of_not_mem_arrays (2 : Fin 3) (by decide) hb)

set_option backward.isDefEq.respectTransparency.types false in
def reg1 : Pipeline.RegionSeg (pcfgs (F := F)) adm (pdats m) () defs₀ 𝒱₀ L lv 1 :=
  regionAt m 1 launch1 (W5 m) (W6 m) (fun c => (body_obligation1 (atTc (W5 m)) c).loose) (fun _ _ => rfl) (fun _ _ => rfl) (fun _ => rfl)
    (A_eq1 (atTc (W5 m))) (fun _ => .rfl) (fun _ => .rfl) (hF1 m) (hrest1 m)

theorem W8_at_main_v62_0 (c : Dev nD) : W8 m c main_v62_0 = (dat2 (atTc (W7 m)) c).arrAt (1 : Fin 3) cfg2.N := by
  unfold W8; exact ((Function.update_of_ne (StableHlo.devRef_ne_of_ne (by decide : main_v62_0 ≠ main_v62_1)) _ _)).trans (Function.update_self _ _ _)
theorem W8_at_main_v62_1 (c : Dev nD) : W8 m c main_v62_1 = (dat2 (atTc (W7 m)) c).arrAt (2 : Fin 3) cfg2.N := by
  unfold W8; exact Function.update_self _ _ _
theorem W8_of_ne (c : Dev nD) (b : Ref sig .tc) (h0 : b ≠ main_v62_0) (h1 : b ≠ main_v62_1) : W8 m c b = W7 m c b := by
  unfold W8; exact (Function.update_of_ne (StableHlo.devRef_ne_of_ne h1) _ _).trans (Function.update_of_ne (StableHlo.devRef_ne_of_ne h0) _ _)
theorem hF2 (c : Dev nD) : ∀ w : Fin cfg2.W, (dat2 (atTc (W7 m)) c).arrAt w cfg2.N = atTc (W8 m) c (Pipeline.arrRef spec2 w) :=
  forall_fin3 (arrAt_in_exit _ (atTc (W7 m) c) (atTc (W8 m) c) 0 rfl (A_eq2 _ c 0) (W8_of_ne m c _ (by decide) (by decide)))
    (W8_at_main_v62_0 m c).symm
    (W8_at_main_v62_1 m c).symm
theorem hrest2 (c : Dev nD) : ∀ b, b ∉ Finset.univ.image (Pipeline.arrRef spec2) → atTc (W8 m) c b = atTc (W7 m) c b :=
  fun b hb => W8_of_ne m c b (ne_of_not_mem_arrays (1 : Fin 3) (by decide) hb) (ne_of_not_mem_arrays (2 : Fin 3) (by decide) hb)

set_option backward.isDefEq.respectTransparency.types false in
def reg2 : Pipeline.RegionSeg (pcfgs (F := F)) adm (pdats m) () defs₀ 𝒱₀ L lv 2 :=
  regionAt m 2 launch2 (W7 m) (W8 m) (fun c => (body_obligation2 (atTc (W7 m)) c).loose) (fun _ _ => rfl) (fun _ _ => rfl) (fun _ => rfl)
    (A_eq2 (atTc (W7 m))) (hin2 (atTc (W7 m))) (hout2 (atTc (W7 m))) (hF2 m) (hrest2 m)

theorem W10_at_main_v81 (c : Dev nD) : W10 m c main_v81 = (dat3 (atTc (W9 m)) c).arrAt (3 : Fin 4) cfg3.N := by
  unfold W10; exact Function.update_self _ _ _
theorem W10_of_ne (c : Dev nD) (b : Ref sig .tc) (h0 : b ≠ main_v81) : W10 m c b = W9 m c b := by
  unfold W10; exact (Function.update_of_ne (StableHlo.devRef_ne_of_ne h0) _ _)
theorem hF3 (c : Dev nD) : ∀ w : Fin cfg3.W, (dat3 (atTc (W9 m)) c).arrAt w cfg3.N = atTc (W10 m) c (Pipeline.arrRef spec3 w) :=
  forall_fin4 (arrAt_in_exit _ (atTc (W9 m) c) (atTc (W10 m) c) 0 rfl (A_eq3 _ c 0) (W10_of_ne m c _ (by decide)))
    (arrAt_in_exit _ (atTc (W9 m) c) (atTc (W10 m) c) 1 rfl (A_eq3 _ c 1) (W10_of_ne m c _ (by decide)))
    (arrAt_in_exit _ (atTc (W9 m) c) (atTc (W10 m) c) 2 rfl (A_eq3 _ c 2) (W10_of_ne m c _ (by decide)))
    (W10_at_main_v81 m c).symm
theorem hrest3 (c : Dev nD) : ∀ b, b ∉ Finset.univ.image (Pipeline.arrRef spec3) → atTc (W10 m) c b = atTc (W9 m) c b :=
  fun b hb => W10_of_ne m c b (ne_of_not_mem_arrays (3 : Fin 4) (by decide) hb)

set_option backward.isDefEq.respectTransparency.types false in
def reg3 : Pipeline.RegionSeg (pcfgs (F := F)) adm (pdats m) () defs₀ 𝒱₀ L lv 3 :=
  regionAt m 3 launch3 (W9 m) (W10 m) (fun c => (body_obligation3 (atTc (W9 m)) c).loose) (fun _ _ => rfl) (fun _ _ => rfl) (fun _ => rfl)
    (A_eq3 (atTc (W9 m))) (fun _ => .rfl) (fun _ => .rfl) (hF3 m) (hrest3 m)

theorem W12_at_main_v84 (c : Dev nD) : W12 m c main_v84 = (dat4 (atTc (W11 m)) c).arrAt (2 : Fin 3) cfg4.N := by
  unfold W12; exact Function.update_self _ _ _
theorem W12_of_ne (c : Dev nD) (b : Ref sig .tc) (h0 : b ≠ main_v84) : W12 m c b = W11 m c b := by
  unfold W12; exact (Function.update_of_ne (StableHlo.devRef_ne_of_ne h0) _ _)
theorem hF4 (c : Dev nD) : ∀ w : Fin cfg4.W, (dat4 (atTc (W11 m)) c).arrAt w cfg4.N = atTc (W12 m) c (Pipeline.arrRef spec4 w) :=
  forall_fin3 (arrAt_in_exit _ (atTc (W11 m) c) (atTc (W12 m) c) 0 rfl (A_eq4 _ c 0) (W12_of_ne m c _ (by decide)))
    (arrAt_in_exit _ (atTc (W11 m) c) (atTc (W12 m) c) 1 rfl (A_eq4 _ c 1) (W12_of_ne m c _ (by decide)))
    (W12_at_main_v84 m c).symm
theorem hrest4 (c : Dev nD) : ∀ b, b ∉ Finset.univ.image (Pipeline.arrRef spec4) → atTc (W12 m) c b = atTc (W11 m) c b :=
  fun b hb => W12_of_ne m c b (ne_of_not_mem_arrays (2 : Fin 3) (by decide) hb)

set_option backward.isDefEq.respectTransparency.types false in
def reg4 : Pipeline.RegionSeg (pcfgs (F := F)) adm (pdats m) () defs₀ 𝒱₀ L lv 4 :=
  regionAt m 4 launch4 (W11 m) (W12 m) (fun c => (body_obligation4 (atTc (W11 m)) c).loose) (fun _ _ => rfl) (fun _ _ => rfl) (fun _ => rfl)
    (A_eq4 (atTc (W11 m))) (fun _ => .rfl) (fun _ => .rfl) (hF4 m) (hrest4 m)

theorem W14_at_main_v103_0 (c : Dev nD) : W14 m c main_v103_0 = (dat5 (atTc (W13 m)) c).arrAt (1 : Fin 3) cfg5.N := by
  unfold W14; exact ((Function.update_of_ne (StableHlo.devRef_ne_of_ne (by decide : main_v103_0 ≠ main_v103_1)) _ _)).trans (Function.update_self _ _ _)
theorem W14_at_main_v103_1 (c : Dev nD) : W14 m c main_v103_1 = (dat5 (atTc (W13 m)) c).arrAt (2 : Fin 3) cfg5.N := by
  unfold W14; exact Function.update_self _ _ _
theorem W14_of_ne (c : Dev nD) (b : Ref sig .tc) (h0 : b ≠ main_v103_0) (h1 : b ≠ main_v103_1) : W14 m c b = W13 m c b := by
  unfold W14; exact (Function.update_of_ne (StableHlo.devRef_ne_of_ne h1) _ _).trans (Function.update_of_ne (StableHlo.devRef_ne_of_ne h0) _ _)
theorem hF5 (c : Dev nD) : ∀ w : Fin cfg5.W, (dat5 (atTc (W13 m)) c).arrAt w cfg5.N = atTc (W14 m) c (Pipeline.arrRef spec5 w) :=
  forall_fin3 (arrAt_in_exit _ (atTc (W13 m) c) (atTc (W14 m) c) 0 rfl (A_eq5 _ c 0) (W14_of_ne m c _ (by decide) (by decide)))
    (W14_at_main_v103_0 m c).symm
    (W14_at_main_v103_1 m c).symm
theorem hrest5 (c : Dev nD) : ∀ b, b ∉ Finset.univ.image (Pipeline.arrRef spec5) → atTc (W14 m) c b = atTc (W13 m) c b :=
  fun b hb => W14_of_ne m c b (ne_of_not_mem_arrays (1 : Fin 3) (by decide) hb) (ne_of_not_mem_arrays (2 : Fin 3) (by decide) hb)

set_option backward.isDefEq.respectTransparency.types false in
def reg5 : Pipeline.RegionSeg (pcfgs (F := F)) adm (pdats m) () defs₀ 𝒱₀ L lv 5 :=
  regionAt m 5 launch5 (W13 m) (W14 m) (fun c => (body_obligation5 (atTc (W13 m)) c).loose) (fun _ _ => rfl) (fun _ _ => rfl) (fun _ => rfl)
    (A_eq5 (atTc (W13 m))) (hin5 (atTc (W13 m))) (hout5 (atTc (W13 m))) (hF5 m) (hrest5 m)

theorem W16_at_main_v122 (c : Dev nD) : W16 m c main_v122 = (dat6 (atTc (W15 m)) c).arrAt (3 : Fin 4) cfg6.N := by
  unfold W16; exact Function.update_self _ _ _
theorem W16_of_ne (c : Dev nD) (b : Ref sig .tc) (h0 : b ≠ main_v122) : W16 m c b = W15 m c b := by
  unfold W16; exact (Function.update_of_ne (StableHlo.devRef_ne_of_ne h0) _ _)
theorem hF6 (c : Dev nD) : ∀ w : Fin cfg6.W, (dat6 (atTc (W15 m)) c).arrAt w cfg6.N = atTc (W16 m) c (Pipeline.arrRef spec6 w) :=
  forall_fin4 (arrAt_in_exit _ (atTc (W15 m) c) (atTc (W16 m) c) 0 rfl (A_eq6 _ c 0) (W16_of_ne m c _ (by decide)))
    (arrAt_in_exit _ (atTc (W15 m) c) (atTc (W16 m) c) 1 rfl (A_eq6 _ c 1) (W16_of_ne m c _ (by decide)))
    (arrAt_in_exit _ (atTc (W15 m) c) (atTc (W16 m) c) 2 rfl (A_eq6 _ c 2) (W16_of_ne m c _ (by decide)))
    (W16_at_main_v122 m c).symm
theorem hrest6 (c : Dev nD) : ∀ b, b ∉ Finset.univ.image (Pipeline.arrRef spec6) → atTc (W16 m) c b = atTc (W15 m) c b :=
  fun b hb => W16_of_ne m c b (ne_of_not_mem_arrays (3 : Fin 4) (by decide) hb)

set_option backward.isDefEq.respectTransparency.types false in
def reg6 : Pipeline.RegionSeg (pcfgs (F := F)) adm (pdats m) () defs₀ 𝒱₀ L lv 6 :=
  regionAt m 6 launch6 (W15 m) (W16 m) (fun c => (body_obligation6 (atTc (W15 m)) c).loose) (fun _ _ => rfl) (fun _ _ => rfl) (fun _ => rfl)
    (A_eq6 (atTc (W15 m))) (fun _ => .rfl) (fun _ => .rfl) (hF6 m) (hrest6 m)

theorem W18_at_main_v125 (c : Dev nD) : W18 m c main_v125 = (dat7 (atTc (W17 m)) c).arrAt (2 : Fin 3) cfg7.N := by
  unfold W18; exact Function.update_self _ _ _
theorem W18_of_ne (c : Dev nD) (b : Ref sig .tc) (h0 : b ≠ main_v125) : W18 m c b = W17 m c b := by
  unfold W18; exact (Function.update_of_ne (StableHlo.devRef_ne_of_ne h0) _ _)
theorem hF7 (c : Dev nD) : ∀ w : Fin cfg7.W, (dat7 (atTc (W17 m)) c).arrAt w cfg7.N = atTc (W18 m) c (Pipeline.arrRef spec7 w) :=
  forall_fin3 (arrAt_in_exit _ (atTc (W17 m) c) (atTc (W18 m) c) 0 rfl (A_eq7 _ c 0) (W18_of_ne m c _ (by decide)))
    (arrAt_in_exit _ (atTc (W17 m) c) (atTc (W18 m) c) 1 rfl (A_eq7 _ c 1) (W18_of_ne m c _ (by decide)))
    (W18_at_main_v125 m c).symm
theorem hrest7 (c : Dev nD) : ∀ b, b ∉ Finset.univ.image (Pipeline.arrRef spec7) → atTc (W18 m) c b = atTc (W17 m) c b :=
  fun b hb => W18_of_ne m c b (ne_of_not_mem_arrays (2 : Fin 3) (by decide) hb)

set_option backward.isDefEq.respectTransparency.types false in
def reg7 : Pipeline.RegionSeg (pcfgs (F := F)) adm (pdats m) () defs₀ 𝒱₀ L lv 7 :=
  regionAt m 7 launch7 (W17 m) (W18 m) (fun c => (body_obligation7 (atTc (W17 m)) c).loose) (fun _ _ => rfl) (fun _ _ => rfl) (fun _ => rfl)
    (A_eq7 (atTc (W17 m))) (fun _ => .rfl) (fun _ => .rfl) (hF7 m) (hrest7 m)

theorem W20_at_main_v144_0 (c : Dev nD) : W20 m c main_v144_0 = (dat8 (atTc (W19 m)) c).arrAt (1 : Fin 3) cfg8.N := by
  unfold W20; exact ((Function.update_of_ne (StableHlo.devRef_ne_of_ne (by decide : main_v144_0 ≠ main_v144_1)) _ _)).trans (Function.update_self _ _ _)
theorem W20_at_main_v144_1 (c : Dev nD) : W20 m c main_v144_1 = (dat8 (atTc (W19 m)) c).arrAt (2 : Fin 3) cfg8.N := by
  unfold W20; exact Function.update_self _ _ _
theorem W20_of_ne (c : Dev nD) (b : Ref sig .tc) (h0 : b ≠ main_v144_0) (h1 : b ≠ main_v144_1) : W20 m c b = W19 m c b := by
  unfold W20; exact (Function.update_of_ne (StableHlo.devRef_ne_of_ne h1) _ _).trans (Function.update_of_ne (StableHlo.devRef_ne_of_ne h0) _ _)
theorem hF8 (c : Dev nD) : ∀ w : Fin cfg8.W, (dat8 (atTc (W19 m)) c).arrAt w cfg8.N = atTc (W20 m) c (Pipeline.arrRef spec8 w) :=
  forall_fin3 (arrAt_in_exit _ (atTc (W19 m) c) (atTc (W20 m) c) 0 rfl (A_eq8 _ c 0) (W20_of_ne m c _ (by decide) (by decide)))
    (W20_at_main_v144_0 m c).symm
    (W20_at_main_v144_1 m c).symm
theorem hrest8 (c : Dev nD) : ∀ b, b ∉ Finset.univ.image (Pipeline.arrRef spec8) → atTc (W20 m) c b = atTc (W19 m) c b :=
  fun b hb => W20_of_ne m c b (ne_of_not_mem_arrays (1 : Fin 3) (by decide) hb) (ne_of_not_mem_arrays (2 : Fin 3) (by decide) hb)

set_option backward.isDefEq.respectTransparency.types false in
def reg8 : Pipeline.RegionSeg (pcfgs (F := F)) adm (pdats m) () defs₀ 𝒱₀ L lv 8 :=
  regionAt m 8 launch8 (W19 m) (W20 m) (fun c => (body_obligation8 (atTc (W19 m)) c).loose) (fun _ _ => rfl) (fun _ _ => rfl) (fun _ => rfl)
    (A_eq8 (atTc (W19 m))) (hin8 (atTc (W19 m))) (hout8 (atTc (W19 m))) (hF8 m) (hrest8 m)

theorem W22_at_main_v163 (c : Dev nD) : W22 m c main_v163 = (dat9 (atTc (W21 m)) c).arrAt (3 : Fin 4) cfg9.N := by
  unfold W22; exact Function.update_self _ _ _
theorem W22_of_ne (c : Dev nD) (b : Ref sig .tc) (h0 : b ≠ main_v163) : W22 m c b = W21 m c b := by
  unfold W22; exact (Function.update_of_ne (StableHlo.devRef_ne_of_ne h0) _ _)
theorem hF9 (c : Dev nD) : ∀ w : Fin cfg9.W, (dat9 (atTc (W21 m)) c).arrAt w cfg9.N = atTc (W22 m) c (Pipeline.arrRef spec9 w) :=
  forall_fin4 (arrAt_in_exit _ (atTc (W21 m) c) (atTc (W22 m) c) 0 rfl (A_eq9 _ c 0) (W22_of_ne m c _ (by decide)))
    (arrAt_in_exit _ (atTc (W21 m) c) (atTc (W22 m) c) 1 rfl (A_eq9 _ c 1) (W22_of_ne m c _ (by decide)))
    (arrAt_in_exit _ (atTc (W21 m) c) (atTc (W22 m) c) 2 rfl (A_eq9 _ c 2) (W22_of_ne m c _ (by decide)))
    (W22_at_main_v163 m c).symm
theorem hrest9 (c : Dev nD) : ∀ b, b ∉ Finset.univ.image (Pipeline.arrRef spec9) → atTc (W22 m) c b = atTc (W21 m) c b :=
  fun b hb => W22_of_ne m c b (ne_of_not_mem_arrays (3 : Fin 4) (by decide) hb)

set_option backward.isDefEq.respectTransparency.types false in
def reg9 : Pipeline.RegionSeg (pcfgs (F := F)) adm (pdats m) () defs₀ 𝒱₀ L lv 9 :=
  regionAt m 9 launch9 (W21 m) (W22 m) (fun c => (body_obligation9 (atTc (W21 m)) c).loose) (fun _ _ => rfl) (fun _ _ => rfl) (fun _ => rfl)
    (A_eq9 (atTc (W21 m))) (fun _ => .rfl) (fun _ => .rfl) (hF9 m) (hrest9 m)

theorem W24_at_main_v166 (c : Dev nD) : W24 m c main_v166 = (dat10 (atTc (W23 m)) c).arrAt (2 : Fin 3) cfg10.N := by
  unfold W24; exact Function.update_self _ _ _
theorem W24_of_ne (c : Dev nD) (b : Ref sig .tc) (h0 : b ≠ main_v166) : W24 m c b = W23 m c b := by
  unfold W24; exact (Function.update_of_ne (StableHlo.devRef_ne_of_ne h0) _ _)
theorem hF10 (c : Dev nD) : ∀ w : Fin cfg10.W, (dat10 (atTc (W23 m)) c).arrAt w cfg10.N = atTc (W24 m) c (Pipeline.arrRef spec10 w) :=
  forall_fin3 (arrAt_in_exit _ (atTc (W23 m) c) (atTc (W24 m) c) 0 rfl (A_eq10 _ c 0) (W24_of_ne m c _ (by decide)))
    (arrAt_in_exit _ (atTc (W23 m) c) (atTc (W24 m) c) 1 rfl (A_eq10 _ c 1) (W24_of_ne m c _ (by decide)))
    (W24_at_main_v166 m c).symm
theorem hrest10 (c : Dev nD) : ∀ b, b ∉ Finset.univ.image (Pipeline.arrRef spec10) → atTc (W24 m) c b = atTc (W23 m) c b :=
  fun b hb => W24_of_ne m c b (ne_of_not_mem_arrays (2 : Fin 3) (by decide) hb)

set_option backward.isDefEq.respectTransparency.types false in
def reg10 : Pipeline.RegionSeg (pcfgs (F := F)) adm (pdats m) () defs₀ 𝒱₀ L lv 10 :=
  regionAt m 10 launch10 (W23 m) (W24 m) (fun c => (body_obligation10 (atTc (W23 m)) c).loose) (fun _ _ => rfl) (fun _ _ => rfl) (fun _ => rfl)
    (A_eq10 (atTc (W23 m))) (fun _ => .rfl) (fun _ => .rfl) (hF10 m) (hrest10 m)

theorem W26_at_main_v185_0 (c : Dev nD) : W26 m c main_v185_0 = (dat11 (atTc (W25 m)) c).arrAt (1 : Fin 3) cfg11.N := by
  unfold W26; exact ((Function.update_of_ne (StableHlo.devRef_ne_of_ne (by decide : main_v185_0 ≠ main_v185_1)) _ _)).trans (Function.update_self _ _ _)
theorem W26_at_main_v185_1 (c : Dev nD) : W26 m c main_v185_1 = (dat11 (atTc (W25 m)) c).arrAt (2 : Fin 3) cfg11.N := by
  unfold W26; exact Function.update_self _ _ _
theorem W26_of_ne (c : Dev nD) (b : Ref sig .tc) (h0 : b ≠ main_v185_0) (h1 : b ≠ main_v185_1) : W26 m c b = W25 m c b := by
  unfold W26; exact (Function.update_of_ne (StableHlo.devRef_ne_of_ne h1) _ _).trans (Function.update_of_ne (StableHlo.devRef_ne_of_ne h0) _ _)
theorem hF11 (c : Dev nD) : ∀ w : Fin cfg11.W, (dat11 (atTc (W25 m)) c).arrAt w cfg11.N = atTc (W26 m) c (Pipeline.arrRef spec11 w) :=
  forall_fin3 (arrAt_in_exit _ (atTc (W25 m) c) (atTc (W26 m) c) 0 rfl (A_eq11 _ c 0) (W26_of_ne m c _ (by decide) (by decide)))
    (W26_at_main_v185_0 m c).symm
    (W26_at_main_v185_1 m c).symm
theorem hrest11 (c : Dev nD) : ∀ b, b ∉ Finset.univ.image (Pipeline.arrRef spec11) → atTc (W26 m) c b = atTc (W25 m) c b :=
  fun b hb => W26_of_ne m c b (ne_of_not_mem_arrays (1 : Fin 3) (by decide) hb) (ne_of_not_mem_arrays (2 : Fin 3) (by decide) hb)

set_option backward.isDefEq.respectTransparency.types false in
def reg11 : Pipeline.RegionSeg (pcfgs (F := F)) adm (pdats m) () defs₀ 𝒱₀ L lv 11 :=
  regionAt m 11 launch11 (W25 m) (W26 m) (fun c => (body_obligation11 (atTc (W25 m)) c).loose) (fun _ _ => rfl) (fun _ _ => rfl) (fun _ => rfl)
    (A_eq11 (atTc (W25 m))) (hin11 (atTc (W25 m))) (hout11 (atTc (W25 m))) (hF11 m) (hrest11 m)

theorem W28_at_main_v204 (c : Dev nD) : W28 m c main_v204 = (dat12 (atTc (W27 m)) c).arrAt (3 : Fin 4) cfg12.N := by
  unfold W28; exact Function.update_self _ _ _
theorem W28_of_ne (c : Dev nD) (b : Ref sig .tc) (h0 : b ≠ main_v204) : W28 m c b = W27 m c b := by
  unfold W28; exact (Function.update_of_ne (StableHlo.devRef_ne_of_ne h0) _ _)
theorem hF12 (c : Dev nD) : ∀ w : Fin cfg12.W, (dat12 (atTc (W27 m)) c).arrAt w cfg12.N = atTc (W28 m) c (Pipeline.arrRef spec12 w) :=
  forall_fin4 (arrAt_in_exit _ (atTc (W27 m) c) (atTc (W28 m) c) 0 rfl (A_eq12 _ c 0) (W28_of_ne m c _ (by decide)))
    (arrAt_in_exit _ (atTc (W27 m) c) (atTc (W28 m) c) 1 rfl (A_eq12 _ c 1) (W28_of_ne m c _ (by decide)))
    (arrAt_in_exit _ (atTc (W27 m) c) (atTc (W28 m) c) 2 rfl (A_eq12 _ c 2) (W28_of_ne m c _ (by decide)))
    (W28_at_main_v204 m c).symm
theorem hrest12 (c : Dev nD) : ∀ b, b ∉ Finset.univ.image (Pipeline.arrRef spec12) → atTc (W28 m) c b = atTc (W27 m) c b :=
  fun b hb => W28_of_ne m c b (ne_of_not_mem_arrays (3 : Fin 4) (by decide) hb)

set_option backward.isDefEq.respectTransparency.types false in
def reg12 : Pipeline.RegionSeg (pcfgs (F := F)) adm (pdats m) () defs₀ 𝒱₀ L lv 12 :=
  regionAt m 12 launch12 (W27 m) (W28 m) (fun c => (body_obligation12 (atTc (W27 m)) c).loose) (fun _ _ => rfl) (fun _ _ => rfl) (fun _ => rfl)
    (A_eq12 (atTc (W27 m))) (fun _ => .rfl) (fun _ => .rfl) (hF12 m) (hrest12 m)

theorem W30_at_main_v221 (c : Dev nD) : W30 m c main_v221 = (dat13 (atTc (W29 m)) c).arrAt (7 : Fin 8) cfg13.N := by
  unfold W30; exact Function.update_self _ _ _
theorem W30_of_ne (c : Dev nD) (b : Ref sig .tc) (h0 : b ≠ main_v221) : W30 m c b = W29 m c b := by
  unfold W30; exact (Function.update_of_ne (StableHlo.devRef_ne_of_ne h0) _ _)
theorem hF13 (c : Dev nD) : ∀ w : Fin cfg13.W, (dat13 (atTc (W29 m)) c).arrAt w cfg13.N = atTc (W30 m) c (Pipeline.arrRef spec13 w) :=
  forall_fin8 (arrAt_in_exit _ (atTc (W29 m) c) (atTc (W30 m) c) 0 rfl (A_eq13 _ c 0) (W30_of_ne m c _ (by decide)))
    (arrAt_in_exit _ (atTc (W29 m) c) (atTc (W30 m) c) 1 rfl (A_eq13 _ c 1) (W30_of_ne m c _ (by decide)))
    (arrAt_in_exit _ (atTc (W29 m) c) (atTc (W30 m) c) 2 rfl (A_eq13 _ c 2) (W30_of_ne m c _ (by decide)))
    (arrAt_in_exit _ (atTc (W29 m) c) (atTc (W30 m) c) 3 rfl (A_eq13 _ c 3) (W30_of_ne m c _ (by decide)))
    (arrAt_in_exit _ (atTc (W29 m) c) (atTc (W30 m) c) 4 rfl (A_eq13 _ c 4) (W30_of_ne m c _ (by decide)))
    (arrAt_in_exit _ (atTc (W29 m) c) (atTc (W30 m) c) 5 rfl (A_eq13 _ c 5) (W30_of_ne m c _ (by decide)))
    (arrAt_in_exit _ (atTc (W29 m) c) (atTc (W30 m) c) 6 rfl (A_eq13 _ c 6) (W30_of_ne m c _ (by decide)))
    (W30_at_main_v221 m c).symm
theorem hrest13 (c : Dev nD) : ∀ b, b ∉ Finset.univ.image (Pipeline.arrRef spec13) → atTc (W30 m) c b = atTc (W29 m) c b :=
  fun b hb => W30_of_ne m c b (ne_of_not_mem_arrays (7 : Fin 8) (by decide) hb)

set_option backward.isDefEq.respectTransparency.types false in
def reg13 : Pipeline.RegionSeg (pcfgs (F := F)) adm (pdats m) () defs₀ 𝒱₀ L lv 13 :=
  regionAt m 13 launch13 (W29 m) (W30 m) (fun c => (body_obligation13 (atTc (W29 m)) c).loose) (fun _ _ => rfl) (fun _ _ => rfl) (fun _ => rfl)
    (A_eq13 (atTc (W29 m))) (fun _ => .rfl) (fun _ => .rfl) (hF13 m) (hrest13 m)

end Cert.KernelIdeal.Hand

end
-- ==== Proof.FrameValue.lean ====
import proofs.«402767_j7713761264261_1_alg».proof.Proof.Chain
import proofs.«402767_j7713761264261_1_alg».proof.Proof.RegionsValue
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its result named: as the frame, and the result array ends at the last boundary's contents. -/
theorem run_value : θ_run defs (onTc (τ := τ) (main (F := F))) ⟨m, fun _ => 0, ρ⟩ (fun r => ∀ c : Dev nD,
      r.2.mem ((c.tc : Thread nD τ).loc main_v221) = W30 m c main_v221
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (congrFun (V30_eq m c) _), (h c).2⟩)
  (GenP.frame_cond_value m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE14 := fun c => by iintro ⟨-, HO⟩; iexact HO)
    (reg0 m) (fun c => by rw [V1_eq m c]; exact .rfl) (fun c => by rw [V2_eq m c]; exact .rfl)
    (reg1 m) (fun c => by rw [V5_eq m c]; exact .rfl) (fun c => by rw [V6_eq m c]; exact .rfl)
    (reg2 m) (fun c => by rw [V7_eq m c]; exact .rfl) (fun c => by rw [V8_eq m c]; exact .rfl)
    (reg3 m) (fun c => by rw [V9_eq m c]; exact .rfl) (fun c => by rw [V10_eq m c]; exact .rfl)
    (reg4 m) (fun c => by rw [V11_eq m c]; exact .rfl) (fun c => by rw [V12_eq m c]; exact .rfl)
    (reg5 m) (fun c => by rw [V13_eq m c]; exact .rfl) (fun c => by rw [V14_eq m c]; exact .rfl)
    (reg6 m) (fun c => by rw [V15_eq m c]; exact .rfl) (fun c => by rw [V16_eq m c]; exact .rfl)
    (reg7 m) (fun c => by rw [V17_eq m c]; exact .rfl) (fun c => by rw [V18_eq m c]; exact .rfl)
    (reg8 m) (fun c => by rw [V19_eq m c]; exact .rfl) (fun c => by rw [V20_eq m c]; exact .rfl)
    (reg9 m) (fun c => by rw [V21_eq m c]; exact .rfl) (fun c => by rw [V22_eq m c]; exact .rfl)
    (reg10 m) (fun c => by rw [V23_eq m c]; exact .rfl) (fun c => by rw [V24_eq m c]; exact .rfl)
    (reg11 m) (fun c => by rw [V25_eq m c]; exact .rfl) (fun c => by rw [V26_eq m c]; exact .rfl)
    (reg12 m) (fun c => by rw [V27_eq m c]; exact .rfl) (fun c => by rw [V28_eq m c]; exact .rfl)
    (reg13 m) (fun c => by rw [V29_eq m c]; exact .rfl) (fun c => by rw [V30_eq m c]; exact .rfl))

end Cert.KernelIdeal.Hand

end
-- ==== Proof.RefStages.lean ====
import proofs.«402767_j7713761264261_1_alg».proof.ReferenceIdeal
import proofs.«402767_j7713761264261_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option quotPrecheck false in
local notation "𝕋[" S ", " e "]" => BufTy.Contents (Elt F) (BufTy.mk S e)

def embOff : 𝕋[S9, .i32] :=
  addi (broadcastInDim S9 ![] bcast_S_S9 (constantI S_ 32 1#32))
    (muli (iotaInDim S9 32 0) (broadcastInDim S9 ![] bcast_S_S9 (constantI S_ 32 512#32)))

def embIdx (xf : 𝕋[S50000x9, .i32]) : 𝕋[S50000x9, .i32] :=
  addi xf (broadcastInDim S50000x9 ![0, 1] bcast_S1x9_S50000x9_0_1 (broadcastInDim S1x9 ![1] bcast_S9_S1x9_1 (embOff (F := F))))

def takeIdx (idx : 𝕋[S50000x9, .i32]) : 𝕋[S50000x9x1, .i32] :=
  broadcastInDim S50000x9x1 ![0, 1] bcast_S50000x9_S50000x9x1_0_1
    (select (cmpi .slt idx (broadcastInDim S50000x9 ![] bcast_S_S50000x9 (constantI S_ 32 0#32)))
      (addi idx (broadcastInDim S50000x9 ![] bcast_S_S50000x9 (constantI S_ 32 4608#32))) idx)

def takeOk (k : 𝕋[S50000x9x1, .i32]) : 𝕋[S50000x9, .i1] :=
  Host.reduce IntOp.andi
    (andi (cmpi .sge k (broadcastInDim S50000x9x1 ![] bcast_S_S50000x9x1 (constantI S_ 32 0#32)))
      (cmpi .sle k (broadcastInDim S50000x9x1 ![0, 1, 2] bcast_S1x1x1_S50000x9x1_0_1_2
        (broadcastInDim S1x1x1 ![2] bcast_S1_S1x1x1_2 (constantI S1 32 4607#32)))))
    (constantI S_ 1 1#1) reducesTo_S50000x9x1_S50000x9_d2 h_S_

def takeF (tbl : 𝕋[S4608x128, .f32]) (idx : 𝕋[S50000x9, .i32]) : 𝕋[S50000x9x128, .f32] :=
  select (broadcastInDim S50000x9x128 ![0, 1] bcast_S50000x9_S50000x9x128_0_1 (takeOk (takeIdx idx)))
    (Host.gather gather_S4608x128_S50000x9x1_S50000x9x128_2_0_n_n_0_2_1128 tbl (takeIdx idx))
    (broadcastInDim S50000x9x128 ![] bcast_S_S50000x9x128 (constant S_ .f32 0x7FC00000#32))

def x0F (xf : 𝕋[S50000x9, .i32]) (tbl : 𝕋[S4608x128, .f32]) : 𝕋[S50000x128, .f32] :=
  Host.reduceAdd (takeF tbl (embIdx xf)) (constant S_ .f32 0x00000000#32) reducesTo_S50000x9x128_S50000x128_d1 h_S_

def withLoops : 𝕋[S800000, .i32] → 𝕋[S50000, .i32] → 𝕋[S850000, .i32] :=
  fun a b => concatenate S850000 0 [⟨S800000, a⟩, ⟨S50000, b⟩] concatenates_S800000_S50000_S850000_d0

def srcF (ei : 𝕋[S2x800000, .i32]) : 𝕋[S850000, .i32] :=
  withLoops (F := F)
    (shapeCast S800000 (extractStridedSlice S1x800000 ![0, 0] ei slices_S2x800000_S1x800000_0_0) shapeCasts_S1x800000_S800000)
    (iotaInDim S50000 32 0)

def dstF (ei : 𝕋[S2x800000, .i32]) : 𝕋[S850000, .i32] :=
  withLoops (F := F)
    (shapeCast S800000 (extractStridedSlice S1x800000 ![1, 0] ei slices_S2x800000_S1x800000_1_0) shapeCasts_S1x800000_S800000)
    (iotaInDim S50000 32 0)

def col850 (k : 𝕋[S850000, .i32]) : 𝕋[S850000x1, .i32] :=
  broadcastInDim S850000x1 ![0] bcast_S850000_S850000x1_0 k

def wrap850 (k : 𝕋[S850000, .i32]) : 𝕋[S850000, .i32] :=
  select (cmpi .slt k (broadcastInDim S850000 ![] bcast_S_S850000 (constantI S_ 32 0#32)))
    (addi k (broadcastInDim S850000 ![] bcast_S_S850000 (constantI S_ 32 50000#32))) k

def degF (dst : 𝕋[S850000, .i32]) : 𝕋[S50000, .f32] :=
  Host.scatterAdd scatter_S50000_S850000x1_S850000_n_0_0_1
    (broadcastInDim S50000 ![] bcast_S_S50000 (constant S_ .f32 0x00000000#32)) (col850 dst)
    (broadcastInDim S850000 ![] bcast_S_S850000 (constant S_ .f32 0x3F800000#32))

def dinvF (deg : 𝕋[S50000, .f32]) : 𝕋[S50000, .f32] :=
  select (cmpf .ogt deg (broadcastInDim S50000 ![] bcast_S_S50000 (constant S_ .f32 0x00000000#32)))
    (Host.rsqrt (maximumf deg (broadcastInDim S50000 ![] bcast_S_S50000 (constant S_ .f32 0x3F800000#32))))
    (broadcastInDim S50000 ![] bcast_S_S50000 (id (constant S_ .f32 0x00000000#32)))

def normF (src dst : 𝕋[S850000, .i32]) : 𝕋[S850000, .f32] :=
  mulf (Host.gather gather_S50000_S850000x1_S850000_n_0_n_n_0_1_1 (dinvF (degF dst)) (col850 (wrap850 src)))
    (Host.gather gather_S50000_S850000x1_S850000_n_0_n_n_0_1_1 (dinvF (degF dst)) (col850 (wrap850 dst)))

def rows50000 (v : 𝕋[S128, .f32]) : 𝕋[S50000x128, .f32] :=
  broadcastInDim S50000x128 ![0, 1] bcast_S1x128_S50000x128_0_1 (broadcastInDim S1x128 ![1] bcast_S128_S1x128_1 v)

def hF (x : 𝕋[S50000x128, .f32]) (Wl : 𝕋[S128x128, .f32]) : 𝕋[S50000x128, .f32] :=
  Host.dotGeneral dot_S50000x128_S128x128_S50000x128_1_0_0_1_n_n none x Wl

def aggF (h : 𝕋[S50000x128, .f32]) (src dst : 𝕋[S850000, .i32]) (norm : 𝕋[S850000, .f32]) (bl : 𝕋[S128, .f32]) :
    𝕋[S50000x128, .f32] :=
  addf
    (Host.scatterAdd scatter_S50000x128_S850000x1_S850000x128_1_0_0_1
      (broadcastInDim S50000x128 ![] bcast_S_S50000x128 (constant S_ .f32 0x00000000#32)) (col850 dst)
      (mulf (Host.gather gather_S50000x128_S850000x1_S850000x128_1_0_n_n_0_1_1128 h (col850 (wrap850 src)))
        (broadcastInDim S850000x128 ![0, 1] bcast_S850000x1_S850000x128_0_1
          (broadcastInDim S850000x1 ![0] bcast_S850000_S850000x1_0 norm))))
    (rows50000 bl)

def mean50000 (a : 𝕋[S50000x128, .f32]) : 𝕋[S128, .f32] :=
  Host.divf (Host.reduceAdd a (constant S_ .f32 0x00000000#32) reducesTo_S50000x128_S128_d0 h_S_)
    (broadcastInDim S128 ![] bcast_S_S128 (constant S_ .f32 0x47435000#32))

def varDen50000 : 𝕋[S_, .f32] :=
  subf (constant S_ .f32 0x47435000#32) (sitofp .f32 (constantI S_ 32 0#32 : 𝕋[S_, .i32]))

def dev50000 (a : 𝕋[S50000x128, .f32]) : 𝕋[S50000x128, .f32] :=
  subf a (broadcastInDim S50000x128 ![0, 1] bcast_S1x128_S50000x128_0_1
    (Host.divf
      (broadcastInDim S1x128 ![1] bcast_S128_S1x128_1
        (Host.reduceAdd a (constant S_ .f32 0x00000000#32) reducesTo_S50000x128_S128_d0 h_S_))
      (broadcastInDim S1x128 ![] bcast_S_S1x128 (constant S_ .f32 0x47435000#32))))

def var50000 (a : 𝕋[S50000x128, .f32]) : 𝕋[S128, .f32] :=
  select (broadcastInDim S128 ![] bcast_S_S128 (cmpf .ogt (varDen50000 (F := F)) (constant S_ .f32 0x00000000#32)))
    (Host.divf
      (Host.reduceAdd (mulf (dev50000 a) (dev50000 a)) (constant S_ .f32 0x00000000#32) reducesTo_S50000x128_S128_d0 h_S_)
      (broadcastInDim S128 ![] bcast_S_S128 (varDen50000 (F := F))))
    (broadcastInDim S128 ![] bcast_S_S128 (id (constant S_ .f32 0x7FC00000#32)))

def bnreluF (a : 𝕋[S50000x128, .f32]) (gl btl : 𝕋[S128, .f32]) : 𝕋[S50000x128, .f32] :=
  maximumf
    (addf
      (mulf (subf a (rows50000 (mean50000 a)))
        (rows50000 (Host.divf gl (Host.sqrt (addf (var50000 a)
          (broadcastInDim S128 ![] bcast_S_S128 (constant S_ .f32 0x3727C5AC#32)))))))
      (rows50000 btl))
    (broadcastInDim S50000x128 ![] bcast_S_S50000x128 (constant S_ .f32 0x00000000#32))

def W0F (W : 𝕋[S4x128x128, .f32]) : 𝕋[S128x128, .f32] :=
  shapeCast S128x128 (extractStridedSlice S1x128x128 ![0, 0, 0] W slices_S4x128x128_S1x128x128_0_0_0) shapeCasts_S1x128x128_S128x128
def W1F (W : 𝕋[S4x128x128, .f32]) : 𝕋[S128x128, .f32] :=
  shapeCast S128x128 (extractStridedSlice S1x128x128 ![1, 0, 0] W slices_S4x128x128_S1x128x128_1_0_0) shapeCasts_S1x128x128_S128x128
def W2F (W : 𝕋[S4x128x128, .f32]) : 𝕋[S128x128, .f32] :=
  shapeCast S128x128 (extractStridedSlice S1x128x128 ![2, 0, 0] W slices_S4x128x128_S1x128x128_2_0_0) shapeCasts_S1x128x128_S128x128
def W3F (W : 𝕋[S4x128x128, .f32]) : 𝕋[S128x128, .f32] :=
  shapeCast S128x128 (extractStridedSlice S1x128x128 ![3, 0, 0] W slices_S4x128x128_S1x128x128_3_0_0) shapeCasts_S1x128x128_S128x128
def row0F (p : 𝕋[S4x128, .f32]) : 𝕋[S128, .f32] :=
  shapeCast S128 (extractStridedSlice S1x128 ![0, 0] p slices_S4x128_S1x128_0_0) shapeCasts_S1x128_S128
def row1F (p : 𝕋[S4x128, .f32]) : 𝕋[S128, .f32] :=
  shapeCast S128 (extractStridedSlice S1x128 ![1, 0] p slices_S4x128_S1x128_1_0) shapeCasts_S1x128_S128
def row2F (p : 𝕋[S4x128, .f32]) : 𝕋[S128, .f32] :=
  shapeCast S128 (extractStridedSlice S1x128 ![2, 0] p slices_S4x128_S1x128_2_0) shapeCasts_S1x128_S128
def row3F (p : 𝕋[S4x128, .f32]) : 𝕋[S128, .f32] :=
  shapeCast S128 (extractStridedSlice S1x128 ![3, 0] p slices_S4x128_S1x128_3_0) shapeCasts_S1x128_S128

def col50000 (k : 𝕋[S50000, .i32]) : 𝕋[S50000x1, .i32] :=
  broadcastInDim S50000x1 ![0] bcast_S50000_S50000x1_0 k

def countsF (bi : 𝕋[S50000, .i32]) : 𝕋[S512, .f32] :=
  Host.scatterAdd scatter_S512_S50000x1_S50000_n_0_0_1
    (broadcastInDim S512 ![] bcast_S_S512 (constant S_ .f32 0x00000000#32)) (col50000 bi)
    (broadcastInDim S50000 ![] bcast_S_S50000 (constant S_ .f32 0x3F800000#32))

def pooledF (x : 𝕋[S50000x128, .f32]) (bi : 𝕋[S50000, .i32]) : 𝕋[S512x128, .f32] :=
  Host.divf
    (Host.scatterAdd scatter_S512x128_S50000x1_S50000x128_1_0_0_1
      (broadcastInDim S512x128 ![] bcast_S_S512x128 (constant S_ .f32 0x00000000#32)) (col50000 bi) x)
    (broadcastInDim S512x128 ![0, 1] bcast_S512x1_S512x128_0_1
      (broadcastInDim S512x1 ![0] bcast_S512_S512x1_0
        (maximumf (countsF bi) (broadcastInDim S512 ![] bcast_S_S512 (constant S_ .f32 0x3F800000#32)))))

def rows512 (v : 𝕋[S128, .f32]) : 𝕋[S512x128, .f32] :=
  broadcastInDim S512x128 ![0, 1] bcast_S1x128_S512x128_0_1 (broadcastInDim S1x128 ![1] bcast_S128_S1x128_1 v)

def mean512 (a : 𝕋[S512x128, .f32]) : 𝕋[S128, .f32] :=
  Host.divf (Host.reduceAdd a (constant S_ .f32 0x00000000#32) reducesTo_S512x128_S128_d0 h_S_)
    (broadcastInDim S128 ![] bcast_S_S128 (constant S_ .f32 0x44000000#32))

def varDen512 : 𝕋[S_, .f32] :=
  subf (constant S_ .f32 0x44000000#32) (sitofp .f32 (constantI S_ 32 0#32 : 𝕋[S_, .i32]))

def dev512 (a : 𝕋[S512x128, .f32]) : 𝕋[S512x128, .f32] :=
  subf a (broadcastInDim S512x128 ![0, 1] bcast_S1x128_S512x128_0_1
    (Host.divf
      (broadcastInDim S1x128 ![1] bcast_S128_S1x128_1
        (Host.reduceAdd a (constant S_ .f32 0x00000000#32) reducesTo_S512x128_S128_d0 h_S_))
      (broadcastInDim S1x128 ![] bcast_S_S1x128 (constant S_ .f32 0x44000000#32))))

def var512 (a : 𝕋[S512x128, .f32]) : 𝕋[S128, .f32] :=
  select (broadcastInDim S128 ![] bcast_S_S128 (cmpf .ogt (varDen512 (F := F)) (constant S_ .f32 0x00000000#32)))
    (Host.divf
      (Host.reduceAdd (mulf (dev512 a) (dev512 a)) (constant S_ .f32 0x00000000#32) reducesTo_S512x128_S128_d0 h_S_)
      (broadcastInDim S128 ![] bcast_S_S128 (varDen512 (F := F))))
    (broadcastInDim S128 ![] bcast_S_S128 (id (constant S_ .f32 0x7FC00000#32)))

def fbnF (p : 𝕋[S512x128, .f32]) (g bt : 𝕋[S128, .f32]) : 𝕋[S512x128, .f32] :=
  addf
    (mulf (subf p (rows512 (mean512 p)))
      (rows512 (Host.divf g (Host.sqrt (addf (var512 p)
        (broadcastInDim S128 ![] bcast_S_S128 (constant S_ .f32 0x3727C5AC#32)))))))
    (rows512 bt)

def hmidF (p : 𝕋[S512x128, .f32]) (w1 : 𝕋[S128x128, .f32]) (b1 : 𝕋[S128, .f32]) : 𝕋[S512x128, .f32] :=
  maximumf (addf (Host.dotGeneral dot_S512x128_S128x128_S512x128_1_0_0_1_n_n none p w1) (rows512 b1))
    (broadcastInDim S512x128 ![] bcast_S_S512x128 (constant S_ .f32 0x00000000#32))

def outF (h : 𝕋[S512x128, .f32]) (w2 : 𝕋[S128x1, .f32]) (b2 : 𝕋[S1, .f32]) : 𝕋[S512x1, .f32] :=
  addf (Host.dotGeneral dot_S512x128_S128x1_S512x1_1_0_0_1_n_n none h w2)
    (broadcastInDim S512x1 ![0, 1] bcast_S1x1_S512x1_0_1 (broadcastInDim S1x1 ![1] bcast_S1_S1x1_1 b2))

section Results

variable (V0 : Valuation τ sig (Elt F))

def res_x0 : 𝕋[S50000x128, .f32] := x0F (V0 (Proc.devRef .tc main_arg0)) (V0 (Proc.devRef .tc main_arg3))
def res_src : 𝕋[S850000, .i32] := srcF (V0 (Proc.devRef .tc main_arg1))
def res_dst : 𝕋[S850000, .i32] := dstF (V0 (Proc.devRef .tc main_arg1))
def res_norm : 𝕋[S850000, .f32] := normF (res_src V0) (res_dst V0)

def res_h0 : 𝕋[S50000x128, .f32] := hF (res_x0 V0) (W0F (V0 (Proc.devRef .tc main_arg4)))
def res_agg0 : 𝕋[S50000x128, .f32] :=
  aggF (res_h0 V0) (res_src V0) (res_dst V0) (res_norm V0) (row0F (V0 (Proc.devRef .tc main_arg5)))
def res_x1 : 𝕋[S50000x128, .f32] :=
  bnreluF (res_agg0 V0) (row0F (V0 (Proc.devRef .tc main_arg6))) (row0F (V0 (Proc.devRef .tc main_arg7)))

def res_h1 : 𝕋[S50000x128, .f32] := hF (res_x1 V0) (W1F (V0 (Proc.devRef .tc main_arg4)))
def res_agg1 : 𝕋[S50000x128, .f32] :=
  aggF (res_h1 V0) (res_src V0) (res_dst V0) (res_norm V0) (row1F (V0 (Proc.devRef .tc main_arg5)))
def res_x2 : 𝕋[S50000x128, .f32] :=
  bnreluF (res_agg1 V0) (row1F (V0 (Proc.devRef .tc main_arg6))) (row1F (V0 (Proc.devRef .tc main_arg7)))

def res_h2 : 𝕋[S50000x128, .f32] := hF (res_x2 V0) (W2F (V0 (Proc.devRef .tc main_arg4)))
def res_agg2 : 𝕋[S50000x128, .f32] :=
  aggF (res_h2 V0) (res_src V0) (res_dst V0) (res_norm V0) (row2F (V0 (Proc.devRef .tc main_arg5)))
def res_x3 : 𝕋[S50000x128, .f32] :=
  bnreluF (res_agg2 V0) (row2F (V0 (Proc.devRef .tc main_arg6))) (row2F (V0 (Proc.devRef .tc main_arg7)))

def res_h3 : 𝕋[S50000x128, .f32] := hF (res_x3 V0) (W3F (V0 (Proc.devRef .tc main_arg4)))
def res_agg3 : 𝕋[S50000x128, .f32] :=
  aggF (res_h3 V0) (res_src V0) (res_dst V0) (res_norm V0) (row3F (V0 (Proc.devRef .tc main_arg5)))
def res_x4 : 𝕋[S50000x128, .f32] :=
  bnreluF (res_agg3 V0) (row3F (V0 (Proc.devRef .tc main_arg6))) (row3F (V0 (Proc.devRef .tc main_arg7)))

def res_pooled : 𝕋[S512x128, .f32] := pooledF (res_x4 V0) (V0 (Proc.devRef .tc main_arg2))
def res_fbn : 𝕋[S512x128, .f32] :=
  fbnF (res_pooled V0) (V0 (Proc.devRef .tc main_arg8)) (V0 (Proc.devRef .tc main_arg9))
def res_hmid : 𝕋[S512x128, .f32] :=
  hmidF (res_fbn V0) (V0 (Proc.devRef .tc main_arg10)) (V0 (Proc.devRef .tc main_arg11))
def res_out : 𝕋[S512x1, .f32] :=
  outF (res_hmid V0) (V0 (Proc.devRef .tc main_arg12)) (V0 (Proc.devRef .tc main_arg13))

end Results

def result (m : (ℓ : Loc nD τ sig) → Buf (Elt F) ℓ) (c : Dev nD) : 𝕋[S512x1, .f32] :=
  res_out (launchContents m c)

end Cert.ReferenceIdeal.HandRun

end
-- ==== Proof.RefOps.lean ====
import proofs.«402767_j7713761264261_1_alg».proof.Proof.RefStages

/-! # The reference's operations, as lists

@main's 439 operations in order — each call's body substituted at the call over that call's buffers, each
operation stated over typed references —, cut where a stage of the network ends and where a printed window of @main ends;
the stages and the windows as concatenations of the pieces; and, per stage, the buffers it writes. -/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 35 of 439. -/
abbrev piece0 : List (HloOp τ sig (Elt F)) :=
  [ TRef.nullary (.of main_v0 : TRef sig ⟨S9, .i32⟩) (iotaInDim S9 32 0),
    TRef.nullary (.of main_c : TRef sig ⟨S_, .i32⟩) (constantI S_ 32 512#32),
    TRef.unary (.of main_c : TRef sig ⟨S_, .i32⟩) (.of main_v1 : TRef sig ⟨S9, .i32⟩) (broadcastInDim S9 ![] bcast_S_S9 : (⟨S_, .i32⟩ : BufTy).Contents (Elt F) → (⟨S9, .i32⟩ : BufTy).Contents (Elt F)),
    TRef.binary (.of main_v0 : TRef sig ⟨S9, .i32⟩) (.of main_v1 : TRef sig ⟨S9, .i32⟩) (.of main_v2 : TRef sig ⟨S9, .i32⟩) (muli : (⟨S9, .i32⟩ : BufTy).Contents (Elt F) → (⟨S9, .i32⟩ : BufTy).Contents (Elt F) → (⟨S9, .i32⟩ : BufTy).Contents (Elt F)),
    TRef.nullary (.of main_c_0 : TRef sig ⟨S_, .i32⟩) (constantI S_ 32 1#32),
    TRef.unary (.of main_c_0 : TRef sig ⟨S_, .i32⟩) (.of main_v3 : TRef sig ⟨S9, .i32⟩) (broadcastInDim S9 ![] bcast_S_S9 : (⟨S_, .i32⟩ : BufTy).Contents (Elt F) → (⟨S9, .i32⟩ : BufTy).Contents (Elt F)),
    TRef.binary (.of main_v3 : TRef sig ⟨S9, .i32⟩) (.of main_v2 : TRef sig ⟨S9, .i32⟩) (.of main_v4 : TRef sig ⟨S9, .i32⟩) (addi : (⟨S9, .i32⟩ : BufTy).Contents (Elt F) → (⟨S9, .i32⟩ : BufTy).Contents (Elt F) → (⟨S9, .i32⟩ : BufTy).Contents (Elt F)),
    TRef.unary (.of main_v4 : TRef sig ⟨S9, .i32⟩) (.of main_v5 : TRef sig ⟨S1x9, .i32⟩) (broadcastInDim S1x9 ![1] bcast_S9_S1x9_1 : (⟨S9, .i32⟩ : BufTy).Contents (Elt F) → (⟨S1x9, .i32⟩ : BufTy).Contents (Elt F)),
    TRef.unary (.of main_v5 : TRef sig ⟨S1x9, .i32⟩) (.of main_v6 : TRef sig ⟨S50000x9, .i32⟩) (broadcastInDim S50000x9 ![0, 1] bcast_S1x9_S50000x9_0_1 : (⟨S1x9, .i32⟩ : BufTy).Contents (Elt F) → (⟨S50000x9, .i32⟩ : BufTy).Contents (Elt F)),
    TRef.binary (.of main_arg0 : TRef sig (main_arg0 : Ref sig .tc).ty) (.of main_v6 : TRef sig ⟨S50000x9, .i32⟩) (.of main_v7 : TRef sig ⟨S50000x9, .i32⟩) (addi : (⟨S50000x9, .i32⟩ : BufTy).Contents (Elt F) → (⟨S50000x9, .i32⟩ : BufTy).Contents (Elt F) → (⟨S50000x9, .i32⟩ : BufTy).Contents (Elt F)),
    TRef.nullary main_call0.c (constantI S_ 32 0#32),
    TRef.unary main_call0.c main_call0.v0 (broadcastInDim S50000x9 ![] bcast_S_S50000x9),
    TRef.binary (.of main_v7 : TRef sig ⟨S50000x9, .i32⟩) main_call0.v0 main_call0.v1 (cmpi .slt),
    TRef.nullary main_call0.c_0 (constantI S_ 32 4608#32),
    TRef.unary main_call0.c_0 main_call0.v2 (broadcastInDim S50000x9 ![] bcast_S_S50000x9),
    TRef.binary (.of main_v7 : TRef sig ⟨S50000x9, .i32⟩) main_call0.v2 main_call0.v3 addi,
    TRef.ternary main_call0.v1 main_call0.v3 (.of main_v7 : TRef sig ⟨S50000x9, .i32⟩) main_call0_call0.v0 select,
    TRef.unary main_call0_call0.v0 main_call0.v5 (broadcastInDim S50000x9x1 ![0, 1] bcast_S50000x9_S50000x9x1_0_1),
    TRef.nullary main_call0.c_1 (constantI S1 32 4607#32),
    TRef.nullary main_call0.c_2 (constantI S_ 32 0#32),
    TRef.unary main_call0.c_2 main_call0.v6 (broadcastInDim S50000x9x1 ![] bcast_S_S50000x9x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S50000x9x1 ![0, 1, 2] bcast_S1x1x1_S50000x9x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S50000x9x1_S50000x9_d2 h_S_),
    TRef.binary (.of main_arg3 : TRef sig (main_arg3 : Ref sig .tc).ty) main_call0.v5 main_call0.v13 (fun x i => Host.gather gather_S4608x128_S50000x9x1_S50000x9x128_2_0_n_n_0_2_1128 x i),
    TRef.unary main_call0.v12 main_call0.v14 (broadcastInDim S50000x9x128 ![0, 1] bcast_S50000x9_S50000x9x128_0_1),
    TRef.nullary main_call0.cst (constant S_ .f32 0x7FC00000#32),
    TRef.unary main_call0.cst main_call0.v15 (broadcastInDim S50000x9x128 ![] bcast_S_S50000x9x128),
    TRef.ternary main_call0.v14 main_call0.v13 main_call0.v15 main_call0.v16 select,
    TRef.nullary (.of main_cst : TRef sig ⟨S_, .f32⟩) (constant S_ .f32 0x00000000#32),
    TRef.binary (.of main_v8 : TRef sig ⟨S50000x9x128, .f32⟩) (.of main_cst : TRef sig ⟨S_, .f32⟩) (.of main_v9 : TRef sig (main_v9 : Ref sig .tc).ty) ((fun x v => Host.reduceAdd x v reducesTo_S50000x9x128_S50000x128_d1 h_S_) : (⟨S50000x9x128, .f32⟩ : BufTy).Contents (Elt F) → (⟨S_, .f32⟩ : BufTy).Contents (Elt F) → (⟨S50000x128, .f32⟩ : BufTy).Contents (Elt F)) ]

/-- Operations 36 … 78 of 439. -/
abbrev piece1 : List (HloOp τ sig (Elt F)) :=
  [ TRef.nullary (.of main_v10 : TRef sig ⟨S50000, .i32⟩) (iotaInDim S50000 32 0),
    TRef.unary (.of main_arg1 : TRef sig (main_arg1 : Ref sig .tc).ty) (.of main_v11 : TRef sig ⟨S1x800000, .i32⟩) ((extractStridedSlice S1x800000 ![0, 0] · slices_S2x800000_S1x800000_0_0) : (⟨S2x800000, .i32⟩ : BufTy).Contents (Elt F) → (⟨S1x800000, .i32⟩ : BufTy).Contents (Elt F)),
    TRef.reshape (.of main_v11 : TRef sig ⟨S1x800000, .i32⟩) (.of main_v12 : TRef sig ⟨S800000, .i32⟩) rfl shapeCasts_S1x800000_S800000,
    TRef.binary (.of main_v12 : TRef sig ⟨S800000, .i32⟩) (.of main_v10 : TRef sig ⟨S50000, .i32⟩) (.of main_v13 : TRef sig (main_v13 : Ref sig .tc).ty) (withLoops (F := F)),
    TRef.unary (.of main_arg1 : TRef sig (main_arg1 : Ref sig .tc).ty) (.of main_v14 : TRef sig ⟨S1x800000, .i32⟩) ((extractStridedSlice S1x800000 ![1, 0] · slices_S2x800000_S1x800000_1_0) : (⟨S2x800000, .i32⟩ : BufTy).Contents (Elt F) → (⟨S1x800000, .i32⟩ : BufTy).Contents (Elt F)),
    TRef.reshape (.of main_v14 : TRef sig ⟨S1x800000, .i32⟩) (.of main_v15 : TRef sig ⟨S800000, .i32⟩) rfl shapeCasts_S1x800000_S800000,
    TRef.binary (.of main_v15 : TRef sig ⟨S800000, .i32⟩) (.of main_v10 : TRef sig ⟨S50000, .i32⟩) (.of main_v16 : TRef sig (main_v16 : Ref sig .tc).ty) (withLoops (F := F)),
    TRef.nullary (.of main_cst_1 : TRef sig ⟨S_, .f32⟩) (constant S_ .f32 0x3F800000#32),
    TRef.unary (.of main_cst_1 : TRef sig ⟨S_, .f32⟩) (.of main_v17 : TRef sig ⟨S850000, .f32⟩) (broadcastInDim S850000 ![] bcast_S_S850000 : (⟨S_, .f32⟩ : BufTy).Contents (Elt F) → (⟨S850000, .f32⟩ : BufTy).Contents (Elt F)),
    TRef.nullary (.of main_cst_2 : TRef sig ⟨S_, .f32⟩) (constant S_ .f32 0x00000000#32),
    TRef.unary (.of main_cst_2 : TRef sig ⟨S_, .f32⟩) (.of main_v18 : TRef sig ⟨S50000, .f32⟩) (broadcastInDim S50000 ![] bcast_S_S50000 : (⟨S_, .f32⟩ : BufTy).Contents (Elt F) → (⟨S50000, .f32⟩ : BufTy).Contents (Elt F)),
    TRef.unary (.of main_v16 : TRef sig (main_v16 : Ref sig .tc).ty) (.of main_v19 : TRef sig ⟨S850000x1, .i32⟩) (broadcastInDim S850000x1 ![0] bcast_S850000_S850000x1_0 : (⟨S850000, .i32⟩ : BufTy).Contents (Elt F) → (⟨S850000x1, .i32⟩ : BufTy).Contents (Elt F)),
    TRef.ternary (.of main_v18 : TRef sig ⟨S50000, .f32⟩) (.of main_v19 : TRef sig ⟨S850000x1, .i32⟩) (.of main_v17 : TRef sig ⟨S850000, .f32⟩) (.of main_v20 : TRef sig ⟨S50000, .f32⟩) ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    TRef.nullary (.of main_cst_3 : TRef sig ⟨S_, .f32⟩) (constant S_ .f32 0x00000000#32),
    TRef.unary (.of main_cst_3 : TRef sig ⟨S_, .f32⟩) (.of main_v21 : TRef sig ⟨S50000, .f32⟩) (broadcastInDim S50000 ![] bcast_S_S50000 : (⟨S_, .f32⟩ : BufTy).Contents (Elt F) → (⟨S50000, .f32⟩ : BufTy).Contents (Elt F)),
    TRef.binary (.of main_v20 : TRef sig ⟨S50000, .f32⟩) (.of main_v21 : TRef sig ⟨S50000, .f32⟩) (.of main_v22 : TRef sig ⟨S50000, .i1⟩) (cmpf .ogt : (⟨S50000, .f32⟩ : BufTy).Contents (Elt F) → (⟨S50000, .f32⟩ : BufTy).Contents (Elt F) → (⟨S50000, .i1⟩ : BufTy).Contents (Elt F)),
    TRef.nullary (.of main_cst_4 : TRef sig ⟨S_, .f32⟩) (constant S_ .f32 0x3F800000#32),
    TRef.unary (.of main_cst_4 : TRef sig ⟨S_, .f32⟩) (.of main_v23 : TRef sig ⟨S50000, .f32⟩) (broadcastInDim S50000 ![] bcast_S_S50000 : (⟨S_, .f32⟩ : BufTy).Contents (Elt F) → (⟨S50000, .f32⟩ : BufTy).Contents (Elt F)),
    TRef.binary (.of main_v20 : TRef sig ⟨S50000, .f32⟩) (.of main_v23 : TRef sig ⟨S50000, .f32⟩) (.of main_v24 : TRef sig ⟨S50000, .f32⟩) (maximumf : (⟨S50000, .f32⟩ : BufTy).Contents (Elt F) → (⟨S50000, .f32⟩ : BufTy).Contents (Elt F) → (⟨S50000, .f32⟩ : BufTy).Contents (Elt F)),
    TRef.unary (.of main_v24 : TRef sig ⟨S50000, .f32⟩) (.of main_v25 : TRef sig ⟨S50000, .f32⟩) (Host.rsqrt : (⟨S50000, .f32⟩ : BufTy).Contents (Elt F) → (⟨S50000, .f32⟩ : BufTy).Contents (Elt F)),
    TRef.nullary (.of main_cst_5 : TRef sig ⟨S_, .f32⟩) (constant S_ .f32 0x00000000#32),
    TRef.unary (.of main_cst_5 : TRef sig ⟨S_, .f32⟩) main_call1.v0 id,
    TRef.unary main_call1.v0 main_call1.v1 (broadcastInDim S50000 ![] bcast_S_S50000),
    TRef.ternary (.of main_v22 : TRef sig ⟨S50000, .i1⟩) (.of main_v25 : TRef sig ⟨S50000, .f32⟩) main_call1.v1 main_call1.v2 select,
    TRef.nullary (.of main_c_6 : TRef sig ⟨S_, .i32⟩) (constantI S_ 32 0#32),
    TRef.unary (.of main_c_6 : TRef sig ⟨S_, .i32⟩) (.of main_v27 : TRef sig ⟨S850000, .i32⟩) (broadcastInDim S850000 ![] bcast_S_S850000 : (⟨S_, .i32⟩ : BufTy).Contents (Elt F) → (⟨S850000, .i32⟩ : BufTy).Contents (Elt F)),
    TRef.binary (.of main_v13 : TRef sig (main_v13 : Ref sig .tc).ty) (.of main_v27 : TRef sig ⟨S850000, .i32⟩) (.of main_v28 : TRef sig ⟨S850000, .i1⟩) (cmpi .slt : (⟨S850000, .i32⟩ : BufTy).Contents (Elt F) → (⟨S850000, .i32⟩ : BufTy).Contents (Elt F) → (⟨S850000, .i1⟩ : BufTy).Contents (Elt F)),
    TRef.nullary (.of main_c_7 : TRef sig ⟨S_, .i32⟩) (constantI S_ 32 50000#32),
    TRef.unary (.of main_c_7 : TRef sig ⟨S_, .i32⟩) (.of main_v29 : TRef sig ⟨S850000, .i32⟩) (broadcastInDim S850000 ![] bcast_S_S850000 : (⟨S_, .i32⟩ : BufTy).Contents (Elt F) → (⟨S850000, .i32⟩ : BufTy).Contents (Elt F)),
    TRef.binary (.of main_v13 : TRef sig (main_v13 : Ref sig .tc).ty) (.of main_v29 : TRef sig ⟨S850000, .i32⟩) (.of main_v30 : TRef sig ⟨S850000, .i32⟩) (addi : (⟨S850000, .i32⟩ : BufTy).Contents (Elt F) → (⟨S850000, .i32⟩ : BufTy).Contents (Elt F) → (⟨S850000, .i32⟩ : BufTy).Contents (Elt F)),
    TRef.ternary (.of main_v28 : TRef sig ⟨S850000, .i1⟩) (.of main_v30 : TRef sig ⟨S850000, .i32⟩) (.of main_v13 : TRef sig (main_v13 : Ref sig .tc).ty) (.of main_v31 : TRef sig ⟨S850000, .i32⟩) (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    TRef.unary (.of main_v31 : TRef sig ⟨S850000, .i32⟩) (.of main_v32 : TRef sig ⟨S850000x1, .i32⟩) (broadcastInDim S850000x1 ![0] bcast_S850000_S850000x1_0 : (⟨S850000, .i32⟩ : BufTy).Contents (Elt F) → (⟨S850000x1, .i32⟩ : BufTy).Contents (Elt F)),
    TRef.binary (.of main_v26 : TRef sig ⟨S50000, .f32⟩) (.of main_v32 : TRef sig ⟨S850000x1, .i32⟩) (.of main_v33 : TRef sig ⟨S850000, .f32⟩) ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    TRef.nullary (.of main_c_8 : TRef sig ⟨S_, .i32⟩) (constantI S_ 32 0#32),
    TRef.unary (.of main_c_8 : TRef sig ⟨S_, .i32⟩) (.of main_v34 : TRef sig ⟨S850000, .i32⟩) (broadcastInDim S850000 ![] bcast_S_S850000 : (⟨S_, .i32⟩ : BufTy).Contents (Elt F) → (⟨S850000, .i32⟩ : BufTy).Contents (Elt F)),
    TRef.binary (.of main_v16 : TRef sig (main_v16 : Ref sig .tc).ty) (.of main_v34 : TRef sig ⟨S850000, .i32⟩) (.of main_v35 : TRef sig ⟨S850000, .i1⟩) (cmpi .slt : (⟨S850000, .i32⟩ : BufTy).Contents (Elt F) → (⟨S850000, .i32⟩ : BufTy).Contents (Elt F) → (⟨S850000, .i1⟩ : BufTy).Contents (Elt F)),
    TRef.nullary (.of main_c_9 : TRef sig ⟨S_, .i32⟩) (constantI S_ 32 50000#32),
    TRef.unary (.of main_c_9 : TRef sig ⟨S_, .i32⟩) (.of main_v36 : TRef sig ⟨S850000, .i32⟩) (broadcastInDim S850000 ![] bcast_S_S850000 : (⟨S_, .i32⟩ : BufTy).Contents (Elt F) → (⟨S850000, .i32⟩ : BufTy).Contents (Elt F)),
    TRef.binary (.of main_v16 : TRef sig (main_v16 : Ref sig .tc).ty) (.of main_v36 : TRef sig ⟨S850000, .i32⟩) (.of main_v37 : TRef sig ⟨S850000, .i32⟩) (addi : (⟨S850000, .i32⟩ : BufTy).Contents (Elt F) → (⟨S850000, .i32⟩ : BufTy).Contents (Elt F) → (⟨S850000, .i32⟩ : BufTy).Contents (Elt F)),
    TRef.ternary (.of main_v35 : TRef sig ⟨S850000, .i1⟩) (.of main_v37 : TRef sig ⟨S850000, .i32⟩) (.of main_v16 : TRef sig (main_v16 : Ref sig .tc).ty) (.of main_v38 : TRef sig ⟨S850000, .i32⟩) (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    TRef.unary (.of main_v38 : TRef sig ⟨S850000, .i32⟩) (.of main_v39 : TRef sig ⟨S850000x1, .i32⟩) (broadcastInDim S850000x1 ![0] bcast_S850000_S850000x1_0 : (⟨S850000, .i32⟩ : BufTy).Contents (Elt F) → (⟨S850000x1, .i32⟩ : BufTy).Contents (Elt F)),
    TRef.binary (.of main_v26 : TRef sig ⟨S50000, .f32⟩) (.of main_v39 : TRef sig ⟨S850000x1, .i32⟩) (.of main_v40 : TRef sig ⟨S850000, .f32⟩) ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    TRef.binary (.of main_v33 : TRef sig ⟨S850000, .f32⟩) (.of main_v40 : TRef sig ⟨S850000, .f32⟩) (.of main_v41 : TRef sig (main_v41 : Ref sig .tc).ty) (mulf : (⟨S850000, .f32⟩ : BufTy).Contents (Elt F) → (⟨S850000, .f32⟩ : BufTy).Contents (Elt F) → (⟨S850000, .f32⟩ : BufTy).Contents (Elt F)) ]

/-- Operations 79 … 84 of 439. -/
abbrev piece2 : List (HloOp τ sig (Elt F)) :=
  [ TRef.unary (.of main_arg4 : TRef sig (main_arg4 : Ref sig .tc).ty) (.of main_v42 : TRef sig ⟨S1x128x128, .f32⟩) ((extractStridedSlice S1x128x128 ![0, 0, 0] · slices_S4x128x128_S1x128x128_0_0_0) : (⟨S4x128x128, .f32⟩ : BufTy).Contents (Elt F) → (⟨S1x128x128, .f32⟩ : BufTy).Contents (Elt F)),
    TRef.reshape (.of main_v42 : TRef sig ⟨S1x128x128, .f32⟩) (.of main_v43 : TRef sig ⟨S128x128, .f32⟩) rfl shapeCasts_S1x128x128_S128x128,
    TRef.binary (.of main_v9 : TRef sig (main_v9 : Ref sig .tc).ty) (.of main_v43 : TRef sig ⟨S128x128, .f32⟩) (.of main_v44 : TRef sig ⟨S50000x128, .f32⟩) ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.nullary (.of main_c_10 : TRef sig ⟨S_, .i32⟩) (constantI S_ 32 0#32),
    TRef.unary (.of main_c_10 : TRef sig ⟨S_, .i32⟩) (.of main_v45 : TRef sig ⟨S850000, .i32⟩) (broadcastInDim S850000 ![] bcast_S_S850000 : (⟨S_, .i32⟩ : BufTy).Contents (Elt F) → (⟨S850000, .i32⟩ : BufTy).Contents (Elt F)),
    TRef.binary (.of main_v13 : TRef sig (main_v13 : Ref sig .tc).ty) (.of main_v45 : TRef sig ⟨S850000, .i32⟩) (.of main_v46 : TRef sig ⟨S850000, .i1⟩) (cmpi .slt : (⟨S850000, .i32⟩ : BufTy).Contents (Elt F) → (⟨S850000, .i32⟩ : BufTy).Contents (Elt F) → (⟨S850000, .i1⟩ : BufTy).Contents (Elt F)) ]

/-- Operations 85 … 151 of 439. -/
abbrev piece3 : List (HloOp τ sig (Elt F)) :=
  [ TRef.nullary (.of main_c_11 : TRef sig ⟨S_, .i32⟩) (constantI S_ 32 50000#32),
    TRef.unary (.of main_c_11 : TRef sig ⟨S_, .i32⟩) (.of main_v47 : TRef sig ⟨S850000, .i32⟩) (broadcastInDim S850000 ![] bcast_S_S850000 : (⟨S_, .i32⟩ : BufTy).Contents (Elt F) → (⟨S850000, .i32⟩ : BufTy).Contents (Elt F)),
    TRef.binary (.of main_v13 : TRef sig (main_v13 : Ref sig .tc).ty) (.of main_v47 : TRef sig ⟨S850000, .i32⟩) (.of main_v48 : TRef sig ⟨S850000, .i32⟩) (addi : (⟨S850000, .i32⟩ : BufTy).Contents (Elt F) → (⟨S850000, .i32⟩ : BufTy).Contents (Elt F) → (⟨S850000, .i32⟩ : BufTy).Contents (Elt F)),
    TRef.ternary (.of main_v46 : TRef sig ⟨S850000, .i1⟩) (.of main_v48 : TRef sig ⟨S850000, .i32⟩) (.of main_v13 : TRef sig (main_v13 : Ref sig .tc).ty) (.of main_v49 : TRef sig ⟨S850000, .i32⟩) (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    TRef.unary (.of main_v49 : TRef sig ⟨S850000, .i32⟩) (.of main_v50 : TRef sig ⟨S850000x1, .i32⟩) (broadcastInDim S850000x1 ![0] bcast_S850000_S850000x1_0 : (⟨S850000, .i32⟩ : BufTy).Contents (Elt F) → (⟨S850000x1, .i32⟩ : BufTy).Contents (Elt F)),
    TRef.binary (.of main_v44 : TRef sig ⟨S50000x128, .f32⟩) (.of main_v50 : TRef sig ⟨S850000x1, .i32⟩) (.of main_v51 : TRef sig ⟨S850000x128, .f32⟩) ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    TRef.unary (.of main_v41 : TRef sig (main_v41 : Ref sig .tc).ty) (.of main_v52 : TRef sig ⟨S850000x1, .f32⟩) (broadcastInDim S850000x1 ![0] bcast_S850000_S850000x1_0 : (⟨S850000, .f32⟩ : BufTy).Contents (Elt F) → (⟨S850000x1, .f32⟩ : BufTy).Contents (Elt F)),
    TRef.unary (.of main_v52 : TRef sig ⟨S850000x1, .f32⟩) (.of main_v53 : TRef sig ⟨S850000x128, .f32⟩) (broadcastInDim S850000x128 ![0, 1] bcast_S850000x1_S850000x128_0_1 : (⟨S850000x1, .f32⟩ : BufTy).Contents (Elt F) → (⟨S850000x128, .f32⟩ : BufTy).Contents (Elt F)),
    TRef.binary (.of main_v51 : TRef sig ⟨S850000x128, .f32⟩) (.of main_v53 : TRef sig ⟨S850000x128, .f32⟩) (.of main_v54 : TRef sig ⟨S850000x128, .f32⟩) (mulf : (⟨S850000x128, .f32⟩ : BufTy).Contents (Elt F) → (⟨S850000x128, .f32⟩ : BufTy).Contents (Elt F) → (⟨S850000x128, .f32⟩ : BufTy).Contents (Elt F)),
    TRef.nullary (.of main_cst_12 : TRef sig ⟨S_, .f32⟩) (constant S_ .f32 0x00000000#32),
    TRef.unary (.of main_cst_12 : TRef sig ⟨S_, .f32⟩) (.of main_v55 : TRef sig ⟨S50000x128, .f32⟩) (broadcastInDim S50000x128 ![] bcast_S_S50000x128 : (⟨S_, .f32⟩ : BufTy).Contents (Elt F) → (⟨S50000x128, .f32⟩ : BufTy).Contents (Elt F)),
    TRef.unary (.of main_v16 : TRef sig (main_v16 : Ref sig .tc).ty) (.of main_v56 : TRef sig ⟨S850000x1, .i32⟩) (broadcastInDim S850000x1 ![0] bcast_S850000_S850000x1_0 : (⟨S850000, .i32⟩ : BufTy).Contents (Elt F) → (⟨S850000x1, .i32⟩ : BufTy).Contents (Elt F)),
    TRef.ternary (.of main_v55 : TRef sig ⟨S50000x128, .f32⟩) (.of main_v56 : TRef sig ⟨S850000x1, .i32⟩) (.of main_v54 : TRef sig ⟨S850000x128, .f32⟩) (.of main_v57 : TRef sig ⟨S50000x128, .f32⟩) ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    TRef.unary (.of main_arg5 : TRef sig (main_arg5 : Ref sig .tc).ty) (.of main_v58 : TRef sig ⟨S1x128, .f32⟩) ((extractStridedSlice S1x128 ![0, 0] · slices_S4x128_S1x128_0_0) : (⟨S4x128, .f32⟩ : BufTy).Contents (Elt F) → (⟨S1x128, .f32⟩ : BufTy).Contents (Elt F)),
    TRef.reshape (.of main_v58 : TRef sig ⟨S1x128, .f32⟩) (.of main_v59 : TRef sig ⟨S128, .f32⟩) rfl shapeCasts_S1x128_S128,
    TRef.unary (.of main_v59 : TRef sig ⟨S128, .f32⟩) (.of main_v60 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v60 : TRef sig ⟨S1x128, .f32⟩) (.of main_v61 : TRef sig ⟨S50000x128, .f32⟩) (broadcastInDim S50000x128 ![0, 1] bcast_S1x128_S50000x128_0_1 : (⟨S1x128, .f32⟩ : BufTy).Contents (Elt F) → (⟨S50000x128, .f32⟩ : BufTy).Contents (Elt F)),
    TRef.binary (.of main_v57 : TRef sig ⟨S50000x128, .f32⟩) (.of main_v61 : TRef sig ⟨S50000x128, .f32⟩) (.of main_v62 : TRef sig ⟨S50000x128, .f32⟩) (addf : (⟨S50000x128, .f32⟩ : BufTy).Contents (Elt F) → (⟨S50000x128, .f32⟩ : BufTy).Contents (Elt F) → (⟨S50000x128, .f32⟩ : BufTy).Contents (Elt F)),
    TRef.unary (.of main_arg6 : TRef sig (main_arg6 : Ref sig .tc).ty) (.of main_v63 : TRef sig ⟨S1x128, .f32⟩) ((extractStridedSlice S1x128 ![0, 0] · slices_S4x128_S1x128_0_0) : (⟨S4x128, .f32⟩ : BufTy).Contents (Elt F) → (⟨S1x128, .f32⟩ : BufTy).Contents (Elt F)),
    TRef.reshape (.of main_v63 : TRef sig ⟨S1x128, .f32⟩) (.of main_v64 : TRef sig ⟨S128, .f32⟩) rfl shapeCasts_S1x128_S128,
    TRef.unary (.of main_arg7 : TRef sig (main_arg7 : Ref sig .tc).ty) (.of main_v65 : TRef sig ⟨S1x128, .f32⟩) ((extractStridedSlice S1x128 ![0, 0] · slices_S4x128_S1x128_0_0) : (⟨S4x128, .f32⟩ : BufTy).Contents (Elt F) → (⟨S1x128, .f32⟩ : BufTy).Contents (Elt F)),
    TRef.reshape (.of main_v65 : TRef sig ⟨S1x128, .f32⟩) (.of main_v66 : TRef sig ⟨S128, .f32⟩) rfl shapeCasts_S1x128_S128,
    TRef.nullary (.of main_cst_13 : TRef sig ⟨S_, .f32⟩) (constant S_ .f32 0x00000000#32),
    TRef.binary (.of main_v62 : TRef sig ⟨S50000x128, .f32⟩) (.of main_cst_13 : TRef sig ⟨S_, .f32⟩) (.of main_v67 : TRef sig ⟨S128, .f32⟩) ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    TRef.nullary (.of main_cst_14 : TRef sig ⟨S_, .f32⟩) (constant S_ .f32 0x47435000#32),
    TRef.unary (.of main_cst_14 : TRef sig ⟨S_, .f32⟩) (.of main_v68 : TRef sig ⟨S128, .f32⟩) (broadcastInDim S128 ![] bcast_S_S128 : (⟨S_, .f32⟩ : BufTy).Contents (Elt F) → (⟨S128, .f32⟩ : BufTy).Contents (Elt F)),
    TRef.binary (.of main_v67 : TRef sig ⟨S128, .f32⟩) (.of main_v68 : TRef sig ⟨S128, .f32⟩) (.of main_v69 : TRef sig ⟨S128, .f32⟩) (Host.divf : (⟨S128, .f32⟩ : BufTy).Contents (Elt F) → (⟨S128, .f32⟩ : BufTy).Contents (Elt F) → (⟨S128, .f32⟩ : BufTy).Contents (Elt F)),
    TRef.nullary (.of main_c_15 : TRef sig ⟨S_, .i32⟩) (constantI S_ 32 0#32),
    TRef.nullary main_call2.cst (constant S_ .f32 0x00000000#32),
    TRef.binary (.of main_v62 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v62 : TRef sig ⟨S50000x128, .f32⟩) main_call2.v4 main_call2.v5 subf,
    TRef.binary main_call2.v5 main_call2.v5 main_call2.v6 mulf,
    TRef.unary (.of main_c_15 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2_call0.v0 id,
    TRef.unary main_call2_call0.v0 main_call2_call0.v1 (broadcastInDim S128 ![] bcast_S_S128),
    TRef.ternary main_call2.v12 main_call2.v11 main_call2_call0.v1 main_call2_call0.v2 (fun p a b => select (broadcastInDim S128 ![] bcast_S_S128 p) a b),
    TRef.unary (.of main_v69 : TRef sig ⟨S128, .f32⟩) (.of main_v71 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v71 : TRef sig ⟨S1x128, .f32⟩) (.of main_v72 : TRef sig ⟨S50000x128, .f32⟩) (broadcastInDim S50000x128 ![0, 1] bcast_S1x128_S50000x128_0_1 : (⟨S1x128, .f32⟩ : BufTy).Contents (Elt F) → (⟨S50000x128, .f32⟩ : BufTy).Contents (Elt F)),
    TRef.binary (.of main_v62 : TRef sig ⟨S50000x128, .f32⟩) (.of main_v72 : TRef sig ⟨S50000x128, .f32⟩) (.of main_v73 : TRef sig ⟨S50000x128, .f32⟩) (subf : (⟨S50000x128, .f32⟩ : BufTy).Contents (Elt F) → (⟨S50000x128, .f32⟩ : BufTy).Contents (Elt F) → (⟨S50000x128, .f32⟩ : BufTy).Contents (Elt F)),
    TRef.nullary (.of main_cst_16 : TRef sig ⟨S_, .f32⟩) (constant S_ .f32 0x3727C5AC#32),
    TRef.unary (.of main_cst_16 : TRef sig ⟨S_, .f32⟩) (.of main_v74 : TRef sig ⟨S128, .f32⟩) (broadcastInDim S128 ![] bcast_S_S128 : (⟨S_, .f32⟩ : BufTy).Contents (Elt F) → (⟨S128, .f32⟩ : BufTy).Contents (Elt F)),
    TRef.binary (.of main_v70 : TRef sig ⟨S128, .f32⟩) (.of main_v74 : TRef sig ⟨S128, .f32⟩) (.of main_v75 : TRef sig ⟨S128, .f32⟩) (addf : (⟨S128, .f32⟩ : BufTy).Contents (Elt F) → (⟨S128, .f32⟩ : BufTy).Contents (Elt F) → (⟨S128, .f32⟩ : BufTy).Contents (Elt F)),
    TRef.unary (.of main_v75 : TRef sig ⟨S128, .f32⟩) (.of main_v76 : TRef sig ⟨S128, .f32⟩) (Host.sqrt : (⟨S128, .f32⟩ : BufTy).Contents (Elt F) → (⟨S128, .f32⟩ : BufTy).Contents (Elt F)),
    TRef.binary (.of main_v64 : TRef sig ⟨S128, .f32⟩) (.of main_v76 : TRef sig ⟨S128, .f32⟩) (.of main_v77 : TRef sig ⟨S128, .f32⟩) (Host.divf : (⟨S128, .f32⟩ : BufTy).Contents (Elt F) → (⟨S128, .f32⟩ : BufTy).Contents (Elt F) → (⟨S128, .f32⟩ : BufTy).Contents (Elt F)),
    TRef.unary (.of main_v77 : TRef sig ⟨S128, .f32⟩) (.of main_v78 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v78 : TRef sig ⟨S1x128, .f32⟩) (.of main_v79 : TRef sig ⟨S50000x128, .f32⟩) (broadcastInDim S50000x128 ![0, 1] bcast_S1x128_S50000x128_0_1 : (⟨S1x128, .f32⟩ : BufTy).Contents (Elt F) → (⟨S50000x128, .f32⟩ : BufTy).Contents (Elt F)),
    TRef.binary (.of main_v73 : TRef sig ⟨S50000x128, .f32⟩) (.of main_v79 : TRef sig ⟨S50000x128, .f32⟩) (.of main_v80 : TRef sig ⟨S50000x128, .f32⟩) (mulf : (⟨S50000x128, .f32⟩ : BufTy).Contents (Elt F) → (⟨S50000x128, .f32⟩ : BufTy).Contents (Elt F) → (⟨S50000x128, .f32⟩ : BufTy).Contents (Elt F)),
    TRef.unary (.of main_v66 : TRef sig ⟨S128, .f32⟩) (.of main_v81 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v81 : TRef sig ⟨S1x128, .f32⟩) (.of main_v82 : TRef sig ⟨S50000x128, .f32⟩) (broadcastInDim S50000x128 ![0, 1] bcast_S1x128_S50000x128_0_1 : (⟨S1x128, .f32⟩ : BufTy).Contents (Elt F) → (⟨S50000x128, .f32⟩ : BufTy).Contents (Elt F)),
    TRef.binary (.of main_v80 : TRef sig ⟨S50000x128, .f32⟩) (.of main_v82 : TRef sig ⟨S50000x128, .f32⟩) (.of main_v83 : TRef sig ⟨S50000x128, .f32⟩) (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v83 : TRef sig ⟨S50000x128, .f32⟩) main_call3.v0 (.of main_v84 : TRef sig (main_v84 : Ref sig .tc).ty) maximumf ]

/-- Operations 152 … 167 of 439. -/
abbrev piece4 : List (HloOp τ sig (Elt F)) :=
  [ TRef.unary (.of main_arg4 : TRef sig (main_arg4 : Ref sig .tc).ty) (.of main_v85 : TRef sig ⟨S1x128x128, .f32⟩) ((extractStridedSlice S1x128x128 ![1, 0, 0] · slices_S4x128x128_S1x128x128_1_0_0) : (⟨S4x128x128, .f32⟩ : BufTy).Contents (Elt F) → (⟨S1x128x128, .f32⟩ : BufTy).Contents (Elt F)),
    TRef.reshape (.of main_v85 : TRef sig ⟨S1x128x128, .f32⟩) (.of main_v86 : TRef sig ⟨S128x128, .f32⟩) rfl shapeCasts_S1x128x128_S128x128,
    TRef.binary (.of main_v84 : TRef sig (main_v84 : Ref sig .tc).ty) (.of main_v86 : TRef sig ⟨S128x128, .f32⟩) (.of main_v87 : TRef sig ⟨S50000x128, .f32⟩) ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.nullary (.of main_c_17 : TRef sig ⟨S_, .i32⟩) (constantI S_ 32 0#32),
    TRef.unary (.of main_c_17 : TRef sig ⟨S_, .i32⟩) (.of main_v88 : TRef sig ⟨S850000, .i32⟩) (broadcastInDim S850000 ![] bcast_S_S850000 : (⟨S_, .i32⟩ : BufTy).Contents (Elt F) → (⟨S850000, .i32⟩ : BufTy).Contents (Elt F)),
    TRef.binary (.of main_v13 : TRef sig (main_v13 : Ref sig .tc).ty) (.of main_v88 : TRef sig ⟨S850000, .i32⟩) (.of main_v89 : TRef sig ⟨S850000, .i1⟩) (cmpi .slt : (⟨S850000, .i32⟩ : BufTy).Contents (Elt F) → (⟨S850000, .i32⟩ : BufTy).Contents (Elt F) → (⟨S850000, .i1⟩ : BufTy).Contents (Elt F)),
    TRef.nullary (.of main_c_18 : TRef sig ⟨S_, .i32⟩) (constantI S_ 32 50000#32),
    TRef.unary (.of main_c_18 : TRef sig ⟨S_, .i32⟩) (.of main_v90 : TRef sig ⟨S850000, .i32⟩) (broadcastInDim S850000 ![] bcast_S_S850000 : (⟨S_, .i32⟩ : BufTy).Contents (Elt F) → (⟨S850000, .i32⟩ : BufTy).Contents (Elt F)),
    TRef.binary (.of main_v13 : TRef sig (main_v13 : Ref sig .tc).ty) (.of main_v90 : TRef sig ⟨S850000, .i32⟩) (.of main_v91 : TRef sig ⟨S850000, .i32⟩) (addi : (⟨S850000, .i32⟩ : BufTy).Contents (Elt F) → (⟨S850000, .i32⟩ : BufTy).Contents (Elt F) → (⟨S850000, .i32⟩ : BufTy).Contents (Elt F)),
    TRef.ternary (.of main_v89 : TRef sig ⟨S850000, .i1⟩) (.of main_v91 : TRef sig ⟨S850000, .i32⟩) (.of main_v13 : TRef sig (main_v13 : Ref sig .tc).ty) (.of main_v92 : TRef sig ⟨S850000, .i32⟩) (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    TRef.unary (.of main_v92 : TRef sig ⟨S850000, .i32⟩) (.of main_v93 : TRef sig ⟨S850000x1, .i32⟩) (broadcastInDim S850000x1 ![0] bcast_S850000_S850000x1_0 : (⟨S850000, .i32⟩ : BufTy).Contents (Elt F) → (⟨S850000x1, .i32⟩ : BufTy).Contents (Elt F)),
    TRef.binary (.of main_v87 : TRef sig ⟨S50000x128, .f32⟩) (.of main_v93 : TRef sig ⟨S850000x1, .i32⟩) (.of main_v94 : TRef sig ⟨S850000x128, .f32⟩) ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    TRef.unary (.of main_v41 : TRef sig (main_v41 : Ref sig .tc).ty) (.of main_v95 : TRef sig ⟨S850000x1, .f32⟩) (broadcastInDim S850000x1 ![0] bcast_S850000_S850000x1_0 : (⟨S850000, .f32⟩ : BufTy).Contents (Elt F) → (⟨S850000x1, .f32⟩ : BufTy).Contents (Elt F)),
    TRef.unary (.of main_v95 : TRef sig ⟨S850000x1, .f32⟩) (.of main_v96 : TRef sig ⟨S850000x128, .f32⟩) (broadcastInDim S850000x128 ![0, 1] bcast_S850000x1_S850000x128_0_1 : (⟨S850000x1, .f32⟩ : BufTy).Contents (Elt F) → (⟨S850000x128, .f32⟩ : BufTy).Contents (Elt F)),
    TRef.binary (.of main_v94 : TRef sig ⟨S850000x128, .f32⟩) (.of main_v96 : TRef sig ⟨S850000x128, .f32⟩) (.of main_v97 : TRef sig ⟨S850000x128, .f32⟩) (mulf : (⟨S850000x128, .f32⟩ : BufTy).Contents (Elt F) → (⟨S850000x128, .f32⟩ : BufTy).Contents (Elt F) → (⟨S850000x128, .f32⟩ : BufTy).Contents (Elt F)),
    TRef.nullary (.of main_cst_19 : TRef sig ⟨S_, .f32⟩) (constant S_ .f32 0x00000000#32) ]

/-- Operations 168 … 224 of 439. -/
abbrev piece5 : List (HloOp τ sig (Elt F)) :=
  [ TRef.unary (.of main_cst_19 : TRef sig ⟨S_, .f32⟩) (.of main_v98 : TRef sig ⟨S50000x128, .f32⟩) (broadcastInDim S50000x128 ![] bcast_S_S50000x128 : (⟨S_, .f32⟩ : BufTy).Contents (Elt F) → (⟨S50000x128, .f32⟩ : BufTy).Contents (Elt F)),
    TRef.unary (.of main_v16 : TRef sig (main_v16 : Ref sig .tc).ty) (.of main_v99 : TRef sig ⟨S850000x1, .i32⟩) (broadcastInDim S850000x1 ![0] bcast_S850000_S850000x1_0 : (⟨S850000, .i32⟩ : BufTy).Contents (Elt F) → (⟨S850000x1, .i32⟩ : BufTy).Contents (Elt F)),
    TRef.ternary (.of main_v98 : TRef sig ⟨S50000x128, .f32⟩) (.of main_v99 : TRef sig ⟨S850000x1, .i32⟩) (.of main_v97 : TRef sig ⟨S850000x128, .f32⟩) (.of main_v100 : TRef sig ⟨S50000x128, .f32⟩) ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    TRef.unary (.of main_arg5 : TRef sig (main_arg5 : Ref sig .tc).ty) (.of main_v101 : TRef sig ⟨S1x128, .f32⟩) ((extractStridedSlice S1x128 ![1, 0] · slices_S4x128_S1x128_1_0) : (⟨S4x128, .f32⟩ : BufTy).Contents (Elt F) → (⟨S1x128, .f32⟩ : BufTy).Contents (Elt F)),
    TRef.reshape (.of main_v101 : TRef sig ⟨S1x128, .f32⟩) (.of main_v102 : TRef sig ⟨S128, .f32⟩) rfl shapeCasts_S1x128_S128,
    TRef.unary (.of main_v102 : TRef sig ⟨S128, .f32⟩) (.of main_v103 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v103 : TRef sig ⟨S1x128, .f32⟩) (.of main_v104 : TRef sig ⟨S50000x128, .f32⟩) (broadcastInDim S50000x128 ![0, 1] bcast_S1x128_S50000x128_0_1 : (⟨S1x128, .f32⟩ : BufTy).Contents (Elt F) → (⟨S50000x128, .f32⟩ : BufTy).Contents (Elt F)),
    TRef.binary (.of main_v100 : TRef sig ⟨S50000x128, .f32⟩) (.of main_v104 : TRef sig ⟨S50000x128, .f32⟩) (.of main_v105 : TRef sig ⟨S50000x128, .f32⟩) (addf : (⟨S50000x128, .f32⟩ : BufTy).Contents (Elt F) → (⟨S50000x128, .f32⟩ : BufTy).Contents (Elt F) → (⟨S50000x128, .f32⟩ : BufTy).Contents (Elt F)),
    TRef.unary (.of main_arg6 : TRef sig (main_arg6 : Ref sig .tc).ty) (.of main_v106 : TRef sig ⟨S1x128, .f32⟩) ((extractStridedSlice S1x128 ![1, 0] · slices_S4x128_S1x128_1_0) : (⟨S4x128, .f32⟩ : BufTy).Contents (Elt F) → (⟨S1x128, .f32⟩ : BufTy).Contents (Elt F)),
    TRef.reshape (.of main_v106 : TRef sig ⟨S1x128, .f32⟩) (.of main_v107 : TRef sig ⟨S128, .f32⟩) rfl shapeCasts_S1x128_S128,
    TRef.unary (.of main_arg7 : TRef sig (main_arg7 : Ref sig .tc).ty) (.of main_v108 : TRef sig ⟨S1x128, .f32⟩) ((extractStridedSlice S1x128 ![1, 0] · slices_S4x128_S1x128_1_0) : (⟨S4x128, .f32⟩ : BufTy).Contents (Elt F) → (⟨S1x128, .f32⟩ : BufTy).Contents (Elt F)),
    TRef.reshape (.of main_v108 : TRef sig ⟨S1x128, .f32⟩) (.of main_v109 : TRef sig ⟨S128, .f32⟩) rfl shapeCasts_S1x128_S128,
    TRef.nullary (.of main_cst_20 : TRef sig ⟨S_, .f32⟩) (constant S_ .f32 0x00000000#32),
    TRef.binary (.of main_v105 : TRef sig ⟨S50000x128, .f32⟩) (.of main_cst_20 : TRef sig ⟨S_, .f32⟩) (.of main_v110 : TRef sig ⟨S128, .f32⟩) ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    TRef.nullary (.of main_cst_21 : TRef sig ⟨S_, .f32⟩) (constant S_ .f32 0x47435000#32),
    TRef.unary (.of main_cst_21 : TRef sig ⟨S_, .f32⟩) (.of main_v111 : TRef sig ⟨S128, .f32⟩) (broadcastInDim S128 ![] bcast_S_S128 : (⟨S_, .f32⟩ : BufTy).Contents (Elt F) → (⟨S128, .f32⟩ : BufTy).Contents (Elt F)),
    TRef.binary (.of main_v110 : TRef sig ⟨S128, .f32⟩) (.of main_v111 : TRef sig ⟨S128, .f32⟩) (.of main_v112 : TRef sig ⟨S128, .f32⟩) (Host.divf : (⟨S128, .f32⟩ : BufTy).Contents (Elt F) → (⟨S128, .f32⟩ : BufTy).Contents (Elt F) → (⟨S128, .f32⟩ : BufTy).Contents (Elt F)),
    TRef.nullary (.of main_c_22 : TRef sig ⟨S_, .i32⟩) (constantI S_ 32 0#32),
    TRef.nullary main_call4.cst (constant S_ .f32 0x00000000#32),
    TRef.binary (.of main_v105 : TRef sig ⟨S50000x128, .f32⟩) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (.of main_v105 : TRef sig ⟨S50000x128, .f32⟩) main_call4.v4 main_call4.v5 subf,
    TRef.binary main_call4.v5 main_call4.v5 main_call4.v6 mulf,
    TRef.unary (.of main_c_22 : TRef sig ⟨S_, .i32⟩) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4_call0.v0 id,
    TRef.unary main_call4_call0.v0 main_call4_call0.v1 (broadcastInDim S128 ![] bcast_S_S128),
    TRef.ternary main_call4.v12 main_call4.v11 main_call4_call0.v1 main_call4_call0.v2 (fun p a b => select (broadcastInDim S128 ![] bcast_S_S128 p) a b),
    TRef.unary (.of main_v112 : TRef sig ⟨S128, .f32⟩) (.of main_v114 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v114 : TRef sig ⟨S1x128, .f32⟩) (.of main_v115 : TRef sig ⟨S50000x128, .f32⟩) (broadcastInDim S50000x128 ![0, 1] bcast_S1x128_S50000x128_0_1 : (⟨S1x128, .f32⟩ : BufTy).Contents (Elt F) → (⟨S50000x128, .f32⟩ : BufTy).Contents (Elt F)),
    TRef.binary (.of main_v105 : TRef sig ⟨S50000x128, .f32⟩) (.of main_v115 : TRef sig ⟨S50000x128, .f32⟩) (.of main_v116 : TRef sig ⟨S50000x128, .f32⟩) (subf : (⟨S50000x128, .f32⟩ : BufTy).Contents (Elt F) → (⟨S50000x128, .f32⟩ : BufTy).Contents (Elt F) → (⟨S50000x128, .f32⟩ : BufTy).Contents (Elt F)),
    TRef.nullary (.of main_cst_23 : TRef sig ⟨S_, .f32⟩) (constant S_ .f32 0x3727C5AC#32),
    TRef.unary (.of main_cst_23 : TRef sig ⟨S_, .f32⟩) (.of main_v117 : TRef sig ⟨S128, .f32⟩) (broadcastInDim S128 ![] bcast_S_S128 : (⟨S_, .f32⟩ : BufTy).Contents (Elt F) → (⟨S128, .f32⟩ : BufTy).Contents (Elt F)),
    TRef.binary (.of main_v113 : TRef sig ⟨S128, .f32⟩) (.of main_v117 : TRef sig ⟨S128, .f32⟩) (.of main_v118 : TRef sig ⟨S128, .f32⟩) (addf : (⟨S128, .f32⟩ : BufTy).Contents (Elt F) → (⟨S128, .f32⟩ : BufTy).Contents (Elt F) → (⟨S128, .f32⟩ : BufTy).Contents (Elt F)),
    TRef.unary (.of main_v118 : TRef sig ⟨S128, .f32⟩) (.of main_v119 : TRef sig ⟨S128, .f32⟩) (Host.sqrt : (⟨S128, .f32⟩ : BufTy).Contents (Elt F) → (⟨S128, .f32⟩ : BufTy).Contents (Elt F)),
    TRef.binary (.of main_v107 : TRef sig ⟨S128, .f32⟩) (.of main_v119 : TRef sig ⟨S128, .f32⟩) (.of main_v120 : TRef sig ⟨S128, .f32⟩) (Host.divf : (⟨S128, .f32⟩ : BufTy).Contents (Elt F) → (⟨S128, .f32⟩ : BufTy).Contents (Elt F) → (⟨S128, .f32⟩ : BufTy).Contents (Elt F)),
    TRef.unary (.of main_v120 : TRef sig ⟨S128, .f32⟩) (.of main_v121 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v121 : TRef sig ⟨S1x128, .f32⟩) (.of main_v122 : TRef sig ⟨S50000x128, .f32⟩) (broadcastInDim S50000x128 ![0, 1] bcast_S1x128_S50000x128_0_1 : (⟨S1x128, .f32⟩ : BufTy).Contents (Elt F) → (⟨S50000x128, .f32⟩ : BufTy).Contents (Elt F)),
    TRef.binary (.of main_v116 : TRef sig ⟨S50000x128, .f32⟩) (.of main_v122 : TRef sig ⟨S50000x128, .f32⟩) (.of main_v123 : TRef sig ⟨S50000x128, .f32⟩) (mulf : (⟨S50000x128, .f32⟩ : BufTy).Contents (Elt F) → (⟨S50000x128, .f32⟩ : BufTy).Contents (Elt F) → (⟨S50000x128, .f32⟩ : BufTy).Contents (Elt F)),
    TRef.unary (.of main_v109 : TRef sig ⟨S128, .f32⟩) (.of main_v124 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v124 : TRef sig ⟨S1x128, .f32⟩) (.of main_v125 : TRef sig ⟨S50000x128, .f32⟩) (broadcastInDim S50000x128 ![0, 1] bcast_S1x128_S50000x128_0_1 : (⟨S1x128, .f32⟩ : BufTy).Contents (Elt F) → (⟨S50000x128, .f32⟩ : BufTy).Contents (Elt F)),
    TRef.binary (.of main_v123 : TRef sig ⟨S50000x128, .f32⟩) (.of main_v125 : TRef sig ⟨S50000x128, .f32⟩) (.of main_v126 : TRef sig ⟨S50000x128, .f32⟩) (addf : (⟨S50000x128, .f32⟩ : BufTy).Contents (Elt F) → (⟨S50000x128, .f32⟩ : BufTy).Contents (Elt F) → (⟨S50000x128, .f32⟩ : BufTy).Contents (Elt F)),
    TRef.nullary main_call5.cst (constant S_ .f32 0x00000000#32),
    TRef.unary main_call5.cst main_call5.v0 (broadcastInDim S50000x128 ![] bcast_S_S50000x128),
    TRef.binary (.of main_v126 : TRef sig ⟨S50000x128, .f32⟩) main_call5.v0 (.of main_v127 : TRef sig (main_v127 : Ref sig .tc).ty) maximumf ]

/-- Operations 225 … 250 of 439. -/
abbrev piece6 : List (HloOp τ sig (Elt F)) :=
  [ TRef.unary (.of main_arg4 : TRef sig (main_arg4 : Ref sig .tc).ty) (.of main_v128 : TRef sig ⟨S1x128x128, .f32⟩) ((extractStridedSlice S1x128x128 ![2, 0, 0] · slices_S4x128x128_S1x128x128_2_0_0) : (⟨S4x128x128, .f32⟩ : BufTy).Contents (Elt F) → (⟨S1x128x128, .f32⟩ : BufTy).Contents (Elt F)),
    TRef.reshape (.of main_v128 : TRef sig ⟨S1x128x128, .f32⟩) (.of main_v129 : TRef sig ⟨S128x128, .f32⟩) rfl shapeCasts_S1x128x128_S128x128,
    TRef.binary (.of main_v127 : TRef sig (main_v127 : Ref sig .tc).ty) (.of main_v129 : TRef sig ⟨S128x128, .f32⟩) (.of main_v130 : TRef sig ⟨S50000x128, .f32⟩) ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.nullary (.of main_c_24 : TRef sig ⟨S_, .i32⟩) (constantI S_ 32 0#32),
    TRef.unary (.of main_c_24 : TRef sig ⟨S_, .i32⟩) (.of main_v131 : TRef sig ⟨S850000, .i32⟩) (broadcastInDim S850000 ![] bcast_S_S850000 : (⟨S_, .i32⟩ : BufTy).Contents (Elt F) → (⟨S850000, .i32⟩ : BufTy).Contents (Elt F)),
    TRef.binary (.of main_v13 : TRef sig (main_v13 : Ref sig .tc).ty) (.of main_v131 : TRef sig ⟨S850000, .i32⟩) (.of main_v132 : TRef sig ⟨S850000, .i1⟩) (cmpi .slt : (⟨S850000, .i32⟩ : BufTy).Contents (Elt F) → (⟨S850000, .i32⟩ : BufTy).Contents (Elt F) → (⟨S850000, .i1⟩ : BufTy).Contents (Elt F)),
    TRef.nullary (.of main_c_25 : TRef sig ⟨S_, .i32⟩) (constantI S_ 32 50000#32),
    TRef.unary (.of main_c_25 : TRef sig ⟨S_, .i32⟩) (.of main_v133 : TRef sig ⟨S850000, .i32⟩) (broadcastInDim S850000 ![] bcast_S_S850000 : (⟨S_, .i32⟩ : BufTy).Contents (Elt F) → (⟨S850000, .i32⟩ : BufTy).Contents (Elt F)),
    TRef.binary (.of main_v13 : TRef sig (main_v13 : Ref sig .tc).ty) (.of main_v133 : TRef sig ⟨S850000, .i32⟩) (.of main_v134 : TRef sig ⟨S850000, .i32⟩) (addi : (⟨S850000, .i32⟩ : BufTy).Contents (Elt F) → (⟨S850000, .i32⟩ : BufTy).Contents (Elt F) → (⟨S850000, .i32⟩ : BufTy).Contents (Elt F)),
    TRef.ternary (.of main_v132 : TRef sig ⟨S850000, .i1⟩) (.of main_v134 : TRef sig ⟨S850000, .i32⟩) (.of main_v13 : TRef sig (main_v13 : Ref sig .tc).ty) (.of main_v135 : TRef sig ⟨S850000, .i32⟩) (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    TRef.unary (.of main_v135 : TRef sig ⟨S850000, .i32⟩) (.of main_v136 : TRef sig ⟨S850000x1, .i32⟩) (broadcastInDim S850000x1 ![0] bcast_S850000_S850000x1_0 : (⟨S850000, .i32⟩ : BufTy).Contents (Elt F) → (⟨S850000x1, .i32⟩ : BufTy).Contents (Elt F)),
    TRef.binary (.of main_v130 : TRef sig ⟨S50000x128, .f32⟩) (.of main_v136 : TRef sig ⟨S850000x1, .i32⟩) (.of main_v137 : TRef sig ⟨S850000x128, .f32⟩) ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    TRef.unary (.of main_v41 : TRef sig (main_v41 : Ref sig .tc).ty) (.of main_v138 : TRef sig ⟨S850000x1, .f32⟩) (broadcastInDim S850000x1 ![0] bcast_S850000_S850000x1_0 : (⟨S850000, .f32⟩ : BufTy).Contents (Elt F) → (⟨S850000x1, .f32⟩ : BufTy).Contents (Elt F)),
    TRef.unary (.of main_v138 : TRef sig ⟨S850000x1, .f32⟩) (.of main_v139 : TRef sig ⟨S850000x128, .f32⟩) (broadcastInDim S850000x128 ![0, 1] bcast_S850000x1_S850000x128_0_1 : (⟨S850000x1, .f32⟩ : BufTy).Contents (Elt F) → (⟨S850000x128, .f32⟩ : BufTy).Contents (Elt F)),
    TRef.binary (.of main_v137 : TRef sig ⟨S850000x128, .f32⟩) (.of main_v139 : TRef sig ⟨S850000x128, .f32⟩) (.of main_v140 : TRef sig ⟨S850000x128, .f32⟩) (mulf : (⟨S850000x128, .f32⟩ : BufTy).Contents (Elt F) → (⟨S850000x128, .f32⟩ : BufTy).Contents (Elt F) → (⟨S850000x128, .f32⟩ : BufTy).Contents (Elt F)),
    TRef.nullary (.of main_cst_26 : TRef sig ⟨S_, .f32⟩) (constant S_ .f32 0x00000000#32),
    TRef.unary (.of main_cst_26 : TRef sig ⟨S_, .f32⟩) (.of main_v141 : TRef sig ⟨S50000x128, .f32⟩) (broadcastInDim S50000x128 ![] bcast_S_S50000x128 : (⟨S_, .f32⟩ : BufTy).Contents (Elt F) → (⟨S50000x128, .f32⟩ : BufTy).Contents (Elt F)),
    TRef.unary (.of main_v16 : TRef sig (main_v16 : Ref sig .tc).ty) (.of main_v142 : TRef sig ⟨S850000x1, .i32⟩) (broadcastInDim S850000x1 ![0] bcast_S850000_S850000x1_0 : (⟨S850000, .i32⟩ : BufTy).Contents (Elt F) → (⟨S850000x1, .i32⟩ : BufTy).Contents (Elt F)),
    TRef.ternary (.of main_v141 : TRef sig ⟨S50000x128, .f32⟩) (.of main_v142 : TRef sig ⟨S850000x1, .i32⟩) (.of main_v140 : TRef sig ⟨S850000x128, .f32⟩) (.of main_v143 : TRef sig ⟨S50000x128, .f32⟩) ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    TRef.unary (.of main_arg5 : TRef sig (main_arg5 : Ref sig .tc).ty) (.of main_v144 : TRef sig ⟨S1x128, .f32⟩) ((extractStridedSlice S1x128 ![2, 0] · slices_S4x128_S1x128_2_0) : (⟨S4x128, .f32⟩ : BufTy).Contents (Elt F) → (⟨S1x128, .f32⟩ : BufTy).Contents (Elt F)),
    TRef.reshape (.of main_v144 : TRef sig ⟨S1x128, .f32⟩) (.of main_v145 : TRef sig ⟨S128, .f32⟩) rfl shapeCasts_S1x128_S128,
    TRef.unary (.of main_v145 : TRef sig ⟨S128, .f32⟩) (.of main_v146 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v146 : TRef sig ⟨S1x128, .f32⟩) (.of main_v147 : TRef sig ⟨S50000x128, .f32⟩) (broadcastInDim S50000x128 ![0, 1] bcast_S1x128_S50000x128_0_1 : (⟨S1x128, .f32⟩ : BufTy).Contents (Elt F) → (⟨S50000x128, .f32⟩ : BufTy).Contents (Elt F)),
    TRef.binary (.of main_v143 : TRef sig ⟨S50000x128, .f32⟩) (.of main_v147 : TRef sig ⟨S50000x128, .f32⟩) (.of main_v148 : TRef sig ⟨S50000x128, .f32⟩) (addf : (⟨S50000x128, .f32⟩ : BufTy).Contents (Elt F) → (⟨S50000x128, .f32⟩ : BufTy).Contents (Elt F) → (⟨S50000x128, .f32⟩ : BufTy).Contents (Elt F)),
    TRef.unary (.of main_arg6 : TRef sig (main_arg6 : Ref sig .tc).ty) (.of main_v149 : TRef sig ⟨S1x128, .f32⟩) ((extractStridedSlice S1x128 ![2, 0] · slices_S4x128_S1x128_2_0) : (⟨S4x128, .f32⟩ : BufTy).Contents (Elt F) → (⟨S1x128, .f32⟩ : BufTy).Contents (Elt F)),
    TRef.reshape (.of main_v149 : TRef sig ⟨S1x128, .f32⟩) (.of main_v150 : TRef sig ⟨S128, .f32⟩) rfl shapeCasts_S1x128_S128 ]

/-- Operations 251 … 297 of 439. -/
abbrev piece7 : List (HloOp τ sig (Elt F)) :=
  [ TRef.unary (.of main_arg7 : TRef sig (main_arg7 : Ref sig .tc).ty) (.of main_v151 : TRef sig ⟨S1x128, .f32⟩) ((extractStridedSlice S1x128 ![2, 0] · slices_S4x128_S1x128_2_0) : (⟨S4x128, .f32⟩ : BufTy).Contents (Elt F) → (⟨S1x128, .f32⟩ : BufTy).Contents (Elt F)),
    TRef.reshape (.of main_v151 : TRef sig ⟨S1x128, .f32⟩) (.of main_v152 : TRef sig ⟨S128, .f32⟩) rfl shapeCasts_S1x128_S128,
    TRef.nullary (.of main_cst_27 : TRef sig ⟨S_, .f32⟩) (constant S_ .f32 0x00000000#32),
    TRef.binary (.of main_v148 : TRef sig ⟨S50000x128, .f32⟩) (.of main_cst_27 : TRef sig ⟨S_, .f32⟩) (.of main_v153 : TRef sig ⟨S128, .f32⟩) ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    TRef.nullary (.of main_cst_28 : TRef sig ⟨S_, .f32⟩) (constant S_ .f32 0x47435000#32),
    TRef.unary (.of main_cst_28 : TRef sig ⟨S_, .f32⟩) (.of main_v154 : TRef sig ⟨S128, .f32⟩) (broadcastInDim S128 ![] bcast_S_S128 : (⟨S_, .f32⟩ : BufTy).Contents (Elt F) → (⟨S128, .f32⟩ : BufTy).Contents (Elt F)),
    TRef.binary (.of main_v153 : TRef sig ⟨S128, .f32⟩) (.of main_v154 : TRef sig ⟨S128, .f32⟩) (.of main_v155 : TRef sig ⟨S128, .f32⟩) (Host.divf : (⟨S128, .f32⟩ : BufTy).Contents (Elt F) → (⟨S128, .f32⟩ : BufTy).Contents (Elt F) → (⟨S128, .f32⟩ : BufTy).Contents (Elt F)),
    TRef.nullary (.of main_c_29 : TRef sig ⟨S_, .i32⟩) (constantI S_ 32 0#32),
    TRef.nullary main_call6.cst (constant S_ .f32 0x00000000#32),
    TRef.binary (.of main_v148 : TRef sig ⟨S50000x128, .f32⟩) main_call6.cst main_call6.v0 (fun x v => Host.reduceAdd x v reducesTo_S50000x128_S128_d0 h_S_),
    TRef.unary main_call6.v0 main_call6.v1 (broadcastInDim S1x128 ![1] bcast_S128_S1x128_1),
    TRef.nullary main_call6.cst_0 (constant S_ .f32 0x47435000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S50000x128 ![0, 1] bcast_S1x128_S50000x128_0_1),
    TRef.binary (.of main_v148 : TRef sig ⟨S50000x128, .f32⟩) main_call6.v4 main_call6.v5 subf,
    TRef.binary main_call6.v5 main_call6.v5 main_call6.v6 mulf,
    TRef.unary (.of main_c_29 : TRef sig ⟨S_, .i32⟩) main_call6.v7 (sitofp .f32),
    TRef.nullary main_call6.cst_1 (constant S_ .f32 0x47435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S50000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6_call0.v0 id,
    TRef.unary main_call6_call0.v0 main_call6_call0.v1 (broadcastInDim S128 ![] bcast_S_S128),
    TRef.ternary main_call6.v12 main_call6.v11 main_call6_call0.v1 main_call6_call0.v2 (fun p a b => select (broadcastInDim S128 ![] bcast_S_S128 p) a b),
    TRef.unary (.of main_v155 : TRef sig ⟨S128, .f32⟩) (.of main_v157 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v157 : TRef sig ⟨S1x128, .f32⟩) (.of main_v158 : TRef sig ⟨S50000x128, .f32⟩) (broadcastInDim S50000x128 ![0, 1] bcast_S1x128_S50000x128_0_1 : (⟨S1x128, .f32⟩ : BufTy).Contents (Elt F) → (⟨S50000x128, .f32⟩ : BufTy).Contents (Elt F)),
    TRef.binary (.of main_v148 : TRef sig ⟨S50000x128, .f32⟩) (.of main_v158 : TRef sig ⟨S50000x128, .f32⟩) (.of main_v159 : TRef sig ⟨S50000x128, .f32⟩) (subf : (⟨S50000x128, .f32⟩ : BufTy).Contents (Elt F) → (⟨S50000x128, .f32⟩ : BufTy).Contents (Elt F) → (⟨S50000x128, .f32⟩ : BufTy).Contents (Elt F)),
    TRef.nullary (.of main_cst_30 : TRef sig ⟨S_, .f32⟩) (constant S_ .f32 0x3727C5AC#32),
    TRef.unary (.of main_cst_30 : TRef sig ⟨S_, .f32⟩) (.of main_v160 : TRef sig ⟨S128, .f32⟩) (broadcastInDim S128 ![] bcast_S_S128 : (⟨S_, .f32⟩ : BufTy).Contents (Elt F) → (⟨S128, .f32⟩ : BufTy).Contents (Elt F)),
    TRef.binary (.of main_v156 : TRef sig ⟨S128, .f32⟩) (.of main_v160 : TRef sig ⟨S128, .f32⟩) (.of main_v161 : TRef sig ⟨S128, .f32⟩) (addf : (⟨S128, .f32⟩ : BufTy).Contents (Elt F) → (⟨S128, .f32⟩ : BufTy).Contents (Elt F) → (⟨S128, .f32⟩ : BufTy).Contents (Elt F)),
    TRef.unary (.of main_v161 : TRef sig ⟨S128, .f32⟩) (.of main_v162 : TRef sig ⟨S128, .f32⟩) (Host.sqrt : (⟨S128, .f32⟩ : BufTy).Contents (Elt F) → (⟨S128, .f32⟩ : BufTy).Contents (Elt F)),
    TRef.binary (.of main_v150 : TRef sig ⟨S128, .f32⟩) (.of main_v162 : TRef sig ⟨S128, .f32⟩) (.of main_v163 : TRef sig ⟨S128, .f32⟩) (Host.divf : (⟨S128, .f32⟩ : BufTy).Contents (Elt F) → (⟨S128, .f32⟩ : BufTy).Contents (Elt F) → (⟨S128, .f32⟩ : BufTy).Contents (Elt F)),
    TRef.unary (.of main_v163 : TRef sig ⟨S128, .f32⟩) (.of main_v164 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v164 : TRef sig ⟨S1x128, .f32⟩) (.of main_v165 : TRef sig ⟨S50000x128, .f32⟩) (broadcastInDim S50000x128 ![0, 1] bcast_S1x128_S50000x128_0_1 : (⟨S1x128, .f32⟩ : BufTy).Contents (Elt F) → (⟨S50000x128, .f32⟩ : BufTy).Contents (Elt F)),
    TRef.binary (.of main_v159 : TRef sig ⟨S50000x128, .f32⟩) (.of main_v165 : TRef sig ⟨S50000x128, .f32⟩) (.of main_v166 : TRef sig ⟨S50000x128, .f32⟩) (mulf : (⟨S50000x128, .f32⟩ : BufTy).Contents (Elt F) → (⟨S50000x128, .f32⟩ : BufTy).Contents (Elt F) → (⟨S50000x128, .f32⟩ : BufTy).Contents (Elt F)),
    TRef.unary (.of main_v152 : TRef sig ⟨S128, .f32⟩) (.of main_v167 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v167 : TRef sig ⟨S1x128, .f32⟩) (.of main_v168 : TRef sig ⟨S50000x128, .f32⟩) (broadcastInDim S50000x128 ![0, 1] bcast_S1x128_S50000x128_0_1 : (⟨S1x128, .f32⟩ : BufTy).Contents (Elt F) → (⟨S50000x128, .f32⟩ : BufTy).Contents (Elt F)),
    TRef.binary (.of main_v166 : TRef sig ⟨S50000x128, .f32⟩) (.of main_v168 : TRef sig ⟨S50000x128, .f32⟩) (.of main_v169 : TRef sig ⟨S50000x128, .f32⟩) (addf : (⟨S50000x128, .f32⟩ : BufTy).Contents (Elt F) → (⟨S50000x128, .f32⟩ : BufTy).Contents (Elt F) → (⟨S50000x128, .f32⟩ : BufTy).Contents (Elt F)),
    TRef.nullary main_call7.cst (constant S_ .f32 0x00000000#32),
    TRef.unary main_call7.cst main_call7.v0 (broadcastInDim S50000x128 ![] bcast_S_S50000x128),
    TRef.binary (.of main_v169 : TRef sig ⟨S50000x128, .f32⟩) main_call7.v0 (.of main_v170 : TRef sig (main_v170 : Ref sig .tc).ty) maximumf ]

/-- Operations 298 … 354 of 439. -/
abbrev piece8 : List (HloOp τ sig (Elt F)) :=
  [ TRef.unary (.of main_arg4 : TRef sig (main_arg4 : Ref sig .tc).ty) (.of main_v171 : TRef sig ⟨S1x128x128, .f32⟩) ((extractStridedSlice S1x128x128 ![3, 0, 0] · slices_S4x128x128_S1x128x128_3_0_0) : (⟨S4x128x128, .f32⟩ : BufTy).Contents (Elt F) → (⟨S1x128x128, .f32⟩ : BufTy).Contents (Elt F)),
    TRef.reshape (.of main_v171 : TRef sig ⟨S1x128x128, .f32⟩) (.of main_v172 : TRef sig ⟨S128x128, .f32⟩) rfl shapeCasts_S1x128x128_S128x128,
    TRef.binary (.of main_v170 : TRef sig (main_v170 : Ref sig .tc).ty) (.of main_v172 : TRef sig ⟨S128x128, .f32⟩) (.of main_v173 : TRef sig ⟨S50000x128, .f32⟩) ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.nullary (.of main_c_31 : TRef sig ⟨S_, .i32⟩) (constantI S_ 32 0#32),
    TRef.unary (.of main_c_31 : TRef sig ⟨S_, .i32⟩) (.of main_v174 : TRef sig ⟨S850000, .i32⟩) (broadcastInDim S850000 ![] bcast_S_S850000 : (⟨S_, .i32⟩ : BufTy).Contents (Elt F) → (⟨S850000, .i32⟩ : BufTy).Contents (Elt F)),
    TRef.binary (.of main_v13 : TRef sig (main_v13 : Ref sig .tc).ty) (.of main_v174 : TRef sig ⟨S850000, .i32⟩) (.of main_v175 : TRef sig ⟨S850000, .i1⟩) (cmpi .slt : (⟨S850000, .i32⟩ : BufTy).Contents (Elt F) → (⟨S850000, .i32⟩ : BufTy).Contents (Elt F) → (⟨S850000, .i1⟩ : BufTy).Contents (Elt F)),
    TRef.nullary (.of main_c_32 : TRef sig ⟨S_, .i32⟩) (constantI S_ 32 50000#32),
    TRef.unary (.of main_c_32 : TRef sig ⟨S_, .i32⟩) (.of main_v176 : TRef sig ⟨S850000, .i32⟩) (broadcastInDim S850000 ![] bcast_S_S850000 : (⟨S_, .i32⟩ : BufTy).Contents (Elt F) → (⟨S850000, .i32⟩ : BufTy).Contents (Elt F)),
    TRef.binary (.of main_v13 : TRef sig (main_v13 : Ref sig .tc).ty) (.of main_v176 : TRef sig ⟨S850000, .i32⟩) (.of main_v177 : TRef sig ⟨S850000, .i32⟩) (addi : (⟨S850000, .i32⟩ : BufTy).Contents (Elt F) → (⟨S850000, .i32⟩ : BufTy).Contents (Elt F) → (⟨S850000, .i32⟩ : BufTy).Contents (Elt F)),
    TRef.ternary (.of main_v175 : TRef sig ⟨S850000, .i1⟩) (.of main_v177 : TRef sig ⟨S850000, .i32⟩) (.of main_v13 : TRef sig (main_v13 : Ref sig .tc).ty) (.of main_v178 : TRef sig ⟨S850000, .i32⟩) (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    TRef.unary (.of main_v178 : TRef sig ⟨S850000, .i32⟩) (.of main_v179 : TRef sig ⟨S850000x1, .i32⟩) (broadcastInDim S850000x1 ![0] bcast_S850000_S850000x1_0 : (⟨S850000, .i32⟩ : BufTy).Contents (Elt F) → (⟨S850000x1, .i32⟩ : BufTy).Contents (Elt F)),
    TRef.binary (.of main_v173 : TRef sig ⟨S50000x128, .f32⟩) (.of main_v179 : TRef sig ⟨S850000x1, .i32⟩) (.of main_v180 : TRef sig ⟨S850000x128, .f32⟩) ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    TRef.unary (.of main_v41 : TRef sig (main_v41 : Ref sig .tc).ty) (.of main_v181 : TRef sig ⟨S850000x1, .f32⟩) (broadcastInDim S850000x1 ![0] bcast_S850000_S850000x1_0 : (⟨S850000, .f32⟩ : BufTy).Contents (Elt F) → (⟨S850000x1, .f32⟩ : BufTy).Contents (Elt F)),
    TRef.unary (.of main_v181 : TRef sig ⟨S850000x1, .f32⟩) (.of main_v182 : TRef sig ⟨S850000x128, .f32⟩) (broadcastInDim S850000x128 ![0, 1] bcast_S850000x1_S850000x128_0_1 : (⟨S850000x1, .f32⟩ : BufTy).Contents (Elt F) → (⟨S850000x128, .f32⟩ : BufTy).Contents (Elt F)),
    TRef.binary (.of main_v180 : TRef sig ⟨S850000x128, .f32⟩) (.of main_v182 : TRef sig ⟨S850000x128, .f32⟩) (.of main_v183 : TRef sig ⟨S850000x128, .f32⟩) (mulf : (⟨S850000x128, .f32⟩ : BufTy).Contents (Elt F) → (⟨S850000x128, .f32⟩ : BufTy).Contents (Elt F) → (⟨S850000x128, .f32⟩ : BufTy).Contents (Elt F)),
    TRef.nullary (.of main_cst_33 : TRef sig ⟨S_, .f32⟩) (constant S_ .f32 0x00000000#32),
    TRef.unary (.of main_cst_33 : TRef sig ⟨S_, .f32⟩) (.of main_v184 : TRef sig ⟨S50000x128, .f32⟩) (broadcastInDim S50000x128 ![] bcast_S_S50000x128 : (⟨S_, .f32⟩ : BufTy).Contents (Elt F) → (⟨S50000x128, .f32⟩ : BufTy).Contents (Elt F)),
    TRef.unary (.of main_v16 : TRef sig (main_v16 : Ref sig .tc).ty) (.of main_v185 : TRef sig ⟨S850000x1, .i32⟩) (broadcastInDim S850000x1 ![0] bcast_S850000_S850000x1_0 : (⟨S850000, .i32⟩ : BufTy).Contents (Elt F) → (⟨S850000x1, .i32⟩ : BufTy).Contents (Elt F)),
    TRef.ternary (.of main_v184 : TRef sig ⟨S50000x128, .f32⟩) (.of main_v185 : TRef sig ⟨S850000x1, .i32⟩) (.of main_v183 : TRef sig ⟨S850000x128, .f32⟩) (.of main_v186 : TRef sig ⟨S50000x128, .f32⟩) ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    TRef.unary (.of main_arg5 : TRef sig (main_arg5 : Ref sig .tc).ty) (.of main_v187 : TRef sig ⟨S1x128, .f32⟩) ((extractStridedSlice S1x128 ![3, 0] · slices_S4x128_S1x128_3_0) : (⟨S4x128, .f32⟩ : BufTy).Contents (Elt F) → (⟨S1x128, .f32⟩ : BufTy).Contents (Elt F)),
    TRef.reshape (.of main_v187 : TRef sig ⟨S1x128, .f32⟩) (.of main_v188 : TRef sig ⟨S128, .f32⟩) rfl shapeCasts_S1x128_S128,
    TRef.unary (.of main_v188 : TRef sig ⟨S128, .f32⟩) (.of main_v189 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v189 : TRef sig ⟨S1x128, .f32⟩) (.of main_v190 : TRef sig ⟨S50000x128, .f32⟩) (broadcastInDim S50000x128 ![0, 1] bcast_S1x128_S50000x128_0_1 : (⟨S1x128, .f32⟩ : BufTy).Contents (Elt F) → (⟨S50000x128, .f32⟩ : BufTy).Contents (Elt F)),
    TRef.binary (.of main_v186 : TRef sig ⟨S50000x128, .f32⟩) (.of main_v190 : TRef sig ⟨S50000x128, .f32⟩) (.of main_v191 : TRef sig ⟨S50000x128, .f32⟩) (addf : (⟨S50000x128, .f32⟩ : BufTy).Contents (Elt F) → (⟨S50000x128, .f32⟩ : BufTy).Contents (Elt F) → (⟨S50000x128, .f32⟩ : BufTy).Contents (Elt F)),
    TRef.unary (.of main_arg6 : TRef sig (main_arg6 : Ref sig .tc).ty) (.of main_v192 : TRef sig ⟨S1x128, .f32⟩) ((extractStridedSlice S1x128 ![3, 0] · slices_S4x128_S1x128_3_0) : (⟨S4x128, .f32⟩ : BufTy).Contents (Elt F) → (⟨S1x128, .f32⟩ : BufTy).Contents (Elt F)),
    TRef.reshape (.of main_v192 : TRef sig ⟨S1x128, .f32⟩) (.of main_v193 : TRef sig ⟨S128, .f32⟩) rfl shapeCasts_S1x128_S128,
    TRef.unary (.of main_arg7 : TRef sig (main_arg7 : Ref sig .tc).ty) (.of main_v194 : TRef sig ⟨S1x128, .f32⟩) ((extractStridedSlice S1x128 ![3, 0] · slices_S4x128_S1x128_3_0) : (⟨S4x128, .f32⟩ : BufTy).Contents (Elt F) → (⟨S1x128, .f32⟩ : BufTy).Contents (Elt F)),
    TRef.reshape (.of main_v194 : TRef sig ⟨S1x128, .f32⟩) (.of main_v195 : TRef sig ⟨S128, .f32⟩) rfl shapeCasts_S1x128_S128,
    TRef.nullary (.of main_cst_34 : TRef sig ⟨S_, .f32⟩) (constant S_ .f32 0x00000000#32),
    TRef.binary (.of main_v191 : TRef sig ⟨S50000x128, .f32⟩) (.of main_cst_34 : TRef sig ⟨S_, .f32⟩) (.of main_v196 : TRef sig ⟨S128, .f32⟩) ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    TRef.nullary (.of main_cst_35 : TRef sig ⟨S_, .f32⟩) (constant S_ .f32 0x47435000#32),
    TRef.unary (.of main_cst_35 : TRef sig ⟨S_, .f32⟩) (.of main_v197 : TRef sig ⟨S128, .f32⟩) (broadcastInDim S128 ![] bcast_S_S128 : (⟨S_, .f32⟩ : BufTy).Contents (Elt F) → (⟨S128, .f32⟩ : BufTy).Contents (Elt F)),
    TRef.binary (.of main_v196 : TRef sig ⟨S128, .f32⟩) (.of main_v197 : TRef sig ⟨S128, .f32⟩) (.of main_v198 : TRef sig ⟨S128, .f32⟩) (Host.divf : (⟨S128, .f32⟩ : BufTy).Contents (Elt F) → (⟨S128, .f32⟩ : BufTy).Contents (Elt F) → (⟨S128, .f32⟩ : BufTy).Contents (Elt F)),
    TRef.nullary (.of main_c_36 : TRef sig ⟨S_, .i32⟩) (constantI S_ 32 0#32),
    TRef.nullary main_call8.cst (constant S_ .f32 0x00000000#32),
    TRef.binary (.of main_v191 : TRef sig ⟨S50000x128, .f32⟩) main_call8.cst main_call8.v0 (fun x v => Host.reduceAdd x v reducesTo_S50000x128_S128_d0 h_S_),
    TRef.unary main_call8.v0 main_call8.v1 (broadcastInDim S1x128 ![1] bcast_S128_S1x128_1),
    TRef.nullary main_call8.cst_0 (constant S_ .f32 0x47435000#32),
    TRef.unary main_call8.cst_0 main_call8.v2 (broadcastInDim S1x128 ![] bcast_S_S1x128),
    TRef.binary main_call8.v1 main_call8.v2 main_call8.v3 Host.divf,
    TRef.unary main_call8.v3 main_call8.v4 (broadcastInDim S50000x128 ![0, 1] bcast_S1x128_S50000x128_0_1),
    TRef.binary (.of main_v191 : TRef sig ⟨S50000x128, .f32⟩) main_call8.v4 main_call8.v5 subf,
    TRef.binary main_call8.v5 main_call8.v5 main_call8.v6 mulf,
    TRef.unary (.of main_c_36 : TRef sig ⟨S_, .i32⟩) main_call8.v7 (sitofp .f32),
    TRef.nullary main_call8.cst_1 (constant S_ .f32 0x47435000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S50000x128_S128_d0 h_S_),
    TRef.unary main_call8.v8 main_call8.v10 (broadcastInDim S128 ![] bcast_S_S128),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8_call0.v0 id,
    TRef.unary main_call8_call0.v0 main_call8_call0.v1 (broadcastInDim S128 ![] bcast_S_S128),
    TRef.ternary main_call8.v12 main_call8.v11 main_call8_call0.v1 main_call8_call0.v2 (fun p a b => select (broadcastInDim S128 ![] bcast_S_S128 p) a b),
    TRef.unary (.of main_v198 : TRef sig ⟨S128, .f32⟩) (.of main_v200 : TRef sig ⟨S1x128, .f32⟩) (broadcastInDim S1x128 ![1] bcast_S128_S1x128_1 : (⟨S128, .f32⟩ : BufTy).Contents (Elt F) → (⟨S1x128, .f32⟩ : BufTy).Contents (Elt F)) ]

/-- Operations 355 … 370 of 439. -/
abbrev piece9 : List (HloOp τ sig (Elt F)) :=
  [ TRef.unary (.of main_v200 : TRef sig ⟨S1x128, .f32⟩) (.of main_v201 : TRef sig ⟨S50000x128, .f32⟩) (broadcastInDim S50000x128 ![0, 1] bcast_S1x128_S50000x128_0_1 : (⟨S1x128, .f32⟩ : BufTy).Contents (Elt F) → (⟨S50000x128, .f32⟩ : BufTy).Contents (Elt F)),
    TRef.binary (.of main_v191 : TRef sig ⟨S50000x128, .f32⟩) (.of main_v201 : TRef sig ⟨S50000x128, .f32⟩) (.of main_v202 : TRef sig ⟨S50000x128, .f32⟩) (subf : (⟨S50000x128, .f32⟩ : BufTy).Contents (Elt F) → (⟨S50000x128, .f32⟩ : BufTy).Contents (Elt F) → (⟨S50000x128, .f32⟩ : BufTy).Contents (Elt F)),
    TRef.nullary (.of main_cst_37 : TRef sig ⟨S_, .f32⟩) (constant S_ .f32 0x3727C5AC#32),
    TRef.unary (.of main_cst_37 : TRef sig ⟨S_, .f32⟩) (.of main_v203 : TRef sig ⟨S128, .f32⟩) (broadcastInDim S128 ![] bcast_S_S128 : (⟨S_, .f32⟩ : BufTy).Contents (Elt F) → (⟨S128, .f32⟩ : BufTy).Contents (Elt F)),
    TRef.binary (.of main_v199 : TRef sig ⟨S128, .f32⟩) (.of main_v203 : TRef sig ⟨S128, .f32⟩) (.of main_v204 : TRef sig ⟨S128, .f32⟩) (addf : (⟨S128, .f32⟩ : BufTy).Contents (Elt F) → (⟨S128, .f32⟩ : BufTy).Contents (Elt F) → (⟨S128, .f32⟩ : BufTy).Contents (Elt F)),
    TRef.unary (.of main_v204 : TRef sig ⟨S128, .f32⟩) (.of main_v205 : TRef sig ⟨S128, .f32⟩) (Host.sqrt : (⟨S128, .f32⟩ : BufTy).Contents (Elt F) → (⟨S128, .f32⟩ : BufTy).Contents (Elt F)),
    TRef.binary (.of main_v193 : TRef sig ⟨S128, .f32⟩) (.of main_v205 : TRef sig ⟨S128, .f32⟩) (.of main_v206 : TRef sig ⟨S128, .f32⟩) (Host.divf : (⟨S128, .f32⟩ : BufTy).Contents (Elt F) → (⟨S128, .f32⟩ : BufTy).Contents (Elt F) → (⟨S128, .f32⟩ : BufTy).Contents (Elt F)),
    TRef.unary (.of main_v206 : TRef sig ⟨S128, .f32⟩) (.of main_v207 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v207 : TRef sig ⟨S1x128, .f32⟩) (.of main_v208 : TRef sig ⟨S50000x128, .f32⟩) (broadcastInDim S50000x128 ![0, 1] bcast_S1x128_S50000x128_0_1 : (⟨S1x128, .f32⟩ : BufTy).Contents (Elt F) → (⟨S50000x128, .f32⟩ : BufTy).Contents (Elt F)),
    TRef.binary (.of main_v202 : TRef sig ⟨S50000x128, .f32⟩) (.of main_v208 : TRef sig ⟨S50000x128, .f32⟩) (.of main_v209 : TRef sig ⟨S50000x128, .f32⟩) (mulf : (⟨S50000x128, .f32⟩ : BufTy).Contents (Elt F) → (⟨S50000x128, .f32⟩ : BufTy).Contents (Elt F) → (⟨S50000x128, .f32⟩ : BufTy).Contents (Elt F)),
    TRef.unary (.of main_v195 : TRef sig ⟨S128, .f32⟩) (.of main_v210 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v210 : TRef sig ⟨S1x128, .f32⟩) (.of main_v211 : TRef sig ⟨S50000x128, .f32⟩) (broadcastInDim S50000x128 ![0, 1] bcast_S1x128_S50000x128_0_1 : (⟨S1x128, .f32⟩ : BufTy).Contents (Elt F) → (⟨S50000x128, .f32⟩ : BufTy).Contents (Elt F)),
    TRef.binary (.of main_v209 : TRef sig ⟨S50000x128, .f32⟩) (.of main_v211 : TRef sig ⟨S50000x128, .f32⟩) (.of main_v212 : TRef sig ⟨S50000x128, .f32⟩) (addf : (⟨S50000x128, .f32⟩ : BufTy).Contents (Elt F) → (⟨S50000x128, .f32⟩ : BufTy).Contents (Elt F) → (⟨S50000x128, .f32⟩ : BufTy).Contents (Elt F)),
    TRef.nullary main_call9.cst (constant S_ .f32 0x00000000#32),
    TRef.unary main_call9.cst main_call9.v0 (broadcastInDim S50000x128 ![] bcast_S_S50000x128),
    TRef.binary (.of main_v212 : TRef sig ⟨S50000x128, .f32⟩) main_call9.v0 (.of main_v213 : TRef sig (main_v213 : Ref sig .tc).ty) maximumf ]

/-- Operations 371 … 439 of 439. -/
abbrev piece10 : List (HloOp τ sig (Elt F)) :=
  [ TRef.nullary (.of main_cst_38 : TRef sig ⟨S_, .f32⟩) (constant S_ .f32 0x00000000#32),
    TRef.unary (.of main_cst_38 : TRef sig ⟨S_, .f32⟩) (.of main_v214 : TRef sig ⟨S512x128, .f32⟩) (broadcastInDim S512x128 ![] bcast_S_S512x128 : (⟨S_, .f32⟩ : BufTy).Contents (Elt F) → (⟨S512x128, .f32⟩ : BufTy).Contents (Elt F)),
    TRef.unary (.of main_arg2 : TRef sig (main_arg2 : Ref sig .tc).ty) (.of main_v215 : TRef sig ⟨S50000x1, .i32⟩) (broadcastInDim S50000x1 ![0] bcast_S50000_S50000x1_0 : (⟨S50000, .i32⟩ : BufTy).Contents (Elt F) → (⟨S50000x1, .i32⟩ : BufTy).Contents (Elt F)),
    TRef.ternary (.of main_v214 : TRef sig ⟨S512x128, .f32⟩) (.of main_v215 : TRef sig ⟨S50000x1, .i32⟩) (.of main_v213 : TRef sig (main_v213 : Ref sig .tc).ty) (.of main_v216 : TRef sig ⟨S512x128, .f32⟩) ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    TRef.nullary (.of main_cst_39 : TRef sig ⟨S_, .f32⟩) (constant S_ .f32 0x3F800000#32),
    TRef.unary (.of main_cst_39 : TRef sig ⟨S_, .f32⟩) (.of main_v217 : TRef sig ⟨S50000, .f32⟩) (broadcastInDim S50000 ![] bcast_S_S50000 : (⟨S_, .f32⟩ : BufTy).Contents (Elt F) → (⟨S50000, .f32⟩ : BufTy).Contents (Elt F)),
    TRef.nullary (.of main_cst_40 : TRef sig ⟨S_, .f32⟩) (constant S_ .f32 0x00000000#32),
    TRef.unary (.of main_cst_40 : TRef sig ⟨S_, .f32⟩) (.of main_v218 : TRef sig ⟨S512, .f32⟩) (broadcastInDim S512 ![] bcast_S_S512 : (⟨S_, .f32⟩ : BufTy).Contents (Elt F) → (⟨S512, .f32⟩ : BufTy).Contents (Elt F)),
    TRef.unary (.of main_arg2 : TRef sig (main_arg2 : Ref sig .tc).ty) (.of main_v219 : TRef sig ⟨S50000x1, .i32⟩) (broadcastInDim S50000x1 ![0] bcast_S50000_S50000x1_0 : (⟨S50000, .i32⟩ : BufTy).Contents (Elt F) → (⟨S50000x1, .i32⟩ : BufTy).Contents (Elt F)),
    TRef.ternary (.of main_v218 : TRef sig ⟨S512, .f32⟩) (.of main_v219 : TRef sig ⟨S50000x1, .i32⟩) (.of main_v217 : TRef sig ⟨S50000, .f32⟩) (.of main_v220 : TRef sig ⟨S512, .f32⟩) ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    TRef.nullary (.of main_cst_41 : TRef sig ⟨S_, .f32⟩) (constant S_ .f32 0x3F800000#32),
    TRef.unary (.of main_cst_41 : TRef sig ⟨S_, .f32⟩) (.of main_v221 : TRef sig ⟨S512, .f32⟩) (broadcastInDim S512 ![] bcast_S_S512 : (⟨S_, .f32⟩ : BufTy).Contents (Elt F) → (⟨S512, .f32⟩ : BufTy).Contents (Elt F)),
    TRef.binary (.of main_v220 : TRef sig ⟨S512, .f32⟩) (.of main_v221 : TRef sig ⟨S512, .f32⟩) (.of main_v222 : TRef sig ⟨S512, .f32⟩) (maximumf : (⟨S512, .f32⟩ : BufTy).Contents (Elt F) → (⟨S512, .f32⟩ : BufTy).Contents (Elt F) → (⟨S512, .f32⟩ : BufTy).Contents (Elt F)),
    TRef.unary (.of main_v222 : TRef sig ⟨S512, .f32⟩) (.of main_v223 : TRef sig ⟨S512x1, .f32⟩) (broadcastInDim S512x1 ![0] bcast_S512_S512x1_0 : (⟨S512, .f32⟩ : BufTy).Contents (Elt F) → (⟨S512x1, .f32⟩ : BufTy).Contents (Elt F)),
    TRef.unary (.of main_v223 : TRef sig ⟨S512x1, .f32⟩) (.of main_v224 : TRef sig ⟨S512x128, .f32⟩) (broadcastInDim S512x128 ![0, 1] bcast_S512x1_S512x128_0_1 : (⟨S512x1, .f32⟩ : BufTy).Contents (Elt F) → (⟨S512x128, .f32⟩ : BufTy).Contents (Elt F)),
    TRef.binary (.of main_v216 : TRef sig ⟨S512x128, .f32⟩) (.of main_v224 : TRef sig ⟨S512x128, .f32⟩) (.of main_v225 : TRef sig ⟨S512x128, .f32⟩) (Host.divf : (⟨S512x128, .f32⟩ : BufTy).Contents (Elt F) → (⟨S512x128, .f32⟩ : BufTy).Contents (Elt F) → (⟨S512x128, .f32⟩ : BufTy).Contents (Elt F)),
    TRef.nullary (.of main_cst_42 : TRef sig ⟨S_, .f32⟩) (constant S_ .f32 0x00000000#32),
    TRef.binary (.of main_v225 : TRef sig ⟨S512x128, .f32⟩) (.of main_cst_42 : TRef sig ⟨S_, .f32⟩) (.of main_v226 : TRef sig ⟨S128, .f32⟩) ((fun x v => Host.reduceAdd x v reducesTo_S512x128_S128_d0 h_S_) : (⟨S512x128, .f32⟩ : BufTy).Contents (Elt F) → (⟨S_, .f32⟩ : BufTy).Contents (Elt F) → (⟨S128, .f32⟩ : BufTy).Contents (Elt F)),
    TRef.nullary (.of main_cst_43 : TRef sig ⟨S_, .f32⟩) (constant S_ .f32 0x44000000#32),
    TRef.unary (.of main_cst_43 : TRef sig ⟨S_, .f32⟩) (.of main_v227 : TRef sig ⟨S128, .f32⟩) (broadcastInDim S128 ![] bcast_S_S128 : (⟨S_, .f32⟩ : BufTy).Contents (Elt F) → (⟨S128, .f32⟩ : BufTy).Contents (Elt F)),
    TRef.binary (.of main_v226 : TRef sig ⟨S128, .f32⟩) (.of main_v227 : TRef sig ⟨S128, .f32⟩) (.of main_v228 : TRef sig ⟨S128, .f32⟩) (Host.divf : (⟨S128, .f32⟩ : BufTy).Contents (Elt F) → (⟨S128, .f32⟩ : BufTy).Contents (Elt F) → (⟨S128, .f32⟩ : BufTy).Contents (Elt F)),
    TRef.nullary (.of main_c_44 : TRef sig ⟨S_, .i32⟩) (constantI S_ 32 0#32),
    TRef.nullary main_call10.cst (constant S_ .f32 0x00000000#32),
    TRef.binary (.of main_v225 : TRef sig ⟨S512x128, .f32⟩) main_call10.cst main_call10.v0 (fun x v => Host.reduceAdd x v reducesTo_S512x128_S128_d0 h_S_),
    TRef.unary main_call10.v0 main_call10.v1 (broadcastInDim S1x128 ![1] bcast_S128_S1x128_1),
    TRef.nullary main_call10.cst_0 (constant S_ .f32 0x44000000#32),
    TRef.unary main_call10.cst_0 main_call10.v2 (broadcastInDim S1x128 ![] bcast_S_S1x128),
    TRef.binary main_call10.v1 main_call10.v2 main_call10.v3 Host.divf,
    TRef.unary main_call10.v3 main_call10.v4 (broadcastInDim S512x128 ![0, 1] bcast_S1x128_S512x128_0_1),
    TRef.binary (.of main_v225 : TRef sig ⟨S512x128, .f32⟩) main_call10.v4 main_call10.v5 subf,
    TRef.binary main_call10.v5 main_call10.v5 main_call10.v6 mulf,
    TRef.unary (.of main_c_44 : TRef sig ⟨S_, .i32⟩) main_call10.v7 (sitofp .f32),
    TRef.nullary main_call10.cst_1 (constant S_ .f32 0x44000000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S512x128_S128_d0 h_S_),
    TRef.unary main_call10.v8 main_call10.v10 (broadcastInDim S128 ![] bcast_S_S128),
    TRef.binary main_call10.v9 main_call10.v10 main_call10.v11 Host.divf,
    TRef.nullary main_call10.cst_3 (constant S_ .f32 0x00000000#32),
    TRef.binary main_call10.v8 main_call10.cst_3 main_call10.v12 (cmpf .ogt),
    TRef.nullary main_call10.cst_4 (constant S_ .f32 0x7FC00000#32),
    TRef.unary main_call10.cst_4 main_call10_call0.v0 id,
    TRef.unary main_call10_call0.v0 main_call10_call0.v1 (broadcastInDim S128 ![] bcast_S_S128),
    TRef.ternary main_call10.v12 main_call10.v11 main_call10_call0.v1 main_call10_call0.v2 (fun p a b => select (broadcastInDim S128 ![] bcast_S_S128 p) a b),
    TRef.unary (.of main_v228 : TRef sig ⟨S128, .f32⟩) (.of main_v230 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v230 : TRef sig ⟨S1x128, .f32⟩) (.of main_v231 : TRef sig ⟨S512x128, .f32⟩) (broadcastInDim S512x128 ![0, 1] bcast_S1x128_S512x128_0_1 : (⟨S1x128, .f32⟩ : BufTy).Contents (Elt F) → (⟨S512x128, .f32⟩ : BufTy).Contents (Elt F)),
    TRef.binary (.of main_v225 : TRef sig ⟨S512x128, .f32⟩) (.of main_v231 : TRef sig ⟨S512x128, .f32⟩) (.of main_v232 : TRef sig ⟨S512x128, .f32⟩) (subf : (⟨S512x128, .f32⟩ : BufTy).Contents (Elt F) → (⟨S512x128, .f32⟩ : BufTy).Contents (Elt F) → (⟨S512x128, .f32⟩ : BufTy).Contents (Elt F)),
    TRef.nullary (.of main_cst_45 : TRef sig ⟨S_, .f32⟩) (constant S_ .f32 0x3727C5AC#32),
    TRef.unary (.of main_cst_45 : TRef sig ⟨S_, .f32⟩) (.of main_v233 : TRef sig ⟨S128, .f32⟩) (broadcastInDim S128 ![] bcast_S_S128 : (⟨S_, .f32⟩ : BufTy).Contents (Elt F) → (⟨S128, .f32⟩ : BufTy).Contents (Elt F)),
    TRef.binary (.of main_v229 : TRef sig ⟨S128, .f32⟩) (.of main_v233 : TRef sig ⟨S128, .f32⟩) (.of main_v234 : TRef sig ⟨S128, .f32⟩) (addf : (⟨S128, .f32⟩ : BufTy).Contents (Elt F) → (⟨S128, .f32⟩ : BufTy).Contents (Elt F) → (⟨S128, .f32⟩ : BufTy).Contents (Elt F)),
    TRef.unary (.of main_v234 : TRef sig ⟨S128, .f32⟩) (.of main_v235 : TRef sig ⟨S128, .f32⟩) (Host.sqrt : (⟨S128, .f32⟩ : BufTy).Contents (Elt F) → (⟨S128, .f32⟩ : BufTy).Contents (Elt F)),
    TRef.binary (.of main_arg8 : TRef sig (main_arg8 : Ref sig .tc).ty) (.of main_v235 : TRef sig ⟨S128, .f32⟩) (.of main_v236 : TRef sig ⟨S128, .f32⟩) (Host.divf : (⟨S128, .f32⟩ : BufTy).Contents (Elt F) → (⟨S128, .f32⟩ : BufTy).Contents (Elt F) → (⟨S128, .f32⟩ : BufTy).Contents (Elt F)),
    TRef.unary (.of main_v236 : TRef sig ⟨S128, .f32⟩) (.of main_v237 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v237 : TRef sig ⟨S1x128, .f32⟩) (.of main_v238 : TRef sig ⟨S512x128, .f32⟩) (broadcastInDim S512x128 ![0, 1] bcast_S1x128_S512x128_0_1 : (⟨S1x128, .f32⟩ : BufTy).Contents (Elt F) → (⟨S512x128, .f32⟩ : BufTy).Contents (Elt F)),
    TRef.binary (.of main_v232 : TRef sig ⟨S512x128, .f32⟩) (.of main_v238 : TRef sig ⟨S512x128, .f32⟩) (.of main_v239 : TRef sig ⟨S512x128, .f32⟩) (mulf : (⟨S512x128, .f32⟩ : BufTy).Contents (Elt F) → (⟨S512x128, .f32⟩ : BufTy).Contents (Elt F) → (⟨S512x128, .f32⟩ : BufTy).Contents (Elt F)),
    TRef.unary (.of main_arg9 : TRef sig (main_arg9 : Ref sig .tc).ty) (.of main_v240 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v240 : TRef sig ⟨S1x128, .f32⟩) (.of main_v241 : TRef sig ⟨S512x128, .f32⟩) (broadcastInDim S512x128 ![0, 1] bcast_S1x128_S512x128_0_1 : (⟨S1x128, .f32⟩ : BufTy).Contents (Elt F) → (⟨S512x128, .f32⟩ : BufTy).Contents (Elt F)),
    TRef.binary (.of main_v239 : TRef sig ⟨S512x128, .f32⟩) (.of main_v241 : TRef sig ⟨S512x128, .f32⟩) (.of main_v242 : TRef sig ⟨S512x128, .f32⟩) (addf : (⟨S512x128, .f32⟩ : BufTy).Contents (Elt F) → (⟨S512x128, .f32⟩ : BufTy).Contents (Elt F) → (⟨S512x128, .f32⟩ : BufTy).Contents (Elt F)),
    TRef.binary (.of main_v242 : TRef sig ⟨S512x128, .f32⟩) (.of main_arg10 : TRef sig (main_arg10 : Ref sig .tc).ty) (.of main_v243 : TRef sig ⟨S512x128, .f32⟩) ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    TRef.unary (.of main_arg11 : TRef sig (main_arg11 : Ref sig .tc).ty) (.of main_v244 : TRef sig ⟨S1x128, .f32⟩) (broadcastInDim S1x128 ![1] bcast_S128_S1x128_1 : (⟨S128, .f32⟩ : BufTy).Contents (Elt F) → (⟨S1x128, .f32⟩ : BufTy).Contents (Elt F)),
    TRef.unary (.of main_v244 : TRef sig ⟨S1x128, .f32⟩) (.of main_v245 : TRef sig ⟨S512x128, .f32⟩) (broadcastInDim S512x128 ![0, 1] bcast_S1x128_S512x128_0_1 : (⟨S1x128, .f32⟩ : BufTy).Contents (Elt F) → (⟨S512x128, .f32⟩ : BufTy).Contents (Elt F)),
    TRef.binary (.of main_v243 : TRef sig ⟨S512x128, .f32⟩) (.of main_v245 : TRef sig ⟨S512x128, .f32⟩) (.of main_v246 : TRef sig ⟨S512x128, .f32⟩) (addf : (⟨S512x128, .f32⟩ : BufTy).Contents (Elt F) → (⟨S512x128, .f32⟩ : BufTy).Contents (Elt F) → (⟨S512x128, .f32⟩ : BufTy).Contents (Elt F)),
    TRef.nullary main_call11.cst (constant S_ .f32 0x00000000#32),
    TRef.unary main_call11.cst main_call11.v0 (broadcastInDim S512x128 ![] bcast_S_S512x128),
    TRef.binary (.of main_v246 : TRef sig ⟨S512x128, .f32⟩) main_call11.v0 main_call11.v1 maximumf,
    TRef.binary (.of main_v247 : TRef sig ⟨S512x128, .f32⟩) (.of main_arg12 : TRef sig (main_arg12 : Ref sig .tc).ty) (.of main_v248 : TRef sig ⟨S512x1, .f32⟩) ((fun l r => Host.dotGeneral dot_S512x128_S128x1_S512x1_1_0_0_1_n_n none l r) : (⟨S512x128, .f32⟩ : BufTy).Contents (Elt F) → (⟨S128x1, .f32⟩ : BufTy).Contents (Elt F) → (⟨S512x1, .f32⟩ : BufTy).Contents (Elt F)),
    TRef.unary (.of main_arg13 : TRef sig (main_arg13 : Ref sig .tc).ty) (.of main_v249 : TRef sig ⟨S1x1, .f32⟩) (broadcastInDim S1x1 ![1] bcast_S1_S1x1_1 : (⟨S1, .f32⟩ : BufTy).Contents (Elt F) → (⟨S1x1, .f32⟩ : BufTy).Contents (Elt F)),
    TRef.unary (.of main_v249 : TRef sig ⟨S1x1, .f32⟩) (.of main_v250 : TRef sig ⟨S512x1, .f32⟩) (broadcastInDim S512x1 ![0, 1] bcast_S1x1_S512x1_0_1 : (⟨S1x1, .f32⟩ : BufTy).Contents (Elt F) → (⟨S512x1, .f32⟩ : BufTy).Contents (Elt F)),
    TRef.binary (.of main_v248 : TRef sig ⟨S512x1, .f32⟩) (.of main_v250 : TRef sig ⟨S512x1, .f32⟩) (.of main_v251 : TRef sig (main_v251 : Ref sig .tc).ty) (addf : (⟨S512x1, .f32⟩ : BufTy).Contents (Elt F) → (⟨S512x1, .f32⟩ : BufTy).Contents (Elt F) → (⟨S512x1, .f32⟩ : BufTy).Contents (Elt F)) ]

/-- The stage's operations. -/
abbrev ops_emb : List (HloOp τ sig (Elt F)) := piece0
/-- The buffers the stage writes. -/
abbrev W_emb : List (Ref sig .tc) := [main_v0, main_c, main_v1, main_v2, main_c_0, main_v3, main_v4, main_v5, main_v6, main_v7, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v8, main_cst, main_v9]

/-- The stage's operations. -/
abbrev ops_norm : List (HloOp τ sig (Elt F)) := piece1
/-- The buffers the stage writes. -/
abbrev W_norm : List (Ref sig .tc) := [main_v10, main_v11, main_v12, main_v13, main_v14, main_v15, main_v16, main_cst_1, main_v17, main_cst_2, main_v18, main_v19, main_v20, main_cst_3, main_v21, main_v22, main_cst_4, main_v23, main_v24, main_v25, main_cst_5, main_call1_v0, main_call1_v1, main_v26, main_c_6, main_v27, main_v28, main_c_7, main_v29, main_v30, main_v31, main_v32, main_v33, main_c_8, main_v34, main_v35, main_c_9, main_v36, main_v37, main_v38, main_v39, main_v40, main_v41]

/-- The stage's operations. -/
abbrev ops_l0 : List (HloOp τ sig (Elt F)) := piece2 ++ (piece3)
/-- The buffers the stage writes. -/
abbrev W_l0 : List (Ref sig .tc) := [main_v42, main_v43, main_v44, main_c_10, main_v45, main_v46, main_c_11, main_v47, main_v48, main_v49, main_v50, main_v51, main_v52, main_v53, main_v54, main_cst_12, main_v55, main_v56, main_v57, main_v58, main_v59, main_v60, main_v61, main_v62, main_v63, main_v64, main_v65, main_v66, main_cst_13, main_v67, main_cst_14, main_v68, main_v69, main_c_15, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v70, main_v71, main_v72, main_v73, main_cst_16, main_v74, main_v75, main_v76, main_v77, main_v78, main_v79, main_v80, main_v81, main_v82, main_v83, main_call3_cst, main_call3_v0, main_v84]

/-- The stage's operations. -/
abbrev ops_l1 : List (HloOp τ sig (Elt F)) := piece4 ++ (piece5)
/-- The buffers the stage writes. -/
abbrev W_l1 : List (Ref sig .tc) := [main_v85, main_v86, main_v87, main_c_17, main_v88, main_v89, main_c_18, main_v90, main_v91, main_v92, main_v93, main_v94, main_v95, main_v96, main_v97, main_cst_19, main_v98, main_v99, main_v100, main_v101, main_v102, main_v103, main_v104, main_v105, main_v106, main_v107, main_v108, main_v109, main_cst_20, main_v110, main_cst_21, main_v111, main_v112, main_c_22, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v113, main_v114, main_v115, main_v116, main_cst_23, main_v117, main_v118, main_v119, main_v120, main_v121, main_v122, main_v123, main_v124, main_v125, main_v126, main_call5_cst, main_call5_v0, main_v127]

/-- The stage's operations. -/
abbrev ops_l2 : List (HloOp τ sig (Elt F)) := piece6 ++ (piece7)
/-- The buffers the stage writes. -/
abbrev W_l2 : List (Ref sig .tc) := [main_v128, main_v129, main_v130, main_c_24, main_v131, main_v132, main_c_25, main_v133, main_v134, main_v135, main_v136, main_v137, main_v138, main_v139, main_v140, main_cst_26, main_v141, main_v142, main_v143, main_v144, main_v145, main_v146, main_v147, main_v148, main_v149, main_v150, main_v151, main_v152, main_cst_27, main_v153, main_cst_28, main_v154, main_v155, main_c_29, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v156, main_v157, main_v158, main_v159, main_cst_30, main_v160, main_v161, main_v162, main_v163, main_v164, main_v165, main_v166, main_v167, main_v168, main_v169, main_call7_cst, main_call7_v0, main_v170]

/-- The stage's operations. -/
abbrev ops_l3 : List (HloOp τ sig (Elt F)) := piece8 ++ (piece9)
/-- The buffers the stage writes. -/
abbrev W_l3 : List (Ref sig .tc) := [main_v171, main_v172, main_v173, main_c_31, main_v174, main_v175, main_c_32, main_v176, main_v177, main_v178, main_v179, main_v180, main_v181, main_v182, main_v183, main_cst_33, main_v184, main_v185, main_v186, main_v187, main_v188, main_v189, main_v190, main_v191, main_v192, main_v193, main_v194, main_v195, main_cst_34, main_v196, main_cst_35, main_v197, main_v198, main_c_36, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v199, main_v200, main_v201, main_v202, main_cst_37, main_v203, main_v204, main_v205, main_v206, main_v207, main_v208, main_v209, main_v210, main_v211, main_v212, main_call9_cst, main_call9_v0, main_v213]

/-- The stage's operations. -/
abbrev ops_tail : List (HloOp τ sig (Elt F)) := piece10
/-- The buffers the stage writes. -/
abbrev W_tail : List (Ref sig .tc) := [main_cst_38, main_v214, main_v215, main_v216, main_cst_39, main_v217, main_cst_40, main_v218, main_v219, main_v220, main_cst_41, main_v221, main_v222, main_v223, main_v224, main_v225, main_cst_42, main_v226, main_cst_43, main_v227, main_v228, main_c_44, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v229, main_v230, main_v231, main_v232, main_cst_45, main_v233, main_v234, main_v235, main_v236, main_v237, main_v238, main_v239, main_v240, main_v241, main_v242, main_v243, main_v244, main_v245, main_v246, main_call11_cst, main_call11_v0, main_v247, main_v248, main_v249, main_v250, main_v251]

/-- The operations of window main_part0. -/
abbrev opsW0 : List (HloOp τ sig (Elt F)) := piece0 ++ (piece1 ++ (piece2))
/-- The operations of window main_part1. -/
abbrev opsW1 : List (HloOp τ sig (Elt F)) := piece3 ++ (piece4)
/-- The operations of window main_part2. -/
abbrev opsW2 : List (HloOp τ sig (Elt F)) := piece5 ++ (piece6)
/-- The operations of window main_part3. -/
abbrev opsW3 : List (HloOp τ sig (Elt F)) := piece7 ++ (piece8)
/-- The operations of window main_part4. -/
abbrev opsW4 : List (HloOp τ sig (Elt F)) := piece9 ++ (piece10)
/-- The operations of window main_part5. -/
abbrev opsW5 : List (HloOp τ sig (Elt F)) := []

end Cert.ReferenceIdeal.HandRun

end
-- ==== Proof.RefFold.lean ====
import proofs.«402767_j7713761264261_1_alg».proof.Proof.RefOps
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

theorem ofBuf_toBuf {T : BufTy} (x : TRef sig T) (v : T.Contents (Elt F)) : x.ofBuf (x.toBuf v) = v := by
  obtain ⟨r, rfl, _, _⟩ := x
  rfl

theorem ofBuf_own (r : Ref sig .tc) (h2 : r.space ≠ .host) (h3 : r.isScoped = false) (v : r.ty.Contents (Elt F)) :
    (TRef.of (T := r.ty) r rfl h2 h3).ofBuf v = v := rfl

theorem toBuf_own (r : Ref sig .tc) (h2 : r.space ≠ .host) (h3 : r.isScoped = false) (v : r.ty.Contents (Elt F)) :
    (TRef.of (T := r.ty) r rfl h2 h3).toBuf v = v := rfl

theorem tref_reshape_result {Tx Ty : BufTy} (x : TRef sig Tx) (y : TRef sig Ty) (he : Tx.elt = Ty.elt)
    (hn : Tx.shape.ShapeCasts Ty.shape) (V : Valuation τ sig (Elt F)) :
    (no_index (TRef.reshape (Val := Elt F) x y he hn)).result V (no_index (Proc.devRef .tc y.ref))
      = y.toBuf (fun i => he ▸ shapeCast Ty.shape (x.ofBuf (V (Proc.devRef .tc x.ref))) hn i) := by
  obtain ⟨xr, rfl, _, _⟩ := x
  obtain ⟨yr, rfl, _, _⟩ := y
  exact reshape_result xr yr he hn _ _ V

macro "stage_results" : tactic => `(tactic| (
  simp (disch := decide) only [after_cons, after_nil, List.cons_append, List.nil_append, tref_reshape_result,
    nullary_result', unary_result', binary_result', ternary_result',
    nullary_result_ne', unary_result_ne', binary_result_ne', ternary_result_ne', reshape_result_ne']
  simp only [ofBuf_toBuf, ofBuf_own, toBuf_own]))

macro "each_bufs_sub" : tactic => `(tactic| (
  simp only [List.cons_append, List.nil_append, List.Forall, nullary_bufs_sub, unary_bufs_sub, binary_bufs_sub,
    ternary_bufs_sub, reshape_bufs_sub, and_self]))

macro "each_fresh" : tactic => `(tactic| (
  simp only [List.cons_append, List.nil_append, List.Forall]
  repeat' apply And.intro
  all_goals rfl))

macro "each_writes" : tactic => `(tactic| (
  simp only [List.cons_append, List.nil_append, List.Forall]
  repeat' apply And.intro
  all_goals (
    simp only [nullary_writes, unary_writes, binary_writes, ternary_writes, reshape_writes,
      Finset.singleton_subset_iff, List.mem_toFinset]
    exact List.mem_map_of_mem (by decide))))

end Cert.ReferenceIdeal.HandRun

end
-- ==== Proof.RefVals.lean ====
import proofs.«402767_j7713761264261_1_alg».proof.Proof.RefFold

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

theorem emb_x0 (V : Valuation τ sig (Elt F)) :
    after ops_emb V (Proc.devRef .tc main_v9) = x0F (V (Proc.devRef .tc main_arg0)) (V (Proc.devRef .tc main_arg3)) := by
  simp only [ops_emb, piece0]
  stage_results
  rfl

theorem norm_src (V : Valuation τ sig (Elt F)) :
    after ops_norm V (Proc.devRef .tc main_v13) = srcF (V (Proc.devRef .tc main_arg1)) := by
  simp only [ops_norm, piece1]
  stage_results
  rfl

theorem norm_dst (V : Valuation τ sig (Elt F)) :
    after ops_norm V (Proc.devRef .tc main_v16) = dstF (V (Proc.devRef .tc main_arg1)) := by
  simp only [ops_norm, piece1]
  stage_results
  rfl

theorem norm_norm (V : Valuation τ sig (Elt F)) :
    after ops_norm V (Proc.devRef .tc main_v41) = normF (srcF (V (Proc.devRef .tc main_arg1))) (dstF (V (Proc.devRef .tc main_arg1))) := by
  simp only [ops_norm, piece1]
  stage_results
  rfl

theorem l0_x (V : Valuation τ sig (Elt F)) :
    after ops_l0 V (Proc.devRef .tc main_v84)
      = bnreluF
          (aggF (hF (V (Proc.devRef .tc main_v9)) (W0F (V (Proc.devRef .tc main_arg4)))) (V (Proc.devRef .tc main_v13)) (V (Proc.devRef .tc main_v16)) (V (Proc.devRef .tc main_v41))
            (row0F (V (Proc.devRef .tc main_arg5))))
          (row0F (V (Proc.devRef .tc main_arg6))) (row0F (V (Proc.devRef .tc main_arg7))) := by
  simp only [ops_l0, piece2, piece3]
  stage_results
  rfl

theorem l1_x (V : Valuation τ sig (Elt F)) :
    after ops_l1 V (Proc.devRef .tc main_v127)
      = bnreluF
          (aggF (hF (V (Proc.devRef .tc main_v84)) (W1F (V (Proc.devRef .tc main_arg4)))) (V (Proc.devRef .tc main_v13)) (V (Proc.devRef .tc main_v16)) (V (Proc.devRef .tc main_v41))
            (row1F (V (Proc.devRef .tc main_arg5))))
          (row1F (V (Proc.devRef .tc main_arg6))) (row1F (V (Proc.devRef .tc main_arg7))) := by
  simp only [ops_l1, piece4, piece5]
  stage_results
  rfl

theorem l2_x (V : Valuation τ sig (Elt F)) :
    after ops_l2 V (Proc.devRef .tc main_v170)
      = bnreluF
          (aggF (hF (V (Proc.devRef .tc main_v127)) (W2F (V (Proc.devRef .tc main_arg4)))) (V (Proc.devRef .tc main_v13)) (V (Proc.devRef .tc main_v16)) (V (Proc.devRef .tc main_v41))
            (row2F (V (Proc.devRef .tc main_arg5))))
          (row2F (V (Proc.devRef .tc main_arg6))) (row2F (V (Proc.devRef .tc main_arg7))) := by
  simp only [ops_l2, piece6, piece7]
  stage_results
  rfl

theorem l3_x (V : Valuation τ sig (Elt F)) :
    after ops_l3 V (Proc.devRef .tc main_v213)
      = bnreluF
          (aggF (hF (V (Proc.devRef .tc main_v170)) (W3F (V (Proc.devRef .tc main_arg4)))) (V (Proc.devRef .tc main_v13)) (V (Proc.devRef .tc main_v16)) (V (Proc.devRef .tc main_v41))
            (row3F (V (Proc.devRef .tc main_arg5))))
          (row3F (V (Proc.devRef .tc main_arg6))) (row3F (V (Proc.devRef .tc main_arg7))) := by
  simp only [ops_l3, piece8, piece9]
  stage_results
  rfl

theorem tail_out (V : Valuation τ sig (Elt F)) :
    after ops_tail V (Proc.devRef .tc main_v251)
      = outF
          (hmidF
            (fbnF (pooledF (V (Proc.devRef .tc main_v213)) (V (Proc.devRef .tc main_arg2))) (V (Proc.devRef .tc main_arg8)) (V (Proc.devRef .tc main_arg9)))
            (V (Proc.devRef .tc main_arg10)) (V (Proc.devRef .tc main_arg11)))
          (V (Proc.devRef .tc main_arg12)) (V (Proc.devRef .tc main_arg13)) := by
  simp only [ops_tail, piece10]
  stage_results
  rfl

theorem ops_emb_sub : (ops_emb : List (HloOp τ sig (Elt F))).Forall fun op => op.bufs ⊆ tcRefs τ sig := by
  simp only [ops_emb, piece0]
  each_bufs_sub
theorem ops_emb_fresh : (ops_emb : List (HloOp τ sig (Elt F))).Forall fun op => op.fresh = ∅ := by
  simp only [ops_emb, piece0]
  each_fresh
theorem ops_emb_writes : (ops_emb : List (HloOp τ sig (Elt F))).Forall fun op =>
    op.writes ⊆ (W_emb.map (Proc.devRef (τ := τ) .tc)).toFinset := by
  simp only [ops_emb, piece0]
  each_writes
theorem emb_keep (V : Valuation τ sig (Elt F)) (r : Ref sig .tc) (h : r ∉ W_emb) :
    after ops_emb V (Proc.devRef .tc r) = V (Proc.devRef .tc r) :=
  after_of_writes_sub ops_emb V ops_emb_writes h

theorem ops_norm_sub : (ops_norm : List (HloOp τ sig (Elt F))).Forall fun op => op.bufs ⊆ tcRefs τ sig := by
  simp only [ops_norm, piece1]
  each_bufs_sub
theorem ops_norm_fresh : (ops_norm : List (HloOp τ sig (Elt F))).Forall fun op => op.fresh = ∅ := by
  simp only [ops_norm, piece1]
  each_fresh
theorem ops_norm_writes : (ops_norm : List (HloOp τ sig (Elt F))).Forall fun op =>
    op.writes ⊆ (W_norm.map (Proc.devRef (τ := τ) .tc)).toFinset := by
  simp only [ops_norm, piece1]
  each_writes
theorem norm_keep (V : Valuation τ sig (Elt F)) (r : Ref sig .tc) (h : r ∉ W_norm) :
    after ops_norm V (Proc.devRef .tc r) = V (Proc.devRef .tc r) :=
  after_of_writes_sub ops_norm V ops_norm_writes h

theorem ops_l0_sub : (ops_l0 : List (HloOp τ sig (Elt F))).Forall fun op => op.bufs ⊆ tcRefs τ sig := by
  simp only [ops_l0, piece2, piece3]
  each_bufs_sub
theorem ops_l0_fresh : (ops_l0 : List (HloOp τ sig (Elt F))).Forall fun op => op.fresh = ∅ := by
  simp only [ops_l0, piece2, piece3]
  each_fresh
theorem ops_l0_writes : (ops_l0 : List (HloOp τ sig (Elt F))).Forall fun op =>
    op.writes ⊆ (W_l0.map (Proc.devRef (τ := τ) .tc)).toFinset := by
  simp only [ops_l0, piece2, piece3]
  each_writes
theorem l0_keep (V : Valuation τ sig (Elt F)) (r : Ref sig .tc) (h : r ∉ W_l0) :
    after ops_l0 V (Proc.devRef .tc r) = V (Proc.devRef .tc r) :=
  after_of_writes_sub ops_l0 V ops_l0_writes h

theorem ops_l1_sub : (ops_l1 : List (HloOp τ sig (Elt F))).Forall fun op => op.bufs ⊆ tcRefs τ sig := by
  simp only [ops_l1, piece4, piece5]
  each_bufs_sub
theorem ops_l1_fresh : (ops_l1 : List (HloOp τ sig (Elt F))).Forall fun op => op.fresh = ∅ := by
  simp only [ops_l1, piece4, piece5]
  each_fresh
theorem ops_l1_writes : (ops_l1 : List (HloOp τ sig (Elt F))).Forall fun op =>
    op.writes ⊆ (W_l1.map (Proc.devRef (τ := τ) .tc)).toFinset := by
  simp only [ops_l1, piece4, piece5]
  each_writes
theorem l1_keep (V : Valuation τ sig (Elt F)) (r : Ref sig .tc) (h : r ∉ W_l1) :
    after ops_l1 V (Proc.devRef .tc r) = V (Proc.devRef .tc r) :=
  after_of_writes_sub ops_l1 V ops_l1_writes h

theorem ops_l2_sub : (ops_l2 : List (HloOp τ sig (Elt F))).Forall fun op => op.bufs ⊆ tcRefs τ sig := by
  simp only [ops_l2, piece6, piece7]
  each_bufs_sub
theorem ops_l2_fresh : (ops_l2 : List (HloOp τ sig (Elt F))).Forall fun op => op.fresh = ∅ := by
  simp only [ops_l2, piece6, piece7]
  each_fresh
theorem ops_l2_writes : (ops_l2 : List (HloOp τ sig (Elt F))).Forall fun op =>
    op.writes ⊆ (W_l2.map (Proc.devRef (τ := τ) .tc)).toFinset := by
  simp only [ops_l2, piece6, piece7]
  each_writes
theorem l2_keep (V : Valuation τ sig (Elt F)) (r : Ref sig .tc) (h : r ∉ W_l2) :
    after ops_l2 V (Proc.devRef .tc r) = V (Proc.devRef .tc r) :=
  after_of_writes_sub ops_l2 V ops_l2_writes h

theorem ops_l3_sub : (ops_l3 : List (HloOp τ sig (Elt F))).Forall fun op => op.bufs ⊆ tcRefs τ sig := by
  simp only [ops_l3, piece8, piece9]
  each_bufs_sub
theorem ops_l3_fresh : (ops_l3 : List (HloOp τ sig (Elt F))).Forall fun op => op.fresh = ∅ := by
  simp only [ops_l3, piece8, piece9]
  each_fresh
theorem ops_l3_writes : (ops_l3 : List (HloOp τ sig (Elt F))).Forall fun op =>
    op.writes ⊆ (W_l3.map (Proc.devRef (τ := τ) .tc)).toFinset := by
  simp only [ops_l3, piece8, piece9]
  each_writes
theorem l3_keep (V : Valuation τ sig (Elt F)) (r : Ref sig .tc) (h : r ∉ W_l3) :
    after ops_l3 V (Proc.devRef .tc r) = V (Proc.devRef .tc r) :=
  after_of_writes_sub ops_l3 V ops_l3_writes h

theorem ops_tail_sub : (ops_tail : List (HloOp τ sig (Elt F))).Forall fun op => op.bufs ⊆ tcRefs τ sig := by
  simp only [ops_tail, piece10]
  each_bufs_sub
theorem ops_tail_fresh : (ops_tail : List (HloOp τ sig (Elt F))).Forall fun op => op.fresh = ∅ := by
  simp only [ops_tail, piece10]
  each_fresh
theorem ops_tail_writes : (ops_tail : List (HloOp τ sig (Elt F))).Forall fun op =>
    op.writes ⊆ (W_tail.map (Proc.devRef (τ := τ) .tc)).toFinset := by
  simp only [ops_tail, piece10]
  each_writes
theorem tail_keep (V : Valuation τ sig (Elt F)) (r : Ref sig .tc) (h : r ∉ W_tail) :
    after ops_tail V (Proc.devRef .tc r) = V (Proc.devRef .tc r) :=
  after_of_writes_sub ops_tail V ops_tail_writes h

end Cert.ReferenceIdeal.HandRun

end
-- ==== Proof.RefMainA.lean ====
import proofs.«402767_j7713761264261_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part0_eq (c : Dev nD) : main_part0 (F := F) c = seq opsW0 := rfl
set_option maxRecDepth 8192 in
theorem main_part1_eq (c : Dev nD) : main_part1 (F := F) c = seq opsW1 := rfl
set_option maxRecDepth 8192 in
theorem main_part2_eq (c : Dev nD) : main_part2 (F := F) c = seq opsW2 := rfl

end Cert.ReferenceIdeal.HandRun

end
-- ==== Proof.RefMainB.lean ====
import proofs.«402767_j7713761264261_1_alg».proof.Proof.RefMainA

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part3_eq (c : Dev nD) : main_part3 (F := F) c = seq opsW3 := rfl
set_option maxRecDepth 8192 in
theorem main_part4_eq (c : Dev nD) : main_part4 (F := F) c = seq opsW4 := rfl
set_option maxRecDepth 8192 in
theorem main_part5_eq (c : Dev nD) : main_part5 (F := F) c = seq opsW5 := rfl

abbrev ops : List (HloOp τ sig (Elt F)) :=
  ops_emb ++ (ops_norm ++ (ops_l0 ++ (ops_l1 ++ (ops_l2 ++ (ops_l3 ++ ops_tail)))))

theorem ops_eq_windows :
    (ops : List (HloOp τ sig (Elt F))) = opsW0 ++ (opsW1 ++ (opsW2 ++ (opsW3 ++ (opsW4 ++ opsW5)))) := by
  simp only [ops, ops_emb, ops_norm, ops_l0, ops_l1, ops_l2, ops_l3, ops_tail, opsW0, opsW1, opsW2, opsW3, opsW4, opsW5,
    List.append_assoc, List.append_nil]

theorem main_eq (c : Dev nD) : main (F := F) c = seq ops := by
  rw [ops_eq_windows, seq_append opsW0, seq_append opsW1, seq_append opsW2, seq_append opsW3, seq_append opsW4,
    ← main_part0_eq c, ← main_part1_eq c, ← main_part2_eq c, ← main_part3_eq c, ← main_part4_eq c, ← main_part5_eq c]
  rfl

end Cert.ReferenceIdeal.HandRun

end
-- ==== Proof.RefRun.lean ====
import proofs.«402767_j7713761264261_1_alg».proof.Proof.RefVals
import proofs.«402767_j7713761264261_1_alg».proof.Proof.RefMainB

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

def val1 (V0 : Valuation τ sig (Elt F)) : Valuation τ sig (Elt F) := after ops_emb V0
def val2 (V0 : Valuation τ sig (Elt F)) : Valuation τ sig (Elt F) := after ops_norm (val1 V0)
def val3 (V0 : Valuation τ sig (Elt F)) : Valuation τ sig (Elt F) := after ops_l0 (val2 V0)
def val4 (V0 : Valuation τ sig (Elt F)) : Valuation τ sig (Elt F) := after ops_l1 (val3 V0)
def val5 (V0 : Valuation τ sig (Elt F)) : Valuation τ sig (Elt F) := after ops_l2 (val4 V0)
def val6 (V0 : Valuation τ sig (Elt F)) : Valuation τ sig (Elt F) := after ops_l3 (val5 V0)
def val7 (V0 : Valuation τ sig (Elt F)) : Valuation τ sig (Elt F) := after ops_tail (val6 V0)

theorem after_ops (V0 : Valuation τ sig (Elt F)) : after ops V0 = val7 V0 := by
  simp only [ops, StableHlo.after_append]
  rfl

def Untouched (r : Ref sig .tc) : Prop :=
  r ∉ W_emb ∧ r ∉ W_norm ∧ r ∉ W_l0 ∧ r ∉ W_l1 ∧ r ∉ W_l2 ∧ r ∉ W_l3 ∧ r ∉ W_tail

theorem untouched_arg0 : Untouched main_arg0 := by unfold Untouched; decide
theorem untouched_arg1 : Untouched main_arg1 := by unfold Untouched; decide
theorem untouched_arg2 : Untouched main_arg2 := by unfold Untouched; decide
theorem untouched_arg3 : Untouched main_arg3 := by unfold Untouched; decide
theorem untouched_arg4 : Untouched main_arg4 := by unfold Untouched; decide
theorem untouched_arg5 : Untouched main_arg5 := by unfold Untouched; decide
theorem untouched_arg6 : Untouched main_arg6 := by unfold Untouched; decide
theorem untouched_arg7 : Untouched main_arg7 := by unfold Untouched; decide
theorem untouched_arg8 : Untouched main_arg8 := by unfold Untouched; decide
theorem untouched_arg9 : Untouched main_arg9 := by unfold Untouched; decide
theorem untouched_arg10 : Untouched main_arg10 := by unfold Untouched; decide
theorem untouched_arg11 : Untouched main_arg11 := by unfold Untouched; decide
theorem untouched_arg12 : Untouched main_arg12 := by unfold Untouched; decide
theorem untouched_arg13 : Untouched main_arg13 := by unfold Untouched; decide

theorem val1_untouched (V0 : Valuation τ sig (Elt F)) {r : Ref sig .tc} (h : Untouched r) : val1 V0 (Proc.devRef .tc r) = V0 (Proc.devRef .tc r) :=
  emb_keep V0 r h.1
theorem val2_untouched (V0 : Valuation τ sig (Elt F)) {r : Ref sig .tc} (h : Untouched r) : val2 V0 (Proc.devRef .tc r) = V0 (Proc.devRef .tc r) :=
  (norm_keep _ r h.2.1).trans (val1_untouched V0 h)
theorem val3_untouched (V0 : Valuation τ sig (Elt F)) {r : Ref sig .tc} (h : Untouched r) : val3 V0 (Proc.devRef .tc r) = V0 (Proc.devRef .tc r) :=
  (l0_keep _ r h.2.2.1).trans (val2_untouched V0 h)
theorem val4_untouched (V0 : Valuation τ sig (Elt F)) {r : Ref sig .tc} (h : Untouched r) : val4 V0 (Proc.devRef .tc r) = V0 (Proc.devRef .tc r) :=
  (l1_keep _ r h.2.2.2.1).trans (val3_untouched V0 h)
theorem val5_untouched (V0 : Valuation τ sig (Elt F)) {r : Ref sig .tc} (h : Untouched r) : val5 V0 (Proc.devRef .tc r) = V0 (Proc.devRef .tc r) :=
  (l2_keep _ r h.2.2.2.2.1).trans (val4_untouched V0 h)
theorem val6_untouched (V0 : Valuation τ sig (Elt F)) {r : Ref sig .tc} (h : Untouched r) : val6 V0 (Proc.devRef .tc r) = V0 (Proc.devRef .tc r) :=
  (l3_keep _ r h.2.2.2.2.2.1).trans (val5_untouched V0 h)
theorem val7_untouched (V0 : Valuation τ sig (Elt F)) {r : Ref sig .tc} (h : Untouched r) : val7 V0 (Proc.devRef .tc r) = V0 (Proc.devRef .tc r) :=
  (tail_keep _ r h.2.2.2.2.2.2).trans (val6_untouched V0 h)

theorem val1_x0 (V0 : Valuation τ sig (Elt F)) : val1 V0 (Proc.devRef .tc main_v9) = res_x0 V0 := emb_x0 V0

theorem val2_x0 (V0 : Valuation τ sig (Elt F)) : val2 V0 (Proc.devRef .tc main_v9) = res_x0 V0 :=
  (norm_keep _ main_v9 (by decide)).trans (val1_x0 V0)
theorem val2_src (V0 : Valuation τ sig (Elt F)) : val2 V0 (Proc.devRef .tc main_v13) = res_src V0 := by
  unfold val2; rw [norm_src, val1_untouched V0 untouched_arg1]; rfl
theorem val2_dst (V0 : Valuation τ sig (Elt F)) : val2 V0 (Proc.devRef .tc main_v16) = res_dst V0 := by
  unfold val2; rw [norm_dst, val1_untouched V0 untouched_arg1]; rfl
theorem val2_norm (V0 : Valuation τ sig (Elt F)) : val2 V0 (Proc.devRef .tc main_v41) = res_norm V0 := by
  unfold val2; rw [norm_norm, val1_untouched V0 untouched_arg1]; rfl

theorem val3_x1 (V0 : Valuation τ sig (Elt F)) : val3 V0 (Proc.devRef .tc main_v84) = res_x1 V0 := by
  unfold val3
  rw [l0_x, val2_x0, val2_src, val2_dst, val2_norm, val2_untouched V0 untouched_arg4,
    val2_untouched V0 untouched_arg5, val2_untouched V0 untouched_arg6, val2_untouched V0 untouched_arg7]
  rfl
theorem val3_src (V0 : Valuation τ sig (Elt F)) : val3 V0 (Proc.devRef .tc main_v13) = res_src V0 :=
  (l0_keep _ main_v13 (by decide)).trans (val2_src V0)
theorem val3_dst (V0 : Valuation τ sig (Elt F)) : val3 V0 (Proc.devRef .tc main_v16) = res_dst V0 :=
  (l0_keep _ main_v16 (by decide)).trans (val2_dst V0)
theorem val3_norm (V0 : Valuation τ sig (Elt F)) : val3 V0 (Proc.devRef .tc main_v41) = res_norm V0 :=
  (l0_keep _ main_v41 (by decide)).trans (val2_norm V0)

theorem val4_x2 (V0 : Valuation τ sig (Elt F)) : val4 V0 (Proc.devRef .tc main_v127) = res_x2 V0 := by
  unfold val4
  rw [l1_x, val3_x1, val3_src, val3_dst, val3_norm, val3_untouched V0 untouched_arg4,
    val3_untouched V0 untouched_arg5, val3_untouched V0 untouched_arg6, val3_untouched V0 untouched_arg7]
  rfl
theorem val4_src (V0 : Valuation τ sig (Elt F)) : val4 V0 (Proc.devRef .tc main_v13) = res_src V0 :=
  (l1_keep _ main_v13 (by decide)).trans (val3_src V0)
theorem val4_dst (V0 : Valuation τ sig (Elt F)) : val4 V0 (Proc.devRef .tc main_v16) = res_dst V0 :=
  (l1_keep _ main_v16 (by decide)).trans (val3_dst V0)
theorem val4_norm (V0 : Valuation τ sig (Elt F)) : val4 V0 (Proc.devRef .tc main_v41) = res_norm V0 :=
  (l1_keep _ main_v41 (by decide)).trans (val3_norm V0)

theorem val5_x3 (V0 : Valuation τ sig (Elt F)) : val5 V0 (Proc.devRef .tc main_v170) = res_x3 V0 := by
  unfold val5
  rw [l2_x, val4_x2, val4_src, val4_dst, val4_norm, val4_untouched V0 untouched_arg4,
    val4_untouched V0 untouched_arg5, val4_untouched V0 untouched_arg6, val4_untouched V0 untouched_arg7]
  rfl
theorem val5_src (V0 : Valuation τ sig (Elt F)) : val5 V0 (Proc.devRef .tc main_v13) = res_src V0 :=
  (l2_keep _ main_v13 (by decide)).trans (val4_src V0)
theorem val5_dst (V0 : Valuation τ sig (Elt F)) : val5 V0 (Proc.devRef .tc main_v16) = res_dst V0 :=
  (l2_keep _ main_v16 (by decide)).trans (val4_dst V0)
theorem val5_norm (V0 : Valuation τ sig (Elt F)) : val5 V0 (Proc.devRef .tc main_v41) = res_norm V0 :=
  (l2_keep _ main_v41 (by decide)).trans (val4_norm V0)

theorem val6_x4 (V0 : Valuation τ sig (Elt F)) : val6 V0 (Proc.devRef .tc main_v213) = res_x4 V0 := by
  unfold val6
  rw [l3_x, val5_x3, val5_src, val5_dst, val5_norm, val5_untouched V0 untouched_arg4,
    val5_untouched V0 untouched_arg5, val5_untouched V0 untouched_arg6, val5_untouched V0 untouched_arg7]
  rfl

theorem val7_out (V0 : Valuation τ sig (Elt F)) : val7 V0 (Proc.devRef .tc main_v251) = res_out V0 := by
  unfold val7
  rw [tail_out, val6_x4, val6_untouched V0 untouched_arg2, val6_untouched V0 untouched_arg8,
    val6_untouched V0 untouched_arg9, val6_untouched V0 untouched_arg10, val6_untouched V0 untouched_arg11,
    val6_untouched V0 untouched_arg12, val6_untouched V0 untouched_arg13]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨ops_emb_sub, List.forall_append.mpr ⟨ops_norm_sub, List.forall_append.mpr ⟨ops_l0_sub,
    List.forall_append.mpr ⟨ops_l1_sub, List.forall_append.mpr ⟨ops_l2_sub, List.forall_append.mpr ⟨ops_l3_sub, ops_tail_sub⟩⟩⟩⟩⟩⟩

theorem ops_fresh : ∀ op ∈ (ops : List (HloOp τ sig (Elt F))), op.fresh = ∅ :=
  List.forall_iff_forall_mem.mp
    (List.forall_append.mpr ⟨ops_emb_fresh, List.forall_append.mpr ⟨ops_norm_fresh, List.forall_append.mpr ⟨ops_l0_fresh,
    List.forall_append.mpr ⟨ops_l1_fresh, List.forall_append.mpr ⟨ops_l2_fresh, List.forall_append.mpr ⟨ops_l3_fresh, ops_tail_fresh⟩⟩⟩⟩⟩⟩)

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v251) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono
    (fun _ h c => ⟨(h c main_v251).trans (by rw [after_ops]; exact val7_out (launchContents m c)),
      (h c main_arg0).trans (by rw [after_ops]; exact val7_untouched (launchContents m c) untouched_arg0),
      (h c main_arg1).trans (by rw [after_ops]; exact val7_untouched (launchContents m c) untouched_arg1),
      (h c main_arg2).trans (by rw [after_ops]; exact val7_untouched (launchContents m c) untouched_arg2),
      (h c main_arg3).trans (by rw [after_ops]; exact val7_untouched (launchContents m c) untouched_arg3),
      (h c main_arg4).trans (by rw [after_ops]; exact val7_untouched (launchContents m c) untouched_arg4),
      (h c main_arg5).trans (by rw [after_ops]; exact val7_untouched (launchContents m c) untouched_arg5),
      (h c main_arg6).trans (by rw [after_ops]; exact val7_untouched (launchContents m c) untouched_arg6),
      (h c main_arg7).trans (by rw [after_ops]; exact val7_untouched (launchContents m c) untouched_arg7),
      (h c main_arg8).trans (by rw [after_ops]; exact val7_untouched (launchContents m c) untouched_arg8),
      (h c main_arg9).trans (by rw [after_ops]; exact val7_untouched (launchContents m c) untouched_arg9),
      (h c main_arg10).trans (by rw [after_ops]; exact val7_untouched (launchContents m c) untouched_arg10),
      (h c main_arg11).trans (by rw [after_ops]; exact val7_untouched (launchContents m c) untouched_arg11),
      (h c main_arg12).trans (by rw [after_ops]; exact val7_untouched (launchContents m c) untouched_arg12),
      (h c main_arg13).trans (by rw [after_ops]; exact val7_untouched (launchContents m c) untouched_arg13)⟩)
    (run_seq scopedRefs_eq scopedSems_eq defs main (fun _ => ops) main_eq (fun _ => ops_sub) m ρ (fun _ => ops_fresh))

end Cert.ReferenceIdeal.HandRun

end
-- ==== Proof.LibTakeFill.lean ====
import Idealize.ShloMosaic.Lib.ReduceAll
import Idealize.ShloMosaic.Lib.StableHlo.Predicate
import Idealize.ShloMosaic.Lib.ValueIdx

namespace Cert.Lib.TakeFill

open Idealize.ShloMosaic
open Idealize.ShloMosaic.StableHlo.Predicate (ixP)
open Idealize.ShloMosaic.ValueIdx (ix1)

theorem wrap_of_nonneg (N : Nat) (x : BitVec 32) (h : 0 ≤ x.toInt) :
    Scalar.select (IntOp.cmpi .slt x 0#32) (IntOp.addi x (BitVec.ofNat 32 N)) x = x := by
  have h0 : (0#32).toInt = 0 := rfl
  have hc : ¬ IntOp.cmpi .slt x 0#32 = (1 : BitVec 1) := fun e => by
    have := IntOp.cmpi_slt.1 e
    rw [h0] at this
    omega
  rw [Scalar.select, if_neg hc]

theorem foldl_andi_of_all_one {ι : Type} (f : ι → BitVec 1) :
    ∀ l : List ι, (∀ i ∈ l, f i = 1#1) → l.foldl (fun r i => IntOp.andi r (f i)) 1#1 = 1#1
  | [], _ => rfl
  | a :: l, h => by
    have ha : IntOp.andi 1#1 (f a) = 1#1 := IntOp.andi_eq_one.2 ⟨rfl, h a List.mem_cons_self⟩
    rw [List.foldl_cons, ha]
    exact foldl_andi_of_all_one f l fun i hi => h i (List.mem_cons_of_mem _ hi)

end Cert.Lib.TakeFill
-- ==== Proof.PreFacts.lean ====
import proofs.«402767_j7713761264261_1_alg».proof.Pre_finite_inputs
import proofs.«402767_j7713761264261_1_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.HandPre

open Idealize.ShloMosaic Idealize.ShloMosaic.ValueIdx
open Cert.Pre_finite_inputs

instance : Subsingleton S_.Idx := ⟨fun a b => funext fun d => d.elim0⟩

abbrev allFinite {F : FTy → Type} [FloatOps F] {s : Shape} {axes : List (Fin s.rank)}
    (hb : S_.BroadcastsInDim s (![] : Fin 0 → Fin s.rank)) (hr : s.ReducesTo axes S_) (h0 : 0 < S_.numel)
    (x : FVec F s .f32) : BitVec 1 :=
  Host.reduce IntOp.andi (cmpf .olt (Host.absf x) (broadcastInDim s ![] hb (constant S_ .f32 0x7F800000#32)))
    (constantI S_ 1 1#1) hr h0 ix0

theorem ofBits_inf : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

theorem finite_of_all {s : Shape} {axes : List (Fin s.rank)}
    (hb : S_.BroadcastsInDim s (![] : Fin 0 → Fin s.rank)) (hr : s.ReducesTo axes S_) (h0 : 0 < S_.numel)
    (x : FVec Ideal s .f32) (h : allFinite (F := Ideal) hb hr h0 x = 1#1) (i : s.Idx) :
    ∃ r : ℝ, x i = (r : EReal) := by
  have e := Host.reduce_andi_all _ _ hr h0 ix0 h i
  have e' : Ideal.cmp .olt (max (x i) (-(x i))) (Ideal.ofBits .f32 0x7F800000#32) = 1#1 := e
  rw [ofBits_inf] at e'
  refine real_of_abs_lt_top (x i) ?_
  simpa [Ideal.cmp, StableHlo.Predicate.ofBool_eq_one_iff] using e'

section Split

variable [Facts] {F : FTy → Type} [FloatOps F]
variable {a0 : IVec S50000x9 32} {a1 : IVec S2x800000 32} {a2 : IVec S50000 32}
  {a3 : FVec F S4608x128 .f32} {a4 : FVec F S4x128x128 .f32} {a5 a6 a7 : FVec F S4x128 .f32}
  {a8 a9 : FVec F S128 .f32} {a10 : FVec F S128x128 .f32} {a11 : FVec F S128 .f32}
  {a12 : FVec F S128x1 .f32} {a13 : FVec F S1 .f32}

abbrev offs : IVec S9 32 :=
  addi (broadcastInDim S9 ![] Facts.bcast_S_S9 (constantI S_ 32 1#32))
    (muli (iotaInDim S9 32 0) (broadcastInDim S9 ![] Facts.bcast_S_S9 (constantI S_ 32 512#32)))

abbrev inRange (a0 : IVec S50000x9 32) : IVec S50000x9 1 :=
  andi
    (cmpi .sge a0 (broadcastInDim S50000x9 ![0, 1] Facts.bcast_S1x9_S50000x9_0_1
      (negi (broadcastInDim S1x9 ![1] Facts.bcast_S9_S1x9_1 offs))))
    (cmpi .sle a0 (broadcastInDim S50000x9 ![0, 1] Facts.bcast_S1x9_S50000x9_0_1
      (subi (broadcastInDim S1x9 ![] Facts.bcast_S_S1x9 (constantI S_ 32 4607#32))
        (broadcastInDim S1x9 ![1] Facts.bcast_S9_S1x9_1 offs))))

theorem pre_split (h : fn (F := F) a0 a1 a2 a3 a4 a5 a6 a7 a8 a9 a10 a11 a12 a13 = fun _ => 1#1) :
    allFinite Facts.bcast_S_S4608x128 Facts.reducesTo_S4608x128_S_d0_1 Facts.h_S_ a3 = 1#1
    ∧ allFinite Facts.bcast_S_S4x128x128 Facts.reducesTo_S4x128x128_S_d0_1_2 Facts.h_S_ a4 = 1#1
    ∧ allFinite Facts.bcast_S_S4x128 Facts.reducesTo_S4x128_S_d0_1 Facts.h_S_ a5 = 1#1
    ∧ allFinite Facts.bcast_S_S4x128 Facts.reducesTo_S4x128_S_d0_1 Facts.h_S_ a6 = 1#1
    ∧ allFinite Facts.bcast_S_S4x128 Facts.reducesTo_S4x128_S_d0_1 Facts.h_S_ a7 = 1#1
    ∧ allFinite Facts.bcast_S_S128 Facts.reducesTo_S128_S_d0 Facts.h_S_ a8 = 1#1
    ∧ allFinite Facts.bcast_S_S128 Facts.reducesTo_S128_S_d0 Facts.h_S_ a9 = 1#1
    ∧ allFinite Facts.bcast_S_S128x128 Facts.reducesTo_S128x128_S_d0_1 Facts.h_S_ a10 = 1#1
    ∧ allFinite Facts.bcast_S_S128 Facts.reducesTo_S128_S_d0 Facts.h_S_ a11 = 1#1
    ∧ allFinite Facts.bcast_S_S128x1 Facts.reducesTo_S128x1_S_d0_1 Facts.h_S_ a12 = 1#1
    ∧ allFinite Facts.bcast_S_S1 Facts.reducesTo_S1_S_d0 Facts.h_S_ a13 = 1#1
    ∧ Host.reduce IntOp.andi (inRange a0) (constantI S_ 1 1#1) Facts.reducesTo_S50000x9_S_d0_1 Facts.h_S_ ix0 = 1#1 := by
  have e := congrFun h ix0
  simp only [fn, fn_part1, fn_part2, fn_part3, fn_part4, andi, IntOp.andi_eq_one] at e
  obtain ⟨⟨⟨⟨⟨⟨⟨⟨⟨⟨⟨h3, h4⟩, h5⟩, h6⟩, h7⟩, h8⟩, h9⟩, h10⟩, h11⟩, h12⟩, h13⟩, hI⟩ := e
  exact ⟨h3, h4, h5, h6, h7, h8, h9, h10, h11, h12, h13, hI⟩

end Split

def off (j : Fin 9) : BitVec 32 := 1#32 + BitVec.ofNat 32 j.val * 512#32

theorem off_toInt (j : Fin 9) : (off j).toInt = 1 + 512 * (j.val : ℤ) := by
  fin_cases j <;> decide
theorem neg_off_toInt (j : Fin 9) : (-(off j)).toInt = -(1 + 512 * (j.val : ℤ)) := by
  fin_cases j <;> decide
theorem last_sub_off_toInt (j : Fin 9) : (4607#32 - off j).toInt = 4607 - (1 + 512 * (j.val : ℤ)) := by
  fin_cases j <;> decide

section Entry

variable [Facts]

end Entry

section Read

variable [Facts]

private theorem bmod32 {n : Int} (h₁ : -2 ^ 31 ≤ n) (h₂ : n < 2 ^ 31) : n.bmod (2 ^ 32) = n :=
  Int.bmod_eq_of_le (by omega) (by omega)

section Int

variable {F : FTy → Type} [FloatOps F]
variable {a0 : IVec S50000x9 32} {a1 : IVec S2x800000 32} {a2 : IVec S50000 32}
  {a3 : FVec F S4608x128 .f32} {a4 : FVec F S4x128x128 .f32} {a5 a6 a7 : FVec F S4x128 .f32}
  {a8 a9 : FVec F S128 .f32} {a10 : FVec F S128x128 .f32} {a11 : FVec F S128 .f32}
  {a12 : FVec F S128x1 .f32} {a13 : FVec F S1 .f32}

theorem entry_range (h : fn (F := F) a0 a1 a2 a3 a4 a5 a6 a7 a8 a9 a10 a11 a12 a13 = fun _ => 1#1)
    (n : Fin 50000) (j : Fin 9) :
    -(1 + 512 * (j.val : ℤ)) ≤ (a0 (ix2 n j)).toInt ∧ (a0 (ix2 n j)).toInt ≤ 4607 - (1 + 512 * (j.val : ℤ)) := by
  have hI := (pre_split h).2.2.2.2.2.2.2.2.2.2.2
  have e := Host.reduce_andi_all _ _ Facts.reducesTo_S50000x9_S_d0_1 Facts.h_S_ ix0 hI (ix2 n j)
  have e' : IntOp.andi (IntOp.cmpi .sge (a0 (ix2 n j)) (-(off j))) (IntOp.cmpi .sle (a0 (ix2 n j)) (4607#32 - off j)) = 1#1 := e
  rw [IntOp.andi_eq_one, IntOp.cmpi_sge, IntOp.cmpi_sle, neg_off_toInt, last_sub_off_toInt] at e'
  exact e'

theorem idx_in_range (h : fn (F := F) a0 a1 a2 a3 a4 a5 a6 a7 a8 a9 a10 a11 a12 a13 = fun _ => 1#1)
    (n : Fin 50000) (j : Fin 9) :
    0 ≤ (a0 (ix2 n j) + off j).toInt ∧ (a0 (ix2 n j) + off j).toInt ≤ 4607 := by
  obtain ⟨hl, hu⟩ := entry_range h n j
  have hj : (j.val : ℤ) < 9 := by exact_mod_cast j.isLt
  have hj0 : (0 : ℤ) ≤ (j.val : ℤ) := Int.natCast_nonneg _
  rw [BitVec.toInt_add, off_toInt, bmod32 (by omega) (by omega)]
  constructor <;> omega

end Int

section Float

variable {a0 : IVec S50000x9 32} {a1 : IVec S2x800000 32} {a2 : IVec S50000 32}
  {a3 : FVec Ideal S4608x128 .f32} {a4 : FVec Ideal S4x128x128 .f32} {a5 a6 a7 : FVec Ideal S4x128 .f32}
  {a8 a9 : FVec Ideal S128 .f32} {a10 : FVec Ideal S128x128 .f32} {a11 : FVec Ideal S128 .f32}
  {a12 : FVec Ideal S128x1 .f32} {a13 : FVec Ideal S1 .f32}
variable (h : fn (F := Ideal) a0 a1 a2 a3 a4 a5 a6 a7 a8 a9 a10 a11 a12 a13 = fun _ => 1#1)
include h

theorem finite_arg3 (i : S4608x128.Idx) : ∃ r : ℝ, a3 i = (r : EReal) :=
  finite_of_all _ _ _ a3 (pre_split h).1 i
theorem finite_arg4 (i : S4x128x128.Idx) : ∃ r : ℝ, a4 i = (r : EReal) :=
  finite_of_all _ _ _ a4 (pre_split h).2.1 i
theorem finite_arg5 (i : S4x128.Idx) : ∃ r : ℝ, a5 i = (r : EReal) :=
  finite_of_all _ _ _ a5 (pre_split h).2.2.1 i
theorem finite_arg6 (i : S4x128.Idx) : ∃ r : ℝ, a6 i = (r : EReal) :=
  finite_of_all _ _ _ a6 (pre_split h).2.2.2.1 i
theorem finite_arg7 (i : S4x128.Idx) : ∃ r : ℝ, a7 i = (r : EReal) :=
  finite_of_all _ _ _ a7 (pre_split h).2.2.2.2.1 i
end Float

end Read

end Cert.HandPre
end
-- ==== Proof.LibBatchNorm.lean ====
import Idealize.ShloMosaic.PureOps.Ideal
import Idealize.ShloMosaic.PureOps.Ideal.Laws
import Mathlib.Data.EReal.Basic
import Mathlib.Data.EReal.Operations
import Mathlib.Analysis.Real.Sqrt
import Mathlib.Algebra.BigOperators.Group.Finset.Basic
import Mathlib.Algebra.BigOperators.Ring.Finset
import Mathlib.Algebra.Order.BigOperators.Group.Finset
import Mathlib.Tactic.Ring
import Mathlib.Tactic.FieldSimp
import Mathlib.Tactic.Positivity
import Mathlib.Tactic.NormNum

namespace Cert.HandMath

open Idealize.ShloMosaic
open scoped BigOperators

theorem coe_finset_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem coe_sum {ι : Type*} [Fintype ι] (f : ι → ℝ) :
    ((∑ i, f i : ℝ) : EReal) = ∑ i, (f i : EReal) :=
  coe_finset_sum Finset.univ f

theorem coe_max (x y : ℝ) : ((max x y : ℝ) : EReal) = max (x : EReal) (y : EReal) :=
  EReal.coe_strictMono.monotone.map_max

theorem real_zero : ∃ r : ℝ, (0 : EReal) = r := ⟨0, rfl⟩

theorem real_add {x y : EReal} (hx : ∃ r : ℝ, x = r) (hy : ∃ r : ℝ, y = r) : ∃ r : ℝ, x + y = r := by
  obtain ⟨a, rfl⟩ := hx; obtain ⟨b, rfl⟩ := hy
  exact ⟨a + b, (EReal.coe_add a b).symm⟩

theorem real_sub {x y : EReal} (hx : ∃ r : ℝ, x = r) (hy : ∃ r : ℝ, y = r) : ∃ r : ℝ, x - y = r := by
  obtain ⟨a, rfl⟩ := hx; obtain ⟨b, rfl⟩ := hy
  exact ⟨a - b, (EReal.coe_sub a b).symm⟩

theorem real_mul {x y : EReal} (hx : ∃ r : ℝ, x = r) (hy : ∃ r : ℝ, y = r) : ∃ r : ℝ, x * y = r := by
  obtain ⟨a, rfl⟩ := hx; obtain ⟨b, rfl⟩ := hy
  exact ⟨a * b, (EReal.coe_mul a b).symm⟩

theorem real_max_zero {x : EReal} (hx : ∃ r : ℝ, x = r) : ∃ r : ℝ, 0 ≤ r ∧ max x 0 = r := by
  obtain ⟨a, rfl⟩ := hx
  exact ⟨max a 0, le_max_right a 0, by rw [coe_max, EReal.coe_zero]⟩

theorem real_finset_sum {ι : Type*} (s : Finset ι) (f : ι → EReal) (h : ∀ i ∈ s, ∃ r : ℝ, f i = r) :
    ∃ r : ℝ, ∑ i ∈ s, f i = r := by
  classical
  have h' : ∀ i : ι, ∃ r : ℝ, i ∈ s → f i = r := fun i => by
    by_cases hi : i ∈ s
    · obtain ⟨r, hr⟩ := h i hi; exact ⟨r, fun _ => hr⟩
    · exact ⟨0, fun hi' => absurd hi' hi⟩
  choose g hg using h'
  exact ⟨∑ i ∈ s, g i, by rw [coe_finset_sum]; exact Finset.sum_congr rfl fun i hi => hg i hi⟩

theorem real_sum {ι : Type*} [Fintype ι] (f : ι → EReal) (h : ∀ i, ∃ r : ℝ, f i = r) :
    ∃ r : ℝ, ∑ i, f i = r :=
  real_finset_sum Finset.univ f fun i _ => h i

theorem real_sum_mul {ι : Type*} [Fintype ι] (f g : ι → EReal) (hf : ∀ i, ∃ r : ℝ, f i = r)
    (hg : ∀ i, ∃ r : ℝ, g i = r) : ∃ r : ℝ, ∑ i, f i * g i = r :=
  real_sum _ fun i => real_mul (hf i) (hg i)

theorem div_coe_coe (x N : ℝ) (hN : N ≠ 0) :
    Ideal.div (x : EReal) (N : EReal) = ((x / N : ℝ) : EReal) := by
  rw [Ideal.div_coe hN, ← EReal.coe_mul, mul_one_div]

theorem real_div {x y : EReal} (hx : ∃ r : ℝ, x = r) (hy : ∃ r : ℝ, r ≠ 0 ∧ y = r) :
    ∃ r : ℝ, Ideal.div x y = r := by
  obtain ⟨a, rfl⟩ := hx; obtain ⟨b, hb, rfl⟩ := hy
  exact ⟨a / b, div_coe_coe a b hb⟩

theorem sqrt_coe_of_nonneg (x : ℝ) (hx : 0 ≤ x) :
    Ideal.sqrt (x : EReal) = ((Real.sqrt x : ℝ) : EReal) := by
  rw [Ideal.sqrt_coe, if_neg (not_lt.mpr hx)]

theorem rsqrt_coe_of_pos (x : ℝ) (hx : 0 < x) :
    Ideal.rsqrt (x : EReal) = (((Real.sqrt x)⁻¹ : ℝ) : EReal) := by
  rw [Ideal.rsqrt_coe, if_neg (not_lt.mpr hx.le), if_neg hx.ne']

theorem mul_rsqrt_coe (g x : ℝ) (hx : 0 < x) :
    (g : EReal) * Ideal.rsqrt (x : EReal) = ((g / Real.sqrt x : ℝ) : EReal) := by
  rw [rsqrt_coe_of_pos x hx, ← EReal.coe_mul, div_eq_mul_inv]

theorem div_sqrt_coe (g x : ℝ) (hx : 0 < x) :
    Ideal.div (g : EReal) (Ideal.sqrt (x : EReal)) = ((g / Real.sqrt x : ℝ) : EReal) := by
  rw [sqrt_coe_of_nonneg x hx.le, div_coe_coe _ _ (Real.sqrt_pos.mpr hx).ne']

theorem mul_rsqrt_eq_div_sqrt (G : EReal) (x : ℝ) (hx : 0 < x) :
    G * Ideal.rsqrt (x : EReal) = Ideal.div G (Ideal.sqrt (x : EReal)) := by
  rw [sqrt_coe_of_nonneg x hx.le, Ideal.div_coe (Real.sqrt_pos.mpr hx).ne', rsqrt_coe_of_pos x hx, one_div]

theorem sum_sq_dev {ι : Type*} [Fintype ι] (a : ι → ℝ) (m : ℝ) :
    ∑ i, (a i - m) * (a i - m)
      = (∑ i, a i * a i) - 2 * m * (∑ i, a i) + (Fintype.card ι : ℝ) * (m * m) := by
  have h : ∀ i, (a i - m) * (a i - m) = a i * a i - 2 * m * a i + m * m := fun i => by ring
  simp only [h, Finset.sum_add_distrib, Finset.sum_sub_distrib, ← Finset.mul_sum, Finset.sum_const,
    Finset.card_univ, nsmul_eq_mul]
  ring

theorem var_uncentred_eq_centred {ι : Type*} [Fintype ι] (a : ι → ℝ) (N : ℝ)
    (hN : N = (Fintype.card ι : ℝ)) (hpos : 0 < N) :
    (∑ i, a i * a i) / N - (∑ i, a i) / N * ((∑ i, a i) / N)
      = (∑ i, (a i - (∑ j, a j) / N) * (a i - (∑ j, a j) / N)) / N := by
  have hN0 : N ≠ 0 := hpos.ne'
  rw [sum_sq_dev, ← hN]
  field_simp
  ring

theorem centred_var_nonneg {ι : Type*} [Fintype ι] (a : ι → ℝ) (m N : ℝ) (hpos : 0 < N) :
    0 ≤ (∑ i, (a i - m) * (a i - m)) / N :=
  div_nonneg (Finset.sum_nonneg fun i _ => mul_self_nonneg _) hpos.le

theorem bn_layer_of_eq {ι : Type*} [Fintype ι] (a : ι → ℝ) (N g b eps : ℝ)
    (hN : N = (Fintype.card ι : ℝ)) (hpos : 0 < N) (heps : 0 < eps)
    (S Q mean var scale shift m v : EReal)
    (hS : S = ∑ j, (a j : EReal)) (hQ : Q = ∑ j, (a j : EReal) * (a j : EReal))
    (hmean : mean = Ideal.div S (N : EReal)) (hvar : var = Ideal.div Q (N : EReal) - mean * mean)
    (hscale : scale = (g : EReal) * Ideal.rsqrt (var + (eps : EReal)))
    (hshift : shift = (b : EReal) - mean * scale)
    (hm : m = Ideal.div S (N : EReal))
    (hv : v = Ideal.div (∑ j, ((a j : EReal) - m) * ((a j : EReal) - m)) (N : EReal)) (i : ι) :
    max ((a i : EReal) * scale + shift) 0
      = max (((a i : EReal) - m) * Ideal.div (g : EReal) (Ideal.sqrt (v + (eps : EReal))) + (b : EReal)) 0 := by
  have hN0 : N ≠ 0 := hpos.ne'
  have hS' : S = ((∑ j, a j : ℝ) : EReal) := by rw [hS, coe_sum]
  have hQ' : Q = ((∑ j, a j * a j : ℝ) : EReal) := by
    rw [hQ, coe_sum]; exact Finset.sum_congr rfl fun j _ => (EReal.coe_mul _ _).symm
  have hmean' : mean = (((∑ j, a j) / N : ℝ) : EReal) := by rw [hmean, hS', div_coe_coe _ _ hN0]
  have hm' : m = (((∑ j, a j) / N : ℝ) : EReal) := by rw [hm, hS', div_coe_coe _ _ hN0]
  have hvar' : var = (((∑ j, a j * a j) / N - (∑ j, a j) / N * ((∑ j, a j) / N) : ℝ) : EReal) := by
    rw [hvar, hmean', hQ', div_coe_coe _ _ hN0, EReal.coe_sub, EReal.coe_mul]
  have hD : (∑ j, ((a j : EReal) - m) * ((a j : EReal) - m))
      = ((∑ j, (a j - (∑ k, a k) / N) * (a j - (∑ k, a k) / N) : ℝ) : EReal) := by
    rw [hm', coe_sum]; exact Finset.sum_congr rfl fun j _ => by rw [EReal.coe_mul, EReal.coe_sub]
  have hv' : v = (((∑ j, (a j - (∑ k, a k) / N) * (a j - (∑ k, a k) / N)) / N : ℝ) : EReal) := by
    rw [hv, hD, div_coe_coe _ _ hN0]
  have hvv := var_uncentred_eq_centred a N hN hpos
  have hV0 := centred_var_nonneg a ((∑ k, a k) / N) N hpos
  have hVe : 0 < (∑ j, (a j - (∑ k, a k) / N) * (a j - (∑ k, a k) / N)) / N + eps :=
    add_pos_of_nonneg_of_pos hV0 heps
  have hscale' : scale = ((g / Real.sqrt
      ((∑ j, (a j - (∑ k, a k) / N) * (a j - (∑ k, a k) / N)) / N + eps) : ℝ) : EReal) := by
    rw [hscale, hvar', hvv, ← EReal.coe_add, mul_rsqrt_coe _ _ hVe]
  have href : Ideal.div (g : EReal) (Ideal.sqrt (v + (eps : EReal))) = ((g / Real.sqrt
      ((∑ j, (a j - (∑ k, a k) / N) * (a j - (∑ k, a k) / N)) / N + eps) : ℝ) : EReal) := by
    rw [hv', ← EReal.coe_add, div_sqrt_coe _ _ hVe]
  rw [href, hshift, hscale', hmean', hm']
  congr 1
  norm_cast
  ring

theorem bn_layer_coe {ι : Type*} [Fintype ι] (a : ι → ℝ) (N g b eps : ℝ)
    (hN : N = (Fintype.card ι : ℝ)) (hpos : 0 < N) (heps : 0 < eps) (i : ι) :
    max ((a i : EReal) *
          ((g : EReal) * Ideal.rsqrt
            (Ideal.div (∑ j, (a j : EReal) * (a j : EReal)) (N : EReal)
              - Ideal.div (∑ j, (a j : EReal)) (N : EReal) * Ideal.div (∑ j, (a j : EReal)) (N : EReal)
              + (eps : EReal)))
        + ((b : EReal) - Ideal.div (∑ j, (a j : EReal)) (N : EReal) *
            ((g : EReal) * Ideal.rsqrt
              (Ideal.div (∑ j, (a j : EReal) * (a j : EReal)) (N : EReal)
                - Ideal.div (∑ j, (a j : EReal)) (N : EReal) * Ideal.div (∑ j, (a j : EReal)) (N : EReal)
                + (eps : EReal))))) 0
      = max (((a i : EReal) - Ideal.div (∑ j, (a j : EReal)) (N : EReal)) *
          Ideal.div (g : EReal) (Ideal.sqrt
            (Ideal.div (∑ j, ((a j : EReal) - Ideal.div (∑ k, (a k : EReal)) (N : EReal)) *
                             ((a j : EReal) - Ideal.div (∑ k, (a k : EReal)) (N : EReal))) (N : EReal)
              + (eps : EReal)))
        + (b : EReal)) 0 :=
  bn_layer_of_eq a N g b eps hN hpos heps _ _ _ _ _ _ _ _ rfl rfl rfl rfl rfl rfl rfl rfl i

theorem bn_layer {ι : Type*} [Fintype ι] (A : ι → EReal) (Nn G B E : EReal)
    (hA : ∀ j, ∃ r : ℝ, A j = r) (hNn : ∃ r : ℝ, r = (Fintype.card ι : ℝ) ∧ 0 < r ∧ Nn = r)
    (hG : ∃ r : ℝ, G = r) (hB : ∃ r : ℝ, B = r) (hE : ∃ r : ℝ, 0 < r ∧ E = r) (i : ι) :
    max (A i *
          (G * Ideal.rsqrt
            (Ideal.div (∑ j, A j * A j) Nn - Ideal.div (∑ j, A j) Nn * Ideal.div (∑ j, A j) Nn + E))
        + (B - Ideal.div (∑ j, A j) Nn *
            (G * Ideal.rsqrt
              (Ideal.div (∑ j, A j * A j) Nn - Ideal.div (∑ j, A j) Nn * Ideal.div (∑ j, A j) Nn + E)))) 0
      = max ((A i - Ideal.div (∑ j, A j) Nn) *
          Ideal.div G (Ideal.sqrt
            (Ideal.div (∑ j, (A j - Ideal.div (∑ k, A k) Nn) * (A j - Ideal.div (∑ k, A k) Nn)) Nn + E))
        + B) 0 := by
  choose a ha using hA
  obtain ⟨N, hN, hpos, rfl⟩ := hNn
  obtain ⟨g, rfl⟩ := hG
  obtain ⟨b, rfl⟩ := hB
  obtain ⟨eps, heps, rfl⟩ := hE
  obtain rfl : A = fun j => (a j : EReal) := funext ha
  exact bn_layer_coe a N g b eps hN hpos heps i

theorem bn_final_of_pos (d G B : EReal) (x : ℝ) (hx : 0 < x) :
    d * (G * Ideal.rsqrt (x : EReal)) + B = d * Ideal.div G (Ideal.sqrt (x : EReal)) + B := by
  rw [mul_rsqrt_eq_div_sqrt G x hx]

theorem bn_final_coe (d G B : EReal) (v eps : ℝ) (hv : 0 ≤ v) (heps : 0 < eps) :
    d * (G * Ideal.rsqrt ((v : EReal) + (eps : EReal))) + B
      = d * Ideal.div G (Ideal.sqrt ((v : EReal) + (eps : EReal))) + B := by
  rw [← EReal.coe_add]
  exact bn_final_of_pos d G B (v + eps) (add_pos_of_nonneg_of_pos hv heps)

theorem bn_final (d G B V E : EReal) (hV : ∃ r : ℝ, 0 ≤ r ∧ V = r) (hE : ∃ r : ℝ, 0 < r ∧ E = r) :
    d * (G * Ideal.rsqrt (V + E)) + B = d * Ideal.div G (Ideal.sqrt (V + E)) + B := by
  obtain ⟨v, hv, rfl⟩ := hV
  obtain ⟨eps, heps, rfl⟩ := hE
  exact bn_final_coe d G B v eps hv heps

theorem centred_var_real {ι : Type*} [Fintype ι] (A : ι → EReal) (M Nn : EReal)
    (hA : ∀ j, ∃ r : ℝ, A j = r) (hM : ∃ r : ℝ, M = r) (hNn : ∃ r : ℝ, 0 < r ∧ Nn = r) :
    ∃ r : ℝ, 0 ≤ r ∧ Ideal.div (∑ j, (A j - M) * (A j - M)) Nn = r := by
  choose a ha using hA
  obtain ⟨m, rfl⟩ := hM
  obtain ⟨N, hpos, rfl⟩ := hNn
  refine ⟨(∑ j, (a j - m) * (a j - m)) / N, centred_var_nonneg a m N hpos, ?_⟩
  rw [← div_coe_coe _ _ hpos.ne', coe_sum]
  congr 1
  exact Finset.sum_congr rfl fun j _ => by rw [ha j, EReal.coe_mul, EReal.coe_sub]

theorem mean_real {ι : Type*} [Fintype ι] (A : ι → EReal) (Nn : EReal)
    (hA : ∀ j, ∃ r : ℝ, A j = r) (hNn : ∃ r : ℝ, r ≠ 0 ∧ Nn = r) :
    ∃ r : ℝ, Ideal.div (∑ j, A j) Nn = r :=
  real_div (real_sum A hA) hNn

theorem real_sqrt_of_pos {x : EReal} (hx : ∃ r : ℝ, 0 < r ∧ x = r) :
    ∃ r : ℝ, 0 < r ∧ Ideal.sqrt x = r := by
  obtain ⟨a, ha, rfl⟩ := hx
  exact ⟨Real.sqrt a, Real.sqrt_pos.mpr ha, sqrt_coe_of_nonneg a ha.le⟩

theorem real_rsqrt_of_pos {x : EReal} (hx : ∃ r : ℝ, 0 < r ∧ x = r) :
    ∃ r : ℝ, 0 < r ∧ Ideal.rsqrt x = r := by
  obtain ⟨a, ha, rfl⟩ := hx
  exact ⟨(Real.sqrt a)⁻¹, inv_pos.mpr (Real.sqrt_pos.mpr ha), rsqrt_coe_of_pos a ha⟩

theorem real_add_pos {x y : EReal} (hx : ∃ r : ℝ, 0 ≤ r ∧ x = r) (hy : ∃ r : ℝ, 0 < r ∧ y = r) :
    ∃ r : ℝ, 0 < r ∧ x + y = r := by
  obtain ⟨a, ha, rfl⟩ := hx; obtain ⟨b, hb, rfl⟩ := hy
  exact ⟨a + b, add_pos_of_nonneg_of_pos ha hb, (EReal.coe_add a b).symm⟩

theorem real_of_pos {x : EReal} (hx : ∃ r : ℝ, 0 < r ∧ x = r) : ∃ r : ℝ, x = r := by
  obtain ⟨a, _, rfl⟩ := hx; exact ⟨a, rfl⟩

theorem real_ne_zero_of_pos {x : EReal} (hx : ∃ r : ℝ, 0 < r ∧ x = r) : ∃ r : ℝ, r ≠ 0 ∧ x = r := by
  obtain ⟨a, ha, rfl⟩ := hx; exact ⟨a, ha.ne', rfl⟩

theorem bn_layer_centred_real {ι : Type*} [Fintype ι] (A : ι → EReal) (Nn G B E : EReal)
    (hA : ∀ j, ∃ r : ℝ, A j = r) (hNn : ∃ r : ℝ, r = (Fintype.card ι : ℝ) ∧ 0 < r ∧ Nn = r)
    (hG : ∃ r : ℝ, G = r) (hB : ∃ r : ℝ, B = r) (hE : ∃ r : ℝ, 0 < r ∧ E = r) (i : ι) :
    ∃ r : ℝ, 0 ≤ r ∧
      max ((A i - Ideal.div (∑ j, A j) Nn) *
          Ideal.div G (Ideal.sqrt
            (Ideal.div (∑ j, (A j - Ideal.div (∑ k, A k) Nn) * (A j - Ideal.div (∑ k, A k) Nn)) Nn + E))
        + B) 0 = r := by
  have hNpos : ∃ r : ℝ, 0 < r ∧ Nn = r := by obtain ⟨N, _, hpos, h⟩ := hNn; exact ⟨N, hpos, h⟩
  have hM := mean_real A Nn hA (real_ne_zero_of_pos hNpos)
  have hV := centred_var_real A _ Nn hA hM hNpos
  have hR := real_sqrt_of_pos (real_add_pos hV hE)
  exact real_max_zero (real_add (real_mul (real_sub (hA i) hM) (real_div hG (real_ne_zero_of_pos hR))) hB)

theorem cmp_ogt_zero_of_pos {x : EReal} (hx : ∃ r : ℝ, 0 < r ∧ x = r) : Ideal.cmp .ogt x 0 = 1#1 := by
  obtain ⟨a, ha, rfl⟩ := hx
  have h : (0 : EReal) < (a : EReal) := EReal.coe_pos.mpr ha
  simp [Ideal.cmp, h]

theorem sub_toInt_zero (x : EReal) : x - ((((0#32 : BitVec 32).toInt : ℤ) : ℝ) : EReal) = x := by
  simp

theorem ofBits_f32_50000 : Ideal.ofBits .f32 0x47435000#32 = ((50000 : ℝ) : EReal) := by
  simp [Ideal.ofBits, Ideal.ieee, -EReal.coe_mul]
  norm_num

theorem ofBits_f32_512 : Ideal.ofBits .f32 0x44000000#32 = ((512 : ℝ) : EReal) := by
  simp [Ideal.ofBits, Ideal.ieee, -EReal.coe_mul]
  norm_num

theorem ofBits_f32_eps_pos : ∃ r : ℝ, 0 < r ∧ Ideal.ofBits .f32 0x3727C5AC#32 = (r : EReal) := by
  refine ⟨(10995116 : ℝ) * (2 : ℝ) ^ (-40 : Int), by positivity, ?_⟩
  simp [Ideal.ofBits, Ideal.ieee, -EReal.coe_mul]

theorem count_50000 : ∃ r : ℝ, r = (Fintype.card (Fin 50000) : ℝ) ∧ 0 < r ∧
    Ideal.ofBits .f32 0x47435000#32 = (r : EReal) :=
  ⟨50000, by simp, by norm_num, ofBits_f32_50000⟩

theorem count_512 : ∃ r : ℝ, r = (Fintype.card (Fin 512) : ℝ) ∧ 0 < r ∧
    Ideal.ofBits .f32 0x44000000#32 = (r : EReal) :=
  ⟨512, by simp, by norm_num, ofBits_f32_512⟩

example (d G B V E : Ideal .f32) (hV : ∃ r : ℝ, 0 ≤ r ∧ V = r) (hE : ∃ r : ℝ, 0 < r ∧ E = r) :
    FloatOps.addf (FloatOps.mulf d (FloatOps.mulf G (FloatOps.rsqrt (FloatOps.addf V E)))) B
      = FloatOps.addf (FloatOps.mulf d
          (FloatOps.hostDivf G (FloatOps.hostUnary .sqrt (FloatOps.addf V E)))) B := by
  simp only [Ideal.mulf_def, Ideal.addf_def, Ideal.rsqrt_def, Ideal.hostDivf_def, Ideal.hostUnary_sqrt_def]
  exact bn_final d G B V E hV hE

example (A : Fin 50000 → Ideal .f32) (G B : Ideal .f32) (hA : ∀ j, ∃ r : ℝ, A j = r)
    (hG : ∃ r : ℝ, G = r) (hB : ∃ r : ℝ, B = r) (i : Fin 50000)
    (S Q mean var scale shift : Ideal .f32)
    (hS : S = ∑ j, A j) (hQ : Q = ∑ j, FloatOps.mulf (A j) (A j))
    (hmean : mean = FloatOps.hostDivf S (FloatOps.ofBits .f32 0x47435000#32))
    (hvar : var = FloatOps.subf (FloatOps.hostDivf Q (FloatOps.ofBits .f32 0x47435000#32)) (FloatOps.mulf mean mean))
    (hscale : scale = FloatOps.mulf G (FloatOps.hostUnary .rsqrt (FloatOps.addf var (FloatOps.ofBits .f32 0x3727C5AC#32))))
    (hshift : shift = FloatOps.subf B (FloatOps.mulf mean scale)) :
    FloatOps.maximumf (FloatOps.addf (FloatOps.mulf (A i) scale) shift) (FloatOps.ofBits .f32 0x00000000#32)
      = FloatOps.maximumf
          (FloatOps.addf
            (FloatOps.mulf (FloatOps.subf (A i) mean)
              (FloatOps.hostDivf G (FloatOps.hostUnary .sqrt
                (FloatOps.addf
                  (FloatOps.hostDivf (∑ j, FloatOps.mulf (FloatOps.subf (A j) mean) (FloatOps.subf (A j) mean))
                    (FloatOps.ofBits .f32 0x47435000#32))
                  (FloatOps.ofBits .f32 0x3727C5AC#32)))))
            B)
          (FloatOps.ofBits .f32 0x00000000#32) := by
  rw [hshift, hscale, hvar, hmean, hQ, hS]
  simp only [Ideal.mulf_def, Ideal.addf_def, Ideal.subf_def, Ideal.hostDivf_def, Ideal.hostUnary_rsqrt_def,
    Ideal.hostUnary_sqrt_def, Ideal.maximumf_def, Ideal.ofBits_def, Ideal.ofBits_zero_f32]
  exact bn_layer A _ G B _ hA count_50000 hG hB ofBits_f32_eps_pos i

end Cert.HandMath
-- ==== Proof.Val0Pay.lean ====
import proofs.«402767_j7713761264261_1_alg».proof.Proof.Reg0
import Idealize.ShloMosaic.Lib.Pipeline.Value
import Idealize.ShloMosaic.Lib.ValueIdx
import Idealize.ShloMosaic.PureOps.Ideal.Laws
import Idealize.ShloMosaic.Lib.KernelVsHost

noncomputable section

namespace Cert.KernelIdeal.HandValue

open Cert.KernelIdeal.Gen Cert.KernelIdeal.Hand
open Idealize.ShloMosaic Idealize.ShloMosaic.TcCoe Idealize.SL.Sem
open Idealize.ShloMosaic.ValueIdx

theorem lhs_mm_0 (i : S400x128.Idx) (k : dot_S400x4608_S4608x128_S400x128_1_0_0_1_n_n.contr.Idx) :
    (dot_S400x4608_S4608x128_S400x128_1_0_0_1_n_n.lhsIdx i k 0).val = (i 0).val := by
  unfold DotDims.lhsIdx
  rw [dif_neg (show ¬(0 : Fin S400x4608.rank) ∈ dot_S400x4608_S4608x128_S400x128_1_0_0_1_n_n.lhsBatch by decide),
    dif_pos (show (0 : Fin S400x4608.rank) ∈ dot_S400x4608_S4608x128_S400x128_1_0_0_1_n_n.lhsNonContracting by decide)]
  rfl

theorem lhs_mm_1 (i : S400x128.Idx) (k : dot_S400x4608_S4608x128_S400x128_1_0_0_1_n_n.contr.Idx) :
    (dot_S400x4608_S4608x128_S400x128_1_0_0_1_n_n.lhsIdx i k 1).val = (k ⟨0, by decide⟩).val :=
  dot_S400x4608_S4608x128_S400x128_1_0_0_1_n_n.lhsIdx_val_of_single rfl i k

theorem rhs_mm_0 (i : S400x128.Idx) (k : dot_S400x4608_S4608x128_S400x128_1_0_0_1_n_n.contr.Idx) :
    (dot_S400x4608_S4608x128_S400x128_1_0_0_1_n_n.rhsIdx i k 0).val = (k ⟨0, by decide⟩).val :=
  dot_S400x4608_S4608x128_S400x128_1_0_0_1_n_n.rhsIdx_val_of_single rfl i k

theorem rhs_mm_1 (i : S400x128.Idx) (k : dot_S400x4608_S4608x128_S400x128_1_0_0_1_n_n.contr.Idx) :
    (dot_S400x4608_S4608x128_S400x128_1_0_0_1_n_n.rhsIdx i k 1).val = (i 1).val := by
  unfold DotDims.rhsIdx
  rw [dif_neg (show ¬(1 : Fin S4608x128.rank) ∈ dot_S400x4608_S4608x128_S400x128_1_0_0_1_n_n.rhsBatch by decide),
    dif_pos (show (1 : Fin S4608x128.rank) ∈ dot_S400x4608_S4608x128_S400x128_1_0_0_1_n_n.rhsNonContracting by decide)]
  rfl

theorem mm_apply (lhs : FVec Ideal S400x4608 .bf16) (rhs : FVec Ideal S4608x128 .bf16) (p : Fin 400) (q : Fin 128) :
    (matmul dot_S400x4608_S4608x128_S400x128_1_0_0_1_n_n none lhs rhs (constant S400x128 .f32 0x00000000#32) : FVec Ideal S400x128 .f32) (ix2 p q)
      = ∑ v : Fin 4608, lhs (ix2 p v) * rhs (ix2 v q) := by
  simp only [matmul]
  rw [Ideal.matmul_constant_zero_apply, ← Equiv.sum_comp (contrEquiv1 dot_S400x4608_S4608x128_S400x128_1_0_0_1_n_n 4608 rfl rfl).symm]
  refine Finset.sum_congr rfl fun k _ => ?_
  have hk := contrEquiv1_symm_val dot_S400x4608_S4608x128_S400x128_1_0_0_1_n_n 4608 rfl rfl k
  have el : dot_S400x4608_S4608x128_S400x128_1_0_0_1_n_n.lhsIdx (ix2 p q) ((contrEquiv1 dot_S400x4608_S4608x128_S400x128_1_0_0_1_n_n 4608 rfl rfl).symm k) = ix2 p k :=
    funext fun a => Fin.ext (by
      match a with
      | ⟨0, _⟩ => exact lhs_mm_0 _ _
      | ⟨1, _⟩ => exact (lhs_mm_1 _ _).trans hk)
  have er : dot_S400x4608_S4608x128_S400x128_1_0_0_1_n_n.rhsIdx (ix2 p q) ((contrEquiv1 dot_S400x4608_S4608x128_S400x128_1_0_0_1_n_n 4608 rfl rfl).symm k) = ix2 k q :=
    funext fun a => Fin.ext (by
      match a with
      | ⟨0, _⟩ => exact (rhs_mm_0 _ _).trans hk
      | ⟨1, _⟩ => exact rhs_mm_1 _ _)
  rw [el, er]

def hot (col : Vec Ideal S400x1 .i32) : FVec Ideal S400x4608 .bf16 :=
  truncf .bf16 (sitofp .f32 (extui 32 (cmpi .eq
    (broadcastTo S400x4608 (shapeCast S400x1 col shapeCasts_S400x1_S400x1) broadcasts_S400x1_S400x4608)
    (broadcastTo S400x4608 (lanes0 : IVec S1x4608 32) broadcasts_S1x4608_S400x4608)) natLt_1_32)) bitsLt_bf16_f32

theorem bit_val (a b : BitVec 32) :
    ((((IntOp.cmpi .eq a b).setWidth 32).toInt : ℝ) : EReal) = if a = b then 1 else 0 := by
  rw [toInt_setWidth_bit]
  by_cases h : a = b
  · rw [if_pos h, IntOp.cmpi_eq.mpr h]; norm_num
  · rw [if_neg h]
    have h0 : IntOp.cmpi .eq a b = 0#1 := by
      rcases BitVec.eq_zero_or_eq_one (IntOp.cmpi .eq a b) with e | e
      · exact e
      · exact absurd (IntOp.cmpi_eq.mp e) h
    rw [h0]; norm_num

theorem hot_apply (col : Vec Ideal S400x1 .i32) (p : Fin 400) (v : Fin 4608) :
    hot col (ix2 p v) = if col (ix2 p 0) = BitVec.ofNat 32 v.val then 1 else 0 := by
  have ea : broadcastTo S400x4608 (shapeCast S400x1 col shapeCasts_S400x1_S400x1) broadcasts_S400x1_S400x4608 (ix2 p v) = col (ix2 p 0) := by
    rw [broadcastTo_apply _ _ (ix2 p v) (ix2 p 0) (fun a => by
      match a with
      | ⟨0, _⟩ => rfl
      | ⟨1, _⟩ => rfl), shapeCast_self]
  have eb : broadcastTo S400x4608 (lanes0 : IVec S1x4608 32) broadcasts_S1x4608_S400x4608 (ix2 p v) = BitVec.ofNat 32 v.val := by
    rw [broadcastTo_apply _ _ (ix2 p v) (ix2 0 v) (fun a => by
      match a with
      | ⟨0, _⟩ => rfl
      | ⟨1, _⟩ => rfl)]
    unfold lanes0
    rw [iota_single_apply]
  show ((((IntOp.cmpi .eq _ _).setWidth 32).toInt : ℝ) : EReal) = _
  rw [ea, eb]
  exact bit_val _ _

def mmz (h : FVec Ideal S400x4608 .bf16) (T : FVec Ideal S4608x128 .bf16) : FVec Ideal S400x128 .f32 :=
  matmul dot_S400x4608_S4608x128_S400x128_1_0_0_1_n_n none h T (constant S400x128 .f32 0x00000000#32)

theorem mmz_apply (h : FVec Ideal S400x4608 .bf16) (T : FVec Ideal S4608x128 .bf16) (p : Fin 400) (q : Fin 128) :
    mmz h T (ix2 p q) = ∑ v : Fin 4608, h (ix2 p v) * T (ix2 v q) := mm_apply h T p q

theorem ld_col (x0 : Vec Ideal S400x9 .i32) (j : Fin 9)
    (inb : ∀ a, (![0, j.val] : Fin 2 → Nat) a + S400x1.size a ≤ S400x9.size a) (p : Fin 400) :
    (View.ld x0 (Rect.unit (s := S400x9) ![0, j.val] S400x1.size inb)) (ix2 p 0) = x0 (ix2 p j) := by
  show x0 _ = x0 _
  refine congrArg x0 (funext fun a => Fin.ext ?_)
  match a with
  | ⟨0, _⟩ => show 0 + 1 * p.val = p.val; omega
  | ⟨1, _⟩ => show j.val + 1 * 0 = j.val; omega

theorem hz00 : (![0, 0] : Fin 2 → Nat) = fun _ => 0 := funext fun a => by fin_cases a <;> rfl

theorem sum0_eq (x0 : Vec Ideal S400x9 .i32) (x1 : Vec Ideal S4608x128 .f32) :
    sum0 x0 x1 =
      addf (addf (addf (addf (addf (addf (addf (addf (addf
        (broadcast S400x128 (Scalar.ofBits .f32 0x00000000#32))
        (mmz (hot (View.ld x0 col0)) (truncf .bf16 (View.ld x1 tabR) bitsLt_bf16_f32)))
        (mmz (hot (View.ld x0 col1)) (truncf .bf16 (View.ld x1 tabR) bitsLt_bf16_f32)))
        (mmz (hot (View.ld x0 col2)) (truncf .bf16 (View.ld x1 tabR) bitsLt_bf16_f32)))
        (mmz (hot (View.ld x0 col3)) (truncf .bf16 (View.ld x1 tabR) bitsLt_bf16_f32)))
        (mmz (hot (View.ld x0 col4)) (truncf .bf16 (View.ld x1 tabR) bitsLt_bf16_f32)))
        (mmz (hot (View.ld x0 col5)) (truncf .bf16 (View.ld x1 tabR) bitsLt_bf16_f32)))
        (mmz (hot (View.ld x0 col6)) (truncf .bf16 (View.ld x1 tabR) bitsLt_bf16_f32)))
        (mmz (hot (View.ld x0 col7)) (truncf .bf16 (View.ld x1 tabR) bitsLt_bf16_f32)))
        (mmz (hot (View.ld x0 col8)) (truncf .bf16 (View.ld x1 tabR) bitsLt_bf16_f32)) := rfl

theorem sum9 (f : Fin 9 → EReal) : 0 + f 0 + f 1 + f 2 + f 3 + f 4 + f 5 + f 6 + f 7 + f 8 = ∑ j : Fin 9, f j := by
  rw [Fin.sum_univ_castSucc, Fin.sum_univ_eight, zero_add]
  rfl

theorem prod_apply (x0 : Vec Ideal S400x9 .i32) (x1 : Vec Ideal S4608x128 .f32) (j : Fin 9)
    (inb : ∀ a, (![0, j.val] : Fin 2 → Nat) a + S400x1.size a ≤ S400x9.size a) (p : Fin 400) (q : Fin 128) :
    mmz (hot (View.ld x0 (Rect.unit (s := S400x9) ![0, j.val] S400x1.size inb))) (truncf .bf16 (View.ld x1 tabR) bitsLt_bf16_f32) (ix2 p q)
      = ∑ v : Fin 4608, (if x0 (ix2 p j) = BitVec.ofNat 32 v.val then (1 : EReal) else 0) * x1 (ix2 v q) := by
  rw [mmz_apply]
  refine Finset.sum_congr rfl fun v _ => ?_
  rw [hot_apply, ld_col, truncf_apply, View.ld_unit_zero (S := S4608x128) hz00]

theorem sum0_apply (x0 : Vec Ideal S400x9 .i32) (x1 : Vec Ideal S4608x128 .f32) (p : Fin 400) (q : Fin 128) :
    sum0 x0 x1 (ix2 p q)
      = ∑ j : Fin 9, ∑ v : Fin 4608, (if x0 (ix2 p j) = BitVec.ofNat 32 v.val then (1 : EReal) else 0) * x1 (ix2 v q) := by
  rw [sum0_eq]
  simp only [addf_apply, broadcast_apply]
  have e0 : mmz (hot (View.ld x0 col0)) (truncf .bf16 (View.ld x1 tabR) bitsLt_bf16_f32) (ix2 p q) = _ := prod_apply x0 x1 0 _ p q
  have e1 : mmz (hot (View.ld x0 col1)) (truncf .bf16 (View.ld x1 tabR) bitsLt_bf16_f32) (ix2 p q) = _ := prod_apply x0 x1 1 _ p q
  have e2 : mmz (hot (View.ld x0 col2)) (truncf .bf16 (View.ld x1 tabR) bitsLt_bf16_f32) (ix2 p q) = _ := prod_apply x0 x1 2 _ p q
  have e3 : mmz (hot (View.ld x0 col3)) (truncf .bf16 (View.ld x1 tabR) bitsLt_bf16_f32) (ix2 p q) = _ := prod_apply x0 x1 3 _ p q
  have e4 : mmz (hot (View.ld x0 col4)) (truncf .bf16 (View.ld x1 tabR) bitsLt_bf16_f32) (ix2 p q) = _ := prod_apply x0 x1 4 _ p q
  have e5 : mmz (hot (View.ld x0 col5)) (truncf .bf16 (View.ld x1 tabR) bitsLt_bf16_f32) (ix2 p q) = _ := prod_apply x0 x1 5 _ p q
  have e6 : mmz (hot (View.ld x0 col6)) (truncf .bf16 (View.ld x1 tabR) bitsLt_bf16_f32) (ix2 p q) = _ := prod_apply x0 x1 6 _ p q
  have e7 : mmz (hot (View.ld x0 col7)) (truncf .bf16 (View.ld x1 tabR) bitsLt_bf16_f32) (ix2 p q) = _ := prod_apply x0 x1 7 _ p q
  have e8 : mmz (hot (View.ld x0 col8)) (truncf .bf16 (View.ld x1 tabR) bitsLt_bf16_f32) (ix2 p q) = _ := prod_apply x0 x1 8 _ p q
  rw [e0, e1, e2, e3, e4, e5, e6, e7, e8]
  show Ideal.ofBits .f32 0x00000000#32 + _ + _ + _ + _ + _ + _ + _ + _ + _ = _
  rw [Ideal.ofBits_zero_f32]
  exact sum9 fun j => ∑ v : Fin 4608, (if x0 (ix2 p j) = BitVec.ofNat 32 v.val then (1 : EReal) else 0) * x1 (ix2 v q)

end Cert.KernelIdeal.HandValue
-- ==== Proof.Val0.lean ====
import proofs.«402767_j7713761264261_1_alg».proof.Proof.Val0Pay

noncomputable section

namespace Cert.KernelIdeal.HandValue

open Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

def lookup0 (idx : S50000x9.Idx → BitVec 32) (tab : S4608x128.Idx → EReal) : S50000x128.Idx → EReal :=
  fun i => ∑ j : Fin 9, ∑ v : Fin 4608,
    (if idx (ix2 ⟨(i 0).val, idx2_lt0 i⟩ j) = BitVec.ofNat 32 v.val then (1 : EReal) else 0)
      * tab (ix2 v ⟨(i 1).val, idx2_lt1 i⟩)

theorem blk_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem idx_blk (c : Dev nD) (t : Fin cfg0.N) (x : S400x9.Idx) (k : S50000x9.Idx)
    (hk0 : (k 0).val = 400 * t.val + (x 0).val) (hk1 : (k 1).val = (x 1).val) :
    (iblk0 V c 0 t : Vec Ideal S400x9 .i32) x = (V c (Pipeline.arrRef spec0 0) : S50000x9.Idx → BitVec 32) k := by
  obtain ⟨e0, e1, -⟩ := blk_facts0 t
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 400 + 1 * (x 0).val = (k 0).val; rw [e0, hk0]; omega
  | ⟨1, _⟩ => show win0_0.index t (1 : Fin 2) * 9 + 1 * (x 1).val = (k 1).val; rw [e1, hk1]; omega

theorem tab_blk (c : Dev nD) (t : Fin cfg0.N) (x k : S4608x128.Idx)
    (hk0 : (k 0).val = (x 0).val) (hk1 : (k 1).val = (x 1).val) :
    (iblk0 V c 1 t : Vec Ideal S4608x128 .f32) x = (V c (Pipeline.arrRef spec0 1) : S4608x128.Idx → EReal) k := by
  obtain ⟨-, -, e0, e1, -⟩ := blk_facts0 t
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 4608 + 1 * (x 0).val = (k 0).val; rw [e0, hk0]; omega
  | ⟨1, _⟩ => show win0_1.index t (1 : Fin 2) * 128 + 1 * (x 1).val = (k 1).val; rw [e1, hk1]; omega

theorem flushed0 (c : Dev nD) (t : Fin cfg0.N) :
    (dat0 (F := Ideal) V c).flushed 2 t
      = ((cfg0.win 2).blk t).view.read (Elt Ideal) (lookup0 (V c (Pipeline.arrRef spec0 0)) (V c (Pipeline.arrRef spec0 1))) := by
  show (cfg0.win 2).cut (grid0.coords t) ((dat0 V c).after 2 t) = _
  rw [after0_2]
  unfold out0_2
  rw [View.canon_unit_zero hz00]
  funext y
  obtain ⟨p, q, rfl⟩ : ∃ (p : Fin 400) (q : Fin 128), y = ix2 p q := ⟨y 0, y 1, eq_ix2 y⟩
  refine (sum0_apply (iblk0 V c 0 t) (iblk0 V c 1 t) p q).trans ?_
  obtain ⟨-, -, -, -, e20, e21⟩ := blk_facts0 t
  have h0 : ((((cfg0.win 2).blk t).view.emb (ix2 p q)) 0).val = 400 * t.val + p.val := by
    show win0_2.index t (0 : Fin 2) * 400 + 1 * p.val = _; rw [e20]; omega
  have h1 : ((((cfg0.win 2).blk t).view.emb (ix2 p q)) 1).val = q.val := by
    show win0_2.index t (1 : Fin 2) * 128 + 1 * q.val = _; rw [e21]; omega
  show _ = lookup0 _ _ (((cfg0.win 2).blk t).view.emb (ix2 p q))
  unfold lookup0
  refine Finset.sum_congr rfl fun j _ => Finset.sum_congr rfl fun v _ => ?_
  have ha := idx_blk V c t (ix2 p j) (ix2 ⟨((((cfg0.win 2).blk t).view.emb (ix2 p q)) 0).val, idx2_lt0 _⟩ j) h0 rfl
  have hb := tab_blk V c t (ix2 v q) (ix2 v ⟨((((cfg0.win 2).blk t).view.emb (ix2 p q)) 1).val, idx2_lt1 _⟩) rfl h1
  rw [ha, hb]

theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 125 := N_0
  have ht : (i 0).val / 400 < cfg0.N := by rw [hN]; omega
  obtain ⟨-, -, -, -, e20, e21⟩ := blk_facts0 ⟨(i 0).val / 400, ht⟩
  refine ⟨⟨(i 0).val / 400, ht⟩, flush0_2 _, ?_⟩
  show i ∈ ((View.whole main_v8).slice (win0_2.rect ⟨(i 0).val / 400, ht⟩)).set
  rw [View.set_slice_whole, Rect.mem_set_unit]
  intro a
  match a with
  | ⟨0, _⟩ =>
    show win0_2.index ⟨(i 0).val / 400, ht⟩ (0 : Fin 2) * 400 ≤ (i 0).val ∧ (i 0).val < win0_2.index ⟨(i 0).val / 400, ht⟩ (0 : Fin 2) * 400 + 400
    rw [e20]; show (i 0).val / 400 * 400 ≤ (i 0).val ∧ (i 0).val < (i 0).val / 400 * 400 + 400; omega
  | ⟨1, _⟩ =>
    show win0_2.index ⟨(i 0).val / 400, ht⟩ (1 : Fin 2) * 128 ≤ (i 1).val ∧ (i 1).val < win0_2.index ⟨(i 0).val / 400, ht⟩ (1 : Fin 2) * 128 + 128
    rw [e21]; omega

theorem value0 (c : Dev nD) :
    (dat0 (F := Ideal) V c).arrAt 2 cfg0.N
      = lookup0 (V c (Pipeline.arrRef spec0 0)) (V c (Pipeline.arrRef spec0 1)) :=
  (dat0 V c).arrAt_eq_of_cover 2 _ (fun t _ => flushed0 V c t) (fun i => cover0 i)

theorem row_word_inj (a b : Fin 4608) (h : BitVec.ofNat 32 a.val = BitVec.ofNat 32 b.val) : a = b := by
  have e := congrArg BitVec.toNat h
  simp only [BitVec.toNat_ofNat] at e
  have ha := a.isLt
  have hb := b.isLt
  exact Fin.ext (by omega)

theorem lookup0_of_rows (idx : S50000x9.Idx → BitVec 32) (tab : S4608x128.Idx → EReal)
    (r : Fin 50000 → Fin 9 → Fin 4608) (hr : ∀ n j, idx (ix2 n j) = BitVec.ofNat 32 (r n j).val) (i : S50000x128.Idx) :
    lookup0 idx tab i = ∑ j : Fin 9, tab (ix2 (r ⟨(i 0).val, idx2_lt0 i⟩ j) ⟨(i 1).val, idx2_lt1 i⟩) := by
  unfold lookup0
  refine Finset.sum_congr rfl fun j _ => ?_
  rw [Finset.sum_eq_single (r ⟨(i 0).val, idx2_lt0 i⟩ j)]
  · rw [if_pos (hr _ _), one_mul]
  · intro v _ hv
    rw [if_neg (fun e => hv (row_word_inj _ _ ((hr _ _).symm.trans e)).symm), zero_mul]
  · intro h; exact absurd (Finset.mem_univ _) h

def rowOf (x : BitVec 32) : Fin 4608 := ⟨x.toNat % 4608, Nat.mod_lt _ (by decide)⟩

theorem rowOf_val (x : BitVec 32) (h0 : 0 ≤ x.toInt) (h1 : x.toInt ≤ 4607) : (rowOf x).val = x.toNat := by
  show x.toNat % 4608 = x.toNat
  have hx := x.isLt
  rw [BitVec.toInt_eq_toNat_cond] at h0 h1
  split_ifs at h0 h1 <;> omega

theorem lookup0_of_range (idx : S50000x9.Idx → BitVec 32) (tab : S4608x128.Idx → EReal)
    (hr : ∀ (n : Fin 50000) (j : Fin 9), 0 ≤ (idx (ix2 n j)).toInt ∧ (idx (ix2 n j)).toInt ≤ 4607) (i : S50000x128.Idx) :
    lookup0 idx tab i = ∑ j : Fin 9, tab (ix2 (rowOf (idx (ix2 ⟨(i 0).val, idx2_lt0 i⟩ j))) ⟨(i 1).val, idx2_lt1 i⟩) :=
  lookup0_of_rows idx tab (fun n j => rowOf (idx (ix2 n j)))
    (fun n j => by rw [rowOf_val _ (hr n j).1 (hr n j).2, BitVec.ofNat_toNat, BitVec.setWidth_eq]) i

end Cert.KernelIdeal.HandValue
-- ==== Proof.BridgeEmb.lean ====
import proofs.«402767_j7713761264261_1_alg».proof.Proof.RefStages
import proofs.«402767_j7713761264261_1_alg».proof.Proof.LibTakeFill
import proofs.«402767_j7713761264261_1_alg».proof.Proof.PreFacts
import proofs.«402767_j7713761264261_1_alg».proof.Proof.LibBatchNorm
import proofs.«402767_j7713761264261_1_alg».proof.Proof.Val0
import Idealize.ShloMosaic.Lib.IdealHost

noncomputable section

namespace Cert.Bridge

open Cert.ReferenceIdeal Cert.ReferenceIdeal.Gen Cert.ReferenceIdeal.HandRun
open Idealize.ShloMosaic Idealize.ShloMosaic.ValueIdx
open Cert.HandPre (off)
open Cert.KernelIdeal.HandValue (lookup0 rowOf rowOf_val lookup0_of_range)

theorem toNat_of_range (x : BitVec 32) (h0 : 0 ≤ x.toInt) (h1 : x.toInt ≤ 4607) :
    x.toInt.toNat = x.toNat ∧ x.toNat ≤ 4607 := by
  have hx := x.isLt
  have e : x.toInt = (x.toNat : ℤ) := by
    rw [BitVec.toInt_eq_toNat_cond] at h0 ⊢
    split_ifs at h0 ⊢ <;> omega
  rw [e] at h1
  rw [e, Int.toNat_natCast]
  exact ⟨rfl, by omega⟩

theorem embIdx_apply (xf : S50000x9.Idx → BitVec 32) (n : Fin 50000) (j : Fin 9) :
    embIdx (F := Ideal) xf (ix2 n j) = xf (ix2 n j) + off j := rfl

theorem takeIdx_apply (idx : S50000x9.Idx → BitVec 32) (n : Fin 50000) (j : Fin 9) :
    HandRun.takeIdx (F := Ideal) idx (ix3 n j 0)
      = Scalar.select (IntOp.cmpi .slt (idx (ix2 n j)) 0#32) (IntOp.addi (idx (ix2 n j)) 4608#32) (idx (ix2 n j)) := by
  unfold HandRun.takeIdx
  rw [broadcastInDim_apply _ _ _ (ix3 n j 0) (ix2 n j) (fun a => by
    match a with
    | ⟨0, _⟩ => rfl
    | ⟨1, _⟩ => rfl)]
  rfl

theorem takeIdx_of_nonneg (idx : S50000x9.Idx → BitVec 32) (n : Fin 50000) (j : Fin 9) (h0 : 0 ≤ (idx (ix2 n j)).toInt) :
    HandRun.takeIdx (F := Ideal) idx (ix3 n j 0) = idx (ix2 n j) := by
  rw [takeIdx_apply]; exact Cert.Lib.TakeFill.wrap_of_nonneg 4608 _ h0

theorem mask_one {R C : Nat} {u : Shape} (hred : (⟨3, ![R, C, 1]⟩ : Shape).ReducesTo [2] ⟨2, ![R, C]⟩)
    (hu : 0 < u.numel) (init : u.Idx → BitVec 1) (hinit : init (Shape.Idx.first hu) = 1#1)
    (col lo hi : IVec ⟨3, ![R, C, 1]⟩ 32) (n : Fin R) (j : Fin C)
    (hx : (lo (ix3 n j 0)).toInt ≤ (col (ix3 n j 0)).toInt ∧ (col (ix3 n j 0)).toInt ≤ (hi (ix3 n j 0)).toInt) :
    Host.reduce IntOp.andi (andi (cmpi .sge col lo) (cmpi .sle col hi)) init hred hu (ix2 n j) = 1#1 := by
  rw [Host.reduce_eq_foldl, hinit]
  refine Cert.Lib.TakeFill.foldl_andi_of_all_one _ _ fun i hmem => ?_
  have hd : hred.drop i = ix2 n j := of_decide_eq_true (List.mem_filter.1 hmem).2
  have hv0 : (hred.drop i 0 : Nat) = i 0 := Shape.ReducesTo.drop_apply_val hred i 0
  have hv1 : (hred.drop i 1 : Nat) = i 1 := Shape.ReducesTo.drop_apply_val hred i 1
  have hi3 : i = ix3 n j 0 := by
    funext b
    match b with
    | ⟨0, _⟩ => exact Fin.ext (by show ((i 0 : Fin _) : Nat) = n.val; rw [← hv0, hd]; rfl)
    | ⟨1, _⟩ => exact Fin.ext (by show ((i 1 : Fin _) : Nat) = j.val; rw [← hv1, hd]; rfl)
    | ⟨2, _⟩ => exact Subsingleton.elim (α := Fin 1) _ _
  subst hi3
  exact IntOp.andi_eq_one.2 ⟨IntOp.cmpi_sge.2 hx.1, IntOp.cmpi_sle.2 hx.2⟩

theorem takeOk_one (k : S50000x9x1.Idx → BitVec 32) (n : Fin 50000) (j : Fin 9)
    (h0 : 0 ≤ (k (ix3 n j 0)).toInt) (h1 : (k (ix3 n j 0)).toInt ≤ 4607) :
    takeOk (F := Ideal) k (ix2 n j) = 1#1 :=
  mask_one reducesTo_S50000x9x1_S50000x9_d2 h_S_ _ rfl k _ _ n j ⟨h0, h1⟩

theorem gather_row (tbl : S4608x128.Idx → EReal) (k : IVec S50000x9x1 32) (n : Fin 50000) (j : Fin 9) (h : Fin 128) :
    Host.gather gather_S4608x128_S50000x9x1_S50000x9x128_2_0_n_n_0_2_1128 tbl k (ix3 n j h)
      = tbl (ix2 ⟨min (k (ix3 n j 0)).toInt.toNat 4607, by omega⟩ h) := by
  unfold Host.gather
  refine congrArg tbl (funext fun a => Fin.ext ?_)
  match a with
  | ⟨0, _⟩ =>
    show gather_S4608x128_S50000x9x1_S50000x9x128_2_0_n_n_0_2_1128.start (ix3 n j h) k 0
        + gather_S4608x128_S50000x9x1_S50000x9x128_2_0_n_n_0_2_1128.batchCoord (ix3 n j h) 0
        + gather_S4608x128_S50000x9x1_S50000x9x128_2_0_n_n_0_2_1128.offCoord (ix3 n j h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ gather_S4608x128_S50000x9x1_S50000x9x128_2_0_n_n_0_2_1128.startIndexMap from List.mem_singleton.mpr rfl)]
    have hsi : gather_S4608x128_S50000x9x1_S50000x9x128_2_0_n_n_0_2_1128.siIdx (ix3 n j h)
        ⟨List.idxOf (0 : Fin 2) gather_S4608x128_S50000x9x1_S50000x9x128_2_0_n_n_0_2_1128.startIndexMap,
          List.idxOf_lt_length_iff.2 (List.mem_singleton.mpr rfl)⟩ = ix3 n j 0 := by
      funext b; refine Fin.ext ?_
      match b with
      | ⟨0, _⟩ => rfl
      | ⟨1, _⟩ => rfl
      | ⟨2, _⟩ => rfl
    rw [hsi]
    rfl
  | ⟨1, _⟩ =>
    show gather_S4608x128_S50000x9x1_S50000x9x128_2_0_n_n_0_2_1128.start (ix3 n j h) k 1
        + gather_S4608x128_S50000x9x1_S50000x9x128_2_0_n_n_0_2_1128.batchCoord (ix3 n j h) 1
        + gather_S4608x128_S50000x9x1_S50000x9x128_2_0_n_n_0_2_1128.offCoord (ix3 n j h) 1 = h.val
    rw [GatherDims.batchCoord_eq_zero _ _ _ List.not_mem_nil]
    unfold GatherDims.start
    rw [dif_neg (show ¬(1 : Fin 2) ∈ gather_S4608x128_S50000x9x1_S50000x9x128_2_0_n_n_0_2_1128.startIndexMap by decide)]
    unfold GatherDims.offCoord
    rw [dif_pos (show (1 : Fin 2) ∈ gather_S4608x128_S50000x9x1_S50000x9x128_2_0_n_n_0_2_1128.sKept by decide)]
    simp only [Nat.zero_add, Nat.add_zero]
    rfl

theorem takeF_apply (tbl : S4608x128.Idx → EReal) (idx : S50000x9.Idx → BitVec 32) (n : Fin 50000) (j : Fin 9) (h : Fin 128)
    (h0 : 0 ≤ (idx (ix2 n j)).toInt) (h1 : (idx (ix2 n j)).toInt ≤ 4607) :
    takeF (F := Ideal) tbl idx (ix3 n j h) = tbl (ix2 (rowOf (idx (ix2 n j))) h) := by
  have hk : HandRun.takeIdx (F := Ideal) idx (ix3 n j 0) = idx (ix2 n j) := takeIdx_of_nonneg idx n j h0
  have hm : takeOk (F := Ideal) (HandRun.takeIdx (F := Ideal) idx) (ix2 n j) = 1#1 :=
    takeOk_one _ n j (by rw [hk]; exact h0) (by rw [hk]; exact h1)
  unfold takeF
  rw [select_apply, broadcastInDim_apply _ _ _ (ix3 n j h) (ix2 n j) (fun a => by
    match a with
    | ⟨0, _⟩ => rfl
    | ⟨1, _⟩ => rfl), hm, select_one, gather_row]
  obtain ⟨e, hle⟩ := toNat_of_range _ h0 h1
  refine congrArg tbl (funext fun a => Fin.ext ?_)
  match a with
  | ⟨0, _⟩ =>
    show min (HandRun.takeIdx (F := Ideal) idx (ix3 n j 0)).toInt.toNat 4607 = (rowOf (idx (ix2 n j))).val
    rw [hk, rowOf_val _ h0 h1, e]; omega
  | ⟨1, _⟩ => rfl

theorem x0F_apply (xf : S50000x9.Idx → BitVec 32) (tbl : S4608x128.Idx → EReal)
    (hr : ∀ (n : Fin 50000) (j : Fin 9), 0 ≤ (xf (ix2 n j) + off j).toInt ∧ (xf (ix2 n j) + off j).toInt ≤ 4607)
    (n : Fin 50000) (h : Fin 128) :
    x0F (F := Ideal) xf tbl (ix2 n h) = ∑ j : Fin 9, tbl (ix2 (rowOf (xf (ix2 n j) + off j)) h) := by
  have hR : S50000x9x128.Reduces [1] S50000x128 := by decide
  have hl : ∀ k : Fin 9, hR.lift (ix2 n h) k = ix3 n k h := fun k => funext fun a => Fin.ext (by
    match a with
    | ⟨0, _⟩ => rfl
    | ⟨1, _⟩ => rfl
    | ⟨2, _⟩ => rfl)
  unfold x0F
  rw [hostReduceAdd_apply, Ideal.hostReduceAdd_single reducesTo_S50000x9x128_S50000x128_d1 hR]
  show Ideal.ofBits .f32 0x00000000#32 + ∑ k : Fin 9, takeF (F := Ideal) tbl (embIdx (F := Ideal) xf) (hR.lift (ix2 n h) k) = _
  rw [Ideal.ofBits_zero_f32, zero_add]
  refine Finset.sum_congr rfl fun j _ => ?_
  rw [hl j]
  have e := takeF_apply tbl (embIdx (F := Ideal) xf) n j h (by rw [embIdx_apply]; exact (hr n j).1) (by rw [embIdx_apply]; exact (hr n j).2)
  rw [embIdx_apply] at e
  exact e

theorem lookup0_eq_x0F (xf idx : S50000x9.Idx → BitVec 32) (tbl : S4608x128.Idx → EReal)
    (hidx : ∀ (n : Fin 50000) (j : Fin 9), idx (ix2 n j) = xf (ix2 n j) + off j)
    (hr : ∀ (n : Fin 50000) (j : Fin 9), 0 ≤ (xf (ix2 n j) + off j).toInt ∧ (xf (ix2 n j) + off j).toInt ≤ 4607) :
    lookup0 idx tbl = x0F (F := Ideal) xf tbl := by
  funext i
  obtain ⟨n, h, rfl⟩ : ∃ (n : Fin 50000) (h : Fin 128), i = ix2 n h := ⟨i 0, i 1, eq_ix2 i⟩
  rw [x0F_apply xf tbl hr n h, lookup0_of_range idx tbl (fun n j => by rw [hidx]; exact hr n j)]
  refine Finset.sum_congr rfl fun j _ => ?_
  show tbl (ix2 (rowOf (idx (ix2 n j))) h) = _
  rw [hidx]

theorem x0F_real (xf : S50000x9.Idx → BitVec 32) (tbl : S4608x128.Idx → EReal)
    (hr : ∀ (n : Fin 50000) (j : Fin 9), 0 ≤ (xf (ix2 n j) + off j).toInt ∧ (xf (ix2 n j) + off j).toInt ≤ 4607)
    (htbl : ∀ i : S4608x128.Idx, ∃ r : ℝ, tbl i = (r : EReal)) (i : S50000x128.Idx) :
    ∃ r : ℝ, x0F (F := Ideal) xf tbl i = (r : EReal) := by
  obtain ⟨n, h, rfl⟩ : ∃ (n : Fin 50000) (h : Fin 128), i = ix2 n h := ⟨i 0, i 1, eq_ix2 i⟩
  rw [x0F_apply xf tbl hr n h]
  exact Cert.HandMath.real_sum _ fun j => htbl _

end Cert.Bridge
-- ==== Proof.KCarry.lean ====
import proofs.«402767_j7713761264261_1_alg».proof.Proof.Fold

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v8] : List (Ref sig .tc))) : W2 m c r = W1 m c r := by
  unfold W2; exact Function.update_of_ne (StableHlo.devRef_ne_of_ne (List.ne_of_not_mem_cons h)) _ _
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ hostOps1_1_W) : W4 m c r = W3 m c r :=
  StableHlo.after_of_writes_sub hostOps1_1 _ hostOps1_1_writes h
theorem W5_of (c : Dev nD) (r : Ref sig .tc) (h : r ∉ hostOps1_2_W) : W5 m c r = W4 m c r :=
  StableHlo.after_of_writes_sub hostOps1_2 _ hostOps1_2_writes h
theorem W6_of (c : Dev nD) (r : Ref sig .tc) (h : r ∉ ([main_v43] : List (Ref sig .tc))) : W6 m c r = W5 m c r := by
  unfold W6; exact Function.update_of_ne (StableHlo.devRef_ne_of_ne (List.ne_of_not_mem_cons h)) _ _
theorem W7_of (c : Dev nD) (r : Ref sig .tc) (h : r ∉ hostOps2_W) : W7 m c r = W6 m c r :=
  StableHlo.after_of_writes_sub hostOps2 _ hostOps2_writes h
theorem W8_of (c : Dev nD) (r : Ref sig .tc) (h : r ∉ ([main_v62_0, main_v62_1] : List (Ref sig .tc))) : W8 m c r = W7 m c r := by
  unfold W8; exact (Function.update_of_ne (StableHlo.devRef_ne_of_ne (List.ne_of_not_mem_cons (List.not_mem_of_not_mem_cons h))) _ _).trans
    (Function.update_of_ne (StableHlo.devRef_ne_of_ne (List.ne_of_not_mem_cons h)) _ _)
theorem W9_of (c : Dev nD) (r : Ref sig .tc) (h : r ∉ hostOps3_W) : W9 m c r = W8 m c r :=
  StableHlo.after_of_writes_sub hostOps3 _ hostOps3_writes h
theorem W10_of (c : Dev nD) (r : Ref sig .tc) (h : r ∉ ([main_v81] : List (Ref sig .tc))) : W10 m c r = W9 m c r := by
  unfold W10; exact Function.update_of_ne (StableHlo.devRef_ne_of_ne (List.ne_of_not_mem_cons h)) _ _
theorem W11_of (c : Dev nD) (r : Ref sig .tc) (h : r ∉ hostOps4_W) : W11 m c r = W10 m c r :=
  StableHlo.after_of_writes_sub hostOps4 _ hostOps4_writes h
theorem W12_of (c : Dev nD) (r : Ref sig .tc) (h : r ∉ ([main_v84] : List (Ref sig .tc))) : W12 m c r = W11 m c r := by
  unfold W12; exact Function.update_of_ne (StableHlo.devRef_ne_of_ne (List.ne_of_not_mem_cons h)) _ _
theorem W13_of (c : Dev nD) (r : Ref sig .tc) (h : r ∉ hostOps5_W) : W13 m c r = W12 m c r :=
  StableHlo.after_of_writes_sub hostOps5 _ hostOps5_writes h
theorem W14_of (c : Dev nD) (r : Ref sig .tc) (h : r ∉ ([main_v103_0, main_v103_1] : List (Ref sig .tc))) : W14 m c r = W13 m c r := by
  unfold W14; exact (Function.update_of_ne (StableHlo.devRef_ne_of_ne (List.ne_of_not_mem_cons (List.not_mem_of_not_mem_cons h))) _ _).trans
    (Function.update_of_ne (StableHlo.devRef_ne_of_ne (List.ne_of_not_mem_cons h)) _ _)
theorem W15_of (c : Dev nD) (r : Ref sig .tc) (h : r ∉ hostOps6_W) : W15 m c r = W14 m c r :=
  StableHlo.after_of_writes_sub hostOps6 _ hostOps6_writes h
theorem W16_of (c : Dev nD) (r : Ref sig .tc) (h : r ∉ ([main_v122] : List (Ref sig .tc))) : W16 m c r = W15 m c r := by
  unfold W16; exact Function.update_of_ne (StableHlo.devRef_ne_of_ne (List.ne_of_not_mem_cons h)) _ _
theorem W17_of (c : Dev nD) (r : Ref sig .tc) (h : r ∉ hostOps7_W) : W17 m c r = W16 m c r :=
  StableHlo.after_of_writes_sub hostOps7 _ hostOps7_writes h
theorem W18_of (c : Dev nD) (r : Ref sig .tc) (h : r ∉ ([main_v125] : List (Ref sig .tc))) : W18 m c r = W17 m c r := by
  unfold W18; exact Function.update_of_ne (StableHlo.devRef_ne_of_ne (List.ne_of_not_mem_cons h)) _ _
theorem W19_of (c : Dev nD) (r : Ref sig .tc) (h : r ∉ hostOps8_W) : W19 m c r = W18 m c r :=
  StableHlo.after_of_writes_sub hostOps8 _ hostOps8_writes h
theorem W20_of (c : Dev nD) (r : Ref sig .tc) (h : r ∉ ([main_v144_0, main_v144_1] : List (Ref sig .tc))) : W20 m c r = W19 m c r := by
  unfold W20; exact (Function.update_of_ne (StableHlo.devRef_ne_of_ne (List.ne_of_not_mem_cons (List.not_mem_of_not_mem_cons h))) _ _).trans
    (Function.update_of_ne (StableHlo.devRef_ne_of_ne (List.ne_of_not_mem_cons h)) _ _)
theorem W21_of (c : Dev nD) (r : Ref sig .tc) (h : r ∉ hostOps9_W) : W21 m c r = W20 m c r :=
  StableHlo.after_of_writes_sub hostOps9 _ hostOps9_writes h
theorem W22_of (c : Dev nD) (r : Ref sig .tc) (h : r ∉ ([main_v163] : List (Ref sig .tc))) : W22 m c r = W21 m c r := by
  unfold W22; exact Function.update_of_ne (StableHlo.devRef_ne_of_ne (List.ne_of_not_mem_cons h)) _ _
theorem W23_of (c : Dev nD) (r : Ref sig .tc) (h : r ∉ hostOps10_W) : W23 m c r = W22 m c r :=
  StableHlo.after_of_writes_sub hostOps10 _ hostOps10_writes h
theorem W24_of (c : Dev nD) (r : Ref sig .tc) (h : r ∉ ([main_v166] : List (Ref sig .tc))) : W24 m c r = W23 m c r := by
  unfold W24; exact Function.update_of_ne (StableHlo.devRef_ne_of_ne (List.ne_of_not_mem_cons h)) _ _
theorem W25_of (c : Dev nD) (r : Ref sig .tc) (h : r ∉ hostOps11_W) : W25 m c r = W24 m c r :=
  StableHlo.after_of_writes_sub hostOps11 _ hostOps11_writes h
theorem W26_of (c : Dev nD) (r : Ref sig .tc) (h : r ∉ ([main_v185_0, main_v185_1] : List (Ref sig .tc))) : W26 m c r = W25 m c r := by
  unfold W26; exact (Function.update_of_ne (StableHlo.devRef_ne_of_ne (List.ne_of_not_mem_cons (List.not_mem_of_not_mem_cons h))) _ _).trans
    (Function.update_of_ne (StableHlo.devRef_ne_of_ne (List.ne_of_not_mem_cons h)) _ _)
theorem W27_of (c : Dev nD) (r : Ref sig .tc) (h : r ∉ hostOps12_W) : W27 m c r = W26 m c r :=
  StableHlo.after_of_writes_sub hostOps12 _ hostOps12_writes h
theorem W28_of (c : Dev nD) (r : Ref sig .tc) (h : r ∉ ([main_v204] : List (Ref sig .tc))) : W28 m c r = W27 m c r := by
  unfold W28; exact Function.update_of_ne (StableHlo.devRef_ne_of_ne (List.ne_of_not_mem_cons h)) _ _
theorem W29_of (c : Dev nD) (r : Ref sig .tc) (h : r ∉ hostOps13_W) : W29 m c r = W28 m c r :=
  StableHlo.after_of_writes_sub hostOps13 _ hostOps13_writes h
abbrev wr0_1 : List (Ref sig .tc) := hostOps0_W
theorem W1_keep0 (c : Dev nD) (r : Ref sig .tc) (h : r ∉ wr0_1) : W1 m c r = m ((c : Thread nD τ).loc r) :=
  (W1_of m c r h).trans rfl
abbrev wr0_2 : List (Ref sig .tc) := wr0_1 ++ ([main_v8] : List (Ref sig .tc))
theorem W2_keep0 (c : Dev nD) (r : Ref sig .tc) (h : r ∉ wr0_2) : W2 m c r = m ((c : Thread nD τ).loc r) :=
  (W2_of m c r (fun hm => h (List.mem_append_right _ hm))).trans (W1_keep0 m c r (fun hm => h (List.mem_append_left _ hm)))
abbrev wr0_3 : List (Ref sig .tc) := wr0_2 ++ hostOps1_W
theorem W3_keep0 (c : Dev nD) (r : Ref sig .tc) (h : r ∉ wr0_3) : W3 m c r = m ((c : Thread nD τ).loc r) :=
  (W3_of m c r (fun hm => h (List.mem_append_right _ hm))).trans (W2_keep0 m c r (fun hm => h (List.mem_append_left _ hm)))
abbrev wr0_4 : List (Ref sig .tc) := wr0_3 ++ hostOps1_1_W
theorem W4_keep0 (c : Dev nD) (r : Ref sig .tc) (h : r ∉ wr0_4) : W4 m c r = m ((c : Thread nD τ).loc r) :=
  (W4_of m c r (fun hm => h (List.mem_append_right _ hm))).trans (W3_keep0 m c r (fun hm => h (List.mem_append_left _ hm)))
abbrev wr0_5 : List (Ref sig .tc) := wr0_4 ++ hostOps1_2_W
theorem W5_keep0 (c : Dev nD) (r : Ref sig .tc) (h : r ∉ wr0_5) : W5 m c r = m ((c : Thread nD τ).loc r) :=
  (W5_of m c r (fun hm => h (List.mem_append_right _ hm))).trans (W4_keep0 m c r (fun hm => h (List.mem_append_left _ hm)))
abbrev wr0_6 : List (Ref sig .tc) := wr0_5 ++ ([main_v43] : List (Ref sig .tc))
theorem W6_keep0 (c : Dev nD) (r : Ref sig .tc) (h : r ∉ wr0_6) : W6 m c r = m ((c : Thread nD τ).loc r) :=
  (W6_of m c r (fun hm => h (List.mem_append_right _ hm))).trans (W5_keep0 m c r (fun hm => h (List.mem_append_left _ hm)))
abbrev wr0_7 : List (Ref sig .tc) := wr0_6 ++ hostOps2_W
theorem W7_keep0 (c : Dev nD) (r : Ref sig .tc) (h : r ∉ wr0_7) : W7 m c r = m ((c : Thread nD τ).loc r) :=
  (W7_of m c r (fun hm => h (List.mem_append_right _ hm))).trans (W6_keep0 m c r (fun hm => h (List.mem_append_left _ hm)))
abbrev wr0_8 : List (Ref sig .tc) := wr0_7 ++ ([main_v62_0, main_v62_1] : List (Ref sig .tc))
theorem W8_keep0 (c : Dev nD) (r : Ref sig .tc) (h : r ∉ wr0_8) : W8 m c r = m ((c : Thread nD τ).loc r) :=
  (W8_of m c r (fun hm => h (List.mem_append_right _ hm))).trans (W7_keep0 m c r (fun hm => h (List.mem_append_left _ hm)))
abbrev wr0_9 : List (Ref sig .tc) := wr0_8 ++ hostOps3_W
theorem W9_keep0 (c : Dev nD) (r : Ref sig .tc) (h : r ∉ wr0_9) : W9 m c r = m ((c : Thread nD τ).loc r) :=
  (W9_of m c r (fun hm => h (List.mem_append_right _ hm))).trans (W8_keep0 m c r (fun hm => h (List.mem_append_left _ hm)))
abbrev wr0_10 : List (Ref sig .tc) := wr0_9 ++ ([main_v81] : List (Ref sig .tc))
theorem W10_keep0 (c : Dev nD) (r : Ref sig .tc) (h : r ∉ wr0_10) : W10 m c r = m ((c : Thread nD τ).loc r) :=
  (W10_of m c r (fun hm => h (List.mem_append_right _ hm))).trans (W9_keep0 m c r (fun hm => h (List.mem_append_left _ hm)))
abbrev wr0_11 : List (Ref sig .tc) := wr0_10 ++ hostOps4_W
theorem W11_keep0 (c : Dev nD) (r : Ref sig .tc) (h : r ∉ wr0_11) : W11 m c r = m ((c : Thread nD τ).loc r) :=
  (W11_of m c r (fun hm => h (List.mem_append_right _ hm))).trans (W10_keep0 m c r (fun hm => h (List.mem_append_left _ hm)))
abbrev wr0_12 : List (Ref sig .tc) := wr0_11 ++ ([main_v84] : List (Ref sig .tc))
theorem W12_keep0 (c : Dev nD) (r : Ref sig .tc) (h : r ∉ wr0_12) : W12 m c r = m ((c : Thread nD τ).loc r) :=
  (W12_of m c r (fun hm => h (List.mem_append_right _ hm))).trans (W11_keep0 m c r (fun hm => h (List.mem_append_left _ hm)))
abbrev wr0_13 : List (Ref sig .tc) := wr0_12 ++ hostOps5_W
theorem W13_keep0 (c : Dev nD) (r : Ref sig .tc) (h : r ∉ wr0_13) : W13 m c r = m ((c : Thread nD τ).loc r) :=
  (W13_of m c r (fun hm => h (List.mem_append_right _ hm))).trans (W12_keep0 m c r (fun hm => h (List.mem_append_left _ hm)))
abbrev wr0_14 : List (Ref sig .tc) := wr0_13 ++ ([main_v103_0, main_v103_1] : List (Ref sig .tc))
theorem W14_keep0 (c : Dev nD) (r : Ref sig .tc) (h : r ∉ wr0_14) : W14 m c r = m ((c : Thread nD τ).loc r) :=
  (W14_of m c r (fun hm => h (List.mem_append_right _ hm))).trans (W13_keep0 m c r (fun hm => h (List.mem_append_left _ hm)))
abbrev wr0_15 : List (Ref sig .tc) := wr0_14 ++ hostOps6_W
theorem W15_keep0 (c : Dev nD) (r : Ref sig .tc) (h : r ∉ wr0_15) : W15 m c r = m ((c : Thread nD τ).loc r) :=
  (W15_of m c r (fun hm => h (List.mem_append_right _ hm))).trans (W14_keep0 m c r (fun hm => h (List.mem_append_left _ hm)))
abbrev wr0_16 : List (Ref sig .tc) := wr0_15 ++ ([main_v122] : List (Ref sig .tc))
theorem W16_keep0 (c : Dev nD) (r : Ref sig .tc) (h : r ∉ wr0_16) : W16 m c r = m ((c : Thread nD τ).loc r) :=
  (W16_of m c r (fun hm => h (List.mem_append_right _ hm))).trans (W15_keep0 m c r (fun hm => h (List.mem_append_left _ hm)))
abbrev wr0_17 : List (Ref sig .tc) := wr0_16 ++ hostOps7_W
theorem W17_keep0 (c : Dev nD) (r : Ref sig .tc) (h : r ∉ wr0_17) : W17 m c r = m ((c : Thread nD τ).loc r) :=
  (W17_of m c r (fun hm => h (List.mem_append_right _ hm))).trans (W16_keep0 m c r (fun hm => h (List.mem_append_left _ hm)))
abbrev wr0_18 : List (Ref sig .tc) := wr0_17 ++ ([main_v125] : List (Ref sig .tc))
theorem W18_keep0 (c : Dev nD) (r : Ref sig .tc) (h : r ∉ wr0_18) : W18 m c r = m ((c : Thread nD τ).loc r) :=
  (W18_of m c r (fun hm => h (List.mem_append_right _ hm))).trans (W17_keep0 m c r (fun hm => h (List.mem_append_left _ hm)))
abbrev wr0_19 : List (Ref sig .tc) := wr0_18 ++ hostOps8_W
theorem W19_keep0 (c : Dev nD) (r : Ref sig .tc) (h : r ∉ wr0_19) : W19 m c r = m ((c : Thread nD τ).loc r) :=
  (W19_of m c r (fun hm => h (List.mem_append_right _ hm))).trans (W18_keep0 m c r (fun hm => h (List.mem_append_left _ hm)))
abbrev wr0_20 : List (Ref sig .tc) := wr0_19 ++ ([main_v144_0, main_v144_1] : List (Ref sig .tc))
theorem W20_keep0 (c : Dev nD) (r : Ref sig .tc) (h : r ∉ wr0_20) : W20 m c r = m ((c : Thread nD τ).loc r) :=
  (W20_of m c r (fun hm => h (List.mem_append_right _ hm))).trans (W19_keep0 m c r (fun hm => h (List.mem_append_left _ hm)))
abbrev wr0_21 : List (Ref sig .tc) := wr0_20 ++ hostOps9_W
theorem W21_keep0 (c : Dev nD) (r : Ref sig .tc) (h : r ∉ wr0_21) : W21 m c r = m ((c : Thread nD τ).loc r) :=
  (W21_of m c r (fun hm => h (List.mem_append_right _ hm))).trans (W20_keep0 m c r (fun hm => h (List.mem_append_left _ hm)))
abbrev wr0_22 : List (Ref sig .tc) := wr0_21 ++ ([main_v163] : List (Ref sig .tc))
theorem W22_keep0 (c : Dev nD) (r : Ref sig .tc) (h : r ∉ wr0_22) : W22 m c r = m ((c : Thread nD τ).loc r) :=
  (W22_of m c r (fun hm => h (List.mem_append_right _ hm))).trans (W21_keep0 m c r (fun hm => h (List.mem_append_left _ hm)))
abbrev wr0_23 : List (Ref sig .tc) := wr0_22 ++ hostOps10_W
theorem W23_keep0 (c : Dev nD) (r : Ref sig .tc) (h : r ∉ wr0_23) : W23 m c r = m ((c : Thread nD τ).loc r) :=
  (W23_of m c r (fun hm => h (List.mem_append_right _ hm))).trans (W22_keep0 m c r (fun hm => h (List.mem_append_left _ hm)))
abbrev wr0_24 : List (Ref sig .tc) := wr0_23 ++ ([main_v166] : List (Ref sig .tc))
theorem W24_keep0 (c : Dev nD) (r : Ref sig .tc) (h : r ∉ wr0_24) : W24 m c r = m ((c : Thread nD τ).loc r) :=
  (W24_of m c r (fun hm => h (List.mem_append_right _ hm))).trans (W23_keep0 m c r (fun hm => h (List.mem_append_left _ hm)))
abbrev wr0_25 : List (Ref sig .tc) := wr0_24 ++ hostOps11_W
theorem W25_keep0 (c : Dev nD) (r : Ref sig .tc) (h : r ∉ wr0_25) : W25 m c r = m ((c : Thread nD τ).loc r) :=
  (W25_of m c r (fun hm => h (List.mem_append_right _ hm))).trans (W24_keep0 m c r (fun hm => h (List.mem_append_left _ hm)))
abbrev wr0_26 : List (Ref sig .tc) := wr0_25 ++ ([main_v185_0, main_v185_1] : List (Ref sig .tc))
theorem W26_keep0 (c : Dev nD) (r : Ref sig .tc) (h : r ∉ wr0_26) : W26 m c r = m ((c : Thread nD τ).loc r) :=
  (W26_of m c r (fun hm => h (List.mem_append_right _ hm))).trans (W25_keep0 m c r (fun hm => h (List.mem_append_left _ hm)))
abbrev wr0_27 : List (Ref sig .tc) := wr0_26 ++ hostOps12_W
theorem W27_keep0 (c : Dev nD) (r : Ref sig .tc) (h : r ∉ wr0_27) : W27 m c r = m ((c : Thread nD τ).loc r) :=
  (W27_of m c r (fun hm => h (List.mem_append_right _ hm))).trans (W26_keep0 m c r (fun hm => h (List.mem_append_left _ hm)))
abbrev wr0_28 : List (Ref sig .tc) := wr0_27 ++ ([main_v204] : List (Ref sig .tc))
theorem W28_keep0 (c : Dev nD) (r : Ref sig .tc) (h : r ∉ wr0_28) : W28 m c r = m ((c : Thread nD τ).loc r) :=
  (W28_of m c r (fun hm => h (List.mem_append_right _ hm))).trans (W27_keep0 m c r (fun hm => h (List.mem_append_left _ hm)))
abbrev wr0_29 : List (Ref sig .tc) := wr0_28 ++ hostOps13_W
theorem W29_keep0 (c : Dev nD) (r : Ref sig .tc) (h : r ∉ wr0_29) : W29 m c r = m ((c : Thread nD τ).loc r) :=
  (W29_of m c r (fun hm => h (List.mem_append_right _ hm))).trans (W28_keep0 m c r (fun hm => h (List.mem_append_left _ hm)))
abbrev wr5_6 : List (Ref sig .tc) := ([main_v43] : List (Ref sig .tc))
theorem W6_keep5 (c : Dev nD) (r : Ref sig .tc) (h : r ∉ wr5_6) : W6 m c r = W5 m c r :=
  (W6_of m c r h).trans rfl
abbrev wr5_7 : List (Ref sig .tc) := wr5_6 ++ hostOps2_W
theorem W7_keep5 (c : Dev nD) (r : Ref sig .tc) (h : r ∉ wr5_7) : W7 m c r = W5 m c r :=
  (W7_of m c r (fun hm => h (List.mem_append_right _ hm))).trans (W6_keep5 m c r (fun hm => h (List.mem_append_left _ hm)))
abbrev wr5_8 : List (Ref sig .tc) := wr5_7 ++ ([main_v62_0, main_v62_1] : List (Ref sig .tc))
theorem W8_keep5 (c : Dev nD) (r : Ref sig .tc) (h : r ∉ wr5_8) : W8 m c r = W5 m c r :=
  (W8_of m c r (fun hm => h (List.mem_append_right _ hm))).trans (W7_keep5 m c r (fun hm => h (List.mem_append_left _ hm)))
abbrev wr5_9 : List (Ref sig .tc) := wr5_8 ++ hostOps3_W
theorem W9_keep5 (c : Dev nD) (r : Ref sig .tc) (h : r ∉ wr5_9) : W9 m c r = W5 m c r :=
  (W9_of m c r (fun hm => h (List.mem_append_right _ hm))).trans (W8_keep5 m c r (fun hm => h (List.mem_append_left _ hm)))
abbrev wr5_10 : List (Ref sig .tc) := wr5_9 ++ ([main_v81] : List (Ref sig .tc))
theorem W10_keep5 (c : Dev nD) (r : Ref sig .tc) (h : r ∉ wr5_10) : W10 m c r = W5 m c r :=
  (W10_of m c r (fun hm => h (List.mem_append_right _ hm))).trans (W9_keep5 m c r (fun hm => h (List.mem_append_left _ hm)))
abbrev wr5_11 : List (Ref sig .tc) := wr5_10 ++ hostOps4_W
theorem W11_keep5 (c : Dev nD) (r : Ref sig .tc) (h : r ∉ wr5_11) : W11 m c r = W5 m c r :=
  (W11_of m c r (fun hm => h (List.mem_append_right _ hm))).trans (W10_keep5 m c r (fun hm => h (List.mem_append_left _ hm)))
abbrev wr5_12 : List (Ref sig .tc) := wr5_11 ++ ([main_v84] : List (Ref sig .tc))
theorem W12_keep5 (c : Dev nD) (r : Ref sig .tc) (h : r ∉ wr5_12) : W12 m c r = W5 m c r :=
  (W12_of m c r (fun hm => h (List.mem_append_right _ hm))).trans (W11_keep5 m c r (fun hm => h (List.mem_append_left _ hm)))
abbrev wr5_13 : List (Ref sig .tc) := wr5_12 ++ hostOps5_W
theorem W13_keep5 (c : Dev nD) (r : Ref sig .tc) (h : r ∉ wr5_13) : W13 m c r = W5 m c r :=
  (W13_of m c r (fun hm => h (List.mem_append_right _ hm))).trans (W12_keep5 m c r (fun hm => h (List.mem_append_left _ hm)))
abbrev wr5_14 : List (Ref sig .tc) := wr5_13 ++ ([main_v103_0, main_v103_1] : List (Ref sig .tc))
theorem W14_keep5 (c : Dev nD) (r : Ref sig .tc) (h : r ∉ wr5_14) : W14 m c r = W5 m c r :=
  (W14_of m c r (fun hm => h (List.mem_append_right _ hm))).trans (W13_keep5 m c r (fun hm => h (List.mem_append_left _ hm)))
abbrev wr5_15 : List (Ref sig .tc) := wr5_14 ++ hostOps6_W
theorem W15_keep5 (c : Dev nD) (r : Ref sig .tc) (h : r ∉ wr5_15) : W15 m c r = W5 m c r :=
  (W15_of m c r (fun hm => h (List.mem_append_right _ hm))).trans (W14_keep5 m c r (fun hm => h (List.mem_append_left _ hm)))
abbrev wr5_16 : List (Ref sig .tc) := wr5_15 ++ ([main_v122] : List (Ref sig .tc))
theorem W16_keep5 (c : Dev nD) (r : Ref sig .tc) (h : r ∉ wr5_16) : W16 m c r = W5 m c r :=
  (W16_of m c r (fun hm => h (List.mem_append_right _ hm))).trans (W15_keep5 m c r (fun hm => h (List.mem_append_left _ hm)))
abbrev wr5_17 : List (Ref sig .tc) := wr5_16 ++ hostOps7_W
theorem W17_keep5 (c : Dev nD) (r : Ref sig .tc) (h : r ∉ wr5_17) : W17 m c r = W5 m c r :=
  (W17_of m c r (fun hm => h (List.mem_append_right _ hm))).trans (W16_keep5 m c r (fun hm => h (List.mem_append_left _ hm)))
abbrev wr5_18 : List (Ref sig .tc) := wr5_17 ++ ([main_v125] : List (Ref sig .tc))
theorem W18_keep5 (c : Dev nD) (r : Ref sig .tc) (h : r ∉ wr5_18) : W18 m c r = W5 m c r :=
  (W18_of m c r (fun hm => h (List.mem_append_right _ hm))).trans (W17_keep5 m c r (fun hm => h (List.mem_append_left _ hm)))
abbrev wr5_19 : List (Ref sig .tc) := wr5_18 ++ hostOps8_W
theorem W19_keep5 (c : Dev nD) (r : Ref sig .tc) (h : r ∉ wr5_19) : W19 m c r = W5 m c r :=
  (W19_of m c r (fun hm => h (List.mem_append_right _ hm))).trans (W18_keep5 m c r (fun hm => h (List.mem_append_left _ hm)))
abbrev wr5_20 : List (Ref sig .tc) := wr5_19 ++ ([main_v144_0, main_v144_1] : List (Ref sig .tc))
theorem W20_keep5 (c : Dev nD) (r : Ref sig .tc) (h : r ∉ wr5_20) : W20 m c r = W5 m c r :=
  (W20_of m c r (fun hm => h (List.mem_append_right _ hm))).trans (W19_keep5 m c r (fun hm => h (List.mem_append_left _ hm)))
abbrev wr5_21 : List (Ref sig .tc) := wr5_20 ++ hostOps9_W
theorem W21_keep5 (c : Dev nD) (r : Ref sig .tc) (h : r ∉ wr5_21) : W21 m c r = W5 m c r :=
  (W21_of m c r (fun hm => h (List.mem_append_right _ hm))).trans (W20_keep5 m c r (fun hm => h (List.mem_append_left _ hm)))
abbrev wr5_22 : List (Ref sig .tc) := wr5_21 ++ ([main_v163] : List (Ref sig .tc))
theorem W22_keep5 (c : Dev nD) (r : Ref sig .tc) (h : r ∉ wr5_22) : W22 m c r = W5 m c r :=
  (W22_of m c r (fun hm => h (List.mem_append_right _ hm))).trans (W21_keep5 m c r (fun hm => h (List.mem_append_left _ hm)))
abbrev wr5_23 : List (Ref sig .tc) := wr5_22 ++ hostOps10_W
theorem W23_keep5 (c : Dev nD) (r : Ref sig .tc) (h : r ∉ wr5_23) : W23 m c r = W5 m c r :=
  (W23_of m c r (fun hm => h (List.mem_append_right _ hm))).trans (W22_keep5 m c r (fun hm => h (List.mem_append_left _ hm)))
abbrev wr5_24 : List (Ref sig .tc) := wr5_23 ++ ([main_v166] : List (Ref sig .tc))
theorem W24_keep5 (c : Dev nD) (r : Ref sig .tc) (h : r ∉ wr5_24) : W24 m c r = W5 m c r :=
  (W24_of m c r (fun hm => h (List.mem_append_right _ hm))).trans (W23_keep5 m c r (fun hm => h (List.mem_append_left _ hm)))
end Cert.KernelIdeal.Hand

end
-- ==== Proof.KHead.lean ====
import proofs.«402767_j7713761264261_1_alg».proof.Proof.Gen.KernelIdeal.Launch
import Idealize.ShloMosaic.Lib.StableHlo.Run
import proofs.«402767_j7713761264261_1_alg».proof.Proof.PreFacts
import proofs.«402767_j7713761264261_1_alg».proof.Proof.LibBatchNorm

noncomputable section

namespace Cert.KernelIdeal.HandValue

open Cert.KernelIdeal Cert.KernelIdeal.Gen
open Idealize.ShloMosaic Idealize.ShloMosaic.TcCoe Idealize.SL.Sem
open Idealize.ShloMosaic.ValueIdx

def idxF (a0 : Vec Ideal S50000x9 .i32) : Vec Ideal S50000x9 .i32 :=
  addi a0 (broadcastInDim S50000x9 ![0, 1] bcast_S1x9_S50000x9_0_1
    (broadcastInDim S1x9 ![1] bcast_S9_S1x9_1
      (addi (broadcastInDim S9 ![] bcast_S_S9 (constantI S_ 32 1#32))
        (muli (iotaInDim S9 32 0) (broadcastInDim S9 ![] bcast_S_S9 (constantI S_ 32 512#32))))))

theorem head0_v7 (V : Valuation τ sig (Elt Ideal)) :
    StableHlo.after hostOps0 V (Proc.devRef .tc main_v7) = idxF (V (Proc.devRef .tc main_arg0)) := by
  after_results
  rfl

theorem idxF_apply (a0 : Vec Ideal S50000x9 .i32) (n : Fin 50000) (j : Fin 9) :
    idxF a0 (ix2 n j) = a0 (ix2 n j) + Cert.HandPre.off j := rfl

def srcF (e : Vec Ideal S2x800000 .i32) : Vec Ideal S850000 .i32 :=
  concatenate S850000 0
    [⟨S800000, fun i => shapeCast S800000 (extractStridedSlice S1x800000 ![0, 0] e slices_S2x800000_S1x800000_0_0) shapeCasts_S1x800000_S800000 i⟩,
     ⟨S50000, iotaInDim S50000 32 0⟩] concatenates_S800000_S50000_S850000_d0

def dstF (e : Vec Ideal S2x800000 .i32) : Vec Ideal S850000 .i32 :=
  concatenate S850000 0
    [⟨S800000, fun i => shapeCast S800000 (extractStridedSlice S1x800000 ![1, 0] e slices_S2x800000_S1x800000_1_0) shapeCasts_S1x800000_S800000 i⟩,
     ⟨S50000, iotaInDim S50000 32 0⟩] concatenates_S800000_S50000_S850000_d0

def degOf (d : Vec Ideal S850000 .i32) : Vec Ideal S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 d)
    (broadcastInDim S850000 ![] bcast_S_S850000 (constant (F := Ideal) S_ .f32 0x3F800000#32))

def degF (e : Vec Ideal S2x800000 .i32) : Vec Ideal S50000 .f32 := degOf (dstF e)

def posOf (g : Vec Ideal S50000 .f32) : Vec Ideal S50000 .i1 :=
  cmpf .ogt g (broadcastInDim S50000 ![] bcast_S_S50000 (constant (F := Ideal) S_ .f32 0x00000000#32))

def posF (e : Vec Ideal S2x800000 .i32) : Vec Ideal S50000 .i1 := posOf (degF e)

def rsOf (g : Vec Ideal S50000 .f32) : Vec Ideal S50000 .f32 :=
  Host.rsqrt (F := Ideal) (maximumf g (broadcastInDim S50000 ![] bcast_S_S50000 (constant (F := Ideal) S_ .f32 0x3F800000#32)))

def rsF (e : Vec Ideal S2x800000 .i32) : Vec Ideal S50000 .f32 := rsOf (degF e)

def dinvOf (p : Vec Ideal S50000 .i1) (r : Vec Ideal S50000 .f32) (z : Vec Ideal S_ .f32) : Vec Ideal S50000 .f32 :=
  select p r (broadcastInDim S50000 ![] bcast_S_S50000 (id z))

def dinvF (e : Vec Ideal S2x800000 .i32) : Vec Ideal S50000 .f32 :=
  dinvOf (posF e) (rsF e) (constant (F := Ideal) S_ .f32 0x00000000#32)

def wrapF (i : Vec Ideal S850000 .i32) : Vec Ideal S850000 .i32 :=
  select (cmpi .slt i (broadcastInDim S850000 ![] bcast_S_S850000 (constantI S_ 32 0#32)))
    (addi i (broadcastInDim S850000 ![] bcast_S_S850000 (constantI S_ 32 50000#32))) i

def takeF (d : Vec Ideal S50000 .f32) (i : Vec Ideal S850000 .i32) : Vec Ideal S850000 .f32 :=
  Host.gather gather_S50000_S850000x1_S850000_n_0_n_n_0_1_1 d
    (broadcastInDim S850000x1 ![0] bcast_S850000_S850000x1_0 (wrapF i))

def normOf (s d : Vec Ideal S850000 .i32) (dinv : Vec Ideal S50000 .f32) : Vec Ideal S850000 .f32 :=
  mulf (F := Ideal) (s := S850000) (φ := .f32) (takeF dinv s) (takeF dinv d)

def normF (e : Vec Ideal S2x800000 .i32) : Vec Ideal S850000 .f32 :=
  normOf (srcF e) (dstF e) (dinvF e)

def w0F (w : Vec Ideal S4x128x128 .f32) : Vec Ideal S128x128 .f32 :=
  fun i => shapeCast S128x128 (extractStridedSlice S1x128x128 ![0, 0, 0] w slices_S4x128x128_S1x128x128_0_0_0) shapeCasts_S1x128x128_S128x128 i

section Stretch1
variable (V : Valuation τ sig (Elt Ideal))

theorem head1_v12 : StableHlo.after hostOps1 V (Proc.devRef .tc main_v12) = srcF (V (Proc.devRef .tc main_arg1)) := by
  after_results; rfl
theorem head1_v15 : StableHlo.after hostOps1 V (Proc.devRef .tc main_v15) = dstF (V (Proc.devRef .tc main_arg1)) := by
  after_results; rfl
theorem head1_v21 : StableHlo.after hostOps1 V (Proc.devRef .tc main_v21) = posF (V (Proc.devRef .tc main_arg1)) := by
  after_results; rfl
theorem head1_v24 : StableHlo.after hostOps1 V (Proc.devRef .tc main_v24) = rsF (V (Proc.devRef .tc main_arg1)) := by
  after_results; rfl
theorem head1_cst4 : StableHlo.after hostOps1 V (Proc.devRef .tc main_cst_4) = constant (F := Ideal) S_ .f32 0x00000000#32 := by
  after_results
theorem head1_arg4 : StableHlo.after hostOps1 V (Proc.devRef .tc main_arg4) = V (Proc.devRef .tc main_arg4) := by
  after_results

end Stretch1

section Stretch1_1
variable (V : Valuation τ sig (Elt Ideal))

set_option maxHeartbeats 2000000 in
theorem head1_1_v25 : StableHlo.after hostOps1_1 V (Proc.devRef .tc main_v25)
    = dinvOf (V (Proc.devRef .tc main_v21)) (V (Proc.devRef .tc main_v24)) (V (Proc.devRef .tc main_cst_4)) := by
  after_results
  simp only [StableHlo.TRef.ofBuf, StableHlo.TRef.toBuf, cast_eq]
  rfl
theorem head1_1_v12 : StableHlo.after hostOps1_1 V (Proc.devRef .tc main_v12) = V (Proc.devRef .tc main_v12) := by
  after_results
theorem head1_1_v15 : StableHlo.after hostOps1_1 V (Proc.devRef .tc main_v15) = V (Proc.devRef .tc main_v15) := by
  after_results
theorem head1_1_arg4 : StableHlo.after hostOps1_1 V (Proc.devRef .tc main_arg4) = V (Proc.devRef .tc main_arg4) := by
  after_results

end Stretch1_1

section Stretch1_2
variable (V : Valuation τ sig (Elt Ideal))

set_option maxHeartbeats 2000000 in
theorem head1_2_v40 : StableHlo.after hostOps1_2 V (Proc.devRef .tc main_v40)
    = normOf (V (Proc.devRef .tc main_v12)) (V (Proc.devRef .tc main_v15)) (V (Proc.devRef .tc main_v25)) := by
  after_results_simp; rfl
set_option maxHeartbeats 2000000 in
theorem head1_2_v42 : StableHlo.after hostOps1_2 V (Proc.devRef .tc main_v42) = w0F (V (Proc.devRef .tc main_arg4)) := by
  after_results_simp; rfl
set_option maxHeartbeats 2000000 in
theorem head1_2_v12 : StableHlo.after hostOps1_2 V (Proc.devRef .tc main_v12) = V (Proc.devRef .tc main_v12) := by
  after_results_simp
set_option maxHeartbeats 2000000 in
theorem head1_2_v15 : StableHlo.after hostOps1_2 V (Proc.devRef .tc main_v15) = V (Proc.devRef .tc main_v15) := by
  after_results_simp

end Stretch1_2

section Composed
variable (V : Valuation τ sig (Elt Ideal))

abbrev afterHead1 : Valuation τ sig (Elt Ideal) :=
  StableHlo.after hostOps1_2 (StableHlo.after hostOps1_1 (StableHlo.after hostOps1 V))

theorem head_norm : afterHead1 V (Proc.devRef .tc main_v40) = normF (V (Proc.devRef .tc main_arg1)) := by
  unfold afterHead1 normF dinvF
  rw [head1_2_v40, head1_1_v12, head1_1_v15, head1_1_v25, head1_v12, head1_v15, head1_v21, head1_v24, head1_cst4]
theorem head_src : afterHead1 V (Proc.devRef .tc main_v12) = srcF (V (Proc.devRef .tc main_arg1)) := by
  unfold afterHead1
  rw [head1_2_v12, head1_1_v12, head1_v12]
theorem head_dst : afterHead1 V (Proc.devRef .tc main_v15) = dstF (V (Proc.devRef .tc main_arg1)) := by
  unfold afterHead1
  rw [head1_2_v15, head1_1_v15, head1_v15]
theorem head_w0 : afterHead1 V (Proc.devRef .tc main_v42) = w0F (V (Proc.devRef .tc main_arg4)) := by
  unfold afterHead1
  rw [head1_2_v42, head1_1_arg4, head1_arg4]

end Composed

section Real
open Cert.HandMath

theorem ofBits_one_f32 : Ideal.ofBits .f32 0x3F800000#32 = 1 := by
  simp [Ideal.ofBits, Ideal.ieee, -EReal.coe_mul]; norm_num

theorem scatterAdd_real {s si su : Shape} {w : Nat} (d : ScatterDims s si su) (x : s.Idx → EReal) (idx : IVec si w)
    (upd : su.Idx → EReal) (hx : ∀ i, ∃ r : ℝ, x i = (r : EReal)) (hu : ∀ j, ∃ r : ℝ, upd j = (r : EReal)) (i : s.Idx) :
    ∃ r : ℝ, Ideal.hostScatterAdd d x idx upd i = (r : EReal) := by
  unfold Ideal.hostScatterAdd
  exact real_add (hx i) (real_finset_sum _ _ fun j _ => hu j)

theorem degOf_eq (d : Vec Ideal S850000 .i32) : degOf d = Ideal.hostScatterAdd scatter_S50000_S850000x1_S850000_n_0_0_1
    (broadcastInDim S50000 ![] bcast_S_S50000 (constant (F := Ideal) S_ .f32 0x00000000#32))
    (broadcastInDim S850000x1 ![0] bcast_S850000_S850000x1_0 d)
    (broadcastInDim S850000 ![] bcast_S_S850000 (constant (F := Ideal) S_ .f32 0x3F800000#32)) := rfl

theorem zeros50_apply (j : S50000.Idx) :
    broadcastInDim S50000 ![] bcast_S_S50000 (constant (F := Ideal) S_ .f32 0x00000000#32) j = 0 := by
  show Ideal.ofBits .f32 0x00000000#32 = 0
  exact Ideal.ofBits_zero_f32
theorem ones50_apply (j : S50000.Idx) :
    broadcastInDim S50000 ![] bcast_S_S50000 (constant (F := Ideal) S_ .f32 0x3F800000#32) j = 1 := by
  show Ideal.ofBits .f32 0x3F800000#32 = 1
  exact ofBits_one_f32
theorem ones850_apply (u : S850000.Idx) :
    broadcastInDim S850000 ![] bcast_S_S850000 (constant (F := Ideal) S_ .f32 0x3F800000#32) u = 1 := by
  show Ideal.ofBits .f32 0x3F800000#32 = 1
  exact ofBits_one_f32

theorem degOf_real (d : Vec Ideal S850000 .i32) (j : S50000.Idx) : ∃ r : ℝ, degOf d j = (r : EReal) := by
  rw [degOf_eq]
  exact scatterAdd_real _ _ _ _ (fun i => ⟨0, zeros50_apply i⟩) (fun u => ⟨1, ones850_apply u⟩) j

theorem rsOf_apply (g : Vec Ideal S50000 .f32) (j : S50000.Idx) :
    rsOf g j = Ideal.rsqrt (max (g j)
      (broadcastInDim S50000 ![] bcast_S_S50000 (constant (F := Ideal) S_ .f32 0x3F800000#32) j)) := rfl

theorem dinvOf_apply (p : Vec Ideal S50000 .i1) (r : Vec Ideal S50000 .f32) (z : Vec Ideal S_ .f32) (j : S50000.Idx) :
    dinvOf p r z j = Scalar.select (p j) (r j) (broadcastInDim S50000 ![] bcast_S_S50000 z j) := rfl

theorem dinv_real (e : Vec Ideal S2x800000 .i32) (j : S50000.Idx) : ∃ r : ℝ, dinvF e j = (r : EReal) := by
  unfold dinvF
  rw [dinvOf_apply]
  unfold Scalar.select
  split
  · unfold rsF
    rw [rsOf_apply, ones50_apply]
    obtain ⟨a, ha⟩ := degOf_real (dstF e) j
    refine real_of_pos (real_rsqrt_of_pos ⟨max a 1, lt_of_lt_of_le one_pos (le_max_right _ _), ?_⟩)
    unfold degF
    rw [ha, ← EReal.coe_one, ← Cert.HandMath.coe_max]
  · rw [zeros50_apply]; exact real_zero

theorem normOf_apply (s d : Vec Ideal S850000 .i32) (dinv : Vec Ideal S50000 .f32) (i : S850000.Idx) :
    normOf s d dinv i
      = dinv (gather_S50000_S850000x1_S850000_n_0_n_n_0_1_1.operandIdx i
          (broadcastInDim S850000x1 ![0] bcast_S850000_S850000x1_0 (wrapF s)))
        * dinv (gather_S50000_S850000x1_S850000_n_0_n_n_0_1_1.operandIdx i
          (broadcastInDim S850000x1 ![0] bcast_S850000_S850000x1_0 (wrapF d))) := rfl

theorem norm_real (e : Vec Ideal S2x800000 .i32) (i : S850000.Idx) : ∃ r : ℝ, normF e i = (r : EReal) := by
  unfold normF
  rw [normOf_apply]
  exact real_mul (dinv_real e _) (dinv_real e _)

end Real

end Cert.KernelIdeal.HandValue
-- ==== Proof.KLayerCore.lean ====
import proofs.«402767_j7713761264261_1_alg».proof.Proof.Gen.KernelIdeal.Launch
import proofs.«402767_j7713761264261_1_alg».proof.Proof.LibBatchNorm
import Idealize.ShloMosaic.Lib.StableHlo.Run
import Idealize.ShloMosaic.Lib.ValueIdx
import Idealize.ShloMosaic.Lib.ValueLayout

noncomputable section

namespace Cert.KernelIdeal.HandValue

open Cert.KernelIdeal Cert.KernelIdeal.Gen
open Idealize.ShloMosaic Idealize.ShloMosaic.TcCoe Idealize.ShloMosaic.ValueIdx Idealize.ShloMosaic.StableHlo
open Idealize.SL.Sem
open scoped BigOperators

variable {F : FTy → Type} [FloatOps F]

set_option quotPrecheck false in
local notation "𝕋[" S ", " e "]" => BufTy.Contents (Elt F) (BufTy.mk S e)

def wrapEdge (k : 𝕋[S850000, .i32]) : 𝕋[S850000, .i32] :=
  select (cmpi .slt k (broadcastInDim S850000 ![] bcast_S_S850000 (constantI S_ 32 0#32)))
    (addi k (broadcastInDim S850000 ![] bcast_S_S850000 (constantI S_ 32 50000#32))) k

def rowAll (r : 𝕋[S1x128, .f32]) : 𝕋[S50000x128, .f32] :=
  broadcastInDim S50000x128 ![0, 1] bcast_S1x128_S50000x128_0_1
    (broadcastInDim S1x128 ![1] bcast_S128_S1x128_1 (shapeCast S128 r shapeCasts_S1x128_S128))

def msgCore (h : 𝕋[S50000x128, .f32]) (src : 𝕋[S850000, .i32]) (norm : 𝕋[S850000, .f32]) : 𝕋[S850000x128, .f32] :=
  mulf
    (Host.gather gather_S50000x128_S850000x1_S850000x128_1_0_n_n_0_1_1128 h
      (broadcastInDim S850000x1 ![0] bcast_S850000_S850000x1_0 (wrapEdge (F := F) src)))
    (broadcastInDim S850000x128 ![0, 1] bcast_S850000x1_S850000x128_0_1
      (broadcastInDim S850000x1 ![0] bcast_S850000_S850000x1_0 norm))

def aggCore (h : 𝕋[S50000x128, .f32]) (src : 𝕋[S850000, .i32]) (norm : 𝕋[S850000, .f32])
    (dst : 𝕋[S850000, .i32]) (brow : 𝕋[S1x128, .f32]) : 𝕋[S50000x128, .f32] :=
  addf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 dst)
      (msgCore h src norm))
    (rowAll brow)

def rowBack (r : 𝕋[S1x128, .f32]) : 𝕋[S1x128, .f32] :=
  broadcastInDim S1x128 ![1] bcast_S128_S1x128_1 (shapeCast S128 r shapeCasts_S1x128_S128)

def countRow : 𝕋[S1x128, .f32] :=
  broadcastInDim S1x128 ![] bcast_S_S1x128 (constant S_ .f32 0x47435000#32)

def epsRow : 𝕋[S1x128, .f32] :=
  broadcastInDim S1x128 ![] bcast_S_S1x128 (constant S_ .f32 0x3727C5AC#32)

def meanCore (s : 𝕋[S1x128, .f32]) : 𝕋[S1x128, .f32] := Host.divf s (countRow (F := F))

def varCore (s q : 𝕋[S1x128, .f32]) : 𝕋[S1x128, .f32] :=
  subf (Host.divf q (countRow (F := F))) (mulf (meanCore s) (meanCore s))

def scaleCore (s q grow : 𝕋[S1x128, .f32]) : 𝕋[S1x128, .f32] :=
  mulf (rowBack grow) (Host.rsqrt (addf (varCore s q) (epsRow (F := F))))

def shiftCore (s q grow brow : 𝕋[S1x128, .f32]) : 𝕋[S1x128, .f32] :=
  subf (rowBack brow) (mulf (meanCore s) (scaleCore s q grow))

end Cert.KernelIdeal.HandValue
-- ==== Proof.KLayerFin.lean ====
import proofs.«402767_j7713761264261_1_alg».proof.Proof.KLayerCore
import Idealize.ShloMosaic.Lib.IdealHost
import Idealize.ShloMosaic.Lib.Pipeline.Value

noncomputable section

namespace Cert.KernelIdeal.HandValue

open Cert.KernelIdeal Cert.KernelIdeal.Gen
open Idealize.ShloMosaic Idealize.ShloMosaic.TcCoe Idealize.ShloMosaic.ValueIdx Idealize.ShloMosaic.StableHlo
open Idealize.SL.Sem
open scoped BigOperators

variable {F : FTy → Type} [FloatOps F]

set_option quotPrecheck false in
local notation "𝕋[" S ", " e "]" => BufTy.Contents (Elt F) (BufTy.mk S e)

theorem rowBack_apply (r : 𝕋[S1x128, .f32]) (h : Fin 128) : rowBack (F := F) r (ix2 (0 : Fin 1) h) = r (ix2 (0 : Fin 1) h) := by
  unfold rowBack
  rw [broadcastInDim_apply ![1] bcast_S128_S1x128_1 _ (ix2 (0 : Fin 1) h) (ix1 h) (fun a => by
    match a with
    | ⟨0, _⟩ => exact (if_neg (show ¬ ((128 : ℕ) = 1) by decide)).symm)]
  exact shapeCast_1a_a_apply r shapeCasts_S1x128_S128 h

theorem countRow_apply (i : S1x128.Idx) : countRow (F := Ideal) i = Ideal.ofBits .f32 0x47435000#32 := by
  unfold countRow
  rw [broadcastInDim_scalar_apply]
  rfl

theorem epsRow_apply (i : S1x128.Idx) : epsRow (F := Ideal) i = Ideal.ofBits .f32 0x3727C5AC#32 := by
  unfold epsRow
  rw [broadcastInDim_scalar_apply]
  rfl

theorem meanCore_apply (s : Vec Ideal S1x128 .f32) (h : Fin 128) :
    meanCore (F := Ideal) s (ix2 (0 : Fin 1) h) = Ideal.div (s (ix2 (0 : Fin 1) h)) (Ideal.ofBits .f32 0x47435000#32) := by
  show Ideal.div (s (ix2 (0 : Fin 1) h)) (countRow (F := Ideal) (ix2 (0 : Fin 1) h)) = _
  rw [countRow_apply]

theorem scaleCore_apply (s q grow : Vec Ideal S1x128 .f32) (h : Fin 128) :
    scaleCore (F := Ideal) s q grow (ix2 (0 : Fin 1) h)
      = grow (ix2 (0 : Fin 1) h) * Ideal.rsqrt
          (Ideal.div (q (ix2 (0 : Fin 1) h)) (Ideal.ofBits .f32 0x47435000#32)
            - Ideal.div (s (ix2 (0 : Fin 1) h)) (Ideal.ofBits .f32 0x47435000#32)
              * Ideal.div (s (ix2 (0 : Fin 1) h)) (Ideal.ofBits .f32 0x47435000#32)
            + Ideal.ofBits .f32 0x3727C5AC#32) := by
  show rowBack (F := Ideal) grow (ix2 (0 : Fin 1) h) * Ideal.rsqrt
      (Ideal.div (q (ix2 (0 : Fin 1) h)) (countRow (F := Ideal) (ix2 (0 : Fin 1) h))
        - meanCore (F := Ideal) s (ix2 (0 : Fin 1) h) * meanCore (F := Ideal) s (ix2 (0 : Fin 1) h)
        + epsRow (F := Ideal) (ix2 (0 : Fin 1) h)) = _
  rw [rowBack_apply, countRow_apply, epsRow_apply, meanCore_apply]

theorem shiftCore_apply (s q grow brow : Vec Ideal S1x128 .f32) (h : Fin 128) :
    shiftCore (F := Ideal) s q grow brow (ix2 (0 : Fin 1) h)
      = brow (ix2 (0 : Fin 1) h)
        - Ideal.div (s (ix2 (0 : Fin 1) h)) (Ideal.ofBits .f32 0x47435000#32) * scaleCore (F := Ideal) s q grow (ix2 (0 : Fin 1) h) := by
  show rowBack (F := Ideal) brow (ix2 (0 : Fin 1) h)
      - meanCore (F := Ideal) s (ix2 (0 : Fin 1) h) * scaleCore (F := Ideal) s q grow (ix2 (0 : Fin 1) h) = _
  rw [rowBack_apply, meanCore_apply]

theorem real_scatterAdd {s si u : Shape} {w : Nat} (d : ScatterDims s si u) (x : FVec Ideal s .f32) (idx : IVec si w)
    (upd : FVec Ideal u .f32) (hx : ∀ i, ∃ r : ℝ, x i = r) (hu : ∀ j, ∃ r : ℝ, upd j = r) (i : s.Idx) :
    ∃ r : ℝ, Host.scatterAdd (F := Ideal) d x idx upd i = r :=
  HandMath.real_add (hx i) (HandMath.real_finset_sum _ _ fun j _ => hu j)

theorem real_addf {s : Shape} (a b : FVec Ideal s .f32) (i : s.Idx) (ha : ∃ r : ℝ, a i = r) (hb : ∃ r : ℝ, b i = r) :
    ∃ r : ℝ, addf a b i = r :=
  HandMath.real_add ha hb

theorem real_mulf {s : Shape} (a b : FVec Ideal s .f32) (i : s.Idx) (ha : ∃ r : ℝ, a i = r) (hb : ∃ r : ℝ, b i = r) :
    ∃ r : ℝ, mulf a b i = r :=
  HandMath.real_mul ha hb

theorem real_zero_const (i : S_.Idx) : ∃ r : ℝ, constant (F := Ideal) S_ .f32 0x00000000#32 i = r :=
  ⟨0, Ideal.ofBits_zero_f32⟩

theorem msgCore_real (h : Vec Ideal S50000x128 .f32) (src : Vec Ideal S850000 .i32) (norm : Vec Ideal S850000 .f32)
    (hh : ∀ i, ∃ r : ℝ, h i = r) (hn : ∀ i, ∃ r : ℝ, norm i = r) (j : S850000x128.Idx) :
    ∃ r : ℝ, msgCore (F := Ideal) h src norm j = r := by
  have h1 : ∃ r : ℝ, Host.gather gather_S50000x128_S850000x1_S850000x128_1_0_n_n_0_1_1128 h
      (broadcastInDim S850000x1 ![0] bcast_S850000_S850000x1_0 (wrapEdge (F := Ideal) src)) j = r := hh _
  have h2 : ∃ r : ℝ, broadcastInDim S850000x128 ![0, 1] bcast_S850000x1_S850000x128_0_1
      (broadcastInDim S850000x1 ![0] bcast_S850000_S850000x1_0 norm) j = r := hn _
  exact real_mulf _ _ j h1 h2

theorem aggCore_real (h : Vec Ideal S50000x128 .f32) (src : Vec Ideal S850000 .i32) (norm : Vec Ideal S850000 .f32)
    (dst : Vec Ideal S850000 .i32) (brow : Vec Ideal S1x128 .f32)
    (hh : ∀ i, ∃ r : ℝ, h i = r) (hn : ∀ i, ∃ r : ℝ, norm i = r) (hb : ∀ i, ∃ r : ℝ, brow i = r) (i : S50000x128.Idx) :
    ∃ r : ℝ, aggCore (F := Ideal) h src norm dst brow i = r := by
  have h0 : ∀ k, ∃ r : ℝ,
      (broadcastInDim S50000x128 ![] bcast_S_S50000x128 (constant (F := Ideal) S_ .f32 0x00000000#32)) k = r :=
    fun k => real_zero_const _
  have h1 : ∃ r : ℝ, Host.scatterAdd (F := Ideal) scatter_S50000x128_S850000x1_S850000x128_1_0_0_1
      (broadcastInDim S50000x128 ![] bcast_S_S50000x128 (constant (F := Ideal) S_ .f32 0x00000000#32))
      (broadcastInDim S850000x1 ![0] bcast_S850000_S850000x1_0 dst) (msgCore (F := Ideal) h src norm) i = r :=
    real_scatterAdd _ _ _ _ h0 (msgCore_real h src norm hh hn) i
  have h2 : ∃ r : ℝ, rowAll (F := Ideal) brow i = r := hb _
  exact real_addf _ _ i h1 h2

end Cert.KernelIdeal.HandValue
-- ==== Proof.KLayer0.lean ====
import proofs.«402767_j7713761264261_1_alg».proof.Proof.KLayerCore
import proofs.«402767_j7713761264261_1_alg».proof.Proof.KLayerFin

noncomputable section

namespace Cert.KernelIdeal.HandValue

open Cert.KernelIdeal Cert.KernelIdeal.Gen
open Idealize.ShloMosaic Idealize.ShloMosaic.TcCoe Idealize.ShloMosaic.ValueIdx Idealize.ShloMosaic.StableHlo
open Idealize.SL.Sem
open scoped BigOperators

variable {F : FTy → Type} [FloatOps F]

set_option quotPrecheck false in
local notation "𝕋[" S ", " e "]" => BufTy.Contents (Elt F) (BufTy.mk S e)

def prow0 (p : 𝕋[S4x128, .f32]) : 𝕋[S1x128, .f32] :=
  extractStridedSlice S1x128 ![0, 0] p slices_S4x128_S1x128_0_0

def aggF0 (h : 𝕋[S50000x128, .f32]) (src : 𝕋[S850000, .i32]) (norm : 𝕋[S850000, .f32]) (dst : 𝕋[S850000, .i32])
    (b : 𝕋[S4x128, .f32]) : 𝕋[S50000x128, .f32] :=
  aggCore h src norm dst (prow0 b)

def scaleF0 (s q : 𝕋[S1x128, .f32]) (gamma : 𝕋[S4x128, .f32]) : 𝕋[S1x128, .f32] :=
  scaleCore s q (prow0 gamma)

def shiftF0 (s q : 𝕋[S1x128, .f32]) (gamma beta : 𝕋[S4x128, .f32]) : 𝕋[S1x128, .f32] :=
  shiftCore s q (prow0 gamma) (prow0 beta)

def w1F (W : 𝕋[S4x128x128, .f32]) : 𝕋[S128x128, .f32] :=
  shapeCast S128x128 (extractStridedSlice S1x128x128 ![1, 0, 0] W slices_S4x128x128_S1x128x128_1_0_0)
    shapeCasts_S1x128x128_S128x128

theorem after2_v61 (V : Valuation τ sig (Elt F)) :
    StableHlo.after hostOps2 V (Proc.devRef .tc main_v61)
      = aggF0 (V (Proc.devRef .tc main_v43)) (V (Proc.devRef .tc main_v12)) (V (Proc.devRef .tc main_v40))
          (V (Proc.devRef .tc main_v15)) (V (Proc.devRef .tc main_arg5)) := by
  after_results_simp
  rfl

theorem after3_v75 (V : Valuation τ sig (Elt F)) :
    StableHlo.after hostOps3 V (Proc.devRef .tc main_v75)
      = scaleF0 (V (Proc.devRef .tc main_v62_0)) (V (Proc.devRef .tc main_v62_1)) (V (Proc.devRef .tc main_arg6)) := by
  after_results_simp
  rfl

theorem after3_v80 (V : Valuation τ sig (Elt F)) :
    StableHlo.after hostOps3 V (Proc.devRef .tc main_v80)
      = shiftF0 (V (Proc.devRef .tc main_v62_0)) (V (Proc.devRef .tc main_v62_1)) (V (Proc.devRef .tc main_arg6))
          (V (Proc.devRef .tc main_arg7)) := by
  after_results_simp
  rfl

theorem after4_v83 (V : Valuation τ sig (Elt F)) :
    StableHlo.after hostOps4 V (Proc.devRef .tc main_v83) = w1F (V (Proc.devRef .tc main_arg4)) := by
  after_results
  rfl

end Cert.KernelIdeal.HandValue
-- ==== Proof.Val1.lean ====
import proofs.«402767_j7713761264261_1_alg».proof.Proof.Reg1
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.HandValue

open Cert.KernelIdeal Cert.KernelIdeal.Gen Cert.KernelIdeal.Hand

theorem hz1 : (![0, 0] : Fin 2 → Nat) = fun _ => 0 := funext fun a => by fin_cases a <;> rfl

theorem lhs1_ax0 (j : S5000x128.Idx) (k : dot_S5000x128_S128x128_S5000x128_1_0_0_1_n_n.contr.Idx) :
    (dot_S5000x128_S128x128_S5000x128_1_0_0_1_n_n.lhsIdx j k 0).val = (j 0).val := by
  simp [DotDims.lhsIdx, dot_S5000x128_S128x128_S5000x128_1_0_0_1_n_n]; rfl

theorem rhs1_ax1 (j : S5000x128.Idx) (k : dot_S5000x128_S128x128_S5000x128_1_0_0_1_n_n.contr.Idx) :
    (dot_S5000x128_S128x128_S5000x128_1_0_0_1_n_n.rhsIdx j k 1).val = (j 1).val := by
  simp [DotDims.rhsIdx, dot_S5000x128_S128x128_S5000x128_1_0_0_1_n_n]; rfl

theorem lhs1_ax1 (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single (cl := 1) rfl j k

theorem rhs1_ax0 (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single (cr := 0) rfl j k

theorem pay1_apply (x0 : Vec Ideal S5000x128 .f32) (x1 : Vec Ideal S128x128 .f32) (p : Fin 5000) (q : Fin 128) :
    k1_pay1 x0 x1 (ix2 p q) = ∑ k : Fin 128, x0 (ix2 p k) * x1 (ix2 k q) := by
  unfold k1_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have c2 := contrEquiv1_symm_val dot_S5000x128_S128x128_S5000x128_1_0_0_1_n_n 128 rfl rfl k
  rw [truncf_apply, truncf_apply, shapeCast_self, shapeCast_self]
  congr 2
  · funext ax; apply Fin.ext
    match ax with
    | ⟨0, _⟩ => exact lhs1_ax0 _ _
    | ⟨1, _⟩ => exact (lhs1_ax1 _ _).trans c2
  · funext ax; apply Fin.ext
    match ax with
    | ⟨0, _⟩ => exact (rhs1_ax0 _ _).trans c2
    | ⟨1, _⟩ => exact rhs1_ax1 _ _

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem mem_blk1_2 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole (Pipeline.arrRef spec1 2)).slice (win1_2.rect t)).set ↔ _
  rw [View.set_slice_whole, Rect.mem_set_unit]
  exact Iff.rfl

theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, e4, e5⟩ := idx_facts1 t
  refine ⟨t, flush1_2 t, ?_⟩
  rw [mem_blk1_2]
  intro a
  have ht : t.val = (i 0).val / 5000 := rfl
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

section Value1
variable (V : (c : Dev nD) → (b : Ref sig .tc) → Buf (Elt Ideal) ((c : Thread nD τ).loc b))

abbrev xarr1 (c : Dev nD) : Vec Ideal S50000x128 .f32 := V c (Pipeline.arrRef spec1 0)
abbrev warr1 (c : Dev nD) : Vec Ideal S128x128 .f32 := V c (Pipeline.arrRef spec1 1)
abbrev oarr1 (c : Dev nD) : Vec Ideal S50000x128 .f32 := (dat1 (F := Ideal) V c).arrAt 2 cfg1.N

abbrev prod1 (c : Dev nD) : Vec Ideal S50000x128 .f32 :=
  fun i => ∑ k : Fin 128, xarr1 V c (ix2 (i 0) k) * warr1 V c (ix2 k (i 1))

theorem xblk1_apply (c : Dev nD) (t : Fin cfg1.N) (p : Fin 5000) (k : Fin 128) (n : Fin 50000) (hn : n.val = 5000 * t.val + p.val) :
    (iblk1 V c 0 t : Vec Ideal S5000x128 .f32) (ix2 p k) = xarr1 V c (ix2 n k) := by
  obtain ⟨e0, e1, -, -, -, -⟩ := idx_facts1 t
  unfold iblk1
  rw [View.read_apply]
  show xarr1 V c _ = _
  congr 1
  funext a; apply Fin.ext
  match a with
  | ⟨0, _⟩ => show win1_0.index t (0 : Fin 2) * 5000 + 1 * p.val = n.val; omega
  | ⟨1, _⟩ => show win1_0.index t (1 : Fin 2) * 128 + 1 * k.val = k.val; omega

theorem wblk1_apply (c : Dev nD) (t : Fin cfg1.N) (k : Fin 128) (q : Fin 128) :
    (iblk1 V c 1 t : Vec Ideal S128x128 .f32) (ix2 k q) = warr1 V c (ix2 k q) := by
  obtain ⟨-, -, e2, e3, -, -⟩ := idx_facts1 t
  unfold iblk1
  rw [View.read_apply]
  show warr1 V c _ = _
  congr 1
  funext a; apply Fin.ext
  match a with
  | ⟨0, _⟩ => show win1_1.index t (0 : Fin 2) * 128 + 1 * k.val = k.val; omega
  | ⟨1, _⟩ => show win1_1.index t (1 : Fin 2) * 128 + 1 * q.val = q.val; omega

theorem flushed1_2 (c : Dev nD) (t : Fin cfg1.N) :
    (dat1 (F := Ideal) V c).flushed 2 t = ((cfg1.win 2).blk t).view.read (Elt Ideal) (prod1 V c) := by
  show (cfg1.win 2).cut (grid1.coords t) ((dat1 (F := Ideal) V c).after 2 t) = _
  rw [after1_2]
  unfold out1_2
  rw [View.canon_unit_zero hz1]
  simp only [View.ld_unit_zero (S := S5000x128) hz1, View.ld_unit_zero (S := S128x128) hz1]
  obtain ⟨-, -, -, -, e4, e5⟩ := idx_facts1 t
  funext j
  obtain ⟨p, q, rfl⟩ : ∃ (p : Fin 5000) (q : Fin 128), j = ix2 p q := ⟨j 0, j 1, eq_ix2 j⟩
  rw [View.read_apply]
  have hN : cfg1.N = 10 := N_1
  have hn : 5000 * t.val + p.val < 50000 := by have := t.isLt; have := p.isLt; omega
  have hemb : ((cfg1.win 2).blk t).view.emb (ix2 p q) = (ix2 ⟨5000 * t.val + p.val, hn⟩ q : S50000x128.Idx) := by
    funext a; apply Fin.ext
    match a with
    | ⟨0, _⟩ => show win1_2.index t (0 : Fin 2) * 5000 + 1 * p.val = 5000 * t.val + p.val; omega
    | ⟨1, _⟩ => show win1_2.index t (1 : Fin 2) * 128 + 1 * q.val = q.val; omega
  show k1_pay1 (iblk1 V c 0 t) (iblk1 V c 1 t) (ix2 p q) = prod1 V c (((cfg1.win 2).blk t).view.emb (ix2 p q))
  rw [hemb]
  refine (pay1_apply (iblk1 V c 0 t) (iblk1 V c 1 t) p q).trans ?_
  show _ = ∑ k : Fin 128, xarr1 V c (ix2 ⟨5000 * t.val + p.val, hn⟩ k) * warr1 V c (ix2 k q)
  refine Finset.sum_congr rfl fun k _ => ?_
  rw [xblk1_apply V c t p k ⟨5000 * t.val + p.val, hn⟩ rfl, wblk1_apply V c t k q]

theorem value1 (c : Dev nD) :
    oarr1 V c = fun i => ∑ k : Fin 128, xarr1 V c (ix2 (i 0) k) * warr1 V c (ix2 k (i 1)) :=
  (dat1 (F := Ideal) V c).arrAt_eq_of_cover 2 (prod1 V c) (fun t _ => flushed1_2 V c t) cover1

end Value1

end Cert.KernelIdeal.HandValue
-- ==== Proof.Val2.lean ====
import proofs.«402767_j7713761264261_1_alg».proof.Proof.Reg2
import Idealize.ShloMosaic.PureOps.Ideal.Laws
import Idealize.ShloMosaic.Lib.ValueIdx

noncomputable section

open scoped BigOperators

namespace Cert.KernelIdeal.HandValue

open Cert.KernelIdeal.Gen Cert.KernelIdeal.Hand
open Idealize.ShloMosaic Idealize.ShloMosaic.TcCoe Idealize.SL.Sem
open Idealize.ShloMosaic.Pipeline (Dat)
open Idealize.ShloMosaic.ValueIdx

theorem pay2_1_apply (h : Fin 128) : (k2_pay1 (F := Ideal)) (ix2 (0 : Fin 1) h) = 0 := by
  unfold k2_pay1
  refine (congrFun (shapeCast_self _ _) _).trans ?_
  exact Ideal.ofBits_zero_f32

theorem pay2_2_apply (h : Fin 128) : (k2_pay2 (F := Ideal)) (ix2 (0 : Fin 1) h) = 0 := by
  unfold k2_pay2
  refine (congrFun (shapeCast_self _ _) _).trans ?_
  exact Ideal.ofBits_zero_f32

theorem pay2_4_apply (x : Vec Ideal S5000x128 .f32) (s : Vec Ideal S1x128 .f32) (h : Fin 128) :
    k2_pay4 x s (ix2 (0 : Fin 1) h) = s (ix2 (0 : Fin 1) h) + ∑ k : Fin 5000, x (ix2 k h) := by
  unfold k2_pay4 k2_pay3
  dsimp only
  refine (congrFun (shapeCast_self _ _) _).trans ?_
  refine (addf_apply _ _ _).trans ?_
  refine congrArg (fun z => s (ix2 (0 : Fin 1) h) + z) ?_
  refine (shapeCast_addUnit_apply ![128] _ _ _).trans ?_
  refine (Ideal.multiReduction_add_single _ _ _ _ _ _).trans ?_
  refine Finset.sum_congr rfl fun k _ => ?_
  refine (congrFun (shapeCast_self _ _) _).trans ?_
  refine congrArg x ?_
  funext a
  match a with
  | ⟨0, _⟩ => rfl
  | ⟨1, _⟩ => rfl

theorem pay2_5_apply (x : Vec Ideal S5000x128 .f32) (s : Vec Ideal S1x128 .f32) (h : Fin 128) :
    k2_pay5 x s (ix2 (0 : Fin 1) h) = s (ix2 (0 : Fin 1) h) + ∑ k : Fin 5000, x (ix2 k h) * x (ix2 k h) := by
  unfold k2_pay5 k2_pay3
  dsimp only
  refine (congrFun (shapeCast_self _ _) _).trans ?_
  refine (addf_apply _ _ _).trans ?_
  refine congrArg (fun z => s (ix2 (0 : Fin 1) h) + z) ?_
  refine (shapeCast_addUnit_apply ![128] _ _ _).trans ?_
  refine (Ideal.multiReduction_add_single _ _ _ _ _ _).trans ?_
  refine Finset.sum_congr rfl fun k _ => ?_
  refine (mulf_apply _ _ _).trans ?_
  have e : (shapeCast S5000x128 x shapeCasts_S5000x128_S5000x128 : Vec Ideal S5000x128 .f32) = x := shapeCast_self _ _
  rw [e]
  have i : (reduces_S5000x128_S128.lift (fun a => (ix2 (0 : Fin 1) h : S1x128.Idx) a.succ) k : S5000x128.Idx) = ix2 k h := by
    funext a
    match a with
    | ⟨0, _⟩ => rfl
    | ⟨1, _⟩ => rfl
  rw [i]
  rfl

variable (V : (c : Dev nD) → (b : Ref sig .tc) → Buf (Elt Ideal) ((c : Thread nD τ).loc b))

abbrev xarr2 (c : Dev nD) : Vec Ideal S50000x128 .f32 := V c (Pipeline.arrRef spec2 0)

abbrev xblk2 (c : Dev nD) (t : Fin cfg2.N) : Vec Ideal S5000x128 .f32 := iblk2 V c 0 t

theorem idx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)

theorem xblk2_apply (c : Dev nD) (t : Fin cfg2.N) (k : Fin 5000) (h : Fin 128) (hr : 5000 * t.val + k.val < 50000) :
    xblk2 V c t (ix2 k h) = xarr2 V c (ix2 ⟨5000 * t.val + k.val, hr⟩ h) := by
  unfold xblk2 iblk2
  rw [View.read_apply]
  show V c (Pipeline.arrRef spec2 0) _ = V c (Pipeline.arrRef spec2 0) _
  refine congrArg _ ?_
  funext a
  apply Fin.ext
  match a with
  | ⟨0, _⟩ => show win2_0.index t 0 * 5000 + 1 * k.val = 5000 * t.val + k.val; rw [(idx2_0 t).1]; omega
  | ⟨1, _⟩ => show win2_0.index t 1 * 128 + 1 * h.val = h.val; rw [(idx2_0 t).2]; omega

def col2 (c : Dev nD) (h : Fin 128) (r : ℕ) : Elt Ideal .f32 :=
  if hr : r < 50000 then xarr2 V c (ix2 ⟨r, hr⟩ h) else 0

theorem blk2_sum (c : Dev nD) (t : Fin cfg2.N) (h : Fin 128) (φ : Elt Ideal .f32 → Elt Ideal .f32) :
    ∑ k : Fin 5000, φ (xblk2 V c t (ix2 k h)) = ∑ k ∈ Finset.range 5000, φ (col2 V c h (5000 * t.val + k)) := by
  have hN : t.val < 10 := lt_of_lt_of_eq t.isLt (show cfg2.N = 10 from N_2)
  rw [← Fin.sum_univ_eq_sum_range (fun k => φ (col2 V c h (5000 * t.val + k))) 5000]
  refine Finset.sum_congr rfl fun k _ => ?_
  have hr : 5000 * t.val + k.val < 50000 := by have := k.isLt; omega
  rw [xblk2_apply V c t k h hr]
  unfold col2
  rw [dif_pos hr]

theorem acc2_apply (c : Dev nD) (h : Fin 128) : ∀ (n : ℕ) (hn : n < cfg2.N),
    (sacc2 V c n hn).1 (ix2 (0 : Fin 1) h) = ∑ r ∈ Finset.range (5000 * (n + 1)), col2 V c h r
    ∧ (sacc2 V c n hn).2 (ix2 (0 : Fin 1) h) = ∑ r ∈ Finset.range (5000 * (n + 1)), col2 V c h r * col2 V c h r
  | 0, hn => by
    constructor
    · show k2_pay4 (xblk2 V c ⟨0, hn⟩) (k2_pay1 (F := Ideal)) (ix2 (0 : Fin 1) h) = _
      refine (pay2_4_apply (xblk2 V c ⟨0, hn⟩) (k2_pay1 (F := Ideal)) h).trans ?_
      rw [pay2_1_apply, zero_add, blk2_sum V c ⟨0, hn⟩ h (fun z => z)]
      simp only [Nat.mul_zero, Nat.zero_add, Nat.mul_one]
    · show k2_pay5 (xblk2 V c ⟨0, hn⟩) (k2_pay2 (F := Ideal)) (ix2 (0 : Fin 1) h) = _
      refine (pay2_5_apply (xblk2 V c ⟨0, hn⟩) (k2_pay2 (F := Ideal)) h).trans ?_
      rw [pay2_2_apply, zero_add, blk2_sum V c ⟨0, hn⟩ h (fun z => z * z)]
      simp only [Nat.mul_zero, Nat.zero_add, Nat.mul_one]
  | n + 1, hn => by
    obtain ⟨ih1, ih2⟩ := acc2_apply c h n (Nat.lt_of_succ_lt hn)
    have hsplit : 5000 * (n + 1 + 1) = 5000 * (n + 1) + 5000 := by omega
    constructor
    · show k2_pay4 (xblk2 V c ⟨n + 1, hn⟩) (sacc2 V c n (Nat.lt_of_succ_lt hn)).1 (ix2 (0 : Fin 1) h) = _
      refine (pay2_4_apply (xblk2 V c ⟨n + 1, hn⟩) (sacc2 V c n (Nat.lt_of_succ_lt hn)).1 h).trans ?_
      rw [ih1, blk2_sum V c ⟨n + 1, hn⟩ h (fun z => z), hsplit, Finset.sum_range_add]
    · show k2_pay5 (xblk2 V c ⟨n + 1, hn⟩) (sacc2 V c n (Nat.lt_of_succ_lt hn)).2 (ix2 (0 : Fin 1) h) = _
      refine (pay2_5_apply (xblk2 V c ⟨n + 1, hn⟩) (sacc2 V c n (Nat.lt_of_succ_lt hn)).2 h).trans ?_
      rw [ih2, blk2_sum V c ⟨n + 1, hn⟩ h (fun z => z * z), hsplit, Finset.sum_range_add]

theorem acc2_last (c : Dev nD) (h : Fin 128) :
    out2_1 V c t2_9 (ix2 (0 : Fin 1) h) = ∑ n : Fin 50000, xarr2 V c (ix2 n h)
    ∧ out2_2 V c t2_9 (ix2 (0 : Fin 1) h) = ∑ n : Fin 50000, xarr2 V c (ix2 n h) * xarr2 V c (ix2 n h) := by
  obtain ⟨e1, e2⟩ := acc2_apply V c h 9 t2_9.isLt
  have hcol : ∀ n : Fin 50000, col2 V c h n.val = xarr2 V c (ix2 n h) := fun n => by
    unfold col2; rw [dif_pos n.isLt]
  constructor
  · show (sacc2 V c 9 t2_9.isLt).1 (ix2 (0 : Fin 1) h) = _
    rw [e1, show 5000 * (9 + 1) = 50000 from by norm_num, ← Fin.sum_univ_eq_sum_range (fun r => col2 V c h r) 50000]
    exact Finset.sum_congr rfl fun n _ => hcol n
  · show (sacc2 V c 9 t2_9.isLt).2 (ix2 (0 : Fin 1) h) = _
    rw [e2, show 5000 * (9 + 1) = 50000 from by norm_num, ← Fin.sum_univ_eq_sum_range (fun r => col2 V c h r * col2 V c h r) 50000]
    exact Finset.sum_congr rfl fun n _ => by rw [hcol n]

theorem flushed2_1 (c : Dev nD) (t : Fin cfg2.N) (hf : (cfg2.win 1).flush t = true) :
    (dat2 (F := Ideal) V c).flushed 1 t = ((cfg2.win 1).blk t).view.read (Elt Ideal) (out2_1 V c t2_9) := by
  have hN : cfg2.N = 10 := N_2
  have h9 : t.val = 9 := by have := (flush2_1 t).mp hf; have := t.isLt; omega
  obtain rfl : t = t2_9 := Fin.ext h9
  show (cfg2.win 1).cut (grid2.coords t2_9) ((dat2 V c).after 1 t2_9) = _
  rw [after2_1]
  have hz' : (fun a => win2_1.index t2_9 a * main_v62_0.ty.shape.size a) = fun _ => 0 := funext fun a => by fin_cases a <;> decide
  exact (Memref.read_access_unit_zero (Elt Ideal) main_v62_0 hz' (fun a => by rw [congrFun hz' a]; simp) (out2_1 V c t2_9)).symm

theorem flushed2_2 (c : Dev nD) (t : Fin cfg2.N) (hf : (cfg2.win 2).flush t = true) :
    (dat2 (F := Ideal) V c).flushed 2 t = ((cfg2.win 2).blk t).view.read (Elt Ideal) (out2_2 V c t2_9) := by
  have hN : cfg2.N = 10 := N_2
  have h9 : t.val = 9 := by have := (flush2_2 t).mp hf; have := t.isLt; omega
  obtain rfl : t = t2_9 := Fin.ext h9
  show (cfg2.win 2).cut (grid2.coords t2_9) ((dat2 V c).after 2 t2_9) = _
  rw [after2_2]
  have hz' : (fun a => win2_2.index t2_9 a * main_v62_1.ty.shape.size a) = fun _ => 0 := funext fun a => by fin_cases a <;> decide
  exact (Memref.read_access_unit_zero (Elt Ideal) main_v62_1 hz' (fun a => by rw [congrFun hz' a]; simp) (out2_2 V c t2_9)).symm

theorem final2_1 (c : Dev nD) : (dat2 (F := Ideal) V c).arrAt 1 cfg2.N = out2_1 V c t2_9 :=
  (dat2 V c).arrAt_eq_of_cover 1 (out2_1 V c t2_9) (flushed2_1 V c) fun i =>
    ⟨t2_9, (flush2_1 t2_9).mpr rfl, by
      show i ∈ ((View.whole main_v62_0).slice (win2_1.rect t2_9)).set
      rw [View.set_slice_whole, Rect.mem_set_unit]
      intro a
      have h0 : (i 0 : Nat) < 1 := (i 0).isLt
      have h1 : (i 1 : Nat) < 128 := (i 1).isLt
      match a with
      | ⟨0, _⟩ =>
        show win2_1.index t2_9 0 * win2_1.size 0 ≤ (i 0 : Nat) ∧ (i 0 : Nat) < win2_1.index t2_9 0 * win2_1.size 0 + win2_1.xsize (grid2.coords t2_9) 0
        rw [show win2_1.index t2_9 0 * win2_1.size 0 = 0 from by decide +kernel, show win2_1.xsize (grid2.coords t2_9) 0 = 1 from by decide +kernel]; omega
      | ⟨1, _⟩ =>
        show win2_1.index t2_9 1 * win2_1.size 1 ≤ (i 1 : Nat) ∧ (i 1 : Nat) < win2_1.index t2_9 1 * win2_1.size 1 + win2_1.xsize (grid2.coords t2_9) 1
        rw [show win2_1.index t2_9 1 * win2_1.size 1 = 0 from by decide +kernel, show win2_1.xsize (grid2.coords t2_9) 1 = 128 from by decide +kernel]; omega⟩

theorem final2_2 (c : Dev nD) : (dat2 (F := Ideal) V c).arrAt 2 cfg2.N = out2_2 V c t2_9 :=
  (dat2 V c).arrAt_eq_of_cover 2 (out2_2 V c t2_9) (flushed2_2 V c) fun i =>
    ⟨t2_9, (flush2_2 t2_9).mpr rfl, by
      show i ∈ ((View.whole main_v62_1).slice (win2_2.rect t2_9)).set
      rw [View.set_slice_whole, Rect.mem_set_unit]
      intro a
      have h0 : (i 0 : Nat) < 1 := (i 0).isLt
      have h1 : (i 1 : Nat) < 128 := (i 1).isLt
      match a with
      | ⟨0, _⟩ =>
        show win2_2.index t2_9 0 * win2_2.size 0 ≤ (i 0 : Nat) ∧ (i 0 : Nat) < win2_2.index t2_9 0 * win2_2.size 0 + win2_2.xsize (grid2.coords t2_9) 0
        rw [show win2_2.index t2_9 0 * win2_2.size 0 = 0 from by decide +kernel, show win2_2.xsize (grid2.coords t2_9) 0 = 1 from by decide +kernel]; omega
      | ⟨1, _⟩ =>
        show win2_2.index t2_9 1 * win2_2.size 1 ≤ (i 1 : Nat) ∧ (i 1 : Nat) < win2_2.index t2_9 1 * win2_2.size 1 + win2_2.xsize (grid2.coords t2_9) 1
        rw [show win2_2.index t2_9 1 * win2_2.size 1 = 0 from by decide +kernel, show win2_2.xsize (grid2.coords t2_9) 1 = 128 from by decide +kernel]; omega⟩

theorem value2 (c : Dev nD) (h : Fin 128) :
    ((dat2 (F := Ideal) V c).arrAt 1 cfg2.N : Vec Ideal S1x128 .f32) (ix2 (0 : Fin 1) h) = ∑ n : Fin 50000, xarr2 V c (ix2 n h)
    ∧ ((dat2 (F := Ideal) V c).arrAt 2 cfg2.N : Vec Ideal S1x128 .f32) (ix2 (0 : Fin 1) h) = ∑ n : Fin 50000, xarr2 V c (ix2 n h) * xarr2 V c (ix2 n h) := by
  rw [final2_1 V c, final2_2 V c]
  exact acc2_last V c h

end Cert.KernelIdeal.HandValue
-- ==== Proof.BnRelu.lean ====
import proofs.«402767_j7713761264261_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.HandValue

open Cert.KernelIdeal Cert.KernelIdeal.Gen
open Idealize.ShloMosaic Idealize.ShloMosaic.ValueIdx

theorem hz : (![0, 0] : Fin 2 → Nat) = fun _ => 0 := funext fun a => by fin_cases a <;> rfl

theorem row_bcast (x : Vec Ideal S1x128 .f32) (p : Fin 5000) (h : Fin 128) :
    broadcastTo S5000x128 (shapeCast S1x128 x shapeCasts_S1x128_S1x128) broadcasts_S1x128_S5000x128 (ix2 p h) = x (ix2 0 h) := by
  rw [shapeCast_self]
  refine broadcastTo_apply x broadcasts_S1x128_S5000x128 (ix2 p h) (ix2 0 h) fun a => ?_
  match a with
  | ⟨0, _⟩ => rfl
  | ⟨1, _⟩ => rfl

def bnRelu (a : S50000x128.Idx → EReal) (sc sh : S1x128.Idx → EReal) : S50000x128.Idx → EReal :=
  fun i => max (a i * sc (ix2 (0 : Fin 1) (⟨(i 1).val, idx2_lt1 i⟩ : Fin 128)) + sh (ix2 (0 : Fin 1) (⟨(i 1).val, idx2_lt1 i⟩ : Fin 128))) 0

theorem bnRelu_apply (a : S50000x128.Idx → EReal) (sc sh : S1x128.Idx → EReal) (n : Fin 50000) (h : Fin 128) :
    bnRelu a sc sh (ix2 n h) = max (a (ix2 n h) * sc (ix2 0 h) + sh (ix2 0 h)) 0 := rfl

theorem bnRelu_at (a : S50000x128.Idx → EReal) (sc sh : S1x128.Idx → EReal) (k : S50000x128.Idx) (h : Fin 128)
    (hk : (k 1).val = h.val) : bnRelu a sc sh k = max (a k * sc (ix2 0 h) + sh (ix2 0 h)) 0 := by
  have e : (⟨(k 1).val, idx2_lt1 k⟩ : Fin 128) = h := Fin.ext hk
  unfold bnRelu
  dsimp only
  rw [e]

end Cert.KernelIdeal.HandValue
-- ==== Proof.Val3.lean ====
import proofs.«402767_j7713761264261_1_alg».proof.Proof.Reg3
import proofs.«402767_j7713761264261_1_alg».proof.Proof.BnRelu

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

abbrev agg3 (c : Dev nD) : S50000x128.Idx → EReal := V c main_v61
abbrev scale3 (c : Dev nD) : S1x128.Idx → EReal := V c main_v75
abbrev shift3 (c : Dev nD) : S1x128.Idx → EReal := V c main_v80

theorem pay3_apply (x0 : Vec Ideal S5000x128 .f32) (x1 x2 : Vec Ideal S1x128 .f32) (p : Fin 5000) (h : Fin 128) :
    k3_pay1 x0 x1 x2 (ix2 p h) = max (x0 (ix2 p h) * x1 (ix2 0 h) + x2 (ix2 0 h)) 0 := by
  unfold k3_pay1
  show max (shapeCast S5000x128 x0 shapeCasts_S5000x128_S5000x128 (ix2 p h)
        * broadcastTo S5000x128 (shapeCast S1x128 x1 shapeCasts_S1x128_S1x128) broadcasts_S1x128_S5000x128 (ix2 p h)
      + broadcastTo S5000x128 (shapeCast S1x128 x2 shapeCasts_S1x128_S1x128) broadcasts_S1x128_S5000x128 (ix2 p h))
      (Ideal.ofBits .f32 0x00000000#32) = _
  rw [row_bcast, row_bcast, shapeCast_self, Ideal.ofBits_zero_f32]

theorem idx_facts3 : ∀ t : Fin cfg3.N, win3_0.index t (0 : Fin 2) = win3_3.index t (0 : Fin 2)
    ∧ win3_0.index t (1 : Fin 2) = win3_3.index t (1 : Fin 2)
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem flushed3_eq (c : Dev nD) (t : Fin cfg3.N) :
    (dat3 (F := Ideal) V c).flushed 3 t
      = ((cfg3.win 3).blk t).view.read (Elt Ideal) (bnRelu (V c main_v61) (V c main_v75) (V c main_v80)) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz]
  obtain ⟨e0, e1, e2, e3, e4, e5, e6, e7⟩ := idx_facts3 t
  funext j
  obtain ⟨p, h, rfl⟩ : ∃ (p : Fin 5000) (h : Fin 128), j = ix2 p h := ⟨j 0, j 1, eq_ix2 j⟩
  show k3_pay1 (iblk3 V c 0 t) (iblk3 V c 1 t) (iblk3 V c 2 t) (ix2 p h)
    = bnRelu (V c main_v61) (V c main_v75) (V c main_v80) (((cfg3.win 3).blk t).view.emb (ix2 p h))
  refine (pay3_apply _ _ _ p h).trans ?_
  refine Eq.trans ?_ (bnRelu_at _ _ _ _ h ?_).symm
  · show max (agg3 V c (((cfg3.win 0).blk t).view.emb (ix2 p h)) * scale3 V c (((cfg3.win 1).blk t).view.emb (ix2 0 h))
          + shift3 V c (((cfg3.win 2).blk t).view.emb (ix2 0 h))) 0
        = max (agg3 V c (((cfg3.win 3).blk t).view.emb (ix2 p h)) * scale3 V c (ix2 0 h) + shift3 V c (ix2 0 h)) 0
    have h0 : ((cfg3.win 0).blk t).view.emb (ix2 p h) = ((cfg3.win 3).blk t).view.emb (ix2 p h) := by
      funext a; apply Fin.ext
      match a with
      | ⟨0, _⟩ => show win3_0.index t (0 : Fin 2) * 5000 + 1 * p.val = win3_3.index t (0 : Fin 2) * 5000 + 1 * p.val; omega
      | ⟨1, _⟩ => show win3_0.index t (1 : Fin 2) * 128 + 1 * h.val = win3_3.index t (1 : Fin 2) * 128 + 1 * h.val; omega
    have h1 : ((cfg3.win 1).blk t).view.emb (ix2 0 h) = ix2 0 h := by
      funext a; apply Fin.ext
      match a with
      | ⟨0, _⟩ => show win3_1.index t (0 : Fin 2) * 1 + 1 * 0 = 0; omega
      | ⟨1, _⟩ => show win3_1.index t (1 : Fin 2) * 128 + 1 * h.val = h.val; omega
    have h2 : ((cfg3.win 2).blk t).view.emb (ix2 0 h) = ix2 0 h := by
      funext a; apply Fin.ext
      match a with
      | ⟨0, _⟩ => show win3_2.index t (0 : Fin 2) * 1 + 1 * 0 = 0; omega
      | ⟨1, _⟩ => show win3_2.index t (1 : Fin 2) * 128 + 1 * h.val = h.val; omega
    rw [h0, h1, h2]
  · show win3_3.index t (1 : Fin 2) * 128 + 1 * h.val = h.val
    omega

theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v81).slice (win3_3.rect t)).set ↔ _
  rw [View.set_slice_whole, Rect.mem_set_unit]
  exact Iff.rfl

theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, e6, e7⟩ := idx_facts3 t
  have e6' : win3_3.index t (0 : Fin 2) = (i 0).val / 5000 := e6
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

theorem value3 (c : Dev nD) :
    ((dat3 (F := Ideal) V c).arrAt (3 : Fin 4) cfg3.N : S50000x128.Idx → EReal)
      = bnRelu (V c main_v61) (V c main_v75) (V c main_v80) :=
  (dat3 (F := Ideal) V c).arrAt_eq_of_cover 3 (bnRelu (V c main_v61) (V c main_v75) (V c main_v80))
    (fun t _ => flushed3_eq V c t) cover3

end Cert.KernelIdeal.HandValue
-- ==== Proof.KChain0.lean ====
import proofs.«402767_j7713761264261_1_alg».proof.Proof.Chain
import proofs.«402767_j7713761264261_1_alg».proof.Proof.KCarry
import proofs.«402767_j7713761264261_1_alg».proof.Proof.KHead
import proofs.«402767_j7713761264261_1_alg».proof.Proof.KLayer0
import proofs.«402767_j7713761264261_1_alg».proof.Proof.Val0
import proofs.«402767_j7713761264261_1_alg».proof.Proof.Val1
import proofs.«402767_j7713761264261_1_alg».proof.Proof.Val2
import proofs.«402767_j7713761264261_1_alg».proof.Proof.Val3

noncomputable section

open scoped BigOperators

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

abbrev kx0 (c : Dev nD) : Vec Ideal S50000x128 .f32 := W2 m c main_v8

theorem kx0_eq (c : Dev nD) :
    kx0 m c = lookup0 (idxF (m ((c : Thread nD τ).loc main_arg0))) (m ((c : Thread nD τ).loc main_arg3)) := by
  show W2 m c main_v8 = _
  rw [W2_at_main_v8 m c]
  refine (value0 (atTc (W1 m)) c).trans ?_
  have e0 : atTc (W1 m) c (Pipeline.arrRef spec0 0) = idxF (m ((c : Thread nD τ).loc main_arg0)) :=
    head0_v7 (W0 m c)
  have e1 : atTc (W1 m) c (Pipeline.arrRef spec0 1) = m ((c : Thread nD τ).loc main_arg3) :=
    W1_keep0 m c main_arg3 (by decide)
  rw [e0, e1]

abbrev ksrc (c : Dev nD) : Vec Ideal S850000 .i32 := W5 m c main_v12
abbrev kdst (c : Dev nD) : Vec Ideal S850000 .i32 := W5 m c main_v15
abbrev knorm (c : Dev nD) : Vec Ideal S850000 .f32 := W5 m c main_v40
abbrev kw0 (c : Dev nD) : Vec Ideal S128x128 .f32 := W5 m c main_v42

theorem ksrc_eq (c : Dev nD) : ksrc m c = srcF (m ((c : Thread nD τ).loc main_arg1)) := by
  show afterHead1 (W2 m c) (Proc.devRef .tc main_v12) = _
  rw [head_src (W2 m c)]
  exact congrArg srcF (W2_keep0 m c main_arg1 (by decide))

theorem kdst_eq (c : Dev nD) : kdst m c = dstF (m ((c : Thread nD τ).loc main_arg1)) := by
  show afterHead1 (W2 m c) (Proc.devRef .tc main_v15) = _
  rw [head_dst (W2 m c)]
  exact congrArg dstF (W2_keep0 m c main_arg1 (by decide))

theorem knorm_eq (c : Dev nD) : knorm m c = normF (m ((c : Thread nD τ).loc main_arg1)) := by
  show afterHead1 (W2 m c) (Proc.devRef .tc main_v40) = _
  rw [head_norm (W2 m c)]
  exact congrArg normF (W2_keep0 m c main_arg1 (by decide))

theorem kw0_eq (c : Dev nD) : kw0 m c = w0F (m ((c : Thread nD τ).loc main_arg4)) := by
  show afterHead1 (W2 m c) (Proc.devRef .tc main_v42) = _
  rw [head_w0 (W2 m c)]
  exact congrArg w0F (W2_keep0 m c main_arg4 (by decide))

abbrev kh0 (c : Dev nD) : Vec Ideal S50000x128 .f32 := W6 m c main_v43

theorem kx0_at5 (c : Dev nD) : W5 m c main_v8 = kx0 m c :=
  (W5_of m c main_v8 (by decide)).trans ((W4_of m c main_v8 (by decide)).trans (W3_of m c main_v8 (by decide)))

theorem kh0_eq (c : Dev nD) :
    kh0 m c = fun i => ∑ k : Fin 128, kx0 m c (ix2 (i 0) k) * kw0 m c (ix2 k (i 1)) := by
  show W6 m c main_v43 = _
  rw [W6_at_main_v43 m c]
  refine (value1 (atTc (W5 m)) c).trans ?_
  have ex : xarr1 (atTc (W5 m)) c = kx0 m c := kx0_at5 m c
  rw [ex]

abbrev kagg0 (c : Dev nD) : Vec Ideal S50000x128 .f32 := W7 m c main_v61

theorem kagg0_eq (c : Dev nD) :
    kagg0 m c = aggF0 (kh0 m c) (ksrc m c) (knorm m c) (kdst m c) (m ((c : Thread nD τ).loc main_arg5)) := by
  show StableHlo.after hostOps2 (W6 m c) (Proc.devRef .tc main_v61) = _
  rw [after2_v61 (W6 m c), W6_keep5 m c main_v12 (by decide), W6_keep5 m c main_v40 (by decide),
    W6_keep5 m c main_v15 (by decide), W6_keep0 m c main_arg5 (by decide)]

abbrev ks0 (c : Dev nD) : Vec Ideal S1x128 .f32 := W8 m c main_v62_0
abbrev kq0 (c : Dev nD) : Vec Ideal S1x128 .f32 := W8 m c main_v62_1

theorem ks0_lane (c : Dev nD) (h : Fin 128) :
    ks0 m c (ix2 (0 : Fin 1) h) = ∑ n : Fin 50000, kagg0 m c (ix2 n h) := by
  show (W8 m c main_v62_0 : Vec Ideal S1x128 .f32) (ix2 (0 : Fin 1) h) = _
  rw [W8_at_main_v62_0 m c]
  exact (value2 (atTc (W7 m)) c h).1

theorem kq0_lane (c : Dev nD) (h : Fin 128) :
    kq0 m c (ix2 (0 : Fin 1) h) = ∑ n : Fin 50000, kagg0 m c (ix2 n h) * kagg0 m c (ix2 n h) := by
  show (W8 m c main_v62_1 : Vec Ideal S1x128 .f32) (ix2 (0 : Fin 1) h) = _
  rw [W8_at_main_v62_1 m c]
  exact (value2 (atTc (W7 m)) c h).2

abbrev kx1 (c : Dev nD) : Vec Ideal S50000x128 .f32 := W10 m c main_v81

theorem kagg0_at9 (c : Dev nD) : W9 m c main_v61 = kagg0 m c :=
  (W9_of m c main_v61 (by decide)).trans (W8_of m c main_v61 (by decide))

theorem kx1_eq (c : Dev nD) :
    kx1 m c = bnRelu (kagg0 m c)
      (scaleF0 (ks0 m c) (kq0 m c) (m ((c : Thread nD τ).loc main_arg6)))
      (shiftF0 (ks0 m c) (kq0 m c) (m ((c : Thread nD τ).loc main_arg6)) (m ((c : Thread nD τ).loc main_arg7))) := by
  show W10 m c main_v81 = _
  rw [W10_at_main_v81 m c]
  refine (value3 (atTc (W9 m)) c).trans ?_
  have ea : atTc (W9 m) c main_v61 = kagg0 m c := kagg0_at9 m c
  have es : atTc (W9 m) c main_v75 = scaleF0 (ks0 m c) (kq0 m c) (m ((c : Thread nD τ).loc main_arg6)) := by
    show StableHlo.after hostOps3 (W8 m c) (Proc.devRef .tc main_v75) = _
    rw [after3_v75 (W8 m c), W8_keep0 m c main_arg6 (by decide)]
  have eh : atTc (W9 m) c main_v80
      = shiftF0 (ks0 m c) (kq0 m c) (m ((c : Thread nD τ).loc main_arg6)) (m ((c : Thread nD τ).loc main_arg7)) := by
    show StableHlo.after hostOps3 (W8 m c) (Proc.devRef .tc main_v80) = _
    rw [after3_v80 (W8 m c), W8_keep0 m c main_arg6 (by decide), W8_keep0 m c main_arg7 (by decide)]
  rw [ea, es, eh]

abbrev kw1 (c : Dev nD) : Vec Ideal S128x128 .f32 := W11 m c main_v83

theorem kw1_eq (c : Dev nD) : kw1 m c = w1F (m ((c : Thread nD τ).loc main_arg4)) := by
  show StableHlo.after hostOps4 (W10 m c) (Proc.devRef .tc main_v83) = _
  rw [after4_v83 (W10 m c), W10_keep0 m c main_arg4 (by decide)]

end Cert.KernelIdeal.HandValue
-- ==== Proof.KLayer1.lean ====
import proofs.«402767_j7713761264261_1_alg».proof.Proof.KLayerCore
import proofs.«402767_j7713761264261_1_alg».proof.Proof.KLayerFin

noncomputable section

namespace Cert.KernelIdeal.HandValue

open Cert.KernelIdeal Cert.KernelIdeal.Gen
open Idealize.ShloMosaic Idealize.ShloMosaic.TcCoe Idealize.ShloMosaic.ValueIdx Idealize.ShloMosaic.StableHlo
open Idealize.SL.Sem
open scoped BigOperators

variable {F : FTy → Type} [FloatOps F]

set_option quotPrecheck false in
local notation "𝕋[" S ", " e "]" => BufTy.Contents (Elt F) (BufTy.mk S e)

def prow1 (p : 𝕋[S4x128, .f32]) : 𝕋[S1x128, .f32] :=
  extractStridedSlice S1x128 ![1, 0] p slices_S4x128_S1x128_1_0

def aggF1 (h : 𝕋[S50000x128, .f32]) (src : 𝕋[S850000, .i32]) (norm : 𝕋[S850000, .f32]) (dst : 𝕋[S850000, .i32])
    (b : 𝕋[S4x128, .f32]) : 𝕋[S50000x128, .f32] :=
  aggCore h src norm dst (prow1 b)

def scaleF1 (s q : 𝕋[S1x128, .f32]) (gamma : 𝕋[S4x128, .f32]) : 𝕋[S1x128, .f32] :=
  scaleCore s q (prow1 gamma)

def shiftF1 (s q : 𝕋[S1x128, .f32]) (gamma beta : 𝕋[S4x128, .f32]) : 𝕋[S1x128, .f32] :=
  shiftCore s q (prow1 gamma) (prow1 beta)

def w2F (W : 𝕋[S4x128x128, .f32]) : 𝕋[S128x128, .f32] :=
  shapeCast S128x128 (extractStridedSlice S1x128x128 ![2, 0, 0] W slices_S4x128x128_S1x128x128_2_0_0)
    shapeCasts_S1x128x128_S128x128

theorem after5_v102 (V : Valuation τ sig (Elt F)) :
    StableHlo.after hostOps5 V (Proc.devRef .tc main_v102)
      = aggF1 (V (Proc.devRef .tc main_v84)) (V (Proc.devRef .tc main_v12)) (V (Proc.devRef .tc main_v40))
          (V (Proc.devRef .tc main_v15)) (V (Proc.devRef .tc main_arg5)) := by
  after_results_simp
  rfl

theorem after6_v116 (V : Valuation τ sig (Elt F)) :
    StableHlo.after hostOps6 V (Proc.devRef .tc main_v116)
      = scaleF1 (V (Proc.devRef .tc main_v103_0)) (V (Proc.devRef .tc main_v103_1)) (V (Proc.devRef .tc main_arg6)) := by
  after_results_simp
  rfl

theorem after6_v121 (V : Valuation τ sig (Elt F)) :
    StableHlo.after hostOps6 V (Proc.devRef .tc main_v121)
      = shiftF1 (V (Proc.devRef .tc main_v103_0)) (V (Proc.devRef .tc main_v103_1)) (V (Proc.devRef .tc main_arg6))
          (V (Proc.devRef .tc main_arg7)) := by
  after_results_simp
  rfl

theorem after7_v124 (V : Valuation τ sig (Elt F)) :
    StableHlo.after hostOps7 V (Proc.devRef .tc main_v124) = w2F (V (Proc.devRef .tc main_arg4)) := by
  after_results
  rfl

end Cert.KernelIdeal.HandValue
-- ==== Proof.KLayer2.lean ====
import proofs.«402767_j7713761264261_1_alg».proof.Proof.KLayerCore
import proofs.«402767_j7713761264261_1_alg».proof.Proof.KLayerFin

noncomputable section

namespace Cert.KernelIdeal.HandValue

open Cert.KernelIdeal Cert.KernelIdeal.Gen
open Idealize.ShloMosaic Idealize.ShloMosaic.TcCoe Idealize.ShloMosaic.ValueIdx Idealize.ShloMosaic.StableHlo
open Idealize.SL.Sem
open scoped BigOperators

variable {F : FTy → Type} [FloatOps F]

set_option quotPrecheck false in
local notation "𝕋[" S ", " e "]" => BufTy.Contents (Elt F) (BufTy.mk S e)

def prow2 (p : 𝕋[S4x128, .f32]) : 𝕋[S1x128, .f32] :=
  extractStridedSlice S1x128 ![2, 0] p slices_S4x128_S1x128_2_0

def aggF2 (h : 𝕋[S50000x128, .f32]) (src : 𝕋[S850000, .i32]) (norm : 𝕋[S850000, .f32]) (dst : 𝕋[S850000, .i32])
    (b : 𝕋[S4x128, .f32]) : 𝕋[S50000x128, .f32] :=
  aggCore h src norm dst (prow2 b)

def scaleF2 (s q : 𝕋[S1x128, .f32]) (gamma : 𝕋[S4x128, .f32]) : 𝕋[S1x128, .f32] :=
  scaleCore s q (prow2 gamma)

def shiftF2 (s q : 𝕋[S1x128, .f32]) (gamma beta : 𝕋[S4x128, .f32]) : 𝕋[S1x128, .f32] :=
  shiftCore s q (prow2 gamma) (prow2 beta)

def w3F (W : 𝕋[S4x128x128, .f32]) : 𝕋[S128x128, .f32] :=
  shapeCast S128x128 (extractStridedSlice S1x128x128 ![3, 0, 0] W slices_S4x128x128_S1x128x128_3_0_0)
    shapeCasts_S1x128x128_S128x128

theorem after8_v143 (V : Valuation τ sig (Elt F)) :
    StableHlo.after hostOps8 V (Proc.devRef .tc main_v143)
      = aggF2 (V (Proc.devRef .tc main_v125)) (V (Proc.devRef .tc main_v12)) (V (Proc.devRef .tc main_v40))
          (V (Proc.devRef .tc main_v15)) (V (Proc.devRef .tc main_arg5)) := by
  after_results_simp
  rfl

theorem after9_v157 (V : Valuation τ sig (Elt F)) :
    StableHlo.after hostOps9 V (Proc.devRef .tc main_v157)
      = scaleF2 (V (Proc.devRef .tc main_v144_0)) (V (Proc.devRef .tc main_v144_1)) (V (Proc.devRef .tc main_arg6)) := by
  after_results_simp
  rfl

theorem after9_v162 (V : Valuation τ sig (Elt F)) :
    StableHlo.after hostOps9 V (Proc.devRef .tc main_v162)
      = shiftF2 (V (Proc.devRef .tc main_v144_0)) (V (Proc.devRef .tc main_v144_1)) (V (Proc.devRef .tc main_arg6))
          (V (Proc.devRef .tc main_arg7)) := by
  after_results_simp
  rfl

theorem after10_v165 (V : Valuation τ sig (Elt F)) :
    StableHlo.after hostOps10 V (Proc.devRef .tc main_v165) = w3F (V (Proc.devRef .tc main_arg4)) := by
  after_results
  rfl

end Cert.KernelIdeal.HandValue
-- ==== Proof.KLayer3.lean ====
import proofs.«402767_j7713761264261_1_alg».proof.Proof.KLayerCore
import proofs.«402767_j7713761264261_1_alg».proof.Proof.KLayerFin

noncomputable section

namespace Cert.KernelIdeal.HandValue

open Cert.KernelIdeal Cert.KernelIdeal.Gen
open Idealize.ShloMosaic Idealize.ShloMosaic.TcCoe Idealize.ShloMosaic.ValueIdx Idealize.ShloMosaic.StableHlo
open Idealize.SL.Sem
open scoped BigOperators

variable {F : FTy → Type} [FloatOps F]

set_option quotPrecheck false in
local notation "𝕋[" S ", " e "]" => BufTy.Contents (Elt F) (BufTy.mk S e)

def prow3 (p : 𝕋[S4x128, .f32]) : 𝕋[S1x128, .f32] :=
  extractStridedSlice S1x128 ![3, 0] p slices_S4x128_S1x128_3_0

def aggF3 (h : 𝕋[S50000x128, .f32]) (src : 𝕋[S850000, .i32]) (norm : 𝕋[S850000, .f32]) (dst : 𝕋[S850000, .i32])
    (b : 𝕋[S4x128, .f32]) : 𝕋[S50000x128, .f32] :=
  aggCore h src norm dst (prow3 b)

def scaleF3 (s q : 𝕋[S1x128, .f32]) (gamma : 𝕋[S4x128, .f32]) : 𝕋[S1x128, .f32] :=
  scaleCore s q (prow3 gamma)

def shiftF3 (s q : 𝕋[S1x128, .f32]) (gamma beta : 𝕋[S4x128, .f32]) : 𝕋[S1x128, .f32] :=
  shiftCore s q (prow3 gamma) (prow3 beta)

theorem after11_v184 (V : Valuation τ sig (Elt F)) :
    StableHlo.after hostOps11 V (Proc.devRef .tc main_v184)
      = aggF3 (V (Proc.devRef .tc main_v166)) (V (Proc.devRef .tc main_v12)) (V (Proc.devRef .tc main_v40))
          (V (Proc.devRef .tc main_v15)) (V (Proc.devRef .tc main_arg5)) := by
  after_results_simp
  rfl

theorem after12_v198 (V : Valuation τ sig (Elt F)) :
    StableHlo.after hostOps12 V (Proc.devRef .tc main_v198)
      = scaleF3 (V (Proc.devRef .tc main_v185_0)) (V (Proc.devRef .tc main_v185_1)) (V (Proc.devRef .tc main_arg6)) := by
  after_results_simp
  rfl

theorem after12_v203 (V : Valuation τ sig (Elt F)) :
    StableHlo.after hostOps12 V (Proc.devRef .tc main_v203)
      = shiftF3 (V (Proc.devRef .tc main_v185_0)) (V (Proc.devRef .tc main_v185_1)) (V (Proc.devRef .tc main_arg6))
          (V (Proc.devRef .tc main_arg7)) := by
  after_results_simp
  rfl

end Cert.KernelIdeal.HandValue
-- ==== Proof.AsmBase.lean ====
import proofs.«402767_j7713761264261_1_alg».proof.Defs
import proofs.«402767_j7713761264261_1_alg».proof.Proof.Gen.Pre_finite_inputs
import proofs.«402767_j7713761264261_1_alg».proof.Proof.BridgeEmb
import proofs.«402767_j7713761264261_1_alg».proof.Proof.KChain0
import proofs.«402767_j7713761264261_1_alg».proof.Proof.KLayer1
import proofs.«402767_j7713761264261_1_alg».proof.Proof.KLayer2
import proofs.«402767_j7713761264261_1_alg».proof.Proof.KLayer3

noncomputable section

namespace Cert.Bridge

open Idealize.ShloMosaic Idealize.ShloMosaic.ValueIdx Idealize.ShloMosaic.TcCoe Idealize.SL.Sem
open Cert.HandPre (off)
open Cert.KernelIdeal.HandValue (lookup0 idxF idxF_apply kx0 kx0_eq ksrc kdst knorm kw0 ksrc_eq kdst_eq knorm_eq kw0_eq norm_real)

theorem srcF_eq (e : Cert.KernelIdeal.S2x800000.Idx → BitVec 32) :
    Cert.KernelIdeal.HandValue.srcF e = Cert.ReferenceIdeal.HandRun.srcF (F := Ideal) e := rfl

theorem dstF_eq (e : Cert.KernelIdeal.S2x800000.Idx → BitVec 32) :
    Cert.KernelIdeal.HandValue.dstF e = Cert.ReferenceIdeal.HandRun.dstF (F := Ideal) e := rfl

theorem normF_eq (e : Cert.KernelIdeal.S2x800000.Idx → BitVec 32) :
    Cert.KernelIdeal.HandValue.normF e
      = Cert.ReferenceIdeal.HandRun.normF (F := Ideal) (Cert.ReferenceIdeal.HandRun.srcF (F := Ideal) e)
          (Cert.ReferenceIdeal.HandRun.dstF (F := Ideal) e) := rfl

theorem w0F_eq (W : Cert.KernelIdeal.S4x128x128.Idx → EReal) :
    Cert.KernelIdeal.HandValue.w0F W = Cert.ReferenceIdeal.HandRun.W0F (F := Ideal) W := rfl
theorem w1F_eq (W : Cert.KernelIdeal.S4x128x128.Idx → EReal) :
    Cert.KernelIdeal.HandValue.w1F (F := Ideal) W = Cert.ReferenceIdeal.HandRun.W1F (F := Ideal) W := rfl
theorem w2F_eq (W : Cert.KernelIdeal.S4x128x128.Idx → EReal) :
    Cert.KernelIdeal.HandValue.w2F (F := Ideal) W = Cert.ReferenceIdeal.HandRun.W2F (F := Ideal) W := rfl
theorem w3F_eq (W : Cert.KernelIdeal.S4x128x128.Idx → EReal) :
    Cert.KernelIdeal.HandValue.w3F (F := Ideal) W = Cert.ReferenceIdeal.HandRun.W3F (F := Ideal) W := rfl

section Pure

open Cert.Pre_finite_inputs (fn)
open Cert.ReferenceIdeal Cert.ReferenceIdeal.HandRun

variable {a0 : IVec Cert.Pre_finite_inputs.S50000x9 32} {a1 : IVec Cert.Pre_finite_inputs.S2x800000 32}
  {a2 : IVec Cert.Pre_finite_inputs.S50000 32} {a3 : FVec Ideal Cert.Pre_finite_inputs.S4608x128 .f32}
  {a4 : FVec Ideal Cert.Pre_finite_inputs.S4x128x128 .f32} {a5 a6 a7 : FVec Ideal Cert.Pre_finite_inputs.S4x128 .f32}
  {a8 a9 : FVec Ideal Cert.Pre_finite_inputs.S128 .f32} {a10 : FVec Ideal Cert.Pre_finite_inputs.S128x128 .f32}
  {a11 : FVec Ideal Cert.Pre_finite_inputs.S128 .f32} {a12 : FVec Ideal Cert.Pre_finite_inputs.S128x1 .f32}
  {a13 : FVec Ideal Cert.Pre_finite_inputs.S1 .f32}

theorem emb_base (hp : fn (F := Ideal) a0 a1 a2 a3 a4 a5 a6 a7 a8 a9 a10 a11 a12 a13 = fun _ => 1#1)
    (a0' : S50000x9.Idx → BitVec 32) (a3' : S4608x128.Idx → EReal) (h0 : a0' = a0) (h3 : a3' = a3)
    (idx : S50000x9.Idx → BitVec 32) (hidx : ∀ (n : Fin 50000) (j : Fin 9), idx (ix2 n j) = a0 (ix2 n j) + off j) :
    lookup0 idx a3 = x0F (F := Ideal) a0' a3' ∧ ∀ i, ∃ r : ℝ, lookup0 idx a3 i = (r : EReal) := by
  subst h0 h3
  have hr := fun (n : Fin 50000) (j : Fin 9) => Cert.HandPre.idx_in_range hp n j
  have e := lookup0_eq_x0F a0' idx a3' hidx hr
  refine ⟨e, fun i => ?_⟩
  rw [e]
  exact x0F_real _ _ hr (fun i => Cert.HandPre.finite_arg3 hp i) i

end Pure

section Memories

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

abbrev kArg (c : Dev Cert.KernelIdeal.nD) (r : Ref Cert.KernelIdeal.sig .tc) :=
  m ((c.tc : Thread Cert.KernelIdeal.nD Cert.KernelIdeal.τ).loc r)
abbrev rArg (c : Dev Cert.KernelIdeal.nD) (r : Ref Cert.ReferenceIdeal.sig .tc) :=
  m' ((c.tc : Thread Cert.ReferenceIdeal.nD Cert.ReferenceIdeal.τ).loc r)

theorem base_x0 (c : Dev Cert.KernelIdeal.nD) (hpre : Cert.Pre_KernelIdeal m)
    (h0 : rArg m' c Cert.ReferenceIdeal.main_arg0 = kArg m c Cert.KernelIdeal.main_arg0)
    (h3 : rArg m' c Cert.ReferenceIdeal.main_arg3 = kArg m c Cert.KernelIdeal.main_arg3) :
    kx0 m c = Cert.ReferenceIdeal.HandRun.res_x0 (F := Ideal) (StableHlo.launchContents m' c)
      ∧ ∀ i, ∃ r : ℝ, kx0 m c i = (r : EReal) := by
  rw [kx0_eq]
  exact emb_base (hpre c) _ _ h0 h3 _ (idxF_apply _)

theorem base_edges (c : Dev Cert.KernelIdeal.nD)
    (h1 : rArg m' c Cert.ReferenceIdeal.main_arg1 = kArg m c Cert.KernelIdeal.main_arg1) :
    ksrc m c = Cert.ReferenceIdeal.HandRun.res_src (F := Ideal) (StableHlo.launchContents m' c)
      ∧ kdst m c = Cert.ReferenceIdeal.HandRun.res_dst (F := Ideal) (StableHlo.launchContents m' c)
      ∧ knorm m c = Cert.ReferenceIdeal.HandRun.res_norm (F := Ideal) (StableHlo.launchContents m' c)
      ∧ ∀ i, ∃ r : ℝ, knorm m c i = (r : EReal) := by
  refine ⟨?_, ?_, ?_, fun i => ?_⟩
  · rw [ksrc_eq, srcF_eq]
    show _ = Cert.ReferenceIdeal.HandRun.srcF (F := Ideal) (rArg m' c Cert.ReferenceIdeal.main_arg1)
    rw [h1]
  · rw [kdst_eq, dstF_eq]
    show _ = Cert.ReferenceIdeal.HandRun.dstF (F := Ideal) (rArg m' c Cert.ReferenceIdeal.main_arg1)
    rw [h1]
  · rw [knorm_eq, normF_eq]
    show _ = Cert.ReferenceIdeal.HandRun.normF (F := Ideal)
      (Cert.ReferenceIdeal.HandRun.srcF (F := Ideal) (rArg m' c Cert.ReferenceIdeal.main_arg1))
      (Cert.ReferenceIdeal.HandRun.dstF (F := Ideal) (rArg m' c Cert.ReferenceIdeal.main_arg1))
    rw [h1]
  · rw [knorm_eq]
    exact norm_real _ i

theorem base_w0 (c : Dev Cert.KernelIdeal.nD)
    (h4 : rArg m' c Cert.ReferenceIdeal.main_arg4 = kArg m c Cert.KernelIdeal.main_arg4) :
    kw0 m c = Cert.ReferenceIdeal.HandRun.W0F (F := Ideal)
      (StableHlo.launchContents m' c (Proc.devRef .tc Cert.ReferenceIdeal.main_arg4)) := by
  rw [kw0_eq, w0F_eq]
  show _ = Cert.ReferenceIdeal.HandRun.W0F (F := Ideal) (rArg m' c Cert.ReferenceIdeal.main_arg4)
  rw [h4]

end Memories

end Cert.Bridge
-- ==== Proof.BridgeLayer.lean ====
import proofs.«402767_j7713761264261_1_alg».proof.Proof.RefStages
import proofs.«402767_j7713761264261_1_alg».proof.Proof.BnRelu
import proofs.«402767_j7713761264261_1_alg».proof.Proof.KLayerCore
import proofs.«402767_j7713761264261_1_alg».proof.Proof.LibBatchNorm
import Idealize.ShloMosaic.Lib.IdealHost

noncomputable section

namespace Cert.Bridge

open Idealize.ShloMosaic Idealize.ShloMosaic.ValueIdx
open scoped BigOperators

section Ref
open Cert.ReferenceIdeal Cert.ReferenceIdeal.Gen Cert.ReferenceIdeal.HandRun

theorem rdot_lhs_ax0 (j : S50000x128.Idx) (k : dot_S50000x128_S128x128_S50000x128_1_0_0_1_n_n.contr.Idx) :
    (dot_S50000x128_S128x128_S50000x128_1_0_0_1_n_n.lhsIdx j k 0).val = (j 0).val := by
  simp [DotDims.lhsIdx, dot_S50000x128_S128x128_S50000x128_1_0_0_1_n_n]; rfl

theorem rdot_rhs_ax1 (j : S50000x128.Idx) (k : dot_S50000x128_S128x128_S50000x128_1_0_0_1_n_n.contr.Idx) :
    (dot_S50000x128_S128x128_S50000x128_1_0_0_1_n_n.rhsIdx j k 1).val = (j 1).val := by
  simp [DotDims.rhsIdx, dot_S50000x128_S128x128_S50000x128_1_0_0_1_n_n]; rfl

theorem rdot_lhs_ax1 (j : S50000x128.Idx) (k : dot_S50000x128_S128x128_S50000x128_1_0_0_1_n_n.contr.Idx) :
    (dot_S50000x128_S128x128_S50000x128_1_0_0_1_n_n.lhsIdx j k 1).val = (k ⟨0, by decide⟩).val :=
  dot_S50000x128_S128x128_S50000x128_1_0_0_1_n_n.lhsIdx_val_of_single (cl := 1) rfl j k

theorem rdot_rhs_ax0 (j : S50000x128.Idx) (k : dot_S50000x128_S128x128_S50000x128_1_0_0_1_n_n.contr.Idx) :
    (dot_S50000x128_S128x128_S50000x128_1_0_0_1_n_n.rhsIdx j k 0).val = (k ⟨0, by decide⟩).val :=
  dot_S50000x128_S128x128_S50000x128_1_0_0_1_n_n.rhsIdx_val_of_single (cr := 0) rfl j k

theorem hF_apply (x : S50000x128.Idx → EReal) (W : S128x128.Idx → EReal) (n : Fin 50000) (h : Fin 128) :
    HandRun.hF (F := Ideal) x W (ix2 n h) = ∑ k : Fin 128, x (ix2 n k) * W (ix2 k h) := by
  unfold HandRun.hF
  refine (Ideal.dotGeneral_apply dot_S50000x128_S128x128_S50000x128_1_0_0_1_n_n none _ x W (ix2 n h)).trans ?_
  rw [← Equiv.sum_comp (contrEquiv1 dot_S50000x128_S128x128_S50000x128_1_0_0_1_n_n 128 rfl rfl).symm]
  refine Finset.sum_congr rfl fun k _ => ?_
  have c2 := contrEquiv1_symm_val dot_S50000x128_S128x128_S50000x128_1_0_0_1_n_n 128 rfl rfl k
  congr 2
  · funext ax; apply Fin.ext
    match ax with
    | ⟨0, _⟩ => exact rdot_lhs_ax0 _ _
    | ⟨1, _⟩ => exact (rdot_lhs_ax1 _ _).trans c2
  · funext ax; apply Fin.ext
    match ax with
    | ⟨0, _⟩ => exact (rdot_rhs_ax0 _ _).trans c2
    | ⟨1, _⟩ => exact rdot_rhs_ax1 _ _

theorem hF_eq (x : S50000x128.Idx → EReal) (W : S128x128.Idx → EReal) :
    HandRun.hF (F := Ideal) x W = fun i => ∑ k : Fin 128, x (ix2 (i 0) k) * W (ix2 k (i 1)) := by
  funext i
  obtain ⟨n, h, rfl⟩ : ∃ (n : Fin 50000) (h : Fin 128), i = ix2 n h := ⟨i 0, i 1, eq_ix2 i⟩
  exact hF_apply x W n h

theorem hF_real (x : S50000x128.Idx → EReal) (W : S128x128.Idx → EReal)
    (hx : ∀ i, ∃ r : ℝ, x i = r) (hW : ∀ i, ∃ r : ℝ, W i = r) (i : S50000x128.Idx) :
    ∃ r : ℝ, HandRun.hF (F := Ideal) x W i = r := by
  obtain ⟨n, h, rfl⟩ : ∃ (n : Fin 50000) (h : Fin 128), i = ix2 n h := ⟨i 0, i 1, eq_ix2 i⟩
  rw [hF_apply]
  exact Cert.HandMath.real_sum_mul _ _ (fun k => hx _) (fun k => hW _)

abbrev N50 : EReal := Ideal.ofBits .f32 0x47435000#32
abbrev EPS : EReal := Ideal.ofBits .f32 0x3727C5AC#32

theorem hostSqrt_apply {s : Shape} {φ : FTy} (x : FVec Ideal s φ) (i : s.Idx) : Host.sqrt x i = Ideal.sqrt (x i) := rfl
theorem hostRsqrt_apply {s : Shape} {φ : FTy} (x : FVec Ideal s φ) (i : s.Idx) : Host.rsqrt x i = Ideal.rsqrt (x i) := rfl

theorem red50000 : S50000x128.Reduces [0] S128 := by decide

theorem rows50000_apply (v : S128.Idx → EReal) (n : Fin 50000) (h : Fin 128) :
    rows50000 (F := Ideal) v (ix2 n h) = v (ix1 h) := by
  unfold rows50000
  refine (broadcastInDim_apply ![0, 1] bcast_S1x128_S50000x128_0_1 _ (ix2 n h) (ix2 0 h) fun a => ?_).trans ?_
  · match a with
    | ⟨0, _⟩ => rfl
    | ⟨1, _⟩ => rfl
  · refine broadcastInDim_apply ![1] bcast_S128_S1x128_1 v (ix2 0 h) (ix1 h) fun a => ?_
    match a with
    | ⟨0, _⟩ => rfl

theorem colsum_apply (a : S50000x128.Idx → EReal) (h : Fin 128) :
    Host.reduceAdd (F := Ideal) a (constant S_ .f32 0x00000000#32) reducesTo_S50000x128_S128_d0 h_S_ (ix1 h)
      = ∑ n : Fin 50000, a (ix2 n h) := by
  rw [hostReduceAdd_apply]
  refine (Ideal.hostReduceAdd_single reducesTo_S50000x128_S128_d0 red50000 a _ (ix1 h)).trans ?_
  show Ideal.ofBits .f32 0x00000000#32 + _ = _
  rw [Ideal.ofBits_zero_f32, zero_add]
  refine Finset.sum_congr rfl fun n _ => congrArg a ?_
  funext c; apply Fin.ext
  match c with
  | ⟨0, _⟩ => rfl
  | ⟨1, _⟩ => rfl

theorem mean50000_apply (a : S50000x128.Idx → EReal) (h : Fin 128) :
    mean50000 (F := Ideal) a (ix1 h) = Ideal.div (∑ n : Fin 50000, a (ix2 n h)) N50 := by
  unfold mean50000
  rw [hostDivf_apply, colsum_apply, broadcastInDim_scalar_apply, constant_apply]

theorem dev50000_apply (a : S50000x128.Idx → EReal) (n : Fin 50000) (h : Fin 128) :
    dev50000 (F := Ideal) a (ix2 n h) = a (ix2 n h) - Ideal.div (∑ k : Fin 50000, a (ix2 k h)) N50 := by
  unfold dev50000
  rw [subf_apply]
  refine congrArg (fun z => a (ix2 n h) - z) ?_
  refine (broadcastInDim_apply ![0, 1] bcast_S1x128_S50000x128_0_1 _ (ix2 n h) (ix2 0 h) fun c => ?_).trans ?_
  · match c with
    | ⟨0, _⟩ => rfl
    | ⟨1, _⟩ => rfl
  · rw [hostDivf_apply, broadcastInDim_scalar_apply, constant_apply]
    refine congrArg (fun z => Ideal.div z N50) ?_
    have e1 := broadcastInDim_apply ![1] bcast_S128_S1x128_1
      (Host.reduceAdd (F := Ideal) a (constant S_ .f32 0x00000000#32) reducesTo_S50000x128_S128_d0 h_S_)
      (ix2 (0 : Fin 1) h) (ix1 h) (fun c => by match c with | ⟨0, _⟩ => rfl)
    exact e1.trans (colsum_apply a h)

theorem varDen50000_eq : varDen50000 (F := Ideal) ix0 = N50 := by
  unfold varDen50000
  show Ideal.ofBits .f32 0x47435000#32 - ((((0#32 : BitVec 32).toInt : ℤ) : ℝ) : EReal) = _
  exact Cert.HandMath.sub_toInt_zero _

theorem var50000_apply (a : S50000x128.Idx → EReal) (h : Fin 128) :
    var50000 (F := Ideal) a (ix1 h)
      = Ideal.div (∑ j : Fin 50000, (a (ix2 j h) - Ideal.div (∑ k : Fin 50000, a (ix2 k h)) N50)
          * (a (ix2 j h) - Ideal.div (∑ k : Fin 50000, a (ix2 k h)) N50)) N50 := by
  unfold var50000
  rw [select_apply, broadcastInDim_scalar_apply, cmpf_apply, varDen50000_eq, constant_apply, Ideal.ofBits_zero_f32]
  have hg : FloatOps.cmpf (F := Ideal) (φ := .f32) .ogt N50 0 = 1#1 := by
    obtain ⟨r, -, hr, e⟩ := Cert.HandMath.count_50000
    exact Cert.HandMath.cmp_ogt_zero_of_pos ⟨r, hr, e⟩
  rw [hg, select_one, hostDivf_apply, broadcastInDim_scalar_apply, varDen50000_eq, colsum_apply]
  refine congrArg (fun z => Ideal.div z N50) (Finset.sum_congr rfl fun j _ => ?_)
  rw [mulf_apply, dev50000_apply]

theorem bnreluF_apply (a : S50000x128.Idx → EReal) (g bt : S128.Idx → EReal) (n : Fin 50000) (h : Fin 128) :
    bnreluF (F := Ideal) a g bt (ix2 n h)
      = max ((a (ix2 n h) - Ideal.div (∑ j : Fin 50000, a (ix2 j h)) N50)
            * Ideal.div (g (ix1 h)) (Ideal.sqrt
                (Ideal.div (∑ j : Fin 50000, (a (ix2 j h) - Ideal.div (∑ k : Fin 50000, a (ix2 k h)) N50)
                  * (a (ix2 j h) - Ideal.div (∑ k : Fin 50000, a (ix2 k h)) N50)) N50 + EPS))
          + bt (ix1 h)) 0 := by
  unfold bnreluF
  rw [maximumf_apply, addf_apply, mulf_apply, subf_apply, rows50000_apply, rows50000_apply, rows50000_apply,
    broadcastInDim_scalar_apply, constant_apply, Ideal.ofBits_zero_f32, mean50000_apply, hostDivf_apply,
    hostSqrt_apply, addf_apply, var50000_apply, broadcastInDim_scalar_apply, constant_apply]

theorem bnreluF_real (a : S50000x128.Idx → EReal) (g bt : S128.Idx → EReal) (ha : ∀ i, ∃ r : ℝ, a i = r)
    (hg : ∀ h : Fin 128, ∃ r : ℝ, g (ix1 h) = r) (hb : ∀ h : Fin 128, ∃ r : ℝ, bt (ix1 h) = r) (i : S50000x128.Idx) :
    ∃ r : ℝ, 0 ≤ r ∧ bnreluF (F := Ideal) a g bt i = r := by
  obtain ⟨n, h, rfl⟩ : ∃ (n : Fin 50000) (h : Fin 128), i = ix2 n h := ⟨i 0, i 1, eq_ix2 i⟩
  rw [bnreluF_apply]
  exact Cert.HandMath.bn_layer_centred_real (fun j : Fin 50000 => a (ix2 j h)) N50 (g (ix1 h)) (bt (ix1 h)) EPS
    (fun j => ha _) Cert.HandMath.count_50000 (hg h) (hb h) Cert.HandMath.ofBits_f32_eps_pos n

end Ref

section Ker
open Cert.KernelIdeal Cert.KernelIdeal.Gen Cert.KernelIdeal.HandValue

theorem rowBack_apply (r : S1x128.Idx → EReal) (h : Fin 128) :
    rowBack (F := Ideal) r (ix2 (0 : Fin 1) h) = r (ix2 (0 : Fin 1) h) := by
  unfold rowBack
  refine (broadcastInDim_apply ![1] bcast_S128_S1x128_1 _ (ix2 (0 : Fin 1) h) (ix1 h) fun c => ?_).trans ?_
  · match c with
    | ⟨0, _⟩ => rfl
  · exact shapeCast_1a_a_apply r shapeCasts_S1x128_S128 h

theorem countRow_apply (h : Fin 128) : countRow (F := Ideal) (ix2 (0 : Fin 1) h) = N50 := by
  unfold countRow
  rw [broadcastInDim_scalar_apply, constant_apply]

theorem epsRow_apply (h : Fin 128) : epsRow (F := Ideal) (ix2 (0 : Fin 1) h) = EPS := by
  unfold epsRow
  rw [broadcastInDim_scalar_apply, constant_apply]

theorem meanCore_apply (s : S1x128.Idx → EReal) (h : Fin 128) :
    meanCore (F := Ideal) s (ix2 (0 : Fin 1) h) = Ideal.div (s (ix2 (0 : Fin 1) h)) N50 := by
  unfold meanCore
  rw [hostDivf_apply, countRow_apply]

theorem varCore_apply (s q : S1x128.Idx → EReal) (h : Fin 128) :
    varCore (F := Ideal) s q (ix2 (0 : Fin 1) h)
      = Ideal.div (q (ix2 (0 : Fin 1) h)) N50
        - Ideal.div (s (ix2 (0 : Fin 1) h)) N50 * Ideal.div (s (ix2 (0 : Fin 1) h)) N50 := by
  unfold varCore
  rw [subf_apply, hostDivf_apply, countRow_apply, mulf_apply, meanCore_apply]

theorem scaleCore_apply (s q grow : S1x128.Idx → EReal) (h : Fin 128) :
    scaleCore (F := Ideal) s q grow (ix2 (0 : Fin 1) h)
      = grow (ix2 (0 : Fin 1) h) * Ideal.rsqrt
          (Ideal.div (q (ix2 (0 : Fin 1) h)) N50
            - Ideal.div (s (ix2 (0 : Fin 1) h)) N50 * Ideal.div (s (ix2 (0 : Fin 1) h)) N50 + EPS) := by
  unfold scaleCore
  rw [mulf_apply, rowBack_apply, hostRsqrt_apply, addf_apply, varCore_apply, epsRow_apply]

theorem shiftCore_apply (s q grow brow : S1x128.Idx → EReal) (h : Fin 128) :
    shiftCore (F := Ideal) s q grow brow (ix2 (0 : Fin 1) h)
      = brow (ix2 (0 : Fin 1) h) - Ideal.div (s (ix2 (0 : Fin 1) h)) N50 * scaleCore (F := Ideal) s q grow (ix2 (0 : Fin 1) h) := by
  unfold shiftCore
  rw [subf_apply, rowBack_apply, mulf_apply, meanCore_apply]

theorem layer_entry (a : S50000x128.Idx → EReal) (s q grow brow : S1x128.Idx → EReal)
    (g bt : Cert.ReferenceIdeal.S128.Idx → EReal) (ha : ∀ i, ∃ r : ℝ, a i = r)
    (hs : ∀ h : Fin 128, s (ix2 (0 : Fin 1) h) = ∑ n : Fin 50000, a (ix2 n h))
    (hq : ∀ h : Fin 128, q (ix2 (0 : Fin 1) h) = ∑ n : Fin 50000, a (ix2 n h) * a (ix2 n h))
    (hg : ∀ h : Fin 128, g (ix1 h) = grow (ix2 (0 : Fin 1) h)) (hb : ∀ h : Fin 128, bt (ix1 h) = brow (ix2 (0 : Fin 1) h))
    (hgr : ∀ h : Fin 128, ∃ r : ℝ, grow (ix2 (0 : Fin 1) h) = r) (hbr : ∀ h : Fin 128, ∃ r : ℝ, brow (ix2 (0 : Fin 1) h) = r)
    (n : Fin 50000) (h : Fin 128) :
    bnRelu a (scaleCore (F := Ideal) s q grow) (shiftCore (F := Ideal) s q grow brow) (ix2 n h)
      = Cert.ReferenceIdeal.HandRun.bnreluF (F := Ideal) a g bt (ix2 n h) := by
  rw [bnRelu_apply, bnreluF_apply, shiftCore_apply, scaleCore_apply, hs h, hq h, hg h, hb h]
  exact Cert.HandMath.bn_layer (fun j : Fin 50000 => a (ix2 j h)) N50 (grow (ix2 (0 : Fin 1) h)) (brow (ix2 (0 : Fin 1) h)) EPS
    (fun j => ha _) Cert.HandMath.count_50000 (hgr h) (hbr h) Cert.HandMath.ofBits_f32_eps_pos n

theorem layer_law (a : S50000x128.Idx → EReal) (s q grow brow : S1x128.Idx → EReal)
    (g bt : Cert.ReferenceIdeal.S128.Idx → EReal) (ha : ∀ i, ∃ r : ℝ, a i = r)
    (hs : ∀ h : Fin 128, s (ix2 (0 : Fin 1) h) = ∑ n : Fin 50000, a (ix2 n h))
    (hq : ∀ h : Fin 128, q (ix2 (0 : Fin 1) h) = ∑ n : Fin 50000, a (ix2 n h) * a (ix2 n h))
    (hg : ∀ h : Fin 128, g (ix1 h) = grow (ix2 (0 : Fin 1) h)) (hb : ∀ h : Fin 128, bt (ix1 h) = brow (ix2 (0 : Fin 1) h))
    (hgr : ∀ h : Fin 128, ∃ r : ℝ, grow (ix2 (0 : Fin 1) h) = r) (hbr : ∀ h : Fin 128, ∃ r : ℝ, brow (ix2 (0 : Fin 1) h) = r) :
    bnRelu a (scaleCore (F := Ideal) s q grow) (shiftCore (F := Ideal) s q grow brow)
      = Cert.ReferenceIdeal.HandRun.bnreluF (F := Ideal) a g bt := by
  funext i
  obtain ⟨n, h, rfl⟩ : ∃ (n : Fin 50000) (h : Fin 128), i = ix2 n h := ⟨i 0, i 1, eq_ix2 i⟩
  exact layer_entry a s q grow brow g bt ha hs hq hg hb hgr hbr n h

theorem layer_law_rows (a : S50000x128.Idx → EReal) (s q grow brow : S1x128.Idx → EReal) (ha : ∀ i, ∃ r : ℝ, a i = r)
    (hs : ∀ h : Fin 128, s (ix2 (0 : Fin 1) h) = ∑ n : Fin 50000, a (ix2 n h))
    (hq : ∀ h : Fin 128, q (ix2 (0 : Fin 1) h) = ∑ n : Fin 50000, a (ix2 n h) * a (ix2 n h))
    (hgr : ∀ h : Fin 128, ∃ r : ℝ, grow (ix2 (0 : Fin 1) h) = r) (hbr : ∀ h : Fin 128, ∃ r : ℝ, brow (ix2 (0 : Fin 1) h) = r) :
    bnRelu a (scaleCore (F := Ideal) s q grow) (shiftCore (F := Ideal) s q grow brow)
      = Cert.ReferenceIdeal.HandRun.bnreluF (F := Ideal) a
          (shapeCast Cert.ReferenceIdeal.S128 grow Cert.ReferenceIdeal.Facts₀.shapeCasts_S1x128_S128)
          (shapeCast Cert.ReferenceIdeal.S128 brow Cert.ReferenceIdeal.Facts₀.shapeCasts_S1x128_S128) :=
  layer_law a s q grow brow _ _ ha hs hq
    (fun h => shapeCast_1a_a_apply grow Cert.ReferenceIdeal.Facts₀.shapeCasts_S1x128_S128 h)
    (fun h => shapeCast_1a_a_apply brow Cert.ReferenceIdeal.Facts₀.shapeCasts_S1x128_S128 h) hgr hbr

theorem aggCore_eq_aggF (x : S50000x128.Idx → EReal) (src dst : BufTy.Contents (Elt Ideal) ⟨S850000, .i32⟩)
    (norm : S850000.Idx → EReal) (brow : S1x128.Idx → EReal) :
    aggCore (F := Ideal) x src norm dst brow
      = Cert.ReferenceIdeal.HandRun.aggF (F := Ideal) x src dst norm
          (shapeCast Cert.ReferenceIdeal.S128 brow Cert.ReferenceIdeal.Facts₀.shapeCasts_S1x128_S128) := by
  unfold aggCore msgCore rowAll wrapEdge Cert.ReferenceIdeal.HandRun.aggF Cert.ReferenceIdeal.HandRun.col850
    Cert.ReferenceIdeal.HandRun.wrap850 Cert.ReferenceIdeal.HandRun.rows50000
  rfl

end Ker

end Cert.Bridge
-- ==== Proof.AsmLayerCore.lean ====
import proofs.«402767_j7713761264261_1_alg».proof.Proof.BridgeLayer
import proofs.«402767_j7713761264261_1_alg».proof.Proof.KLayerFin

noncomputable section

namespace Cert.Bridge

open Idealize.ShloMosaic Idealize.ShloMosaic.ValueIdx
open Cert.KernelIdeal Cert.KernelIdeal.Gen Cert.KernelIdeal.HandValue
open scoped BigOperators

theorem layer_step
    (x : S50000x128.Idx → EReal) (w : S128x128.Idx → EReal) (hh agg x1 : S50000x128.Idx → EReal)
    (src dst : BufTy.Contents (Elt Ideal) ⟨S850000, .i32⟩) (norm : S850000.Idx → EReal)
    (s q brow5 grow brow : S1x128.Idx → EReal)
    (e_h : hh = fun i => ∑ k : Fin 128, x (ix2 (i 0) k) * w (ix2 k (i 1)))
    (e_agg : agg = aggCore (F := Ideal) hh src norm dst brow5)
    (e_s : ∀ h : Fin 128, s (ix2 (0 : Fin 1) h) = ∑ n : Fin 50000, agg (ix2 n h))
    (e_q : ∀ h : Fin 128, q (ix2 (0 : Fin 1) h) = ∑ n : Fin 50000, agg (ix2 n h) * agg (ix2 n h))
    (e_x1 : x1 = bnRelu agg (scaleCore (F := Ideal) s q grow) (shiftCore (F := Ideal) s q grow brow))
    (hx : ∀ i, ∃ r : ℝ, x i = r) (hw : ∀ i, ∃ r : ℝ, w i = r) (hn : ∀ i, ∃ r : ℝ, norm i = r)
    (hb5 : ∀ i, ∃ r : ℝ, brow5 i = r) (hg : ∀ i, ∃ r : ℝ, grow i = r) (hb : ∀ i, ∃ r : ℝ, brow i = r) :
    x1 = Cert.ReferenceIdeal.HandRun.bnreluF (F := Ideal)
          (Cert.ReferenceIdeal.HandRun.aggF (F := Ideal) (Cert.ReferenceIdeal.HandRun.hF (F := Ideal) x w) src dst norm
            (shapeCast Cert.ReferenceIdeal.S128 brow5 Cert.ReferenceIdeal.Facts₀.shapeCasts_S1x128_S128))
          (shapeCast Cert.ReferenceIdeal.S128 grow Cert.ReferenceIdeal.Facts₀.shapeCasts_S1x128_S128)
          (shapeCast Cert.ReferenceIdeal.S128 brow Cert.ReferenceIdeal.Facts₀.shapeCasts_S1x128_S128)
      ∧ ∀ i, ∃ r : ℝ, x1 i = r := by
  have e1 : hh = Cert.ReferenceIdeal.HandRun.hF (F := Ideal) x w := e_h.trans (hF_eq x w).symm
  have hhr : ∀ i, ∃ r : ℝ, hh i = r := fun i => by rw [e1]; exact hF_real x w hx hw i
  have e2 : agg = Cert.ReferenceIdeal.HandRun.aggF (F := Ideal) (Cert.ReferenceIdeal.HandRun.hF (F := Ideal) x w) src dst norm
      (shapeCast Cert.ReferenceIdeal.S128 brow5 Cert.ReferenceIdeal.Facts₀.shapeCasts_S1x128_S128) := by
    rw [e_agg, aggCore_eq_aggF, e1]
  have har : ∀ i, ∃ r : ℝ, agg i = r := fun i => by
    rw [e_agg]; exact aggCore_real hh src norm dst brow5 hhr hn hb5 i
  have e3 : x1 = Cert.ReferenceIdeal.HandRun.bnreluF (F := Ideal) agg
      (shapeCast Cert.ReferenceIdeal.S128 grow Cert.ReferenceIdeal.Facts₀.shapeCasts_S1x128_S128)
      (shapeCast Cert.ReferenceIdeal.S128 brow Cert.ReferenceIdeal.Facts₀.shapeCasts_S1x128_S128) :=
    e_x1.trans (layer_law_rows agg s q grow brow har e_s e_q (fun h => hg _) (fun h => hb _))
  refine ⟨by rw [e3, e2], fun i => ?_⟩
  rw [e3]
  obtain ⟨r, -, hr⟩ := bnreluF_real agg
    (shapeCast Cert.ReferenceIdeal.S128 grow Cert.ReferenceIdeal.Facts₀.shapeCasts_S1x128_S128)
    (shapeCast Cert.ReferenceIdeal.S128 brow Cert.ReferenceIdeal.Facts₀.shapeCasts_S1x128_S128) har
    (fun h => by rw [shapeCast_1a_a_apply grow Cert.ReferenceIdeal.Facts₀.shapeCasts_S1x128_S128 h]; exact hg _)
    (fun h => by rw [shapeCast_1a_a_apply brow Cert.ReferenceIdeal.Facts₀.shapeCasts_S1x128_S128 h]; exact hb _) i
  exact ⟨r, hr⟩

end Cert.Bridge
-- ==== Proof.AsmLayer0.lean ====
import proofs.«402767_j7713761264261_1_alg».proof.Proof.AsmLayerCore
import proofs.«402767_j7713761264261_1_alg».proof.Proof.KChain0

noncomputable section

namespace Cert.Bridge

open Idealize.ShloMosaic Idealize.ShloMosaic.TcCoe Idealize.ShloMosaic.ValueIdx Idealize.ShloMosaic.StableHlo Idealize.SL.Sem
open Cert.KernelIdeal Cert.KernelIdeal.Gen Cert.KernelIdeal.HandValue
open scoped BigOperators

theorem row0_eq (p : BufTy.Contents (Elt Ideal) ⟨S4x128, .f32⟩) :
    shapeCast Cert.ReferenceIdeal.S128 (prow0 (F := Ideal) p) Cert.ReferenceIdeal.Facts₀.shapeCasts_S1x128_S128
      = Cert.ReferenceIdeal.HandRun.row0F (F := Ideal) p := rfl

theorem prow0_real (p : S4x128.Idx → EReal) (hp : ∀ i, ∃ r : ℝ, p i = r) (i : S1x128.Idx) :
    ∃ r : ℝ, prow0 (F := Ideal) p i = r := by
  unfold prow0 extractStridedSlice
  exact hp _

variable (m : (ℓ : Loc nD τ sig) → Buf (Elt Ideal) ℓ) (c : Dev nD)
variable (V0' : Valuation Cert.ReferenceIdeal.τ Cert.ReferenceIdeal.sig (Elt Ideal))

theorem step0
    (hx : kx0 m c = Cert.ReferenceIdeal.HandRun.res_x0 V0' ∧ ∀ i, ∃ r : ℝ, kx0 m c i = r)
    (hedge : ksrc m c = Cert.ReferenceIdeal.HandRun.res_src V0' ∧ kdst m c = Cert.ReferenceIdeal.HandRun.res_dst V0'
      ∧ knorm m c = Cert.ReferenceIdeal.HandRun.res_norm V0' ∧ ∀ i, ∃ r : ℝ, knorm m c i = r)
    (hw : kw0 m c = Cert.ReferenceIdeal.HandRun.W0F (V0' (Proc.devRef .tc Cert.ReferenceIdeal.main_arg4)))
    (hpar : V0' (Proc.devRef .tc Cert.ReferenceIdeal.main_arg4) = m ((c : Thread nD τ).loc main_arg4)
      ∧ V0' (Proc.devRef .tc Cert.ReferenceIdeal.main_arg5) = m ((c : Thread nD τ).loc main_arg5)
      ∧ V0' (Proc.devRef .tc Cert.ReferenceIdeal.main_arg6) = m ((c : Thread nD τ).loc main_arg6)
      ∧ V0' (Proc.devRef .tc Cert.ReferenceIdeal.main_arg7) = m ((c : Thread nD τ).loc main_arg7))
    (hfin : (∀ i : S4x128x128.Idx, ∃ r : ℝ, m ((c : Thread nD τ).loc main_arg4) i = (r : EReal))
      ∧ (∀ i : S4x128.Idx, ∃ r : ℝ, m ((c : Thread nD τ).loc main_arg5) i = (r : EReal))
      ∧ (∀ i : S4x128.Idx, ∃ r : ℝ, m ((c : Thread nD τ).loc main_arg6) i = (r : EReal))
      ∧ (∀ i : S4x128.Idx, ∃ r : ℝ, m ((c : Thread nD τ).loc main_arg7) i = (r : EReal))) :
    kx1 m c = Cert.ReferenceIdeal.HandRun.res_x1 V0' ∧ ∀ i, ∃ r : ℝ, kx1 m c i = r := by
  obtain ⟨hx1, hxr⟩ := hx
  obtain ⟨hs, hd, hn, hnr⟩ := hedge
  obtain ⟨hp4, hp5, hp6, hp7⟩ := hpar
  obtain ⟨hf4, hf5, hf6, hf7⟩ := hfin
  have hwr : ∀ i, ∃ r : ℝ, kw0 m c i = r := fun i => by
    rw [hw, hp4]
    unfold Cert.ReferenceIdeal.HandRun.W0F shapeCast extractStridedSlice
    exact hf4 _
  obtain ⟨e, hr⟩ := layer_step (kx0 m c) (kw0 m c) (kh0 m c) (kagg0 m c) (kx1 m c) (ksrc m c) (kdst m c) (knorm m c)
    (ks0 m c) (kq0 m c) (prow0 (m ((c : Thread nD τ).loc main_arg5))) (prow0 (m ((c : Thread nD τ).loc main_arg6)))
    (prow0 (m ((c : Thread nD τ).loc main_arg7)))
    (kh0_eq m c) (kagg0_eq m c) (ks0_lane m c) (kq0_lane m c) (kx1_eq m c) hxr hwr hnr
    (prow0_real _ hf5) (prow0_real _ hf6) (prow0_real _ hf7)
  refine ⟨e.trans ?_, hr⟩
  rw [row0_eq, row0_eq, row0_eq, hx1, hw, hs, hd, hn, ← hp5, ← hp6, ← hp7]
  rfl

end Cert.Bridge
-- ==== Proof.Val4.lean ====
import proofs.«402767_j7713761264261_1_alg».proof.Proof.Reg4
import proofs.«402767_j7713761264261_1_alg».proof.Proof.Val1

noncomputable section

open Idealize.ShloMosaic Idealize.ShloMosaic.TcCoe Idealize.SL.Sem
open Idealize.ShloMosaic.Pipeline (Dat)
open Idealize.ShloMosaic.ValueIdx

namespace Cert.KernelIdeal.HandValue

open Cert.KernelIdeal Cert.KernelIdeal.Gen Cert.KernelIdeal.Hand

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem mem_blk4_2 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole (Pipeline.arrRef spec4 2)).slice (win4_2.rect t)).set ↔ _
  rw [View.set_slice_whole, Rect.mem_set_unit]
  exact Iff.rfl

theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨-, -, -, -, e4, e5⟩ := idx_facts4 t
  refine ⟨t, flush4_2 t, ?_⟩
  rw [mem_blk4_2]
  intro a
  have ht : t.val = (i 0).val / 5000 := rfl
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

section Value4
variable (V : (c : Dev nD) → (b : Ref sig .tc) → Buf (Elt Ideal) ((c : Thread nD τ).loc b))

abbrev xarr4 (c : Dev nD) : Vec Ideal S50000x128 .f32 := V c (Pipeline.arrRef spec4 0)
abbrev warr4 (c : Dev nD) : Vec Ideal S128x128 .f32 := V c (Pipeline.arrRef spec4 1)
abbrev oarr4 (c : Dev nD) : Vec Ideal S50000x128 .f32 := (dat4 (F := Ideal) V c).arrAt 2 cfg4.N

abbrev prod4 (c : Dev nD) : Vec Ideal S50000x128 .f32 :=
  fun i => ∑ k : Fin 128, xarr4 V c (ix2 (i 0) k) * warr4 V c (ix2 k (i 1))

theorem xblk4_apply (c : Dev nD) (t : Fin cfg4.N) (p : Fin 5000) (k : Fin 128) (n : Fin 50000) (hn : n.val = 5000 * t.val + p.val) :
    (iblk4 V c 0 t : Vec Ideal S5000x128 .f32) (ix2 p k) = xarr4 V c (ix2 n k) := by
  obtain ⟨e0, e1, -, -, -, -⟩ := idx_facts4 t
  unfold iblk4
  rw [View.read_apply]
  show xarr4 V c _ = _
  congr 1
  funext a; apply Fin.ext
  match a with
  | ⟨0, _⟩ => show win4_0.index t (0 : Fin 2) * 5000 + 1 * p.val = n.val; omega
  | ⟨1, _⟩ => show win4_0.index t (1 : Fin 2) * 128 + 1 * k.val = k.val; omega

theorem wblk4_apply (c : Dev nD) (t : Fin cfg4.N) (k : Fin 128) (q : Fin 128) :
    (iblk4 V c 1 t : Vec Ideal S128x128 .f32) (ix2 k q) = warr4 V c (ix2 k q) := by
  obtain ⟨-, -, e2, e3, -, -⟩ := idx_facts4 t
  unfold iblk4
  rw [View.read_apply]
  show warr4 V c _ = _
  congr 1
  funext a; apply Fin.ext
  match a with
  | ⟨0, _⟩ => show win4_1.index t (0 : Fin 2) * 128 + 1 * k.val = k.val; omega
  | ⟨1, _⟩ => show win4_1.index t (1 : Fin 2) * 128 + 1 * q.val = q.val; omega

theorem flushed4_2 (c : Dev nD) (t : Fin cfg4.N) :
    (dat4 (F := Ideal) V c).flushed 2 t = ((cfg4.win 2).blk t).view.read (Elt Ideal) (prod4 V c) := by
  show (cfg4.win 2).cut (grid4.coords t) ((dat4 (F := Ideal) V c).after 2 t) = _
  rw [after4_2]
  unfold out1_2
  rw [View.canon_unit_zero hz1]
  simp only [View.ld_unit_zero (S := S5000x128) hz1, View.ld_unit_zero (S := S128x128) hz1]
  obtain ⟨-, -, -, -, e4, e5⟩ := idx_facts4 t
  funext j
  obtain ⟨p, q, rfl⟩ : ∃ (p : Fin 5000) (q : Fin 128), j = ix2 p q := ⟨j 0, j 1, eq_ix2 j⟩
  rw [View.read_apply]
  have hN : cfg4.N = 10 := N_4
  have hn : 5000 * t.val + p.val < 50000 := by have := t.isLt; have := p.isLt; omega
  have hemb : ((cfg4.win 2).blk t).view.emb (ix2 p q) = (ix2 ⟨5000 * t.val + p.val, hn⟩ q : S50000x128.Idx) := by
    funext a; apply Fin.ext
    match a with
    | ⟨0, _⟩ => show win4_2.index t (0 : Fin 2) * 5000 + 1 * p.val = 5000 * t.val + p.val; omega
    | ⟨1, _⟩ => show win4_2.index t (1 : Fin 2) * 128 + 1 * q.val = q.val; omega
  show k1_pay1 (iblk4 V c 0 t) (iblk4 V c 1 t) (ix2 p q) = prod4 V c (((cfg4.win 2).blk t).view.emb (ix2 p q))
  rw [hemb]
  refine (pay1_apply (iblk4 V c 0 t) (iblk4 V c 1 t) p q).trans ?_
  show _ = ∑ k : Fin 128, xarr4 V c (ix2 ⟨5000 * t.val + p.val, hn⟩ k) * warr4 V c (ix2 k q)
  refine Finset.sum_congr rfl fun k _ => ?_
  rw [xblk4_apply V c t p k ⟨5000 * t.val + p.val, hn⟩ rfl, wblk4_apply V c t k q]

theorem value4 (c : Dev nD) :
    oarr4 V c = fun i => ∑ k : Fin 128, xarr4 V c (ix2 (i 0) k) * warr4 V c (ix2 k (i 1)) :=
  (dat4 (F := Ideal) V c).arrAt_eq_of_cover 2 (prod4 V c) (fun t _ => flushed4_2 V c t) cover4

end Value4

end Cert.KernelIdeal.HandValue
-- ==== Proof.Val5.lean ====
import proofs.«402767_j7713761264261_1_alg».proof.Proof.Reg5
import proofs.«402767_j7713761264261_1_alg».proof.Proof.Val2

noncomputable section

open scoped BigOperators

namespace Cert.KernelIdeal.HandValue

open Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

abbrev xarr5 (c : Dev nD) : Vec Ideal S50000x128 .f32 := V c (Pipeline.arrRef spec5 0)

abbrev xblk5 (c : Dev nD) (t : Fin cfg5.N) : Vec Ideal S5000x128 .f32 := iblk5 V c 0 t

theorem idx5_0 : ∀ t : Fin cfg5.N, win5_0.index t (0 : Fin 2) = t.val ∧ win5_0.index t (1 : Fin 2) = 0 :=
  (by decide +kernel : ∀ t : Fin grid5.N, win5_0.index t (0 : Fin 2) = t.val ∧ win5_0.index t (1 : Fin 2) = 0)

theorem xblk5_apply (c : Dev nD) (t : Fin cfg5.N) (k : Fin 5000) (h : Fin 128) (hr : 5000 * t.val + k.val < 50000) :
    xblk5 V c t (ix2 k h) = xarr5 V c (ix2 ⟨5000 * t.val + k.val, hr⟩ h) := by
  unfold xblk5 iblk5
  rw [View.read_apply]
  show V c (Pipeline.arrRef spec5 0) _ = V c (Pipeline.arrRef spec5 0) _
  refine congrArg _ ?_
  funext a
  apply Fin.ext
  match a with
  | ⟨0, _⟩ => show win5_0.index t 0 * 5000 + 1 * k.val = 5000 * t.val + k.val; rw [(idx5_0 t).1]; omega
  | ⟨1, _⟩ => show win5_0.index t 1 * 128 + 1 * h.val = h.val; rw [(idx5_0 t).2]; omega

def col5 (c : Dev nD) (h : Fin 128) (r : ℕ) : Elt Ideal .f32 :=
  if hr : r < 50000 then xarr5 V c (ix2 ⟨r, hr⟩ h) else 0

theorem blk5_sum (c : Dev nD) (t : Fin cfg5.N) (h : Fin 128) (φ : Elt Ideal .f32 → Elt Ideal .f32) :
    ∑ k : Fin 5000, φ (xblk5 V c t (ix2 k h)) = ∑ k ∈ Finset.range 5000, φ (col5 V c h (5000 * t.val + k)) := by
  have hN : t.val < 10 := lt_of_lt_of_eq t.isLt (show cfg5.N = 10 from N_5)
  rw [← Fin.sum_univ_eq_sum_range (fun k => φ (col5 V c h (5000 * t.val + k))) 5000]
  refine Finset.sum_congr rfl fun k _ => ?_
  have hr : 5000 * t.val + k.val < 50000 := by have := k.isLt; omega
  rw [xblk5_apply V c t k h hr]
  unfold col5
  rw [dif_pos hr]

theorem acc5_apply (c : Dev nD) (h : Fin 128) : ∀ (n : ℕ) (hn : n < cfg5.N),
    (sacc5 V c n hn).1 (ix2 (0 : Fin 1) h) = ∑ r ∈ Finset.range (5000 * (n + 1)), col5 V c h r
    ∧ (sacc5 V c n hn).2 (ix2 (0 : Fin 1) h) = ∑ r ∈ Finset.range (5000 * (n + 1)), col5 V c h r * col5 V c h r
  | 0, hn => by
    constructor
    · show k2_pay4 (xblk5 V c ⟨0, hn⟩) (k2_pay1 (F := Ideal)) (ix2 (0 : Fin 1) h) = _
      refine (pay2_4_apply (xblk5 V c ⟨0, hn⟩) (k2_pay1 (F := Ideal)) h).trans ?_
      rw [pay2_1_apply, zero_add, blk5_sum V c ⟨0, hn⟩ h (fun z => z)]
      simp only [Nat.mul_zero, Nat.zero_add, Nat.mul_one]
    · show k2_pay5 (xblk5 V c ⟨0, hn⟩) (k2_pay2 (F := Ideal)) (ix2 (0 : Fin 1) h) = _
      refine (pay2_5_apply (xblk5 V c ⟨0, hn⟩) (k2_pay2 (F := Ideal)) h).trans ?_
      rw [pay2_2_apply, zero_add, blk5_sum V c ⟨0, hn⟩ h (fun z => z * z)]
      simp only [Nat.mul_zero, Nat.zero_add, Nat.mul_one]
  | n + 1, hn => by
    obtain ⟨ih1, ih2⟩ := acc5_apply c h n (Nat.lt_of_succ_lt hn)
    have hsplit : 5000 * (n + 1 + 1) = 5000 * (n + 1) + 5000 := by omega
    constructor
    · show k2_pay4 (xblk5 V c ⟨n + 1, hn⟩) (sacc5 V c n (Nat.lt_of_succ_lt hn)).1 (ix2 (0 : Fin 1) h) = _
      refine (pay2_4_apply (xblk5 V c ⟨n + 1, hn⟩) (sacc5 V c n (Nat.lt_of_succ_lt hn)).1 h).trans ?_
      rw [ih1, blk5_sum V c ⟨n + 1, hn⟩ h (fun z => z), hsplit, Finset.sum_range_add]
    · show k2_pay5 (xblk5 V c ⟨n + 1, hn⟩) (sacc5 V c n (Nat.lt_of_succ_lt hn)).2 (ix2 (0 : Fin 1) h) = _
      refine (pay2_5_apply (xblk5 V c ⟨n + 1, hn⟩) (sacc5 V c n (Nat.lt_of_succ_lt hn)).2 h).trans ?_
      rw [ih2, blk5_sum V c ⟨n + 1, hn⟩ h (fun z => z * z), hsplit, Finset.sum_range_add]

theorem acc5_last (c : Dev nD) (h : Fin 128) :
    out5_1 V c t5_9 (ix2 (0 : Fin 1) h) = ∑ n : Fin 50000, xarr5 V c (ix2 n h)
    ∧ out5_2 V c t5_9 (ix2 (0 : Fin 1) h) = ∑ n : Fin 50000, xarr5 V c (ix2 n h) * xarr5 V c (ix2 n h) := by
  obtain ⟨e1, e2⟩ := acc5_apply V c h 9 t5_9.isLt
  have hcol : ∀ n : Fin 50000, col5 V c h n.val = xarr5 V c (ix2 n h) := fun n => by
    unfold col5; rw [dif_pos n.isLt]
  constructor
  · show (sacc5 V c 9 t5_9.isLt).1 (ix2 (0 : Fin 1) h) = _
    rw [e1, show 5000 * (9 + 1) = 50000 from by norm_num, ← Fin.sum_univ_eq_sum_range (fun r => col5 V c h r) 50000]
    exact Finset.sum_congr rfl fun n _ => hcol n
  · show (sacc5 V c 9 t5_9.isLt).2 (ix2 (0 : Fin 1) h) = _
    rw [e2, show 5000 * (9 + 1) = 50000 from by norm_num, ← Fin.sum_univ_eq_sum_range (fun r => col5 V c h r * col5 V c h r) 50000]
    exact Finset.sum_congr rfl fun n _ => by rw [hcol n]

theorem flushed5_1 (c : Dev nD) (t : Fin cfg5.N) (hf : (cfg5.win 1).flush t = true) :
    (dat5 (F := Ideal) V c).flushed 1 t = ((cfg5.win 1).blk t).view.read (Elt Ideal) (out5_1 V c t5_9) := by
  have hN : cfg5.N = 10 := N_5
  have h9 : t.val = 9 := by have := (flush5_1 t).mp hf; have := t.isLt; omega
  obtain rfl : t = t5_9 := Fin.ext h9
  show (cfg5.win 1).cut (grid5.coords t5_9) ((dat5 V c).after 1 t5_9) = _
  rw [after5_1]
  have hz' : (fun a => win5_1.index t5_9 a * main_v103_0.ty.shape.size a) = fun _ => 0 := funext fun a => by fin_cases a <;> decide
  exact (Memref.read_access_unit_zero (Elt Ideal) main_v103_0 hz' (fun a => by rw [congrFun hz' a]; simp) (out5_1 V c t5_9)).symm

theorem flushed5_2 (c : Dev nD) (t : Fin cfg5.N) (hf : (cfg5.win 2).flush t = true) :
    (dat5 (F := Ideal) V c).flushed 2 t = ((cfg5.win 2).blk t).view.read (Elt Ideal) (out5_2 V c t5_9) := by
  have hN : cfg5.N = 10 := N_5
  have h9 : t.val = 9 := by have := (flush5_2 t).mp hf; have := t.isLt; omega
  obtain rfl : t = t5_9 := Fin.ext h9
  show (cfg5.win 2).cut (grid5.coords t5_9) ((dat5 V c).after 2 t5_9) = _
  rw [after5_2]
  have hz' : (fun a => win5_2.index t5_9 a * main_v103_1.ty.shape.size a) = fun _ => 0 := funext fun a => by fin_cases a <;> decide
  exact (Memref.read_access_unit_zero (Elt Ideal) main_v103_1 hz' (fun a => by rw [congrFun hz' a]; simp) (out5_2 V c t5_9)).symm

theorem final5_1 (c : Dev nD) : (dat5 (F := Ideal) V c).arrAt 1 cfg5.N = out5_1 V c t5_9 :=
  (dat5 V c).arrAt_eq_of_cover 1 (out5_1 V c t5_9) (flushed5_1 V c) fun i =>
    ⟨t5_9, (flush5_1 t5_9).mpr rfl, by
      show i ∈ ((View.whole main_v103_0).slice (win5_1.rect t5_9)).set
      rw [View.set_slice_whole, Rect.mem_set_unit]
      intro a
      have h0 : (i 0 : Nat) < 1 := (i 0).isLt
      have h1 : (i 1 : Nat) < 128 := (i 1).isLt
      match a with
      | ⟨0, _⟩ =>
        show win5_1.index t5_9 0 * win5_1.size 0 ≤ (i 0 : Nat) ∧ (i 0 : Nat) < win5_1.index t5_9 0 * win5_1.size 0 + win5_1.xsize (grid5.coords t5_9) 0
        rw [show win5_1.index t5_9 0 * win5_1.size 0 = 0 from by decide +kernel, show win5_1.xsize (grid5.coords t5_9) 0 = 1 from by decide +kernel]; omega
      | ⟨1, _⟩ =>
        show win5_1.index t5_9 1 * win5_1.size 1 ≤ (i 1 : Nat) ∧ (i 1 : Nat) < win5_1.index t5_9 1 * win5_1.size 1 + win5_1.xsize (grid5.coords t5_9) 1
        rw [show win5_1.index t5_9 1 * win5_1.size 1 = 0 from by decide +kernel, show win5_1.xsize (grid5.coords t5_9) 1 = 128 from by decide +kernel]; omega⟩

theorem final5_2 (c : Dev nD) : (dat5 (F := Ideal) V c).arrAt 2 cfg5.N = out5_2 V c t5_9 :=
  (dat5 V c).arrAt_eq_of_cover 2 (out5_2 V c t5_9) (flushed5_2 V c) fun i =>
    ⟨t5_9, (flush5_2 t5_9).mpr rfl, by
      show i ∈ ((View.whole main_v103_1).slice (win5_2.rect t5_9)).set
      rw [View.set_slice_whole, Rect.mem_set_unit]
      intro a
      have h0 : (i 0 : Nat) < 1 := (i 0).isLt
      have h1 : (i 1 : Nat) < 128 := (i 1).isLt
      match a with
      | ⟨0, _⟩ =>
        show win5_2.index t5_9 0 * win5_2.size 0 ≤ (i 0 : Nat) ∧ (i 0 : Nat) < win5_2.index t5_9 0 * win5_2.size 0 + win5_2.xsize (grid5.coords t5_9) 0
        rw [show win5_2.index t5_9 0 * win5_2.size 0 = 0 from by decide +kernel, show win5_2.xsize (grid5.coords t5_9) 0 = 1 from by decide +kernel]; omega
      | ⟨1, _⟩ =>
        show win5_2.index t5_9 1 * win5_2.size 1 ≤ (i 1 : Nat) ∧ (i 1 : Nat) < win5_2.index t5_9 1 * win5_2.size 1 + win5_2.xsize (grid5.coords t5_9) 1
        rw [show win5_2.index t5_9 1 * win5_2.size 1 = 0 from by decide +kernel, show win5_2.xsize (grid5.coords t5_9) 1 = 128 from by decide +kernel]; omega⟩

theorem value5 (c : Dev nD) (h : Fin 128) :
    ((dat5 (F := Ideal) V c).arrAt 1 cfg5.N : Vec Ideal S1x128 .f32) (ix2 (0 : Fin 1) h) = ∑ n : Fin 50000, xarr5 V c (ix2 n h)
    ∧ ((dat5 (F := Ideal) V c).arrAt 2 cfg5.N : Vec Ideal S1x128 .f32) (ix2 (0 : Fin 1) h) = ∑ n : Fin 50000, xarr5 V c (ix2 n h) * xarr5 V c (ix2 n h) := by
  rw [final5_1 V c, final5_2 V c]
  exact acc5_last V c h

end Cert.KernelIdeal.HandValue
-- ==== Proof.Val6.lean ====
import proofs.«402767_j7713761264261_1_alg».proof.Proof.Reg6
import proofs.«402767_j7713761264261_1_alg».proof.Proof.Val3
import proofs.«402767_j7713761264261_1_alg».proof.Proof.BnRelu

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

abbrev agg6 (c : Dev nD) : S50000x128.Idx → EReal := V c main_v102
abbrev scale6 (c : Dev nD) : S1x128.Idx → EReal := V c main_v116
abbrev shift6 (c : Dev nD) : S1x128.Idx → EReal := V c main_v121

theorem idx_facts6 : ∀ t : Fin cfg6.N, win6_0.index t (0 : Fin 2) = win6_3.index t (0 : Fin 2)
    ∧ win6_0.index t (1 : Fin 2) = win6_3.index t (1 : Fin 2)
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

theorem flushed6_eq (c : Dev nD) (t : Fin cfg6.N) :
    (dat6 (F := Ideal) V c).flushed 3 t
      = ((cfg6.win 3).blk t).view.read (Elt Ideal) (bnRelu (V c main_v102) (V c main_v116) (V c main_v121)) := by
  show (cfg6.win 3).cut (grid6.coords t) ((dat6 V c).after 3 t) = _
  rw [after6_3]
  unfold out3_3
  rw [View.canon_unit_zero hz]
  simp only [View.ld_unit_zero (S := S5000x128) hz, View.ld_unit_zero (S := S1x128) hz]
  obtain ⟨e0, e1, e2, e3, e4, e5, e6, e7⟩ := idx_facts6 t
  funext j
  obtain ⟨p, h, rfl⟩ : ∃ (p : Fin 5000) (h : Fin 128), j = ix2 p h := ⟨j 0, j 1, eq_ix2 j⟩
  show k3_pay1 (iblk6 V c 0 t) (iblk6 V c 1 t) (iblk6 V c 2 t) (ix2 p h)
    = bnRelu (V c main_v102) (V c main_v116) (V c main_v121) (((cfg6.win 3).blk t).view.emb (ix2 p h))
  refine (pay3_apply _ _ _ p h).trans ?_
  refine Eq.trans ?_ (bnRelu_at _ _ _ _ h ?_).symm
  · show max (agg6 V c (((cfg6.win 0).blk t).view.emb (ix2 p h)) * scale6 V c (((cfg6.win 1).blk t).view.emb (ix2 0 h))
          + shift6 V c (((cfg6.win 2).blk t).view.emb (ix2 0 h))) 0
        = max (agg6 V c (((cfg6.win 3).blk t).view.emb (ix2 p h)) * scale6 V c (ix2 0 h) + shift6 V c (ix2 0 h)) 0
    have h0 : ((cfg6.win 0).blk t).view.emb (ix2 p h) = ((cfg6.win 3).blk t).view.emb (ix2 p h) := by
      funext a; apply Fin.ext
      match a with
      | ⟨0, _⟩ => show win6_0.index t (0 : Fin 2) * 5000 + 1 * p.val = win6_3.index t (0 : Fin 2) * 5000 + 1 * p.val; omega
      | ⟨1, _⟩ => show win6_0.index t (1 : Fin 2) * 128 + 1 * h.val = win6_3.index t (1 : Fin 2) * 128 + 1 * h.val; omega
    have h1 : ((cfg6.win 1).blk t).view.emb (ix2 0 h) = ix2 0 h := by
      funext a; apply Fin.ext
      match a with
      | ⟨0, _⟩ => show win6_1.index t (0 : Fin 2) * 1 + 1 * 0 = 0; omega
      | ⟨1, _⟩ => show win6_1.index t (1 : Fin 2) * 128 + 1 * h.val = h.val; omega
    have h2 : ((cfg6.win 2).blk t).view.emb (ix2 0 h) = ix2 0 h := by
      funext a; apply Fin.ext
      match a with
      | ⟨0, _⟩ => show win6_2.index t (0 : Fin 2) * 1 + 1 * 0 = 0; omega
      | ⟨1, _⟩ => show win6_2.index t (1 : Fin 2) * 128 + 1 * h.val = h.val; omega
    rw [h0, h1, h2]
  · show win6_3.index t (1 : Fin 2) * 128 + 1 * h.val = h.val
    omega

theorem mem_blk6 (t : Fin cfg6.N) (i : S50000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v122).slice (win6_3.rect t)).set ↔ _
  rw [View.set_slice_whole, Rect.mem_set_unit]
  exact Iff.rfl

theorem cover6 (i : S50000x128.Idx) : ∃ t : Fin cfg6.N, (cfg6.win 3).flush t = true ∧ i ∈ ((cfg6.win 3).blk t).view.set := by
  have hi0 : (i 0).val < 50000 := (i 0).isLt
  have hi1 : (i 1).val < 128 := (i 1).isLt
  have hN : cfg6.N = 10 := N_6
  let t : Fin cfg6.N := ⟨(i 0).val / 5000, by rw [hN]; omega⟩
  obtain ⟨-, -, -, -, -, -, e6, e7⟩ := idx_facts6 t
  have e6' : win6_3.index t (0 : Fin 2) = (i 0).val / 5000 := e6
  refine ⟨t, flush6_3 t, ?_⟩
  rw [mem_blk6]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 128 ≤ (i 1).val ∧ (i 1).val < win6_3.index t (1 : Fin 2) * 128 + 128; omega

theorem value6 (c : Dev nD) :
    ((dat6 (F := Ideal) V c).arrAt (3 : Fin 4) cfg6.N : S50000x128.Idx → EReal)
      = bnRelu (V c main_v102) (V c main_v116) (V c main_v121) :=
  (dat6 (F := Ideal) V c).arrAt_eq_of_cover 3 (bnRelu (V c main_v102) (V c main_v116) (V c main_v121))
    (fun t _ => flushed6_eq V c t) cover6

end Cert.KernelIdeal.HandValue
-- ==== Proof.KChain1.lean ====
import proofs.«402767_j7713761264261_1_alg».proof.Proof.KChain0
import proofs.«402767_j7713761264261_1_alg».proof.Proof.KLayer1
import proofs.«402767_j7713761264261_1_alg».proof.Proof.Val4
import proofs.«402767_j7713761264261_1_alg».proof.Proof.Val5
import proofs.«402767_j7713761264261_1_alg».proof.Proof.Val6

noncomputable section

open scoped BigOperators

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

abbrev kh1 (c : Dev nD) : Vec Ideal S50000x128 .f32 := W12 m c main_v84

theorem kx1_at11 (c : Dev nD) : W11 m c main_v81 = kx1 m c :=
  W11_of m c main_v81 (by decide)

theorem kh1_eq (c : Dev nD) :
    kh1 m c = fun i => ∑ k : Fin 128, kx1 m c (ix2 (i 0) k) * kw1 m c (ix2 k (i 1)) := by
  show W12 m c main_v84 = _
  rw [W12_at_main_v84 m c]
  refine (value4 (atTc (W11 m)) c).trans ?_
  have ex : xarr4 (atTc (W11 m)) c = kx1 m c := kx1_at11 m c
  rw [ex]

abbrev kagg1 (c : Dev nD) : Vec Ideal S50000x128 .f32 := W13 m c main_v102

theorem kagg1_eq (c : Dev nD) :
    kagg1 m c = aggF1 (kh1 m c) (ksrc m c) (knorm m c) (kdst m c) (m ((c : Thread nD τ).loc main_arg5)) := by
  show StableHlo.after hostOps5 (W12 m c) (Proc.devRef .tc main_v102) = _
  rw [after5_v102 (W12 m c), W12_keep5 m c main_v12 (by decide), W12_keep5 m c main_v40 (by decide),
    W12_keep5 m c main_v15 (by decide), W12_keep0 m c main_arg5 (by decide)]

abbrev ks1 (c : Dev nD) : Vec Ideal S1x128 .f32 := W14 m c main_v103_0
abbrev kq1 (c : Dev nD) : Vec Ideal S1x128 .f32 := W14 m c main_v103_1

theorem ks1_lane (c : Dev nD) (h : Fin 128) :
    ks1 m c (ix2 (0 : Fin 1) h) = ∑ n : Fin 50000, kagg1 m c (ix2 n h) := by
  show (W14 m c main_v103_0 : Vec Ideal S1x128 .f32) (ix2 (0 : Fin 1) h) = _
  rw [W14_at_main_v103_0 m c]
  exact (value5 (atTc (W13 m)) c h).1

theorem kq1_lane (c : Dev nD) (h : Fin 128) :
    kq1 m c (ix2 (0 : Fin 1) h) = ∑ n : Fin 50000, kagg1 m c (ix2 n h) * kagg1 m c (ix2 n h) := by
  show (W14 m c main_v103_1 : Vec Ideal S1x128 .f32) (ix2 (0 : Fin 1) h) = _
  rw [W14_at_main_v103_1 m c]
  exact (value5 (atTc (W13 m)) c h).2

abbrev kx2 (c : Dev nD) : Vec Ideal S50000x128 .f32 := W16 m c main_v122

theorem kagg1_at15 (c : Dev nD) : W15 m c main_v102 = kagg1 m c :=
  (W15_of m c main_v102 (by decide)).trans (W14_of m c main_v102 (by decide))

theorem kx2_eq (c : Dev nD) :
    kx2 m c = bnRelu (kagg1 m c)
      (scaleF1 (ks1 m c) (kq1 m c) (m ((c : Thread nD τ).loc main_arg6)))
      (shiftF1 (ks1 m c) (kq1 m c) (m ((c : Thread nD τ).loc main_arg6)) (m ((c : Thread nD τ).loc main_arg7))) := by
  show W16 m c main_v122 = _
  rw [W16_at_main_v122 m c]
  refine (value6 (atTc (W15 m)) c).trans ?_
  have ea : atTc (W15 m) c main_v102 = kagg1 m c := kagg1_at15 m c
  have es : atTc (W15 m) c main_v116 = scaleF1 (ks1 m c) (kq1 m c) (m ((c : Thread nD τ).loc main_arg6)) := by
    show StableHlo.after hostOps6 (W14 m c) (Proc.devRef .tc main_v116) = _
    rw [after6_v116 (W14 m c), W14_keep0 m c main_arg6 (by decide)]
  have eh : atTc (W15 m) c main_v121
      = shiftF1 (ks1 m c) (kq1 m c) (m ((c : Thread nD τ).loc main_arg6)) (m ((c : Thread nD τ).loc main_arg7)) := by
    show StableHlo.after hostOps6 (W14 m c) (Proc.devRef .tc main_v121) = _
    rw [after6_v121 (W14 m c), W14_keep0 m c main_arg6 (by decide), W14_keep0 m c main_arg7 (by decide)]
  rw [ea, es, eh]

abbrev kw2 (c : Dev nD) : Vec Ideal S128x128 .f32 := W17 m c main_v124

theorem kw2_eq (c : Dev nD) : kw2 m c = w2F (m ((c : Thread nD τ).loc main_arg4)) := by
  show StableHlo.after hostOps7 (W16 m c) (Proc.devRef .tc main_v124) = _
  rw [after7_v124 (W16 m c), W16_keep0 m c main_arg4 (by decide)]

end Cert.KernelIdeal.HandValue
-- ==== Proof.AsmLayer1.lean ====
/- Layer 1 of the network, kernel program against reference: from the two programs' agreement on the layer's input
   features, on the edge arrays and on the layer's weight matrix, to their agreement on the layer's output features,
   every entry of which is a real. The kernel program's chain through the layer and the reference's three stage
   functions are joined by the layer step; the parameter rows are the same slices of the same arguments. -/
import proofs.«402767_j7713761264261_1_alg».proof.Proof.AsmLayerCore
import proofs.«402767_j7713761264261_1_alg».proof.Proof.KChain1

set_option maxRecDepth 16384

noncomputable section

namespace Cert.Bridge

open Idealize.ShloMosaic Idealize.ShloMosaic.TcCoe Idealize.ShloMosaic.ValueIdx Idealize.ShloMosaic.StableHlo Idealize.SL.Sem
open Cert.KernelIdeal Cert.KernelIdeal.Gen Cert.KernelIdeal.HandValue
open scoped BigOperators

/-- Row 1 of a per-layer parameter, flattened, is the reference's row 1 of it: the same slice, the same reshape. -/
theorem row1_eq (p : BufTy.Contents (Elt Ideal) ⟨S4x128, .f32⟩) :
    shapeCast Cert.ReferenceIdeal.S128 (prow1 (F := Ideal) p) Cert.ReferenceIdeal.Facts₀.shapeCasts_S1x128_S128
      = Cert.ReferenceIdeal.HandRun.row1F (F := Ideal) p := rfl

/-- Every entry of row 1 of a parameter is an entry of the parameter. -/
theorem prow1_real (p : S4x128.Idx → EReal) (hp : ∀ i, ∃ r : ℝ, p i = r) (i : S1x128.Idx) :
    ∃ r : ℝ, prow1 (F := Ideal) p i = r := by
  unfold prow1 extractStridedSlice
  exact hp _

variable (m : (ℓ : Loc nD τ sig) → Buf (Elt Ideal) ℓ) (c : Dev nD)
variable (V0' : Valuation Cert.ReferenceIdeal.τ Cert.ReferenceIdeal.sig (Elt Ideal))

/-- LAYER 1. The two programs agree on the features entering the layer (real), on the edge sources, destinations
    and weights (the weights real), and on the layer's weight matrix; the four parameter arguments agree and are
    real. Then they agree on the features leaving the layer, and those are real. -/
theorem step1
    (hx : kx1 m c = Cert.ReferenceIdeal.HandRun.res_x1 V0' ∧ ∀ i, ∃ r : ℝ, kx1 m c i = r)
    (hedge : ksrc m c = Cert.ReferenceIdeal.HandRun.res_src V0' ∧ kdst m c = Cert.ReferenceIdeal.HandRun.res_dst V0'
      ∧ knorm m c = Cert.ReferenceIdeal.HandRun.res_norm V0' ∧ ∀ i, ∃ r : ℝ, knorm m c i = r)
    (hw : kw1 m c = Cert.ReferenceIdeal.HandRun.W1F (V0' (Proc.devRef .tc Cert.ReferenceIdeal.main_arg4)))
    (hpar : V0' (Proc.devRef .tc Cert.ReferenceIdeal.main_arg4) = m ((c : Thread nD τ).loc main_arg4)
      ∧ V0' (Proc.devRef .tc Cert.ReferenceIdeal.main_arg5) = m ((c : Thread nD τ).loc main_arg5)
      ∧ V0' (Proc.devRef .tc Cert.ReferenceIdeal.main_arg6) = m ((c : Thread nD τ).loc main_arg6)
      ∧ V0' (Proc.devRef .tc Cert.ReferenceIdeal.main_arg7) = m ((c : Thread nD τ).loc main_arg7))
    (hfin : (∀ i : S4x128x128.Idx, ∃ r : ℝ, m ((c : Thread nD τ).loc main_arg4) i = (r : EReal))
      ∧ (∀ i : S4x128.Idx, ∃ r : ℝ, m ((c : Thread nD τ).loc main_arg5) i = (r : EReal))
      ∧ (∀ i : S4x128.Idx, ∃ r : ℝ, m ((c : Thread nD τ).loc main_arg6) i = (r : EReal))
      ∧ (∀ i : S4x128.Idx, ∃ r : ℝ, m ((c : Thread nD τ).loc main_arg7) i = (r : EReal))) :
    kx2 m c = Cert.ReferenceIdeal.HandRun.res_x2 V0' ∧ ∀ i, ∃ r : ℝ, kx2 m c i = r := by
  obtain ⟨hx1, hxr⟩ := hx
  obtain ⟨hs, hd, hn, hnr⟩ := hedge
  obtain ⟨hp4, hp5, hp6, hp7⟩ := hpar
  obtain ⟨hf4, hf5, hf6, hf7⟩ := hfin
  -- the weight matrix is a slice of the stacked weights, reshaped: its entries are entries of the argument
  have hwr : ∀ i, ∃ r : ℝ, kw1 m c i = r := fun i => by
    rw [hw, hp4]
    unfold Cert.ReferenceIdeal.HandRun.W1F shapeCast extractStridedSlice
    exact hf4 _
  obtain ⟨e, hr⟩ := layer_step (kx1 m c) (kw1 m c) (kh1 m c) (kagg1 m c) (kx2 m c) (ksrc m c) (kdst m c) (knorm m c)
    (ks1 m c) (kq1 m c) (prow1 (m ((c : Thread nD τ).loc main_arg5))) (prow1 (m ((c : Thread nD τ).loc main_arg6)))
    (prow1 (m ((c : Thread nD τ).loc main_arg7)))
    (kh1_eq m c) (kagg1_eq m c) (ks1_lane m c) (kq1_lane m c) (kx2_eq m c) hxr hwr hnr
    (prow1_real _ hf5) (prow1_real _ hf6) (prow1_real _ hf7)
  refine ⟨e.trans ?_, hr⟩
  rw [row1_eq, row1_eq, row1_eq, hx1, hw, hs, hd, hn, ← hp5, ← hp6, ← hp7]
  rfl

end Cert.Bridge
-- ==== Proof.Val7.lean ====
import proofs.«402767_j7713761264261_1_alg».proof.Proof.Reg7
import proofs.«402767_j7713761264261_1_alg».proof.Proof.Val1

noncomputable section

open Idealize.ShloMosaic Idealize.ShloMosaic.TcCoe Idealize.SL.Sem
open Idealize.ShloMosaic.Pipeline (Dat)
open Idealize.ShloMosaic.ValueIdx

namespace Cert.KernelIdeal.HandValue

open Cert.KernelIdeal Cert.KernelIdeal.Gen Cert.KernelIdeal.Hand

theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

theorem mem_blk7_2 (t : Fin cfg7.N) (i : S50000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole (Pipeline.arrRef spec7 2)).slice (win7_2.rect t)).set ↔ _
  rw [View.set_slice_whole, Rect.mem_set_unit]
  exact Iff.rfl

theorem cover7 (i : S50000x128.Idx) : ∃ t : Fin cfg7.N, (cfg7.win 2).flush t = true ∧ i ∈ ((cfg7.win 2).blk t).view.set := by
  have hi0 : (i 0).val < 50000 := (i 0).isLt
  have hi1 : (i 1).val < 128 := (i 1).isLt
  have hN : cfg7.N = 10 := N_7
  let t : Fin cfg7.N := ⟨(i 0).val / 5000, by rw [hN]; omega⟩
  obtain ⟨-, -, -, -, e4, e5⟩ := idx_facts7 t
  refine ⟨t, flush7_2 t, ?_⟩
  rw [mem_blk7_2]
  intro a
  have ht : t.val = (i 0).val / 5000 := rfl
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 128 ≤ (i 1).val ∧ (i 1).val < win7_2.index t (1 : Fin 2) * 128 + 128; omega

section Value7
variable (V : (c : Dev nD) → (b : Ref sig .tc) → Buf (Elt Ideal) ((c : Thread nD τ).loc b))

abbrev xarr7 (c : Dev nD) : Vec Ideal S50000x128 .f32 := V c (Pipeline.arrRef spec7 0)
abbrev warr7 (c : Dev nD) : Vec Ideal S128x128 .f32 := V c (Pipeline.arrRef spec7 1)
abbrev oarr7 (c : Dev nD) : Vec Ideal S50000x128 .f32 := (dat7 (F := Ideal) V c).arrAt 2 cfg7.N

abbrev prod7 (c : Dev nD) : Vec Ideal S50000x128 .f32 :=
  fun i => ∑ k : Fin 128, xarr7 V c (ix2 (i 0) k) * warr7 V c (ix2 k (i 1))

theorem xblk7_apply (c : Dev nD) (t : Fin cfg7.N) (p : Fin 5000) (k : Fin 128) (n : Fin 50000) (hn : n.val = 5000 * t.val + p.val) :
    (iblk7 V c 0 t : Vec Ideal S5000x128 .f32) (ix2 p k) = xarr7 V c (ix2 n k) := by
  obtain ⟨e0, e1, -, -, -, -⟩ := idx_facts7 t
  unfold iblk7
  rw [View.read_apply]
  show xarr7 V c _ = _
  congr 1
  funext a; apply Fin.ext
  match a with
  | ⟨0, _⟩ => show win7_0.index t (0 : Fin 2) * 5000 + 1 * p.val = n.val; omega
  | ⟨1, _⟩ => show win7_0.index t (1 : Fin 2) * 128 + 1 * k.val = k.val; omega

theorem wblk7_apply (c : Dev nD) (t : Fin cfg7.N) (k : Fin 128) (q : Fin 128) :
    (iblk7 V c 1 t : Vec Ideal S128x128 .f32) (ix2 k q) = warr7 V c (ix2 k q) := by
  obtain ⟨-, -, e2, e3, -, -⟩ := idx_facts7 t
  unfold iblk7
  rw [View.read_apply]
  show warr7 V c _ = _
  congr 1
  funext a; apply Fin.ext
  match a with
  | ⟨0, _⟩ => show win7_1.index t (0 : Fin 2) * 128 + 1 * k.val = k.val; omega
  | ⟨1, _⟩ => show win7_1.index t (1 : Fin 2) * 128 + 1 * q.val = q.val; omega

theorem flushed7_2 (c : Dev nD) (t : Fin cfg7.N) :
    (dat7 (F := Ideal) V c).flushed 2 t = ((cfg7.win 2).blk t).view.read (Elt Ideal) (prod7 V c) := by
  show (cfg7.win 2).cut (grid7.coords t) ((dat7 (F := Ideal) V c).after 2 t) = _
  rw [after7_2]
  unfold out1_2
  rw [View.canon_unit_zero hz1]
  simp only [View.ld_unit_zero (S := S5000x128) hz1, View.ld_unit_zero (S := S128x128) hz1]
  obtain ⟨-, -, -, -, e4, e5⟩ := idx_facts7 t
  funext j
  obtain ⟨p, q, rfl⟩ : ∃ (p : Fin 5000) (q : Fin 128), j = ix2 p q := ⟨j 0, j 1, eq_ix2 j⟩
  rw [View.read_apply]
  have hN : cfg7.N = 10 := N_7
  have hn : 5000 * t.val + p.val < 50000 := by have := t.isLt; have := p.isLt; omega
  have hemb : ((cfg7.win 2).blk t).view.emb (ix2 p q) = (ix2 ⟨5000 * t.val + p.val, hn⟩ q : S50000x128.Idx) := by
    funext a; apply Fin.ext
    match a with
    | ⟨0, _⟩ => show win7_2.index t (0 : Fin 2) * 5000 + 1 * p.val = 5000 * t.val + p.val; omega
    | ⟨1, _⟩ => show win7_2.index t (1 : Fin 2) * 128 + 1 * q.val = q.val; omega
  show k1_pay1 (iblk7 V c 0 t) (iblk7 V c 1 t) (ix2 p q) = prod7 V c (((cfg7.win 2).blk t).view.emb (ix2 p q))
  rw [hemb]
  refine (pay1_apply (iblk7 V c 0 t) (iblk7 V c 1 t) p q).trans ?_
  show _ = ∑ k : Fin 128, xarr7 V c (ix2 ⟨5000 * t.val + p.val, hn⟩ k) * warr7 V c (ix2 k q)
  refine Finset.sum_congr rfl fun k _ => ?_
  rw [xblk7_apply V c t p k ⟨5000 * t.val + p.val, hn⟩ rfl, wblk7_apply V c t k q]

theorem value7 (c : Dev nD) :
    oarr7 V c = fun i => ∑ k : Fin 128, xarr7 V c (ix2 (i 0) k) * warr7 V c (ix2 k (i 1)) :=
  (dat7 (F := Ideal) V c).arrAt_eq_of_cover 2 (prod7 V c) (fun t _ => flushed7_2 V c t) cover7

end Value7

end Cert.KernelIdeal.HandValue
-- ==== Proof.Val8.lean ====
import proofs.«402767_j7713761264261_1_alg».proof.Proof.Reg8
import proofs.«402767_j7713761264261_1_alg».proof.Proof.Val2

noncomputable section

open scoped BigOperators

namespace Cert.KernelIdeal.HandValue

open Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

abbrev xarr8 (c : Dev nD) : Vec Ideal S50000x128 .f32 := V c (Pipeline.arrRef spec8 0)

abbrev xblk8 (c : Dev nD) (t : Fin cfg8.N) : Vec Ideal S5000x128 .f32 := iblk8 V c 0 t

theorem idx8_0 : ∀ t : Fin cfg8.N, win8_0.index t (0 : Fin 2) = t.val ∧ win8_0.index t (1 : Fin 2) = 0 :=
  (by decide +kernel : ∀ t : Fin grid8.N, win8_0.index t (0 : Fin 2) = t.val ∧ win8_0.index t (1 : Fin 2) = 0)

theorem xblk8_apply (c : Dev nD) (t : Fin cfg8.N) (k : Fin 5000) (h : Fin 128) (hr : 5000 * t.val + k.val < 50000) :
    xblk8 V c t (ix2 k h) = xarr8 V c (ix2 ⟨5000 * t.val + k.val, hr⟩ h) := by
  unfold xblk8 iblk8
  rw [View.read_apply]
  show V c (Pipeline.arrRef spec8 0) _ = V c (Pipeline.arrRef spec8 0) _
  refine congrArg _ ?_
  funext a
  apply Fin.ext
  match a with
  | ⟨0, _⟩ => show win8_0.index t 0 * 5000 + 1 * k.val = 5000 * t.val + k.val; rw [(idx8_0 t).1]; omega
  | ⟨1, _⟩ => show win8_0.index t 1 * 128 + 1 * h.val = h.val; rw [(idx8_0 t).2]; omega

def col8 (c : Dev nD) (h : Fin 128) (r : ℕ) : Elt Ideal .f32 :=
  if hr : r < 50000 then xarr8 V c (ix2 ⟨r, hr⟩ h) else 0

theorem blk8_sum (c : Dev nD) (t : Fin cfg8.N) (h : Fin 128) (φ : Elt Ideal .f32 → Elt Ideal .f32) :
    ∑ k : Fin 5000, φ (xblk8 V c t (ix2 k h)) = ∑ k ∈ Finset.range 5000, φ (col8 V c h (5000 * t.val + k)) := by
  have hN : t.val < 10 := lt_of_lt_of_eq t.isLt (show cfg8.N = 10 from N_8)
  rw [← Fin.sum_univ_eq_sum_range (fun k => φ (col8 V c h (5000 * t.val + k))) 5000]
  refine Finset.sum_congr rfl fun k _ => ?_
  have hr : 5000 * t.val + k.val < 50000 := by have := k.isLt; omega
  rw [xblk8_apply V c t k h hr]
  unfold col8
  rw [dif_pos hr]

theorem acc8_apply (c : Dev nD) (h : Fin 128) : ∀ (n : ℕ) (hn : n < cfg8.N),
    (sacc8 V c n hn).1 (ix2 (0 : Fin 1) h) = ∑ r ∈ Finset.range (5000 * (n + 1)), col8 V c h r
    ∧ (sacc8 V c n hn).2 (ix2 (0 : Fin 1) h) = ∑ r ∈ Finset.range (5000 * (n + 1)), col8 V c h r * col8 V c h r
  | 0, hn => by
    constructor
    · show k2_pay4 (xblk8 V c ⟨0, hn⟩) (k2_pay1 (F := Ideal)) (ix2 (0 : Fin 1) h) = _
      refine (pay2_4_apply (xblk8 V c ⟨0, hn⟩) (k2_pay1 (F := Ideal)) h).trans ?_
      rw [pay2_1_apply, zero_add, blk8_sum V c ⟨0, hn⟩ h (fun z => z)]
      simp only [Nat.mul_zero, Nat.zero_add, Nat.mul_one]
    · show k2_pay5 (xblk8 V c ⟨0, hn⟩) (k2_pay2 (F := Ideal)) (ix2 (0 : Fin 1) h) = _
      refine (pay2_5_apply (xblk8 V c ⟨0, hn⟩) (k2_pay2 (F := Ideal)) h).trans ?_
      rw [pay2_2_apply, zero_add, blk8_sum V c ⟨0, hn⟩ h (fun z => z * z)]
      simp only [Nat.mul_zero, Nat.zero_add, Nat.mul_one]
  | n + 1, hn => by
    obtain ⟨ih1, ih2⟩ := acc8_apply c h n (Nat.lt_of_succ_lt hn)
    have hsplit : 5000 * (n + 1 + 1) = 5000 * (n + 1) + 5000 := by omega
    constructor
    · show k2_pay4 (xblk8 V c ⟨n + 1, hn⟩) (sacc8 V c n (Nat.lt_of_succ_lt hn)).1 (ix2 (0 : Fin 1) h) = _
      refine (pay2_4_apply (xblk8 V c ⟨n + 1, hn⟩) (sacc8 V c n (Nat.lt_of_succ_lt hn)).1 h).trans ?_
      rw [ih1, blk8_sum V c ⟨n + 1, hn⟩ h (fun z => z), hsplit, Finset.sum_range_add]
    · show k2_pay5 (xblk8 V c ⟨n + 1, hn⟩) (sacc8 V c n (Nat.lt_of_succ_lt hn)).2 (ix2 (0 : Fin 1) h) = _
      refine (pay2_5_apply (xblk8 V c ⟨n + 1, hn⟩) (sacc8 V c n (Nat.lt_of_succ_lt hn)).2 h).trans ?_
      rw [ih2, blk8_sum V c ⟨n + 1, hn⟩ h (fun z => z * z), hsplit, Finset.sum_range_add]

theorem acc8_last (c : Dev nD) (h : Fin 128) :
    out8_1 V c t8_9 (ix2 (0 : Fin 1) h) = ∑ n : Fin 50000, xarr8 V c (ix2 n h)
    ∧ out8_2 V c t8_9 (ix2 (0 : Fin 1) h) = ∑ n : Fin 50000, xarr8 V c (ix2 n h) * xarr8 V c (ix2 n h) := by
  obtain ⟨e1, e2⟩ := acc8_apply V c h 9 t8_9.isLt
  have hcol : ∀ n : Fin 50000, col8 V c h n.val = xarr8 V c (ix2 n h) := fun n => by
    unfold col8; rw [dif_pos n.isLt]
  constructor
  · show (sacc8 V c 9 t8_9.isLt).1 (ix2 (0 : Fin 1) h) = _
    rw [e1, show 5000 * (9 + 1) = 50000 from by norm_num, ← Fin.sum_univ_eq_sum_range (fun r => col8 V c h r) 50000]
    exact Finset.sum_congr rfl fun n _ => hcol n
  · show (sacc8 V c 9 t8_9.isLt).2 (ix2 (0 : Fin 1) h) = _
    rw [e2, show 5000 * (9 + 1) = 50000 from by norm_num, ← Fin.sum_univ_eq_sum_range (fun r => col8 V c h r * col8 V c h r) 50000]
    exact Finset.sum_congr rfl fun n _ => by rw [hcol n]

theorem flushed8_1 (c : Dev nD) (t : Fin cfg8.N) (hf : (cfg8.win 1).flush t = true) :
    (dat8 (F := Ideal) V c).flushed 1 t = ((cfg8.win 1).blk t).view.read (Elt Ideal) (out8_1 V c t8_9) := by
  have hN : cfg8.N = 10 := N_8
  have h9 : t.val = 9 := by have := (flush8_1 t).mp hf; have := t.isLt; omega
  obtain rfl : t = t8_9 := Fin.ext h9
  show (cfg8.win 1).cut (grid8.coords t8_9) ((dat8 V c).after 1 t8_9) = _
  rw [after8_1]
  have hz' : (fun a => win8_1.index t8_9 a * main_v144_0.ty.shape.size a) = fun _ => 0 := funext fun a => by fin_cases a <;> decide
  exact (Memref.read_access_unit_zero (Elt Ideal) main_v144_0 hz' (fun a => by rw [congrFun hz' a]; simp) (out8_1 V c t8_9)).symm

theorem flushed8_2 (c : Dev nD) (t : Fin cfg8.N) (hf : (cfg8.win 2).flush t = true) :
    (dat8 (F := Ideal) V c).flushed 2 t = ((cfg8.win 2).blk t).view.read (Elt Ideal) (out8_2 V c t8_9) := by
  have hN : cfg8.N = 10 := N_8
  have h9 : t.val = 9 := by have := (flush8_2 t).mp hf; have := t.isLt; omega
  obtain rfl : t = t8_9 := Fin.ext h9
  show (cfg8.win 2).cut (grid8.coords t8_9) ((dat8 V c).after 2 t8_9) = _
  rw [after8_2]
  have hz' : (fun a => win8_2.index t8_9 a * main_v144_1.ty.shape.size a) = fun _ => 0 := funext fun a => by fin_cases a <;> decide
  exact (Memref.read_access_unit_zero (Elt Ideal) main_v144_1 hz' (fun a => by rw [congrFun hz' a]; simp) (out8_2 V c t8_9)).symm

theorem final8_1 (c : Dev nD) : (dat8 (F := Ideal) V c).arrAt 1 cfg8.N = out8_1 V c t8_9 :=
  (dat8 V c).arrAt_eq_of_cover 1 (out8_1 V c t8_9) (flushed8_1 V c) fun i =>
    ⟨t8_9, (flush8_1 t8_9).mpr rfl, by
      show i ∈ ((View.whole main_v144_0).slice (win8_1.rect t8_9)).set
      rw [View.set_slice_whole, Rect.mem_set_unit]
      intro a
      have h0 : (i 0 : Nat) < 1 := (i 0).isLt
      have h1 : (i 1 : Nat) < 128 := (i 1).isLt
      match a with
      | ⟨0, _⟩ =>
        show win8_1.index t8_9 0 * win8_1.size 0 ≤ (i 0 : Nat) ∧ (i 0 : Nat) < win8_1.index t8_9 0 * win8_1.size 0 + win8_1.xsize (grid8.coords t8_9) 0
        rw [show win8_1.index t8_9 0 * win8_1.size 0 = 0 from by decide +kernel, show win8_1.xsize (grid8.coords t8_9) 0 = 1 from by decide +kernel]; omega
      | ⟨1, _⟩ =>
        show win8_1.index t8_9 1 * win8_1.size 1 ≤ (i 1 : Nat) ∧ (i 1 : Nat) < win8_1.index t8_9 1 * win8_1.size 1 + win8_1.xsize (grid8.coords t8_9) 1
        rw [show win8_1.index t8_9 1 * win8_1.size 1 = 0 from by decide +kernel, show win8_1.xsize (grid8.coords t8_9) 1 = 128 from by decide +kernel]; omega⟩

theorem final8_2 (c : Dev nD) : (dat8 (F := Ideal) V c).arrAt 2 cfg8.N = out8_2 V c t8_9 :=
  (dat8 V c).arrAt_eq_of_cover 2 (out8_2 V c t8_9) (flushed8_2 V c) fun i =>
    ⟨t8_9, (flush8_2 t8_9).mpr rfl, by
      show i ∈ ((View.whole main_v144_1).slice (win8_2.rect t8_9)).set
      rw [View.set_slice_whole, Rect.mem_set_unit]
      intro a
      have h0 : (i 0 : Nat) < 1 := (i 0).isLt
      have h1 : (i 1 : Nat) < 128 := (i 1).isLt
      match a with
      | ⟨0, _⟩ =>
        show win8_2.index t8_9 0 * win8_2.size 0 ≤ (i 0 : Nat) ∧ (i 0 : Nat) < win8_2.index t8_9 0 * win8_2.size 0 + win8_2.xsize (grid8.coords t8_9) 0
        rw [show win8_2.index t8_9 0 * win8_2.size 0 = 0 from by decide +kernel, show win8_2.xsize (grid8.coords t8_9) 0 = 1 from by decide +kernel]; omega
      | ⟨1, _⟩ =>
        show win8_2.index t8_9 1 * win8_2.size 1 ≤ (i 1 : Nat) ∧ (i 1 : Nat) < win8_2.index t8_9 1 * win8_2.size 1 + win8_2.xsize (grid8.coords t8_9) 1
        rw [show win8_2.index t8_9 1 * win8_2.size 1 = 0 from by decide +kernel, show win8_2.xsize (grid8.coords t8_9) 1 = 128 from by decide +kernel]; omega⟩

theorem value8 (c : Dev nD) (h : Fin 128) :
    ((dat8 (F := Ideal) V c).arrAt 1 cfg8.N : Vec Ideal S1x128 .f32) (ix2 (0 : Fin 1) h) = ∑ n : Fin 50000, xarr8 V c (ix2 n h)
    ∧ ((dat8 (F := Ideal) V c).arrAt 2 cfg8.N : Vec Ideal S1x128 .f32) (ix2 (0 : Fin 1) h) = ∑ n : Fin 50000, xarr8 V c (ix2 n h) * xarr8 V c (ix2 n h) := by
  rw [final8_1 V c, final8_2 V c]
  exact acc8_last V c h

end Cert.KernelIdeal.HandValue
-- ==== Proof.Val9.lean ====
import proofs.«402767_j7713761264261_1_alg».proof.Proof.Reg9
import proofs.«402767_j7713761264261_1_alg».proof.Proof.Val3
import proofs.«402767_j7713761264261_1_alg».proof.Proof.BnRelu

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

abbrev agg9 (c : Dev nD) : S50000x128.Idx → EReal := V c main_v143
abbrev scale9 (c : Dev nD) : S1x128.Idx → EReal := V c main_v157
abbrev shift9 (c : Dev nD) : S1x128.Idx → EReal := V c main_v162

theorem idx_facts9 : ∀ t : Fin cfg9.N, win9_0.index t (0 : Fin 2) = win9_3.index t (0 : Fin 2)
    ∧ win9_0.index t (1 : Fin 2) = win9_3.index t (1 : Fin 2)
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

theorem flushed9_eq (c : Dev nD) (t : Fin cfg9.N) :
    (dat9 (F := Ideal) V c).flushed 3 t
      = ((cfg9.win 3).blk t).view.read (Elt Ideal) (bnRelu (V c main_v143) (V c main_v157) (V c main_v162)) := by
  show (cfg9.win 3).cut (grid9.coords t) ((dat9 V c).after 3 t) = _
  rw [after9_3]
  unfold out3_3
  rw [View.canon_unit_zero hz]
  simp only [View.ld_unit_zero (S := S5000x128) hz, View.ld_unit_zero (S := S1x128) hz]
  obtain ⟨e0, e1, e2, e3, e4, e5, e6, e7⟩ := idx_facts9 t
  funext j
  obtain ⟨p, h, rfl⟩ : ∃ (p : Fin 5000) (h : Fin 128), j = ix2 p h := ⟨j 0, j 1, eq_ix2 j⟩
  show k3_pay1 (iblk9 V c 0 t) (iblk9 V c 1 t) (iblk9 V c 2 t) (ix2 p h)
    = bnRelu (V c main_v143) (V c main_v157) (V c main_v162) (((cfg9.win 3).blk t).view.emb (ix2 p h))
  refine (pay3_apply _ _ _ p h).trans ?_
  refine Eq.trans ?_ (bnRelu_at _ _ _ _ h ?_).symm
  · show max (agg9 V c (((cfg9.win 0).blk t).view.emb (ix2 p h)) * scale9 V c (((cfg9.win 1).blk t).view.emb (ix2 0 h))
          + shift9 V c (((cfg9.win 2).blk t).view.emb (ix2 0 h))) 0
        = max (agg9 V c (((cfg9.win 3).blk t).view.emb (ix2 p h)) * scale9 V c (ix2 0 h) + shift9 V c (ix2 0 h)) 0
    have h0 : ((cfg9.win 0).blk t).view.emb (ix2 p h) = ((cfg9.win 3).blk t).view.emb (ix2 p h) := by
      funext a; apply Fin.ext
      match a with
      | ⟨0, _⟩ => show win9_0.index t (0 : Fin 2) * 5000 + 1 * p.val = win9_3.index t (0 : Fin 2) * 5000 + 1 * p.val; omega
      | ⟨1, _⟩ => show win9_0.index t (1 : Fin 2) * 128 + 1 * h.val = win9_3.index t (1 : Fin 2) * 128 + 1 * h.val; omega
    have h1 : ((cfg9.win 1).blk t).view.emb (ix2 0 h) = ix2 0 h := by
      funext a; apply Fin.ext
      match a with
      | ⟨0, _⟩ => show win9_1.index t (0 : Fin 2) * 1 + 1 * 0 = 0; omega
      | ⟨1, _⟩ => show win9_1.index t (1 : Fin 2) * 128 + 1 * h.val = h.val; omega
    have h2 : ((cfg9.win 2).blk t).view.emb (ix2 0 h) = ix2 0 h := by
      funext a; apply Fin.ext
      match a with
      | ⟨0, _⟩ => show win9_2.index t (0 : Fin 2) * 1 + 1 * 0 = 0; omega
      | ⟨1, _⟩ => show win9_2.index t (1 : Fin 2) * 128 + 1 * h.val = h.val; omega
    rw [h0, h1, h2]
  · show win9_3.index t (1 : Fin 2) * 128 + 1 * h.val = h.val
    omega

theorem mem_blk9 (t : Fin cfg9.N) (i : S50000x128.Idx) :
    i ∈ ((cfg9.win 3).blk t).view.set ↔ ∀ a : Fin 2, win9_3.index t a * S5000x128.size a ≤ (i a).val ∧ (i a).val < win9_3.index t a * S5000x128.size a + S5000x128.size a := by
  show i ∈ ((View.whole main_v163).slice (win9_3.rect t)).set ↔ _
  rw [View.set_slice_whole, Rect.mem_set_unit]
  exact Iff.rfl

theorem cover9 (i : S50000x128.Idx) : ∃ t : Fin cfg9.N, (cfg9.win 3).flush t = true ∧ i ∈ ((cfg9.win 3).blk t).view.set := by
  have hi0 : (i 0).val < 50000 := (i 0).isLt
  have hi1 : (i 1).val < 128 := (i 1).isLt
  have hN : cfg9.N = 10 := N_9
  let t : Fin cfg9.N := ⟨(i 0).val / 5000, by rw [hN]; omega⟩
  obtain ⟨-, -, -, -, -, -, e6, e7⟩ := idx_facts9 t
  have e6' : win9_3.index t (0 : Fin 2) = (i 0).val / 5000 := e6
  refine ⟨t, flush9_3 t, ?_⟩
  rw [mem_blk9]
  intro a
  match a with
  | ⟨0, _⟩ => show win9_3.index t (0 : Fin 2) * 5000 ≤ (i 0).val ∧ (i 0).val < win9_3.index t (0 : Fin 2) * 5000 + 5000; omega
  | ⟨1, _⟩ => show win9_3.index t (1 : Fin 2) * 128 ≤ (i 1).val ∧ (i 1).val < win9_3.index t (1 : Fin 2) * 128 + 128; omega

theorem value9 (c : Dev nD) :
    ((dat9 (F := Ideal) V c).arrAt (3 : Fin 4) cfg9.N : S50000x128.Idx → EReal)
      = bnRelu (V c main_v143) (V c main_v157) (V c main_v162) :=
  (dat9 (F := Ideal) V c).arrAt_eq_of_cover 3 (bnRelu (V c main_v143) (V c main_v157) (V c main_v162))
    (fun t _ => flushed9_eq V c t) cover9

end Cert.KernelIdeal.HandValue
-- ==== Proof.KChain2.lean ====
import proofs.«402767_j7713761264261_1_alg».proof.Proof.KChain1
import proofs.«402767_j7713761264261_1_alg».proof.Proof.KLayer2
import proofs.«402767_j7713761264261_1_alg».proof.Proof.Val7
import proofs.«402767_j7713761264261_1_alg».proof.Proof.Val8
import proofs.«402767_j7713761264261_1_alg».proof.Proof.Val9

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! # The kernel program's run, read back: graph-convolution layer 2

From the features `kx2` and the weight matrix `kw2` the previous layer left: the transform `x · W`, the
propagation along the edges (the edge arrays are those of the head, carried unchanged), the column sums of the
propagated array and of its squares, the normalised and rectified features `kx3`, and the next weight matrix. -/

variable (m : (ℓ : Loc nD τ sig) → Buf (Elt Ideal) ℓ)

/-! ## The transform -/

/-- The transformed features after the layer's transform region. -/
abbrev kh2 (c : Dev nD) : Vec Ideal S50000x128 .f32 := W18 m c main_v125

/-- The features are carried unchanged across the stretch that slices the weight matrix. -/
theorem kx2_at17 (c : Dev nD) : W17 m c main_v122 = kx2 m c :=
  W17_of m c main_v122 (by decide)

/-- Entry `(n, h)`: row `n` of the features against column `h` of the weight matrix. -/
theorem kh2_eq (c : Dev nD) :
    kh2 m c = fun i => ∑ k : Fin 128, kx2 m c (ix2 (i 0) k) * kw2 m c (ix2 k (i 1)) := by
  show W18 m c main_v125 = _
  rw [W18_at_main_v125 m c]
  refine (value7 (atTc (W17 m)) c).trans ?_
  have ex : xarr7 (atTc (W17 m)) c = kx2 m c := kx2_at17 m c
  rw [ex]

/-! ## The propagation -/

/-- The propagated array the statistics region reads. -/
abbrev kagg2 (c : Dev nD) : Vec Ideal S50000x128 .f32 := W19 m c main_v143

theorem kagg2_eq (c : Dev nD) :
    kagg2 m c = aggF2 (kh2 m c) (ksrc m c) (knorm m c) (kdst m c) (m ((c : Thread nD τ).loc main_arg5)) := by
  show StableHlo.after hostOps8 (W18 m c) (Proc.devRef .tc main_v143) = _
  rw [after8_v143 (W18 m c), W18_keep5 m c main_v12 (by decide), W18_keep5 m c main_v40 (by decide),
    W18_keep5 m c main_v15 (by decide), W18_keep0 m c main_arg5 (by decide)]

/-! ## The column sums -/

/-- The column sums of the propagated array and of its squares, after the statistics region. -/
abbrev ks2 (c : Dev nD) : Vec Ideal S1x128 .f32 := W20 m c main_v144_0
abbrev kq2 (c : Dev nD) : Vec Ideal S1x128 .f32 := W20 m c main_v144_1

theorem ks2_lane (c : Dev nD) (h : Fin 128) :
    ks2 m c (ix2 (0 : Fin 1) h) = ∑ n : Fin 50000, kagg2 m c (ix2 n h) := by
  show (W20 m c main_v144_0 : Vec Ideal S1x128 .f32) (ix2 (0 : Fin 1) h) = _
  rw [W20_at_main_v144_0 m c]
  exact (value8 (atTc (W19 m)) c h).1

theorem kq2_lane (c : Dev nD) (h : Fin 128) :
    kq2 m c (ix2 (0 : Fin 1) h) = ∑ n : Fin 50000, kagg2 m c (ix2 n h) * kagg2 m c (ix2 n h) := by
  show (W20 m c main_v144_1 : Vec Ideal S1x128 .f32) (ix2 (0 : Fin 1) h) = _
  rw [W20_at_main_v144_1 m c]
  exact (value8 (atTc (W19 m)) c h).2

/-! ## The normalisation and the rectifier -/

/-- The next layer's features, after the apply region. -/
abbrev kx3 (c : Dev nD) : Vec Ideal S50000x128 .f32 := W22 m c main_v163

/-- The propagated array is carried unchanged from the statistics region's entry to the apply region's. -/
theorem kagg2_at21 (c : Dev nD) : W21 m c main_v143 = kagg2 m c :=
  (W21_of m c main_v143 (by decide)).trans (W20_of m c main_v143 (by decide))

theorem kx3_eq (c : Dev nD) :
    kx3 m c = bnRelu (kagg2 m c)
      (scaleF2 (ks2 m c) (kq2 m c) (m ((c : Thread nD τ).loc main_arg6)))
      (shiftF2 (ks2 m c) (kq2 m c) (m ((c : Thread nD τ).loc main_arg6)) (m ((c : Thread nD τ).loc main_arg7))) := by
  show W22 m c main_v163 = _
  rw [W22_at_main_v163 m c]
  refine (value9 (atTc (W21 m)) c).trans ?_
  have ea : atTc (W21 m) c main_v143 = kagg2 m c := kagg2_at21 m c
  have es : atTc (W21 m) c main_v157 = scaleF2 (ks2 m c) (kq2 m c) (m ((c : Thread nD τ).loc main_arg6)) := by
    show StableHlo.after hostOps9 (W20 m c) (Proc.devRef .tc main_v157) = _
    rw [after9_v157 (W20 m c), W20_keep0 m c main_arg6 (by decide)]
  have eh : atTc (W21 m) c main_v162
      = shiftF2 (ks2 m c) (kq2 m c) (m ((c : Thread nD τ).loc main_arg6)) (m ((c : Thread nD τ).loc main_arg7)) := by
    show StableHlo.after hostOps9 (W20 m c) (Proc.devRef .tc main_v162) = _
    rw [after9_v162 (W20 m c), W20_keep0 m c main_arg6 (by decide), W20_keep0 m c main_arg7 (by decide)]
  rw [ea, es, eh]

/-! ## The next layer's weight matrix -/

abbrev kw3 (c : Dev nD) : Vec Ideal S128x128 .f32 := W23 m c main_v165

theorem kw3_eq (c : Dev nD) : kw3 m c = w3F (m ((c : Thread nD τ).loc main_arg4)) := by
  show StableHlo.after hostOps10 (W22 m c) (Proc.devRef .tc main_v165) = _
  rw [after10_v165 (W22 m c), W22_keep0 m c main_arg4 (by decide)]

end Cert.KernelIdeal.HandValue
-- ==== Proof.AsmLayer2.lean ====
/- Layer 2 of the network, kernel program against reference: from the two programs' agreement on the layer's input
   features, on the edge arrays and on the layer's weight matrix, to their agreement on the layer's output features,
   every entry of which is a real. The kernel program's chain through the layer and the reference's three stage
   functions are joined by the layer step; the parameter rows are the same slices of the same arguments. -/
import proofs.«402767_j7713761264261_1_alg».proof.Proof.AsmLayerCore
import proofs.«402767_j7713761264261_1_alg».proof.Proof.KChain2

set_option maxRecDepth 16384

noncomputable section

namespace Cert.Bridge

open Idealize.ShloMosaic Idealize.ShloMosaic.TcCoe Idealize.ShloMosaic.ValueIdx Idealize.ShloMosaic.StableHlo Idealize.SL.Sem
open Cert.KernelIdeal Cert.KernelIdeal.Gen Cert.KernelIdeal.HandValue
open scoped BigOperators

/-- Row 2 of a per-layer parameter, flattened, is the reference's row 2 of it: the same slice, the same reshape. -/
theorem row2_eq (p : BufTy.Contents (Elt Ideal) ⟨S4x128, .f32⟩) :
    shapeCast Cert.ReferenceIdeal.S128 (prow2 (F := Ideal) p) Cert.ReferenceIdeal.Facts₀.shapeCasts_S1x128_S128
      = Cert.ReferenceIdeal.HandRun.row2F (F := Ideal) p := rfl

/-- Every entry of row 2 of a parameter is an entry of the parameter. -/
theorem prow2_real (p : S4x128.Idx → EReal) (hp : ∀ i, ∃ r : ℝ, p i = r) (i : S1x128.Idx) :
    ∃ r : ℝ, prow2 (F := Ideal) p i = r := by
  unfold prow2 extractStridedSlice
  exact hp _

variable (m : (ℓ : Loc nD τ sig) → Buf (Elt Ideal) ℓ) (c : Dev nD)
variable (V0' : Valuation Cert.ReferenceIdeal.τ Cert.ReferenceIdeal.sig (Elt Ideal))

/-- LAYER 2. The two programs agree on the features entering the layer (real), on the edge sources, destinations
    and weights (the weights real), and on the layer's weight matrix; the four parameter arguments agree and are
    real. Then they agree on the features leaving the layer, and those are real. -/
theorem step2
    (hx : kx2 m c = Cert.ReferenceIdeal.HandRun.res_x2 V0' ∧ ∀ i, ∃ r : ℝ, kx2 m c i = r)
    (hedge : ksrc m c = Cert.ReferenceIdeal.HandRun.res_src V0' ∧ kdst m c = Cert.ReferenceIdeal.HandRun.res_dst V0'
      ∧ knorm m c = Cert.ReferenceIdeal.HandRun.res_norm V0' ∧ ∀ i, ∃ r : ℝ, knorm m c i = r)
    (hw : kw2 m c = Cert.ReferenceIdeal.HandRun.W2F (V0' (Proc.devRef .tc Cert.ReferenceIdeal.main_arg4)))
    (hpar : V0' (Proc.devRef .tc Cert.ReferenceIdeal.main_arg4) = m ((c : Thread nD τ).loc main_arg4)
      ∧ V0' (Proc.devRef .tc Cert.ReferenceIdeal.main_arg5) = m ((c : Thread nD τ).loc main_arg5)
      ∧ V0' (Proc.devRef .tc Cert.ReferenceIdeal.main_arg6) = m ((c : Thread nD τ).loc main_arg6)
      ∧ V0' (Proc.devRef .tc Cert.ReferenceIdeal.main_arg7) = m ((c : Thread nD τ).loc main_arg7))
    (hfin : (∀ i : S4x128x128.Idx, ∃ r : ℝ, m ((c : Thread nD τ).loc main_arg4) i = (r : EReal))
      ∧ (∀ i : S4x128.Idx, ∃ r : ℝ, m ((c : Thread nD τ).loc main_arg5) i = (r : EReal))
      ∧ (∀ i : S4x128.Idx, ∃ r : ℝ, m ((c : Thread nD τ).loc main_arg6) i = (r : EReal))
      ∧ (∀ i : S4x128.Idx, ∃ r : ℝ, m ((c : Thread nD τ).loc main_arg7) i = (r : EReal))) :
    kx3 m c = Cert.ReferenceIdeal.HandRun.res_x3 V0' ∧ ∀ i, ∃ r : ℝ, kx3 m c i = r := by
  obtain ⟨hx1, hxr⟩ := hx
  obtain ⟨hs, hd, hn, hnr⟩ := hedge
  obtain ⟨hp4, hp5, hp6, hp7⟩ := hpar
  obtain ⟨hf4, hf5, hf6, hf7⟩ := hfin
  -- the weight matrix is a slice of the stacked weights, reshaped: its entries are entries of the argument
  have hwr : ∀ i, ∃ r : ℝ, kw2 m c i = r := fun i => by
    rw [hw, hp4]
    unfold Cert.ReferenceIdeal.HandRun.W2F shapeCast extractStridedSlice
    exact hf4 _
  obtain ⟨e, hr⟩ := layer_step (kx2 m c) (kw2 m c) (kh2 m c) (kagg2 m c) (kx3 m c) (ksrc m c) (kdst m c) (knorm m c)
    (ks2 m c) (kq2 m c) (prow2 (m ((c : Thread nD τ).loc main_arg5))) (prow2 (m ((c : Thread nD τ).loc main_arg6)))
    (prow2 (m ((c : Thread nD τ).loc main_arg7)))
    (kh2_eq m c) (kagg2_eq m c) (ks2_lane m c) (kq2_lane m c) (kx3_eq m c) hxr hwr hnr
    (prow2_real _ hf5) (prow2_real _ hf6) (prow2_real _ hf7)
  refine ⟨e.trans ?_, hr⟩
  rw [row2_eq, row2_eq, row2_eq, hx1, hw, hs, hd, hn, ← hp5, ← hp6, ← hp7]
  rfl

end Cert.Bridge
-- ==== Proof.Val10.lean ====
import proofs.«402767_j7713761264261_1_alg».proof.Proof.Reg10
import proofs.«402767_j7713761264261_1_alg».proof.Proof.Val1

noncomputable section

open Idealize.ShloMosaic Idealize.ShloMosaic.TcCoe Idealize.SL.Sem
open Idealize.ShloMosaic.Pipeline (Dat)
open Idealize.ShloMosaic.ValueIdx

namespace Cert.KernelIdeal.HandValue

open Cert.KernelIdeal Cert.KernelIdeal.Gen Cert.KernelIdeal.Hand

theorem idx_facts10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

theorem mem_blk10_2 (t : Fin cfg10.N) (i : S50000x128.Idx) :
    i ∈ ((cfg10.win 2).blk t).view.set ↔ ∀ a : Fin 2, win10_2.index t a * S5000x128.size a ≤ (i a).val ∧ (i a).val < win10_2.index t a * S5000x128.size a + S5000x128.size a := by
  show i ∈ ((View.whole (Pipeline.arrRef spec10 2)).slice (win10_2.rect t)).set ↔ _
  rw [View.set_slice_whole, Rect.mem_set_unit]
  exact Iff.rfl

theorem cover10 (i : S50000x128.Idx) : ∃ t : Fin cfg10.N, (cfg10.win 2).flush t = true ∧ i ∈ ((cfg10.win 2).blk t).view.set := by
  have hi0 : (i 0).val < 50000 := (i 0).isLt
  have hi1 : (i 1).val < 128 := (i 1).isLt
  have hN : cfg10.N = 10 := N_10
  let t : Fin cfg10.N := ⟨(i 0).val / 5000, by rw [hN]; omega⟩
  obtain ⟨-, -, -, -, e4, e5⟩ := idx_facts10 t
  refine ⟨t, flush10_2 t, ?_⟩
  rw [mem_blk10_2]
  intro a
  have ht : t.val = (i 0).val / 5000 := rfl
  match a with
  | ⟨0, _⟩ => show win10_2.index t (0 : Fin 2) * 5000 ≤ (i 0).val ∧ (i 0).val < win10_2.index t (0 : Fin 2) * 5000 + 5000; omega
  | ⟨1, _⟩ => show win10_2.index t (1 : Fin 2) * 128 ≤ (i 1).val ∧ (i 1).val < win10_2.index t (1 : Fin 2) * 128 + 128; omega

section Value10
variable (V : (c : Dev nD) → (b : Ref sig .tc) → Buf (Elt Ideal) ((c : Thread nD τ).loc b))

abbrev xarr10 (c : Dev nD) : Vec Ideal S50000x128 .f32 := V c (Pipeline.arrRef spec10 0)
abbrev warr10 (c : Dev nD) : Vec Ideal S128x128 .f32 := V c (Pipeline.arrRef spec10 1)
abbrev oarr10 (c : Dev nD) : Vec Ideal S50000x128 .f32 := (dat10 (F := Ideal) V c).arrAt 2 cfg10.N

abbrev prod10 (c : Dev nD) : Vec Ideal S50000x128 .f32 :=
  fun i => ∑ k : Fin 128, xarr10 V c (ix2 (i 0) k) * warr10 V c (ix2 k (i 1))

theorem xblk10_apply (c : Dev nD) (t : Fin cfg10.N) (p : Fin 5000) (k : Fin 128) (n : Fin 50000) (hn : n.val = 5000 * t.val + p.val) :
    (iblk10 V c 0 t : Vec Ideal S5000x128 .f32) (ix2 p k) = xarr10 V c (ix2 n k) := by
  obtain ⟨e0, e1, -, -, -, -⟩ := idx_facts10 t
  unfold iblk10
  rw [View.read_apply]
  show xarr10 V c _ = _
  congr 1
  funext a; apply Fin.ext
  match a with
  | ⟨0, _⟩ => show win10_0.index t (0 : Fin 2) * 5000 + 1 * p.val = n.val; omega
  | ⟨1, _⟩ => show win10_0.index t (1 : Fin 2) * 128 + 1 * k.val = k.val; omega

theorem wblk10_apply (c : Dev nD) (t : Fin cfg10.N) (k : Fin 128) (q : Fin 128) :
    (iblk10 V c 1 t : Vec Ideal S128x128 .f32) (ix2 k q) = warr10 V c (ix2 k q) := by
  obtain ⟨-, -, e2, e3, -, -⟩ := idx_facts10 t
  unfold iblk10
  rw [View.read_apply]
  show warr10 V c _ = _
  congr 1
  funext a; apply Fin.ext
  match a with
  | ⟨0, _⟩ => show win10_1.index t (0 : Fin 2) * 128 + 1 * k.val = k.val; omega
  | ⟨1, _⟩ => show win10_1.index t (1 : Fin 2) * 128 + 1 * q.val = q.val; omega

theorem flushed10_2 (c : Dev nD) (t : Fin cfg10.N) :
    (dat10 (F := Ideal) V c).flushed 2 t = ((cfg10.win 2).blk t).view.read (Elt Ideal) (prod10 V c) := by
  show (cfg10.win 2).cut (grid10.coords t) ((dat10 (F := Ideal) V c).after 2 t) = _
  rw [after10_2]
  unfold out1_2
  rw [View.canon_unit_zero hz1]
  simp only [View.ld_unit_zero (S := S5000x128) hz1, View.ld_unit_zero (S := S128x128) hz1]
  obtain ⟨-, -, -, -, e4, e5⟩ := idx_facts10 t
  funext j
  obtain ⟨p, q, rfl⟩ : ∃ (p : Fin 5000) (q : Fin 128), j = ix2 p q := ⟨j 0, j 1, eq_ix2 j⟩
  rw [View.read_apply]
  have hN : cfg10.N = 10 := N_10
  have hn : 5000 * t.val + p.val < 50000 := by have := t.isLt; have := p.isLt; omega
  have hemb : ((cfg10.win 2).blk t).view.emb (ix2 p q) = (ix2 ⟨5000 * t.val + p.val, hn⟩ q : S50000x128.Idx) := by
    funext a; apply Fin.ext
    match a with
    | ⟨0, _⟩ => show win10_2.index t (0 : Fin 2) * 5000 + 1 * p.val = 5000 * t.val + p.val; omega
    | ⟨1, _⟩ => show win10_2.index t (1 : Fin 2) * 128 + 1 * q.val = q.val; omega
  show k1_pay1 (iblk10 V c 0 t) (iblk10 V c 1 t) (ix2 p q) = prod10 V c (((cfg10.win 2).blk t).view.emb (ix2 p q))
  rw [hemb]
  refine (pay1_apply (iblk10 V c 0 t) (iblk10 V c 1 t) p q).trans ?_
  show _ = ∑ k : Fin 128, xarr10 V c (ix2 ⟨5000 * t.val + p.val, hn⟩ k) * warr10 V c (ix2 k q)
  refine Finset.sum_congr rfl fun k _ => ?_
  rw [xblk10_apply V c t p k ⟨5000 * t.val + p.val, hn⟩ rfl, wblk10_apply V c t k q]

theorem value10 (c : Dev nD) :
    oarr10 V c = fun i => ∑ k : Fin 128, xarr10 V c (ix2 (i 0) k) * warr10 V c (ix2 k (i 1)) :=
  (dat10 (F := Ideal) V c).arrAt_eq_of_cover 2 (prod10 V c) (fun t _ => flushed10_2 V c t) cover10

end Value10

end Cert.KernelIdeal.HandValue
-- ==== Proof.Val11.lean ====
import proofs.«402767_j7713761264261_1_alg».proof.Proof.Reg11
import proofs.«402767_j7713761264261_1_alg».proof.Proof.Val2

noncomputable section

open scoped BigOperators

namespace Cert.KernelIdeal.HandValue

open Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

abbrev xarr11 (c : Dev nD) : Vec Ideal S50000x128 .f32 := V c (Pipeline.arrRef spec11 0)

abbrev xblk11 (c : Dev nD) (t : Fin cfg11.N) : Vec Ideal S5000x128 .f32 := iblk11 V c 0 t

theorem idx11_0 : ∀ t : Fin cfg11.N, win11_0.index t (0 : Fin 2) = t.val ∧ win11_0.index t (1 : Fin 2) = 0 :=
  (by decide +kernel : ∀ t : Fin grid11.N, win11_0.index t (0 : Fin 2) = t.val ∧ win11_0.index t (1 : Fin 2) = 0)

theorem xblk11_apply (c : Dev nD) (t : Fin cfg11.N) (k : Fin 5000) (h : Fin 128) (hr : 5000 * t.val + k.val < 50000) :
    xblk11 V c t (ix2 k h) = xarr11 V c (ix2 ⟨5000 * t.val + k.val, hr⟩ h) := by
  unfold xblk11 iblk11
  rw [View.read_apply]
  show V c (Pipeline.arrRef spec11 0) _ = V c (Pipeline.arrRef spec11 0) _
  refine congrArg _ ?_
  funext a
  apply Fin.ext
  match a with
  | ⟨0, _⟩ => show win11_0.index t 0 * 5000 + 1 * k.val = 5000 * t.val + k.val; rw [(idx11_0 t).1]; omega
  | ⟨1, _⟩ => show win11_0.index t 1 * 128 + 1 * h.val = h.val; rw [(idx11_0 t).2]; omega

def col11 (c : Dev nD) (h : Fin 128) (r : ℕ) : Elt Ideal .f32 :=
  if hr : r < 50000 then xarr11 V c (ix2 ⟨r, hr⟩ h) else 0

theorem blk11_sum (c : Dev nD) (t : Fin cfg11.N) (h : Fin 128) (φ : Elt Ideal .f32 → Elt Ideal .f32) :
    ∑ k : Fin 5000, φ (xblk11 V c t (ix2 k h)) = ∑ k ∈ Finset.range 5000, φ (col11 V c h (5000 * t.val + k)) := by
  have hN : t.val < 10 := lt_of_lt_of_eq t.isLt (show cfg11.N = 10 from N_11)
  rw [← Fin.sum_univ_eq_sum_range (fun k => φ (col11 V c h (5000 * t.val + k))) 5000]
  refine Finset.sum_congr rfl fun k _ => ?_
  have hr : 5000 * t.val + k.val < 50000 := by have := k.isLt; omega
  rw [xblk11_apply V c t k h hr]
  unfold col11
  rw [dif_pos hr]

theorem acc11_apply (c : Dev nD) (h : Fin 128) : ∀ (n : ℕ) (hn : n < cfg11.N),
    (sacc11 V c n hn).1 (ix2 (0 : Fin 1) h) = ∑ r ∈ Finset.range (5000 * (n + 1)), col11 V c h r
    ∧ (sacc11 V c n hn).2 (ix2 (0 : Fin 1) h) = ∑ r ∈ Finset.range (5000 * (n + 1)), col11 V c h r * col11 V c h r
  | 0, hn => by
    constructor
    · show k2_pay4 (xblk11 V c ⟨0, hn⟩) (k2_pay1 (F := Ideal)) (ix2 (0 : Fin 1) h) = _
      refine (pay2_4_apply (xblk11 V c ⟨0, hn⟩) (k2_pay1 (F := Ideal)) h).trans ?_
      rw [pay2_1_apply, zero_add, blk11_sum V c ⟨0, hn⟩ h (fun z => z)]
      simp only [Nat.mul_zero, Nat.zero_add, Nat.mul_one]
    · show k2_pay5 (xblk11 V c ⟨0, hn⟩) (k2_pay2 (F := Ideal)) (ix2 (0 : Fin 1) h) = _
      refine (pay2_5_apply (xblk11 V c ⟨0, hn⟩) (k2_pay2 (F := Ideal)) h).trans ?_
      rw [pay2_2_apply, zero_add, blk11_sum V c ⟨0, hn⟩ h (fun z => z * z)]
      simp only [Nat.mul_zero, Nat.zero_add, Nat.mul_one]
  | n + 1, hn => by
    obtain ⟨ih1, ih2⟩ := acc11_apply c h n (Nat.lt_of_succ_lt hn)
    have hsplit : 5000 * (n + 1 + 1) = 5000 * (n + 1) + 5000 := by omega
    constructor
    · show k2_pay4 (xblk11 V c ⟨n + 1, hn⟩) (sacc11 V c n (Nat.lt_of_succ_lt hn)).1 (ix2 (0 : Fin 1) h) = _
      refine (pay2_4_apply (xblk11 V c ⟨n + 1, hn⟩) (sacc11 V c n (Nat.lt_of_succ_lt hn)).1 h).trans ?_
      rw [ih1, blk11_sum V c ⟨n + 1, hn⟩ h (fun z => z), hsplit, Finset.sum_range_add]
    · show k2_pay5 (xblk11 V c ⟨n + 1, hn⟩) (sacc11 V c n (Nat.lt_of_succ_lt hn)).2 (ix2 (0 : Fin 1) h) = _
      refine (pay2_5_apply (xblk11 V c ⟨n + 1, hn⟩) (sacc11 V c n (Nat.lt_of_succ_lt hn)).2 h).trans ?_
      rw [ih2, blk11_sum V c ⟨n + 1, hn⟩ h (fun z => z * z), hsplit, Finset.sum_range_add]

theorem acc11_last (c : Dev nD) (h : Fin 128) :
    out11_1 V c t11_9 (ix2 (0 : Fin 1) h) = ∑ n : Fin 50000, xarr11 V c (ix2 n h)
    ∧ out11_2 V c t11_9 (ix2 (0 : Fin 1) h) = ∑ n : Fin 50000, xarr11 V c (ix2 n h) * xarr11 V c (ix2 n h) := by
  obtain ⟨e1, e2⟩ := acc11_apply V c h 9 t11_9.isLt
  have hcol : ∀ n : Fin 50000, col11 V c h n.val = xarr11 V c (ix2 n h) := fun n => by
    unfold col11; rw [dif_pos n.isLt]
  constructor
  · show (sacc11 V c 9 t11_9.isLt).1 (ix2 (0 : Fin 1) h) = _
    rw [e1, show 5000 * (9 + 1) = 50000 from by norm_num, ← Fin.sum_univ_eq_sum_range (fun r => col11 V c h r) 50000]
    exact Finset.sum_congr rfl fun n _ => hcol n
  · show (sacc11 V c 9 t11_9.isLt).2 (ix2 (0 : Fin 1) h) = _
    rw [e2, show 5000 * (9 + 1) = 50000 from by norm_num, ← Fin.sum_univ_eq_sum_range (fun r => col11 V c h r * col11 V c h r) 50000]
    exact Finset.sum_congr rfl fun n _ => by rw [hcol n]

theorem flushed11_1 (c : Dev nD) (t : Fin cfg11.N) (hf : (cfg11.win 1).flush t = true) :
    (dat11 (F := Ideal) V c).flushed 1 t = ((cfg11.win 1).blk t).view.read (Elt Ideal) (out11_1 V c t11_9) := by
  have hN : cfg11.N = 10 := N_11
  have h9 : t.val = 9 := by have := (flush11_1 t).mp hf; have := t.isLt; omega
  obtain rfl : t = t11_9 := Fin.ext h9
  show (cfg11.win 1).cut (grid11.coords t11_9) ((dat11 V c).after 1 t11_9) = _
  rw [after11_1]
  have hz' : (fun a => win11_1.index t11_9 a * main_v185_0.ty.shape.size a) = fun _ => 0 := funext fun a => by fin_cases a <;> decide
  exact (Memref.read_access_unit_zero (Elt Ideal) main_v185_0 hz' (fun a => by rw [congrFun hz' a]; simp) (out11_1 V c t11_9)).symm

theorem flushed11_2 (c : Dev nD) (t : Fin cfg11.N) (hf : (cfg11.win 2).flush t = true) :
    (dat11 (F := Ideal) V c).flushed 2 t = ((cfg11.win 2).blk t).view.read (Elt Ideal) (out11_2 V c t11_9) := by
  have hN : cfg11.N = 10 := N_11
  have h9 : t.val = 9 := by have := (flush11_2 t).mp hf; have := t.isLt; omega
  obtain rfl : t = t11_9 := Fin.ext h9
  show (cfg11.win 2).cut (grid11.coords t11_9) ((dat11 V c).after 2 t11_9) = _
  rw [after11_2]
  have hz' : (fun a => win11_2.index t11_9 a * main_v185_1.ty.shape.size a) = fun _ => 0 := funext fun a => by fin_cases a <;> decide
  exact (Memref.read_access_unit_zero (Elt Ideal) main_v185_1 hz' (fun a => by rw [congrFun hz' a]; simp) (out11_2 V c t11_9)).symm

theorem final11_1 (c : Dev nD) : (dat11 (F := Ideal) V c).arrAt 1 cfg11.N = out11_1 V c t11_9 :=
  (dat11 V c).arrAt_eq_of_cover 1 (out11_1 V c t11_9) (flushed11_1 V c) fun i =>
    ⟨t11_9, (flush11_1 t11_9).mpr rfl, by
      show i ∈ ((View.whole main_v185_0).slice (win11_1.rect t11_9)).set
      rw [View.set_slice_whole, Rect.mem_set_unit]
      intro a
      have h0 : (i 0 : Nat) < 1 := (i 0).isLt
      have h1 : (i 1 : Nat) < 128 := (i 1).isLt
      match a with
      | ⟨0, _⟩ =>
        show win11_1.index t11_9 0 * win11_1.size 0 ≤ (i 0 : Nat) ∧ (i 0 : Nat) < win11_1.index t11_9 0 * win11_1.size 0 + win11_1.xsize (grid11.coords t11_9) 0
        rw [show win11_1.index t11_9 0 * win11_1.size 0 = 0 from by decide +kernel, show win11_1.xsize (grid11.coords t11_9) 0 = 1 from by decide +kernel]; omega
      | ⟨1, _⟩ =>
        show win11_1.index t11_9 1 * win11_1.size 1 ≤ (i 1 : Nat) ∧ (i 1 : Nat) < win11_1.index t11_9 1 * win11_1.size 1 + win11_1.xsize (grid11.coords t11_9) 1
        rw [show win11_1.index t11_9 1 * win11_1.size 1 = 0 from by decide +kernel, show win11_1.xsize (grid11.coords t11_9) 1 = 128 from by decide +kernel]; omega⟩

theorem final11_2 (c : Dev nD) : (dat11 (F := Ideal) V c).arrAt 2 cfg11.N = out11_2 V c t11_9 :=
  (dat11 V c).arrAt_eq_of_cover 2 (out11_2 V c t11_9) (flushed11_2 V c) fun i =>
    ⟨t11_9, (flush11_2 t11_9).mpr rfl, by
      show i ∈ ((View.whole main_v185_1).slice (win11_2.rect t11_9)).set
      rw [View.set_slice_whole, Rect.mem_set_unit]
      intro a
      have h0 : (i 0 : Nat) < 1 := (i 0).isLt
      have h1 : (i 1 : Nat) < 128 := (i 1).isLt
      match a with
      | ⟨0, _⟩ =>
        show win11_2.index t11_9 0 * win11_2.size 0 ≤ (i 0 : Nat) ∧ (i 0 : Nat) < win11_2.index t11_9 0 * win11_2.size 0 + win11_2.xsize (grid11.coords t11_9) 0
        rw [show win11_2.index t11_9 0 * win11_2.size 0 = 0 from by decide +kernel, show win11_2.xsize (grid11.coords t11_9) 0 = 1 from by decide +kernel]; omega
      | ⟨1, _⟩ =>
        show win11_2.index t11_9 1 * win11_2.size 1 ≤ (i 1 : Nat) ∧ (i 1 : Nat) < win11_2.index t11_9 1 * win11_2.size 1 + win11_2.xsize (grid11.coords t11_9) 1
        rw [show win11_2.index t11_9 1 * win11_2.size 1 = 0 from by decide +kernel, show win11_2.xsize (grid11.coords t11_9) 1 = 128 from by decide +kernel]; omega⟩

theorem value11 (c : Dev nD) (h : Fin 128) :
    ((dat11 (F := Ideal) V c).arrAt 1 cfg11.N : Vec Ideal S1x128 .f32) (ix2 (0 : Fin 1) h) = ∑ n : Fin 50000, xarr11 V c (ix2 n h)
    ∧ ((dat11 (F := Ideal) V c).arrAt 2 cfg11.N : Vec Ideal S1x128 .f32) (ix2 (0 : Fin 1) h) = ∑ n : Fin 50000, xarr11 V c (ix2 n h) * xarr11 V c (ix2 n h) := by
  rw [final11_1 V c, final11_2 V c]
  exact acc11_last V c h

end Cert.KernelIdeal.HandValue
-- ==== Proof.Val12.lean ====
import proofs.«402767_j7713761264261_1_alg».proof.Proof.Reg12
import proofs.«402767_j7713761264261_1_alg».proof.Proof.Val3
import proofs.«402767_j7713761264261_1_alg».proof.Proof.BnRelu

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

abbrev agg12 (c : Dev nD) : S50000x128.Idx → EReal := V c main_v184
abbrev scale12 (c : Dev nD) : S1x128.Idx → EReal := V c main_v198
abbrev shift12 (c : Dev nD) : S1x128.Idx → EReal := V c main_v203

theorem idx_facts12 : ∀ t : Fin cfg12.N, win12_0.index t (0 : Fin 2) = win12_3.index t (0 : Fin 2)
    ∧ win12_0.index t (1 : Fin 2) = win12_3.index t (1 : Fin 2)
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

theorem flushed12_eq (c : Dev nD) (t : Fin cfg12.N) :
    (dat12 (F := Ideal) V c).flushed 3 t
      = ((cfg12.win 3).blk t).view.read (Elt Ideal) (bnRelu (V c main_v184) (V c main_v198) (V c main_v203)) := by
  show (cfg12.win 3).cut (grid12.coords t) ((dat12 V c).after 3 t) = _
  rw [after12_3]
  unfold out3_3
  rw [View.canon_unit_zero hz]
  simp only [View.ld_unit_zero (S := S5000x128) hz, View.ld_unit_zero (S := S1x128) hz]
  obtain ⟨e0, e1, e2, e3, e4, e5, e6, e7⟩ := idx_facts12 t
  funext j
  obtain ⟨p, h, rfl⟩ : ∃ (p : Fin 5000) (h : Fin 128), j = ix2 p h := ⟨j 0, j 1, eq_ix2 j⟩
  show k3_pay1 (iblk12 V c 0 t) (iblk12 V c 1 t) (iblk12 V c 2 t) (ix2 p h)
    = bnRelu (V c main_v184) (V c main_v198) (V c main_v203) (((cfg12.win 3).blk t).view.emb (ix2 p h))
  refine (pay3_apply _ _ _ p h).trans ?_
  refine Eq.trans ?_ (bnRelu_at _ _ _ _ h ?_).symm
  · show max (agg12 V c (((cfg12.win 0).blk t).view.emb (ix2 p h)) * scale12 V c (((cfg12.win 1).blk t).view.emb (ix2 0 h))
          + shift12 V c (((cfg12.win 2).blk t).view.emb (ix2 0 h))) 0
        = max (agg12 V c (((cfg12.win 3).blk t).view.emb (ix2 p h)) * scale12 V c (ix2 0 h) + shift12 V c (ix2 0 h)) 0
    have h0 : ((cfg12.win 0).blk t).view.emb (ix2 p h) = ((cfg12.win 3).blk t).view.emb (ix2 p h) := by
      funext a; apply Fin.ext
      match a with
      | ⟨0, _⟩ => show win12_0.index t (0 : Fin 2) * 5000 + 1 * p.val = win12_3.index t (0 : Fin 2) * 5000 + 1 * p.val; omega
      | ⟨1, _⟩ => show win12_0.index t (1 : Fin 2) * 128 + 1 * h.val = win12_3.index t (1 : Fin 2) * 128 + 1 * h.val; omega
    have h1 : ((cfg12.win 1).blk t).view.emb (ix2 0 h) = ix2 0 h := by
      funext a; apply Fin.ext
      match a with
      | ⟨0, _⟩ => show win12_1.index t (0 : Fin 2) * 1 + 1 * 0 = 0; omega
      | ⟨1, _⟩ => show win12_1.index t (1 : Fin 2) * 128 + 1 * h.val = h.val; omega
    have h2 : ((cfg12.win 2).blk t).view.emb (ix2 0 h) = ix2 0 h := by
      funext a; apply Fin.ext
      match a with
      | ⟨0, _⟩ => show win12_2.index t (0 : Fin 2) * 1 + 1 * 0 = 0; omega
      | ⟨1, _⟩ => show win12_2.index t (1 : Fin 2) * 128 + 1 * h.val = h.val; omega
    rw [h0, h1, h2]
  · show win12_3.index t (1 : Fin 2) * 128 + 1 * h.val = h.val
    omega

theorem mem_blk12 (t : Fin cfg12.N) (i : S50000x128.Idx) :
    i ∈ ((cfg12.win 3).blk t).view.set ↔ ∀ a : Fin 2, win12_3.index t a * S5000x128.size a ≤ (i a).val ∧ (i a).val < win12_3.index t a * S5000x128.size a + S5000x128.size a := by
  show i ∈ ((View.whole main_v204).slice (win12_3.rect t)).set ↔ _
  rw [View.set_slice_whole, Rect.mem_set_unit]
  exact Iff.rfl

theorem cover12 (i : S50000x128.Idx) : ∃ t : Fin cfg12.N, (cfg12.win 3).flush t = true ∧ i ∈ ((cfg12.win 3).blk t).view.set := by
  have hi0 : (i 0).val < 50000 := (i 0).isLt
  have hi1 : (i 1).val < 128 := (i 1).isLt
  have hN : cfg12.N = 10 := N_12
  let t : Fin cfg12.N := ⟨(i 0).val / 5000, by rw [hN]; omega⟩
  obtain ⟨-, -, -, -, -, -, e6, e7⟩ := idx_facts12 t
  have e6' : win12_3.index t (0 : Fin 2) = (i 0).val / 5000 := e6
  refine ⟨t, flush12_3 t, ?_⟩
  rw [mem_blk12]
  intro a
  match a with
  | ⟨0, _⟩ => show win12_3.index t (0 : Fin 2) * 5000 ≤ (i 0).val ∧ (i 0).val < win12_3.index t (0 : Fin 2) * 5000 + 5000; omega
  | ⟨1, _⟩ => show win12_3.index t (1 : Fin 2) * 128 ≤ (i 1).val ∧ (i 1).val < win12_3.index t (1 : Fin 2) * 128 + 128; omega

theorem value12 (c : Dev nD) :
    ((dat12 (F := Ideal) V c).arrAt (3 : Fin 4) cfg12.N : S50000x128.Idx → EReal)
      = bnRelu (V c main_v184) (V c main_v198) (V c main_v203) :=
  (dat12 (F := Ideal) V c).arrAt_eq_of_cover 3 (bnRelu (V c main_v184) (V c main_v198) (V c main_v203))
    (fun t _ => flushed12_eq V c t) cover12

end Cert.KernelIdeal.HandValue
-- ==== Proof.KChain3.lean ====
import proofs.«402767_j7713761264261_1_alg».proof.Proof.KChain2
import proofs.«402767_j7713761264261_1_alg».proof.Proof.KLayer3
import proofs.«402767_j7713761264261_1_alg».proof.Proof.Val10
import proofs.«402767_j7713761264261_1_alg».proof.Proof.Val11
import proofs.«402767_j7713761264261_1_alg».proof.Proof.Val12

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! # The kernel program's run, read back: graph-convolution layer 3

From the features `kx3` and the weight matrix `kw3` the previous layer left: the transform `x · W`, the
propagation along the edges (the edge arrays are those of the head, carried unchanged), the column sums of the
propagated array and of its squares and the normalised and rectified features `kx4`. -/

variable (m : (ℓ : Loc nD τ sig) → Buf (Elt Ideal) ℓ)

/-! ## The transform -/

/-- The transformed features after the layer's transform region. -/
abbrev kh3 (c : Dev nD) : Vec Ideal S50000x128 .f32 := W24 m c main_v166

/-- The features are carried unchanged across the stretch that slices the weight matrix. -/
theorem kx3_at23 (c : Dev nD) : W23 m c main_v163 = kx3 m c :=
  W23_of m c main_v163 (by decide)

/-- Entry `(n, h)`: row `n` of the features against column `h` of the weight matrix. -/
theorem kh3_eq (c : Dev nD) :
    kh3 m c = fun i => ∑ k : Fin 128, kx3 m c (ix2 (i 0) k) * kw3 m c (ix2 k (i 1)) := by
  show W24 m c main_v166 = _
  rw [W24_at_main_v166 m c]
  refine (value10 (atTc (W23 m)) c).trans ?_
  have ex : xarr10 (atTc (W23 m)) c = kx3 m c := kx3_at23 m c
  rw [ex]

/-! ## The propagation -/

/-- The propagated array the statistics region reads. -/
abbrev kagg3 (c : Dev nD) : Vec Ideal S50000x128 .f32 := W25 m c main_v184

theorem kagg3_eq (c : Dev nD) :
    kagg3 m c = aggF3 (kh3 m c) (ksrc m c) (knorm m c) (kdst m c) (m ((c : Thread nD τ).loc main_arg5)) := by
  show StableHlo.after hostOps11 (W24 m c) (Proc.devRef .tc main_v184) = _
  rw [after11_v184 (W24 m c), W24_keep5 m c main_v12 (by decide), W24_keep5 m c main_v40 (by decide),
    W24_keep5 m c main_v15 (by decide), W24_keep0 m c main_arg5 (by decide)]

/-! ## The column sums -/

/-- The column sums of the propagated array and of its squares, after the statistics region. -/
abbrev ks3 (c : Dev nD) : Vec Ideal S1x128 .f32 := W26 m c main_v185_0
abbrev kq3 (c : Dev nD) : Vec Ideal S1x128 .f32 := W26 m c main_v185_1

theorem ks3_lane (c : Dev nD) (h : Fin 128) :
    ks3 m c (ix2 (0 : Fin 1) h) = ∑ n : Fin 50000, kagg3 m c (ix2 n h) := by
  show (W26 m c main_v185_0 : Vec Ideal S1x128 .f32) (ix2 (0 : Fin 1) h) = _
  rw [W26_at_main_v185_0 m c]
  exact (value11 (atTc (W25 m)) c h).1

theorem kq3_lane (c : Dev nD) (h : Fin 128) :
    kq3 m c (ix2 (0 : Fin 1) h) = ∑ n : Fin 50000, kagg3 m c (ix2 n h) * kagg3 m c (ix2 n h) := by
  show (W26 m c main_v185_1 : Vec Ideal S1x128 .f32) (ix2 (0 : Fin 1) h) = _
  rw [W26_at_main_v185_1 m c]
  exact (value11 (atTc (W25 m)) c h).2

/-! ## The normalisation and the rectifier -/

/-- The next layer's features, after the apply region. -/
abbrev kx4 (c : Dev nD) : Vec Ideal S50000x128 .f32 := W28 m c main_v204

/-- The propagated array is carried unchanged from the statistics region's entry to the apply region's. -/
theorem kagg3_at27 (c : Dev nD) : W27 m c main_v184 = kagg3 m c :=
  (W27_of m c main_v184 (by decide)).trans (W26_of m c main_v184 (by decide))

theorem kx4_eq (c : Dev nD) :
    kx4 m c = bnRelu (kagg3 m c)
      (scaleF3 (ks3 m c) (kq3 m c) (m ((c : Thread nD τ).loc main_arg6)))
      (shiftF3 (ks3 m c) (kq3 m c) (m ((c : Thread nD τ).loc main_arg6)) (m ((c : Thread nD τ).loc main_arg7))) := by
  show W28 m c main_v204 = _
  rw [W28_at_main_v204 m c]
  refine (value12 (atTc (W27 m)) c).trans ?_
  have ea : atTc (W27 m) c main_v184 = kagg3 m c := kagg3_at27 m c
  have es : atTc (W27 m) c main_v198 = scaleF3 (ks3 m c) (kq3 m c) (m ((c : Thread nD τ).loc main_arg6)) := by
    show StableHlo.after hostOps12 (W26 m c) (Proc.devRef .tc main_v198) = _
    rw [after12_v198 (W26 m c), W26_keep0 m c main_arg6 (by decide)]
  have eh : atTc (W27 m) c main_v203
      = shiftF3 (ks3 m c) (kq3 m c) (m ((c : Thread nD τ).loc main_arg6)) (m ((c : Thread nD τ).loc main_arg7)) := by
    show StableHlo.after hostOps12 (W26 m c) (Proc.devRef .tc main_v203) = _
    rw [after12_v203 (W26 m c), W26_keep0 m c main_arg6 (by decide), W26_keep0 m c main_arg7 (by decide)]
  rw [ea, es, eh]

end Cert.KernelIdeal.HandValue
-- ==== Proof.AsmLayer3.lean ====
/- Layer 3 of the network, kernel program against reference: from the two programs' agreement on the layer's input
   features, on the edge arrays and on the layer's weight matrix, to their agreement on the layer's output features,
   every entry of which is a real. The kernel program's chain through the layer and the reference's three stage
   functions are joined by the layer step; the parameter rows are the same slices of the same arguments. -/
import proofs.«402767_j7713761264261_1_alg».proof.Proof.AsmLayerCore
import proofs.«402767_j7713761264261_1_alg».proof.Proof.KChain3

set_option maxRecDepth 16384

noncomputable section

namespace Cert.Bridge

open Idealize.ShloMosaic Idealize.ShloMosaic.TcCoe Idealize.ShloMosaic.ValueIdx Idealize.ShloMosaic.StableHlo Idealize.SL.Sem
open Cert.KernelIdeal Cert.KernelIdeal.Gen Cert.KernelIdeal.HandValue
open scoped BigOperators

/-- Row 3 of a per-layer parameter, flattened, is the reference's row 3 of it: the same slice, the same reshape. -/
theorem row3_eq (p : BufTy.Contents (Elt Ideal) ⟨S4x128, .f32⟩) :
    shapeCast Cert.ReferenceIdeal.S128 (prow3 (F := Ideal) p) Cert.ReferenceIdeal.Facts₀.shapeCasts_S1x128_S128
      = Cert.ReferenceIdeal.HandRun.row3F (F := Ideal) p := rfl

/-- Every entry of row 3 of a parameter is an entry of the parameter. -/
theorem prow3_real (p : S4x128.Idx → EReal) (hp : ∀ i, ∃ r : ℝ, p i = r) (i : S1x128.Idx) :
    ∃ r : ℝ, prow3 (F := Ideal) p i = r := by
  unfold prow3 extractStridedSlice
  exact hp _

variable (m : (ℓ : Loc nD τ sig) → Buf (Elt Ideal) ℓ) (c : Dev nD)
variable (V0' : Valuation Cert.ReferenceIdeal.τ Cert.ReferenceIdeal.sig (Elt Ideal))

/-- LAYER 3. The two programs agree on the features entering the layer (real), on the edge sources, destinations
    and weights (the weights real), and on the layer's weight matrix; the four parameter arguments agree and are
    real. Then they agree on the features leaving the layer, and those are real. -/
theorem step3
    (hx : kx3 m c = Cert.ReferenceIdeal.HandRun.res_x3 V0' ∧ ∀ i, ∃ r : ℝ, kx3 m c i = r)
    (hedge : ksrc m c = Cert.ReferenceIdeal.HandRun.res_src V0' ∧ kdst m c = Cert.ReferenceIdeal.HandRun.res_dst V0'
      ∧ knorm m c = Cert.ReferenceIdeal.HandRun.res_norm V0' ∧ ∀ i, ∃ r : ℝ, knorm m c i = r)
    (hw : kw3 m c = Cert.ReferenceIdeal.HandRun.W3F (V0' (Proc.devRef .tc Cert.ReferenceIdeal.main_arg4)))
    (hpar : V0' (Proc.devRef .tc Cert.ReferenceIdeal.main_arg4) = m ((c : Thread nD τ).loc main_arg4)
      ∧ V0' (Proc.devRef .tc Cert.ReferenceIdeal.main_arg5) = m ((c : Thread nD τ).loc main_arg5)
      ∧ V0' (Proc.devRef .tc Cert.ReferenceIdeal.main_arg6) = m ((c : Thread nD τ).loc main_arg6)
      ∧ V0' (Proc.devRef .tc Cert.ReferenceIdeal.main_arg7) = m ((c : Thread nD τ).loc main_arg7))
    (hfin : (∀ i : S4x128x128.Idx, ∃ r : ℝ, m ((c : Thread nD τ).loc main_arg4) i = (r : EReal))
      ∧ (∀ i : S4x128.Idx, ∃ r : ℝ, m ((c : Thread nD τ).loc main_arg5) i = (r : EReal))
      ∧ (∀ i : S4x128.Idx, ∃ r : ℝ, m ((c : Thread nD τ).loc main_arg6) i = (r : EReal))
      ∧ (∀ i : S4x128.Idx, ∃ r : ℝ, m ((c : Thread nD τ).loc main_arg7) i = (r : EReal))) :
    kx4 m c = Cert.ReferenceIdeal.HandRun.res_x4 V0' ∧ ∀ i, ∃ r : ℝ, kx4 m c i = r := by
  obtain ⟨hx1, hxr⟩ := hx
  obtain ⟨hs, hd, hn, hnr⟩ := hedge
  obtain ⟨hp4, hp5, hp6, hp7⟩ := hpar
  obtain ⟨hf4, hf5, hf6, hf7⟩ := hfin
  -- the weight matrix is a slice of the stacked weights, reshaped: its entries are entries of the argument
  have hwr : ∀ i, ∃ r : ℝ, kw3 m c i = r := fun i => by
    rw [hw, hp4]
    unfold Cert.ReferenceIdeal.HandRun.W3F shapeCast extractStridedSlice
    exact hf4 _
  obtain ⟨e, hr⟩ := layer_step (kx3 m c) (kw3 m c) (kh3 m c) (kagg3 m c) (kx4 m c) (ksrc m c) (kdst m c) (knorm m c)
    (ks3 m c) (kq3 m c) (prow3 (m ((c : Thread nD τ).loc main_arg5))) (prow3 (m ((c : Thread nD τ).loc main_arg6)))
    (prow3 (m ((c : Thread nD τ).loc main_arg7)))
    (kh3_eq m c) (kagg3_eq m c) (ks3_lane m c) (kq3_lane m c) (kx4_eq m c) hxr hwr hnr
    (prow3_real _ hf5) (prow3_real _ hf6) (prow3_real _ hf7)
  refine ⟨e.trans ?_, hr⟩
  rw [row3_eq, row3_eq, row3_eq, hx1, hw, hs, hd, hn, ← hp5, ← hp6, ← hp7]
  rfl

end Cert.Bridge
-- ==== Proof.KTail.lean ====
import proofs.«402767_j7713761264261_1_alg».proof.Proof.Gen.KernelIdeal.Launch
import proofs.«402767_j7713761264261_1_alg».proof.Proof.LibBatchNorm
import Idealize.ShloMosaic.Lib.StableHlo.Run
import Idealize.ShloMosaic.Lib.ValueIdx
import Idealize.ShloMosaic.Lib.IdealHost

noncomputable section

namespace Cert.KernelIdeal.HandValue

open Cert.KernelIdeal Cert.KernelIdeal.Gen
open Idealize.ShloMosaic Idealize.ShloMosaic.TcCoe Idealize.ShloMosaic.ValueIdx Idealize.SL.Sem
open scoped BigOperators

def batchColF (batch : IVec S50000 32) : IVec S50000x1 32 :=
  broadcastInDim S50000x1 ![0] bcast_S50000_S50000x1_0 batch

def poolSumF (x : Vec Ideal S50000x128 .f32) (batch : IVec S50000 32) : Vec Ideal S512x128 .f32 :=
  Host.scatterAdd (F := Ideal) scatter_S512x128_S50000x1_S50000x128_1_0_0_1
    (broadcastInDim S512x128 ![] bcast_S_S512x128 (constant (F := Ideal) S_ .f32 0x00000000#32))
    (batchColF batch) x

def countF (batch : IVec S50000 32) : Vec Ideal S512 .f32 :=
  Host.scatterAdd (F := Ideal) scatter_S512_S50000x1_S50000_n_0_0_1
    (broadcastInDim S512 ![] bcast_S_S512 (constant (F := Ideal) S_ .f32 0x00000000#32))
    (batchColF batch)
    (broadcastInDim S50000 ![] bcast_S_S50000 (constant (F := Ideal) S_ .f32 0x3F800000#32))

def denomF (batch : IVec S50000 32) : Vec Ideal S512x128 .f32 :=
  broadcastInDim S512x128 ![0, 1] bcast_S512x1_S512x128_0_1
    (broadcastInDim S512x1 ![0] bcast_S512_S512x1_0
      (maximumf (countF batch) (broadcastInDim S512 ![] bcast_S_S512 (constant (F := Ideal) S_ .f32 0x3F800000#32))))

def poolF (x : Vec Ideal S50000x128 .f32) (batch : IVec S50000 32) : Vec Ideal S512x128 .f32 :=
  Host.divf (F := Ideal) (φ := .f32) (poolSumF x batch) (denomF batch)

def row128F (v : Vec Ideal S128 .f32) : Vec Ideal S1x128 .f32 :=
  broadcastInDim S1x128 ![1] bcast_S128_S1x128_1 v

def row1F (v : Vec Ideal S1 .f32) : Vec Ideal S1x1 .f32 :=
  broadcastInDim S1x1 ![1] bcast_S1_S1x1_1 v

section Results

variable (V : Valuation τ sig (Elt Ideal))

theorem tail_v216 :
    (StableHlo.after (hostOps13 (F := Ideal)) V (Proc.devRef .tc main_v216) : Vec Ideal S512x128 .f32)
      = poolF (V (Proc.devRef .tc main_v204)) (V (Proc.devRef .tc main_arg2)) := by
  after_results; rfl

theorem tail_v217 :
    (StableHlo.after (hostOps13 (F := Ideal)) V (Proc.devRef .tc main_v217) : Vec Ideal S1x128 .f32)
      = row128F (V (Proc.devRef .tc main_arg8)) := by
  after_results; rfl

theorem tail_v218 :
    (StableHlo.after (hostOps13 (F := Ideal)) V (Proc.devRef .tc main_v218) : Vec Ideal S1x128 .f32)
      = row128F (V (Proc.devRef .tc main_arg9)) := by
  after_results; rfl

theorem tail_v219 :
    (StableHlo.after (hostOps13 (F := Ideal)) V (Proc.devRef .tc main_v219) : Vec Ideal S1x128 .f32)
      = row128F (V (Proc.devRef .tc main_arg11)) := by
  after_results; rfl

theorem tail_v220 :
    (StableHlo.after (hostOps13 (F := Ideal)) V (Proc.devRef .tc main_v220) : Vec Ideal S1x1 .f32)
      = row1F (V (Proc.devRef .tc main_arg13)) := by
  after_results; rfl

end Results

theorem row128F_apply (v : Vec Ideal S128 .f32) (h : Fin 128) : row128F v (ix2 0 h) = v (ix1 h) :=
  congrArg v (funext fun a => by match a with | ⟨0, _⟩ => rfl)

theorem row1F_apply (v : Vec Ideal S1 .f32) : row1F v (ix2 0 0) = v (ix1 0) :=
  congrArg v (funext fun a => by match a with | ⟨0, _⟩ => rfl)

theorem poolF_apply (x : Vec Ideal S50000x128 .f32) (batch : IVec S50000 32) (i : S512x128.Idx) :
    poolF x batch i = Ideal.div (poolSumF x batch i) (denomF batch i) := by
  unfold poolF
  exact hostDivf_apply (φ := .f32) (poolSumF x batch) (denomF batch) i

theorem poolSumF_apply (x : Vec Ideal S50000x128 .f32) (batch : IVec S50000 32) (i : S512x128.Idx) :
    poolSumF x batch i = Ideal.ofBits .f32 0x00000000#32
      + ∑ j ∈ Finset.univ.filter (fun j => scatter_S512x128_S50000x1_S50000x128_1_0_0_1.resultIdx? j (batchColF batch) = some i), x j := by rfl

theorem countF_apply (batch : IVec S50000 32) (g : S512.Idx) :
    countF batch g = Ideal.ofBits .f32 0x00000000#32
      + ∑ j ∈ Finset.univ.filter (fun j => scatter_S512_S50000x1_S50000_n_0_0_1.resultIdx? j (batchColF batch) = some g),
          Ideal.ofBits .f32 0x3F800000#32 := by rfl

theorem ofBits_zero_f32 : Ideal.ofBits .f32 0x00000000#32 = ((0 : ℝ) : EReal) := by
  simp [Ideal.ofBits, Ideal.ieee]

theorem real_nonneg_finset_sum {ι : Type*} (s : Finset ι) (f : ι → EReal)
    (h : ∀ i ∈ s, ∃ r : ℝ, 0 ≤ r ∧ f i = r) : ∃ r : ℝ, 0 ≤ r ∧ ∑ i ∈ s, f i = r := by
  classical
  induction s using Finset.induction_on with
  | empty => exact ⟨0, le_rfl, by simp⟩
  | insert a s ha ih =>
    obtain ⟨r, hr0, hr⟩ := ih fun i hi => h i (Finset.mem_insert_of_mem hi)
    obtain ⟨q, hq0, hq⟩ := h a (Finset.mem_insert_self a s)
    exact ⟨q + r, add_nonneg hq0 hr0, by rw [Finset.sum_insert ha, hq, hr, EReal.coe_add]⟩

theorem countF_real (batch : IVec S50000 32) (g : S512.Idx) : ∃ r : ℝ, 0 ≤ r ∧ countF batch g = r := by
  obtain ⟨r, hr0, hr⟩ := real_nonneg_finset_sum
    (Finset.univ.filter (fun j => scatter_S512_S50000x1_S50000_n_0_0_1.resultIdx? j (batchColF batch) = some g))
    (fun _ => Ideal.ofBits .f32 0x3F800000#32) (fun _ _ => ⟨1, zero_le_one, by rw [Ideal.ofBits_one_f32]; rfl⟩)
  exact ⟨r, hr0, by rw [countF_apply, hr, ofBits_zero_f32, ← EReal.coe_add, zero_add]⟩

theorem denomF_real (batch : IVec S50000 32) (i : S512x128.Idx) : ∃ r : ℝ, r ≠ 0 ∧ denomF batch i = r := by
  have key : ∀ g : S512.Idx, ∃ r : ℝ, r ≠ 0 ∧ max (countF batch g) (Ideal.ofBits .f32 0x3F800000#32) = r := fun g => by
    obtain ⟨c, hc0, hc⟩ := countF_real batch g
    refine ⟨max c 1, ne_of_gt (lt_of_lt_of_le zero_lt_one (le_max_right c 1)), ?_⟩
    rw [hc, Ideal.ofBits_one_f32, Cert.HandMath.coe_max]; rfl
  exact key _

theorem poolSumF_real (x : Vec Ideal S50000x128 .f32) (batch : IVec S50000 32)
    (hx : ∀ j, ∃ r : ℝ, x j = (r : EReal)) (i : S512x128.Idx) : ∃ r : ℝ, poolSumF x batch i = (r : EReal) := by
  rw [poolSumF_apply, ofBits_zero_f32]
  exact Cert.HandMath.real_add ⟨0, rfl⟩ (Cert.HandMath.real_finset_sum _ _ fun j _ => hx j)

theorem poolF_real (x : Vec Ideal S50000x128 .f32) (batch : IVec S50000 32)
    (hx : ∀ j, ∃ r : ℝ, x j = (r : EReal)) (i : S512x128.Idx) : ∃ r : ℝ, poolF x batch i = (r : EReal) := by
  rw [poolF_apply]
  exact Cert.HandMath.real_div (poolSumF_real x batch hx i) (denomF_real batch i)

end Cert.KernelIdeal.HandValue
end
-- ==== Proof.Val13Spec.lean ====
import proofs.«402767_j7713761264261_1_alg».proof.Proof.Gen.KernelIdeal.Skeleton
import Idealize.ShloMosaic.Lib.ValueLayout
import Idealize.ShloMosaic.PureOps.Ideal.Laws

noncomputable section

namespace Cert.KernelIdeal.HandValue

open Idealize.ShloMosaic Idealize.ShloMosaic.ValueIdx
open Cert.KernelIdeal.Gen

def mean13 (x : S512x128.Idx → EReal) (h : Fin 128) : EReal :=
  Ideal.div (∑ n : Fin 512, x (ix2 n h)) (Ideal.ofBits .f32 0x44000000#32)

def dev13 (x : S512x128.Idx → EReal) (n : Fin 512) (h : Fin 128) : EReal := x (ix2 n h) - mean13 x h

def var13 (x : S512x128.Idx → EReal) (h : Fin 128) : EReal :=
  Ideal.div (∑ n : Fin 512, dev13 x n h * dev13 x n h) (Ideal.ofBits .f32 0x44000000#32)

def scale13 (x : S512x128.Idx → EReal) (g : S1x128.Idx → EReal) (h : Fin 128) : EReal :=
  g (ix2 (0 : Fin 1) h) * Ideal.rsqrt (var13 x h + Ideal.ofBits .f32 0x3727C5AC#32)

def norm13 (x : S512x128.Idx → EReal) (g b : S1x128.Idx → EReal) (n : Fin 512) (h : Fin 128) : EReal :=
  dev13 x n h * scale13 x g h + b (ix2 (0 : Fin 1) h)

def hid13 (x : S512x128.Idx → EReal) (g b : S1x128.Idx → EReal) (w1 : S128x128.Idx → EReal) (b1 : S1x128.Idx → EReal)
    (n : Fin 512) (k : Fin 128) : EReal :=
  max ((∑ h : Fin 128, norm13 x g b n h * w1 (ix2 h k)) + b1 (ix2 (0 : Fin 1) k)) (Ideal.ofBits .f32 0x00000000#32)

def head13 (x : S512x128.Idx → EReal) (g b : S1x128.Idx → EReal) (w1 : S128x128.Idx → EReal) (b1 : S1x128.Idx → EReal)
    (w2 : S128x1.Idx → EReal) (b2 : S1x1.Idx → EReal) (n : Fin 512) : EReal :=
  (∑ k : Fin 128, hid13 x g b w1 b1 n k * w2 (ix2 k (0 : Fin 1))) + b2 (ix2 (0 : Fin 1) (0 : Fin 1))

def G13 (x : S512x128.Idx → EReal) (g b : S1x128.Idx → EReal) (w1 : S128x128.Idx → EReal) (b1 : S1x128.Idx → EReal)
    (w2 : S128x1.Idx → EReal) (b2 : S1x1.Idx → EReal) : S512x1.Idx → EReal :=
  fun i => head13 x g b w1 b1 w2 b2 (i 0)

theorem colsum13_apply (v : FVec Ideal S512x128 .f32) (hφ : FTy.f32 = FTy.f32 ∨ FTy.f32 = FTy.bf16)
    (hacc : (0x00000000#32 : BitVec 32) = 0x00000000#32) (u : Fin 1) (h : Fin 128) :
    shapeCast S1x128 (multiReduction .add [0] S128 v 0x00000000#32 reduces_S512x128_S128 hφ hacc) shapeCasts_S128_S1x128 (ix2 u h)
      = ∑ n : Fin 512, v (ix2 n h) := by
  refine (shapeCast_a_1a_apply _ _ u h).trans
    ((Ideal.multiReduction_add_single v 0x00000000#32 reduces_S512x128_S128 hφ hacc (ix1 h)).trans ?_)
  refine Finset.sum_congr rfl fun n _ => congrArg v (funext fun a => Fin.ext ?_)
  match a with
  | ⟨0, _⟩ => rfl
  | ⟨1, _⟩ => rfl

def colsums13 (v : S512x128.Idx → EReal) : S1x128.Idx → EReal := fun j => ∑ n : Fin 512, v (ix2 n (j 1))

theorem colsums13_apply (v : S512x128.Idx → EReal) (u : Fin 1) (h : Fin 128) :
    colsums13 v (ix2 u h) = ∑ n : Fin 512, v (ix2 n h) := rfl

theorem colsum13_fun (v : FVec Ideal S512x128 .f32) (hφ : FTy.f32 = FTy.f32 ∨ FTy.f32 = FTy.bf16)
    (hacc : (0x00000000#32 : BitVec 32) = 0x00000000#32) :
    shapeCast S1x128 (multiReduction .add [0] S128 v 0x00000000#32 reduces_S512x128_S128 hφ hacc) shapeCasts_S128_S1x128
      = colsums13 v := by
  funext j
  obtain ⟨u, h, rfl⟩ : ∃ (u : Fin 1) (h : Fin 128), j = ix2 u h := ⟨j 0, j 1, eq_ix2 j⟩
  exact colsum13_apply v hφ hacc u h

theorem scalarWord13 (φ : FTy) (b : BitVec φ.bits) : Scalar.ofBits (F := Ideal) φ b = Ideal.ofBits φ b := rfl

theorem rsqrt13_apply {s : Shape} {φ : FTy} (a : FVec Ideal s φ) (i : s.Idx) : rsqrt a i = Ideal.rsqrt (a i) := rfl

theorem matmulA13_apply (a : FVec Ideal S512x128 .bf16) (b : FVec Ideal S128x128 .bf16) (n : Fin 512) (k : Fin 128) :
    matmul dot_S512x128_S128x128_S512x128_1_0_0_1_n_n none a b (constant (F := Ideal) S512x128 .f32 0x00000000#32) (ix2 n k)
      = ∑ h : Fin 128, a (ix2 n h) * b (ix2 h k) := by
  show FloatOps.matmul _ none a b _ (ix2 n k) = _
  rw [Ideal.matmul_constant_zero_apply,
    ← Equiv.sum_comp (contrEquiv1 dot_S512x128_S128x128_S512x128_1_0_0_1_n_n 128 rfl rfl).symm]
  refine Finset.sum_congr rfl fun h _ => ?_
  have c2 := contrEquiv1_symm_val dot_S512x128_S128x128_S512x128_1_0_0_1_n_n 128 rfl rfl h
  have l2 : dot_S512x128_S128x128_S512x128_1_0_0_1_n_n.lhsIdx (ix2 n k) ((contrEquiv1 _ 128 rfl rfl).symm h) = ix2 n h := by
    funext ax; apply Fin.ext
    match ax with
    | ⟨0, _⟩ => simp [DotDims.lhsIdx, dot_S512x128_S128x128_S512x128_1_0_0_1_n_n]; rfl
    | ⟨1, _⟩ => simp [DotDims.lhsIdx, dot_S512x128_S128x128_S512x128_1_0_0_1_n_n]; exact c2
  have r2 : dot_S512x128_S128x128_S512x128_1_0_0_1_n_n.rhsIdx (ix2 n k) ((contrEquiv1 _ 128 rfl rfl).symm h) = ix2 h k := by
    funext ax; apply Fin.ext
    match ax with
    | ⟨0, _⟩ => simp [DotDims.rhsIdx, dot_S512x128_S128x128_S512x128_1_0_0_1_n_n]; exact c2
    | ⟨1, _⟩ => simp [DotDims.rhsIdx, dot_S512x128_S128x128_S512x128_1_0_0_1_n_n]; rfl
  rw [l2, r2]

theorem matmulB13_apply (a : FVec Ideal S512x128 .bf16) (b : FVec Ideal S128x1 .bf16) (n : Fin 512) (z : Fin 1) :
    matmul dot_S512x128_S128x1_S512x1_1_0_0_1_n_n none a b (constant (F := Ideal) S512x1 .f32 0x00000000#32) (ix2 n z)
      = ∑ k : Fin 128, a (ix2 n k) * b (ix2 k z) := by
  show FloatOps.matmul _ none a b _ (ix2 n z) = _
  rw [Ideal.matmul_constant_zero_apply,
    ← Equiv.sum_comp (contrEquiv1 dot_S512x128_S128x1_S512x1_1_0_0_1_n_n 128 rfl rfl).symm]
  refine Finset.sum_congr rfl fun k _ => ?_
  have c2 := contrEquiv1_symm_val dot_S512x128_S128x1_S512x1_1_0_0_1_n_n 128 rfl rfl k
  have l2 : dot_S512x128_S128x1_S512x1_1_0_0_1_n_n.lhsIdx (ix2 n z) ((contrEquiv1 _ 128 rfl rfl).symm k) = ix2 n k := by
    funext ax; apply Fin.ext
    match ax with
    | ⟨0, _⟩ => simp [DotDims.lhsIdx, dot_S512x128_S128x1_S512x1_1_0_0_1_n_n]; rfl
    | ⟨1, _⟩ => simp [DotDims.lhsIdx, dot_S512x128_S128x1_S512x1_1_0_0_1_n_n]; exact c2
  have r2 : dot_S512x128_S128x1_S512x1_1_0_0_1_n_n.rhsIdx (ix2 n z) ((contrEquiv1 _ 128 rfl rfl).symm k) = ix2 k z := by
    funext ax; apply Fin.ext
    match ax with
    | ⟨0, _⟩ => simp [DotDims.rhsIdx, dot_S512x128_S128x1_S512x1_1_0_0_1_n_n]; exact c2
    | ⟨1, _⟩ => simp [DotDims.rhsIdx, dot_S512x128_S128x1_S512x1_1_0_0_1_n_n]; try rfl
  rw [l2, r2]

set_option maxHeartbeats 1000000 in
theorem pay13_apply (x0 : Vec Ideal S512x128 .f32) (x1 x2 : Vec Ideal S1x128 .f32) (x3 : Vec Ideal S128x128 .f32)
    (x4 : Vec Ideal S1x128 .f32) (x5 : Vec Ideal S128x1 .f32) (x6 : Vec Ideal S1x1 .f32) (n : Fin 512) (z : Fin 1) :
    k13_pay1 (k13_pay2 x0 x1 x2 x3 x4 x5) x6 (ix2 n z) = head13 x0 x1 x2 x3 x4 x5 x6 n := by
  obtain rfl : z = 0 := Subsingleton.elim _ _
  unfold k13_pay1 k13_pay2
  dsimp only
  rw [shapeCast_self x0, colsum13_fun, colsum13_fun]
  simp only [addf_apply, mulf_apply, subf_apply, divf_apply, maximumf_apply, truncf_apply, broadcast_apply, rsqrt13_apply,
    scalarWord13, shapeCast_self, broadcastTo_1b_ab_apply, colsums13_apply, matmulA13_apply, matmulB13_apply]
  simp only [head13, hid13, norm13, scale13, var13, dev13, mean13]

theorem pay13_eq (x0 : Vec Ideal S512x128 .f32) (x1 x2 : Vec Ideal S1x128 .f32) (x3 : Vec Ideal S128x128 .f32)
    (x4 : Vec Ideal S1x128 .f32) (x5 : Vec Ideal S128x1 .f32) (x6 : Vec Ideal S1x1 .f32) :
    k13_pay1 (k13_pay2 x0 x1 x2 x3 x4 x5) x6 = G13 x0 x1 x2 x3 x4 x5 x6 := by
  funext i
  obtain ⟨n, z, rfl⟩ : ∃ (n : Fin 512) (z : Fin 1), i = ix2 n z := ⟨i 0, i 1, eq_ix2 i⟩
  exact pay13_apply x0 x1 x2 x3 x4 x5 x6 n z

end Cert.KernelIdeal.HandValue

end
-- ==== Proof.Val13.lean ====
import proofs.«402767_j7713761264261_1_alg».proof.Proof.Reg13
import proofs.«402767_j7713761264261_1_alg».proof.Proof.Val13Spec
import Idealize.ShloMosaic.Lib.Pipeline.Value

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal.Gen Cert.KernelIdeal.Hand

variable (V : (c : Dev nD) → (b : Ref sig .tc) → Buf (Elt Ideal) ((c : Thread nD τ).loc b))

theorem zeroOff13 : (![0, 0] : Fin 2 → Nat) = fun _ => 0 := funext fun a => by fin_cases a <;> rfl

theorem out13_7_eq (x0 : Vec Ideal S512x128 .f32) (x1 x2 : Vec Ideal S1x128 .f32) (x3 : Vec Ideal S128x128 .f32)
    (x4 : Vec Ideal S1x128 .f32) (x5 : Vec Ideal S128x1 .f32) (x6 : Vec Ideal S1x1 .f32) :
    out13_7 x0 x1 x2 x3 x4 x5 x6 = G13 x0 x1 x2 x3 x4 x5 x6 := by
  unfold out13_7
  rw [View.canon_unit_zero zeroOff13]
  simp only [View.ld_unit_zero (S := S512x128) zeroOff13, View.ld_unit_zero (S := S1x128) zeroOff13,
    View.ld_unit_zero (S := S128x128) zeroOff13, View.ld_unit_zero (S := S128x1) zeroOff13,
    View.ld_unit_zero (S := S1x1) zeroOff13]
  exact pay13_eq x0 x1 x2 x3 x4 x5 x6

theorem iblk13_0_eq (c : Dev nD) (t : Fin cfg13.N) : iblk13 V c 0 t = V c (Pipeline.arrRef spec13 0) := by
  obtain rfl := fin_N13 t
  have hz : (fun a => win13_0.index t13_0 a * main_v216.ty.shape.size a) = fun _ => 0 :=
    funext fun a => by fin_cases a <;> decide
  exact Memref.read_access_unit_zero (Elt Ideal) main_v216 hz (fun a => by rw [congrFun hz a]; simp) (V c main_v216)

theorem iblk13_1_eq (c : Dev nD) (t : Fin cfg13.N) : iblk13 V c 1 t = V c (Pipeline.arrRef spec13 1) := by
  obtain rfl := fin_N13 t
  have hz : (fun a => win13_1.index t13_0 a * main_v217.ty.shape.size a) = fun _ => 0 :=
    funext fun a => by fin_cases a <;> decide
  exact Memref.read_access_unit_zero (Elt Ideal) main_v217 hz (fun a => by rw [congrFun hz a]; simp) (V c main_v217)

theorem iblk13_2_eq (c : Dev nD) (t : Fin cfg13.N) : iblk13 V c 2 t = V c (Pipeline.arrRef spec13 2) := by
  obtain rfl := fin_N13 t
  have hz : (fun a => win13_2.index t13_0 a * main_v218.ty.shape.size a) = fun _ => 0 :=
    funext fun a => by fin_cases a <;> decide
  exact Memref.read_access_unit_zero (Elt Ideal) main_v218 hz (fun a => by rw [congrFun hz a]; simp) (V c main_v218)

theorem iblk13_3_eq (c : Dev nD) (t : Fin cfg13.N) : iblk13 V c 3 t = V c (Pipeline.arrRef spec13 3) := by
  obtain rfl := fin_N13 t
  have hz : (fun a => win13_3.index t13_0 a * main_arg10.ty.shape.size a) = fun _ => 0 :=
    funext fun a => by fin_cases a <;> decide
  exact Memref.read_access_unit_zero (Elt Ideal) main_arg10 hz (fun a => by rw [congrFun hz a]; simp) (V c main_arg10)

theorem iblk13_4_eq (c : Dev nD) (t : Fin cfg13.N) : iblk13 V c 4 t = V c (Pipeline.arrRef spec13 4) := by
  obtain rfl := fin_N13 t
  have hz : (fun a => win13_4.index t13_0 a * main_v219.ty.shape.size a) = fun _ => 0 :=
    funext fun a => by fin_cases a <;> decide
  exact Memref.read_access_unit_zero (Elt Ideal) main_v219 hz (fun a => by rw [congrFun hz a]; simp) (V c main_v219)

theorem iblk13_5_eq (c : Dev nD) (t : Fin cfg13.N) : iblk13 V c 5 t = V c (Pipeline.arrRef spec13 5) := by
  obtain rfl := fin_N13 t
  have hz : (fun a => win13_5.index t13_0 a * main_arg12.ty.shape.size a) = fun _ => 0 :=
    funext fun a => by fin_cases a <;> decide
  exact Memref.read_access_unit_zero (Elt Ideal) main_arg12 hz (fun a => by rw [congrFun hz a]; simp) (V c main_arg12)

theorem iblk13_6_eq (c : Dev nD) (t : Fin cfg13.N) : iblk13 V c 6 t = V c (Pipeline.arrRef spec13 6) := by
  obtain rfl := fin_N13 t
  have hz : (fun a => win13_6.index t13_0 a * main_v220.ty.shape.size a) = fun _ => 0 :=
    funext fun a => by fin_cases a <;> decide
  exact Memref.read_access_unit_zero (Elt Ideal) main_v220 hz (fun a => by rw [congrFun hz a]; simp) (V c main_v220)

theorem flushed13_7 (c : Dev nD) (t : Fin cfg13.N) :
    (dat13 V c).flushed 7 t = ((cfg13.win 7).blk t).view.read (Elt Ideal) (G13 (V c (Pipeline.arrRef spec13 0)) (V c (Pipeline.arrRef spec13 1)) (V c (Pipeline.arrRef spec13 2)) (V c (Pipeline.arrRef spec13 3)) (V c (Pipeline.arrRef spec13 4)) (V c (Pipeline.arrRef spec13 5)) (V c (Pipeline.arrRef spec13 6))) := by
  show (cfg13.win 7).cut (grid13.coords t) ((dat13 V c).after 7 t) = _
  rw [after13_7, out13_7_eq, iblk13_0_eq, iblk13_1_eq, iblk13_2_eq, iblk13_3_eq, iblk13_4_eq, iblk13_5_eq, iblk13_6_eq]
  obtain rfl := fin_N13 t
  have hz : (fun a => win13_7.index t13_0 a * main_v221.ty.shape.size a) = fun _ => 0 :=
    funext fun a => by fin_cases a <;> decide
  exact (Memref.read_access_unit_zero (Elt Ideal) main_v221 hz (fun a => by rw [congrFun hz a]; simp) _).symm

theorem mem_blk13_7 (t : Fin cfg13.N) (i : S512x1.Idx) :
    i ∈ ((cfg13.win 7).blk t).view.set ↔ ∀ a : Fin 2, win13_7.index t a * S512x1.size a ≤ (i a).val ∧ (i a).val < win13_7.index t a * S512x1.size a + S512x1.size a := by
  show i ∈ ((View.whole main_v221).slice (win13_7.rect t)).set ↔ _
  rw [View.set_slice_whole, Rect.mem_set_unit]
  exact Iff.rfl

theorem covered13_7 (i : S512x1.Idx) : ∃ t : Fin cfg13.N, (cfg13.win 7).flush t = true ∧ i ∈ ((cfg13.win 7).blk t).view.set := by
  refine ⟨t13_0, flush13_7 t13_0, ?_⟩
  rw [mem_blk13_7]
  have h0 : (i 0).val < 512 := (i 0).isLt
  have h1 : (i 1).val < 1 := (i 1).isLt
  have e0 : win13_7.index t13_0 (0 : Fin 2) = 0 := by decide
  have e1 : win13_7.index t13_0 (1 : Fin 2) = 0 := by decide
  intro a
  match a with
  | ⟨0, _⟩ => show win13_7.index t13_0 (0 : Fin 2) * 512 ≤ (i 0).val ∧ (i 0).val < win13_7.index t13_0 (0 : Fin 2) * 512 + 512; omega
  | ⟨1, _⟩ => show win13_7.index t13_0 (1 : Fin 2) * 1 ≤ (i 1).val ∧ (i 1).val < win13_7.index t13_0 (1 : Fin 2) * 1 + 1; omega

theorem value13 (c : Dev nD) :
    (dat13 (F := Ideal) V c).arrAt 7 cfg13.N = G13 (V c (Pipeline.arrRef spec13 0)) (V c (Pipeline.arrRef spec13 1)) (V c (Pipeline.arrRef spec13 2)) (V c (Pipeline.arrRef spec13 3)) (V c (Pipeline.arrRef spec13 4)) (V c (Pipeline.arrRef spec13 5)) (V c (Pipeline.arrRef spec13 6)) :=
  (dat13 V c).arrAt_eq_of_cover 7 (G13 (V c (Pipeline.arrRef spec13 0)) (V c (Pipeline.arrRef spec13 1)) (V c (Pipeline.arrRef spec13 2)) (V c (Pipeline.arrRef spec13 3)) (V c (Pipeline.arrRef spec13 4)) (V c (Pipeline.arrRef spec13 5)) (V c (Pipeline.arrRef spec13 6)))
    (fun t _ => flushed13_7 V c t) (covered13_7)

end Cert.KernelIdeal.HandValue

end
-- ==== Proof.KChainTail.lean ====
import proofs.«402767_j7713761264261_1_alg».proof.Proof.Chain
import proofs.«402767_j7713761264261_1_alg».proof.Proof.KCarry
import proofs.«402767_j7713761264261_1_alg».proof.Proof.KTail
import proofs.«402767_j7713761264261_1_alg».proof.Proof.Val13

noncomputable section

open scoped BigOperators

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

abbrev kpooled (c : Dev nD) : Vec Ideal S512x128 .f32 := W29 m c main_v216

theorem kpooled_eq (c : Dev nD) :
    kpooled m c = poolF (W28 m c main_v204) (m ((c : Thread nD τ).loc main_arg2)) := by
  show StableHlo.after hostOps13 (W28 m c) (Proc.devRef .tc main_v216) = _
  rw [tail_v216 (W28 m c), W28_keep0 m c main_arg2 (by decide)]

abbrev kgamma (c : Dev nD) : Vec Ideal S1x128 .f32 := W29 m c main_v217
abbrev kbeta (c : Dev nD) : Vec Ideal S1x128 .f32 := W29 m c main_v218
abbrev kbias1 (c : Dev nD) : Vec Ideal S1x128 .f32 := W29 m c main_v219
abbrev kbias2 (c : Dev nD) : Vec Ideal S1x1 .f32 := W29 m c main_v220

theorem kgamma_eq (c : Dev nD) : kgamma m c = row128F (m ((c : Thread nD τ).loc main_arg8)) := by
  show StableHlo.after hostOps13 (W28 m c) (Proc.devRef .tc main_v217) = _
  rw [tail_v217 (W28 m c), W28_keep0 m c main_arg8 (by decide)]

theorem kbeta_eq (c : Dev nD) : kbeta m c = row128F (m ((c : Thread nD τ).loc main_arg9)) := by
  show StableHlo.after hostOps13 (W28 m c) (Proc.devRef .tc main_v218) = _
  rw [tail_v218 (W28 m c), W28_keep0 m c main_arg9 (by decide)]

theorem kbias1_eq (c : Dev nD) : kbias1 m c = row128F (m ((c : Thread nD τ).loc main_arg11)) := by
  show StableHlo.after hostOps13 (W28 m c) (Proc.devRef .tc main_v219) = _
  rw [tail_v219 (W28 m c), W28_keep0 m c main_arg11 (by decide)]

theorem kbias2_eq (c : Dev nD) : kbias2 m c = row1F (m ((c : Thread nD τ).loc main_arg13)) := by
  show StableHlo.after hostOps13 (W28 m c) (Proc.devRef .tc main_v220) = _
  rw [tail_v220 (W28 m c), W28_keep0 m c main_arg13 (by decide)]

abbrev kout (c : Dev nD) : Vec Ideal S512x1 .f32 := W30 m c main_v221

theorem kout_eq (c : Dev nD) :
    kout m c = G13 (kpooled m c) (kgamma m c) (kbeta m c) (m ((c : Thread nD τ).loc main_arg10)) (kbias1 m c) (m ((c : Thread nD τ).loc main_arg12)) (kbias2 m c) := by
  show W30 m c main_v221 = _
  rw [W30_at_main_v221 m c]
  refine (value13 (atTc (W29 m)) c).trans ?_
  have e0 : atTc (W29 m) c (Pipeline.arrRef spec13 0) = kpooled m c := rfl
  have e1 : atTc (W29 m) c (Pipeline.arrRef spec13 1) = kgamma m c := rfl
  have e2 : atTc (W29 m) c (Pipeline.arrRef spec13 2) = kbeta m c := rfl
  have e3 : atTc (W29 m) c (Pipeline.arrRef spec13 3) = m ((c : Thread nD τ).loc main_arg10) :=
    W29_keep0 m c main_arg10 (by decide)
  have e4 : atTc (W29 m) c (Pipeline.arrRef spec13 4) = kbias1 m c := rfl
  have e5 : atTc (W29 m) c (Pipeline.arrRef spec13 5) = m ((c : Thread nD τ).loc main_arg12) :=
    W29_keep0 m c main_arg12 (by decide)
  have e6 : atTc (W29 m) c (Pipeline.arrRef spec13 6) = kbias2 m c := rfl
  rw [e0, e1, e2, e3, e4, e5, e6]

theorem kout_val (c : Dev nD) :
    kout m c = G13 (poolF (W28 m c main_v204) (m ((c : Thread nD τ).loc main_arg2)))
      (row128F (m ((c : Thread nD τ).loc main_arg8))) (row128F (m ((c : Thread nD τ).loc main_arg9))) (m ((c : Thread nD τ).loc main_arg10))
      (row128F (m ((c : Thread nD τ).loc main_arg11))) (m ((c : Thread nD τ).loc main_arg12)) (row1F (m ((c : Thread nD τ).loc main_arg13))) := by
  rw [kout_eq, kpooled_eq, kgamma_eq, kbeta_eq, kbias1_eq, kbias2_eq]

end Cert.KernelIdeal.HandValue

end
-- ==== Proof.BridgeHead.lean ====
import proofs.«402767_j7713761264261_1_alg».proof.Proof.RefStages
import proofs.«402767_j7713761264261_1_alg».proof.Proof.Val13Spec
import proofs.«402767_j7713761264261_1_alg».proof.Proof.KTail
import proofs.«402767_j7713761264261_1_alg».proof.Proof.LibBatchNorm

noncomputable section

namespace Cert.Bridge

open Idealize.ShloMosaic Idealize.ShloMosaic.ValueIdx
open Cert.ReferenceIdeal Cert.ReferenceIdeal.Gen Cert.ReferenceIdeal.HandRun
open Cert.KernelIdeal.HandValue (G13 head13 hid13 norm13 scale13 var13 dev13 mean13 poolF poolSumF denomF countF batchColF row128F row1F row128F_apply row1F_apply)

set_option quotPrecheck false in
local notation "𝕀[" S "]" => (Shape.Idx S → EReal)

theorem head_row128_apply (v : 𝕀[S128]) (u : Fin 1) (h : Fin 128) :
    broadcastInDim S1x128 ![1] bcast_S128_S1x128_1 v (ix2 u h) = v (ix1 h) :=
  broadcastInDim_apply _ _ v (ix2 u h) (ix1 h) fun a => by
    match a with
    | ⟨0, _⟩ => rfl

theorem head_down512_apply (r : 𝕀[S1x128]) (n : Fin 512) (h : Fin 128) :
    broadcastInDim S512x128 ![0, 1] bcast_S1x128_S512x128_0_1 r (ix2 n h) = r (ix2 (0 : Fin 1) h) :=
  broadcastInDim_apply _ _ r (ix2 n h) (ix2 (0 : Fin 1) h) fun a => by
    match a with
    | ⟨0, _⟩ => rfl
    | ⟨1, _⟩ => rfl

theorem rows512_apply (v : 𝕀[S128]) (n : Fin 512) (h : Fin 128) : rows512 (F := Ideal) v (ix2 n h) = v (ix1 h) := by
  unfold rows512
  rw [head_down512_apply, head_row128_apply]

theorem colsum512_apply (a : 𝕀[S512x128]) (h : Fin 128) :
    Host.reduceAdd (F := Ideal) (φ := .f32) a (constant (F := Ideal) S_ .f32 0x00000000#32) reducesTo_S512x128_S128_d0 h_S_ (ix1 h)
      = ∑ n : Fin 512, a (ix2 n h) := by
  rw [hostReduceAdd_apply, Ideal.hostReduceAdd_single reducesTo_S512x128_S128_d0 (by decide) a _ (ix1 h), constant_apply,
    Ideal.ofBits_zero_f32, zero_add]
  refine Finset.sum_congr rfl fun n _ => congrArg a (funext fun ax => Fin.ext ?_)
  match ax with
  | ⟨0, _⟩ => rfl
  | ⟨1, _⟩ => rfl

theorem mean512_apply (a : 𝕀[S512x128]) (h : Fin 128) :
    mean512 (F := Ideal) a (ix1 h) = Ideal.div (∑ n : Fin 512, a (ix2 n h)) (Ideal.ofBits .f32 0x44000000#32) := by
  unfold mean512
  rw [hostDivf_apply, colsum512_apply, broadcastInDim_scalar_apply, constant_apply]

theorem dev512_apply (a : 𝕀[S512x128]) (n : Fin 512) (h : Fin 128) :
    dev512 (F := Ideal) a (ix2 n h)
      = a (ix2 n h) - Ideal.div (∑ n' : Fin 512, a (ix2 n' h)) (Ideal.ofBits .f32 0x44000000#32) := by
  unfold dev512
  rw [subf_apply, head_down512_apply, hostDivf_apply, head_row128_apply, colsum512_apply, broadcastInDim_scalar_apply, constant_apply]

theorem varDen512_apply : varDen512 (F := Ideal) ix0 = Ideal.ofBits .f32 0x44000000#32 :=
  Cert.HandMath.sub_toInt_zero _

theorem head_guard512 : FloatOps.cmpf (F := Ideal) .ogt (Ideal.ofBits .f32 0x44000000#32) (Ideal.ofBits .f32 0x00000000#32) = 1#1 := by
  obtain ⟨r, -, hr, e⟩ := Cert.HandMath.count_512
  rw [Ideal.ofBits_zero_f32]
  exact Cert.HandMath.cmp_ogt_zero_of_pos ⟨r, hr, e⟩

theorem var512_apply (a : 𝕀[S512x128]) (h : Fin 128) :
    var512 (F := Ideal) a (ix1 h)
      = Ideal.div (∑ n : Fin 512, dev512 (F := Ideal) a (ix2 n h) * dev512 (F := Ideal) a (ix2 n h)) (Ideal.ofBits .f32 0x44000000#32) := by
  unfold var512
  rw [select_apply, broadcastInDim_scalar_apply, cmpf_apply, varDen512_apply, constant_apply, head_guard512, select_one,
    hostDivf_apply, colsum512_apply, broadcastInDim_scalar_apply, varDen512_apply]
  rfl

theorem head_hostSqrt_apply {s : Shape} (a : FVec Ideal s .f32) (i : s.Idx) : Host.sqrt a i = Ideal.sqrt (a i) := rfl

theorem fbnF_apply (p : 𝕀[S512x128]) (g bt : 𝕀[S128]) (n : Fin 512) (h : Fin 128) :
    fbnF (F := Ideal) p g bt (ix2 n h)
      = (p (ix2 n h) - mean512 (F := Ideal) p (ix1 h))
          * Ideal.div (g (ix1 h)) (Ideal.sqrt (var512 (F := Ideal) p (ix1 h) + Ideal.ofBits .f32 0x3727C5AC#32))
        + bt (ix1 h) := by
  unfold fbnF
  rw [addf_apply, mulf_apply, subf_apply, rows512_apply, rows512_apply, rows512_apply, hostDivf_apply, head_hostSqrt_apply,
    addf_apply, broadcastInDim_scalar_apply, constant_apply]

theorem head_dotA_apply (a : FVec Ideal S512x128 .f32) (b : FVec Ideal S128x128 .f32) (n : Fin 512) (k : Fin 128) :
    Host.dotGeneral dot_S512x128_S128x128_S512x128_1_0_0_1_n_n none a b (ix2 n k) = ∑ h : Fin 128, a (ix2 n h) * b (ix2 h k) := by
  show FloatOps.dotGeneral _ none _ a b (ix2 n k) = _
  rw [Ideal.dotGeneral_apply, ← Equiv.sum_comp (contrEquiv1 dot_S512x128_S128x128_S512x128_1_0_0_1_n_n 128 rfl rfl).symm]
  refine Finset.sum_congr rfl fun h _ => ?_
  have c2 := contrEquiv1_symm_val dot_S512x128_S128x128_S512x128_1_0_0_1_n_n 128 rfl rfl h
  have l2 : dot_S512x128_S128x128_S512x128_1_0_0_1_n_n.lhsIdx (ix2 n k) ((contrEquiv1 _ 128 rfl rfl).symm h) = ix2 n h := by
    funext ax; apply Fin.ext
    match ax with
    | ⟨0, _⟩ => simp [DotDims.lhsIdx, dot_S512x128_S128x128_S512x128_1_0_0_1_n_n]; rfl
    | ⟨1, _⟩ => simp [DotDims.lhsIdx, dot_S512x128_S128x128_S512x128_1_0_0_1_n_n]; exact c2
  have r2 : dot_S512x128_S128x128_S512x128_1_0_0_1_n_n.rhsIdx (ix2 n k) ((contrEquiv1 _ 128 rfl rfl).symm h) = ix2 h k := by
    funext ax; apply Fin.ext
    match ax with
    | ⟨0, _⟩ => simp [DotDims.rhsIdx, dot_S512x128_S128x128_S512x128_1_0_0_1_n_n]; exact c2
    | ⟨1, _⟩ => simp [DotDims.rhsIdx, dot_S512x128_S128x128_S512x128_1_0_0_1_n_n]; rfl
  rw [l2, r2]

theorem head_dotB_apply (a : FVec Ideal S512x128 .f32) (b : FVec Ideal S128x1 .f32) (n : Fin 512) (z : Fin 1) :
    Host.dotGeneral dot_S512x128_S128x1_S512x1_1_0_0_1_n_n none a b (ix2 n z) = ∑ k : Fin 128, a (ix2 n k) * b (ix2 k z) := by
  show FloatOps.dotGeneral _ none _ a b (ix2 n z) = _
  rw [Ideal.dotGeneral_apply, ← Equiv.sum_comp (contrEquiv1 dot_S512x128_S128x1_S512x1_1_0_0_1_n_n 128 rfl rfl).symm]
  refine Finset.sum_congr rfl fun k _ => ?_
  have c2 := contrEquiv1_symm_val dot_S512x128_S128x1_S512x1_1_0_0_1_n_n 128 rfl rfl k
  have l2 : dot_S512x128_S128x1_S512x1_1_0_0_1_n_n.lhsIdx (ix2 n z) ((contrEquiv1 _ 128 rfl rfl).symm k) = ix2 n k := by
    funext ax; apply Fin.ext
    match ax with
    | ⟨0, _⟩ => simp [DotDims.lhsIdx, dot_S512x128_S128x1_S512x1_1_0_0_1_n_n]; rfl
    | ⟨1, _⟩ => simp [DotDims.lhsIdx, dot_S512x128_S128x1_S512x1_1_0_0_1_n_n]; exact c2
  have r2 : dot_S512x128_S128x1_S512x1_1_0_0_1_n_n.rhsIdx (ix2 n z) ((contrEquiv1 _ 128 rfl rfl).symm k) = ix2 k z := by
    funext ax; apply Fin.ext
    match ax with
    | ⟨0, _⟩ => simp [DotDims.rhsIdx, dot_S512x128_S128x1_S512x1_1_0_0_1_n_n]; exact c2
    | ⟨1, _⟩ => simp [DotDims.rhsIdx, dot_S512x128_S128x1_S512x1_1_0_0_1_n_n]; try rfl
  rw [l2, r2]

theorem hmidF_apply (P : 𝕀[S512x128]) (w1 : 𝕀[S128x128]) (b1 : 𝕀[S128]) (n : Fin 512) (k : Fin 128) :
    hmidF (F := Ideal) P w1 b1 (ix2 n k)
      = max ((∑ h : Fin 128, P (ix2 n h) * w1 (ix2 h k)) + b1 (ix1 k)) (Ideal.ofBits .f32 0x00000000#32) := by
  unfold hmidF
  rw [maximumf_apply, addf_apply, head_dotA_apply, rows512_apply, broadcastInDim_scalar_apply, constant_apply]

theorem head_bias512_apply (b2 : 𝕀[S1]) (n : Fin 512) (z : Fin 1) :
    broadcastInDim S512x1 ![0, 1] bcast_S1x1_S512x1_0_1 (broadcastInDim S1x1 ![1] bcast_S1_S1x1_1 b2) (ix2 n z)
      = b2 (ix1 (0 : Fin 1)) := by
  refine (broadcastInDim_apply _ _ _ (ix2 n z) (ix2 (0 : Fin 1) (0 : Fin 1)) fun a => ?_).trans
    (broadcastInDim_apply _ _ b2 (ix2 (0 : Fin 1) (0 : Fin 1)) (ix1 (0 : Fin 1)) fun a => ?_)
  · match a with
    | ⟨0, _⟩ => rfl
    | ⟨1, _⟩ => rfl
  · match a with
    | ⟨0, _⟩ => rfl

theorem outF_apply (H : 𝕀[S512x128]) (w2 : 𝕀[S128x1]) (b2 : 𝕀[S1]) (n : Fin 512) (z : Fin 1) :
    outF (F := Ideal) H w2 b2 (ix2 n z) = (∑ k : Fin 128, H (ix2 n k) * w2 (ix2 k z)) + b2 (ix1 (0 : Fin 1)) := by
  unfold outF
  rw [addf_apply, head_dotB_apply, head_bias512_apply]

theorem head_norm_eq (p : 𝕀[S512x128]) (g bt : 𝕀[S128]) (G' BT' : 𝕀[S1x128])
    (hG : ∀ h : Fin 128, G' (ix2 (0 : Fin 1) h) = g (ix1 h)) (hBT : ∀ h : Fin 128, BT' (ix2 (0 : Fin 1) h) = bt (ix1 h))
    (hp : ∀ i, ∃ r : ℝ, p i = (r : EReal)) (n : Fin 512) (h : Fin 128) :
    norm13 p G' BT' n h = fbnF (F := Ideal) p g bt (ix2 n h) := by
  rw [fbnF_apply, mean512_apply, var512_apply]
  simp only [dev512_apply]
  unfold norm13 scale13 var13 dev13 mean13
  rw [hG, hBT]
  obtain ⟨r, -, hr, e⟩ := Cert.HandMath.count_512
  exact Cert.HandMath.bn_final _ _ _ _ _
    (Cert.HandMath.centred_var_real (fun n' : Fin 512 => p (ix2 n' h)) _ _ (fun j => hp _)
      (Cert.HandMath.mean_real (fun n' : Fin 512 => p (ix2 n' h)) _ (fun j => hp _) ⟨r, hr.ne', e⟩) ⟨r, hr, e⟩)
    Cert.HandMath.ofBits_f32_eps_pos

theorem head_law_of_rows (p : 𝕀[S512x128]) (g bt : 𝕀[S128]) (w1 : 𝕀[S128x128]) (b1 : 𝕀[S128]) (w2 : 𝕀[S128x1]) (b2 : 𝕀[S1])
    (G' BT' B1' : 𝕀[S1x128]) (B2' : 𝕀[S1x1])
    (hG : ∀ h : Fin 128, G' (ix2 (0 : Fin 1) h) = g (ix1 h)) (hBT : ∀ h : Fin 128, BT' (ix2 (0 : Fin 1) h) = bt (ix1 h))
    (hB1 : ∀ k : Fin 128, B1' (ix2 (0 : Fin 1) k) = b1 (ix1 k)) (hB2 : B2' (ix2 (0 : Fin 1) (0 : Fin 1)) = b2 (ix1 (0 : Fin 1)))
    (hp : ∀ i, ∃ r : ℝ, p i = (r : EReal)) :
    G13 p G' BT' w1 B1' w2 B2' = outF (F := Ideal) (hmidF (F := Ideal) (fbnF (F := Ideal) p g bt) w1 b1) w2 b2 := by
  funext i
  obtain ⟨n, z, rfl⟩ : ∃ (n : Fin 512) (z : Fin 1), i = ix2 n z := ⟨i 0, i 1, eq_ix2 i⟩
  obtain rfl : z = 0 := Subsingleton.elim _ _
  show head13 p G' BT' w1 B1' w2 B2' n = _
  rw [outF_apply]
  simp only [head13, hid13, hmidF_apply, hB1, hB2, head_norm_eq p g bt G' BT' hG hBT hp]

theorem head_law (p : 𝕀[S512x128]) (g bt : 𝕀[S128]) (w1 : 𝕀[S128x128]) (b1 : 𝕀[S128]) (w2 : 𝕀[S128x1]) (b2 : 𝕀[S1])
    (hp : ∀ i, ∃ r : ℝ, p i = (r : EReal)) :
    G13 p (row128F g) (row128F bt) w1 (row128F b1) w2 (row1F b2)
      = outF (F := Ideal) (hmidF (F := Ideal) (fbnF (F := Ideal) p g bt) w1 b1) w2 b2 :=
  head_law_of_rows p g bt w1 b1 w2 b2 _ _ _ _ (row128F_apply g) (row128F_apply bt) (row128F_apply b1) (row1F_apply b2) hp

theorem head_scatterRows_eq : Cert.ReferenceIdeal.scatter_S512x128_S50000x1_S50000x128_1_0_0_1
    = Cert.KernelIdeal.scatter_S512x128_S50000x1_S50000x128_1_0_0_1 := rfl

theorem head_scatterCount_eq : Cert.ReferenceIdeal.scatter_S512_S50000x1_S50000_n_0_0_1
    = Cert.KernelIdeal.scatter_S512_S50000x1_S50000_n_0_0_1 := rfl

set_option maxHeartbeats 400000 in
theorem pooledF_eq_poolF (x : 𝕀[S50000x128]) (bi : Shape.Idx S50000 → BitVec 32) :
    pooledF (F := Ideal) x bi = poolF x bi := by
  unfold pooledF poolF poolSumF denomF countF countsF col50000 batchColF
  rw [head_scatterRows_eq, head_scatterCount_eq]

end Cert.Bridge

end
-- ==== Proof.AsmTail.lean ====
import proofs.«402767_j7713761264261_1_alg».proof.Proof.KChainTail
import proofs.«402767_j7713761264261_1_alg».proof.Proof.BridgeHead
import proofs.«402767_j7713761264261_1_alg».proof.Proof.RefStages

noncomputable section

namespace Cert.Bridge

open Idealize.ShloMosaic Idealize.ShloMosaic.TcCoe Idealize.SL.Sem
open Cert.ReferenceIdeal.HandRun (outF hmidF fbnF pooledF res_x4 res_pooled res_fbn res_hmid res_out result)
open Cert.KernelIdeal.HandValue (kout kout_val poolF poolF_real)

theorem tail (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (hx4 : (Cert.KernelIdeal.Hand.W28 m c Cert.KernelIdeal.main_v204 : Vec Ideal Cert.KernelIdeal.S50000x128 .f32) = res_x4 (F := Ideal) (StableHlo.launchContents m' c))
    (hx4r : ∀ i, ∃ r : ℝ, (Cert.KernelIdeal.Hand.W28 m c Cert.KernelIdeal.main_v204 : Vec Ideal Cert.KernelIdeal.S50000x128 .f32) i = (r : EReal)) :
    kout m c = result (F := Ideal) m' c := by
  refine (kout_val m c).trans ?_
  refine (head_law _ _ _ _ _ _ _ (poolF_real _ _ hx4r)).trans ?_
  rw [← pooledF_eq_poolF]
  have e2 : StableHlo.launchContents m' c (Proc.devRef .tc Cert.ReferenceIdeal.main_arg2) = m ((c.tc : Thread Cert.KernelIdeal.nD Cert.KernelIdeal.τ).loc Cert.KernelIdeal.main_arg2) := h2
  have e8 : StableHlo.launchContents m' c (Proc.devRef .tc Cert.ReferenceIdeal.main_arg8) = m ((c.tc : Thread Cert.KernelIdeal.nD Cert.KernelIdeal.τ).loc Cert.KernelIdeal.main_arg8) := h8
  have e9 : StableHlo.launchContents m' c (Proc.devRef .tc Cert.ReferenceIdeal.main_arg9) = m ((c.tc : Thread Cert.KernelIdeal.nD Cert.KernelIdeal.τ).loc Cert.KernelIdeal.main_arg9) := h9
  have e10 : StableHlo.launchContents m' c (Proc.devRef .tc Cert.ReferenceIdeal.main_arg10) = m ((c.tc : Thread Cert.KernelIdeal.nD Cert.KernelIdeal.τ).loc Cert.KernelIdeal.main_arg10) := h10
  have e11 : StableHlo.launchContents m' c (Proc.devRef .tc Cert.ReferenceIdeal.main_arg11) = m ((c.tc : Thread Cert.KernelIdeal.nD Cert.KernelIdeal.τ).loc Cert.KernelIdeal.main_arg11) := h11
  have e12 : StableHlo.launchContents m' c (Proc.devRef .tc Cert.ReferenceIdeal.main_arg12) = m ((c.tc : Thread Cert.KernelIdeal.nD Cert.KernelIdeal.τ).loc Cert.KernelIdeal.main_arg12) := h12
  have e13 : StableHlo.launchContents m' c (Proc.devRef .tc Cert.ReferenceIdeal.main_arg13) = m ((c.tc : Thread Cert.KernelIdeal.nD Cert.KernelIdeal.τ).loc Cert.KernelIdeal.main_arg13) := h13
  unfold result res_out res_hmid res_fbn res_pooled
  rw [← hx4, e2, e8, e9, e10, e11, e12, e13]

end Cert.Bridge

end
-- ==== Proof.Algebraic.lean ====
import proofs.«402767_j7713761264261_1_alg».proof.Proof.FrameValue
import proofs.«402767_j7713761264261_1_alg».proof.Proof.RefRun
import proofs.«402767_j7713761264261_1_alg».proof.Proof.AsmBase
import proofs.«402767_j7713761264261_1_alg».proof.Proof.AsmLayer0
import proofs.«402767_j7713761264261_1_alg».proof.Proof.AsmLayer1
import proofs.«402767_j7713761264261_1_alg».proof.Proof.AsmLayer2
import proofs.«402767_j7713761264261_1_alg».proof.Proof.AsmLayer3
import proofs.«402767_j7713761264261_1_alg».proof.Proof.AsmTail
import proofs.«402767_j7713761264261_1_alg».proof.Proof.PreFacts

noncomputable section

namespace Cert.Bridge

open Idealize.ShloMosaic Idealize.ShloMosaic.TcCoe Idealize.SL.Sem
open Cert.KernelIdeal.HandValue (kx0 kx1 kx2 kx3 kx4 ksrc kdst knorm kw0 kw1 kw2 kw3 kw1_eq kw2_eq kw3_eq kout)

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.HandRun.result (F := Ideal) m' c = Cert.KernelIdeal.Hand.W30 m c Cert.KernelIdeal.main_v221 := by
  obtain ⟨h0, h1, h2, h3, h4, h5, h6, h7, h8, h9, h10, h11, h12, h13⟩ := hagree
  have bx := base_x0 m m' c hpre h0 h3
  have be := base_edges m m' c h1
  have hw0 := base_w0 m m' c h4
  have hw1 : kw1 m c = Cert.ReferenceIdeal.HandRun.W1F (F := Ideal) (StableHlo.launchContents m' c (Proc.devRef .tc Cert.ReferenceIdeal.main_arg4)) := by
    rw [kw1_eq, w1F_eq]; exact congrArg _ h4.symm
  have hw2 : kw2 m c = Cert.ReferenceIdeal.HandRun.W2F (F := Ideal) (StableHlo.launchContents m' c (Proc.devRef .tc Cert.ReferenceIdeal.main_arg4)) := by
    rw [kw2_eq, w2F_eq]; exact congrArg _ h4.symm
  have hw3 : kw3 m c = Cert.ReferenceIdeal.HandRun.W3F (F := Ideal) (StableHlo.launchContents m' c (Proc.devRef .tc Cert.ReferenceIdeal.main_arg4)) := by
    rw [kw3_eq, w3F_eq]; exact congrArg _ h4.symm
  have hpar : StableHlo.launchContents m' c (Proc.devRef .tc Cert.ReferenceIdeal.main_arg4) = m ((c.tc : Thread Cert.KernelIdeal.nD Cert.KernelIdeal.τ).loc Cert.KernelIdeal.main_arg4)
      ∧ StableHlo.launchContents m' c (Proc.devRef .tc Cert.ReferenceIdeal.main_arg5) = m ((c.tc : Thread Cert.KernelIdeal.nD Cert.KernelIdeal.τ).loc Cert.KernelIdeal.main_arg5)
      ∧ StableHlo.launchContents m' c (Proc.devRef .tc Cert.ReferenceIdeal.main_arg6) = m ((c.tc : Thread Cert.KernelIdeal.nD Cert.KernelIdeal.τ).loc Cert.KernelIdeal.main_arg6)
      ∧ StableHlo.launchContents m' c (Proc.devRef .tc Cert.ReferenceIdeal.main_arg7) = m ((c.tc : Thread Cert.KernelIdeal.nD Cert.KernelIdeal.τ).loc Cert.KernelIdeal.main_arg7) := ⟨h4, h5, h6, h7⟩
  have hfin := And.intro (Cert.HandPre.finite_arg4 (hpre c)) (And.intro (Cert.HandPre.finite_arg5 (hpre c))
    (And.intro (Cert.HandPre.finite_arg6 (hpre c)) (Cert.HandPre.finite_arg7 (hpre c))))
  have s0 := step0 m c (StableHlo.launchContents m' c) bx be hw0 hpar hfin
  have s1 := step1 m c (StableHlo.launchContents m' c) s0 be hw1 hpar hfin
  have s2 := step2 m c (StableHlo.launchContents m' c) s1 be hw2 hpar hfin
  have s3 := step3 m c (StableHlo.launchContents m' c) s2 be hw3 hpar hfin
  exact (tail m m' c h2 h8 h9 h10 h11 h12 h13 s3.1 s3.2).symm

theorem algebraic : Cert.algebraic_KernelIdeal_ReferenceIdeal := by
  intro m ρ m' ρ' hpre hagree
  refine ⟨fun c => Cert.KernelIdeal.Hand.W30 m c Cert.KernelIdeal.main_v221, Cert.KernelIdeal.Hand.run_value (F := Ideal) m ρ, ?_⟩
  exact (θ_run (Cert.ReferenceIdeal.defs (F := Ideal)) _ _).mono
    (fun r h c => ⟨(h c).1.trans (result_eq m m' hpre c (hagree c)), (h c).2⟩)
    (Cert.ReferenceIdeal.HandRun.run (F := Ideal) m' ρ')

end Cert.Bridge

end
-- ==== Proof.lean ====
/- A four-layer graph convolution with batch normalisation: an embedding lookup as one-hot products, per layer a
   product, column sums with sums of squares, and an affine map with a clamp, then a head. Both kernel programs run to
   the end with their arguments kept: each region's arrays leave the buffers and return. The two idealized programs
   agree: in-range indices make the one-hot sum the gathered row, and on reals E[x²] − mean² = E[(x − mean)²] and a
   product with the reciprocal root is the quotient by the root. -/
import proofs.«402767_j7713761264261_1_alg».proof.Defs
import proofs.«402767_j7713761264261_1_alg».proof.Proof.Gen.Kernel
import proofs.«402767_j7713761264261_1_alg».proof.Proof.Gen.KernelIdeal
import proofs.«402767_j7713761264261_1_alg».proof.Proof.Gen.ReferenceIdeal
import proofs.«402767_j7713761264261_1_alg».proof.Proof.Gen.Pre_finite_inputs
import proofs.«402767_j7713761264261_1_alg».proof.Proof.BFrame
import proofs.«402767_j7713761264261_1_alg».proof.Proof.FrameValue
import proofs.«402767_j7713761264261_1_alg».proof.Proof.RefRun
import proofs.«402767_j7713761264261_1_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => (θ_run (Cert.KernelIdeal.defs (F := Ideal)) _ _).mono (fun _ h c => (h c).2) (Cert.KernelIdeal.Hand.run_value (F := Ideal) m ρ),
  fun m ρ _ => (θ_run (Cert.ReferenceIdeal.defs (F := Ideal)) _ _).mono (fun _ h c => (h c).2) (Cert.ReferenceIdeal.HandRun.run (F := Ideal) m ρ),
  trivial,
  Cert.Bridge.algebraic⟩

end Cert.Proof

end
